-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1660) = v0 c
          ∧ r.2.mem ((c.tc : Thread Cert.ReferenceIdeal.nD Cert.ReferenceIdeal.τ).loc Cert.ReferenceIdeal.main_v1659) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x2 : Shape := ⟨2, ![524288, 2]⟩
abbrev S15x2x8x1 : Shape := ⟨4, ![15, 2, 8, 1]⟩
abbrev S15x2x8 : Shape := ⟨3, ![15, 2, 8]⟩
abbrev S15x2x8x8 : Shape := ⟨4, ![15, 2, 8, 8]⟩
abbrev S15x2x1x8 : Shape := ⟨4, ![15, 2, 1, 8]⟩
abbrev S15x2x1 : Shape := ⟨3, ![15, 2, 1]⟩
abbrev S14 : Shape := ⟨1, ![14]⟩
abbrev S_ : Shape := ⟨0, ![]⟩

class Facts : Prop where
  bcast_S_S524288x2 : S_.BroadcastsInDim S524288x2 (![] : Fin 0 → Fin S524288x2.rank)
  reducesTo_S524288x2_S_d0_1 : S524288x2.ReducesTo [0, 1] S_
  h_S_ : 0 < S_.numel
  bcast_S_S15x2x8x1 : S_.BroadcastsInDim S15x2x8x1 (![] : Fin 0 → Fin S15x2x8x1.rank)
  reducesTo_S15x2x8x1_S_d0_1_2_3 : S15x2x8x1.ReducesTo [0, 1, 2, 3] S_
  bcast_S_S15x2x8 : S_.BroadcastsInDim S15x2x8 (![] : Fin 0 → Fin S15x2x8.rank)
  reducesTo_S15x2x8_S_d0_1_2 : S15x2x8.ReducesTo [0, 1, 2] S_
  bcast_S_S15x2x8x8 : S_.BroadcastsInDim S15x2x8x8 (![] : Fin 0 → Fin S15x2x8x8.rank)
  reducesTo_S15x2x8x8_S_d0_1_2_3 : S15x2x8x8.ReducesTo [0, 1, 2, 3] S_
  bcast_S_S15x2x1x8 : S_.BroadcastsInDim S15x2x1x8 (![] : Fin 0 → Fin S15x2x1x8.rank)
  reducesTo_S15x2x1x8_S_d0_1_2_3 : S15x2x1x8.ReducesTo [0, 1, 2, 3] S_
  bcast_S_S15x2x1 : S_.BroadcastsInDim S15x2x1 (![] : Fin 0 → Fin S15x2x1.rank)
  reducesTo_S15x2x1_S_d0_1_2 : S15x2x1.ReducesTo [0, 1, 2] S_

variable [Facts]

def fn_part3 {F : FTy → Type} [FloatOps F] (main_v48 : IVec S_ 1) (main_v49 : FVec F S15x2x1 .f32) (main_v50 : FVec F S15x2x1 .f32) : IVec S_ 1 :=
  let main_v51 : IVec S15x2x1 1 := cmpf .olt main_v49 main_v50
  let main_c_19 : IVec S_ 1 := constantI S_ 1 1#1
  let main_v52 : IVec S_ 1 := (fun x v => Host.reduce IntOp.andi x v reducesTo_S15x2x1_S_d0_1_2 h_S_) main_v51 main_c_19
  let main_v53 : IVec S_ 1 := andi main_v48 main_v52
  main_v53

def fn_part2 {F : FTy → Type} [FloatOps F] (main_arg7 : FVec F S15x2x8x8 .f32) (main_arg8 : FVec F S15x2x8 .f32) (main_arg9 : FVec F S15x2x1x8 .f32) (main_arg10 : FVec F S15x2x1 .f32) (main_v33 : IVec S_ 1) : IVec S_ 1 :=
  let main_v34 : FVec F S15x2x8x8 .f32 := Host.absf main_arg7
  let main_cst_12 : FVec F S_ .f32 := constant S_ .f32 0x7F800000#32
  let main_v35 : FVec F S15x2x8x8 .f32 := broadcastInDim S15x2x8x8 ![] bcast_S_S15x2x8x8 main_cst_12
  let main_v36 : IVec S15x2x8x8 1 := cmpf .olt main_v34 main_v35
  let main_c_13 : IVec S_ 1 := constantI S_ 1 1#1
  let main_v37 : IVec S_ 1 := (fun x v => Host.reduce IntOp.andi x v reducesTo_S15x2x8x8_S_d0_1_2_3 h_S_) main_v36 main_c_13
  let main_v38 : IVec S_ 1 := andi main_v33 main_v37
  let main_v39 : FVec F S15x2x8 .f32 := Host.absf main_arg8
  let main_cst_14 : FVec F S_ .f32 := constant S_ .f32 0x7F800000#32
  let main_v40 : FVec F S15x2x8 .f32 := broadcastInDim S15x2x8 ![] bcast_S_S15x2x8 main_cst_14
  let main_v41 : IVec S15x2x8 1 := cmpf .olt main_v39 main_v40
  let main_c_15 : IVec S_ 1 := constantI S_ 1 1#1
  let main_v42 : IVec S_ 1 := (fun x v => Host.reduce IntOp.andi x v reducesTo_S15x2x8_S_d0_1_2 h_S_) main_v41 main_c_15
  let main_v43 : IVec S_ 1 := andi main_v38 main_v42
  let main_v44 : FVec F S15x2x1x8 .f32 := Host.absf main_arg9
  let main_cst_16 : FVec F S_ .f32 := constant S_ .f32 0x7F800000#32
  let main_v45 : FVec F S15x2x1x8 .f32 := broadcastInDim S15x2x1x8 ![] bcast_S_S15x2x1x8 main_cst_16
  let main_v46 : IVec S15x2x1x8 1 := cmpf .olt main_v44 main_v45
  let main_c_17 : IVec S_ 1 := constantI S_ 1 1#1
  let main_v47 : IVec S_ 1 := (fun x v => Host.reduce IntOp.andi x v reducesTo_S15x2x1x8_S_d0_1_2_3 h_S_) main_v46 main_c_17
  let main_v48 : IVec S_ 1 := andi main_v43 main_v47
  let main_v49 : FVec F S15x2x1 .f32 := Host.absf main_arg10
  let main_cst_18 : FVec F S_ .f32 := constant S_ .f32 0x7F800000#32
  let main_v50 : FVec F S15x2x1 .f32 := broadcastInDim S15x2x1 ![] bcast_S_S15x2x1 main_cst_18
  fn_part3 (F := F) main_v48 main_v49 main_v50

def fn_part1 {F : FTy → Type} [FloatOps F] (main_arg4 : FVec F S15x2x8 .f32) (main_arg5 : FVec F S15x2x8x8 .f32) (main_arg6 : FVec F S15x2x8 .f32) (main_arg7 : FVec F S15x2x8x8 .f32) (main_arg8 : FVec F S15x2x8 .f32) (main_arg9 : FVec F S15x2x1x8 .f32) (main_arg10 : FVec F S15x2x1 .f32) (main_v13 : IVec S_ 1) (main_v16 : IVec S15x2x8x8 1) : IVec S_ 1 :=
  let main_c_5 : IVec S_ 1 := constantI S_ 1 1#1
  let main_v17 : IVec S_ 1 := (fun x v => Host.reduce IntOp.andi x v reducesTo_S15x2x8x8_S_d0_1_2_3 h_S_) main_v16 main_c_5
  let main_v18 : IVec S_ 1 := andi main_v13 main_v17
  let main_v19 : FVec F S15x2x8 .f32 := Host.absf main_arg4
  let main_cst_6 : FVec F S_ .f32 := constant S_ .f32 0x7F800000#32
  let main_v20 : FVec F S15x2x8 .f32 := broadcastInDim S15x2x8 ![] bcast_S_S15x2x8 main_cst_6
  let main_v21 : IVec S15x2x8 1 := cmpf .olt main_v19 main_v20
  let main_c_7 : IVec S_ 1 := constantI S_ 1 1#1
  let main_v22 : IVec S_ 1 := (fun x v => Host.reduce IntOp.andi x v reducesTo_S15x2x8_S_d0_1_2 h_S_) main_v21 main_c_7
  let main_v23 : IVec S_ 1 := andi main_v18 main_v22
  let main_v24 : FVec F S15x2x8x8 .f32 := Host.absf main_arg5
  let main_cst_8 : FVec F S_ .f32 := constant S_ .f32 0x7F800000#32
  let main_v25 : FVec F S15x2x8x8 .f32 := broadcastInDim S15x2x8x8 ![] bcast_S_S15x2x8x8 main_cst_8
  let main_v26 : IVec S15x2x8x8 1 := cmpf .olt main_v24 main_v25
  let main_c_9 : IVec S_ 1 := constantI S_ 1 1#1
  let main_v27 : IVec S_ 1 := (fun x v => Host.reduce IntOp.andi x v reducesTo_S15x2x8x8_S_d0_1_2_3 h_S_) main_v26 main_c_9
  let main_v28 : IVec S_ 1 := andi main_v23 main_v27
  let main_v29 : FVec F S15x2x8 .f32 := Host.absf main_arg6
  let main_cst_10 : FVec F S_ .f32 := constant S_ .f32 0x7F800000#32
  let main_v30 : FVec F S15x2x8 .f32 := broadcastInDim S15x2x8 ![] bcast_S_S15x2x8 main_cst_10
  let main_v31 : IVec S15x2x8 1 := cmpf .olt main_v29 main_v30
  let main_c_11 : IVec S_ 1 := constantI S_ 1 1#1
  let main_v32 : IVec S_ 1 := (fun x v => Host.reduce IntOp.andi x v reducesTo_S15x2x8_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x2 .f32) (main_arg1 : FVec F S15x2x8x1 .f32) (main_arg2 : FVec F S15x2x8 .f32) (main_arg3 : FVec F S15x2x8x8 .f32) (main_arg4 : FVec F S15x2x8 .f32) (main_arg5 : FVec F S15x2x8x8 .f32) (main_arg6 : FVec F S15x2x8 .f32) (main_arg7 : FVec F S15x2x8x8 .f32) (main_arg8 : FVec F S15x2x8 .f32) (main_arg9 : FVec F S15x2x1x8 .f32) (main_arg10 : FVec F S15x2x1 .f32) (main_arg11 : IVec S14 32) : IVec S_ 1 :=
  let main_v0 : FVec F S524288x2 .f32 := Host.absf main_arg0
  let main_cst : FVec F S_ .f32 := constant S_ .f32 0x7F800000#32
  let main_v1 : FVec F S524288x2 .f32 := broadcastInDim S524288x2 ![] bcast_S_S524288x2 main_cst
  let main_v2 : IVec S524288x2 1 := cmpf .olt main_v0 main_v1
  let main_c : IVec S_ 1 := constantI S_ 1 1#1
  let main_v3 : IVec S_ 1 := (fun x v => Host.reduce IntOp.andi x v reducesTo_S524288x2_S_d0_1 h_S_) main_v2 main_c
  let main_v4 : FVec F S15x2x8x1 .f32 := Host.absf main_arg1
  let main_cst_0 : FVec F S_ .f32 := constant S_ .f32 0x7F800000#32
  let main_v5 : FVec F S15x2x8x1 .f32 := broadcastInDim S15x2x8x1 ![] bcast_S_S15x2x8x1 main_cst_0
  let main_v6 : IVec S15x2x8x1 1 := cmpf .olt main_v4 main_v5
  let main_c_1 : IVec S_ 1 := constantI S_ 1 1#1
  let main_v7 : IVec S_ 1 := (fun x v => Host.reduce IntOp.andi x v reducesTo_S15x2x8x1_S_d0_1_2_3 h_S_) main_v6 main_c_1
  let main_v8 : IVec S_ 1 := andi main_v3 main_v7
  let main_v9 : FVec F S15x2x8 .f32 := Host.absf main_arg2
  let main_cst_2 : FVec F S_ .f32 := constant S_ .f32 0x7F800000#32
  let main_v10 : FVec F S15x2x8 .f32 := broadcastInDim S15x2x8 ![] bcast_S_S15x2x8 main_cst_2
  let main_v11 : IVec S15x2x8 1 := cmpf .olt main_v9 main_v10
  let main_c_3 : IVec S_ 1 := constantI S_ 1 1#1
  let main_v12 : IVec S_ 1 := (fun x v => Host.reduce IntOp.andi x v reducesTo_S15x2x8_S_d0_1_2 h_S_) main_v11 main_c_3
  let main_v13 : IVec S_ 1 := andi main_v8 main_v12
  let main_v14 : FVec F S15x2x8x8 .f32 := Host.absf main_arg3
  let main_cst_4 : FVec F S_ .f32 := constant S_ .f32 0x7F800000#32
  let main_v15 : FVec F S15x2x8x8 .f32 := broadcastInDim S15x2x8x8 ![] bcast_S_S15x2x8x8 main_cst_4
  let main_v16 : IVec S15x2x8x8 1 := cmpf .olt main_v14 main_v15
  fn_part1 (F := F) main_arg4 main_arg5 main_arg6 main_arg7 main_arg8 main_arg9 main_arg10 main_v13 main_v16
-- ==== Kernel.lean ====
abbrev S524288x2 : Shape := ⟨2, ![524288, 2]⟩
abbrev S15x2x8x1 : Shape := ⟨4, ![15, 2, 8, 1]⟩
abbrev S15x2x8 : Shape := ⟨3, ![15, 2, 8]⟩
abbrev S15x2x8x8 : Shape := ⟨4, ![15, 2, 8, 8]⟩
abbrev S15x2x1x8 : Shape := ⟨4, ![15, 2, 1, 8]⟩
abbrev S15x2x1 : Shape := ⟨3, ![15, 2, 1]⟩
abbrev S14 : Shape := ⟨1, ![14]⟩
abbrev S2x524288 : Shape := ⟨2, ![2, 524288]⟩
abbrev S1x524288 : Shape := ⟨2, ![1, 524288]⟩
abbrev S2x32768 : Shape := ⟨2, ![2, 32768]⟩
abbrev S1x32768 : Shape := ⟨2, ![1, 32768]⟩
abbrev S1x1x8x1 : Shape := ⟨4, ![1, 1, 8, 1]⟩
abbrev S8x1 : Shape := ⟨2, ![8, 1]⟩
abbrev S1x1x8 : Shape := ⟨3, ![1, 1, 8]⟩
abbrev S8 : Shape := ⟨1, ![8]⟩
abbrev S8x32768 : Shape := ⟨2, ![8, 32768]⟩
abbrev S1x1x8x8 : Shape := ⟨4, ![1, 1, 8, 8]⟩
abbrev S8x8 : Shape := ⟨2, ![8, 8]⟩
abbrev S1x1x1x8 : Shape := ⟨4, ![1, 1, 1, 8]⟩
abbrev S1x8 : Shape := ⟨2, ![1, 8]⟩
abbrev S1x1x1 : Shape := ⟨3, ![1, 1, 1]⟩
abbrev S1 : Shape := ⟨1, ![1]⟩
abbrev S1x1 : Shape := ⟨2, ![1, 1]⟩
abbrev S524288 : Shape := ⟨1, ![524288]⟩

abbrev nBuf : Space → Nat
  | .hbm => 16
  | .vmem => 16
  | .smem => 1
  | _ => 0

abbrev bufTy : (tb : Table) → Fin (tcTables nBuf tb) → BufTy
  | .hbm, ⟨0, _⟩ => ⟨S524288x2, .f32⟩
  | .hbm, ⟨1, _⟩ => ⟨S15x2x8x1, .f32⟩
  | .hbm, ⟨2, _⟩ => ⟨S15x2x8, .f32⟩
  | .hbm, ⟨3, _⟩ => ⟨S15x2x8x8, .f32⟩
  | .hbm, ⟨4, _⟩ => ⟨S15x2x8, .f32⟩
  | .hbm, ⟨5, _⟩ => ⟨S15x2x8x8, .f32⟩
  | .hbm, ⟨6, _⟩ => ⟨S15x2x8, .f32⟩
  | .hbm, ⟨7, _⟩ => ⟨S15x2x8x8, .f32⟩
  | .hbm, ⟨8, _⟩ => ⟨S15x2x8, .f32⟩
  | .hbm, ⟨9, _⟩ => ⟨S15x2x1x8, .f32⟩
  | .hbm, ⟨10, _⟩ => ⟨S15x2x1, .f32⟩
  | .hbm, ⟨11, _⟩ => ⟨S2x524288, .f32⟩
  | .hbm, ⟨12, _⟩ => ⟨S2x524288, .f32⟩
  | .hbm, ⟨13, _⟩ => ⟨S1x524288, .f32⟩
  | .hbm, ⟨14, _⟩ => ⟨S524288x2, .f32⟩
  | .hbm, ⟨15, _⟩ => ⟨S524288, .f32⟩
  | .local _ .vmem, ⟨0, _⟩ => ⟨S2x32768, .f32⟩
  | .local _ .vmem, ⟨1, _⟩ => ⟨S2x32768, .f32⟩
  | .local _ .vmem, ⟨2, _⟩ => ⟨S15x2x8x1, .f32⟩
  | .local _ .vmem, ⟨3, _⟩ => ⟨S15x2x8, .f32⟩
  | .local _ .vmem, ⟨4, _⟩ => ⟨S15x2x8x8, .f32⟩
  | .local _ .vmem, ⟨5, _⟩ => ⟨S15x2x8, .f32⟩
  | .local _ .vmem, ⟨6, _⟩ => ⟨S15x2x8x8, .f32⟩
  | .local _ .vmem, ⟨7, _⟩ => ⟨S15x2x8, .f32⟩
  | .local _ .vmem, ⟨8, _⟩ => ⟨S15x2x8x8, .f32⟩
  | .local _ .vmem, ⟨9, _⟩ => ⟨S15x2x8, .f32⟩
  | .local _ .vmem, ⟨10, _⟩ => ⟨S15x2x1x8, .f32⟩
  | .local _ .vmem, ⟨11, _⟩ => ⟨S15x2x1, .f32⟩
  | .local _ .vmem, ⟨12, _⟩ => ⟨S2x32768, .f32⟩
  | .local _ .vmem, ⟨13, _⟩ => ⟨S2x32768, .f32⟩
  | .local _ .vmem, ⟨14, _⟩ => ⟨S1x32768, .f32⟩
  | .local _ .vmem, ⟨15, _⟩ => ⟨S1x32768, .f32⟩
  | .local _ .smem, ⟨0, _⟩ => ⟨S14, .i32⟩
  | _, _ => ⟨S524288x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev main_arg11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg11.idx], fun | 0 => main_arg11.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x2x8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x2x8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x2x8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x2x8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S15x2x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x2x1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S15x2x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x32768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S524288x2_S2x524288_1_0 : S524288x2.Transposes [1, 0] S2x524288
  inb_S2x32768_S1x32768_0_0 : ∀ a, (![0, 0] : Fin 2 → Nat) a + S1x32768.size a ≤ S2x32768.size a
  h_S1x32768 : 0 < S1x32768.numel
  shapeCasts_S1x32768_S1x32768 : S1x32768.ShapeCasts S1x32768
  inb_S2x32768_S1x32768_1_0 : ∀ a, (![1, 0] : Fin 2 → Nat) a + S1x32768.size a ≤ S2x32768.size a
  inb_S15x2x8x1_S1x1x8x1_0_0_0_0 : ∀ a, (![0, 0, 0, 0] : Fin 4 → Nat) a + S1x1x8x1.size a ≤ S15x2x8x1.size a
  h_S1x1x8x1 : 0 < S1x1x8x1.numel
  shapeCasts_S1x1x8x1_S8x1 : S1x1x8x1.ShapeCasts S8x1
  inb_S15x2x8_S1x1x8_0_0_0 : ∀ a, (![0, 0, 0] : Fin 3 → Nat) a + S1x1x8.size a ≤ S15x2x8.size a
  h_S1x1x8 : 0 < S1x1x8.numel
  shapeCasts_S1x1x8_S8 : S1x1x8.ShapeCasts S8
  broadcasts_S8x1_S8x32768 : S8x1.Broadcasts S8x32768
  broadcasts_S1x32768_S8x32768 : S1x32768.Broadcasts S8x32768
  shapeCasts_S8_S8x1 : S8.ShapeCasts S8x1
  inb_S15x2x8x8_S1x1x8x8_0_0_0_0 : ∀ a, (![0, 0, 0, 0] : Fin 4 → Nat) a + S1x1x8x8.size a ≤ S15x2x8x8.size a
  h_S1x1x8x8 : 0 < S1x1x8x8.numel
  shapeCasts_S1x1x8x8_S8x8 : S1x1x8x8.ShapeCasts S8x8
  inb_S15x2x1x8_S1x1x1x8_0_0_0_0 : ∀ a, (![0, 0, 0, 0] : Fin 4 → Nat) a + S1x1x1x8.size a ≤ S15x2x1x8.size a
  h_S1x1x1x8 : 0 < S1x1x1x8.numel
  shapeCasts_S1x1x1x8_S1x8 : S1x1x1x8.ShapeCasts S1x8
  inb_S15x2x1_S1x1x1_0_0_0 : ∀ a, (![0, 0, 0] : Fin 3 → Nat) a + S1x1x1.size a ≤ S15x2x1.size a
  h_S1x1x1 : 0 < S1x1x1.numel
  shapeCasts_S1x1x1_S1 : S1x1x1.ShapeCasts S1
  shapeCasts_S1_S1x1 : S1.ShapeCasts S1x1
  broadcasts_S1x1_S1x32768 : S1x1.Broadcasts S1x32768
  inb_S15x2x8x1_S1x1x8x1_0_1_0_0 : ∀ a, (![0, 1, 0, 0] : Fin 4 → Nat) a + S1x1x8x1.size a ≤ S15x2x8x1.size a
  inb_S15x2x8_S1x1x8_0_1_0 : ∀ a, (![0, 1, 0] : Fin 3 → Nat) a + S1x1x8.size a ≤ S15x2x8.size a
  inb_S15x2x8x8_S1x1x8x8_0_1_0_0 : ∀ a, (![0, 1, 0, 0] : Fin 4 → Nat) a + S1x1x8x8.size a ≤ S15x2x8x8.size a
  inb_S15x2x1x8_S1x1x1x8_0_1_0_0 : ∀ a, (![0, 1, 0, 0] : Fin 4 → Nat) a + S1x1x1x8.size a ≤ S15x2x1x8.size a
  inb_S15x2x1_S1x1x1_0_1_0 : ∀ a, (![0, 1, 0] : Fin 3 → Nat) a + S1x1x1.size a ≤ S15x2x1.size a
  inb_S14_S1_0 : ∀ a, (![0] : Fin 1 → Nat) a + S1.size a ≤ S14.size a
  numel1_S1 : S1.numel = 1
  inb_S15x2x8x1_S1x1x8x1_1_0_0_0 : ∀ a, (![1, 0, 0, 0] : Fin 4 → Nat) a + S1x1x8x1.size a ≤ S15x2x8x1.size a
  inb_S15x2x8_S1x1x8_1_0_0 : ∀ a, (![1, 0, 0] : Fin 3 → Nat) a + S1x1x8.size a ≤ S15x2x8.size a
  inb_S15x2x8x8_S1x1x8x8_1_0_0_0 : ∀ a, (![1, 0, 0, 0] : Fin 4 → Nat) a + S1x1x8x8.size a ≤ S15x2x8x8.size a
  inb_S15x2x1x8_S1x1x1x8_1_0_0_0 : ∀ a, (![1, 0, 0, 0] : Fin 4 → Nat) a + S1x1x1x8.size a ≤ S15x2x1x8.size a
  inb_S15x2x1_S1x1x1_1_0_0 : ∀ a, (![1, 0, 0] : Fin 3 → Nat) a + S1x1x1.size a ≤ S15x2x1.size a
  inb_S15x2x8x1_S1x1x8x1_1_1_0_0 : ∀ a, (![1, 1, 0, 0] : Fin 4 → Nat) a + S1x1x8x1.size a ≤ S15x2x8x1.size a
  inb_S15x2x8_S1x1x8_1_1_0 : ∀ a, (![1, 1, 0] : Fin 3 → Nat) a + S1x1x8.size a ≤ S15x2x8.size a
  inb_S15x2x8x8_S1x1x8x8_1_1_0_0 : ∀ a, (![1, 1, 0, 0] : Fin 4 → Nat) a + S1x1x8x8.size a ≤ S15x2x8x8.size a
  inb_S15x2x1x8_S1x1x1x8_1_1_0_0 : ∀ a, (![1, 1, 0, 0] : Fin 4 → Nat) a + S1x1x1x8.size a ≤ S15x2x1x8.size a
  inb_S15x2x1_S1x1x1_1_1_0 : ∀ a, (![1, 1, 0] : Fin 3 → Nat) a + S1x1x1.size a ≤ S15x2x1.size a
  inb_S14_S1_1 : ∀ a, (![1] : Fin 1 → Nat) a + S1.size a ≤ S14.size a
  inb_S15x2x8x1_S1x1x8x1_2_0_0_0 : ∀ a, (![2, 0, 0, 0] : Fin 4 → Nat) a + S1x1x8x1.size a ≤ S15x2x8x1.size a
  inb_S15x2x8_S1x1x8_2_0_0 : ∀ a, (![2, 0, 0] : Fin 3 → Nat) a + S1x1x8.size a ≤ S15x2x8.size a
  inb_S15x2x8x8_S1x1x8x8_2_0_0_0 : ∀ a, (![2, 0, 0, 0] : Fin 4 → Nat) a + S1x1x8x8.size a ≤ S15x2x8x8.size a
  inb_S15x2x1x8_S1x1x1x8_2_0_0_0 : ∀ a, (![2, 0, 0, 0] : Fin 4 → Nat) a + S1x1x1x8.size a ≤ S15x2x1x8.size a
  inb_S15x2x1_S1x1x1_2_0_0 : ∀ a, (![2, 0, 0] : Fin 3 → Nat) a + S1x1x1.size a ≤ S15x2x1.size a
  inb_S15x2x8x1_S1x1x8x1_2_1_0_0 : ∀ a, (![2, 1, 0, 0] : Fin 4 → Nat) a + S1x1x8x1.size a ≤ S15x2x8x1.size a
  inb_S15x2x8_S1x1x8_2_1_0 : ∀ a, (![2, 1, 0] : Fin 3 → Nat) a + S1x1x8.size a ≤ S15x2x8.size a
  inb_S15x2x8x8_S1x1x8x8_2_1_0_0 : ∀ a, (![2, 1, 0, 0] : Fin 4 → Nat) a + S1x1x8x8.size a ≤ S15x2x8x8.size a
  inb_S15x2x1x8_S1x1x1x8_2_1_0_0 : ∀ a, (![2, 1, 0, 0] : Fin 4 → Nat) a + S1x1x1x8.size a ≤ S15x2x1x8.size a
  inb_S15x2x1_S1x1x1_2_1_0 : ∀ a, (![2, 1, 0] : Fin 3 → Nat) a + S1x1x1.size a ≤ S15x2x1.size a
  inb_S14_S1_2 : ∀ a, (![2] : Fin 1 → Nat) a + S1.size a ≤ S14.size a
  inb_S15x2x8x1_S1x1x8x1_3_0_0_0 : ∀ a, (![3, 0, 0, 0] : Fin 4 → Nat) a + S1x1x8x1.size a ≤ S15x2x8x1.size a
  inb_S15x2x8_S1x1x8_3_0_0 : ∀ a, (![3, 0, 0] : Fin 3 → Nat) a + S1x1x8.size a ≤ S15x2x8.size a
  inb_S15x2x8x8_S1x1x8x8_3_0_0_0 : ∀ a, (![3, 0, 0, 0] : Fin 4 → Nat) a + S1x1x8x8.size a ≤ S15x2x8x8.size a
  inb_S15x2x1x8_S1x1x1x8_3_0_0_0 : ∀ a, (![3, 0, 0, 0] : Fin 4 → Nat) a + S1x1x1x8.size a ≤ S15x2x1x8.size a
  inb_S15x2x1_S1x1x1_3_0_0 : ∀ a, (![3, 0, 0] : Fin 3 → Nat) a + S1x1x1.size a ≤ S15x2x1.size a
  inb_S15x2x8x1_S1x1x8x1_3_1_0_0 : ∀ a, (![3, 1, 0, 0] : Fin 4 → Nat) a + S1x1x8x1.size a ≤ S15x2x8x1.size a
  inb_S15x2x8_S1x1x8_3_1_0 : ∀ a, (![3, 1, 0] : Fin 3 → Nat) a + S1x1x8.size a ≤ S15x2x8.size a
  inb_S15x2x8x8_S1x1x8x8_3_1_0_0 : ∀ a, (![3, 1, 0, 0] : Fin 4 → Nat) a + S1x1x8x8.size a ≤ S15x2x8x8.size a
  inb_S15x2x1x8_S1x1x1x8_3_1_0_0 : ∀ a, (![3, 1, 0, 0] : Fin 4 → Nat) a + S1x1x1x8.size a ≤ S15x2x1x8.size a
  inb_S15x2x1_S1x1x1_3_1_0 : ∀ a, (![3, 1, 0] : Fin 3 → Nat) a + S1x1x1.size a ≤ S15x2x1.size a
  inb_S14_S1_3 : ∀ a, (![3] : Fin 1 → Nat) a + S1.size a ≤ S14.size a
  inb_S15x2x8x1_S1x1x8x1_4_0_0_0 : ∀ a, (![4, 0, 0, 0] : Fin 4 → Nat) a + S1x1x8x1.size a ≤ S15x2x8x1.size a
  inb_S15x2x8_S1x1x8_4_0_0 : ∀ a, (![4, 0, 0] : Fin 3 → Nat) a + S1x1x8.size a ≤ S15x2x8.size a
  inb_S15x2x8x8_S1x1x8x8_4_0_0_0 : ∀ a, (![4, 0, 0, 0] : Fin 4 → Nat) a + S1x1x8x8.size a ≤ S15x2x8x8.size a
  inb_S15x2x1x8_S1x1x1x8_4_0_0_0 : ∀ a, (![4, 0, 0, 0] : Fin 4 → Nat) a + S1x1x1x8.size a ≤ S15x2x1x8.size a
  inb_S15x2x1_S1x1x1_4_0_0 : ∀ a, (![4, 0, 0] : Fin 3 → Nat) a + S1x1x1.size a ≤ S15x2x1.size a
  inb_S15x2x8x1_S1x1x8x1_4_1_0_0 : ∀ a, (![4, 1, 0, 0] : Fin 4 → Nat) a + S1x1x8x1.size a ≤ S15x2x8x1.size a
  inb_S15x2x8_S1x1x8_4_1_0 : ∀ a, (![4, 1, 0] : Fin 3 → Nat) a + S1x1x8.size a ≤ S15x2x8.size a
  inb_S15x2x8x8_S1x1x8x8_4_1_0_0 : ∀ a, (![4, 1, 0, 0] : Fin 4 → Nat) a + S1x1x8x8.size a ≤ S15x2x8x8.size a
  inb_S15x2x1x8_S1x1x1x8_4_1_0_0 : ∀ a, (![4, 1, 0, 0] : Fin 4 → Nat) a + S1x1x1x8.size a ≤ S15x2x1x8.size a
  inb_S15x2x1_S1x1x1_4_1_0 : ∀ a, (![4, 1, 0] : Fin 3 → Nat) a + S1x1x1.size a ≤ S15x2x1.size a
  inb_S14_S1_4 : ∀ a, (![4] : Fin 1 → Nat) a + S1.size a ≤ S14.size a
  inb_S15x2x8x1_S1x1x8x1_5_0_0_0 : ∀ a, (![5, 0, 0, 0] : Fin 4 → Nat) a + S1x1x8x1.size a ≤ S15x2x8x1.size a
  inb_S15x2x8_S1x1x8_5_0_0 : ∀ a, (![5, 0, 0] : Fin 3 → Nat) a + S1x1x8.size a ≤ S15x2x8.size a
  inb_S15x2x8x8_S1x1x8x8_5_0_0_0 : ∀ a, (![5, 0, 0, 0] : Fin 4 → Nat) a + S1x1x8x8.size a ≤ S15x2x8x8.size a
  inb_S15x2x1x8_S1x1x1x8_5_0_0_0 : ∀ a, (![5, 0, 0, 0] : Fin 4 → Nat) a + S1x1x1x8.size a ≤ S15x2x1x8.size a
  inb_S15x2x1_S1x1x1_5_0_0 : ∀ a, (![5, 0, 0] : Fin 3 → Nat) a + S1x1x1.size a ≤ S15x2x1.size a
  inb_S15x2x8x1_S1x1x8x1_5_1_0_0 : ∀ a, (![5, 1, 0, 0] : Fin 4 → Nat) a + S1x1x8x1.size a ≤ S15x2x8x1.size a
  inb_S15x2x8_S1x1x8_5_1_0 : ∀ a, (![5, 1, 0] : Fin 3 → Nat) a + S1x1x8.size a ≤ S15x2x8.size a
  inb_S15x2x8x8_S1x1x8x8_5_1_0_0 : ∀ a, (![5, 1, 0, 0] : Fin 4 → Nat) a + S1x1x8x8.size a ≤ S15x2x8x8.size a
  inb_S15x2x1x8_S1x1x1x8_5_1_0_0 : ∀ a, (![5, 1, 0, 0] : Fin 4 → Nat) a + S1x1x1x8.size a ≤ S15x2x1x8.size a
  inb_S15x2x1_S1x1x1_5_1_0 : ∀ a, (![5, 1, 0] : Fin 3 → Nat) a + S1x1x1.size a ≤ S15x2x1.size a
  inb_S14_S1_5 : ∀ a, (![5] : Fin 1 → Nat) a + S1.size a ≤ S14.size a
  inb_S15x2x8x1_S1x1x8x1_6_0_0_0 : ∀ a, (![6, 0, 0, 0] : Fin 4 → Nat) a + S1x1x8x1.size a ≤ S15x2x8x1.size a
  inb_S15x2x8_S1x1x8_6_0_0 : ∀ a, (![6, 0, 0] : Fin 3 → Nat) a + S1x1x8.size a ≤ S15x2x8.size a
  inb_S15x2x8x8_S1x1x8x8_6_0_0_0 : ∀ a, (![6, 0, 0, 0] : Fin 4 → Nat) a + S1x1x8x8.size a ≤ S15x2x8x8.size a
  inb_S15x2x1x8_S1x1x1x8_6_0_0_0 : ∀ a, (![6, 0, 0, 0] : Fin 4 → Nat) a + S1x1x1x8.size a ≤ S15x2x1x8.size a
  inb_S15x2x1_S1x1x1_6_0_0 : ∀ a, (![6, 0, 0] : Fin 3 → Nat) a + S1x1x1.size a ≤ S15x2x1.size a
  inb_S15x2x8x1_S1x1x8x1_6_1_0_0 : ∀ a, (![6, 1, 0, 0] : Fin 4 → Nat) a + S1x1x8x1.size a ≤ S15x2x8x1.size a
  inb_S15x2x8_S1x1x8_6_1_0 : ∀ a, (![6, 1, 0] : Fin 3 → Nat) a + S1x1x8.size a ≤ S15x2x8.size a
  inb_S15x2x8x8_S1x1x8x8_6_1_0_0 : ∀ a, (![6, 1, 0, 0] : Fin 4 → Nat) a + S1x1x8x8.size a ≤ S15x2x8x8.size a
  inb_S15x2x1x8_S1x1x1x8_6_1_0_0 : ∀ a, (![6, 1, 0, 0] : Fin 4 → Nat) a + S1x1x1x8.size a ≤ S15x2x1x8.size a
  inb_S15x2x1_S1x1x1_6_1_0 : ∀ a, (![6, 1, 0] : Fin 3 → Nat) a + S1x1x1.size a ≤ S15x2x1.size a
  inb_S14_S1_6 : ∀ a, (![6] : Fin 1 → Nat) a + S1.size a ≤ S14.size a
  inb_S15x2x8x1_S1x1x8x1_7_0_0_0 : ∀ a, (![7, 0, 0, 0] : Fin 4 → Nat) a + S1x1x8x1.size a ≤ S15x2x8x1.size a
  inb_S15x2x8_S1x1x8_7_0_0 : ∀ a, (![7, 0, 0] : Fin 3 → Nat) a + S1x1x8.size a ≤ S15x2x8.size a
  inb_S15x2x8x8_S1x1x8x8_7_0_0_0 : ∀ a, (![7, 0, 0, 0] : Fin 4 → Nat) a + S1x1x8x8.size a ≤ S15x2x8x8.size a
  inb_S15x2x1x8_S1x1x1x8_7_0_0_0 : ∀ a, (![7, 0, 0, 0] : Fin 4 → Nat) a + S1x1x1x8.size a ≤ S15x2x1x8.size a
  inb_S15x2x1_S1x1x1_7_0_0 : ∀ a, (![7, 0, 0] : Fin 3 → Nat) a + S1x1x1.size a ≤ S15x2x1.size a
  inb_S15x2x8x1_S1x1x8x1_7_1_0_0 : ∀ a, (![7, 1, 0, 0] : Fin 4 → Nat) a + S1x1x8x1.size a ≤ S15x2x8x1.size a
  inb_S15x2x8_S1x1x8_7_1_0 : ∀ a, (![7, 1, 0] : Fin 3 → Nat) a + S1x1x8.size a ≤ S15x2x8.size a
  inb_S15x2x8x8_S1x1x8x8_7_1_0_0 : ∀ a, (![7, 1, 0, 0] : Fin 4 → Nat) a + S1x1x8x8.size a ≤ S15x2x8x8.size a
  inb_S15x2x1x8_S1x1x1x8_7_1_0_0 : ∀ a, (![7, 1, 0, 0] : Fin 4 → Nat) a + S1x1x1x8.size a ≤ S15x2x1x8.size a
  inb_S15x2x1_S1x1x1_7_1_0 : ∀ a, (![7, 1, 0] : Fin 3 → Nat) a + S1x1x1.size a ≤ S15x2x1.size a
  inb_S14_S1_7 : ∀ a, (![7] : Fin 1 → Nat) a + S1.size a ≤ S14.size a
  inb_S15x2x8x1_S1x1x8x1_8_0_0_0 : ∀ a, (![8, 0, 0, 0] : Fin 4 → Nat) a + S1x1x8x1.size a ≤ S15x2x8x1.size a
  inb_S15x2x8_S1x1x8_8_0_0 : ∀ a, (![8, 0, 0] : Fin 3 → Nat) a + S1x1x8.size a ≤ S15x2x8.size a
  inb_S15x2x8x8_S1x1x8x8_8_0_0_0 : ∀ a, (![8, 0, 0, 0] : Fin 4 → Nat) a + S1x1x8x8.size a ≤ S15x2x8x8.size a
  inb_S15x2x1x8_S1x1x1x8_8_0_0_0 : ∀ a, (![8, 0, 0, 0] : Fin 4 → Nat) a + S1x1x1x8.size a ≤ S15x2x1x8.size a
  inb_S15x2x1_S1x1x1_8_0_0 : ∀ a, (![8, 0, 0] : Fin 3 → Nat) a + S1x1x1.size a ≤ S15x2x1.size a
  inb_S15x2x8x1_S1x1x8x1_8_1_0_0 : ∀ a, (![8, 1, 0, 0] : Fin 4 → Nat) a + S1x1x8x1.size a ≤ S15x2x8x1.size a
  inb_S15x2x8_S1x1x8_8_1_0 : ∀ a, (![8, 1, 0] : Fin 3 → Nat) a + S1x1x8.size a ≤ S15x2x8.size a
  inb_S15x2x8x8_S1x1x8x8_8_1_0_0 : ∀ a, (![8, 1, 0, 0] : Fin 4 → Nat) a + S1x1x8x8.size a ≤ S15x2x8x8.size a
  inb_S15x2x1x8_S1x1x1x8_8_1_0_0 : ∀ a, (![8, 1, 0, 0] : Fin 4 → Nat) a + S1x1x1x8.size a ≤ S15x2x1x8.size a
  inb_S15x2x1_S1x1x1_8_1_0 : ∀ a, (![8, 1, 0] : Fin 3 → Nat) a + S1x1x1.size a ≤ S15x2x1.size a
  inb_S14_S1_8 : ∀ a, (![8] : Fin 1 → Nat) a + S1.size a ≤ S14.size a
  inb_S15x2x8x1_S1x1x8x1_9_0_0_0 : ∀ a, (![9, 0, 0, 0] : Fin 4 → Nat) a + S1x1x8x1.size a ≤ S15x2x8x1.size a
  inb_S15x2x8_S1x1x8_9_0_0 : ∀ a, (![9, 0, 0] : Fin 3 → Nat) a + S1x1x8.size a ≤ S15x2x8.size a
  inb_S15x2x8x8_S1x1x8x8_9_0_0_0 : ∀ a, (![9, 0, 0, 0] : Fin 4 → Nat) a + S1x1x8x8.size a ≤ S15x2x8x8.size a
  inb_S15x2x1x8_S1x1x1x8_9_0_0_0 : ∀ a, (![9, 0, 0, 0] : Fin 4 → Nat) a + S1x1x1x8.size a ≤ S15x2x1x8.size a
  inb_S15x2x1_S1x1x1_9_0_0 : ∀ a, (![9, 0, 0] : Fin 3 → Nat) a + S1x1x1.size a ≤ S15x2x1.size a
  inb_S15x2x8x1_S1x1x8x1_9_1_0_0 : ∀ a, (![9, 1, 0, 0] : Fin 4 → Nat) a + S1x1x8x1.size a ≤ S15x2x8x1.size a
  inb_S15x2x8_S1x1x8_9_1_0 : ∀ a, (![9, 1, 0] : Fin 3 → Nat) a + S1x1x8.size a ≤ S15x2x8.size a
  inb_S15x2x8x8_S1x1x8x8_9_1_0_0 : ∀ a, (![9, 1, 0, 0] : Fin 4 → Nat) a + S1x1x8x8.size a ≤ S15x2x8x8.size a
  inb_S15x2x1x8_S1x1x1x8_9_1_0_0 : ∀ a, (![9, 1, 0, 0] : Fin 4 → Nat) a + S1x1x1x8.size a ≤ S15x2x1x8.size a
  inb_S15x2x1_S1x1x1_9_1_0 : ∀ a, (![9, 1, 0] : Fin 3 → Nat) a + S1x1x1.size a ≤ S15x2x1.size a
  inb_S14_S1_9 : ∀ a, (![9] : Fin 1 → Nat) a + S1.size a ≤ S14.size a
  inb_S15x2x8x1_S1x1x8x1_10_0_0_0 : ∀ a, (![10, 0, 0, 0] : Fin 4 → Nat) a + S1x1x8x1.size a ≤ S15x2x8x1.size a
  inb_S15x2x8_S1x1x8_10_0_0 : ∀ a, (![10, 0, 0] : Fin 3 → Nat) a + S1x1x8.size a ≤ S15x2x8.size a
  inb_S15x2x8x8_S1x1x8x8_10_0_0_0 : ∀ a, (![10, 0, 0, 0] : Fin 4 → Nat) a + S1x1x8x8.size a ≤ S15x2x8x8.size a
  inb_S15x2x1x8_S1x1x1x8_10_0_0_0 : ∀ a, (![10, 0, 0, 0] : Fin 4 → Nat) a + S1x1x1x8.size a ≤ S15x2x1x8.size a
  inb_S15x2x1_S1x1x1_10_0_0 : ∀ a, (![10, 0, 0] : Fin 3 → Nat) a + S1x1x1.size a ≤ S15x2x1.size a
  inb_S15x2x8x1_S1x1x8x1_10_1_0_0 : ∀ a, (![10, 1, 0, 0] : Fin 4 → Nat) a + S1x1x8x1.size a ≤ S15x2x8x1.size a
  inb_S15x2x8_S1x1x8_10_1_0 : ∀ a, (![10, 1, 0] : Fin 3 → Nat) a + S1x1x8.size a ≤ S15x2x8.size a
  inb_S15x2x8x8_S1x1x8x8_10_1_0_0 : ∀ a, (![10, 1, 0, 0] : Fin 4 → Nat) a + S1x1x8x8.size a ≤ S15x2x8x8.size a
  inb_S15x2x1x8_S1x1x1x8_10_1_0_0 : ∀ a, (![10, 1, 0, 0] : Fin 4 → Nat) a + S1x1x1x8.size a ≤ S15x2x1x8.size a
  inb_S15x2x1_S1x1x1_10_1_0 : ∀ a, (![10, 1, 0] : Fin 3 → Nat) a + S1x1x1.size a ≤ S15x2x1.size a
  inb_S14_S1_10 : ∀ a, (![10] : Fin 1 → Nat) a + S1.size a ≤ S14.size a
  inb_S15x2x8x1_S1x1x8x1_11_0_0_0 : ∀ a, (![11, 0, 0, 0] : Fin 4 → Nat) a + S1x1x8x1.size a ≤ S15x2x8x1.size a
  inb_S15x2x8_S1x1x8_11_0_0 : ∀ a, (![11, 0, 0] : Fin 3 → Nat) a + S1x1x8.size a ≤ S15x2x8.size a
  inb_S15x2x8x8_S1x1x8x8_11_0_0_0 : ∀ a, (![11, 0, 0, 0] : Fin 4 → Nat) a + S1x1x8x8.size a ≤ S15x2x8x8.size a
  inb_S15x2x1x8_S1x1x1x8_11_0_0_0 : ∀ a, (![11, 0, 0, 0] : Fin 4 → Nat) a + S1x1x1x8.size a ≤ S15x2x1x8.size a
  inb_S15x2x1_S1x1x1_11_0_0 : ∀ a, (![11, 0, 0] : Fin 3 → Nat) a + S1x1x1.size a ≤ S15x2x1.size a
  inb_S15x2x8x1_S1x1x8x1_11_1_0_0 : ∀ a, (![11, 1, 0, 0] : Fin 4 → Nat) a + S1x1x8x1.size a ≤ S15x2x8x1.size a
  inb_S15x2x8_S1x1x8_11_1_0 : ∀ a, (![11, 1, 0] : Fin 3 → Nat) a + S1x1x8.size a ≤ S15x2x8.size a
  inb_S15x2x8x8_S1x1x8x8_11_1_0_0 : ∀ a, (![11, 1, 0, 0] : Fin 4 → Nat) a + S1x1x8x8.size a ≤ S15x2x8x8.size a
  inb_S15x2x1x8_S1x1x1x8_11_1_0_0 : ∀ a, (![11, 1, 0, 0] : Fin 4 → Nat) a + S1x1x1x8.size a ≤ S15x2x1x8.size a
  inb_S15x2x1_S1x1x1_11_1_0 : ∀ a, (![11, 1, 0] : Fin 3 → Nat) a + S1x1x1.size a ≤ S15x2x1.size a
  inb_S14_S1_11 : ∀ a, (![11] : Fin 1 → Nat) a + S1.size a ≤ S14.size a
  inb_S15x2x8x1_S1x1x8x1_12_0_0_0 : ∀ a, (![12, 0, 0, 0] : Fin 4 → Nat) a + S1x1x8x1.size a ≤ S15x2x8x1.size a
  inb_S15x2x8_S1x1x8_12_0_0 : ∀ a, (![12, 0, 0] : Fin 3 → Nat) a + S1x1x8.size a ≤ S15x2x8.size a
  inb_S15x2x8x8_S1x1x8x8_12_0_0_0 : ∀ a, (![12, 0, 0, 0] : Fin 4 → Nat) a + S1x1x8x8.size a ≤ S15x2x8x8.size a
  inb_S15x2x1x8_S1x1x1x8_12_0_0_0 : ∀ a, (![12, 0, 0, 0] : Fin 4 → Nat) a + S1x1x1x8.size a ≤ S15x2x1x8.size a
  inb_S15x2x1_S1x1x1_12_0_0 : ∀ a, (![12, 0, 0] : Fin 3 → Nat) a + S1x1x1.size a ≤ S15x2x1.size a
  inb_S15x2x8x1_S1x1x8x1_12_1_0_0 : ∀ a, (![12, 1, 0, 0] : Fin 4 → Nat) a + S1x1x8x1.size a ≤ S15x2x8x1.size a
  inb_S15x2x8_S1x1x8_12_1_0 : ∀ a, (![12, 1, 0] : Fin 3 → Nat) a + S1x1x8.size a ≤ S15x2x8.size a
  inb_S15x2x8x8_S1x1x8x8_12_1_0_0 : ∀ a, (![12, 1, 0, 0] : Fin 4 → Nat) a + S1x1x8x8.size a ≤ S15x2x8x8.size a
  inb_S15x2x1x8_S1x1x1x8_12_1_0_0 : ∀ a, (![12, 1, 0, 0] : Fin 4 → Nat) a + S1x1x1x8.size a ≤ S15x2x1x8.size a
  inb_S15x2x1_S1x1x1_12_1_0 : ∀ a, (![12, 1, 0] : Fin 3 → Nat) a + S1x1x1.size a ≤ S15x2x1.size a
  inb_S14_S1_12 : ∀ a, (![12] : Fin 1 → Nat) a + S1.size a ≤ S14.size a
  inb_S15x2x8x1_S1x1x8x1_13_0_0_0 : ∀ a, (![13, 0, 0, 0] : Fin 4 → Nat) a + S1x1x8x1.size a ≤ S15x2x8x1.size a
  inb_S15x2x8_S1x1x8_13_0_0 : ∀ a, (![13, 0, 0] : Fin 3 → Nat) a + S1x1x8.size a ≤ S15x2x8.size a
  inb_S15x2x8x8_S1x1x8x8_13_0_0_0 : ∀ a, (![13, 0, 0, 0] : Fin 4 → Nat) a + S1x1x8x8.size a ≤ S15x2x8x8.size a
  inb_S15x2x1x8_S1x1x1x8_13_0_0_0 : ∀ a, (![13, 0, 0, 0] : Fin 4 → Nat) a + S1x1x1x8.size a ≤ S15x2x1x8.size a
  inb_S15x2x1_S1x1x1_13_0_0 : ∀ a, (![13, 0, 0] : Fin 3 → Nat) a + S1x1x1.size a ≤ S15x2x1.size a
  inb_S15x2x8x1_S1x1x8x1_13_1_0_0 : ∀ a, (![13, 1, 0, 0] : Fin 4 → Nat) a + S1x1x8x1.size a ≤ S15x2x8x1.size a
  inb_S15x2x8_S1x1x8_13_1_0 : ∀ a, (![13, 1, 0] : Fin 3 → Nat) a + S1x1x8.size a ≤ S15x2x8.size a
  inb_S15x2x8x8_S1x1x8x8_13_1_0_0 : ∀ a, (![13, 1, 0, 0] : Fin 4 → Nat) a + S1x1x8x8.size a ≤ S15x2x8x8.size a
  inb_S15x2x1x8_S1x1x1x8_13_1_0_0 : ∀ a, (![13, 1, 0, 0] : Fin 4 → Nat) a + S1x1x1x8.size a ≤ S15x2x1x8.size a
  inb_S15x2x1_S1x1x1_13_1_0 : ∀ a, (![13, 1, 0] : Fin 3 → Nat) a + S1x1x1.size a ≤ S15x2x1.size a
  inb_S14_S1_13 : ∀ a, (![13] : Fin 1 → Nat) a + S1.size a ≤ S14.size a
  inb_S15x2x8x1_S1x1x8x1_14_0_0_0 : ∀ a, (![14, 0, 0, 0] : Fin 4 → Nat) a + S1x1x8x1.size a ≤ S15x2x8x1.size a
  inb_S15x2x8_S1x1x8_14_0_0 : ∀ a, (![14, 0, 0] : Fin 3 → Nat) a + S1x1x8.size a ≤ S15x2x8.size a
  inb_S15x2x8x8_S1x1x8x8_14_0_0_0 : ∀ a, (![14, 0, 0, 0] : Fin 4 → Nat) a + S1x1x8x8.size a ≤ S15x2x8x8.size a
  inb_S15x2x1x8_S1x1x1x8_14_0_0_0 : ∀ a, (![14, 0, 0, 0] : Fin 4 → Nat) a + S1x1x1x8.size a ≤ S15x2x1x8.size a
  inb_S15x2x1_S1x1x1_14_0_0 : ∀ a, (![14, 0, 0] : Fin 3 → Nat) a + S1x1x1.size a ≤ S15x2x1.size a
  inb_S15x2x8x1_S1x1x8x1_14_1_0_0 : ∀ a, (![14, 1, 0, 0] : Fin 4 → Nat) a + S1x1x8x1.size a ≤ S15x2x8x1.size a
  inb_S15x2x8_S1x1x8_14_1_0 : ∀ a, (![14, 1, 0] : Fin 3 → Nat) a + S1x1x8.size a ≤ S15x2x8.size a
  inb_S15x2x8x8_S1x1x8x8_14_1_0_0 : ∀ a, (![14, 1, 0, 0] : Fin 4 → Nat) a + S1x1x8x8.size a ≤ S15x2x8x8.size a
  inb_S15x2x1x8_S1x1x1x8_14_1_0_0 : ∀ a, (![14, 1, 0, 0] : Fin 4 → Nat) a + S1x1x1x8.size a ≤ S15x2x1x8.size a
  inb_S15x2x1_S1x1x1_14_1_0 : ∀ a, (![14, 1, 0] : Fin 3 → Nat) a + S1x1x1.size a ≤ S15x2x1.size a
  inb_S1x32768_S1x32768_0_0 : ∀ a, (![0, 0] : Fin 2 → Nat) a + S1x32768.size a ≤ S1x32768.size a
  transposes_S2x524288_S524288x2_1_0 : S2x524288.Transposes [1, 0] S524288x2
  shapeCasts_S1x524288_S524288 : S1x524288.ShapeCasts S524288
  dot_S8x8_S8x32768_S8x32768_1_0_0_1_n_n_wf : DotDims.WF S8x8 S8x32768 S8x32768 [1] [0] [0] [1] [] []
  dot_S1x8_S8x32768_S1x32768_1_0_0_1_n_n_wf : DotDims.WF S1x8 S8x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32768.size a ≤ S2x524288.size a
  hwx0_0 : ∀ i : grid0.Coords, EltTy.bits .f32 = 32 ∨ (Rect.block (s := S2x524288) S2x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x2x8x1.size a ≤ S15x2x8x1.size a
  hwx0_1 : ∀ i : grid0.Coords, EltTy.bits .f32 = 32 ∨ (Rect.block (s := S15x2x8x1) S15x2x8x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x2x8.size a ≤ S15x2x8.size a
  hwx0_2 : ∀ i : grid0.Coords, EltTy.bits .f32 = 32 ∨ (Rect.block (s := S15x2x8) S15x2x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x2x8x8.size a ≤ S15x2x8x8.size a
  hwx0_3 : ∀ i : grid0.Coords, EltTy.bits .f32 = 32 ∨ (Rect.block (s := S15x2x8x8) S15x2x8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S15x2x8.size a ≤ S15x2x8.size a
  hwx0_4 : ∀ i : grid0.Coords, EltTy.bits .f32 = 32 ∨ (Rect.block (s := S15x2x8) S15x2x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x2x8x8.size a ≤ S15x2x8x8.size a
  hwx0_5 : ∀ i : grid0.Coords, EltTy.bits .f32 = 32 ∨ (Rect.block (s := S15x2x8x8) S15x2x8x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x2x8.size a ≤ S15x2x8.size a
  hwx0_6 : ∀ i : grid0.Coords, EltTy.bits .f32 = 32 ∨ (Rect.block (s := S15x2x8) S15x2x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x2x8x8.size a ≤ S15x2x8x8.size a
  hwx0_7 : ∀ i : grid0.Coords, EltTy.bits .f32 = 32 ∨ (Rect.block (s := S15x2x8x8) S15x2x8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S15x2x8.size a ≤ S15x2x8.size a
  hwx0_8 : ∀ i : grid0.Coords, EltTy.bits .f32 = 32 ∨ (Rect.block (s := S15x2x8) S15x2x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S15x2x1x8.size a ≤ S15x2x1x8.size a
  hwx0_9 : ∀ i : grid0.Coords, EltTy.bits .f32 = 32 ∨ (Rect.block (s := S15x2x1x8) S15x2x1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S15x2x1.size a ≤ S15x2x1.size a
  hwx0_10 : ∀ i : grid0.Coords, EltTy.bits .f32 = 32 ∨ (Rect.block (s := S15x2x1) S15x2x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x32768.size a ≤ S2x524288.size a
  hwx0_11 : ∀ i : grid0.Coords, EltTy.bits .f32 = 32 ∨ (Rect.block (s := S2x524288) S2x32768.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32768.size a ≤ S1x524288.size a
  hwx0_12 : ∀ i : grid0.Coords, EltTy.bits .f32 = 32 ∨ (Rect.block (s := S1x524288) S1x32768.size (cc0_transform_12 i) (hinb0_12 i)).WholeWords (EltTy.packing .f32)

variable [Facts₀]

def dot_S8x8_S8x32768_S8x32768_1_0_0_1_n_n : DotDims S8x8 S8x32768 S8x32768 where
  lhsContracting := [1]
  rhsContracting := [0]
  lhsNonContracting := [0]
  rhsNonContracting := [1]
  lhsBatch := []
  rhsBatch := []
  wf := dot_S8x8_S8x32768_S8x32768_1_0_0_1_n_n_wf
def dot_S1x8_S8x32768_S1x32768_1_0_0_1_n_n : DotDims S1x8 S8x32768 S1x32768 where
  lhsContracting := [1]
  rhsContracting := [0]
  lhsNonContracting := [0]
  rhsNonContracting := [1]
  lhsBatch := []
  rhsBatch := []
  wf := dot_S1x8_S8x32768_S1x32768_1_0_0_1_n_n_wf

abbrev spec0_0 : Pipeline.WinSpec sig grid0.rank :=
  Pipeline.WinSpec.ofSpec (Memref.whole main_v0) S2x32768.size reads0_0 false false 2 stage0_0 sem0_0 nbuf0_0 hstage0_0

abbrev spec0_1 : Pipeline.WinSpec sig grid0.rank :=
  Pipeline.WinSpec.ofSpec (Memref.whole main_arg1) S15x2x8x1.size reads0_1 false true 1 stage0_1 sem0_1 nbuf0_1 hstage0_1

abbrev spec0_2 : Pipeline.WinSpec sig grid0.rank :=
  Pipeline.WinSpec.ofSpec (Memref.whole main_arg2) S15x2x8.size reads0_2 false true 1 stage0_2 sem0_2 nbuf0_2 hstage0_2

abbrev spec0_3 : Pipeline.WinSpec sig grid0.rank :=
  Pipeline.WinSpec.ofSpec (Memref.whole main_arg3) S15x2x8x8.size reads0_3 false true 1 stage0_3 sem0_3 nbuf0_3 hstage0_3

abbrev spec0_4 : Pipeline.WinSpec sig grid0.rank :=
  Pipeline.WinSpec.ofSpec (Memref.whole main_arg4) S15x2x8.size reads0_4 false true 1 stage0_4 sem0_4 nbuf0_4 hstage0_4

abbrev spec0_5 : Pipeline.WinSpec sig grid0.rank :=
  Pipeline.WinSpec.ofSpec (Memref.whole main_arg5) S15x2x8x8.size reads0_5 false true 1 stage0_5 sem0_5 nbuf0_5 hstage0_5

abbrev spec0_6 : Pipeline.WinSpec sig grid0.rank :=
  Pipeline.WinSpec.ofSpec (Memref.whole main_arg6) S15x2x8.size reads0_6 false true 1 stage0_6 sem0_6 nbuf0_6 hstage0_6

abbrev spec0_7 : Pipeline.WinSpec sig grid0.rank :=
  Pipeline.WinSpec.ofSpec (Memref.whole main_arg7) S15x2x8x8.size reads0_7 false true 1 stage0_7 sem0_7 nbuf0_7 hstage0_7

abbrev spec0_8 : Pipeline.WinSpec sig grid0.rank :=
  Pipeline.WinSpec.ofSpec (Memref.whole main_arg8) S15x2x8.size reads0_8 false true 1 stage0_8 sem0_8 nbuf0_8 hstage0_8

abbrev spec0_9 : Pipeline.WinSpec sig grid0.rank :=
  Pipeline.WinSpec.ofSpec (Memref.whole main_arg9) S15x2x1x8.size reads0_9 false true 1 stage0_9 sem0_9 nbuf0_9 hstage0_9

abbrev spec0_10 : Pipeline.WinSpec sig grid0.rank :=
  Pipeline.WinSpec.ofSpec (Memref.whole main_arg10) S15x2x1.size reads0_10 false true 1 stage0_10 sem0_10 nbuf0_10 hstage0_10

abbrev spec0_11 : Pipeline.WinSpec sig grid0.rank :=
  Pipeline.WinSpec.ofSpec (Memref.whole main_v1_0) S2x32768.size reads0_11 true false 2 stage0_11 sem0_11 nbuf0_11 hstage0_11

abbrev spec0_12 : Pipeline.WinSpec sig grid0.rank :=
  Pipeline.WinSpec.ofSpec (Memref.whole main_v1_1) S1x32768.size reads0_12 true false 2 stage0_12 sem0_12 nbuf0_12 hstage0_12

abbrev spec0 : Fin 13 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | ⟨_ + 13, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | ⟨_ + 13, h⟩ => absurd h (Nat.not_lt.2 (Nat.le_add_left _ _))
abbrev ix0 (pf : pre0.Contents (Elt F)) : (w : Fin 13) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | 10 => cc0_transform_10 | 11 => cc0_transform_11 | 12 => cc0_transform_12 | ⟨_ + 13, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | 12 => hreads0_12 | ⟨_ + 13, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | 12 => hinb0_12 | ⟨_ + 13, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | 12 => hwx0_12 | ⟨_ + 13, h⟩ => absurd h (Nat.not_lt.2 (Nat.le_add_left _ _))

class Facts : Prop extends Facts₀ where
  harr0 : ∀ w, (spec0 w).arr.IsWhole

variable [Facts]
-- ==== ReferenceIdeal.lean ====
abbrev S524288x2 : Shape := ⟨2, ![524288, 2]⟩
abbrev S15x2x8x1 : Shape := ⟨4, ![15, 2, 8, 1]⟩
abbrev S15x2x8 : Shape := ⟨3, ![15, 2, 8]⟩
abbrev S15x2x8x8 : Shape := ⟨4, ![15, 2, 8, 8]⟩
abbrev S15x2x1x8 : Shape := ⟨4, ![15, 2, 1, 8]⟩
abbrev S15x2x1 : Shape := ⟨3, ![15, 2, 1]⟩
abbrev S14 : Shape := ⟨1, ![14]⟩
abbrev S_ : Shape := ⟨0, ![]⟩
abbrev S524288 : Shape := ⟨1, ![524288]⟩
abbrev S524288x1 : Shape := ⟨2, ![524288, 1]⟩
abbrev S1x1x8x1 : Shape := ⟨4, ![1, 1, 8, 1]⟩
abbrev S8x1 : Shape := ⟨2, ![8, 1]⟩
abbrev S1x1x8 : Shape := ⟨3, ![1, 1, 8]⟩
abbrev S8 : Shape := ⟨1, ![8]⟩
abbrev S1x1x8x8 : Shape := ⟨4, ![1, 1, 8, 8]⟩
abbrev S8x8 : Shape := ⟨2, ![8, 8]⟩
abbrev S1x1x1x8 : Shape := ⟨4, ![1, 1, 1, 8]⟩
abbrev S1x8 : Shape := ⟨2, ![1, 8]⟩
abbrev S1x1x1 : Shape := ⟨3, ![1, 1, 1]⟩
abbrev S1 : Shape := ⟨1, ![1]⟩
abbrev S524288x8 : Shape := ⟨2, ![524288, 8]⟩
abbrev S1x1 : Shape := ⟨2, ![1, 1]⟩

abbrev nBuf : Space → Nat
  | .hbm => 2543
  | .vmem => 0
  | .smem => 0
  | _ => 0

abbrev hbmTy0_0 (i : Nat) : BufTy := match i % 128 with
  | 0 => ⟨S524288x2, .f32⟩
  | 1 => ⟨S15x2x8x1, .f32⟩
  | 2 => ⟨S15x2x8, .f32⟩
  | 3 => ⟨S15x2x8x8, .f32⟩
  | 4 => ⟨S15x2x8, .f32⟩
  | 5 => ⟨S15x2x8x8, .f32⟩
  | 6 => ⟨S15x2x8, .f32⟩
  | 7 => ⟨S15x2x8x8, .f32⟩
  | 8 => ⟨S15x2x8, .f32⟩
  | 9 => ⟨S15x2x1x8, .f32⟩
  | 10 => ⟨S15x2x1, .f32⟩
  | 11 => ⟨S14, .i32⟩
  | 12 => ⟨S_, .f32⟩
  | 13 => ⟨S524288, .f32⟩
  | 14 => ⟨S524288x1, .f32⟩
  | 15 => ⟨S524288x1, .f32⟩
  | 16 => ⟨S1x1x8x1, .f32⟩
  | 17 => ⟨S8x1, .f32⟩
  | 18 => ⟨S1x1x8, .f32⟩
  | 19 => ⟨S8, .f32⟩
  | 20 => ⟨S1x1x8x8, .f32⟩
  | 21 => ⟨S8x8, .f32⟩
  | 22 => ⟨S1x1x8, .f32⟩
  | 23 => ⟨S8, .f32⟩
  | 24 => ⟨S1x1x8x8, .f32⟩
  | 25 => ⟨S8x8, .f32⟩
  | 26 => ⟨S1x1x8, .f32⟩
  | 27 => ⟨S8, .f32⟩
  | 28 => ⟨S1x1x8x8, .f32⟩
  | 29 => ⟨S8x8, .f32⟩
  | 30 => ⟨S1x1x8, .f32⟩
  | 31 => ⟨S8, .f32⟩
  | 32 => ⟨S1x1x1x8, .f32⟩
  | 33 => ⟨S1x8, .f32⟩
  | 34 => ⟨S1x1x1, .f32⟩
  | 35 => ⟨S1, .f32⟩
  | 36 => ⟨S1x8, .f32⟩
  | 37 => ⟨S524288x8, .f32⟩
  | 38 => ⟨S1x8, .f32⟩
  | 39 => ⟨S524288x8, .f32⟩
  | 40 => ⟨S524288x8, .f32⟩
  | 41 => ⟨S_, .f32⟩
  | 42 => ⟨S_, .f32⟩
  | 43 => ⟨S524288x8, .f32⟩
  | 44 => ⟨S524288x8, .i1⟩
  | 45 => ⟨S_, .f32⟩
  | 46 => ⟨S524288x8, .f32⟩
  | 47 => ⟨S524288x8, .f32⟩
  | 48 => ⟨S524288x8, .f32⟩
  | 49 => ⟨S8x8, .f32⟩
  | 50 => ⟨S524288x8, .f32⟩
  | 51 => ⟨S1x8, .f32⟩
  | 52 => ⟨S524288x8, .f32⟩
  | 53 => ⟨S524288x8, .f32⟩
  | 54 => ⟨S_, .f32⟩
  | 55 => ⟨S_, .f32⟩
  | 56 => ⟨S524288x8, .f32⟩
  | 57 => ⟨S524288x8, .i1⟩
  | 58 => ⟨S_, .f32⟩
  | 59 => ⟨S524288x8, .f32⟩
  | 60 => ⟨S524288x8, .f32⟩
  | 61 => ⟨S524288x8, .f32⟩
  | 62 => ⟨S8x8, .f32⟩
  | 63 => ⟨S524288x8, .f32⟩
  | 64 => ⟨S1x8, .f32⟩
  | 65 => ⟨S524288x8, .f32⟩
  | 66 => ⟨S524288x8, .f32⟩
  | 67 => ⟨S_, .f32⟩
  | 68 => ⟨S_, .f32⟩
  | 69 => ⟨S524288x8, .f32⟩
  | 70 => ⟨S524288x8, .i1⟩
  | 71 => ⟨S_, .f32⟩
  | 72 => ⟨S524288x8, .f32⟩
  | 73 => ⟨S524288x8, .f32⟩
  | 74 => ⟨S524288x8, .f32⟩
  | 75 => ⟨S8x8, .f32⟩
  | 76 => ⟨S524288x8, .f32⟩
  | 77 => ⟨S1x8, .f32⟩
  | 78 => ⟨S524288x8, .f32⟩
  | 79 => ⟨S524288x8, .f32⟩
  | 80 => ⟨S_, .f32⟩
  | 81 => ⟨S_, .f32⟩
  | 82 => ⟨S524288x8, .f32⟩
  | 83 => ⟨S524288x8, .i1⟩
  | 84 => ⟨S_, .f32⟩
  | 85 => ⟨S524288x8, .f32⟩
  | 86 => ⟨S524288x8, .f32⟩
  | 87 => ⟨S524288x8, .f32⟩
  | 88 => ⟨S8x1, .f32⟩
  | 89 => ⟨S524288x1, .f32⟩
  | 90 => ⟨S1x1, .f32⟩
  | 91 => ⟨S524288x1, .f32⟩
  | 92 => ⟨S524288x1, .f32⟩
  | 93 => ⟨S1x1x8x1, .f32⟩
  | 94 => ⟨S8x1, .f32⟩
  | 95 => ⟨S1x1x8, .f32⟩
  | 96 => ⟨S8, .f32⟩
  | 97 => ⟨S1x1x8x8, .f32⟩
  | 98 => ⟨S8x8, .f32⟩
  | 99 => ⟨S1x1x8, .f32⟩
  | 100 => ⟨S8, .f32⟩
  | 101 => ⟨S1x1x8x8, .f32⟩
  | 102 => ⟨S8x8, .f32⟩
  | 103 => ⟨S1x1x8, .f32⟩
  | 104 => ⟨S8, .f32⟩
  | 105 => ⟨S1x1x8x8, .f32⟩
  | 106 => ⟨S8x8, .f32⟩
  | 107 => ⟨S1x1x8, .f32⟩
  | 108 => ⟨S8, .f32⟩
  | 109 => ⟨S1x1x1x8, .f32⟩
  | 110 => ⟨S1x8, .f32⟩
  | 111 => ⟨S1x1x1, .f32⟩
  | 112 => ⟨S1, .f32⟩
  | 113 => ⟨S1x8, .f32⟩
  | 114 => ⟨S524288x8, .f32⟩
  | 115 => ⟨S1x8, .f32⟩
  | 116 => ⟨S524288x8, .f32⟩
  | 117 => ⟨S524288x8, .f32⟩
  | 118 => ⟨S_, .f32⟩
  | 119 => ⟨S_, .f32⟩
  | 120 => ⟨S524288x8, .f32⟩
  | 121 => ⟨S524288x8, .i1⟩
  | 122 => ⟨S_, .f32⟩
  | 123 => ⟨S524288x8, .f32⟩
  | 124 => ⟨S524288x8, .f32⟩
  | 125 => ⟨S524288x8, .f32⟩
  | 126 => ⟨S8x8, .f32⟩
  | 127 => ⟨S524288x8, .f32⟩
  | _ => ⟨S524288x2, .f32⟩

abbrev hbmTy0_1 (i : Nat) : BufTy := match i % 128 with
  | 0 => ⟨S1x8, .f32⟩
  | 1 => ⟨S524288x8, .f32⟩
  | 2 => ⟨S524288x8, .f32⟩
  | 3 => ⟨S_, .f32⟩
  | 4 => ⟨S_, .f32⟩
  | 5 => ⟨S524288x8, .f32⟩
  | 6 => ⟨S524288x8, .i1⟩
  | 7 => ⟨S_, .f32⟩
  | 8 => ⟨S524288x8, .f32⟩
  | 9 => ⟨S524288x8, .f32⟩
  | 10 => ⟨S524288x8, .f32⟩
  | 11 => ⟨S8x8, .f32⟩
  | 12 => ⟨S524288x8, .f32⟩
  | 13 => ⟨S1x8, .f32⟩
  | 14 => ⟨S524288x8, .f32⟩
  | 15 => ⟨S524288x8, .f32⟩
  | 16 => ⟨S_, .f32⟩
  | 17 => ⟨S_, .f32⟩
  | 18 => ⟨S524288x8, .f32⟩
  | 19 => ⟨S524288x8, .i1⟩
  | 20 => ⟨S_, .f32⟩
  | 21 => ⟨S524288x8, .f32⟩
  | 22 => ⟨S524288x8, .f32⟩
  | 23 => ⟨S524288x8, .f32⟩
  | 24 => ⟨S8x8, .f32⟩
  | 25 => ⟨S524288x8, .f32⟩
  | 26 => ⟨S1x8, .f32⟩
  | 27 => ⟨S524288x8, .f32⟩
  | 28 => ⟨S524288x8, .f32⟩
  | 29 => ⟨S_, .f32⟩
  | 30 => ⟨S_, .f32⟩
  | 31 => ⟨S524288x8, .f32⟩
  | 32 => ⟨S524288x8, .i1⟩
  | 33 => ⟨S_, .f32⟩
  | 34 => ⟨S524288x8, .f32⟩
  | 35 => ⟨S524288x8, .f32⟩
  | 36 => ⟨S524288x8, .f32⟩
  | 37 => ⟨S8x1, .f32⟩
  | 38 => ⟨S524288x1, .f32⟩
  | 39 => ⟨S1x1, .f32⟩
  | 40 => ⟨S524288x1, .f32⟩
  | 41 => ⟨S524288x1, .f32⟩
  | 42 => ⟨S524288x1, .f32⟩
  | 43 => ⟨S524288x1, .f32⟩
  | 44 => ⟨S524288x1, .f32⟩
  | 45 => ⟨S_, .f32⟩
  | 46 => ⟨S524288, .f32⟩
  | 47 => ⟨S524288, .f32⟩
  | 48 => ⟨S524288x2, .f32⟩
  | 49 => ⟨S1, .i32⟩
  | 50 => ⟨S_, .i32⟩
  | 51 => ⟨S_, .i32⟩
  | 52 => ⟨S_, .i1⟩
  | 53 => ⟨S524288x2, .f32⟩
  | 54 => ⟨S524288x2, .f32⟩
  | 55 => ⟨S524288x1, .f32⟩
  | 56 => ⟨S524288x1, .f32⟩
  | 57 => ⟨S1x1x8x1, .f32⟩
  | 58 => ⟨S8x1, .f32⟩
  | 59 => ⟨S1x1x8, .f32⟩
  | 60 => ⟨S8, .f32⟩
  | 61 => ⟨S1x1x8x8, .f32⟩
  | 62 => ⟨S8x8, .f32⟩
  | 63 => ⟨S1x1x8, .f32⟩
  | 64 => ⟨S8, .f32⟩
  | 65 => ⟨S1x1x8x8, .f32⟩
  | 66 => ⟨S8x8, .f32⟩
  | 67 => ⟨S1x1x8, .f32⟩
  | 68 => ⟨S8, .f32⟩
  | 69 => ⟨S1x1x8x8, .f32⟩
  | 70 => ⟨S8x8, .f32⟩
  | 71 => ⟨S1x1x8, .f32⟩
  | 72 => ⟨S8, .f32⟩
  | 73 => ⟨S1x1x1x8, .f32⟩
  | 74 => ⟨S1x8, .f32⟩
  | 75 => ⟨S1x1x1, .f32⟩
  | 76 => ⟨S1, .f32⟩
  | 77 => ⟨S1x8, .f32⟩
  | 78 => ⟨S524288x8, .f32⟩
  | 79 => ⟨S1x8, .f32⟩
  | 80 => ⟨S524288x8, .f32⟩
  | 81 => ⟨S524288x8, .f32⟩
  | 82 => ⟨S_, .f32⟩
  | 83 => ⟨S_, .f32⟩
  | 84 => ⟨S524288x8, .f32⟩
  | 85 => ⟨S524288x8, .i1⟩
  | 86 => ⟨S_, .f32⟩
  | 87 => ⟨S524288x8, .f32⟩
  | 88 => ⟨S524288x8, .f32⟩
  | 89 => ⟨S524288x8, .f32⟩
  | 90 => ⟨S8x8, .f32⟩
  | 91 => ⟨S524288x8, .f32⟩
  | 92 => ⟨S1x8, .f32⟩
  | 93 => ⟨S524288x8, .f32⟩
  | 94 => ⟨S524288x8, .f32⟩
  | 95 => ⟨S_, .f32⟩
  | 96 => ⟨S_, .f32⟩
  | 97 => ⟨S524288x8, .f32⟩
  | 98 => ⟨S524288x8, .i1⟩
  | 99 => ⟨S_, .f32⟩
  | 100 => ⟨S524288x8, .f32⟩
  | 101 => ⟨S524288x8, .f32⟩
  | 102 => ⟨S524288x8, .f32⟩
  | 103 => ⟨S8x8, .f32⟩
  | 104 => ⟨S524288x8, .f32⟩
  | 105 => ⟨S1x8, .f32⟩
  | 106 => ⟨S524288x8, .f32⟩
  | 107 => ⟨S524288x8, .f32⟩
  | 108 => ⟨S_, .f32⟩
  | 109 => ⟨S_, .f32⟩
  | 110 => ⟨S524288x8, .f32⟩
  | 111 => ⟨S524288x8, .i1⟩
  | 112 => ⟨S_, .f32⟩
  | 113 => ⟨S524288x8, .f32⟩
  | 114 => ⟨S524288x8, .f32⟩
  | 115 => ⟨S524288x8, .f32⟩
  | 116 => ⟨S8x8, .f32⟩
  | 117 => ⟨S524288x8, .f32⟩
  | 118 => ⟨S1x8, .f32⟩
  | 119 => ⟨S524288x8, .f32⟩
  | 120 => ⟨S524288x8, .f32⟩
  | 121 => ⟨S_, .f32⟩
  | 122 => ⟨S_, .f32⟩
  | 123 => ⟨S524288x8, .f32⟩
  | 124 => ⟨S524288x8, .i1⟩
  | 125 => ⟨S_, .f32⟩
  | 126 => ⟨S524288x8, .f32⟩
  | 127 => ⟨S524288x8, .f32⟩
  | _ => ⟨S524288x2, .f32⟩

abbrev hbmTy0_2 (i : Nat) : BufTy := match i % 128 with
  | 0 => ⟨S524288x8, .f32⟩
  | 1 => ⟨S8x1, .f32⟩
  | 2 => ⟨S524288x1, .f32⟩
  | 3 => ⟨S1x1, .f32⟩
  | 4 => ⟨S524288x1, .f32⟩
  | 5 => ⟨S524288x1, .f32⟩
  | 6 => ⟨S1x1x8x1, .f32⟩
  | 7 => ⟨S8x1, .f32⟩
  | 8 => ⟨S1x1x8, .f32⟩
  | 9 => ⟨S8, .f32⟩
  | 10 => ⟨S1x1x8x8, .f32⟩
  | 11 => ⟨S8x8, .f32⟩
  | 12 => ⟨S1x1x8, .f32⟩
  | 13 => ⟨S8, .f32⟩
  | 14 => ⟨S1x1x8x8, .f32⟩
  | 15 => ⟨S8x8, .f32⟩
  | 16 => ⟨S1x1x8, .f32⟩
  | 17 => ⟨S8, .f32⟩
  | 18 => ⟨S1x1x8x8, .f32⟩
  | 19 => ⟨S8x8, .f32⟩
  | 20 => ⟨S1x1x8, .f32⟩
  | 21 => ⟨S8, .f32⟩
  | 22 => ⟨S1x1x1x8, .f32⟩
  | 23 => ⟨S1x8, .f32⟩
  | 24 => ⟨S1x1x1, .f32⟩
  | 25 => ⟨S1, .f32⟩
  | 26 => ⟨S1x8, .f32⟩
  | 27 => ⟨S524288x8, .f32⟩
  | 28 => ⟨S1x8, .f32⟩
  | 29 => ⟨S524288x8, .f32⟩
  | 30 => ⟨S524288x8, .f32⟩
  | 31 => ⟨S_, .f32⟩
  | 32 => ⟨S_, .f32⟩
  | 33 => ⟨S524288x8, .f32⟩
  | 34 => ⟨S524288x8, .i1⟩
  | 35 => ⟨S_, .f32⟩
  | 36 => ⟨S524288x8, .f32⟩
  | 37 => ⟨S524288x8, .f32⟩
  | 38 => ⟨S524288x8, .f32⟩
  | 39 => ⟨S8x8, .f32⟩
  | 40 => ⟨S524288x8, .f32⟩
  | 41 => ⟨S1x8, .f32⟩
  | 42 => ⟨S524288x8, .f32⟩
  | 43 => ⟨S524288x8, .f32⟩
  | 44 => ⟨S_, .f32⟩
  | 45 => ⟨S_, .f32⟩
  | 46 => ⟨S524288x8, .f32⟩
  | 47 => ⟨S524288x8, .i1⟩
  | 48 => ⟨S_, .f32⟩
  | 49 => ⟨S524288x8, .f32⟩
  | 50 => ⟨S524288x8, .f32⟩
  | 51 => ⟨S524288x8, .f32⟩
  | 52 => ⟨S8x8, .f32⟩
  | 53 => ⟨S524288x8, .f32⟩
  | 54 => ⟨S1x8, .f32⟩
  | 55 => ⟨S524288x8, .f32⟩
  | 56 => ⟨S524288x8, .f32⟩
  | 57 => ⟨S_, .f32⟩
  | 58 => ⟨S_, .f32⟩
  | 59 => ⟨S524288x8, .f32⟩
  | 60 => ⟨S524288x8, .i1⟩
  | 61 => ⟨S_, .f32⟩
  | 62 => ⟨S524288x8, .f32⟩
  | 63 => ⟨S524288x8, .f32⟩
  | 64 => ⟨S524288x8, .f32⟩
  | 65 => ⟨S8x8, .f32⟩
  | 66 => ⟨S524288x8, .f32⟩
  | 67 => ⟨S1x8, .f32⟩
  | 68 => ⟨S524288x8, .f32⟩
  | 69 => ⟨S524288x8, .f32⟩
  | 70 => ⟨S_, .f32⟩
  | 71 => ⟨S_, .f32⟩
  | 72 => ⟨S524288x8, .f32⟩
  | 73 => ⟨S524288x8, .i1⟩
  | 74 => ⟨S_, .f32⟩
  | 75 => ⟨S524288x8, .f32⟩
  | 76 => ⟨S524288x8, .f32⟩
  | 77 => ⟨S524288x8, .f32⟩
  | 78 => ⟨S8x1, .f32⟩
  | 79 => ⟨S524288x1, .f32⟩
  | 80 => ⟨S1x1, .f32⟩
  | 81 => ⟨S524288x1, .f32⟩
  | 82 => ⟨S524288x1, .f32⟩
  | 83 => ⟨S524288x1, .f32⟩
  | 84 => ⟨S524288x1, .f32⟩
  | 85 => ⟨S524288x1, .f32⟩
  | 86 => ⟨S_, .f32⟩
  | 87 => ⟨S524288, .f32⟩
  | 88 => ⟨S524288, .f32⟩
  | 89 => ⟨S524288x2, .f32⟩
  | 90 => ⟨S1, .i32⟩
  | 91 => ⟨S_, .i32⟩
  | 92 => ⟨S_, .i32⟩
  | 93 => ⟨S_, .i1⟩
  | 94 => ⟨S524288x2, .f32⟩
  | 95 => ⟨S524288x2, .f32⟩
  | 96 => ⟨S524288x1, .f32⟩
  | 97 => ⟨S524288x1, .f32⟩
  | 98 => ⟨S1x1x8x1, .f32⟩
  | 99 => ⟨S8x1, .f32⟩
  | 100 => ⟨S1x1x8, .f32⟩
  | 101 => ⟨S8, .f32⟩
  | 102 => ⟨S1x1x8x8, .f32⟩
  | 103 => ⟨S8x8, .f32⟩
  | 104 => ⟨S1x1x8, .f32⟩
  | 105 => ⟨S8, .f32⟩
  | 106 => ⟨S1x1x8x8, .f32⟩
  | 107 => ⟨S8x8, .f32⟩
  | 108 => ⟨S1x1x8, .f32⟩
  | 109 => ⟨S8, .f32⟩
  | 110 => ⟨S1x1x8x8, .f32⟩
  | 111 => ⟨S8x8, .f32⟩
  | 112 => ⟨S1x1x8, .f32⟩
  | 113 => ⟨S8, .f32⟩
  | 114 => ⟨S1x1x1x8, .f32⟩
  | 115 => ⟨S1x8, .f32⟩
  | 116 => ⟨S1x1x1, .f32⟩
  | 117 => ⟨S1, .f32⟩
  | 118 => ⟨S1x8, .f32⟩
  | 119 => ⟨S524288x8, .f32⟩
  | 120 => ⟨S1x8, .f32⟩
  | 121 => ⟨S524288x8, .f32⟩
  | 122 => ⟨S524288x8, .f32⟩
  | 123 => ⟨S_, .f32⟩
  | 124 => ⟨S_, .f32⟩
  | 125 => ⟨S524288x8, .f32⟩
  | 126 => ⟨S524288x8, .i1⟩
  | 127 => ⟨S_, .f32⟩
  | _ => ⟨S524288x2, .f32⟩

abbrev hbmTy0_3 (i : Nat) : BufTy := match i % 128 with
  | 0 => ⟨S524288x8, .f32⟩
  | 1 => ⟨S524288x8, .f32⟩
  | 2 => ⟨S524288x8, .f32⟩
  | 3 => ⟨S8x8, .f32⟩
  | 4 => ⟨S524288x8, .f32⟩
  | 5 => ⟨S1x8, .f32⟩
  | 6 => ⟨S524288x8, .f32⟩
  | 7 => ⟨S524288x8, .f32⟩
  | 8 => ⟨S_, .f32⟩
  | 9 => ⟨S_, .f32⟩
  | 10 => ⟨S524288x8, .f32⟩
  | 11 => ⟨S524288x8, .i1⟩
  | 12 => ⟨S_, .f32⟩
  | 13 => ⟨S524288x8, .f32⟩
  | 14 => ⟨S524288x8, .f32⟩
  | 15 => ⟨S524288x8, .f32⟩
  | 16 => ⟨S8x8, .f32⟩
  | 17 => ⟨S524288x8, .f32⟩
  | 18 => ⟨S1x8, .f32⟩
  | 19 => ⟨S524288x8, .f32⟩
  | 20 => ⟨S524288x8, .f32⟩
  | 21 => ⟨S_, .f32⟩
  | 22 => ⟨S_, .f32⟩
  | 23 => ⟨S524288x8, .f32⟩
  | 24 => ⟨S524288x8, .i1⟩
  | 25 => ⟨S_, .f32⟩
  | 26 => ⟨S524288x8, .f32⟩
  | 27 => ⟨S524288x8, .f32⟩
  | 28 => ⟨S524288x8, .f32⟩
  | 29 => ⟨S8x8, .f32⟩
  | 30 => ⟨S524288x8, .f32⟩
  | 31 => ⟨S1x8, .f32⟩
  | 32 => ⟨S524288x8, .f32⟩
  | 33 => ⟨S524288x8, .f32⟩
  | 34 => ⟨S_, .f32⟩
  | 35 => ⟨S_, .f32⟩
  | 36 => ⟨S524288x8, .f32⟩
  | 37 => ⟨S524288x8, .i1⟩
  | 38 => ⟨S_, .f32⟩
  | 39 => ⟨S524288x8, .f32⟩
  | 40 => ⟨S524288x8, .f32⟩
  | 41 => ⟨S524288x8, .f32⟩
  | 42 => ⟨S8x1, .f32⟩
  | 43 => ⟨S524288x1, .f32⟩
  | 44 => ⟨S1x1, .f32⟩
  | 45 => ⟨S524288x1, .f32⟩
  | 46 => ⟨S524288x1, .f32⟩
  | 47 => ⟨S1x1x8x1, .f32⟩
  | 48 => ⟨S8x1, .f32⟩
  | 49 => ⟨S1x1x8, .f32⟩
  | 50 => ⟨S8, .f32⟩
  | 51 => ⟨S1x1x8x8, .f32⟩
  | 52 => ⟨S8x8, .f32⟩
  | 53 => ⟨S1x1x8, .f32⟩
  | 54 => ⟨S8, .f32⟩
  | 55 => ⟨S1x1x8x8, .f32⟩
  | 56 => ⟨S8x8, .f32⟩
  | 57 => ⟨S1x1x8, .f32⟩
  | 58 => ⟨S8, .f32⟩
  | 59 => ⟨S1x1x8x8, .f32⟩
  | 60 => ⟨S8x8, .f32⟩
  | 61 => ⟨S1x1x8, .f32⟩
  | 62 => ⟨S8, .f32⟩
  | 63 => ⟨S1x1x1x8, .f32⟩
  | 64 => ⟨S1x8, .f32⟩
  | 65 => ⟨S1x1x1, .f32⟩
  | 66 => ⟨S1, .f32⟩
  | 67 => ⟨S1x8, .f32⟩
  | 68 => ⟨S524288x8, .f32⟩
  | 69 => ⟨S1x8, .f32⟩
  | 70 => ⟨S524288x8, .f32⟩
  | 71 => ⟨S524288x8, .f32⟩
  | 72 => ⟨S_, .f32⟩
  | 73 => ⟨S_, .f32⟩
  | 74 => ⟨S524288x8, .f32⟩
  | 75 => ⟨S524288x8, .i1⟩
  | 76 => ⟨S_, .f32⟩
  | 77 => ⟨S524288x8, .f32⟩
  | 78 => ⟨S524288x8, .f32⟩
  | 79 => ⟨S524288x8, .f32⟩
  | 80 => ⟨S8x8, .f32⟩
  | 81 => ⟨S524288x8, .f32⟩
  | 82 => ⟨S1x8, .f32⟩
  | 83 => ⟨S524288x8, .f32⟩
  | 84 => ⟨S524288x8, .f32⟩
  | 85 => ⟨S_, .f32⟩
  | 86 => ⟨S_, .f32⟩
  | 87 => ⟨S524288x8, .f32⟩
  | 88 => ⟨S524288x8, .i1⟩
  | 89 => ⟨S_, .f32⟩
  | 90 => ⟨S524288x8, .f32⟩
  | 91 => ⟨S524288x8, .f32⟩
  | 92 => ⟨S524288x8, .f32⟩
  | 93 => ⟨S8x8, .f32⟩
  | 94 => ⟨S524288x8, .f32⟩
  | 95 => ⟨S1x8, .f32⟩
  | 96 => ⟨S524288x8, .f32⟩
  | 97 => ⟨S524288x8, .f32⟩
  | 98 => ⟨S_, .f32⟩
  | 99 => ⟨S_, .f32⟩
  | 100 => ⟨S524288x8, .f32⟩
  | 101 => ⟨S524288x8, .i1⟩
  | 102 => ⟨S_, .f32⟩
  | 103 => ⟨S524288x8, .f32⟩
  | 104 => ⟨S524288x8, .f32⟩
  | 105 => ⟨S524288x8, .f32⟩
  | 106 => ⟨S8x8, .f32⟩
  | 107 => ⟨S524288x8, .f32⟩
  | 108 => ⟨S1x8, .f32⟩
  | 109 => ⟨S524288x8, .f32⟩
  | 110 => ⟨S524288x8, .f32⟩
  | 111 => ⟨S_, .f32⟩
  | 112 => ⟨S_, .f32⟩
  | 113 => ⟨S524288x8, .f32⟩
  | 114 => ⟨S524288x8, .i1⟩
  | 115 => ⟨S_, .f32⟩
  | 116 => ⟨S524288x8, .f32⟩
  | 117 => ⟨S524288x8, .f32⟩
  | 118 => ⟨S524288x8, .f32⟩
  | 119 => ⟨S8x1, .f32⟩
  | 120 => ⟨S524288x1, .f32⟩
  | 121 => ⟨S1x1, .f32⟩
  | 122 => ⟨S524288x1, .f32⟩
  | 123 => ⟨S524288x1, .f32⟩
  | 124 => ⟨S524288x1, .f32⟩
  | 125 => ⟨S524288x1, .f32⟩
  | 126 => ⟨S524288x1, .f32⟩
  | 127 => ⟨S_, .f32⟩
  | _ => ⟨S524288x2, .f32⟩

abbrev hbmTy0_4 (i : Nat) : BufTy := match i % 128 with
  | 0 => ⟨S524288, .f32⟩
  | 1 => ⟨S524288, .f32⟩
  | 2 => ⟨S524288x2, .f32⟩
  | 3 => ⟨S1, .i32⟩
  | 4 => ⟨S_, .i32⟩
  | 5 => ⟨S_, .i32⟩
  | 6 => ⟨S_, .i1⟩
  | 7 => ⟨S524288x2, .f32⟩
  | 8 => ⟨S524288x2, .f32⟩
  | 9 => ⟨S524288x1, .f32⟩
  | 10 => ⟨S524288x1, .f32⟩
  | 11 => ⟨S1x1x8x1, .f32⟩
  | 12 => ⟨S8x1, .f32⟩
  | 13 => ⟨S1x1x8, .f32⟩
  | 14 => ⟨S8, .f32⟩
  | 15 => ⟨S1x1x8x8, .f32⟩
  | 16 => ⟨S8x8, .f32⟩
  | 17 => ⟨S1x1x8, .f32⟩
  | 18 => ⟨S8, .f32⟩
  | 19 => ⟨S1x1x8x8, .f32⟩
  | 20 => ⟨S8x8, .f32⟩
  | 21 => ⟨S1x1x8, .f32⟩
  | 22 => ⟨S8, .f32⟩
  | 23 => ⟨S1x1x8x8, .f32⟩
  | 24 => ⟨S8x8, .f32⟩
  | 25 => ⟨S1x1x8, .f32⟩
  | 26 => ⟨S8, .f32⟩
  | 27 => ⟨S1x1x1x8, .f32⟩
  | 28 => ⟨S1x8, .f32⟩
  | 29 => ⟨S1x1x1, .f32⟩
  | 30 => ⟨S1, .f32⟩
  | 31 => ⟨S1x8, .f32⟩
  | 32 => ⟨S524288x8, .f32⟩
  | 33 => ⟨S1x8, .f32⟩
  | 34 => ⟨S524288x8, .f32⟩
  | 35 => ⟨S524288x8, .f32⟩
  | 36 => ⟨S_, .f32⟩
  | 37 => ⟨S_, .f32⟩
  | 38 => ⟨S524288x8, .f32⟩
  | 39 => ⟨S524288x8, .i1⟩
  | 40 => ⟨S_, .f32⟩
  | 41 => ⟨S524288x8, .f32⟩
  | 42 => ⟨S524288x8, .f32⟩
  | 43 => ⟨S524288x8, .f32⟩
  | 44 => ⟨S8x8, .f32⟩
  | 45 => ⟨S524288x8, .f32⟩
  | 46 => ⟨S1x8, .f32⟩
  | 47 => ⟨S524288x8, .f32⟩
  | 48 => ⟨S524288x8, .f32⟩
  | 49 => ⟨S_, .f32⟩
  | 50 => ⟨S_, .f32⟩
  | 51 => ⟨S524288x8, .f32⟩
  | 52 => ⟨S524288x8, .i1⟩
  | 53 => ⟨S_, .f32⟩
  | 54 => ⟨S524288x8, .f32⟩
  | 55 => ⟨S524288x8, .f32⟩
  | 56 => ⟨S524288x8, .f32⟩
  | 57 => ⟨S8x8, .f32⟩
  | 58 => ⟨S524288x8, .f32⟩
  | 59 => ⟨S1x8, .f32⟩
  | 60 => ⟨S524288x8, .f32⟩
  | 61 => ⟨S524288x8, .f32⟩
  | 62 => ⟨S_, .f32⟩
  | 63 => ⟨S_, .f32⟩
  | 64 => ⟨S524288x8, .f32⟩
  | 65 => ⟨S524288x8, .i1⟩
  | 66 => ⟨S_, .f32⟩
  | 67 => ⟨S524288x8, .f32⟩
  | 68 => ⟨S524288x8, .f32⟩
  | 69 => ⟨S524288x8, .f32⟩
  | 70 => ⟨S8x8, .f32⟩
  | 71 => ⟨S524288x8, .f32⟩
  | 72 => ⟨S1x8, .f32⟩
  | 73 => ⟨S524288x8, .f32⟩
  | 74 => ⟨S524288x8, .f32⟩
  | 75 => ⟨S_, .f32⟩
  | 76 => ⟨S_, .f32⟩
  | 77 => ⟨S524288x8, .f32⟩
  | 78 => ⟨S524288x8, .i1⟩
  | 79 => ⟨S_, .f32⟩
  | 80 => ⟨S524288x8, .f32⟩
  | 81 => ⟨S524288x8, .f32⟩
  | 82 => ⟨S524288x8, .f32⟩
  | 83 => ⟨S8x1, .f32⟩
  | 84 => ⟨S524288x1, .f32⟩
  | 85 => ⟨S1x1, .f32⟩
  | 86 => ⟨S524288x1, .f32⟩
  | 87 => ⟨S524288x1, .f32⟩
  | 88 => ⟨S1x1x8x1, .f32⟩
  | 89 => ⟨S8x1, .f32⟩
  | 90 => ⟨S1x1x8, .f32⟩
  | 91 => ⟨S8, .f32⟩
  | 92 => ⟨S1x1x8x8, .f32⟩
  | 93 => ⟨S8x8, .f32⟩
  | 94 => ⟨S1x1x8, .f32⟩
  | 95 => ⟨S8, .f32⟩
  | 96 => ⟨S1x1x8x8, .f32⟩
  | 97 => ⟨S8x8, .f32⟩
  | 98 => ⟨S1x1x8, .f32⟩
  | 99 => ⟨S8, .f32⟩
  | 100 => ⟨S1x1x8x8, .f32⟩
  | 101 => ⟨S8x8, .f32⟩
  | 102 => ⟨S1x1x8, .f32⟩
  | 103 => ⟨S8, .f32⟩
  | 104 => ⟨S1x1x1x8, .f32⟩
  | 105 => ⟨S1x8, .f32⟩
  | 106 => ⟨S1x1x1, .f32⟩
  | 107 => ⟨S1, .f32⟩
  | 108 => ⟨S1x8, .f32⟩
  | 109 => ⟨S524288x8, .f32⟩
  | 110 => ⟨S1x8, .f32⟩
  | 111 => ⟨S524288x8, .f32⟩
  | 112 => ⟨S524288x8, .f32⟩
  | 113 => ⟨S_, .f32⟩
  | 114 => ⟨S_, .f32⟩
  | 115 => ⟨S524288x8, .f32⟩
  | 116 => ⟨S524288x8, .i1⟩
  | 117 => ⟨S_, .f32⟩
  | 118 => ⟨S524288x8, .f32⟩
  | 119 => ⟨S524288x8, .f32⟩
  | 120 => ⟨S524288x8, .f32⟩
  | 121 => ⟨S8x8, .f32⟩
  | 122 => ⟨S524288x8, .f32⟩
  | 123 => ⟨S1x8, .f32⟩
  | 124 => ⟨S524288x8, .f32⟩
  | 125 => ⟨S524288x8, .f32⟩
  | 126 => ⟨S_, .f32⟩
  | 127 => ⟨S_, .f32⟩
  | _ => ⟨S524288x2, .f32⟩

abbrev hbmTy0_5 (i : Nat) : BufTy := match i % 128 with
  | 0 => ⟨S524288x8, .f32⟩
  | 1 => ⟨S524288x8, .i1⟩
  | 2 => ⟨S_, .f32⟩
  | 3 => ⟨S524288x8, .f32⟩
  | 4 => ⟨S524288x8, .f32⟩
  | 5 => ⟨S524288x8, .f32⟩
  | 6 => ⟨S8x8, .f32⟩
  | 7 => ⟨S524288x8, .f32⟩
  | 8 => ⟨S1x8, .f32⟩
  | 9 => ⟨S524288x8, .f32⟩
  | 10 => ⟨S524288x8, .f32⟩
  | 11 => ⟨S_, .f32⟩
  | 12 => ⟨S_, .f32⟩
  | 13 => ⟨S524288x8, .f32⟩
  | 14 => ⟨S524288x8, .i1⟩
  | 15 => ⟨S_, .f32⟩
  | 16 => ⟨S524288x8, .f32⟩
  | 17 => ⟨S524288x8, .f32⟩
  | 18 => ⟨S524288x8, .f32⟩
  | 19 => ⟨S8x8, .f32⟩
  | 20 => ⟨S524288x8, .f32⟩
  | 21 => ⟨S1x8, .f32⟩
  | 22 => ⟨S524288x8, .f32⟩
  | 23 => ⟨S524288x8, .f32⟩
  | 24 => ⟨S_, .f32⟩
  | 25 => ⟨S_, .f32⟩
  | 26 => ⟨S524288x8, .f32⟩
  | 27 => ⟨S524288x8, .i1⟩
  | 28 => ⟨S_, .f32⟩
  | 29 => ⟨S524288x8, .f32⟩
  | 30 => ⟨S524288x8, .f32⟩
  | 31 => ⟨S524288x8, .f32⟩
  | 32 => ⟨S8x1, .f32⟩
  | 33 => ⟨S524288x1, .f32⟩
  | 34 => ⟨S1x1, .f32⟩
  | 35 => ⟨S524288x1, .f32⟩
  | 36 => ⟨S524288x1, .f32⟩
  | 37 => ⟨S524288x1, .f32⟩
  | 38 => ⟨S524288x1, .f32⟩
  | 39 => ⟨S524288x1, .f32⟩
  | 40 => ⟨S_, .f32⟩
  | 41 => ⟨S524288, .f32⟩
  | 42 => ⟨S524288, .f32⟩
  | 43 => ⟨S524288x2, .f32⟩
  | 44 => ⟨S1, .i32⟩
  | 45 => ⟨S_, .i32⟩
  | 46 => ⟨S_, .i32⟩
  | 47 => ⟨S_, .i1⟩
  | 48 => ⟨S524288x2, .f32⟩
  | 49 => ⟨S524288x2, .f32⟩
  | 50 => ⟨S524288x1, .f32⟩
  | 51 => ⟨S524288x1, .f32⟩
  | 52 => ⟨S1x1x8x1, .f32⟩
  | 53 => ⟨S8x1, .f32⟩
  | 54 => ⟨S1x1x8, .f32⟩
  | 55 => ⟨S8, .f32⟩
  | 56 => ⟨S1x1x8x8, .f32⟩
  | 57 => ⟨S8x8, .f32⟩
  | 58 => ⟨S1x1x8, .f32⟩
  | 59 => ⟨S8, .f32⟩
  | 60 => ⟨S1x1x8x8, .f32⟩
  | 61 => ⟨S8x8, .f32⟩
  | 62 => ⟨S1x1x8, .f32⟩
  | 63 => ⟨S8, .f32⟩
  | 64 => ⟨S1x1x8x8, .f32⟩
  | 65 => ⟨S8x8, .f32⟩
  | 66 => ⟨S1x1x8, .f32⟩
  | 67 => ⟨S8, .f32⟩
  | 68 => ⟨S1x1x1x8, .f32⟩
  | 69 => ⟨S1x8, .f32⟩
  | 70 => ⟨S1x1x1, .f32⟩
  | 71 => ⟨S1, .f32⟩
  | 72 => ⟨S1x8, .f32⟩
  | 73 => ⟨S524288x8, .f32⟩
  | 74 => ⟨S1x8, .f32⟩
  | 75 => ⟨S524288x8, .f32⟩
  | 76 => ⟨S524288x8, .f32⟩
  | 77 => ⟨S_, .f32⟩
  | 78 => ⟨S_, .f32⟩
  | 79 => ⟨S524288x8, .f32⟩
  | 80 => ⟨S524288x8, .i1⟩
  | 81 => ⟨S_, .f32⟩
  | 82 => ⟨S524288x8, .f32⟩
  | 83 => ⟨S524288x8, .f32⟩
  | 84 => ⟨S524288x8, .f32⟩
  | 85 => ⟨S8x8, .f32⟩
  | 86 => ⟨S524288x8, .f32⟩
  | 87 => ⟨S1x8, .f32⟩
  | 88 => ⟨S524288x8, .f32⟩
  | 89 => ⟨S524288x8, .f32⟩
  | 90 => ⟨S_, .f32⟩
  | 91 => ⟨S_, .f32⟩
  | 92 => ⟨S524288x8, .f32⟩
  | 93 => ⟨S524288x8, .i1⟩
  | 94 => ⟨S_, .f32⟩
  | 95 => ⟨S524288x8, .f32⟩
  | 96 => ⟨S524288x8, .f32⟩
  | 97 => ⟨S524288x8, .f32⟩
  | 98 => ⟨S8x8, .f32⟩
  | 99 => ⟨S524288x8, .f32⟩
  | 100 => ⟨S1x8, .f32⟩
  | 101 => ⟨S524288x8, .f32⟩
  | 102 => ⟨S524288x8, .f32⟩
  | 103 => ⟨S_, .f32⟩
  | 104 => ⟨S_, .f32⟩
  | 105 => ⟨S524288x8, .f32⟩
  | 106 => ⟨S524288x8, .i1⟩
  | 107 => ⟨S_, .f32⟩
  | 108 => ⟨S524288x8, .f32⟩
  | 109 => ⟨S524288x8, .f32⟩
  | 110 => ⟨S524288x8, .f32⟩
  | 111 => ⟨S8x8, .f32⟩
  | 112 => ⟨S524288x8, .f32⟩
  | 113 => ⟨S1x8, .f32⟩
  | 114 => ⟨S524288x8, .f32⟩
  | 115 => ⟨S524288x8, .f32⟩
  | 116 => ⟨S_, .f32⟩
  | 117 => ⟨S_, .f32⟩
  | 118 => ⟨S524288x8, .f32⟩
  | 119 => ⟨S524288x8, .i1⟩
  | 120 => ⟨S_, .f32⟩
  | 121 => ⟨S524288x8, .f32⟩
  | 122 => ⟨S524288x8, .f32⟩
  | 123 => ⟨S524288x8, .f32⟩
  | 124 => ⟨S8x1, .f32⟩
  | 125 => ⟨S524288x1, .f32⟩
  | 126 => ⟨S1x1, .f32⟩
  | 127 => ⟨S524288x1, .f32⟩
  | _ => ⟨S524288x2, .f32⟩

abbrev hbmTy0_6 (i : Nat) : BufTy := match i % 128 with
  | 0 => ⟨S524288x1, .f32⟩
  | 1 => ⟨S1x1x8x1, .f32⟩
  | 2 => ⟨S8x1, .f32⟩
  | 3 => ⟨S1x1x8, .f32⟩
  | 4 => ⟨S8, .f32⟩
  | 5 => ⟨S1x1x8x8, .f32⟩
  | 6 => ⟨S8x8, .f32⟩
  | 7 => ⟨S1x1x8, .f32⟩
  | 8 => ⟨S8, .f32⟩
  | 9 => ⟨S1x1x8x8, .f32⟩
  | 10 => ⟨S8x8, .f32⟩
  | 11 => ⟨S1x1x8, .f32⟩
  | 12 => ⟨S8, .f32⟩
  | 13 => ⟨S1x1x8x8, .f32⟩
  | 14 => ⟨S8x8, .f32⟩
  | 15 => ⟨S1x1x8, .f32⟩
  | 16 => ⟨S8, .f32⟩
  | 17 => ⟨S1x1x1x8, .f32⟩
  | 18 => ⟨S1x8, .f32⟩
  | 19 => ⟨S1x1x1, .f32⟩
  | 20 => ⟨S1, .f32⟩
  | 21 => ⟨S1x8, .f32⟩
  | 22 => ⟨S524288x8, .f32⟩
  | 23 => ⟨S1x8, .f32⟩
  | 24 => ⟨S524288x8, .f32⟩
  | 25 => ⟨S524288x8, .f32⟩
  | 26 => ⟨S_, .f32⟩
  | 27 => ⟨S_, .f32⟩
  | 28 => ⟨S524288x8, .f32⟩
  | 29 => ⟨S524288x8, .i1⟩
  | 30 => ⟨S_, .f32⟩
  | 31 => ⟨S524288x8, .f32⟩
  | 32 => ⟨S524288x8, .f32⟩
  | 33 => ⟨S524288x8, .f32⟩
  | 34 => ⟨S8x8, .f32⟩
  | 35 => ⟨S524288x8, .f32⟩
  | 36 => ⟨S1x8, .f32⟩
  | 37 => ⟨S524288x8, .f32⟩
  | 38 => ⟨S524288x8, .f32⟩
  | 39 => ⟨S_, .f32⟩
  | 40 => ⟨S_, .f32⟩
  | 41 => ⟨S524288x8, .f32⟩
  | 42 => ⟨S524288x8, .i1⟩
  | 43 => ⟨S_, .f32⟩
  | 44 => ⟨S524288x8, .f32⟩
  | 45 => ⟨S524288x8, .f32⟩
  | 46 => ⟨S524288x8, .f32⟩
  | 47 => ⟨S8x8, .f32⟩
  | 48 => ⟨S524288x8, .f32⟩
  | 49 => ⟨S1x8, .f32⟩
  | 50 => ⟨S524288x8, .f32⟩
  | 51 => ⟨S524288x8, .f32⟩
  | 52 => ⟨S_, .f32⟩
  | 53 => ⟨S_, .f32⟩
  | 54 => ⟨S524288x8, .f32⟩
  | 55 => ⟨S524288x8, .i1⟩
  | 56 => ⟨S_, .f32⟩
  | 57 => ⟨S524288x8, .f32⟩
  | 58 => ⟨S524288x8, .f32⟩
  | 59 => ⟨S524288x8, .f32⟩
  | 60 => ⟨S8x8, .f32⟩
  | 61 => ⟨S524288x8, .f32⟩
  | 62 => ⟨S1x8, .f32⟩
  | 63 => ⟨S524288x8, .f32⟩
  | 64 => ⟨S524288x8, .f32⟩
  | 65 => ⟨S_, .f32⟩
  | 66 => ⟨S_, .f32⟩
  | 67 => ⟨S524288x8, .f32⟩
  | 68 => ⟨S524288x8, .i1⟩
  | 69 => ⟨S_, .f32⟩
  | 70 => ⟨S524288x8, .f32⟩
  | 71 => ⟨S524288x8, .f32⟩
  | 72 => ⟨S524288x8, .f32⟩
  | 73 => ⟨S8x1, .f32⟩
  | 74 => ⟨S524288x1, .f32⟩
  | 75 => ⟨S1x1, .f32⟩
  | 76 => ⟨S524288x1, .f32⟩
  | 77 => ⟨S524288x1, .f32⟩
  | 78 => ⟨S524288x1, .f32⟩
  | 79 => ⟨S524288x1, .f32⟩
  | 80 => ⟨S524288x1, .f32⟩
  | 81 => ⟨S_, .f32⟩
  | 82 => ⟨S524288, .f32⟩
  | 83 => ⟨S524288, .f32⟩
  | 84 => ⟨S524288x2, .f32⟩
  | 85 => ⟨S1, .i32⟩
  | 86 => ⟨S_, .i32⟩
  | 87 => ⟨S_, .i32⟩
  | 88 => ⟨S_, .i1⟩
  | 89 => ⟨S524288x2, .f32⟩
  | 90 => ⟨S524288x2, .f32⟩
  | 91 => ⟨S524288x1, .f32⟩
  | 92 => ⟨S524288x1, .f32⟩
  | 93 => ⟨S1x1x8x1, .f32⟩
  | 94 => ⟨S8x1, .f32⟩
  | 95 => ⟨S1x1x8, .f32⟩
  | 96 => ⟨S8, .f32⟩
  | 97 => ⟨S1x1x8x8, .f32⟩
  | 98 => ⟨S8x8, .f32⟩
  | 99 => ⟨S1x1x8, .f32⟩
  | 100 => ⟨S8, .f32⟩
  | 101 => ⟨S1x1x8x8, .f32⟩
  | 102 => ⟨S8x8, .f32⟩
  | 103 => ⟨S1x1x8, .f32⟩
  | 104 => ⟨S8, .f32⟩
  | 105 => ⟨S1x1x8x8, .f32⟩
  | 106 => ⟨S8x8, .f32⟩
  | 107 => ⟨S1x1x8, .f32⟩
  | 108 => ⟨S8, .f32⟩
  | 109 => ⟨S1x1x1x8, .f32⟩
  | 110 => ⟨S1x8, .f32⟩
  | 111 => ⟨S1x1x1, .f32⟩
  | 112 => ⟨S1, .f32⟩
  | 113 => ⟨S1x8, .f32⟩
  | 114 => ⟨S524288x8, .f32⟩
  | 115 => ⟨S1x8, .f32⟩
  | 116 => ⟨S524288x8, .f32⟩
  | 117 => ⟨S524288x8, .f32⟩
  | 118 => ⟨S_, .f32⟩
  | 119 => ⟨S_, .f32⟩
  | 120 => ⟨S524288x8, .f32⟩
  | 121 => ⟨S524288x8, .i1⟩
  | 122 => ⟨S_, .f32⟩
  | 123 => ⟨S524288x8, .f32⟩
  | 124 => ⟨S524288x8, .f32⟩
  | 125 => ⟨S524288x8, .f32⟩
  | 126 => ⟨S8x8, .f32⟩
  | 127 => ⟨S524288x8, .f32⟩
  | _ => ⟨S524288x2, .f32⟩

abbrev hbmTy0_7 (i : Nat) : BufTy := match i % 128 with
  | 0 => ⟨S1x8, .f32⟩
  | 1 => ⟨S524288x8, .f32⟩
  | 2 => ⟨S524288x8, .f32⟩
  | 3 => ⟨S_, .f32⟩
  | 4 => ⟨S_, .f32⟩
  | 5 => ⟨S524288x8, .f32⟩
  | 6 => ⟨S524288x8, .i1⟩
  | 7 => ⟨S_, .f32⟩
  | 8 => ⟨S524288x8, .f32⟩
  | 9 => ⟨S524288x8, .f32⟩
  | 10 => ⟨S524288x8, .f32⟩
  | 11 => ⟨S8x8, .f32⟩
  | 12 => ⟨S524288x8, .f32⟩
  | 13 => ⟨S1x8, .f32⟩
  | 14 => ⟨S524288x8, .f32⟩
  | 15 => ⟨S524288x8, .f32⟩
  | 16 => ⟨S_, .f32⟩
  | 17 => ⟨S_, .f32⟩
  | 18 => ⟨S524288x8, .f32⟩
  | 19 => ⟨S524288x8, .i1⟩
  | 20 => ⟨S_, .f32⟩
  | 21 => ⟨S524288x8, .f32⟩
  | 22 => ⟨S524288x8, .f32⟩
  | 23 => ⟨S524288x8, .f32⟩
  | 24 => ⟨S8x8, .f32⟩
  | 25 => ⟨S524288x8, .f32⟩
  | 26 => ⟨S1x8, .f32⟩
  | 27 => ⟨S524288x8, .f32⟩
  | 28 => ⟨S524288x8, .f32⟩
  | 29 => ⟨S_, .f32⟩
  | 30 => ⟨S_, .f32⟩
  | 31 => ⟨S524288x8, .f32⟩
  | 32 => ⟨S524288x8, .i1⟩
  | 33 => ⟨S_, .f32⟩
  | 34 => ⟨S524288x8, .f32⟩
  | 35 => ⟨S524288x8, .f32⟩
  | 36 => ⟨S524288x8, .f32⟩
  | 37 => ⟨S8x1, .f32⟩
  | 38 => ⟨S524288x1, .f32⟩
  | 39 => ⟨S1x1, .f32⟩
  | 40 => ⟨S524288x1, .f32⟩
  | 41 => ⟨S524288x1, .f32⟩
  | 42 => ⟨S1x1x8x1, .f32⟩
  | 43 => ⟨S8x1, .f32⟩
  | 44 => ⟨S1x1x8, .f32⟩
  | 45 => ⟨S8, .f32⟩
  | 46 => ⟨S1x1x8x8, .f32⟩
  | 47 => ⟨S8x8, .f32⟩
  | 48 => ⟨S1x1x8, .f32⟩
  | 49 => ⟨S8, .f32⟩
  | 50 => ⟨S1x1x8x8, .f32⟩
  | 51 => ⟨S8x8, .f32⟩
  | 52 => ⟨S1x1x8, .f32⟩
  | 53 => ⟨S8, .f32⟩
  | 54 => ⟨S1x1x8x8, .f32⟩
  | 55 => ⟨S8x8, .f32⟩
  | 56 => ⟨S1x1x8, .f32⟩
  | 57 => ⟨S8, .f32⟩
  | 58 => ⟨S1x1x1x8, .f32⟩
  | 59 => ⟨S1x8, .f32⟩
  | 60 => ⟨S1x1x1, .f32⟩
  | 61 => ⟨S1, .f32⟩
  | 62 => ⟨S1x8, .f32⟩
  | 63 => ⟨S524288x8, .f32⟩
  | 64 => ⟨S1x8, .f32⟩
  | 65 => ⟨S524288x8, .f32⟩
  | 66 => ⟨S524288x8, .f32⟩
  | 67 => ⟨S_, .f32⟩
  | 68 => ⟨S_, .f32⟩
  | 69 => ⟨S524288x8, .f32⟩
  | 70 => ⟨S524288x8, .i1⟩
  | 71 => ⟨S_, .f32⟩
  | 72 => ⟨S524288x8, .f32⟩
  | 73 => ⟨S524288x8, .f32⟩
  | 74 => ⟨S524288x8, .f32⟩
  | 75 => ⟨S8x8, .f32⟩
  | 76 => ⟨S524288x8, .f32⟩
  | 77 => ⟨S1x8, .f32⟩
  | 78 => ⟨S524288x8, .f32⟩
  | 79 => ⟨S524288x8, .f32⟩
  | 80 => ⟨S_, .f32⟩
  | 81 => ⟨S_, .f32⟩
  | 82 => ⟨S524288x8, .f32⟩
  | 83 => ⟨S524288x8, .i1⟩
  | 84 => ⟨S_, .f32⟩
  | 85 => ⟨S524288x8, .f32⟩
  | 86 => ⟨S524288x8, .f32⟩
  | 87 => ⟨S524288x8, .f32⟩
  | 88 => ⟨S8x8, .f32⟩
  | 89 => ⟨S524288x8, .f32⟩
  | 90 => ⟨S1x8, .f32⟩
  | 91 => ⟨S524288x8, .f32⟩
  | 92 => ⟨S524288x8, .f32⟩
  | 93 => ⟨S_, .f32⟩
  | 94 => ⟨S_, .f32⟩
  | 95 => ⟨S524288x8, .f32⟩
  | 96 => ⟨S524288x8, .i1⟩
  | 97 => ⟨S_, .f32⟩
  | 98 => ⟨S524288x8, .f32⟩
  | 99 => ⟨S524288x8, .f32⟩
  | 100 => ⟨S524288x8, .f32⟩
  | 101 => ⟨S8x8, .f32⟩
  | 102 => ⟨S524288x8, .f32⟩
  | 103 => ⟨S1x8, .f32⟩
  | 104 => ⟨S524288x8, .f32⟩
  | 105 => ⟨S524288x8, .f32⟩
  | 106 => ⟨S_, .f32⟩
  | 107 => ⟨S_, .f32⟩
  | 108 => ⟨S524288x8, .f32⟩
  | 109 => ⟨S524288x8, .i1⟩
  | 110 => ⟨S_, .f32⟩
  | 111 => ⟨S524288x8, .f32⟩
  | 112 => ⟨S524288x8, .f32⟩
  | 113 => ⟨S524288x8, .f32⟩
  | 114 => ⟨S8x1, .f32⟩
  | 115 => ⟨S524288x1, .f32⟩
  | 116 => ⟨S1x1, .f32⟩
  | 117 => ⟨S524288x1, .f32⟩
  | 118 => ⟨S524288x1, .f32⟩
  | 119 => ⟨S524288x1, .f32⟩
  | 120 => ⟨S524288x1, .f32⟩
  | 121 => ⟨S524288x1, .f32⟩
  | 122 => ⟨S_, .f32⟩
  | 123 => ⟨S524288, .f32⟩
  | 124 => ⟨S524288, .f32⟩
  | 125 => ⟨S524288x2, .f32⟩
  | 126 => ⟨S1, .i32⟩
  | 127 => ⟨S_, .i32⟩
  | _ => ⟨S524288x2, .f32⟩

abbrev hbmTy0_8 (i : Nat) : BufTy := match i % 128 with
  | 0 => ⟨S_, .i32⟩
  | 1 => ⟨S_, .i1⟩
  | 2 => ⟨S524288x2, .f32⟩
  | 3 => ⟨S524288x2, .f32⟩
  | 4 => ⟨S524288x1, .f32⟩
  | 5 => ⟨S524288x1, .f32⟩
  | 6 => ⟨S1x1x8x1, .f32⟩
  | 7 => ⟨S8x1, .f32⟩
  | 8 => ⟨S1x1x8, .f32⟩
  | 9 => ⟨S8, .f32⟩
  | 10 => ⟨S1x1x8x8, .f32⟩
  | 11 => ⟨S8x8, .f32⟩
  | 12 => ⟨S1x1x8, .f32⟩
  | 13 => ⟨S8, .f32⟩
  | 14 => ⟨S1x1x8x8, .f32⟩
  | 15 => ⟨S8x8, .f32⟩
  | 16 => ⟨S1x1x8, .f32⟩
  | 17 => ⟨S8, .f32⟩
  | 18 => ⟨S1x1x8x8, .f32⟩
  | 19 => ⟨S8x8, .f32⟩
  | 20 => ⟨S1x1x8, .f32⟩
  | 21 => ⟨S8, .f32⟩
  | 22 => ⟨S1x1x1x8, .f32⟩
  | 23 => ⟨S1x8, .f32⟩
  | 24 => ⟨S1x1x1, .f32⟩
  | 25 => ⟨S1, .f32⟩
  | 26 => ⟨S1x8, .f32⟩
  | 27 => ⟨S524288x8, .f32⟩
  | 28 => ⟨S1x8, .f32⟩
  | 29 => ⟨S524288x8, .f32⟩
  | 30 => ⟨S524288x8, .f32⟩
  | 31 => ⟨S_, .f32⟩
  | 32 => ⟨S_, .f32⟩
  | 33 => ⟨S524288x8, .f32⟩
  | 34 => ⟨S524288x8, .i1⟩
  | 35 => ⟨S_, .f32⟩
  | 36 => ⟨S524288x8, .f32⟩
  | 37 => ⟨S524288x8, .f32⟩
  | 38 => ⟨S524288x8, .f32⟩
  | 39 => ⟨S8x8, .f32⟩
  | 40 => ⟨S524288x8, .f32⟩
  | 41 => ⟨S1x8, .f32⟩
  | 42 => ⟨S524288x8, .f32⟩
  | 43 => ⟨S524288x8, .f32⟩
  | 44 => ⟨S_, .f32⟩
  | 45 => ⟨S_, .f32⟩
  | 46 => ⟨S524288x8, .f32⟩
  | 47 => ⟨S524288x8, .i1⟩
  | 48 => ⟨S_, .f32⟩
  | 49 => ⟨S524288x8, .f32⟩
  | 50 => ⟨S524288x8, .f32⟩
  | 51 => ⟨S524288x8, .f32⟩
  | 52 => ⟨S8x8, .f32⟩
  | 53 => ⟨S524288x8, .f32⟩
  | 54 => ⟨S1x8, .f32⟩
  | 55 => ⟨S524288x8, .f32⟩
  | 56 => ⟨S524288x8, .f32⟩
  | 57 => ⟨S_, .f32⟩
  | 58 => ⟨S_, .f32⟩
  | 59 => ⟨S524288x8, .f32⟩
  | 60 => ⟨S524288x8, .i1⟩
  | 61 => ⟨S_, .f32⟩
  | 62 => ⟨S524288x8, .f32⟩
  | 63 => ⟨S524288x8, .f32⟩
  | 64 => ⟨S524288x8, .f32⟩
  | 65 => ⟨S8x8, .f32⟩
  | 66 => ⟨S524288x8, .f32⟩
  | 67 => ⟨S1x8, .f32⟩
  | 68 => ⟨S524288x8, .f32⟩
  | 69 => ⟨S524288x8, .f32⟩
  | 70 => ⟨S_, .f32⟩
  | 71 => ⟨S_, .f32⟩
  | 72 => ⟨S524288x8, .f32⟩
  | 73 => ⟨S524288x8, .i1⟩
  | 74 => ⟨S_, .f32⟩
  | 75 => ⟨S524288x8, .f32⟩
  | 76 => ⟨S524288x8, .f32⟩
  | 77 => ⟨S524288x8, .f32⟩
  | 78 => ⟨S8x1, .f32⟩
  | 79 => ⟨S524288x1, .f32⟩
  | 80 => ⟨S1x1, .f32⟩
  | 81 => ⟨S524288x1, .f32⟩
  | 82 => ⟨S524288x1, .f32⟩
  | 83 => ⟨S1x1x8x1, .f32⟩
  | 84 => ⟨S8x1, .f32⟩
  | 85 => ⟨S1x1x8, .f32⟩
  | 86 => ⟨S8, .f32⟩
  | 87 => ⟨S1x1x8x8, .f32⟩
  | 88 => ⟨S8x8, .f32⟩
  | 89 => ⟨S1x1x8, .f32⟩
  | 90 => ⟨S8, .f32⟩
  | 91 => ⟨S1x1x8x8, .f32⟩
  | 92 => ⟨S8x8, .f32⟩
  | 93 => ⟨S1x1x8, .f32⟩
  | 94 => ⟨S8, .f32⟩
  | 95 => ⟨S1x1x8x8, .f32⟩
  | 96 => ⟨S8x8, .f32⟩
  | 97 => ⟨S1x1x8, .f32⟩
  | 98 => ⟨S8, .f32⟩
  | 99 => ⟨S1x1x1x8, .f32⟩
  | 100 => ⟨S1x8, .f32⟩
  | 101 => ⟨S1x1x1, .f32⟩
  | 102 => ⟨S1, .f32⟩
  | 103 => ⟨S1x8, .f32⟩
  | 104 => ⟨S524288x8, .f32⟩
  | 105 => ⟨S1x8, .f32⟩
  | 106 => ⟨S524288x8, .f32⟩
  | 107 => ⟨S524288x8, .f32⟩
  | 108 => ⟨S_, .f32⟩
  | 109 => ⟨S_, .f32⟩
  | 110 => ⟨S524288x8, .f32⟩
  | 111 => ⟨S524288x8, .i1⟩
  | 112 => ⟨S_, .f32⟩
  | 113 => ⟨S524288x8, .f32⟩
  | 114 => ⟨S524288x8, .f32⟩
  | 115 => ⟨S524288x8, .f32⟩
  | 116 => ⟨S8x8, .f32⟩
  | 117 => ⟨S524288x8, .f32⟩
  | 118 => ⟨S1x8, .f32⟩
  | 119 => ⟨S524288x8, .f32⟩
  | 120 => ⟨S524288x8, .f32⟩
  | 121 => ⟨S_, .f32⟩
  | 122 => ⟨S_, .f32⟩
  | 123 => ⟨S524288x8, .f32⟩
  | 124 => ⟨S524288x8, .i1⟩
  | 125 => ⟨S_, .f32⟩
  | 126 => ⟨S524288x8, .f32⟩
  | 127 => ⟨S524288x8, .f32⟩
  | _ => ⟨S524288x2, .f32⟩

abbrev hbmTy0_9 (i : Nat) : BufTy := match i % 128 with
  | 0 => ⟨S524288x8, .f32⟩
  | 1 => ⟨S8x8, .f32⟩
  | 2 => ⟨S524288x8, .f32⟩
  | 3 => ⟨S1x8, .f32⟩
  | 4 => ⟨S524288x8, .f32⟩
  | 5 => ⟨S524288x8, .f32⟩
  | 6 => ⟨S_, .f32⟩
  | 7 => ⟨S_, .f32⟩
  | 8 => ⟨S524288x8, .f32⟩
  | 9 => ⟨S524288x8, .i1⟩
  | 10 => ⟨S_, .f32⟩
  | 11 => ⟨S524288x8, .f32⟩
  | 12 => ⟨S524288x8, .f32⟩
  | 13 => ⟨S524288x8, .f32⟩
  | 14 => ⟨S8x8, .f32⟩
  | 15 => ⟨S524288x8, .f32⟩
  | 16 => ⟨S1x8, .f32⟩
  | 17 => ⟨S524288x8, .f32⟩
  | 18 => ⟨S524288x8, .f32⟩
  | 19 => ⟨S_, .f32⟩
  | 20 => ⟨S_, .f32⟩
  | 21 => ⟨S524288x8, .f32⟩
  | 22 => ⟨S524288x8, .i1⟩
  | 23 => ⟨S_, .f32⟩
  | 24 => ⟨S524288x8, .f32⟩
  | 25 => ⟨S524288x8, .f32⟩
  | 26 => ⟨S524288x8, .f32⟩
  | 27 => ⟨S8x1, .f32⟩
  | 28 => ⟨S524288x1, .f32⟩
  | 29 => ⟨S1x1, .f32⟩
  | 30 => ⟨S524288x1, .f32⟩
  | 31 => ⟨S524288x1, .f32⟩
  | 32 => ⟨S524288x1, .f32⟩
  | 33 => ⟨S524288x1, .f32⟩
  | 34 => ⟨S524288x1, .f32⟩
  | 35 => ⟨S_, .f32⟩
  | 36 => ⟨S524288, .f32⟩
  | 37 => ⟨S524288, .f32⟩
  | 38 => ⟨S524288x2, .f32⟩
  | 39 => ⟨S1, .i32⟩
  | 40 => ⟨S_, .i32⟩
  | 41 => ⟨S_, .i32⟩
  | 42 => ⟨S_, .i1⟩
  | 43 => ⟨S524288x2, .f32⟩
  | 44 => ⟨S524288x2, .f32⟩
  | 45 => ⟨S524288x1, .f32⟩
  | 46 => ⟨S524288x1, .f32⟩
  | 47 => ⟨S1x1x8x1, .f32⟩
  | 48 => ⟨S8x1, .f32⟩
  | 49 => ⟨S1x1x8, .f32⟩
  | 50 => ⟨S8, .f32⟩
  | 51 => ⟨S1x1x8x8, .f32⟩
  | 52 => ⟨S8x8, .f32⟩
  | 53 => ⟨S1x1x8, .f32⟩
  | 54 => ⟨S8, .f32⟩
  | 55 => ⟨S1x1x8x8, .f32⟩
  | 56 => ⟨S8x8, .f32⟩
  | 57 => ⟨S1x1x8, .f32⟩
  | 58 => ⟨S8, .f32⟩
  | 59 => ⟨S1x1x8x8, .f32⟩
  | 60 => ⟨S8x8, .f32⟩
  | 61 => ⟨S1x1x8, .f32⟩
  | 62 => ⟨S8, .f32⟩
  | 63 => ⟨S1x1x1x8, .f32⟩
  | 64 => ⟨S1x8, .f32⟩
  | 65 => ⟨S1x1x1, .f32⟩
  | 66 => ⟨S1, .f32⟩
  | 67 => ⟨S1x8, .f32⟩
  | 68 => ⟨S524288x8, .f32⟩
  | 69 => ⟨S1x8, .f32⟩
  | 70 => ⟨S524288x8, .f32⟩
  | 71 => ⟨S524288x8, .f32⟩
  | 72 => ⟨S_, .f32⟩
  | 73 => ⟨S_, .f32⟩
  | 74 => ⟨S524288x8, .f32⟩
  | 75 => ⟨S524288x8, .i1⟩
  | 76 => ⟨S_, .f32⟩
  | 77 => ⟨S524288x8, .f32⟩
  | 78 => ⟨S524288x8, .f32⟩
  | 79 => ⟨S524288x8, .f32⟩
  | 80 => ⟨S8x8, .f32⟩
  | 81 => ⟨S524288x8, .f32⟩
  | 82 => ⟨S1x8, .f32⟩
  | 83 => ⟨S524288x8, .f32⟩
  | 84 => ⟨S524288x8, .f32⟩
  | 85 => ⟨S_, .f32⟩
  | 86 => ⟨S_, .f32⟩
  | 87 => ⟨S524288x8, .f32⟩
  | 88 => ⟨S524288x8, .i1⟩
  | 89 => ⟨S_, .f32⟩
  | 90 => ⟨S524288x8, .f32⟩
  | 91 => ⟨S524288x8, .f32⟩
  | 92 => ⟨S524288x8, .f32⟩
  | 93 => ⟨S8x8, .f32⟩
  | 94 => ⟨S524288x8, .f32⟩
  | 95 => ⟨S1x8, .f32⟩
  | 96 => ⟨S524288x8, .f32⟩
  | 97 => ⟨S524288x8, .f32⟩
  | 98 => ⟨S_, .f32⟩
  | 99 => ⟨S_, .f32⟩
  | 100 => ⟨S524288x8, .f32⟩
  | 101 => ⟨S524288x8, .i1⟩
  | 102 => ⟨S_, .f32⟩
  | 103 => ⟨S524288x8, .f32⟩
  | 104 => ⟨S524288x8, .f32⟩
  | 105 => ⟨S524288x8, .f32⟩
  | 106 => ⟨S8x8, .f32⟩
  | 107 => ⟨S524288x8, .f32⟩
  | 108 => ⟨S1x8, .f32⟩
  | 109 => ⟨S524288x8, .f32⟩
  | 110 => ⟨S524288x8, .f32⟩
  | 111 => ⟨S_, .f32⟩
  | 112 => ⟨S_, .f32⟩
  | 113 => ⟨S524288x8, .f32⟩
  | 114 => ⟨S524288x8, .i1⟩
  | 115 => ⟨S_, .f32⟩
  | 116 => ⟨S524288x8, .f32⟩
  | 117 => ⟨S524288x8, .f32⟩
  | 118 => ⟨S524288x8, .f32⟩
  | 119 => ⟨S8x1, .f32⟩
  | 120 => ⟨S524288x1, .f32⟩
  | 121 => ⟨S1x1, .f32⟩
  | 122 => ⟨S524288x1, .f32⟩
  | 123 => ⟨S524288x1, .f32⟩
  | 124 => ⟨S1x1x8x1, .f32⟩
  | 125 => ⟨S8x1, .f32⟩
  | 126 => ⟨S1x1x8, .f32⟩
  | 127 => ⟨S8, .f32⟩
  | _ => ⟨S524288x2, .f32⟩

abbrev hbmTy0_10 (i : Nat) : BufTy := match i % 128 with
  | 0 => ⟨S1x1x8x8, .f32⟩
  | 1 => ⟨S8x8, .f32⟩
  | 2 => ⟨S1x1x8, .f32⟩
  | 3 => ⟨S8, .f32⟩
  | 4 => ⟨S1x1x8x8, .f32⟩
  | 5 => ⟨S8x8, .f32⟩
  | 6 => ⟨S1x1x8, .f32⟩
  | 7 => ⟨S8, .f32⟩
  | 8 => ⟨S1x1x8x8, .f32⟩
  | 9 => ⟨S8x8, .f32⟩
  | 10 => ⟨S1x1x8, .f32⟩
  | 11 => ⟨S8, .f32⟩
  | 12 => ⟨S1x1x1x8, .f32⟩
  | 13 => ⟨S1x8, .f32⟩
  | 14 => ⟨S1x1x1, .f32⟩
  | 15 => ⟨S1, .f32⟩
  | 16 => ⟨S1x8, .f32⟩
  | 17 => ⟨S524288x8, .f32⟩
  | 18 => ⟨S1x8, .f32⟩
  | 19 => ⟨S524288x8, .f32⟩
  | 20 => ⟨S524288x8, .f32⟩
  | 21 => ⟨S_, .f32⟩
  | 22 => ⟨S_, .f32⟩
  | 23 => ⟨S524288x8, .f32⟩
  | 24 => ⟨S524288x8, .i1⟩
  | 25 => ⟨S_, .f32⟩
  | 26 => ⟨S524288x8, .f32⟩
  | 27 => ⟨S524288x8, .f32⟩
  | 28 => ⟨S524288x8, .f32⟩
  | 29 => ⟨S8x8, .f32⟩
  | 30 => ⟨S524288x8, .f32⟩
  | 31 => ⟨S1x8, .f32⟩
  | 32 => ⟨S524288x8, .f32⟩
  | 33 => ⟨S524288x8, .f32⟩
  | 34 => ⟨S_, .f32⟩
  | 35 => ⟨S_, .f32⟩
  | 36 => ⟨S524288x8, .f32⟩
  | 37 => ⟨S524288x8, .i1⟩
  | 38 => ⟨S_, .f32⟩
  | 39 => ⟨S524288x8, .f32⟩
  | 40 => ⟨S524288x8, .f32⟩
  | 41 => ⟨S524288x8, .f32⟩
  | 42 => ⟨S8x8, .f32⟩
  | 43 => ⟨S524288x8, .f32⟩
  | 44 => ⟨S1x8, .f32⟩
  | 45 => ⟨S524288x8, .f32⟩
  | 46 => ⟨S524288x8, .f32⟩
  | 47 => ⟨S_, .f32⟩
  | 48 => ⟨S_, .f32⟩
  | 49 => ⟨S524288x8, .f32⟩
  | 50 => ⟨S524288x8, .i1⟩
  | 51 => ⟨S_, .f32⟩
  | 52 => ⟨S524288x8, .f32⟩
  | 53 => ⟨S524288x8, .f32⟩
  | 54 => ⟨S524288x8, .f32⟩
  | 55 => ⟨S8x8, .f32⟩
  | 56 => ⟨S524288x8, .f32⟩
  | 57 => ⟨S1x8, .f32⟩
  | 58 => ⟨S524288x8, .f32⟩
  | 59 => ⟨S524288x8, .f32⟩
  | 60 => ⟨S_, .f32⟩
  | 61 => ⟨S_, .f32⟩
  | 62 => ⟨S524288x8, .f32⟩
  | 63 => ⟨S524288x8, .i1⟩
  | 64 => ⟨S_, .f32⟩
  | 65 => ⟨S524288x8, .f32⟩
  | 66 => ⟨S524288x8, .f32⟩
  | 67 => ⟨S524288x8, .f32⟩
  | 68 => ⟨S8x1, .f32⟩
  | 69 => ⟨S524288x1, .f32⟩
  | 70 => ⟨S1x1, .f32⟩
  | 71 => ⟨S524288x1, .f32⟩
  | 72 => ⟨S524288x1, .f32⟩
  | 73 => ⟨S524288x1, .f32⟩
  | 74 => ⟨S524288x1, .f32⟩
  | 75 => ⟨S524288x1, .f32⟩
  | 76 => ⟨S_, .f32⟩
  | 77 => ⟨S524288, .f32⟩
  | 78 => ⟨S524288, .f32⟩
  | 79 => ⟨S524288x2, .f32⟩
  | 80 => ⟨S1, .i32⟩
  | 81 => ⟨S_, .i32⟩
  | 82 => ⟨S_, .i32⟩
  | 83 => ⟨S_, .i1⟩
  | 84 => ⟨S524288x2, .f32⟩
  | 85 => ⟨S524288x2, .f32⟩
  | 86 => ⟨S524288x1, .f32⟩
  | 87 => ⟨S524288x1, .f32⟩
  | 88 => ⟨S1x1x8x1, .f32⟩
  | 89 => ⟨S8x1, .f32⟩
  | 90 => ⟨S1x1x8, .f32⟩
  | 91 => ⟨S8, .f32⟩
  | 92 => ⟨S1x1x8x8, .f32⟩
  | 93 => ⟨S8x8, .f32⟩
  | 94 => ⟨S1x1x8, .f32⟩
  | 95 => ⟨S8, .f32⟩
  | 96 => ⟨S1x1x8x8, .f32⟩
  | 97 => ⟨S8x8, .f32⟩
  | 98 => ⟨S1x1x8, .f32⟩
  | 99 => ⟨S8, .f32⟩
  | 100 => ⟨S1x1x8x8, .f32⟩
  | 101 => ⟨S8x8, .f32⟩
  | 102 => ⟨S1x1x8, .f32⟩
  | 103 => ⟨S8, .f32⟩
  | 104 => ⟨S1x1x1x8, .f32⟩
  | 105 => ⟨S1x8, .f32⟩
  | 106 => ⟨S1x1x1, .f32⟩
  | 107 => ⟨S1, .f32⟩
  | 108 => ⟨S1x8, .f32⟩
  | 109 => ⟨S524288x8, .f32⟩
  | 110 => ⟨S1x8, .f32⟩
  | 111 => ⟨S524288x8, .f32⟩
  | 112 => ⟨S524288x8, .f32⟩
  | 113 => ⟨S_, .f32⟩
  | 114 => ⟨S_, .f32⟩
  | 115 => ⟨S524288x8, .f32⟩
  | 116 => ⟨S524288x8, .i1⟩
  | 117 => ⟨S_, .f32⟩
  | 118 => ⟨S524288x8, .f32⟩
  | 119 => ⟨S524288x8, .f32⟩
  | 120 => ⟨S524288x8, .f32⟩
  | 121 => ⟨S8x8, .f32⟩
  | 122 => ⟨S524288x8, .f32⟩
  | 123 => ⟨S1x8, .f32⟩
  | 124 => ⟨S524288x8, .f32⟩
  | 125 => ⟨S524288x8, .f32⟩
  | 126 => ⟨S_, .f32⟩
  | 127 => ⟨S_, .f32⟩
  | _ => ⟨S524288x2, .f32⟩

abbrev hbmTy0_11 (i : Nat) : BufTy := match i % 128 with
  | 0 => ⟨S524288x8, .f32⟩
  | 1 => ⟨S524288x8, .i1⟩
  | 2 => ⟨S_, .f32⟩
  | 3 => ⟨S524288x8, .f32⟩
  | 4 => ⟨S524288x8, .f32⟩
  | 5 => ⟨S524288x8, .f32⟩
  | 6 => ⟨S8x8, .f32⟩
  | 7 => ⟨S524288x8, .f32⟩
  | 8 => ⟨S1x8, .f32⟩
  | 9 => ⟨S524288x8, .f32⟩
  | 10 => ⟨S524288x8, .f32⟩
  | 11 => ⟨S_, .f32⟩
  | 12 => ⟨S_, .f32⟩
  | 13 => ⟨S524288x8, .f32⟩
  | 14 => ⟨S524288x8, .i1⟩
  | 15 => ⟨S_, .f32⟩
  | 16 => ⟨S524288x8, .f32⟩
  | 17 => ⟨S524288x8, .f32⟩
  | 18 => ⟨S524288x8, .f32⟩
  | 19 => ⟨S8x8, .f32⟩
  | 20 => ⟨S524288x8, .f32⟩
  | 21 => ⟨S1x8, .f32⟩
  | 22 => ⟨S524288x8, .f32⟩
  | 23 => ⟨S524288x8, .f32⟩
  | 24 => ⟨S_, .f32⟩
  | 25 => ⟨S_, .f32⟩
  | 26 => ⟨S524288x8, .f32⟩
  | 27 => ⟨S524288x8, .i1⟩
  | 28 => ⟨S_, .f32⟩
  | 29 => ⟨S524288x8, .f32⟩
  | 30 => ⟨S524288x8, .f32⟩
  | 31 => ⟨S524288x8, .f32⟩
  | 32 => ⟨S8x1, .f32⟩
  | 33 => ⟨S524288x1, .f32⟩
  | 34 => ⟨S1x1, .f32⟩
  | 35 => ⟨S524288x1, .f32⟩
  | 36 => ⟨S524288x1, .f32⟩
  | 37 => ⟨S1x1x8x1, .f32⟩
  | 38 => ⟨S8x1, .f32⟩
  | 39 => ⟨S1x1x8, .f32⟩
  | 40 => ⟨S8, .f32⟩
  | 41 => ⟨S1x1x8x8, .f32⟩
  | 42 => ⟨S8x8, .f32⟩
  | 43 => ⟨S1x1x8, .f32⟩
  | 44 => ⟨S8, .f32⟩
  | 45 => ⟨S1x1x8x8, .f32⟩
  | 46 => ⟨S8x8, .f32⟩
  | 47 => ⟨S1x1x8, .f32⟩
  | 48 => ⟨S8, .f32⟩
  | 49 => ⟨S1x1x8x8, .f32⟩
  | 50 => ⟨S8x8, .f32⟩
  | 51 => ⟨S1x1x8, .f32⟩
  | 52 => ⟨S8, .f32⟩
  | 53 => ⟨S1x1x1x8, .f32⟩
  | 54 => ⟨S1x8, .f32⟩
  | 55 => ⟨S1x1x1, .f32⟩
  | 56 => ⟨S1, .f32⟩
  | 57 => ⟨S1x8, .f32⟩
  | 58 => ⟨S524288x8, .f32⟩
  | 59 => ⟨S1x8, .f32⟩
  | 60 => ⟨S524288x8, .f32⟩
  | 61 => ⟨S524288x8, .f32⟩
  | 62 => ⟨S_, .f32⟩
  | 63 => ⟨S_, .f32⟩
  | 64 => ⟨S524288x8, .f32⟩
  | 65 => ⟨S524288x8, .i1⟩
  | 66 => ⟨S_, .f32⟩
  | 67 => ⟨S524288x8, .f32⟩
  | 68 => ⟨S524288x8, .f32⟩
  | 69 => ⟨S524288x8, .f32⟩
  | 70 => ⟨S8x8, .f32⟩
  | 71 => ⟨S524288x8, .f32⟩
  | 72 => ⟨S1x8, .f32⟩
  | 73 => ⟨S524288x8, .f32⟩
  | 74 => ⟨S524288x8, .f32⟩
  | 75 => ⟨S_, .f32⟩
  | 76 => ⟨S_, .f32⟩
  | 77 => ⟨S524288x8, .f32⟩
  | 78 => ⟨S524288x8, .i1⟩
  | 79 => ⟨S_, .f32⟩
  | 80 => ⟨S524288x8, .f32⟩
  | 81 => ⟨S524288x8, .f32⟩
  | 82 => ⟨S524288x8, .f32⟩
  | 83 => ⟨S8x8, .f32⟩
  | 84 => ⟨S524288x8, .f32⟩
  | 85 => ⟨S1x8, .f32⟩
  | 86 => ⟨S524288x8, .f32⟩
  | 87 => ⟨S524288x8, .f32⟩
  | 88 => ⟨S_, .f32⟩
  | 89 => ⟨S_, .f32⟩
  | 90 => ⟨S524288x8, .f32⟩
  | 91 => ⟨S524288x8, .i1⟩
  | 92 => ⟨S_, .f32⟩
  | 93 => ⟨S524288x8, .f32⟩
  | 94 => ⟨S524288x8, .f32⟩
  | 95 => ⟨S524288x8, .f32⟩
  | 96 => ⟨S8x8, .f32⟩
  | 97 => ⟨S524288x8, .f32⟩
  | 98 => ⟨S1x8, .f32⟩
  | 99 => ⟨S524288x8, .f32⟩
  | 100 => ⟨S524288x8, .f32⟩
  | 101 => ⟨S_, .f32⟩
  | 102 => ⟨S_, .f32⟩
  | 103 => ⟨S524288x8, .f32⟩
  | 104 => ⟨S524288x8, .i1⟩
  | 105 => ⟨S_, .f32⟩
  | 106 => ⟨S524288x8, .f32⟩
  | 107 => ⟨S524288x8, .f32⟩
  | 108 => ⟨S524288x8, .f32⟩
  | 109 => ⟨S8x1, .f32⟩
  | 110 => ⟨S524288x1, .f32⟩
  | 111 => ⟨S1x1, .f32⟩
  | 112 => ⟨S524288x1, .f32⟩
  | 113 => ⟨S524288x1, .f32⟩
  | 114 => ⟨S524288x1, .f32⟩
  | 115 => ⟨S524288x1, .f32⟩
  | 116 => ⟨S524288x1, .f32⟩
  | 117 => ⟨S_, .f32⟩
  | 118 => ⟨S524288, .f32⟩
  | 119 => ⟨S524288, .f32⟩
  | 120 => ⟨S524288x2, .f32⟩
  | 121 => ⟨S1, .i32⟩
  | 122 => ⟨S_, .i32⟩
  | 123 => ⟨S_, .i32⟩
  | 124 => ⟨S_, .i1⟩
  | 125 => ⟨S524288x2, .f32⟩
  | 126 => ⟨S524288x2, .f32⟩
  | 127 => ⟨S524288x1, .f32⟩
  | _ => ⟨S524288x2, .f32⟩

abbrev hbmTy0_12 (i : Nat) : BufTy := match i % 128 with
  | 0 => ⟨S524288x1, .f32⟩
  | 1 => ⟨S1x1x8x1, .f32⟩
  | 2 => ⟨S8x1, .f32⟩
  | 3 => ⟨S1x1x8, .f32⟩
  | 4 => ⟨S8, .f32⟩
  | 5 => ⟨S1x1x8x8, .f32⟩
  | 6 => ⟨S8x8, .f32⟩
  | 7 => ⟨S1x1x8, .f32⟩
  | 8 => ⟨S8, .f32⟩
  | 9 => ⟨S1x1x8x8, .f32⟩
  | 10 => ⟨S8x8, .f32⟩
  | 11 => ⟨S1x1x8, .f32⟩
  | 12 => ⟨S8, .f32⟩
  | 13 => ⟨S1x1x8x8, .f32⟩
  | 14 => ⟨S8x8, .f32⟩
  | 15 => ⟨S1x1x8, .f32⟩
  | 16 => ⟨S8, .f32⟩
  | 17 => ⟨S1x1x1x8, .f32⟩
  | 18 => ⟨S1x8, .f32⟩
  | 19 => ⟨S1x1x1, .f32⟩
  | 20 => ⟨S1, .f32⟩
  | 21 => ⟨S1x8, .f32⟩
  | 22 => ⟨S524288x8, .f32⟩
  | 23 => ⟨S1x8, .f32⟩
  | 24 => ⟨S524288x8, .f32⟩
  | 25 => ⟨S524288x8, .f32⟩
  | 26 => ⟨S_, .f32⟩
  | 27 => ⟨S_, .f32⟩
  | 28 => ⟨S524288x8, .f32⟩
  | 29 => ⟨S524288x8, .i1⟩
  | 30 => ⟨S_, .f32⟩
  | 31 => ⟨S524288x8, .f32⟩
  | 32 => ⟨S524288x8, .f32⟩
  | 33 => ⟨S524288x8, .f32⟩
  | 34 => ⟨S8x8, .f32⟩
  | 35 => ⟨S524288x8, .f32⟩
  | 36 => ⟨S1x8, .f32⟩
  | 37 => ⟨S524288x8, .f32⟩
  | 38 => ⟨S524288x8, .f32⟩
  | 39 => ⟨S_, .f32⟩
  | 40 => ⟨S_, .f32⟩
  | 41 => ⟨S524288x8, .f32⟩
  | 42 => ⟨S524288x8, .i1⟩
  | 43 => ⟨S_, .f32⟩
  | 44 => ⟨S524288x8, .f32⟩
  | 45 => ⟨S524288x8, .f32⟩
  | 46 => ⟨S524288x8, .f32⟩
  | 47 => ⟨S8x8, .f32⟩
  | 48 => ⟨S524288x8, .f32⟩
  | 49 => ⟨S1x8, .f32⟩
  | 50 => ⟨S524288x8, .f32⟩
  | 51 => ⟨S524288x8, .f32⟩
  | 52 => ⟨S_, .f32⟩
  | 53 => ⟨S_, .f32⟩
  | 54 => ⟨S524288x8, .f32⟩
  | 55 => ⟨S524288x8, .i1⟩
  | 56 => ⟨S_, .f32⟩
  | 57 => ⟨S524288x8, .f32⟩
  | 58 => ⟨S524288x8, .f32⟩
  | 59 => ⟨S524288x8, .f32⟩
  | 60 => ⟨S8x8, .f32⟩
  | 61 => ⟨S524288x8, .f32⟩
  | 62 => ⟨S1x8, .f32⟩
  | 63 => ⟨S524288x8, .f32⟩
  | 64 => ⟨S524288x8, .f32⟩
  | 65 => ⟨S_, .f32⟩
  | 66 => ⟨S_, .f32⟩
  | 67 => ⟨S524288x8, .f32⟩
  | 68 => ⟨S524288x8, .i1⟩
  | 69 => ⟨S_, .f32⟩
  | 70 => ⟨S524288x8, .f32⟩
  | 71 => ⟨S524288x8, .f32⟩
  | 72 => ⟨S524288x8, .f32⟩
  | 73 => ⟨S8x1, .f32⟩
  | 74 => ⟨S524288x1, .f32⟩
  | 75 => ⟨S1x1, .f32⟩
  | 76 => ⟨S524288x1, .f32⟩
  | 77 => ⟨S524288x1, .f32⟩
  | 78 => ⟨S1x1x8x1, .f32⟩
  | 79 => ⟨S8x1, .f32⟩
  | 80 => ⟨S1x1x8, .f32⟩
  | 81 => ⟨S8, .f32⟩
  | 82 => ⟨S1x1x8x8, .f32⟩
  | 83 => ⟨S8x8, .f32⟩
  | 84 => ⟨S1x1x8, .f32⟩
  | 85 => ⟨S8, .f32⟩
  | 86 => ⟨S1x1x8x8, .f32⟩
  | 87 => ⟨S8x8, .f32⟩
  | 88 => ⟨S1x1x8, .f32⟩
  | 89 => ⟨S8, .f32⟩
  | 90 => ⟨S1x1x8x8, .f32⟩
  | 91 => ⟨S8x8, .f32⟩
  | 92 => ⟨S1x1x8, .f32⟩
  | 93 => ⟨S8, .f32⟩
  | 94 => ⟨S1x1x1x8, .f32⟩
  | 95 => ⟨S1x8, .f32⟩
  | 96 => ⟨S1x1x1, .f32⟩
  | 97 => ⟨S1, .f32⟩
  | 98 => ⟨S1x8, .f32⟩
  | 99 => ⟨S524288x8, .f32⟩
  | 100 => ⟨S1x8, .f32⟩
  | 101 => ⟨S524288x8, .f32⟩
  | 102 => ⟨S524288x8, .f32⟩
  | 103 => ⟨S_, .f32⟩
  | 104 => ⟨S_, .f32⟩
  | 105 => ⟨S524288x8, .f32⟩
  | 106 => ⟨S524288x8, .i1⟩
  | 107 => ⟨S_, .f32⟩
  | 108 => ⟨S524288x8, .f32⟩
  | 109 => ⟨S524288x8, .f32⟩
  | 110 => ⟨S524288x8, .f32⟩
  | 111 => ⟨S8x8, .f32⟩
  | 112 => ⟨S524288x8, .f32⟩
  | 113 => ⟨S1x8, .f32⟩
  | 114 => ⟨S524288x8, .f32⟩
  | 115 => ⟨S524288x8, .f32⟩
  | 116 => ⟨S_, .f32⟩
  | 117 => ⟨S_, .f32⟩
  | 118 => ⟨S524288x8, .f32⟩
  | 119 => ⟨S524288x8, .i1⟩
  | 120 => ⟨S_, .f32⟩
  | 121 => ⟨S524288x8, .f32⟩
  | 122 => ⟨S524288x8, .f32⟩
  | 123 => ⟨S524288x8, .f32⟩
  | 124 => ⟨S8x8, .f32⟩
  | 125 => ⟨S524288x8, .f32⟩
  | 126 => ⟨S1x8, .f32⟩
  | 127 => ⟨S524288x8, .f32⟩
  | _ => ⟨S524288x2, .f32⟩

abbrev hbmTy0_13 (i : Nat) : BufTy := match i % 128 with
  | 0 => ⟨S524288x8, .f32⟩
  | 1 => ⟨S_, .f32⟩
  | 2 => ⟨S_, .f32⟩
  | 3 => ⟨S524288x8, .f32⟩
  | 4 => ⟨S524288x8, .i1⟩
  | 5 => ⟨S_, .f32⟩
  | 6 => ⟨S524288x8, .f32⟩
  | 7 => ⟨S524288x8, .f32⟩
  | 8 => ⟨S524288x8, .f32⟩
  | 9 => ⟨S8x8, .f32⟩
  | 10 => ⟨S524288x8, .f32⟩
  | 11 => ⟨S1x8, .f32⟩
  | 12 => ⟨S524288x8, .f32⟩
  | 13 => ⟨S524288x8, .f32⟩
  | 14 => ⟨S_, .f32⟩
  | 15 => ⟨S_, .f32⟩
  | 16 => ⟨S524288x8, .f32⟩
  | 17 => ⟨S524288x8, .i1⟩
  | 18 => ⟨S_, .f32⟩
  | 19 => ⟨S524288x8, .f32⟩
  | 20 => ⟨S524288x8, .f32⟩
  | 21 => ⟨S524288x8, .f32⟩
  | 22 => ⟨S8x1, .f32⟩
  | 23 => ⟨S524288x1, .f32⟩
  | 24 => ⟨S1x1, .f32⟩
  | 25 => ⟨S524288x1, .f32⟩
  | 26 => ⟨S524288x1, .f32⟩
  | 27 => ⟨S524288x1, .f32⟩
  | 28 => ⟨S524288x1, .f32⟩
  | 29 => ⟨S524288x1, .f32⟩
  | 30 => ⟨S_, .f32⟩
  | 31 => ⟨S524288, .f32⟩
  | 32 => ⟨S524288, .f32⟩
  | 33 => ⟨S524288x2, .f32⟩
  | 34 => ⟨S1, .i32⟩
  | 35 => ⟨S_, .i32⟩
  | 36 => ⟨S_, .i32⟩
  | 37 => ⟨S_, .i1⟩
  | 38 => ⟨S524288x2, .f32⟩
  | 39 => ⟨S524288x2, .f32⟩
  | 40 => ⟨S524288x1, .f32⟩
  | 41 => ⟨S524288x1, .f32⟩
  | 42 => ⟨S1x1x8x1, .f32⟩
  | 43 => ⟨S8x1, .f32⟩
  | 44 => ⟨S1x1x8, .f32⟩
  | 45 => ⟨S8, .f32⟩
  | 46 => ⟨S1x1x8x8, .f32⟩
  | 47 => ⟨S8x8, .f32⟩
  | 48 => ⟨S1x1x8, .f32⟩
  | 49 => ⟨S8, .f32⟩
  | 50 => ⟨S1x1x8x8, .f32⟩
  | 51 => ⟨S8x8, .f32⟩
  | 52 => ⟨S1x1x8, .f32⟩
  | 53 => ⟨S8, .f32⟩
  | 54 => ⟨S1x1x8x8, .f32⟩
  | 55 => ⟨S8x8, .f32⟩
  | 56 => ⟨S1x1x8, .f32⟩
  | 57 => ⟨S8, .f32⟩
  | 58 => ⟨S1x1x1x8, .f32⟩
  | 59 => ⟨S1x8, .f32⟩
  | 60 => ⟨S1x1x1, .f32⟩
  | 61 => ⟨S1, .f32⟩
  | 62 => ⟨S1x8, .f32⟩
  | 63 => ⟨S524288x8, .f32⟩
  | 64 => ⟨S1x8, .f32⟩
  | 65 => ⟨S524288x8, .f32⟩
  | 66 => ⟨S524288x8, .f32⟩
  | 67 => ⟨S_, .f32⟩
  | 68 => ⟨S_, .f32⟩
  | 69 => ⟨S524288x8, .f32⟩
  | 70 => ⟨S524288x8, .i1⟩
  | 71 => ⟨S_, .f32⟩
  | 72 => ⟨S524288x8, .f32⟩
  | 73 => ⟨S524288x8, .f32⟩
  | 74 => ⟨S524288x8, .f32⟩
  | 75 => ⟨S8x8, .f32⟩
  | 76 => ⟨S524288x8, .f32⟩
  | 77 => ⟨S1x8, .f32⟩
  | 78 => ⟨S524288x8, .f32⟩
  | 79 => ⟨S524288x8, .f32⟩
  | 80 => ⟨S_, .f32⟩
  | 81 => ⟨S_, .f32⟩
  | 82 => ⟨S524288x8, .f32⟩
  | 83 => ⟨S524288x8, .i1⟩
  | 84 => ⟨S_, .f32⟩
  | 85 => ⟨S524288x8, .f32⟩
  | 86 => ⟨S524288x8, .f32⟩
  | 87 => ⟨S524288x8, .f32⟩
  | 88 => ⟨S8x8, .f32⟩
  | 89 => ⟨S524288x8, .f32⟩
  | 90 => ⟨S1x8, .f32⟩
  | 91 => ⟨S524288x8, .f32⟩
  | 92 => ⟨S524288x8, .f32⟩
  | 93 => ⟨S_, .f32⟩
  | 94 => ⟨S_, .f32⟩
  | 95 => ⟨S524288x8, .f32⟩
  | 96 => ⟨S524288x8, .i1⟩
  | 97 => ⟨S_, .f32⟩
  | 98 => ⟨S524288x8, .f32⟩
  | 99 => ⟨S524288x8, .f32⟩
  | 100 => ⟨S524288x8, .f32⟩
  | 101 => ⟨S8x8, .f32⟩
  | 102 => ⟨S524288x8, .f32⟩
  | 103 => ⟨S1x8, .f32⟩
  | 104 => ⟨S524288x8, .f32⟩
  | 105 => ⟨S524288x8, .f32⟩
  | 106 => ⟨S_, .f32⟩
  | 107 => ⟨S_, .f32⟩
  | 108 => ⟨S524288x8, .f32⟩
  | 109 => ⟨S524288x8, .i1⟩
  | 110 => ⟨S_, .f32⟩
  | 111 => ⟨S524288x8, .f32⟩
  | 112 => ⟨S524288x8, .f32⟩
  | 113 => ⟨S524288x8, .f32⟩
  | 114 => ⟨S8x1, .f32⟩
  | 115 => ⟨S524288x1, .f32⟩
  | 116 => ⟨S1x1, .f32⟩
  | 117 => ⟨S524288x1, .f32⟩
  | 118 => ⟨S524288x1, .f32⟩
  | 119 => ⟨S1x1x8x1, .f32⟩
  | 120 => ⟨S8x1, .f32⟩
  | 121 => ⟨S1x1x8, .f32⟩
  | 122 => ⟨S8, .f32⟩
  | 123 => ⟨S1x1x8x8, .f32⟩
  | 124 => ⟨S8x8, .f32⟩
  | 125 => ⟨S1x1x8, .f32⟩
  | 126 => ⟨S8, .f32⟩
  | 127 => ⟨S1x1x8x8, .f32⟩
  | _ => ⟨S524288x2, .f32⟩

abbrev hbmTy0_14 (i : Nat) : BufTy := match i % 128 with
  | 0 => ⟨S8x8, .f32⟩
  | 1 => ⟨S1x1x8, .f32⟩
  | 2 => ⟨S8, .f32⟩
  | 3 => ⟨S1x1x8x8, .f32⟩
  | 4 => ⟨S8x8, .f32⟩
  | 5 => ⟨S1x1x8, .f32⟩
  | 6 => ⟨S8, .f32⟩
  | 7 => ⟨S1x1x1x8, .f32⟩
  | 8 => ⟨S1x8, .f32⟩
  | 9 => ⟨S1x1x1, .f32⟩
  | 10 => ⟨S1, .f32⟩
  | 11 => ⟨S1x8, .f32⟩
  | 12 => ⟨S524288x8, .f32⟩
  | 13 => ⟨S1x8, .f32⟩
  | 14 => ⟨S524288x8, .f32⟩
  | 15 => ⟨S524288x8, .f32⟩
  | 16 => ⟨S_, .f32⟩
  | 17 => ⟨S_, .f32⟩
  | 18 => ⟨S524288x8, .f32⟩
  | 19 => ⟨S524288x8, .i1⟩
  | 20 => ⟨S_, .f32⟩
  | 21 => ⟨S524288x8, .f32⟩
  | 22 => ⟨S524288x8, .f32⟩
  | 23 => ⟨S524288x8, .f32⟩
  | 24 => ⟨S8x8, .f32⟩
  | 25 => ⟨S524288x8, .f32⟩
  | 26 => ⟨S1x8, .f32⟩
  | 27 => ⟨S524288x8, .f32⟩
  | 28 => ⟨S524288x8, .f32⟩
  | 29 => ⟨S_, .f32⟩
  | 30 => ⟨S_, .f32⟩
  | 31 => ⟨S524288x8, .f32⟩
  | 32 => ⟨S524288x8, .i1⟩
  | 33 => ⟨S_, .f32⟩
  | 34 => ⟨S524288x8, .f32⟩
  | 35 => ⟨S524288x8, .f32⟩
  | 36 => ⟨S524288x8, .f32⟩
  | 37 => ⟨S8x8, .f32⟩
  | 38 => ⟨S524288x8, .f32⟩
  | 39 => ⟨S1x8, .f32⟩
  | 40 => ⟨S524288x8, .f32⟩
  | 41 => ⟨S524288x8, .f32⟩
  | 42 => ⟨S_, .f32⟩
  | 43 => ⟨S_, .f32⟩
  | 44 => ⟨S524288x8, .f32⟩
  | 45 => ⟨S524288x8, .i1⟩
  | 46 => ⟨S_, .f32⟩
  | 47 => ⟨S524288x8, .f32⟩
  | 48 => ⟨S524288x8, .f32⟩
  | 49 => ⟨S524288x8, .f32⟩
  | 50 => ⟨S8x8, .f32⟩
  | 51 => ⟨S524288x8, .f32⟩
  | 52 => ⟨S1x8, .f32⟩
  | 53 => ⟨S524288x8, .f32⟩
  | 54 => ⟨S524288x8, .f32⟩
  | 55 => ⟨S_, .f32⟩
  | 56 => ⟨S_, .f32⟩
  | 57 => ⟨S524288x8, .f32⟩
  | 58 => ⟨S524288x8, .i1⟩
  | 59 => ⟨S_, .f32⟩
  | 60 => ⟨S524288x8, .f32⟩
  | 61 => ⟨S524288x8, .f32⟩
  | 62 => ⟨S524288x8, .f32⟩
  | 63 => ⟨S8x1, .f32⟩
  | 64 => ⟨S524288x1, .f32⟩
  | 65 => ⟨S1x1, .f32⟩
  | 66 => ⟨S524288x1, .f32⟩
  | 67 => ⟨S524288x1, .f32⟩
  | 68 => ⟨S524288x1, .f32⟩
  | 69 => ⟨S524288x1, .f32⟩
  | 70 => ⟨S524288x1, .f32⟩
  | 71 => ⟨S_, .f32⟩
  | 72 => ⟨S524288, .f32⟩
  | 73 => ⟨S524288, .f32⟩
  | 74 => ⟨S524288x2, .f32⟩
  | 75 => ⟨S1, .i32⟩
  | 76 => ⟨S_, .i32⟩
  | 77 => ⟨S_, .i32⟩
  | 78 => ⟨S_, .i1⟩
  | 79 => ⟨S524288x2, .f32⟩
  | 80 => ⟨S524288x2, .f32⟩
  | 81 => ⟨S524288x1, .f32⟩
  | 82 => ⟨S524288x1, .f32⟩
  | 83 => ⟨S1x1x8x1, .f32⟩
  | 84 => ⟨S8x1, .f32⟩
  | 85 => ⟨S1x1x8, .f32⟩
  | 86 => ⟨S8, .f32⟩
  | 87 => ⟨S1x1x8x8, .f32⟩
  | 88 => ⟨S8x8, .f32⟩
  | 89 => ⟨S1x1x8, .f32⟩
  | 90 => ⟨S8, .f32⟩
  | 91 => ⟨S1x1x8x8, .f32⟩
  | 92 => ⟨S8x8, .f32⟩
  | 93 => ⟨S1x1x8, .f32⟩
  | 94 => ⟨S8, .f32⟩
  | 95 => ⟨S1x1x8x8, .f32⟩
  | 96 => ⟨S8x8, .f32⟩
  | 97 => ⟨S1x1x8, .f32⟩
  | 98 => ⟨S8, .f32⟩
  | 99 => ⟨S1x1x1x8, .f32⟩
  | 100 => ⟨S1x8, .f32⟩
  | 101 => ⟨S1x1x1, .f32⟩
  | 102 => ⟨S1, .f32⟩
  | 103 => ⟨S1x8, .f32⟩
  | 104 => ⟨S524288x8, .f32⟩
  | 105 => ⟨S1x8, .f32⟩
  | 106 => ⟨S524288x8, .f32⟩
  | 107 => ⟨S524288x8, .f32⟩
  | 108 => ⟨S_, .f32⟩
  | 109 => ⟨S_, .f32⟩
  | 110 => ⟨S524288x8, .f32⟩
  | 111 => ⟨S524288x8, .i1⟩
  | 112 => ⟨S_, .f32⟩
  | 113 => ⟨S524288x8, .f32⟩
  | 114 => ⟨S524288x8, .f32⟩
  | 115 => ⟨S524288x8, .f32⟩
  | 116 => ⟨S8x8, .f32⟩
  | 117 => ⟨S524288x8, .f32⟩
  | 118 => ⟨S1x8, .f32⟩
  | 119 => ⟨S524288x8, .f32⟩
  | 120 => ⟨S524288x8, .f32⟩
  | 121 => ⟨S_, .f32⟩
  | 122 => ⟨S_, .f32⟩
  | 123 => ⟨S524288x8, .f32⟩
  | 124 => ⟨S524288x8, .i1⟩
  | 125 => ⟨S_, .f32⟩
  | 126 => ⟨S524288x8, .f32⟩
  | 127 => ⟨S524288x8, .f32⟩
  | _ => ⟨S524288x2, .f32⟩

abbrev hbmTy0_15 (i : Nat) : BufTy := match i % 128 with
  | 0 => ⟨S524288x8, .f32⟩
  | 1 => ⟨S8x8, .f32⟩
  | 2 => ⟨S524288x8, .f32⟩
  | 3 => ⟨S1x8, .f32⟩
  | 4 => ⟨S524288x8, .f32⟩
  | 5 => ⟨S524288x8, .f32⟩
  | 6 => ⟨S_, .f32⟩
  | 7 => ⟨S_, .f32⟩
  | 8 => ⟨S524288x8, .f32⟩
  | 9 => ⟨S524288x8, .i1⟩
  | 10 => ⟨S_, .f32⟩
  | 11 => ⟨S524288x8, .f32⟩
  | 12 => ⟨S524288x8, .f32⟩
  | 13 => ⟨S524288x8, .f32⟩
  | 14 => ⟨S8x8, .f32⟩
  | 15 => ⟨S524288x8, .f32⟩
  | 16 => ⟨S1x8, .f32⟩
  | 17 => ⟨S524288x8, .f32⟩
  | 18 => ⟨S524288x8, .f32⟩
  | 19 => ⟨S_, .f32⟩
  | 20 => ⟨S_, .f32⟩
  | 21 => ⟨S524288x8, .f32⟩
  | 22 => ⟨S524288x8, .i1⟩
  | 23 => ⟨S_, .f32⟩
  | 24 => ⟨S524288x8, .f32⟩
  | 25 => ⟨S524288x8, .f32⟩
  | 26 => ⟨S524288x8, .f32⟩
  | 27 => ⟨S8x1, .f32⟩
  | 28 => ⟨S524288x1, .f32⟩
  | 29 => ⟨S1x1, .f32⟩
  | 30 => ⟨S524288x1, .f32⟩
  | 31 => ⟨S524288x1, .f32⟩
  | 32 => ⟨S1x1x8x1, .f32⟩
  | 33 => ⟨S8x1, .f32⟩
  | 34 => ⟨S1x1x8, .f32⟩
  | 35 => ⟨S8, .f32⟩
  | 36 => ⟨S1x1x8x8, .f32⟩
  | 37 => ⟨S8x8, .f32⟩
  | 38 => ⟨S1x1x8, .f32⟩
  | 39 => ⟨S8, .f32⟩
  | 40 => ⟨S1x1x8x8, .f32⟩
  | 41 => ⟨S8x8, .f32⟩
  | 42 => ⟨S1x1x8, .f32⟩
  | 43 => ⟨S8, .f32⟩
  | 44 => ⟨S1x1x8x8, .f32⟩
  | 45 => ⟨S8x8, .f32⟩
  | 46 => ⟨S1x1x8, .f32⟩
  | 47 => ⟨S8, .f32⟩
  | 48 => ⟨S1x1x1x8, .f32⟩
  | 49 => ⟨S1x8, .f32⟩
  | 50 => ⟨S1x1x1, .f32⟩
  | 51 => ⟨S1, .f32⟩
  | 52 => ⟨S1x8, .f32⟩
  | 53 => ⟨S524288x8, .f32⟩
  | 54 => ⟨S1x8, .f32⟩
  | 55 => ⟨S524288x8, .f32⟩
  | 56 => ⟨S524288x8, .f32⟩
  | 57 => ⟨S_, .f32⟩
  | 58 => ⟨S_, .f32⟩
  | 59 => ⟨S524288x8, .f32⟩
  | 60 => ⟨S524288x8, .i1⟩
  | 61 => ⟨S_, .f32⟩
  | 62 => ⟨S524288x8, .f32⟩
  | 63 => ⟨S524288x8, .f32⟩
  | 64 => ⟨S524288x8, .f32⟩
  | 65 => ⟨S8x8, .f32⟩
  | 66 => ⟨S524288x8, .f32⟩
  | 67 => ⟨S1x8, .f32⟩
  | 68 => ⟨S524288x8, .f32⟩
  | 69 => ⟨S524288x8, .f32⟩
  | 70 => ⟨S_, .f32⟩
  | 71 => ⟨S_, .f32⟩
  | 72 => ⟨S524288x8, .f32⟩
  | 73 => ⟨S524288x8, .i1⟩
  | 74 => ⟨S_, .f32⟩
  | 75 => ⟨S524288x8, .f32⟩
  | 76 => ⟨S524288x8, .f32⟩
  | 77 => ⟨S524288x8, .f32⟩
  | 78 => ⟨S8x8, .f32⟩
  | 79 => ⟨S524288x8, .f32⟩
  | 80 => ⟨S1x8, .f32⟩
  | 81 => ⟨S524288x8, .f32⟩
  | 82 => ⟨S524288x8, .f32⟩
  | 83 => ⟨S_, .f32⟩
  | 84 => ⟨S_, .f32⟩
  | 85 => ⟨S524288x8, .f32⟩
  | 86 => ⟨S524288x8, .i1⟩
  | 87 => ⟨S_, .f32⟩
  | 88 => ⟨S524288x8, .f32⟩
  | 89 => ⟨S524288x8, .f32⟩
  | 90 => ⟨S524288x8, .f32⟩
  | 91 => ⟨S8x8, .f32⟩
  | 92 => ⟨S524288x8, .f32⟩
  | 93 => ⟨S1x8, .f32⟩
  | 94 => ⟨S524288x8, .f32⟩
  | 95 => ⟨S524288x8, .f32⟩
  | 96 => ⟨S_, .f32⟩
  | 97 => ⟨S_, .f32⟩
  | 98 => ⟨S524288x8, .f32⟩
  | 99 => ⟨S524288x8, .i1⟩
  | 100 => ⟨S_, .f32⟩
  | 101 => ⟨S524288x8, .f32⟩
  | 102 => ⟨S524288x8, .f32⟩
  | 103 => ⟨S524288x8, .f32⟩
  | 104 => ⟨S8x1, .f32⟩
  | 105 => ⟨S524288x1, .f32⟩
  | 106 => ⟨S1x1, .f32⟩
  | 107 => ⟨S524288x1, .f32⟩
  | 108 => ⟨S524288x1, .f32⟩
  | 109 => ⟨S524288x1, .f32⟩
  | 110 => ⟨S524288x1, .f32⟩
  | 111 => ⟨S524288x1, .f32⟩
  | 112 => ⟨S_, .f32⟩
  | 113 => ⟨S524288, .f32⟩
  | 114 => ⟨S524288, .f32⟩
  | 115 => ⟨S524288x2, .f32⟩
  | 116 => ⟨S1, .i32⟩
  | 117 => ⟨S_, .i32⟩
  | 118 => ⟨S_, .i32⟩
  | 119 => ⟨S_, .i1⟩
  | 120 => ⟨S524288x2, .f32⟩
  | 121 => ⟨S524288x2, .f32⟩
  | 122 => ⟨S524288x1, .f32⟩
  | 123 => ⟨S524288x1, .f32⟩
  | 124 => ⟨S1x1x8x1, .f32⟩
  | 125 => ⟨S8x1, .f32⟩
  | 126 => ⟨S1x1x8, .f32⟩
  | 127 => ⟨S8, .f32⟩
  | _ => ⟨S524288x2, .f32⟩

abbrev hbmTy0_16 (i : Nat) : BufTy := match i % 128 with
  | 0 => ⟨S1x1x8x8, .f32⟩
  | 1 => ⟨S8x8, .f32⟩
  | 2 => ⟨S1x1x8, .f32⟩
  | 3 => ⟨S8, .f32⟩
  | 4 => ⟨S1x1x8x8, .f32⟩
  | 5 => ⟨S8x8, .f32⟩
  | 6 => ⟨S1x1x8, .f32⟩
  | 7 => ⟨S8, .f32⟩
  | 8 => ⟨S1x1x8x8, .f32⟩
  | 9 => ⟨S8x8, .f32⟩
  | 10 => ⟨S1x1x8, .f32⟩
  | 11 => ⟨S8, .f32⟩
  | 12 => ⟨S1x1x1x8, .f32⟩
  | 13 => ⟨S1x8, .f32⟩
  | 14 => ⟨S1x1x1, .f32⟩
  | 15 => ⟨S1, .f32⟩
  | 16 => ⟨S1x8, .f32⟩
  | 17 => ⟨S524288x8, .f32⟩
  | 18 => ⟨S1x8, .f32⟩
  | 19 => ⟨S524288x8, .f32⟩
  | 20 => ⟨S524288x8, .f32⟩
  | 21 => ⟨S_, .f32⟩
  | 22 => ⟨S_, .f32⟩
  | 23 => ⟨S524288x8, .f32⟩
  | 24 => ⟨S524288x8, .i1⟩
  | 25 => ⟨S_, .f32⟩
  | 26 => ⟨S524288x8, .f32⟩
  | 27 => ⟨S524288x8, .f32⟩
  | 28 => ⟨S524288x8, .f32⟩
  | 29 => ⟨S8x8, .f32⟩
  | 30 => ⟨S524288x8, .f32⟩
  | 31 => ⟨S1x8, .f32⟩
  | 32 => ⟨S524288x8, .f32⟩
  | 33 => ⟨S524288x8, .f32⟩
  | 34 => ⟨S_, .f32⟩
  | 35 => ⟨S_, .f32⟩
  | 36 => ⟨S524288x8, .f32⟩
  | 37 => ⟨S524288x8, .i1⟩
  | 38 => ⟨S_, .f32⟩
  | 39 => ⟨S524288x8, .f32⟩
  | 40 => ⟨S524288x8, .f32⟩
  | 41 => ⟨S524288x8, .f32⟩
  | 42 => ⟨S8x8, .f32⟩
  | 43 => ⟨S524288x8, .f32⟩
  | 44 => ⟨S1x8, .f32⟩
  | 45 => ⟨S524288x8, .f32⟩
  | 46 => ⟨S524288x8, .f32⟩
  | 47 => ⟨S_, .f32⟩
  | 48 => ⟨S_, .f32⟩
  | 49 => ⟨S524288x8, .f32⟩
  | 50 => ⟨S524288x8, .i1⟩
  | 51 => ⟨S_, .f32⟩
  | 52 => ⟨S524288x8, .f32⟩
  | 53 => ⟨S524288x8, .f32⟩
  | 54 => ⟨S524288x8, .f32⟩
  | 55 => ⟨S8x8, .f32⟩
  | 56 => ⟨S524288x8, .f32⟩
  | 57 => ⟨S1x8, .f32⟩
  | 58 => ⟨S524288x8, .f32⟩
  | 59 => ⟨S524288x8, .f32⟩
  | 60 => ⟨S_, .f32⟩
  | 61 => ⟨S_, .f32⟩
  | 62 => ⟨S524288x8, .f32⟩
  | 63 => ⟨S524288x8, .i1⟩
  | 64 => ⟨S_, .f32⟩
  | 65 => ⟨S524288x8, .f32⟩
  | 66 => ⟨S524288x8, .f32⟩
  | 67 => ⟨S524288x8, .f32⟩
  | 68 => ⟨S8x1, .f32⟩
  | 69 => ⟨S524288x1, .f32⟩
  | 70 => ⟨S1x1, .f32⟩
  | 71 => ⟨S524288x1, .f32⟩
  | 72 => ⟨S524288x1, .f32⟩
  | 73 => ⟨S1x1x8x1, .f32⟩
  | 74 => ⟨S8x1, .f32⟩
  | 75 => ⟨S1x1x8, .f32⟩
  | 76 => ⟨S8, .f32⟩
  | 77 => ⟨S1x1x8x8, .f32⟩
  | 78 => ⟨S8x8, .f32⟩
  | 79 => ⟨S1x1x8, .f32⟩
  | 80 => ⟨S8, .f32⟩
  | 81 => ⟨S1x1x8x8, .f32⟩
  | 82 => ⟨S8x8, .f32⟩
  | 83 => ⟨S1x1x8, .f32⟩
  | 84 => ⟨S8, .f32⟩
  | 85 => ⟨S1x1x8x8, .f32⟩
  | 86 => ⟨S8x8, .f32⟩
  | 87 => ⟨S1x1x8, .f32⟩
  | 88 => ⟨S8, .f32⟩
  | 89 => ⟨S1x1x1x8, .f32⟩
  | 90 => ⟨S1x8, .f32⟩
  | 91 => ⟨S1x1x1, .f32⟩
  | 92 => ⟨S1, .f32⟩
  | 93 => ⟨S1x8, .f32⟩
  | 94 => ⟨S524288x8, .f32⟩
  | 95 => ⟨S1x8, .f32⟩
  | 96 => ⟨S524288x8, .f32⟩
  | 97 => ⟨S524288x8, .f32⟩
  | 98 => ⟨S_, .f32⟩
  | 99 => ⟨S_, .f32⟩
  | 100 => ⟨S524288x8, .f32⟩
  | 101 => ⟨S524288x8, .i1⟩
  | 102 => ⟨S_, .f32⟩
  | 103 => ⟨S524288x8, .f32⟩
  | 104 => ⟨S524288x8, .f32⟩
  | 105 => ⟨S524288x8, .f32⟩
  | 106 => ⟨S8x8, .f32⟩
  | 107 => ⟨S524288x8, .f32⟩
  | 108 => ⟨S1x8, .f32⟩
  | 109 => ⟨S524288x8, .f32⟩
  | 110 => ⟨S524288x8, .f32⟩
  | 111 => ⟨S_, .f32⟩
  | 112 => ⟨S_, .f32⟩
  | 113 => ⟨S524288x8, .f32⟩
  | 114 => ⟨S524288x8, .i1⟩
  | 115 => ⟨S_, .f32⟩
  | 116 => ⟨S524288x8, .f32⟩
  | 117 => ⟨S524288x8, .f32⟩
  | 118 => ⟨S524288x8, .f32⟩
  | 119 => ⟨S8x8, .f32⟩
  | 120 => ⟨S524288x8, .f32⟩
  | 121 => ⟨S1x8, .f32⟩
  | 122 => ⟨S524288x8, .f32⟩
  | 123 => ⟨S524288x8, .f32⟩
  | 124 => ⟨S_, .f32⟩
  | 125 => ⟨S_, .f32⟩
  | 126 => ⟨S524288x8, .f32⟩
  | 127 => ⟨S524288x8, .i1⟩
  | _ => ⟨S524288x2, .f32⟩

abbrev hbmTy0_17 (i : Nat) : BufTy := match i % 128 with
  | 0 => ⟨S_, .f32⟩
  | 1 => ⟨S524288x8, .f32⟩
  | 2 => ⟨S524288x8, .f32⟩
  | 3 => ⟨S524288x8, .f32⟩
  | 4 => ⟨S8x8, .f32⟩
  | 5 => ⟨S524288x8, .f32⟩
  | 6 => ⟨S1x8, .f32⟩
  | 7 => ⟨S524288x8, .f32⟩
  | 8 => ⟨S524288x8, .f32⟩
  | 9 => ⟨S_, .f32⟩
  | 10 => ⟨S_, .f32⟩
  | 11 => ⟨S524288x8, .f32⟩
  | 12 => ⟨S524288x8, .i1⟩
  | 13 => ⟨S_, .f32⟩
  | 14 => ⟨S524288x8, .f32⟩
  | 15 => ⟨S524288x8, .f32⟩
  | 16 => ⟨S524288x8, .f32⟩
  | 17 => ⟨S8x1, .f32⟩
  | 18 => ⟨S524288x1, .f32⟩
  | 19 => ⟨S1x1, .f32⟩
  | 20 => ⟨S524288x1, .f32⟩
  | 21 => ⟨S524288x1, .f32⟩
  | 22 => ⟨S524288x1, .f32⟩
  | 23 => ⟨S524288x1, .f32⟩
  | 24 => ⟨S524288x1, .f32⟩
  | 25 => ⟨S_, .f32⟩
  | 26 => ⟨S524288, .f32⟩
  | 27 => ⟨S524288, .f32⟩
  | 28 => ⟨S524288x2, .f32⟩
  | 29 => ⟨S1, .i32⟩
  | 30 => ⟨S_, .i32⟩
  | 31 => ⟨S_, .i32⟩
  | 32 => ⟨S_, .i1⟩
  | 33 => ⟨S524288x2, .f32⟩
  | 34 => ⟨S524288x2, .f32⟩
  | 35 => ⟨S524288x1, .f32⟩
  | 36 => ⟨S524288x1, .f32⟩
  | 37 => ⟨S1x1x8x1, .f32⟩
  | 38 => ⟨S8x1, .f32⟩
  | 39 => ⟨S1x1x8, .f32⟩
  | 40 => ⟨S8, .f32⟩
  | 41 => ⟨S1x1x8x8, .f32⟩
  | 42 => ⟨S8x8, .f32⟩
  | 43 => ⟨S1x1x8, .f32⟩
  | 44 => ⟨S8, .f32⟩
  | 45 => ⟨S1x1x8x8, .f32⟩
  | 46 => ⟨S8x8, .f32⟩
  | 47 => ⟨S1x1x8, .f32⟩
  | 48 => ⟨S8, .f32⟩
  | 49 => ⟨S1x1x8x8, .f32⟩
  | 50 => ⟨S8x8, .f32⟩
  | 51 => ⟨S1x1x8, .f32⟩
  | 52 => ⟨S8, .f32⟩
  | 53 => ⟨S1x1x1x8, .f32⟩
  | 54 => ⟨S1x8, .f32⟩
  | 55 => ⟨S1x1x1, .f32⟩
  | 56 => ⟨S1, .f32⟩
  | 57 => ⟨S1x8, .f32⟩
  | 58 => ⟨S524288x8, .f32⟩
  | 59 => ⟨S1x8, .f32⟩
  | 60 => ⟨S524288x8, .f32⟩
  | 61 => ⟨S524288x8, .f32⟩
  | 62 => ⟨S_, .f32⟩
  | 63 => ⟨S_, .f32⟩
  | 64 => ⟨S524288x8, .f32⟩
  | 65 => ⟨S524288x8, .i1⟩
  | 66 => ⟨S_, .f32⟩
  | 67 => ⟨S524288x8, .f32⟩
  | 68 => ⟨S524288x8, .f32⟩
  | 69 => ⟨S524288x8, .f32⟩
  | 70 => ⟨S8x8, .f32⟩
  | 71 => ⟨S524288x8, .f32⟩
  | 72 => ⟨S1x8, .f32⟩
  | 73 => ⟨S524288x8, .f32⟩
  | 74 => ⟨S524288x8, .f32⟩
  | 75 => ⟨S_, .f32⟩
  | 76 => ⟨S_, .f32⟩
  | 77 => ⟨S524288x8, .f32⟩
  | 78 => ⟨S524288x8, .i1⟩
  | 79 => ⟨S_, .f32⟩
  | 80 => ⟨S524288x8, .f32⟩
  | 81 => ⟨S524288x8, .f32⟩
  | 82 => ⟨S524288x8, .f32⟩
  | 83 => ⟨S8x8, .f32⟩
  | 84 => ⟨S524288x8, .f32⟩
  | 85 => ⟨S1x8, .f32⟩
  | 86 => ⟨S524288x8, .f32⟩
  | 87 => ⟨S524288x8, .f32⟩
  | 88 => ⟨S_, .f32⟩
  | 89 => ⟨S_, .f32⟩
  | 90 => ⟨S524288x8, .f32⟩
  | 91 => ⟨S524288x8, .i1⟩
  | 92 => ⟨S_, .f32⟩
  | 93 => ⟨S524288x8, .f32⟩
  | 94 => ⟨S524288x8, .f32⟩
  | 95 => ⟨S524288x8, .f32⟩
  | 96 => ⟨S8x8, .f32⟩
  | 97 => ⟨S524288x8, .f32⟩
  | 98 => ⟨S1x8, .f32⟩
  | 99 => ⟨S524288x8, .f32⟩
  | 100 => ⟨S524288x8, .f32⟩
  | 101 => ⟨S_, .f32⟩
  | 102 => ⟨S_, .f32⟩
  | 103 => ⟨S524288x8, .f32⟩
  | 104 => ⟨S524288x8, .i1⟩
  | 105 => ⟨S_, .f32⟩
  | 106 => ⟨S524288x8, .f32⟩
  | 107 => ⟨S524288x8, .f32⟩
  | 108 => ⟨S524288x8, .f32⟩
  | 109 => ⟨S8x1, .f32⟩
  | 110 => ⟨S524288x1, .f32⟩
  | 111 => ⟨S1x1, .f32⟩
  | 112 => ⟨S524288x1, .f32⟩
  | 113 => ⟨S524288x1, .f32⟩
  | 114 => ⟨S1x1x8x1, .f32⟩
  | 115 => ⟨S8x1, .f32⟩
  | 116 => ⟨S1x1x8, .f32⟩
  | 117 => ⟨S8, .f32⟩
  | 118 => ⟨S1x1x8x8, .f32⟩
  | 119 => ⟨S8x8, .f32⟩
  | 120 => ⟨S1x1x8, .f32⟩
  | 121 => ⟨S8, .f32⟩
  | 122 => ⟨S1x1x8x8, .f32⟩
  | 123 => ⟨S8x8, .f32⟩
  | 124 => ⟨S1x1x8, .f32⟩
  | 125 => ⟨S8, .f32⟩
  | 126 => ⟨S1x1x8x8, .f32⟩
  | 127 => ⟨S8x8, .f32⟩
  | _ => ⟨S524288x2, .f32⟩

abbrev hbmTy0_18 (i : Nat) : BufTy := match i % 128 with
  | 0 => ⟨S1x1x8, .f32⟩
  | 1 => ⟨S8, .f32⟩
  | 2 => ⟨S1x1x1x8, .f32⟩
  | 3 => ⟨S1x8, .f32⟩
  | 4 => ⟨S1x1x1, .f32⟩
  | 5 => ⟨S1, .f32⟩
  | 6 => ⟨S1x8, .f32⟩
  | 7 => ⟨S524288x8, .f32⟩
  | 8 => ⟨S1x8, .f32⟩
  | 9 => ⟨S524288x8, .f32⟩
  | 10 => ⟨S524288x8, .f32⟩
  | 11 => ⟨S_, .f32⟩
  | 12 => ⟨S_, .f32⟩
  | 13 => ⟨S524288x8, .f32⟩
  | 14 => ⟨S524288x8, .i1⟩
  | 15 => ⟨S_, .f32⟩
  | 16 => ⟨S524288x8, .f32⟩
  | 17 => ⟨S524288x8, .f32⟩
  | 18 => ⟨S524288x8, .f32⟩
  | 19 => ⟨S8x8, .f32⟩
  | 20 => ⟨S524288x8, .f32⟩
  | 21 => ⟨S1x8, .f32⟩
  | 22 => ⟨S524288x8, .f32⟩
  | 23 => ⟨S524288x8, .f32⟩
  | 24 => ⟨S_, .f32⟩
  | 25 => ⟨S_, .f32⟩
  | 26 => ⟨S524288x8, .f32⟩
  | 27 => ⟨S524288x8, .i1⟩
  | 28 => ⟨S_, .f32⟩
  | 29 => ⟨S524288x8, .f32⟩
  | 30 => ⟨S524288x8, .f32⟩
  | 31 => ⟨S524288x8, .f32⟩
  | 32 => ⟨S8x8, .f32⟩
  | 33 => ⟨S524288x8, .f32⟩
  | 34 => ⟨S1x8, .f32⟩
  | 35 => ⟨S524288x8, .f32⟩
  | 36 => ⟨S524288x8, .f32⟩
  | 37 => ⟨S_, .f32⟩
  | 38 => ⟨S_, .f32⟩
  | 39 => ⟨S524288x8, .f32⟩
  | 40 => ⟨S524288x8, .i1⟩
  | 41 => ⟨S_, .f32⟩
  | 42 => ⟨S524288x8, .f32⟩
  | 43 => ⟨S524288x8, .f32⟩
  | 44 => ⟨S524288x8, .f32⟩
  | 45 => ⟨S8x8, .f32⟩
  | 46 => ⟨S524288x8, .f32⟩
  | 47 => ⟨S1x8, .f32⟩
  | 48 => ⟨S524288x8, .f32⟩
  | 49 => ⟨S524288x8, .f32⟩
  | 50 => ⟨S_, .f32⟩
  | 51 => ⟨S_, .f32⟩
  | 52 => ⟨S524288x8, .f32⟩
  | 53 => ⟨S524288x8, .i1⟩
  | 54 => ⟨S_, .f32⟩
  | 55 => ⟨S524288x8, .f32⟩
  | 56 => ⟨S524288x8, .f32⟩
  | 57 => ⟨S524288x8, .f32⟩
  | 58 => ⟨S8x1, .f32⟩
  | 59 => ⟨S524288x1, .f32⟩
  | 60 => ⟨S1x1, .f32⟩
  | 61 => ⟨S524288x1, .f32⟩
  | 62 => ⟨S524288x1, .f32⟩
  | 63 => ⟨S524288x1, .f32⟩
  | 64 => ⟨S524288x1, .f32⟩
  | 65 => ⟨S524288x1, .f32⟩
  | 66 => ⟨S_, .f32⟩
  | 67 => ⟨S524288, .f32⟩
  | 68 => ⟨S524288, .f32⟩
  | 69 => ⟨S524288x2, .f32⟩
  | 70 => ⟨S1, .i32⟩
  | 71 => ⟨S_, .i32⟩
  | 72 => ⟨S_, .i32⟩
  | 73 => ⟨S_, .i1⟩
  | 74 => ⟨S524288x2, .f32⟩
  | 75 => ⟨S524288x2, .f32⟩
  | 76 => ⟨S524288x1, .f32⟩
  | 77 => ⟨S524288x1, .f32⟩
  | 78 => ⟨S1x1x8x1, .f32⟩
  | 79 => ⟨S8x1, .f32⟩
  | 80 => ⟨S1x1x8, .f32⟩
  | 81 => ⟨S8, .f32⟩
  | 82 => ⟨S1x1x8x8, .f32⟩
  | 83 => ⟨S8x8, .f32⟩
  | 84 => ⟨S1x1x8, .f32⟩
  | 85 => ⟨S8, .f32⟩
  | 86 => ⟨S1x1x8x8, .f32⟩
  | 87 => ⟨S8x8, .f32⟩
  | 88 => ⟨S1x1x8, .f32⟩
  | 89 => ⟨S8, .f32⟩
  | 90 => ⟨S1x1x8x8, .f32⟩
  | 91 => ⟨S8x8, .f32⟩
  | 92 => ⟨S1x1x8, .f32⟩
  | 93 => ⟨S8, .f32⟩
  | 94 => ⟨S1x1x1x8, .f32⟩
  | 95 => ⟨S1x8, .f32⟩
  | 96 => ⟨S1x1x1, .f32⟩
  | 97 => ⟨S1, .f32⟩
  | 98 => ⟨S1x8, .f32⟩
  | 99 => ⟨S524288x8, .f32⟩
  | 100 => ⟨S1x8, .f32⟩
  | 101 => ⟨S524288x8, .f32⟩
  | 102 => ⟨S524288x8, .f32⟩
  | 103 => ⟨S_, .f32⟩
  | 104 => ⟨S_, .f32⟩
  | 105 => ⟨S524288x8, .f32⟩
  | 106 => ⟨S524288x8, .i1⟩
  | 107 => ⟨S_, .f32⟩
  | 108 => ⟨S524288x8, .f32⟩
  | 109 => ⟨S524288x8, .f32⟩
  | 110 => ⟨S524288x8, .f32⟩
  | 111 => ⟨S8x8, .f32⟩
  | 112 => ⟨S524288x8, .f32⟩
  | 113 => ⟨S1x8, .f32⟩
  | 114 => ⟨S524288x8, .f32⟩
  | 115 => ⟨S524288x8, .f32⟩
  | 116 => ⟨S_, .f32⟩
  | 117 => ⟨S_, .f32⟩
  | 118 => ⟨S524288x8, .f32⟩
  | 119 => ⟨S524288x8, .i1⟩
  | 120 => ⟨S_, .f32⟩
  | 121 => ⟨S524288x8, .f32⟩
  | 122 => ⟨S524288x8, .f32⟩
  | 123 => ⟨S524288x8, .f32⟩
  | 124 => ⟨S8x8, .f32⟩
  | 125 => ⟨S524288x8, .f32⟩
  | 126 => ⟨S1x8, .f32⟩
  | 127 => ⟨S524288x8, .f32⟩
  | _ => ⟨S524288x2, .f32⟩

abbrev hbmTy0_19 (i : Nat) : BufTy := match i % 128 with
  | 0 => ⟨S524288x8, .f32⟩
  | 1 => ⟨S_, .f32⟩
  | 2 => ⟨S_, .f32⟩
  | 3 => ⟨S524288x8, .f32⟩
  | 4 => ⟨S524288x8, .i1⟩
  | 5 => ⟨S_, .f32⟩
  | 6 => ⟨S524288x8, .f32⟩
  | 7 => ⟨S524288x8, .f32⟩
  | 8 => ⟨S524288x8, .f32⟩
  | 9 => ⟨S8x8, .f32⟩
  | 10 => ⟨S524288x8, .f32⟩
  | 11 => ⟨S1x8, .f32⟩
  | 12 => ⟨S524288x8, .f32⟩
  | 13 => ⟨S524288x8, .f32⟩
  | 14 => ⟨S_, .f32⟩
  | 15 => ⟨S_, .f32⟩
  | 16 => ⟨S524288x8, .f32⟩
  | 17 => ⟨S524288x8, .i1⟩
  | 18 => ⟨S_, .f32⟩
  | 19 => ⟨S524288x8, .f32⟩
  | 20 => ⟨S524288x8, .f32⟩
  | 21 => ⟨S524288x8, .f32⟩
  | 22 => ⟨S8x1, .f32⟩
  | 23 => ⟨S524288x1, .f32⟩
  | 24 => ⟨S1x1, .f32⟩
  | 25 => ⟨S524288x1, .f32⟩
  | 26 => ⟨S524288x1, .f32⟩
  | 27 => ⟨S1x1x8x1, .f32⟩
  | 28 => ⟨S8x1, .f32⟩
  | 29 => ⟨S1x1x8, .f32⟩
  | 30 => ⟨S8, .f32⟩
  | 31 => ⟨S1x1x8x8, .f32⟩
  | 32 => ⟨S8x8, .f32⟩
  | 33 => ⟨S1x1x8, .f32⟩
  | 34 => ⟨S8, .f32⟩
  | 35 => ⟨S1x1x8x8, .f32⟩
  | 36 => ⟨S8x8, .f32⟩
  | 37 => ⟨S1x1x8, .f32⟩
  | 38 => ⟨S8, .f32⟩
  | 39 => ⟨S1x1x8x8, .f32⟩
  | 40 => ⟨S8x8, .f32⟩
  | 41 => ⟨S1x1x8, .f32⟩
  | 42 => ⟨S8, .f32⟩
  | 43 => ⟨S1x1x1x8, .f32⟩
  | 44 => ⟨S1x8, .f32⟩
  | 45 => ⟨S1x1x1, .f32⟩
  | 46 => ⟨S1, .f32⟩
  | 47 => ⟨S1x8, .f32⟩
  | 48 => ⟨S524288x8, .f32⟩
  | 49 => ⟨S1x8, .f32⟩
  | 50 => ⟨S524288x8, .f32⟩
  | 51 => ⟨S524288x8, .f32⟩
  | 52 => ⟨S_, .f32⟩
  | 53 => ⟨S_, .f32⟩
  | 54 => ⟨S524288x8, .f32⟩
  | 55 => ⟨S524288x8, .i1⟩
  | 56 => ⟨S_, .f32⟩
  | 57 => ⟨S524288x8, .f32⟩
  | 58 => ⟨S524288x8, .f32⟩
  | 59 => ⟨S524288x8, .f32⟩
  | 60 => ⟨S8x8, .f32⟩
  | 61 => ⟨S524288x8, .f32⟩
  | 62 => ⟨S1x8, .f32⟩
  | 63 => ⟨S524288x8, .f32⟩
  | 64 => ⟨S524288x8, .f32⟩
  | 65 => ⟨S_, .f32⟩
  | 66 => ⟨S_, .f32⟩
  | 67 => ⟨S524288x8, .f32⟩
  | 68 => ⟨S524288x8, .i1⟩
  | 69 => ⟨S_, .f32⟩
  | 70 => ⟨S524288x8, .f32⟩
  | 71 => ⟨S524288x8, .f32⟩
  | 72 => ⟨S524288x8, .f32⟩
  | 73 => ⟨S8x8, .f32⟩
  | 74 => ⟨S524288x8, .f32⟩
  | 75 => ⟨S1x8, .f32⟩
  | 76 => ⟨S524288x8, .f32⟩
  | 77 => ⟨S524288x8, .f32⟩
  | 78 => ⟨S_, .f32⟩
  | 79 => ⟨S_, .f32⟩
  | 80 => ⟨S524288x8, .f32⟩
  | 81 => ⟨S524288x8, .i1⟩
  | 82 => ⟨S_, .f32⟩
  | 83 => ⟨S524288x8, .f32⟩
  | 84 => ⟨S524288x8, .f32⟩
  | 85 => ⟨S524288x8, .f32⟩
  | 86 => ⟨S8x8, .f32⟩
  | 87 => ⟨S524288x8, .f32⟩
  | 88 => ⟨S1x8, .f32⟩
  | 89 => ⟨S524288x8, .f32⟩
  | 90 => ⟨S524288x8, .f32⟩
  | 91 => ⟨S_, .f32⟩
  | 92 => ⟨S_, .f32⟩
  | 93 => ⟨S524288x8, .f32⟩
  | 94 => ⟨S524288x8, .i1⟩
  | 95 => ⟨S_, .f32⟩
  | 96 => ⟨S524288x8, .f32⟩
  | 97 => ⟨S524288x8, .f32⟩
  | 98 => ⟨S524288x8, .f32⟩
  | 99 => ⟨S8x1, .f32⟩
  | 100 => ⟨S524288x1, .f32⟩
  | 101 => ⟨S1x1, .f32⟩
  | 102 => ⟨S524288x1, .f32⟩
  | 103 => ⟨S524288x1, .f32⟩
  | 104 => ⟨S524288x1, .f32⟩
  | 105 => ⟨S524288x1, .f32⟩
  | 106 => ⟨S524288x1, .f32⟩
  | 107 => ⟨S_, .f32⟩
  | 108 => ⟨S524288, .f32⟩
  | 109 => ⟨S524288, .f32⟩
  | 110 => ⟨S524288x2, .f32⟩
  | _ => ⟨S524288x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | _ => ⟨S524288x2, .f32⟩

abbrev bufTy : (tb : Table) → Fin (tcTables nBuf tb) → BufTy
  | .hbm, ⟨i, _⟩ => hbmTy i
  | _, _ => ⟨S524288x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_3 : Ref sig .tc := ⟨.hbm, 80, rfl⟩
abbrev main_call3_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_4 : Ref sig .tc := ⟨.hbm, 118, rfl⟩
abbrev main_call4_cst : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_5 : Ref sig .tc := ⟨.hbm, 131, rfl⟩
abbrev main_call5_cst : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_6 : Ref sig .tc := ⟨.hbm, 144, rfl⟩
abbrev main_call6_cst : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_7 : Ref sig .tc := ⟨.hbm, 157, rfl⟩
abbrev main_call7_cst : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_cst_8 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_c : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_9 : Ref sig .tc := ⟨.hbm, 210, rfl⟩
abbrev main_call9_cst : Ref sig .tc := ⟨.hbm, 211, rfl⟩
abbrev main_call9_v0 : Ref sig .tc := ⟨.hbm, 212, rfl⟩
abbrev main_call9_v1 : Ref sig .tc := ⟨.hbm, 213, rfl⟩
abbrev main_call9_v2 : Ref sig .tc := ⟨.hbm, 214, rfl⟩
abbrev main_call9_v3 : Ref sig .tc := ⟨.hbm, 215, rfl⟩
abbrev main_call9_v4 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_cst_10 : Ref sig .tc := ⟨.hbm, 223, rfl⟩
abbrev main_call10_cst : Ref sig .tc := ⟨.hbm, 224, rfl⟩
abbrev main_call10_v0 : Ref sig .tc := ⟨.hbm, 225, rfl⟩
abbrev main_call10_v1 : Ref sig .tc := ⟨.hbm, 226, rfl⟩
abbrev main_call10_v2 : Ref sig .tc := ⟨.hbm, 227, rfl⟩
abbrev main_call10_v3 : Ref sig .tc := ⟨.hbm, 228, rfl⟩
abbrev main_call10_v4 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_11 : Ref sig .tc := ⟨.hbm, 236, rfl⟩
abbrev main_call11_cst : Ref sig .tc := ⟨.hbm, 237, rfl⟩
abbrev main_call11_v0 : Ref sig .tc := ⟨.hbm, 238, rfl⟩
abbrev main_call11_v1 : Ref sig .tc := ⟨.hbm, 239, rfl⟩
abbrev main_call11_v2 : Ref sig .tc := ⟨.hbm, 240, rfl⟩
abbrev main_call11_v3 : Ref sig .tc := ⟨.hbm, 241, rfl⟩
abbrev main_call11_v4 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_cst_12 : Ref sig .tc := ⟨.hbm, 249, rfl⟩
abbrev main_call12_cst : Ref sig .tc := ⟨.hbm, 250, rfl⟩
abbrev main_call12_v0 : Ref sig .tc := ⟨.hbm, 251, rfl⟩
abbrev main_call12_v1 : Ref sig .tc := ⟨.hbm, 252, rfl⟩
abbrev main_call12_v2 : Ref sig .tc := ⟨.hbm, 253, rfl⟩
abbrev main_call12_v3 : Ref sig .tc := ⟨.hbm, 254, rfl⟩
abbrev main_call12_v4 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_cst_13 : Ref sig .tc := ⟨.hbm, 287, rfl⟩
abbrev main_call13_cst : Ref sig .tc := ⟨.hbm, 288, rfl⟩
abbrev main_call13_v0 : Ref sig .tc := ⟨.hbm, 289, rfl⟩
abbrev main_call13_v1 : Ref sig .tc := ⟨.hbm, 290, rfl⟩
abbrev main_call13_v2 : Ref sig .tc := ⟨.hbm, 291, rfl⟩
abbrev main_call13_v3 : Ref sig .tc := ⟨.hbm, 292, rfl⟩
abbrev main_call13_v4 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_cst_14 : Ref sig .tc := ⟨.hbm, 300, rfl⟩
abbrev main_call14_cst : Ref sig .tc := ⟨.hbm, 301, rfl⟩
abbrev main_call14_v0 : Ref sig .tc := ⟨.hbm, 302, rfl⟩
abbrev main_call14_v1 : Ref sig .tc := ⟨.hbm, 303, rfl⟩
abbrev main_call14_v2 : Ref sig .tc := ⟨.hbm, 304, rfl⟩
abbrev main_call14_v3 : Ref sig .tc := ⟨.hbm, 305, rfl⟩
abbrev main_call14_v4 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_cst_15 : Ref sig .tc := ⟨.hbm, 313, rfl⟩
abbrev main_call15_cst : Ref sig .tc := ⟨.hbm, 314, rfl⟩
abbrev main_call15_v0 : Ref sig .tc := ⟨.hbm, 315, rfl⟩
abbrev main_call15_v1 : Ref sig .tc := ⟨.hbm, 316, rfl⟩
abbrev main_call15_v2 : Ref sig .tc := ⟨.hbm, 317, rfl⟩
abbrev main_call15_v3 : Ref sig .tc := ⟨.hbm, 318, rfl⟩
abbrev main_call15_v4 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_cst_16 : Ref sig .tc := ⟨.hbm, 326, rfl⟩
abbrev main_call16_cst : Ref sig .tc := ⟨.hbm, 327, rfl⟩
abbrev main_call16_v0 : Ref sig .tc := ⟨.hbm, 328, rfl⟩
abbrev main_call16_v1 : Ref sig .tc := ⟨.hbm, 329, rfl⟩
abbrev main_call16_v2 : Ref sig .tc := ⟨.hbm, 330, rfl⟩
abbrev main_call16_v3 : Ref sig .tc := ⟨.hbm, 331, rfl⟩
abbrev main_call16_v4 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_cst_17 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_c_18 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_v238 : Ref sig .tc := ⟨.hbm, 367, rfl⟩
abbrev main_v239 : Ref sig .tc := ⟨.hbm, 368, rfl⟩
abbrev main_v240 : Ref sig .tc := ⟨.hbm, 369, rfl⟩
abbrev main_v241 : Ref sig .tc := ⟨.hbm, 370, rfl⟩
abbrev main_v242 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_v246 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_cst_19 : Ref sig .tc := ⟨.hbm, 379, rfl⟩
abbrev main_call18_cst : Ref sig .tc := ⟨.hbm, 380, rfl⟩
abbrev main_call18_v0 : Ref sig .tc := ⟨.hbm, 381, rfl⟩
abbrev main_call18_v1 : Ref sig .tc := ⟨.hbm, 382, rfl⟩
abbrev main_call18_v2 : Ref sig .tc := ⟨.hbm, 383, rfl⟩
abbrev main_call18_v3 : Ref sig .tc := ⟨.hbm, 384, rfl⟩
abbrev main_call18_v4 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_cst_20 : Ref sig .tc := ⟨.hbm, 392, rfl⟩
abbrev main_call19_cst : Ref sig .tc := ⟨.hbm, 393, rfl⟩
abbrev main_call19_v0 : Ref sig .tc := ⟨.hbm, 394, rfl⟩
abbrev main_call19_v1 : Ref sig .tc := ⟨.hbm, 395, rfl⟩
abbrev main_call19_v2 : Ref sig .tc := ⟨.hbm, 396, rfl⟩
abbrev main_call19_v3 : Ref sig .tc := ⟨.hbm, 397, rfl⟩
abbrev main_call19_v4 : Ref sig .tc := ⟨.hbm, 398, rfl⟩
abbrev main_v256 : Ref sig .tc := ⟨.hbm, 399, rfl⟩
abbrev main_v257 : Ref sig .tc := ⟨.hbm, 400, rfl⟩
abbrev main_v258 : Ref sig .tc := ⟨.hbm, 401, rfl⟩
abbrev main_v259 : Ref sig .tc := ⟨.hbm, 402, rfl⟩
abbrev main_v260 : Ref sig .tc := ⟨.hbm, 403, rfl⟩
abbrev main_v261 : Ref sig .tc := ⟨.hbm, 404, rfl⟩
abbrev main_cst_21 : Ref sig .tc := ⟨.hbm, 405, rfl⟩
abbrev main_call20_cst : Ref sig .tc := ⟨.hbm, 406, rfl⟩
abbrev main_call20_v0 : Ref sig .tc := ⟨.hbm, 407, rfl⟩
abbrev main_call20_v1 : Ref sig .tc := ⟨.hbm, 408, rfl⟩
abbrev main_call20_v2 : Ref sig .tc := ⟨.hbm, 409, rfl⟩
abbrev main_call20_v3 : Ref sig .tc := ⟨.hbm, 410, rfl⟩
abbrev main_call20_v4 : Ref sig .tc := ⟨.hbm, 411, rfl⟩
abbrev main_v262 : Ref sig .tc := ⟨.hbm, 412, rfl⟩
abbrev main_v263 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_v267 : Ref sig .tc := ⟨.hbm, 417, rfl⟩
abbrev main_cst_22 : Ref sig .tc := ⟨.hbm, 418, rfl⟩
abbrev main_call21_cst : Ref sig .tc := ⟨.hbm, 419, rfl⟩
abbrev main_call21_v0 : Ref sig .tc := ⟨.hbm, 420, rfl⟩
abbrev main_call21_v1 : Ref sig .tc := ⟨.hbm, 421, rfl⟩
abbrev main_call21_v2 : Ref sig .tc := ⟨.hbm, 422, rfl⟩
abbrev main_call21_v3 : Ref sig .tc := ⟨.hbm, 423, rfl⟩
abbrev main_call21_v4 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_v276 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_v280 : Ref sig .tc := ⟨.hbm, 437, rfl⟩
abbrev main_v281 : Ref sig .tc := ⟨.hbm, 438, rfl⟩
abbrev main_v282 : Ref sig .tc := ⟨.hbm, 439, rfl⟩
abbrev main_v283 : Ref sig .tc := ⟨.hbm, 440, rfl⟩
abbrev main_v284 : Ref sig .tc := ⟨.hbm, 441, rfl⟩
abbrev main_v285 : Ref sig .tc := ⟨.hbm, 442, rfl⟩
abbrev main_v286 : Ref sig .tc := ⟨.hbm, 443, rfl⟩
abbrev main_v287 : Ref sig .tc := ⟨.hbm, 444, rfl⟩
abbrev main_v288 : Ref sig .tc := ⟨.hbm, 445, rfl⟩
abbrev main_v289 : Ref sig .tc := ⟨.hbm, 446, rfl⟩
abbrev main_v290 : Ref sig .tc := ⟨.hbm, 447, rfl⟩
abbrev main_v291 : Ref sig .tc := ⟨.hbm, 448, rfl⟩
abbrev main_v292 : Ref sig .tc := ⟨.hbm, 449, rfl⟩
abbrev main_v293 : Ref sig .tc := ⟨.hbm, 450, rfl⟩
abbrev main_v294 : Ref sig .tc := ⟨.hbm, 451, rfl⟩
abbrev main_v295 : Ref sig .tc := ⟨.hbm, 452, rfl⟩
abbrev main_v296 : Ref sig .tc := ⟨.hbm, 453, rfl⟩
abbrev main_v297 : Ref sig .tc := ⟨.hbm, 454, rfl⟩
abbrev main_v298 : Ref sig .tc := ⟨.hbm, 455, rfl⟩
abbrev main_cst_23 : Ref sig .tc := ⟨.hbm, 456, rfl⟩
abbrev main_call22_cst : Ref sig .tc := ⟨.hbm, 457, rfl⟩
abbrev main_call22_v0 : Ref sig .tc := ⟨.hbm, 458, rfl⟩
abbrev main_call22_v1 : Ref sig .tc := ⟨.hbm, 459, rfl⟩
abbrev main_call22_v2 : Ref sig .tc := ⟨.hbm, 460, rfl⟩
abbrev main_call22_v3 : Ref sig .tc := ⟨.hbm, 461, rfl⟩
abbrev main_call22_v4 : Ref sig .tc := ⟨.hbm, 462, rfl⟩
abbrev main_v299 : Ref sig .tc := ⟨.hbm, 463, rfl⟩
abbrev main_v300 : Ref sig .tc := ⟨.hbm, 464, rfl⟩
abbrev main_v301 : Ref sig .tc := ⟨.hbm, 465, rfl⟩
abbrev main_v302 : Ref sig .tc := ⟨.hbm, 466, rfl⟩
abbrev main_v303 : Ref sig .tc := ⟨.hbm, 467, rfl⟩
abbrev main_v304 : Ref sig .tc := ⟨.hbm, 468, rfl⟩
abbrev main_cst_24 : Ref sig .tc := ⟨.hbm, 469, rfl⟩
abbrev main_call23_cst : Ref sig .tc := ⟨.hbm, 470, rfl⟩
abbrev main_call23_v0 : Ref sig .tc := ⟨.hbm, 471, rfl⟩
abbrev main_call23_v1 : Ref sig .tc := ⟨.hbm, 472, rfl⟩
abbrev main_call23_v2 : Ref sig .tc := ⟨.hbm, 473, rfl⟩
abbrev main_call23_v3 : Ref sig .tc := ⟨.hbm, 474, rfl⟩
abbrev main_call23_v4 : Ref sig .tc := ⟨.hbm, 475, rfl⟩
abbrev main_v305 : Ref sig .tc := ⟨.hbm, 476, rfl⟩
abbrev main_v306 : Ref sig .tc := ⟨.hbm, 477, rfl⟩
abbrev main_v307 : Ref sig .tc := ⟨.hbm, 478, rfl⟩
abbrev main_v308 : Ref sig .tc := ⟨.hbm, 479, rfl⟩
abbrev main_v309 : Ref sig .tc := ⟨.hbm, 480, rfl⟩
abbrev main_v310 : Ref sig .tc := ⟨.hbm, 481, rfl⟩
abbrev main_cst_25 : Ref sig .tc := ⟨.hbm, 482, rfl⟩
abbrev main_call24_cst : Ref sig .tc := ⟨.hbm, 483, rfl⟩
abbrev main_call24_v0 : Ref sig .tc := ⟨.hbm, 484, rfl⟩
abbrev main_call24_v1 : Ref sig .tc := ⟨.hbm, 485, rfl⟩
abbrev main_call24_v2 : Ref sig .tc := ⟨.hbm, 486, rfl⟩
abbrev main_call24_v3 : Ref sig .tc := ⟨.hbm, 487, rfl⟩
abbrev main_call24_v4 : Ref sig .tc := ⟨.hbm, 488, rfl⟩
abbrev main_v311 : Ref sig .tc := ⟨.hbm, 489, rfl⟩
abbrev main_v312 : Ref sig .tc := ⟨.hbm, 490, rfl⟩
abbrev main_v313 : Ref sig .tc := ⟨.hbm, 491, rfl⟩
abbrev main_v314 : Ref sig .tc := ⟨.hbm, 492, rfl⟩
abbrev main_v315 : Ref sig .tc := ⟨.hbm, 493, rfl⟩
abbrev main_v316 : Ref sig .tc := ⟨.hbm, 494, rfl⟩
abbrev main_cst_26 : Ref sig .tc := ⟨.hbm, 495, rfl⟩
abbrev main_call25_cst : Ref sig .tc := ⟨.hbm, 496, rfl⟩
abbrev main_call25_v0 : Ref sig .tc := ⟨.hbm, 497, rfl⟩
abbrev main_call25_v1 : Ref sig .tc := ⟨.hbm, 498, rfl⟩
abbrev main_call25_v2 : Ref sig .tc := ⟨.hbm, 499, rfl⟩
abbrev main_call25_v3 : Ref sig .tc := ⟨.hbm, 500, rfl⟩
abbrev main_call25_v4 : Ref sig .tc := ⟨.hbm, 501, rfl⟩
abbrev main_v317 : Ref sig .tc := ⟨.hbm, 502, rfl⟩
abbrev main_v318 : Ref sig .tc := ⟨.hbm, 503, rfl⟩
abbrev main_v319 : Ref sig .tc := ⟨.hbm, 504, rfl⟩
abbrev main_v320 : Ref sig .tc := ⟨.hbm, 505, rfl⟩
abbrev main_v321 : Ref sig .tc := ⟨.hbm, 506, rfl⟩
abbrev main_v322 : Ref sig .tc := ⟨.hbm, 507, rfl⟩
abbrev main_v323 : Ref sig .tc := ⟨.hbm, 508, rfl⟩
abbrev main_v324 : Ref sig .tc := ⟨.hbm, 509, rfl⟩
abbrev main_v325 : Ref sig .tc := ⟨.hbm, 510, rfl⟩
abbrev main_cst_27 : Ref sig .tc := ⟨.hbm, 511, rfl⟩
abbrev main_v326 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_v330 : Ref sig .tc := ⟨.hbm, 516, rfl⟩
abbrev main_c_28 : Ref sig .tc := ⟨.hbm, 517, rfl⟩
abbrev main_v331 : Ref sig .tc := ⟨.hbm, 518, rfl⟩
abbrev main_v332 : Ref sig .tc := ⟨.hbm, 519, rfl⟩
abbrev main_v333 : Ref sig .tc := ⟨.hbm, 520, rfl⟩
abbrev main_v334 : Ref sig .tc := ⟨.hbm, 521, rfl⟩
abbrev main_v335 : Ref sig .tc := ⟨.hbm, 522, rfl⟩
abbrev main_v336 : Ref sig .tc := ⟨.hbm, 523, rfl⟩
abbrev main_v337 : Ref sig .tc := ⟨.hbm, 524, rfl⟩
abbrev main_v338 : Ref sig .tc := ⟨.hbm, 525, rfl⟩
abbrev main_v339 : Ref sig .tc := ⟨.hbm, 526, rfl⟩
abbrev main_v340 : Ref sig .tc := ⟨.hbm, 527, rfl⟩
abbrev main_v341 : Ref sig .tc := ⟨.hbm, 528, rfl⟩
abbrev main_v342 : Ref sig .tc := ⟨.hbm, 529, rfl⟩
abbrev main_v343 : Ref sig .tc := ⟨.hbm, 530, rfl⟩
abbrev main_v344 : Ref sig .tc := ⟨.hbm, 531, rfl⟩
abbrev main_v345 : Ref sig .tc := ⟨.hbm, 532, rfl⟩
abbrev main_v346 : Ref sig .tc := ⟨.hbm, 533, rfl⟩
abbrev main_v347 : Ref sig .tc := ⟨.hbm, 534, rfl⟩
abbrev main_v348 : Ref sig .tc := ⟨.hbm, 535, rfl⟩
abbrev main_v349 : Ref sig .tc := ⟨.hbm, 536, rfl⟩
abbrev main_v350 : Ref sig .tc := ⟨.hbm, 537, rfl⟩
abbrev main_v351 : Ref sig .tc := ⟨.hbm, 538, rfl⟩
abbrev main_v352 : Ref sig .tc := ⟨.hbm, 539, rfl⟩
abbrev main_v353 : Ref sig .tc := ⟨.hbm, 540, rfl⟩
abbrev main_v354 : Ref sig .tc := ⟨.hbm, 541, rfl⟩
abbrev main_v355 : Ref sig .tc := ⟨.hbm, 542, rfl⟩
abbrev main_v356 : Ref sig .tc := ⟨.hbm, 543, rfl⟩
abbrev main_v357 : Ref sig .tc := ⟨.hbm, 544, rfl⟩
abbrev main_v358 : Ref sig .tc := ⟨.hbm, 545, rfl⟩
abbrev main_v359 : Ref sig .tc := ⟨.hbm, 546, rfl⟩
abbrev main_v360 : Ref sig .tc := ⟨.hbm, 547, rfl⟩
abbrev main_cst_29 : Ref sig .tc := ⟨.hbm, 548, rfl⟩
abbrev main_call27_cst : Ref sig .tc := ⟨.hbm, 549, rfl⟩
abbrev main_call27_v0 : Ref sig .tc := ⟨.hbm, 550, rfl⟩
abbrev main_call27_v1 : Ref sig .tc := ⟨.hbm, 551, rfl⟩
abbrev main_call27_v2 : Ref sig .tc := ⟨.hbm, 552, rfl⟩
abbrev main_call27_v3 : Ref sig .tc := ⟨.hbm, 553, rfl⟩
abbrev main_call27_v4 : Ref sig .tc := ⟨.hbm, 554, rfl⟩
abbrev main_v361 : Ref sig .tc := ⟨.hbm, 555, rfl⟩
abbrev main_v362 : Ref sig .tc := ⟨.hbm, 556, rfl⟩
abbrev main_v363 : Ref sig .tc := ⟨.hbm, 557, rfl⟩
abbrev main_v364 : Ref sig .tc := ⟨.hbm, 558, rfl⟩
abbrev main_v365 : Ref sig .tc := ⟨.hbm, 559, rfl⟩
abbrev main_v366 : Ref sig .tc := ⟨.hbm, 560, rfl⟩
abbrev main_cst_30 : Ref sig .tc := ⟨.hbm, 561, rfl⟩
abbrev main_call28_cst : Ref sig .tc := ⟨.hbm, 562, rfl⟩
abbrev main_call28_v0 : Ref sig .tc := ⟨.hbm, 563, rfl⟩
abbrev main_call28_v1 : Ref sig .tc := ⟨.hbm, 564, rfl⟩
abbrev main_call28_v2 : Ref sig .tc := ⟨.hbm, 565, rfl⟩
abbrev main_call28_v3 : Ref sig .tc := ⟨.hbm, 566, rfl⟩
abbrev main_call28_v4 : Ref sig .tc := ⟨.hbm, 567, rfl⟩
abbrev main_v367 : Ref sig .tc := ⟨.hbm, 568, rfl⟩
abbrev main_v368 : Ref sig .tc := ⟨.hbm, 569, rfl⟩
abbrev main_v369 : Ref sig .tc := ⟨.hbm, 570, rfl⟩
abbrev main_v370 : Ref sig .tc := ⟨.hbm, 571, rfl⟩
abbrev main_v371 : Ref sig .tc := ⟨.hbm, 572, rfl⟩
abbrev main_v372 : Ref sig .tc := ⟨.hbm, 573, rfl⟩
abbrev main_cst_31 : Ref sig .tc := ⟨.hbm, 574, rfl⟩
abbrev main_call29_cst : Ref sig .tc := ⟨.hbm, 575, rfl⟩
abbrev main_call29_v0 : Ref sig .tc := ⟨.hbm, 576, rfl⟩
abbrev main_call29_v1 : Ref sig .tc := ⟨.hbm, 577, rfl⟩
abbrev main_call29_v2 : Ref sig .tc := ⟨.hbm, 578, rfl⟩
abbrev main_call29_v3 : Ref sig .tc := ⟨.hbm, 579, rfl⟩
abbrev main_call29_v4 : Ref sig .tc := ⟨.hbm, 580, rfl⟩
abbrev main_v373 : Ref sig .tc := ⟨.hbm, 581, rfl⟩
abbrev main_v374 : Ref sig .tc := ⟨.hbm, 582, rfl⟩
abbrev main_v375 : Ref sig .tc := ⟨.hbm, 583, rfl⟩
abbrev main_v376 : Ref sig .tc := ⟨.hbm, 584, rfl⟩
abbrev main_v377 : Ref sig .tc := ⟨.hbm, 585, rfl⟩
abbrev main_v378 : Ref sig .tc := ⟨.hbm, 586, rfl⟩
abbrev main_cst_32 : Ref sig .tc := ⟨.hbm, 587, rfl⟩
abbrev main_call30_cst : Ref sig .tc := ⟨.hbm, 588, rfl⟩
abbrev main_call30_v0 : Ref sig .tc := ⟨.hbm, 589, rfl⟩
abbrev main_call30_v1 : Ref sig .tc := ⟨.hbm, 590, rfl⟩
abbrev main_call30_v2 : Ref sig .tc := ⟨.hbm, 591, rfl⟩
abbrev main_call30_v3 : Ref sig .tc := ⟨.hbm, 592, rfl⟩
abbrev main_call30_v4 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_v382 : Ref sig .tc := ⟨.hbm, 597, rfl⟩
abbrev main_v383 : Ref sig .tc := ⟨.hbm, 598, rfl⟩
abbrev main_v384 : Ref sig .tc := ⟨.hbm, 599, rfl⟩
abbrev main_v385 : Ref sig .tc := ⟨.hbm, 600, rfl⟩
abbrev main_v386 : Ref sig .tc := ⟨.hbm, 601, rfl⟩
abbrev main_v387 : Ref sig .tc := ⟨.hbm, 602, rfl⟩
abbrev main_v388 : Ref sig .tc := ⟨.hbm, 603, rfl⟩
abbrev main_v389 : Ref sig .tc := ⟨.hbm, 604, rfl⟩
abbrev main_v390 : Ref sig .tc := ⟨.hbm, 605, rfl⟩
abbrev main_v391 : Ref sig .tc := ⟨.hbm, 606, rfl⟩
abbrev main_v392 : Ref sig .tc := ⟨.hbm, 607, rfl⟩
abbrev main_v393 : Ref sig .tc := ⟨.hbm, 608, rfl⟩
abbrev main_v394 : Ref sig .tc := ⟨.hbm, 609, rfl⟩
abbrev main_v395 : Ref sig .tc := ⟨.hbm, 610, rfl⟩
abbrev main_v396 : Ref sig .tc := ⟨.hbm, 611, rfl⟩
abbrev main_v397 : Ref sig .tc := ⟨.hbm, 612, rfl⟩
abbrev main_v398 : Ref sig .tc := ⟨.hbm, 613, rfl⟩
abbrev main_v399 : Ref sig .tc := ⟨.hbm, 614, rfl⟩
abbrev main_v400 : Ref sig .tc := ⟨.hbm, 615, rfl⟩
abbrev main_v401 : Ref sig .tc := ⟨.hbm, 616, rfl⟩
abbrev main_v402 : Ref sig .tc := ⟨.hbm, 617, rfl⟩
abbrev main_v403 : Ref sig .tc := ⟨.hbm, 618, rfl⟩
abbrev main_v404 : Ref sig .tc := ⟨.hbm, 619, rfl⟩
abbrev main_v405 : Ref sig .tc := ⟨.hbm, 620, rfl⟩
abbrev main_v406 : Ref sig .tc := ⟨.hbm, 621, rfl⟩
abbrev main_v407 : Ref sig .tc := ⟨.hbm, 622, rfl⟩
abbrev main_v408 : Ref sig .tc := ⟨.hbm, 623, rfl⟩
abbrev main_v409 : Ref sig .tc := ⟨.hbm, 624, rfl⟩
abbrev main_cst_33 : Ref sig .tc := ⟨.hbm, 625, rfl⟩
abbrev main_call31_cst : Ref sig .tc := ⟨.hbm, 626, rfl⟩
abbrev main_call31_v0 : Ref sig .tc := ⟨.hbm, 627, rfl⟩
abbrev main_call31_v1 : Ref sig .tc := ⟨.hbm, 628, rfl⟩
abbrev main_call31_v2 : Ref sig .tc := ⟨.hbm, 629, rfl⟩
abbrev main_call31_v3 : Ref sig .tc := ⟨.hbm, 630, rfl⟩
abbrev main_call31_v4 : Ref sig .tc := ⟨.hbm, 631, rfl⟩
abbrev main_v410 : Ref sig .tc := ⟨.hbm, 632, rfl⟩
abbrev main_v411 : Ref sig .tc := ⟨.hbm, 633, rfl⟩
abbrev main_v412 : Ref sig .tc := ⟨.hbm, 634, rfl⟩
abbrev main_v413 : Ref sig .tc := ⟨.hbm, 635, rfl⟩
abbrev main_v414 : Ref sig .tc := ⟨.hbm, 636, rfl⟩
abbrev main_v415 : Ref sig .tc := ⟨.hbm, 637, rfl⟩
abbrev main_cst_34 : Ref sig .tc := ⟨.hbm, 638, rfl⟩
abbrev main_call32_cst : Ref sig .tc := ⟨.hbm, 639, rfl⟩
abbrev main_call32_v0 : Ref sig .tc := ⟨.hbm, 640, rfl⟩
abbrev main_call32_v1 : Ref sig .tc := ⟨.hbm, 641, rfl⟩
abbrev main_call32_v2 : Ref sig .tc := ⟨.hbm, 642, rfl⟩
abbrev main_call32_v3 : Ref sig .tc := ⟨.hbm, 643, rfl⟩
abbrev main_call32_v4 : Ref sig .tc := ⟨.hbm, 644, rfl⟩
abbrev main_v416 : Ref sig .tc := ⟨.hbm, 645, rfl⟩
abbrev main_v417 : Ref sig .tc := ⟨.hbm, 646, rfl⟩
abbrev main_v418 : Ref sig .tc := ⟨.hbm, 647, rfl⟩
abbrev main_v419 : Ref sig .tc := ⟨.hbm, 648, rfl⟩
abbrev main_v420 : Ref sig .tc := ⟨.hbm, 649, rfl⟩
abbrev main_v421 : Ref sig .tc := ⟨.hbm, 650, rfl⟩
abbrev main_cst_35 : Ref sig .tc := ⟨.hbm, 651, rfl⟩
abbrev main_call33_cst : Ref sig .tc := ⟨.hbm, 652, rfl⟩
abbrev main_call33_v0 : Ref sig .tc := ⟨.hbm, 653, rfl⟩
abbrev main_call33_v1 : Ref sig .tc := ⟨.hbm, 654, rfl⟩
abbrev main_call33_v2 : Ref sig .tc := ⟨.hbm, 655, rfl⟩
abbrev main_call33_v3 : Ref sig .tc := ⟨.hbm, 656, rfl⟩
abbrev main_call33_v4 : Ref sig .tc := ⟨.hbm, 657, rfl⟩
abbrev main_v422 : Ref sig .tc := ⟨.hbm, 658, rfl⟩
abbrev main_v423 : Ref sig .tc := ⟨.hbm, 659, rfl⟩
abbrev main_v424 : Ref sig .tc := ⟨.hbm, 660, rfl⟩
abbrev main_v425 : Ref sig .tc := ⟨.hbm, 661, rfl⟩
abbrev main_v426 : Ref sig .tc := ⟨.hbm, 662, rfl⟩
abbrev main_v427 : Ref sig .tc := ⟨.hbm, 663, rfl⟩
abbrev main_cst_36 : Ref sig .tc := ⟨.hbm, 664, rfl⟩
abbrev main_call34_cst : Ref sig .tc := ⟨.hbm, 665, rfl⟩
abbrev main_call34_v0 : Ref sig .tc := ⟨.hbm, 666, rfl⟩
abbrev main_call34_v1 : Ref sig .tc := ⟨.hbm, 667, rfl⟩
abbrev main_call34_v2 : Ref sig .tc := ⟨.hbm, 668, rfl⟩
abbrev main_call34_v3 : Ref sig .tc := ⟨.hbm, 669, rfl⟩
abbrev main_call34_v4 : Ref sig .tc := ⟨.hbm, 670, rfl⟩
abbrev main_v428 : Ref sig .tc := ⟨.hbm, 671, rfl⟩
abbrev main_v429 : Ref sig .tc := ⟨.hbm, 672, rfl⟩
abbrev main_v430 : Ref sig .tc := ⟨.hbm, 673, rfl⟩
abbrev main_v431 : Ref sig .tc := ⟨.hbm, 674, rfl⟩
abbrev main_v432 : Ref sig .tc := ⟨.hbm, 675, rfl⟩
abbrev main_v433 : Ref sig .tc := ⟨.hbm, 676, rfl⟩
abbrev main_v434 : Ref sig .tc := ⟨.hbm, 677, rfl⟩
abbrev main_v435 : Ref sig .tc := ⟨.hbm, 678, rfl⟩
abbrev main_v436 : Ref sig .tc := ⟨.hbm, 679, rfl⟩
abbrev main_cst_37 : Ref sig .tc := ⟨.hbm, 680, rfl⟩
abbrev main_v437 : Ref sig .tc := ⟨.hbm, 681, rfl⟩
abbrev main_v438 : Ref sig .tc := ⟨.hbm, 682, rfl⟩
abbrev main_v439 : Ref sig .tc := ⟨.hbm, 683, rfl⟩
abbrev main_v440 : Ref sig .tc := ⟨.hbm, 684, rfl⟩
abbrev main_v441 : Ref sig .tc := ⟨.hbm, 685, rfl⟩
abbrev main_c_38 : Ref sig .tc := ⟨.hbm, 686, rfl⟩
abbrev main_v442 : Ref sig .tc := ⟨.hbm, 687, rfl⟩
abbrev main_v443 : Ref sig .tc := ⟨.hbm, 688, rfl⟩
abbrev main_v444 : Ref sig .tc := ⟨.hbm, 689, rfl⟩
abbrev main_v445 : Ref sig .tc := ⟨.hbm, 690, rfl⟩
abbrev main_v446 : Ref sig .tc := ⟨.hbm, 691, rfl⟩
abbrev main_v447 : Ref sig .tc := ⟨.hbm, 692, rfl⟩
abbrev main_v448 : Ref sig .tc := ⟨.hbm, 693, rfl⟩
abbrev main_v449 : Ref sig .tc := ⟨.hbm, 694, rfl⟩
abbrev main_v450 : Ref sig .tc := ⟨.hbm, 695, rfl⟩
abbrev main_v451 : Ref sig .tc := ⟨.hbm, 696, rfl⟩
abbrev main_v452 : Ref sig .tc := ⟨.hbm, 697, rfl⟩
abbrev main_v453 : Ref sig .tc := ⟨.hbm, 698, rfl⟩
abbrev main_v454 : Ref sig .tc := ⟨.hbm, 699, rfl⟩
abbrev main_v455 : Ref sig .tc := ⟨.hbm, 700, rfl⟩
abbrev main_v456 : Ref sig .tc := ⟨.hbm, 701, rfl⟩
abbrev main_v457 : Ref sig .tc := ⟨.hbm, 702, rfl⟩
abbrev main_v458 : Ref sig .tc := ⟨.hbm, 703, rfl⟩
abbrev main_v459 : Ref sig .tc := ⟨.hbm, 704, rfl⟩
abbrev main_v460 : Ref sig .tc := ⟨.hbm, 705, rfl⟩
abbrev main_v461 : Ref sig .tc := ⟨.hbm, 706, rfl⟩
abbrev main_v462 : Ref sig .tc := ⟨.hbm, 707, rfl⟩
abbrev main_v463 : Ref sig .tc := ⟨.hbm, 708, rfl⟩
abbrev main_v464 : Ref sig .tc := ⟨.hbm, 709, rfl⟩
abbrev main_v465 : Ref sig .tc := ⟨.hbm, 710, rfl⟩
abbrev main_v466 : Ref sig .tc := ⟨.hbm, 711, rfl⟩
abbrev main_v467 : Ref sig .tc := ⟨.hbm, 712, rfl⟩
abbrev main_v468 : Ref sig .tc := ⟨.hbm, 713, rfl⟩
abbrev main_v469 : Ref sig .tc := ⟨.hbm, 714, rfl⟩
abbrev main_v470 : Ref sig .tc := ⟨.hbm, 715, rfl⟩
abbrev main_v471 : Ref sig .tc := ⟨.hbm, 716, rfl⟩
abbrev main_cst_39 : Ref sig .tc := ⟨.hbm, 717, rfl⟩
abbrev main_call36_cst : Ref sig .tc := ⟨.hbm, 718, rfl⟩
abbrev main_call36_v0 : Ref sig .tc := ⟨.hbm, 719, rfl⟩
abbrev main_call36_v1 : Ref sig .tc := ⟨.hbm, 720, rfl⟩
abbrev main_call36_v2 : Ref sig .tc := ⟨.hbm, 721, rfl⟩
abbrev main_call36_v3 : Ref sig .tc := ⟨.hbm, 722, rfl⟩
abbrev main_call36_v4 : Ref sig .tc := ⟨.hbm, 723, rfl⟩
abbrev main_v472 : Ref sig .tc := ⟨.hbm, 724, rfl⟩
abbrev main_v473 : Ref sig .tc := ⟨.hbm, 725, rfl⟩
abbrev main_v474 : Ref sig .tc := ⟨.hbm, 726, rfl⟩
abbrev main_v475 : Ref sig .tc := ⟨.hbm, 727, rfl⟩
abbrev main_v476 : Ref sig .tc := ⟨.hbm, 728, rfl⟩
abbrev main_v477 : Ref sig .tc := ⟨.hbm, 729, rfl⟩
abbrev main_cst_40 : Ref sig .tc := ⟨.hbm, 730, rfl⟩
abbrev main_call37_cst : Ref sig .tc := ⟨.hbm, 731, rfl⟩
abbrev main_call37_v0 : Ref sig .tc := ⟨.hbm, 732, rfl⟩
abbrev main_call37_v1 : Ref sig .tc := ⟨.hbm, 733, rfl⟩
abbrev main_call37_v2 : Ref sig .tc := ⟨.hbm, 734, rfl⟩
abbrev main_call37_v3 : Ref sig .tc := ⟨.hbm, 735, rfl⟩
abbrev main_call37_v4 : Ref sig .tc := ⟨.hbm, 736, rfl⟩
abbrev main_v478 : Ref sig .tc := ⟨.hbm, 737, rfl⟩
abbrev main_v479 : Ref sig .tc := ⟨.hbm, 738, rfl⟩
abbrev main_v480 : Ref sig .tc := ⟨.hbm, 739, rfl⟩
abbrev main_v481 : Ref sig .tc := ⟨.hbm, 740, rfl⟩
abbrev main_v482 : Ref sig .tc := ⟨.hbm, 741, rfl⟩
abbrev main_v483 : Ref sig .tc := ⟨.hbm, 742, rfl⟩
abbrev main_cst_41 : Ref sig .tc := ⟨.hbm, 743, rfl⟩
abbrev main_call38_cst : Ref sig .tc := ⟨.hbm, 744, rfl⟩
abbrev main_call38_v0 : Ref sig .tc := ⟨.hbm, 745, rfl⟩
abbrev main_call38_v1 : Ref sig .tc := ⟨.hbm, 746, rfl⟩
abbrev main_call38_v2 : Ref sig .tc := ⟨.hbm, 747, rfl⟩
abbrev main_call38_v3 : Ref sig .tc := ⟨.hbm, 748, rfl⟩
abbrev main_call38_v4 : Ref sig .tc := ⟨.hbm, 749, rfl⟩
abbrev main_v484 : Ref sig .tc := ⟨.hbm, 750, rfl⟩
abbrev main_v485 : Ref sig .tc := ⟨.hbm, 751, rfl⟩
abbrev main_v486 : Ref sig .tc := ⟨.hbm, 752, rfl⟩
abbrev main_v487 : Ref sig .tc := ⟨.hbm, 753, rfl⟩
abbrev main_v488 : Ref sig .tc := ⟨.hbm, 754, rfl⟩
abbrev main_v489 : Ref sig .tc := ⟨.hbm, 755, rfl⟩
abbrev main_cst_42 : Ref sig .tc := ⟨.hbm, 756, rfl⟩
abbrev main_call39_cst : Ref sig .tc := ⟨.hbm, 757, rfl⟩
abbrev main_call39_v0 : Ref sig .tc := ⟨.hbm, 758, rfl⟩
abbrev main_call39_v1 : Ref sig .tc := ⟨.hbm, 759, rfl⟩
abbrev main_call39_v2 : Ref sig .tc := ⟨.hbm, 760, rfl⟩
abbrev main_call39_v3 : Ref sig .tc := ⟨.hbm, 761, rfl⟩
abbrev main_call39_v4 : Ref sig .tc := ⟨.hbm, 762, rfl⟩
abbrev main_v490 : Ref sig .tc := ⟨.hbm, 763, rfl⟩
abbrev main_v491 : Ref sig .tc := ⟨.hbm, 764, rfl⟩
abbrev main_v492 : Ref sig .tc := ⟨.hbm, 765, rfl⟩
abbrev main_v493 : Ref sig .tc := ⟨.hbm, 766, rfl⟩
abbrev main_v494 : Ref sig .tc := ⟨.hbm, 767, rfl⟩
abbrev main_v495 : Ref sig .tc := ⟨.hbm, 768, rfl⟩
abbrev main_v496 : Ref sig .tc := ⟨.hbm, 769, rfl⟩
abbrev main_v497 : Ref sig .tc := ⟨.hbm, 770, rfl⟩
abbrev main_v498 : Ref sig .tc := ⟨.hbm, 771, rfl⟩
abbrev main_v499 : Ref sig .tc := ⟨.hbm, 772, rfl⟩
abbrev main_v500 : Ref sig .tc := ⟨.hbm, 773, rfl⟩
abbrev main_v501 : Ref sig .tc := ⟨.hbm, 774, rfl⟩
abbrev main_v502 : Ref sig .tc := ⟨.hbm, 775, rfl⟩
abbrev main_v503 : Ref sig .tc := ⟨.hbm, 776, rfl⟩
abbrev main_v504 : Ref sig .tc := ⟨.hbm, 777, rfl⟩
abbrev main_v505 : Ref sig .tc := ⟨.hbm, 778, rfl⟩
abbrev main_v506 : Ref sig .tc := ⟨.hbm, 779, rfl⟩
abbrev main_v507 : Ref sig .tc := ⟨.hbm, 780, rfl⟩
abbrev main_v508 : Ref sig .tc := ⟨.hbm, 781, rfl⟩
abbrev main_v509 : Ref sig .tc := ⟨.hbm, 782, rfl⟩
abbrev main_v510 : Ref sig .tc := ⟨.hbm, 783, rfl⟩
abbrev main_v511 : Ref sig .tc := ⟨.hbm, 784, rfl⟩
abbrev main_v512 : Ref sig .tc := ⟨.hbm, 785, rfl⟩
abbrev main_v513 : Ref sig .tc := ⟨.hbm, 786, rfl⟩
abbrev main_v514 : Ref sig .tc := ⟨.hbm, 787, rfl⟩
abbrev main_v515 : Ref sig .tc := ⟨.hbm, 788, rfl⟩
abbrev main_v516 : Ref sig .tc := ⟨.hbm, 789, rfl⟩
abbrev main_v517 : Ref sig .tc := ⟨.hbm, 790, rfl⟩
abbrev main_v518 : Ref sig .tc := ⟨.hbm, 791, rfl⟩
abbrev main_v519 : Ref sig .tc := ⟨.hbm, 792, rfl⟩
abbrev main_v520 : Ref sig .tc := ⟨.hbm, 793, rfl⟩
abbrev main_cst_43 : Ref sig .tc := ⟨.hbm, 794, rfl⟩
abbrev main_call40_cst : Ref sig .tc := ⟨.hbm, 795, rfl⟩
abbrev main_call40_v0 : Ref sig .tc := ⟨.hbm, 796, rfl⟩
abbrev main_call40_v1 : Ref sig .tc := ⟨.hbm, 797, rfl⟩
abbrev main_call40_v2 : Ref sig .tc := ⟨.hbm, 798, rfl⟩
abbrev main_call40_v3 : Ref sig .tc := ⟨.hbm, 799, rfl⟩
abbrev main_call40_v4 : Ref sig .tc := ⟨.hbm, 800, rfl⟩
abbrev main_v521 : Ref sig .tc := ⟨.hbm, 801, rfl⟩
abbrev main_v522 : Ref sig .tc := ⟨.hbm, 802, rfl⟩
abbrev main_v523 : Ref sig .tc := ⟨.hbm, 803, rfl⟩
abbrev main_v524 : Ref sig .tc := ⟨.hbm, 804, rfl⟩
abbrev main_v525 : Ref sig .tc := ⟨.hbm, 805, rfl⟩
abbrev main_v526 : Ref sig .tc := ⟨.hbm, 806, rfl⟩
abbrev main_cst_44 : Ref sig .tc := ⟨.hbm, 807, rfl⟩
abbrev main_call41_cst : Ref sig .tc := ⟨.hbm, 808, rfl⟩
abbrev main_call41_v0 : Ref sig .tc := ⟨.hbm, 809, rfl⟩
abbrev main_call41_v1 : Ref sig .tc := ⟨.hbm, 810, rfl⟩
abbrev main_call41_v2 : Ref sig .tc := ⟨.hbm, 811, rfl⟩
abbrev main_call41_v3 : Ref sig .tc := ⟨.hbm, 812, rfl⟩
abbrev main_call41_v4 : Ref sig .tc := ⟨.hbm, 813, rfl⟩
abbrev main_v527 : Ref sig .tc := ⟨.hbm, 814, rfl⟩
abbrev main_v528 : Ref sig .tc := ⟨.hbm, 815, rfl⟩
abbrev main_v529 : Ref sig .tc := ⟨.hbm, 816, rfl⟩
abbrev main_v530 : Ref sig .tc := ⟨.hbm, 817, rfl⟩
abbrev main_v531 : Ref sig .tc := ⟨.hbm, 818, rfl⟩
abbrev main_v532 : Ref sig .tc := ⟨.hbm, 819, rfl⟩
abbrev main_cst_45 : Ref sig .tc := ⟨.hbm, 820, rfl⟩
abbrev main_call42_cst : Ref sig .tc := ⟨.hbm, 821, rfl⟩
abbrev main_call42_v0 : Ref sig .tc := ⟨.hbm, 822, rfl⟩
abbrev main_call42_v1 : Ref sig .tc := ⟨.hbm, 823, rfl⟩
abbrev main_call42_v2 : Ref sig .tc := ⟨.hbm, 824, rfl⟩
abbrev main_call42_v3 : Ref sig .tc := ⟨.hbm, 825, rfl⟩
abbrev main_call42_v4 : Ref sig .tc := ⟨.hbm, 826, rfl⟩
abbrev main_v533 : Ref sig .tc := ⟨.hbm, 827, rfl⟩
abbrev main_v534 : Ref sig .tc := ⟨.hbm, 828, rfl⟩
abbrev main_v535 : Ref sig .tc := ⟨.hbm, 829, rfl⟩
abbrev main_v536 : Ref sig .tc := ⟨.hbm, 830, rfl⟩
abbrev main_v537 : Ref sig .tc := ⟨.hbm, 831, rfl⟩
abbrev main_v538 : Ref sig .tc := ⟨.hbm, 832, rfl⟩
abbrev main_cst_46 : Ref sig .tc := ⟨.hbm, 833, rfl⟩
abbrev main_call43_cst : Ref sig .tc := ⟨.hbm, 834, rfl⟩
abbrev main_call43_v0 : Ref sig .tc := ⟨.hbm, 835, rfl⟩
abbrev main_call43_v1 : Ref sig .tc := ⟨.hbm, 836, rfl⟩
abbrev main_call43_v2 : Ref sig .tc := ⟨.hbm, 837, rfl⟩
abbrev main_call43_v3 : Ref sig .tc := ⟨.hbm, 838, rfl⟩
abbrev main_call43_v4 : Ref sig .tc := ⟨.hbm, 839, rfl⟩
abbrev main_v539 : Ref sig .tc := ⟨.hbm, 840, rfl⟩
abbrev main_v540 : Ref sig .tc := ⟨.hbm, 841, rfl⟩
abbrev main_v541 : Ref sig .tc := ⟨.hbm, 842, rfl⟩
abbrev main_v542 : Ref sig .tc := ⟨.hbm, 843, rfl⟩
abbrev main_v543 : Ref sig .tc := ⟨.hbm, 844, rfl⟩
abbrev main_v544 : Ref sig .tc := ⟨.hbm, 845, rfl⟩
abbrev main_v545 : Ref sig .tc := ⟨.hbm, 846, rfl⟩
abbrev main_v546 : Ref sig .tc := ⟨.hbm, 847, rfl⟩
abbrev main_v547 : Ref sig .tc := ⟨.hbm, 848, rfl⟩
abbrev main_cst_47 : Ref sig .tc := ⟨.hbm, 849, rfl⟩
abbrev main_v548 : Ref sig .tc := ⟨.hbm, 850, rfl⟩
abbrev main_v549 : Ref sig .tc := ⟨.hbm, 851, rfl⟩
abbrev main_v550 : Ref sig .tc := ⟨.hbm, 852, rfl⟩
abbrev main_v551 : Ref sig .tc := ⟨.hbm, 853, rfl⟩
abbrev main_v552 : Ref sig .tc := ⟨.hbm, 854, rfl⟩
abbrev main_c_48 : Ref sig .tc := ⟨.hbm, 855, rfl⟩
abbrev main_v553 : Ref sig .tc := ⟨.hbm, 856, rfl⟩
abbrev main_v554 : Ref sig .tc := ⟨.hbm, 857, rfl⟩
abbrev main_v555 : Ref sig .tc := ⟨.hbm, 858, rfl⟩
abbrev main_v556 : Ref sig .tc := ⟨.hbm, 859, rfl⟩
abbrev main_v557 : Ref sig .tc := ⟨.hbm, 860, rfl⟩
abbrev main_v558 : Ref sig .tc := ⟨.hbm, 861, rfl⟩
abbrev main_v559 : Ref sig .tc := ⟨.hbm, 862, rfl⟩
abbrev main_v560 : Ref sig .tc := ⟨.hbm, 863, rfl⟩
abbrev main_v561 : Ref sig .tc := ⟨.hbm, 864, rfl⟩
abbrev main_v562 : Ref sig .tc := ⟨.hbm, 865, rfl⟩
abbrev main_v563 : Ref sig .tc := ⟨.hbm, 866, rfl⟩
abbrev main_v564 : Ref sig .tc := ⟨.hbm, 867, rfl⟩
abbrev main_v565 : Ref sig .tc := ⟨.hbm, 868, rfl⟩
abbrev main_v566 : Ref sig .tc := ⟨.hbm, 869, rfl⟩
abbrev main_v567 : Ref sig .tc := ⟨.hbm, 870, rfl⟩
abbrev main_v568 : Ref sig .tc := ⟨.hbm, 871, rfl⟩
abbrev main_v569 : Ref sig .tc := ⟨.hbm, 872, rfl⟩
abbrev main_v570 : Ref sig .tc := ⟨.hbm, 873, rfl⟩
abbrev main_v571 : Ref sig .tc := ⟨.hbm, 874, rfl⟩
abbrev main_v572 : Ref sig .tc := ⟨.hbm, 875, rfl⟩
abbrev main_v573 : Ref sig .tc := ⟨.hbm, 876, rfl⟩
abbrev main_v574 : Ref sig .tc := ⟨.hbm, 877, rfl⟩
abbrev main_v575 : Ref sig .tc := ⟨.hbm, 878, rfl⟩
abbrev main_v576 : Ref sig .tc := ⟨.hbm, 879, rfl⟩
abbrev main_v577 : Ref sig .tc := ⟨.hbm, 880, rfl⟩
abbrev main_v578 : Ref sig .tc := ⟨.hbm, 881, rfl⟩
abbrev main_v579 : Ref sig .tc := ⟨.hbm, 882, rfl⟩
abbrev main_v580 : Ref sig .tc := ⟨.hbm, 883, rfl⟩
abbrev main_v581 : Ref sig .tc := ⟨.hbm, 884, rfl⟩
abbrev main_v582 : Ref sig .tc := ⟨.hbm, 885, rfl⟩
abbrev main_cst_49 : Ref sig .tc := ⟨.hbm, 886, rfl⟩
abbrev main_call45_cst : Ref sig .tc := ⟨.hbm, 887, rfl⟩
abbrev main_call45_v0 : Ref sig .tc := ⟨.hbm, 888, rfl⟩
abbrev main_call45_v1 : Ref sig .tc := ⟨.hbm, 889, rfl⟩
abbrev main_call45_v2 : Ref sig .tc := ⟨.hbm, 890, rfl⟩
abbrev main_call45_v3 : Ref sig .tc := ⟨.hbm, 891, rfl⟩
abbrev main_call45_v4 : Ref sig .tc := ⟨.hbm, 892, rfl⟩
abbrev main_v583 : Ref sig .tc := ⟨.hbm, 893, rfl⟩
abbrev main_v584 : Ref sig .tc := ⟨.hbm, 894, rfl⟩
abbrev main_v585 : Ref sig .tc := ⟨.hbm, 895, rfl⟩
abbrev main_v586 : Ref sig .tc := ⟨.hbm, 896, rfl⟩
abbrev main_v587 : Ref sig .tc := ⟨.hbm, 897, rfl⟩
abbrev main_v588 : Ref sig .tc := ⟨.hbm, 898, rfl⟩
abbrev main_cst_50 : Ref sig .tc := ⟨.hbm, 899, rfl⟩
abbrev main_call46_cst : Ref sig .tc := ⟨.hbm, 900, rfl⟩
abbrev main_call46_v0 : Ref sig .tc := ⟨.hbm, 901, rfl⟩
abbrev main_call46_v1 : Ref sig .tc := ⟨.hbm, 902, rfl⟩
abbrev main_call46_v2 : Ref sig .tc := ⟨.hbm, 903, rfl⟩
abbrev main_call46_v3 : Ref sig .tc := ⟨.hbm, 904, rfl⟩
abbrev main_call46_v4 : Ref sig .tc := ⟨.hbm, 905, rfl⟩
abbrev main_v589 : Ref sig .tc := ⟨.hbm, 906, rfl⟩
abbrev main_v590 : Ref sig .tc := ⟨.hbm, 907, rfl⟩
abbrev main_v591 : Ref sig .tc := ⟨.hbm, 908, rfl⟩
abbrev main_v592 : Ref sig .tc := ⟨.hbm, 909, rfl⟩
abbrev main_v593 : Ref sig .tc := ⟨.hbm, 910, rfl⟩
abbrev main_v594 : Ref sig .tc := ⟨.hbm, 911, rfl⟩
abbrev main_cst_51 : Ref sig .tc := ⟨.hbm, 912, rfl⟩
abbrev main_call47_cst : Ref sig .tc := ⟨.hbm, 913, rfl⟩
abbrev main_call47_v0 : Ref sig .tc := ⟨.hbm, 914, rfl⟩
abbrev main_call47_v1 : Ref sig .tc := ⟨.hbm, 915, rfl⟩
abbrev main_call47_v2 : Ref sig .tc := ⟨.hbm, 916, rfl⟩
abbrev main_call47_v3 : Ref sig .tc := ⟨.hbm, 917, rfl⟩
abbrev main_call47_v4 : Ref sig .tc := ⟨.hbm, 918, rfl⟩
abbrev main_v595 : Ref sig .tc := ⟨.hbm, 919, rfl⟩
abbrev main_v596 : Ref sig .tc := ⟨.hbm, 920, rfl⟩
abbrev main_v597 : Ref sig .tc := ⟨.hbm, 921, rfl⟩
abbrev main_v598 : Ref sig .tc := ⟨.hbm, 922, rfl⟩
abbrev main_v599 : Ref sig .tc := ⟨.hbm, 923, rfl⟩
abbrev main_v600 : Ref sig .tc := ⟨.hbm, 924, rfl⟩
abbrev main_cst_52 : Ref sig .tc := ⟨.hbm, 925, rfl⟩
abbrev main_call48_cst : Ref sig .tc := ⟨.hbm, 926, rfl⟩
abbrev main_call48_v0 : Ref sig .tc := ⟨.hbm, 927, rfl⟩
abbrev main_call48_v1 : Ref sig .tc := ⟨.hbm, 928, rfl⟩
abbrev main_call48_v2 : Ref sig .tc := ⟨.hbm, 929, rfl⟩
abbrev main_call48_v3 : Ref sig .tc := ⟨.hbm, 930, rfl⟩
abbrev main_call48_v4 : Ref sig .tc := ⟨.hbm, 931, rfl⟩
abbrev main_v601 : Ref sig .tc := ⟨.hbm, 932, rfl⟩
abbrev main_v602 : Ref sig .tc := ⟨.hbm, 933, rfl⟩
abbrev main_v603 : Ref sig .tc := ⟨.hbm, 934, rfl⟩
abbrev main_v604 : Ref sig .tc := ⟨.hbm, 935, rfl⟩
abbrev main_v605 : Ref sig .tc := ⟨.hbm, 936, rfl⟩
abbrev main_v606 : Ref sig .tc := ⟨.hbm, 937, rfl⟩
abbrev main_v607 : Ref sig .tc := ⟨.hbm, 938, rfl⟩
abbrev main_v608 : Ref sig .tc := ⟨.hbm, 939, rfl⟩
abbrev main_v609 : Ref sig .tc := ⟨.hbm, 940, rfl⟩
abbrev main_v610 : Ref sig .tc := ⟨.hbm, 941, rfl⟩
abbrev main_v611 : Ref sig .tc := ⟨.hbm, 942, rfl⟩
abbrev main_v612 : Ref sig .tc := ⟨.hbm, 943, rfl⟩
abbrev main_v613 : Ref sig .tc := ⟨.hbm, 944, rfl⟩
abbrev main_v614 : Ref sig .tc := ⟨.hbm, 945, rfl⟩
abbrev main_v615 : Ref sig .tc := ⟨.hbm, 946, rfl⟩
abbrev main_v616 : Ref sig .tc := ⟨.hbm, 947, rfl⟩
abbrev main_v617 : Ref sig .tc := ⟨.hbm, 948, rfl⟩
abbrev main_v618 : Ref sig .tc := ⟨.hbm, 949, rfl⟩
abbrev main_v619 : Ref sig .tc := ⟨.hbm, 950, rfl⟩
abbrev main_v620 : Ref sig .tc := ⟨.hbm, 951, rfl⟩
abbrev main_v621 : Ref sig .tc := ⟨.hbm, 952, rfl⟩
abbrev main_v622 : Ref sig .tc := ⟨.hbm, 953, rfl⟩
abbrev main_v623 : Ref sig .tc := ⟨.hbm, 954, rfl⟩
abbrev main_v624 : Ref sig .tc := ⟨.hbm, 955, rfl⟩
abbrev main_v625 : Ref sig .tc := ⟨.hbm, 956, rfl⟩
abbrev main_v626 : Ref sig .tc := ⟨.hbm, 957, rfl⟩
abbrev main_v627 : Ref sig .tc := ⟨.hbm, 958, rfl⟩
abbrev main_v628 : Ref sig .tc := ⟨.hbm, 959, rfl⟩
abbrev main_v629 : Ref sig .tc := ⟨.hbm, 960, rfl⟩
abbrev main_v630 : Ref sig .tc := ⟨.hbm, 961, rfl⟩
abbrev main_v631 : Ref sig .tc := ⟨.hbm, 962, rfl⟩
abbrev main_cst_53 : Ref sig .tc := ⟨.hbm, 963, rfl⟩
abbrev main_call49_cst : Ref sig .tc := ⟨.hbm, 964, rfl⟩
abbrev main_call49_v0 : Ref sig .tc := ⟨.hbm, 965, rfl⟩
abbrev main_call49_v1 : Ref sig .tc := ⟨.hbm, 966, rfl⟩
abbrev main_call49_v2 : Ref sig .tc := ⟨.hbm, 967, rfl⟩
abbrev main_call49_v3 : Ref sig .tc := ⟨.hbm, 968, rfl⟩
abbrev main_call49_v4 : Ref sig .tc := ⟨.hbm, 969, rfl⟩
abbrev main_v632 : Ref sig .tc := ⟨.hbm, 970, rfl⟩
abbrev main_v633 : Ref sig .tc := ⟨.hbm, 971, rfl⟩
abbrev main_v634 : Ref sig .tc := ⟨.hbm, 972, rfl⟩
abbrev main_v635 : Ref sig .tc := ⟨.hbm, 973, rfl⟩
abbrev main_v636 : Ref sig .tc := ⟨.hbm, 974, rfl⟩
abbrev main_v637 : Ref sig .tc := ⟨.hbm, 975, rfl⟩
abbrev main_cst_54 : Ref sig .tc := ⟨.hbm, 976, rfl⟩
abbrev main_call50_cst : Ref sig .tc := ⟨.hbm, 977, rfl⟩
abbrev main_call50_v0 : Ref sig .tc := ⟨.hbm, 978, rfl⟩
abbrev main_call50_v1 : Ref sig .tc := ⟨.hbm, 979, rfl⟩
abbrev main_call50_v2 : Ref sig .tc := ⟨.hbm, 980, rfl⟩
abbrev main_call50_v3 : Ref sig .tc := ⟨.hbm, 981, rfl⟩
abbrev main_call50_v4 : Ref sig .tc := ⟨.hbm, 982, rfl⟩
abbrev main_v638 : Ref sig .tc := ⟨.hbm, 983, rfl⟩
abbrev main_v639 : Ref sig .tc := ⟨.hbm, 984, rfl⟩
abbrev main_v640 : Ref sig .tc := ⟨.hbm, 985, rfl⟩
abbrev main_v641 : Ref sig .tc := ⟨.hbm, 986, rfl⟩
abbrev main_v642 : Ref sig .tc := ⟨.hbm, 987, rfl⟩
abbrev main_v643 : Ref sig .tc := ⟨.hbm, 988, rfl⟩
abbrev main_cst_55 : Ref sig .tc := ⟨.hbm, 989, rfl⟩
abbrev main_call51_cst : Ref sig .tc := ⟨.hbm, 990, rfl⟩
abbrev main_call51_v0 : Ref sig .tc := ⟨.hbm, 991, rfl⟩
abbrev main_call51_v1 : Ref sig .tc := ⟨.hbm, 992, rfl⟩
abbrev main_call51_v2 : Ref sig .tc := ⟨.hbm, 993, rfl⟩
abbrev main_call51_v3 : Ref sig .tc := ⟨.hbm, 994, rfl⟩
abbrev main_call51_v4 : Ref sig .tc := ⟨.hbm, 995, rfl⟩
abbrev main_v644 : Ref sig .tc := ⟨.hbm, 996, rfl⟩
abbrev main_v645 : Ref sig .tc := ⟨.hbm, 997, rfl⟩
abbrev main_v646 : Ref sig .tc := ⟨.hbm, 998, rfl⟩
abbrev main_v647 : Ref sig .tc := ⟨.hbm, 999, rfl⟩
abbrev main_v648 : Ref sig .tc := ⟨.hbm, 1000, rfl⟩
abbrev main_v649 : Ref sig .tc := ⟨.hbm, 1001, rfl⟩
abbrev main_cst_56 : Ref sig .tc := ⟨.hbm, 1002, rfl⟩
abbrev main_call52_cst : Ref sig .tc := ⟨.hbm, 1003, rfl⟩
abbrev main_call52_v0 : Ref sig .tc := ⟨.hbm, 1004, rfl⟩
abbrev main_call52_v1 : Ref sig .tc := ⟨.hbm, 1005, rfl⟩
abbrev main_call52_v2 : Ref sig .tc := ⟨.hbm, 1006, rfl⟩
abbrev main_call52_v3 : Ref sig .tc := ⟨.hbm, 1007, rfl⟩
abbrev main_call52_v4 : Ref sig .tc := ⟨.hbm, 1008, rfl⟩
abbrev main_v650 : Ref sig .tc := ⟨.hbm, 1009, rfl⟩
abbrev main_v651 : Ref sig .tc := ⟨.hbm, 1010, rfl⟩
abbrev main_v652 : Ref sig .tc := ⟨.hbm, 1011, rfl⟩
abbrev main_v653 : Ref sig .tc := ⟨.hbm, 1012, rfl⟩
abbrev main_v654 : Ref sig .tc := ⟨.hbm, 1013, rfl⟩
abbrev main_v655 : Ref sig .tc := ⟨.hbm, 1014, rfl⟩
abbrev main_v656 : Ref sig .tc := ⟨.hbm, 1015, rfl⟩
abbrev main_v657 : Ref sig .tc := ⟨.hbm, 1016, rfl⟩
abbrev main_v658 : Ref sig .tc := ⟨.hbm, 1017, rfl⟩
abbrev main_cst_57 : Ref sig .tc := ⟨.hbm, 1018, rfl⟩
abbrev main_v659 : Ref sig .tc := ⟨.hbm, 1019, rfl⟩
abbrev main_v660 : Ref sig .tc := ⟨.hbm, 1020, rfl⟩
abbrev main_v661 : Ref sig .tc := ⟨.hbm, 1021, rfl⟩
abbrev main_v662 : Ref sig .tc := ⟨.hbm, 1022, rfl⟩
abbrev main_v663 : Ref sig .tc := ⟨.hbm, 1023, rfl⟩
abbrev main_c_58 : Ref sig .tc := ⟨.hbm, 1024, rfl⟩
abbrev main_v664 : Ref sig .tc := ⟨.hbm, 1025, rfl⟩
abbrev main_v665 : Ref sig .tc := ⟨.hbm, 1026, rfl⟩
abbrev main_v666 : Ref sig .tc := ⟨.hbm, 1027, rfl⟩
abbrev main_v667 : Ref sig .tc := ⟨.hbm, 1028, rfl⟩
abbrev main_v668 : Ref sig .tc := ⟨.hbm, 1029, rfl⟩
abbrev main_v669 : Ref sig .tc := ⟨.hbm, 1030, rfl⟩
abbrev main_v670 : Ref sig .tc := ⟨.hbm, 1031, rfl⟩
abbrev main_v671 : Ref sig .tc := ⟨.hbm, 1032, rfl⟩
abbrev main_v672 : Ref sig .tc := ⟨.hbm, 1033, rfl⟩
abbrev main_v673 : Ref sig .tc := ⟨.hbm, 1034, rfl⟩
abbrev main_v674 : Ref sig .tc := ⟨.hbm, 1035, rfl⟩
abbrev main_v675 : Ref sig .tc := ⟨.hbm, 1036, rfl⟩
abbrev main_v676 : Ref sig .tc := ⟨.hbm, 1037, rfl⟩
abbrev main_v677 : Ref sig .tc := ⟨.hbm, 1038, rfl⟩
abbrev main_v678 : Ref sig .tc := ⟨.hbm, 1039, rfl⟩
abbrev main_v679 : Ref sig .tc := ⟨.hbm, 1040, rfl⟩
abbrev main_v680 : Ref sig .tc := ⟨.hbm, 1041, rfl⟩
abbrev main_v681 : Ref sig .tc := ⟨.hbm, 1042, rfl⟩
abbrev main_v682 : Ref sig .tc := ⟨.hbm, 1043, rfl⟩
abbrev main_v683 : Ref sig .tc := ⟨.hbm, 1044, rfl⟩
abbrev main_v684 : Ref sig .tc := ⟨.hbm, 1045, rfl⟩
abbrev main_v685 : Ref sig .tc := ⟨.hbm, 1046, rfl⟩
abbrev main_v686 : Ref sig .tc := ⟨.hbm, 1047, rfl⟩
abbrev main_v687 : Ref sig .tc := ⟨.hbm, 1048, rfl⟩
abbrev main_v688 : Ref sig .tc := ⟨.hbm, 1049, rfl⟩
abbrev main_v689 : Ref sig .tc := ⟨.hbm, 1050, rfl⟩
abbrev main_v690 : Ref sig .tc := ⟨.hbm, 1051, rfl⟩
abbrev main_v691 : Ref sig .tc := ⟨.hbm, 1052, rfl⟩
abbrev main_v692 : Ref sig .tc := ⟨.hbm, 1053, rfl⟩
abbrev main_v693 : Ref sig .tc := ⟨.hbm, 1054, rfl⟩
abbrev main_cst_59 : Ref sig .tc := ⟨.hbm, 1055, rfl⟩
abbrev main_call54_cst : Ref sig .tc := ⟨.hbm, 1056, rfl⟩
abbrev main_call54_v0 : Ref sig .tc := ⟨.hbm, 1057, rfl⟩
abbrev main_call54_v1 : Ref sig .tc := ⟨.hbm, 1058, rfl⟩
abbrev main_call54_v2 : Ref sig .tc := ⟨.hbm, 1059, rfl⟩
abbrev main_call54_v3 : Ref sig .tc := ⟨.hbm, 1060, rfl⟩
abbrev main_call54_v4 : Ref sig .tc := ⟨.hbm, 1061, rfl⟩
abbrev main_v694 : Ref sig .tc := ⟨.hbm, 1062, rfl⟩
abbrev main_v695 : Ref sig .tc := ⟨.hbm, 1063, rfl⟩
abbrev main_v696 : Ref sig .tc := ⟨.hbm, 1064, rfl⟩
abbrev main_v697 : Ref sig .tc := ⟨.hbm, 1065, rfl⟩
abbrev main_v698 : Ref sig .tc := ⟨.hbm, 1066, rfl⟩
abbrev main_v699 : Ref sig .tc := ⟨.hbm, 1067, rfl⟩
abbrev main_cst_60 : Ref sig .tc := ⟨.hbm, 1068, rfl⟩
abbrev main_call55_cst : Ref sig .tc := ⟨.hbm, 1069, rfl⟩
abbrev main_call55_v0 : Ref sig .tc := ⟨.hbm, 1070, rfl⟩
abbrev main_call55_v1 : Ref sig .tc := ⟨.hbm, 1071, rfl⟩
abbrev main_call55_v2 : Ref sig .tc := ⟨.hbm, 1072, rfl⟩
abbrev main_call55_v3 : Ref sig .tc := ⟨.hbm, 1073, rfl⟩
abbrev main_call55_v4 : Ref sig .tc := ⟨.hbm, 1074, rfl⟩
abbrev main_v700 : Ref sig .tc := ⟨.hbm, 1075, rfl⟩
abbrev main_v701 : Ref sig .tc := ⟨.hbm, 1076, rfl⟩
abbrev main_v702 : Ref sig .tc := ⟨.hbm, 1077, rfl⟩
abbrev main_v703 : Ref sig .tc := ⟨.hbm, 1078, rfl⟩
abbrev main_v704 : Ref sig .tc := ⟨.hbm, 1079, rfl⟩
abbrev main_v705 : Ref sig .tc := ⟨.hbm, 1080, rfl⟩
abbrev main_cst_61 : Ref sig .tc := ⟨.hbm, 1081, rfl⟩
abbrev main_call56_cst : Ref sig .tc := ⟨.hbm, 1082, rfl⟩
abbrev main_call56_v0 : Ref sig .tc := ⟨.hbm, 1083, rfl⟩
abbrev main_call56_v1 : Ref sig .tc := ⟨.hbm, 1084, rfl⟩
abbrev main_call56_v2 : Ref sig .tc := ⟨.hbm, 1085, rfl⟩
abbrev main_call56_v3 : Ref sig .tc := ⟨.hbm, 1086, rfl⟩
abbrev main_call56_v4 : Ref sig .tc := ⟨.hbm, 1087, rfl⟩
abbrev main_v706 : Ref sig .tc := ⟨.hbm, 1088, rfl⟩
abbrev main_v707 : Ref sig .tc := ⟨.hbm, 1089, rfl⟩
abbrev main_v708 : Ref sig .tc := ⟨.hbm, 1090, rfl⟩
abbrev main_v709 : Ref sig .tc := ⟨.hbm, 1091, rfl⟩
abbrev main_v710 : Ref sig .tc := ⟨.hbm, 1092, rfl⟩
abbrev main_v711 : Ref sig .tc := ⟨.hbm, 1093, rfl⟩
abbrev main_cst_62 : Ref sig .tc := ⟨.hbm, 1094, rfl⟩
abbrev main_call57_cst : Ref sig .tc := ⟨.hbm, 1095, rfl⟩
abbrev main_call57_v0 : Ref sig .tc := ⟨.hbm, 1096, rfl⟩
abbrev main_call57_v1 : Ref sig .tc := ⟨.hbm, 1097, rfl⟩
abbrev main_call57_v2 : Ref sig .tc := ⟨.hbm, 1098, rfl⟩
abbrev main_call57_v3 : Ref sig .tc := ⟨.hbm, 1099, rfl⟩
abbrev main_call57_v4 : Ref sig .tc := ⟨.hbm, 1100, rfl⟩
abbrev main_v712 : Ref sig .tc := ⟨.hbm, 1101, rfl⟩
abbrev main_v713 : Ref sig .tc := ⟨.hbm, 1102, rfl⟩
abbrev main_v714 : Ref sig .tc := ⟨.hbm, 1103, rfl⟩
abbrev main_v715 : Ref sig .tc := ⟨.hbm, 1104, rfl⟩
abbrev main_v716 : Ref sig .tc := ⟨.hbm, 1105, rfl⟩
abbrev main_v717 : Ref sig .tc := ⟨.hbm, 1106, rfl⟩
abbrev main_v718 : Ref sig .tc := ⟨.hbm, 1107, rfl⟩
abbrev main_v719 : Ref sig .tc := ⟨.hbm, 1108, rfl⟩
abbrev main_v720 : Ref sig .tc := ⟨.hbm, 1109, rfl⟩
abbrev main_v721 : Ref sig .tc := ⟨.hbm, 1110, rfl⟩
abbrev main_v722 : Ref sig .tc := ⟨.hbm, 1111, rfl⟩
abbrev main_v723 : Ref sig .tc := ⟨.hbm, 1112, rfl⟩
abbrev main_v724 : Ref sig .tc := ⟨.hbm, 1113, rfl⟩
abbrev main_v725 : Ref sig .tc := ⟨.hbm, 1114, rfl⟩
abbrev main_v726 : Ref sig .tc := ⟨.hbm, 1115, rfl⟩
abbrev main_v727 : Ref sig .tc := ⟨.hbm, 1116, rfl⟩
abbrev main_v728 : Ref sig .tc := ⟨.hbm, 1117, rfl⟩
abbrev main_v729 : Ref sig .tc := ⟨.hbm, 1118, rfl⟩
abbrev main_v730 : Ref sig .tc := ⟨.hbm, 1119, rfl⟩
abbrev main_v731 : Ref sig .tc := ⟨.hbm, 1120, rfl⟩
abbrev main_v732 : Ref sig .tc := ⟨.hbm, 1121, rfl⟩
abbrev main_v733 : Ref sig .tc := ⟨.hbm, 1122, rfl⟩
abbrev main_v734 : Ref sig .tc := ⟨.hbm, 1123, rfl⟩
abbrev main_v735 : Ref sig .tc := ⟨.hbm, 1124, rfl⟩
abbrev main_v736 : Ref sig .tc := ⟨.hbm, 1125, rfl⟩
abbrev main_v737 : Ref sig .tc := ⟨.hbm, 1126, rfl⟩
abbrev main_v738 : Ref sig .tc := ⟨.hbm, 1127, rfl⟩
abbrev main_v739 : Ref sig .tc := ⟨.hbm, 1128, rfl⟩
abbrev main_v740 : Ref sig .tc := ⟨.hbm, 1129, rfl⟩
abbrev main_v741 : Ref sig .tc := ⟨.hbm, 1130, rfl⟩
abbrev main_v742 : Ref sig .tc := ⟨.hbm, 1131, rfl⟩
abbrev main_cst_63 : Ref sig .tc := ⟨.hbm, 1132, rfl⟩
abbrev main_call58_cst : Ref sig .tc := ⟨.hbm, 1133, rfl⟩
abbrev main_call58_v0 : Ref sig .tc := ⟨.hbm, 1134, rfl⟩
abbrev main_call58_v1 : Ref sig .tc := ⟨.hbm, 1135, rfl⟩
abbrev main_call58_v2 : Ref sig .tc := ⟨.hbm, 1136, rfl⟩
abbrev main_call58_v3 : Ref sig .tc := ⟨.hbm, 1137, rfl⟩
abbrev main_call58_v4 : Ref sig .tc := ⟨.hbm, 1138, rfl⟩
abbrev main_v743 : Ref sig .tc := ⟨.hbm, 1139, rfl⟩
abbrev main_v744 : Ref sig .tc := ⟨.hbm, 1140, rfl⟩
abbrev main_v745 : Ref sig .tc := ⟨.hbm, 1141, rfl⟩
abbrev main_v746 : Ref sig .tc := ⟨.hbm, 1142, rfl⟩
abbrev main_v747 : Ref sig .tc := ⟨.hbm, 1143, rfl⟩
abbrev main_v748 : Ref sig .tc := ⟨.hbm, 1144, rfl⟩
abbrev main_cst_64 : Ref sig .tc := ⟨.hbm, 1145, rfl⟩
abbrev main_call59_cst : Ref sig .tc := ⟨.hbm, 1146, rfl⟩
abbrev main_call59_v0 : Ref sig .tc := ⟨.hbm, 1147, rfl⟩
abbrev main_call59_v1 : Ref sig .tc := ⟨.hbm, 1148, rfl⟩
abbrev main_call59_v2 : Ref sig .tc := ⟨.hbm, 1149, rfl⟩
abbrev main_call59_v3 : Ref sig .tc := ⟨.hbm, 1150, rfl⟩
abbrev main_call59_v4 : Ref sig .tc := ⟨.hbm, 1151, rfl⟩
abbrev main_v749 : Ref sig .tc := ⟨.hbm, 1152, rfl⟩
abbrev main_v750 : Ref sig .tc := ⟨.hbm, 1153, rfl⟩
abbrev main_v751 : Ref sig .tc := ⟨.hbm, 1154, rfl⟩
abbrev main_v752 : Ref sig .tc := ⟨.hbm, 1155, rfl⟩
abbrev main_v753 : Ref sig .tc := ⟨.hbm, 1156, rfl⟩
abbrev main_v754 : Ref sig .tc := ⟨.hbm, 1157, rfl⟩
abbrev main_cst_65 : Ref sig .tc := ⟨.hbm, 1158, rfl⟩
abbrev main_call60_cst : Ref sig .tc := ⟨.hbm, 1159, rfl⟩
abbrev main_call60_v0 : Ref sig .tc := ⟨.hbm, 1160, rfl⟩
abbrev main_call60_v1 : Ref sig .tc := ⟨.hbm, 1161, rfl⟩
abbrev main_call60_v2 : Ref sig .tc := ⟨.hbm, 1162, rfl⟩
abbrev main_call60_v3 : Ref sig .tc := ⟨.hbm, 1163, rfl⟩
abbrev main_call60_v4 : Ref sig .tc := ⟨.hbm, 1164, rfl⟩
abbrev main_v755 : Ref sig .tc := ⟨.hbm, 1165, rfl⟩
abbrev main_v756 : Ref sig .tc := ⟨.hbm, 1166, rfl⟩
abbrev main_v757 : Ref sig .tc := ⟨.hbm, 1167, rfl⟩
abbrev main_v758 : Ref sig .tc := ⟨.hbm, 1168, rfl⟩
abbrev main_v759 : Ref sig .tc := ⟨.hbm, 1169, rfl⟩
abbrev main_v760 : Ref sig .tc := ⟨.hbm, 1170, rfl⟩
abbrev main_cst_66 : Ref sig .tc := ⟨.hbm, 1171, rfl⟩
abbrev main_call61_cst : Ref sig .tc := ⟨.hbm, 1172, rfl⟩
abbrev main_call61_v0 : Ref sig .tc := ⟨.hbm, 1173, rfl⟩
abbrev main_call61_v1 : Ref sig .tc := ⟨.hbm, 1174, rfl⟩
abbrev main_call61_v2 : Ref sig .tc := ⟨.hbm, 1175, rfl⟩
abbrev main_call61_v3 : Ref sig .tc := ⟨.hbm, 1176, rfl⟩
abbrev main_call61_v4 : Ref sig .tc := ⟨.hbm, 1177, rfl⟩
abbrev main_v761 : Ref sig .tc := ⟨.hbm, 1178, rfl⟩
abbrev main_v762 : Ref sig .tc := ⟨.hbm, 1179, rfl⟩
abbrev main_v763 : Ref sig .tc := ⟨.hbm, 1180, rfl⟩
abbrev main_v764 : Ref sig .tc := ⟨.hbm, 1181, rfl⟩
abbrev main_v765 : Ref sig .tc := ⟨.hbm, 1182, rfl⟩
abbrev main_v766 : Ref sig .tc := ⟨.hbm, 1183, rfl⟩
abbrev main_v767 : Ref sig .tc := ⟨.hbm, 1184, rfl⟩
abbrev main_v768 : Ref sig .tc := ⟨.hbm, 1185, rfl⟩
abbrev main_v769 : Ref sig .tc := ⟨.hbm, 1186, rfl⟩
abbrev main_cst_67 : Ref sig .tc := ⟨.hbm, 1187, rfl⟩
abbrev main_v770 : Ref sig .tc := ⟨.hbm, 1188, rfl⟩
abbrev main_v771 : Ref sig .tc := ⟨.hbm, 1189, rfl⟩
abbrev main_v772 : Ref sig .tc := ⟨.hbm, 1190, rfl⟩
abbrev main_v773 : Ref sig .tc := ⟨.hbm, 1191, rfl⟩
abbrev main_v774 : Ref sig .tc := ⟨.hbm, 1192, rfl⟩
abbrev main_c_68 : Ref sig .tc := ⟨.hbm, 1193, rfl⟩
abbrev main_v775 : Ref sig .tc := ⟨.hbm, 1194, rfl⟩
abbrev main_v776 : Ref sig .tc := ⟨.hbm, 1195, rfl⟩
abbrev main_v777 : Ref sig .tc := ⟨.hbm, 1196, rfl⟩
abbrev main_v778 : Ref sig .tc := ⟨.hbm, 1197, rfl⟩
abbrev main_v779 : Ref sig .tc := ⟨.hbm, 1198, rfl⟩
abbrev main_v780 : Ref sig .tc := ⟨.hbm, 1199, rfl⟩
abbrev main_v781 : Ref sig .tc := ⟨.hbm, 1200, rfl⟩
abbrev main_v782 : Ref sig .tc := ⟨.hbm, 1201, rfl⟩
abbrev main_v783 : Ref sig .tc := ⟨.hbm, 1202, rfl⟩
abbrev main_v784 : Ref sig .tc := ⟨.hbm, 1203, rfl⟩
abbrev main_v785 : Ref sig .tc := ⟨.hbm, 1204, rfl⟩
abbrev main_v786 : Ref sig .tc := ⟨.hbm, 1205, rfl⟩
abbrev main_v787 : Ref sig .tc := ⟨.hbm, 1206, rfl⟩
abbrev main_v788 : Ref sig .tc := ⟨.hbm, 1207, rfl⟩
abbrev main_v789 : Ref sig .tc := ⟨.hbm, 1208, rfl⟩
abbrev main_v790 : Ref sig .tc := ⟨.hbm, 1209, rfl⟩
abbrev main_v791 : Ref sig .tc := ⟨.hbm, 1210, rfl⟩
abbrev main_v792 : Ref sig .tc := ⟨.hbm, 1211, rfl⟩
abbrev main_v793 : Ref sig .tc := ⟨.hbm, 1212, rfl⟩
abbrev main_v794 : Ref sig .tc := ⟨.hbm, 1213, rfl⟩
abbrev main_v795 : Ref sig .tc := ⟨.hbm, 1214, rfl⟩
abbrev main_v796 : Ref sig .tc := ⟨.hbm, 1215, rfl⟩
abbrev main_v797 : Ref sig .tc := ⟨.hbm, 1216, rfl⟩
abbrev main_v798 : Ref sig .tc := ⟨.hbm, 1217, rfl⟩
abbrev main_v799 : Ref sig .tc := ⟨.hbm, 1218, rfl⟩
abbrev main_v800 : Ref sig .tc := ⟨.hbm, 1219, rfl⟩
abbrev main_v801 : Ref sig .tc := ⟨.hbm, 1220, rfl⟩
abbrev main_v802 : Ref sig .tc := ⟨.hbm, 1221, rfl⟩
abbrev main_v803 : Ref sig .tc := ⟨.hbm, 1222, rfl⟩
abbrev main_v804 : Ref sig .tc := ⟨.hbm, 1223, rfl⟩
abbrev main_cst_69 : Ref sig .tc := ⟨.hbm, 1224, rfl⟩
abbrev main_call63_cst : Ref sig .tc := ⟨.hbm, 1225, rfl⟩
abbrev main_call63_v0 : Ref sig .tc := ⟨.hbm, 1226, rfl⟩
abbrev main_call63_v1 : Ref sig .tc := ⟨.hbm, 1227, rfl⟩
abbrev main_call63_v2 : Ref sig .tc := ⟨.hbm, 1228, rfl⟩
abbrev main_call63_v3 : Ref sig .tc := ⟨.hbm, 1229, rfl⟩
abbrev main_call63_v4 : Ref sig .tc := ⟨.hbm, 1230, rfl⟩
abbrev main_v805 : Ref sig .tc := ⟨.hbm, 1231, rfl⟩
abbrev main_v806 : Ref sig .tc := ⟨.hbm, 1232, rfl⟩
abbrev main_v807 : Ref sig .tc := ⟨.hbm, 1233, rfl⟩
abbrev main_v808 : Ref sig .tc := ⟨.hbm, 1234, rfl⟩
abbrev main_v809 : Ref sig .tc := ⟨.hbm, 1235, rfl⟩
abbrev main_v810 : Ref sig .tc := ⟨.hbm, 1236, rfl⟩
abbrev main_cst_70 : Ref sig .tc := ⟨.hbm, 1237, rfl⟩
abbrev main_call64_cst : Ref sig .tc := ⟨.hbm, 1238, rfl⟩
abbrev main_call64_v0 : Ref sig .tc := ⟨.hbm, 1239, rfl⟩
abbrev main_call64_v1 : Ref sig .tc := ⟨.hbm, 1240, rfl⟩
abbrev main_call64_v2 : Ref sig .tc := ⟨.hbm, 1241, rfl⟩
abbrev main_call64_v3 : Ref sig .tc := ⟨.hbm, 1242, rfl⟩
abbrev main_call64_v4 : Ref sig .tc := ⟨.hbm, 1243, rfl⟩
abbrev main_v811 : Ref sig .tc := ⟨.hbm, 1244, rfl⟩
abbrev main_v812 : Ref sig .tc := ⟨.hbm, 1245, rfl⟩
abbrev main_v813 : Ref sig .tc := ⟨.hbm, 1246, rfl⟩
abbrev main_v814 : Ref sig .tc := ⟨.hbm, 1247, rfl⟩
abbrev main_v815 : Ref sig .tc := ⟨.hbm, 1248, rfl⟩
abbrev main_v816 : Ref sig .tc := ⟨.hbm, 1249, rfl⟩
abbrev main_cst_71 : Ref sig .tc := ⟨.hbm, 1250, rfl⟩
abbrev main_call65_cst : Ref sig .tc := ⟨.hbm, 1251, rfl⟩
abbrev main_call65_v0 : Ref sig .tc := ⟨.hbm, 1252, rfl⟩
abbrev main_call65_v1 : Ref sig .tc := ⟨.hbm, 1253, rfl⟩
abbrev main_call65_v2 : Ref sig .tc := ⟨.hbm, 1254, rfl⟩
abbrev main_call65_v3 : Ref sig .tc := ⟨.hbm, 1255, rfl⟩
abbrev main_call65_v4 : Ref sig .tc := ⟨.hbm, 1256, rfl⟩
abbrev main_v817 : Ref sig .tc := ⟨.hbm, 1257, rfl⟩
abbrev main_v818 : Ref sig .tc := ⟨.hbm, 1258, rfl⟩
abbrev main_v819 : Ref sig .tc := ⟨.hbm, 1259, rfl⟩
abbrev main_v820 : Ref sig .tc := ⟨.hbm, 1260, rfl⟩
abbrev main_v821 : Ref sig .tc := ⟨.hbm, 1261, rfl⟩
abbrev main_v822 : Ref sig .tc := ⟨.hbm, 1262, rfl⟩
abbrev main_cst_72 : Ref sig .tc := ⟨.hbm, 1263, rfl⟩
abbrev main_call66_cst : Ref sig .tc := ⟨.hbm, 1264, rfl⟩
abbrev main_call66_v0 : Ref sig .tc := ⟨.hbm, 1265, rfl⟩
abbrev main_call66_v1 : Ref sig .tc := ⟨.hbm, 1266, rfl⟩
abbrev main_call66_v2 : Ref sig .tc := ⟨.hbm, 1267, rfl⟩
abbrev main_call66_v3 : Ref sig .tc := ⟨.hbm, 1268, rfl⟩
abbrev main_call66_v4 : Ref sig .tc := ⟨.hbm, 1269, rfl⟩
abbrev main_v823 : Ref sig .tc := ⟨.hbm, 1270, rfl⟩
abbrev main_v824 : Ref sig .tc := ⟨.hbm, 1271, rfl⟩
abbrev main_v825 : Ref sig .tc := ⟨.hbm, 1272, rfl⟩
abbrev main_v826 : Ref sig .tc := ⟨.hbm, 1273, rfl⟩
abbrev main_v827 : Ref sig .tc := ⟨.hbm, 1274, rfl⟩
abbrev main_v828 : Ref sig .tc := ⟨.hbm, 1275, rfl⟩
abbrev main_v829 : Ref sig .tc := ⟨.hbm, 1276, rfl⟩
abbrev main_v830 : Ref sig .tc := ⟨.hbm, 1277, rfl⟩
abbrev main_v831 : Ref sig .tc := ⟨.hbm, 1278, rfl⟩
abbrev main_v832 : Ref sig .tc := ⟨.hbm, 1279, rfl⟩
abbrev main_v833 : Ref sig .tc := ⟨.hbm, 1280, rfl⟩
abbrev main_v834 : Ref sig .tc := ⟨.hbm, 1281, rfl⟩
abbrev main_v835 : Ref sig .tc := ⟨.hbm, 1282, rfl⟩
abbrev main_v836 : Ref sig .tc := ⟨.hbm, 1283, rfl⟩
abbrev main_v837 : Ref sig .tc := ⟨.hbm, 1284, rfl⟩
abbrev main_v838 : Ref sig .tc := ⟨.hbm, 1285, rfl⟩
abbrev main_v839 : Ref sig .tc := ⟨.hbm, 1286, rfl⟩
abbrev main_v840 : Ref sig .tc := ⟨.hbm, 1287, rfl⟩
abbrev main_v841 : Ref sig .tc := ⟨.hbm, 1288, rfl⟩
abbrev main_v842 : Ref sig .tc := ⟨.hbm, 1289, rfl⟩
abbrev main_v843 : Ref sig .tc := ⟨.hbm, 1290, rfl⟩
abbrev main_v844 : Ref sig .tc := ⟨.hbm, 1291, rfl⟩
abbrev main_v845 : Ref sig .tc := ⟨.hbm, 1292, rfl⟩
abbrev main_v846 : Ref sig .tc := ⟨.hbm, 1293, rfl⟩
abbrev main_v847 : Ref sig .tc := ⟨.hbm, 1294, rfl⟩
abbrev main_v848 : Ref sig .tc := ⟨.hbm, 1295, rfl⟩
abbrev main_v849 : Ref sig .tc := ⟨.hbm, 1296, rfl⟩
abbrev main_v850 : Ref sig .tc := ⟨.hbm, 1297, rfl⟩
abbrev main_v851 : Ref sig .tc := ⟨.hbm, 1298, rfl⟩
abbrev main_v852 : Ref sig .tc := ⟨.hbm, 1299, rfl⟩
abbrev main_v853 : Ref sig .tc := ⟨.hbm, 1300, rfl⟩
abbrev main_cst_73 : Ref sig .tc := ⟨.hbm, 1301, rfl⟩
abbrev main_call67_cst : Ref sig .tc := ⟨.hbm, 1302, rfl⟩
abbrev main_call67_v0 : Ref sig .tc := ⟨.hbm, 1303, rfl⟩
abbrev main_call67_v1 : Ref sig .tc := ⟨.hbm, 1304, rfl⟩
abbrev main_call67_v2 : Ref sig .tc := ⟨.hbm, 1305, rfl⟩
abbrev main_call67_v3 : Ref sig .tc := ⟨.hbm, 1306, rfl⟩
abbrev main_call67_v4 : Ref sig .tc := ⟨.hbm, 1307, rfl⟩
abbrev main_v854 : Ref sig .tc := ⟨.hbm, 1308, rfl⟩
abbrev main_v855 : Ref sig .tc := ⟨.hbm, 1309, rfl⟩
abbrev main_v856 : Ref sig .tc := ⟨.hbm, 1310, rfl⟩
abbrev main_v857 : Ref sig .tc := ⟨.hbm, 1311, rfl⟩
abbrev main_v858 : Ref sig .tc := ⟨.hbm, 1312, rfl⟩
abbrev main_v859 : Ref sig .tc := ⟨.hbm, 1313, rfl⟩
abbrev main_cst_74 : Ref sig .tc := ⟨.hbm, 1314, rfl⟩
abbrev main_call68_cst : Ref sig .tc := ⟨.hbm, 1315, rfl⟩
abbrev main_call68_v0 : Ref sig .tc := ⟨.hbm, 1316, rfl⟩
abbrev main_call68_v1 : Ref sig .tc := ⟨.hbm, 1317, rfl⟩
abbrev main_call68_v2 : Ref sig .tc := ⟨.hbm, 1318, rfl⟩
abbrev main_call68_v3 : Ref sig .tc := ⟨.hbm, 1319, rfl⟩
abbrev main_call68_v4 : Ref sig .tc := ⟨.hbm, 1320, rfl⟩
abbrev main_v860 : Ref sig .tc := ⟨.hbm, 1321, rfl⟩
abbrev main_v861 : Ref sig .tc := ⟨.hbm, 1322, rfl⟩
abbrev main_v862 : Ref sig .tc := ⟨.hbm, 1323, rfl⟩
abbrev main_v863 : Ref sig .tc := ⟨.hbm, 1324, rfl⟩
abbrev main_v864 : Ref sig .tc := ⟨.hbm, 1325, rfl⟩
abbrev main_v865 : Ref sig .tc := ⟨.hbm, 1326, rfl⟩
abbrev main_cst_75 : Ref sig .tc := ⟨.hbm, 1327, rfl⟩
abbrev main_call69_cst : Ref sig .tc := ⟨.hbm, 1328, rfl⟩
abbrev main_call69_v0 : Ref sig .tc := ⟨.hbm, 1329, rfl⟩
abbrev main_call69_v1 : Ref sig .tc := ⟨.hbm, 1330, rfl⟩
abbrev main_call69_v2 : Ref sig .tc := ⟨.hbm, 1331, rfl⟩
abbrev main_call69_v3 : Ref sig .tc := ⟨.hbm, 1332, rfl⟩
abbrev main_call69_v4 : Ref sig .tc := ⟨.hbm, 1333, rfl⟩
abbrev main_v866 : Ref sig .tc := ⟨.hbm, 1334, rfl⟩
abbrev main_v867 : Ref sig .tc := ⟨.hbm, 1335, rfl⟩
abbrev main_v868 : Ref sig .tc := ⟨.hbm, 1336, rfl⟩
abbrev main_v869 : Ref sig .tc := ⟨.hbm, 1337, rfl⟩
abbrev main_v870 : Ref sig .tc := ⟨.hbm, 1338, rfl⟩
abbrev main_v871 : Ref sig .tc := ⟨.hbm, 1339, rfl⟩
abbrev main_cst_76 : Ref sig .tc := ⟨.hbm, 1340, rfl⟩
abbrev main_call70_cst : Ref sig .tc := ⟨.hbm, 1341, rfl⟩
abbrev main_call70_v0 : Ref sig .tc := ⟨.hbm, 1342, rfl⟩
abbrev main_call70_v1 : Ref sig .tc := ⟨.hbm, 1343, rfl⟩
abbrev main_call70_v2 : Ref sig .tc := ⟨.hbm, 1344, rfl⟩
abbrev main_call70_v3 : Ref sig .tc := ⟨.hbm, 1345, rfl⟩
abbrev main_call70_v4 : Ref sig .tc := ⟨.hbm, 1346, rfl⟩
abbrev main_v872 : Ref sig .tc := ⟨.hbm, 1347, rfl⟩
abbrev main_v873 : Ref sig .tc := ⟨.hbm, 1348, rfl⟩
abbrev main_v874 : Ref sig .tc := ⟨.hbm, 1349, rfl⟩
abbrev main_v875 : Ref sig .tc := ⟨.hbm, 1350, rfl⟩
abbrev main_v876 : Ref sig .tc := ⟨.hbm, 1351, rfl⟩
abbrev main_v877 : Ref sig .tc := ⟨.hbm, 1352, rfl⟩
abbrev main_v878 : Ref sig .tc := ⟨.hbm, 1353, rfl⟩
abbrev main_v879 : Ref sig .tc := ⟨.hbm, 1354, rfl⟩
abbrev main_v880 : Ref sig .tc := ⟨.hbm, 1355, rfl⟩
abbrev main_cst_77 : Ref sig .tc := ⟨.hbm, 1356, rfl⟩
abbrev main_v881 : Ref sig .tc := ⟨.hbm, 1357, rfl⟩
abbrev main_v882 : Ref sig .tc := ⟨.hbm, 1358, rfl⟩
abbrev main_v883 : Ref sig .tc := ⟨.hbm, 1359, rfl⟩
abbrev main_v884 : Ref sig .tc := ⟨.hbm, 1360, rfl⟩
abbrev main_v885 : Ref sig .tc := ⟨.hbm, 1361, rfl⟩
abbrev main_c_78 : Ref sig .tc := ⟨.hbm, 1362, rfl⟩
abbrev main_v886 : Ref sig .tc := ⟨.hbm, 1363, rfl⟩
abbrev main_v887 : Ref sig .tc := ⟨.hbm, 1364, rfl⟩
abbrev main_v888 : Ref sig .tc := ⟨.hbm, 1365, rfl⟩
abbrev main_v889 : Ref sig .tc := ⟨.hbm, 1366, rfl⟩
abbrev main_v890 : Ref sig .tc := ⟨.hbm, 1367, rfl⟩
abbrev main_v891 : Ref sig .tc := ⟨.hbm, 1368, rfl⟩
abbrev main_v892 : Ref sig .tc := ⟨.hbm, 1369, rfl⟩
abbrev main_v893 : Ref sig .tc := ⟨.hbm, 1370, rfl⟩
abbrev main_v894 : Ref sig .tc := ⟨.hbm, 1371, rfl⟩
abbrev main_v895 : Ref sig .tc := ⟨.hbm, 1372, rfl⟩
abbrev main_v896 : Ref sig .tc := ⟨.hbm, 1373, rfl⟩
abbrev main_v897 : Ref sig .tc := ⟨.hbm, 1374, rfl⟩
abbrev main_v898 : Ref sig .tc := ⟨.hbm, 1375, rfl⟩
abbrev main_v899 : Ref sig .tc := ⟨.hbm, 1376, rfl⟩
abbrev main_v900 : Ref sig .tc := ⟨.hbm, 1377, rfl⟩
abbrev main_v901 : Ref sig .tc := ⟨.hbm, 1378, rfl⟩
abbrev main_v902 : Ref sig .tc := ⟨.hbm, 1379, rfl⟩
abbrev main_v903 : Ref sig .tc := ⟨.hbm, 1380, rfl⟩
abbrev main_v904 : Ref sig .tc := ⟨.hbm, 1381, rfl⟩
abbrev main_v905 : Ref sig .tc := ⟨.hbm, 1382, rfl⟩
abbrev main_v906 : Ref sig .tc := ⟨.hbm, 1383, rfl⟩
abbrev main_v907 : Ref sig .tc := ⟨.hbm, 1384, rfl⟩
abbrev main_v908 : Ref sig .tc := ⟨.hbm, 1385, rfl⟩
abbrev main_v909 : Ref sig .tc := ⟨.hbm, 1386, rfl⟩
abbrev main_v910 : Ref sig .tc := ⟨.hbm, 1387, rfl⟩
abbrev main_v911 : Ref sig .tc := ⟨.hbm, 1388, rfl⟩
abbrev main_v912 : Ref sig .tc := ⟨.hbm, 1389, rfl⟩
abbrev main_v913 : Ref sig .tc := ⟨.hbm, 1390, rfl⟩
abbrev main_v914 : Ref sig .tc := ⟨.hbm, 1391, rfl⟩
abbrev main_v915 : Ref sig .tc := ⟨.hbm, 1392, rfl⟩
abbrev main_cst_79 : Ref sig .tc := ⟨.hbm, 1393, rfl⟩
abbrev main_call72_cst : Ref sig .tc := ⟨.hbm, 1394, rfl⟩
abbrev main_call72_v0 : Ref sig .tc := ⟨.hbm, 1395, rfl⟩
abbrev main_call72_v1 : Ref sig .tc := ⟨.hbm, 1396, rfl⟩
abbrev main_call72_v2 : Ref sig .tc := ⟨.hbm, 1397, rfl⟩
abbrev main_call72_v3 : Ref sig .tc := ⟨.hbm, 1398, rfl⟩
abbrev main_call72_v4 : Ref sig .tc := ⟨.hbm, 1399, rfl⟩
abbrev main_v916 : Ref sig .tc := ⟨.hbm, 1400, rfl⟩
abbrev main_v917 : Ref sig .tc := ⟨.hbm, 1401, rfl⟩
abbrev main_v918 : Ref sig .tc := ⟨.hbm, 1402, rfl⟩
abbrev main_v919 : Ref sig .tc := ⟨.hbm, 1403, rfl⟩
abbrev main_v920 : Ref sig .tc := ⟨.hbm, 1404, rfl⟩
abbrev main_v921 : Ref sig .tc := ⟨.hbm, 1405, rfl⟩
abbrev main_cst_80 : Ref sig .tc := ⟨.hbm, 1406, rfl⟩
abbrev main_call73_cst : Ref sig .tc := ⟨.hbm, 1407, rfl⟩
abbrev main_call73_v0 : Ref sig .tc := ⟨.hbm, 1408, rfl⟩
abbrev main_call73_v1 : Ref sig .tc := ⟨.hbm, 1409, rfl⟩
abbrev main_call73_v2 : Ref sig .tc := ⟨.hbm, 1410, rfl⟩
abbrev main_call73_v3 : Ref sig .tc := ⟨.hbm, 1411, rfl⟩
abbrev main_call73_v4 : Ref sig .tc := ⟨.hbm, 1412, rfl⟩
abbrev main_v922 : Ref sig .tc := ⟨.hbm, 1413, rfl⟩
abbrev main_v923 : Ref sig .tc := ⟨.hbm, 1414, rfl⟩
abbrev main_v924 : Ref sig .tc := ⟨.hbm, 1415, rfl⟩
abbrev main_v925 : Ref sig .tc := ⟨.hbm, 1416, rfl⟩
abbrev main_v926 : Ref sig .tc := ⟨.hbm, 1417, rfl⟩
abbrev main_v927 : Ref sig .tc := ⟨.hbm, 1418, rfl⟩
abbrev main_cst_81 : Ref sig .tc := ⟨.hbm, 1419, rfl⟩
abbrev main_call74_cst : Ref sig .tc := ⟨.hbm, 1420, rfl⟩
abbrev main_call74_v0 : Ref sig .tc := ⟨.hbm, 1421, rfl⟩
abbrev main_call74_v1 : Ref sig .tc := ⟨.hbm, 1422, rfl⟩
abbrev main_call74_v2 : Ref sig .tc := ⟨.hbm, 1423, rfl⟩
abbrev main_call74_v3 : Ref sig .tc := ⟨.hbm, 1424, rfl⟩
abbrev main_call74_v4 : Ref sig .tc := ⟨.hbm, 1425, rfl⟩
abbrev main_v928 : Ref sig .tc := ⟨.hbm, 1426, rfl⟩
abbrev main_v929 : Ref sig .tc := ⟨.hbm, 1427, rfl⟩
abbrev main_v930 : Ref sig .tc := ⟨.hbm, 1428, rfl⟩
abbrev main_v931 : Ref sig .tc := ⟨.hbm, 1429, rfl⟩
abbrev main_v932 : Ref sig .tc := ⟨.hbm, 1430, rfl⟩
abbrev main_v933 : Ref sig .tc := ⟨.hbm, 1431, rfl⟩
abbrev main_cst_82 : Ref sig .tc := ⟨.hbm, 1432, rfl⟩
abbrev main_call75_cst : Ref sig .tc := ⟨.hbm, 1433, rfl⟩
abbrev main_call75_v0 : Ref sig .tc := ⟨.hbm, 1434, rfl⟩
abbrev main_call75_v1 : Ref sig .tc := ⟨.hbm, 1435, rfl⟩
abbrev main_call75_v2 : Ref sig .tc := ⟨.hbm, 1436, rfl⟩
abbrev main_call75_v3 : Ref sig .tc := ⟨.hbm, 1437, rfl⟩
abbrev main_call75_v4 : Ref sig .tc := ⟨.hbm, 1438, rfl⟩
abbrev main_v934 : Ref sig .tc := ⟨.hbm, 1439, rfl⟩
abbrev main_v935 : Ref sig .tc := ⟨.hbm, 1440, rfl⟩
abbrev main_v936 : Ref sig .tc := ⟨.hbm, 1441, rfl⟩
abbrev main_v937 : Ref sig .tc := ⟨.hbm, 1442, rfl⟩
abbrev main_v938 : Ref sig .tc := ⟨.hbm, 1443, rfl⟩
abbrev main_v939 : Ref sig .tc := ⟨.hbm, 1444, rfl⟩
abbrev main_v940 : Ref sig .tc := ⟨.hbm, 1445, rfl⟩
abbrev main_v941 : Ref sig .tc := ⟨.hbm, 1446, rfl⟩
abbrev main_v942 : Ref sig .tc := ⟨.hbm, 1447, rfl⟩
abbrev main_v943 : Ref sig .tc := ⟨.hbm, 1448, rfl⟩
abbrev main_v944 : Ref sig .tc := ⟨.hbm, 1449, rfl⟩
abbrev main_v945 : Ref sig .tc := ⟨.hbm, 1450, rfl⟩
abbrev main_v946 : Ref sig .tc := ⟨.hbm, 1451, rfl⟩
abbrev main_v947 : Ref sig .tc := ⟨.hbm, 1452, rfl⟩
abbrev main_v948 : Ref sig .tc := ⟨.hbm, 1453, rfl⟩
abbrev main_v949 : Ref sig .tc := ⟨.hbm, 1454, rfl⟩
abbrev main_v950 : Ref sig .tc := ⟨.hbm, 1455, rfl⟩
abbrev main_v951 : Ref sig .tc := ⟨.hbm, 1456, rfl⟩
abbrev main_v952 : Ref sig .tc := ⟨.hbm, 1457, rfl⟩
abbrev main_v953 : Ref sig .tc := ⟨.hbm, 1458, rfl⟩
abbrev main_v954 : Ref sig .tc := ⟨.hbm, 1459, rfl⟩
abbrev main_v955 : Ref sig .tc := ⟨.hbm, 1460, rfl⟩
abbrev main_v956 : Ref sig .tc := ⟨.hbm, 1461, rfl⟩
abbrev main_v957 : Ref sig .tc := ⟨.hbm, 1462, rfl⟩
abbrev main_v958 : Ref sig .tc := ⟨.hbm, 1463, rfl⟩
abbrev main_v959 : Ref sig .tc := ⟨.hbm, 1464, rfl⟩
abbrev main_v960 : Ref sig .tc := ⟨.hbm, 1465, rfl⟩
abbrev main_v961 : Ref sig .tc := ⟨.hbm, 1466, rfl⟩
abbrev main_v962 : Ref sig .tc := ⟨.hbm, 1467, rfl⟩
abbrev main_v963 : Ref sig .tc := ⟨.hbm, 1468, rfl⟩
abbrev main_v964 : Ref sig .tc := ⟨.hbm, 1469, rfl⟩
abbrev main_cst_83 : Ref sig .tc := ⟨.hbm, 1470, rfl⟩
abbrev main_call76_cst : Ref sig .tc := ⟨.hbm, 1471, rfl⟩
abbrev main_call76_v0 : Ref sig .tc := ⟨.hbm, 1472, rfl⟩
abbrev main_call76_v1 : Ref sig .tc := ⟨.hbm, 1473, rfl⟩
abbrev main_call76_v2 : Ref sig .tc := ⟨.hbm, 1474, rfl⟩
abbrev main_call76_v3 : Ref sig .tc := ⟨.hbm, 1475, rfl⟩
abbrev main_call76_v4 : Ref sig .tc := ⟨.hbm, 1476, rfl⟩
abbrev main_v965 : Ref sig .tc := ⟨.hbm, 1477, rfl⟩
abbrev main_v966 : Ref sig .tc := ⟨.hbm, 1478, rfl⟩
abbrev main_v967 : Ref sig .tc := ⟨.hbm, 1479, rfl⟩
abbrev main_v968 : Ref sig .tc := ⟨.hbm, 1480, rfl⟩
abbrev main_v969 : Ref sig .tc := ⟨.hbm, 1481, rfl⟩
abbrev main_v970 : Ref sig .tc := ⟨.hbm, 1482, rfl⟩
abbrev main_cst_84 : Ref sig .tc := ⟨.hbm, 1483, rfl⟩
abbrev main_call77_cst : Ref sig .tc := ⟨.hbm, 1484, rfl⟩
abbrev main_call77_v0 : Ref sig .tc := ⟨.hbm, 1485, rfl⟩
abbrev main_call77_v1 : Ref sig .tc := ⟨.hbm, 1486, rfl⟩
abbrev main_call77_v2 : Ref sig .tc := ⟨.hbm, 1487, rfl⟩
abbrev main_call77_v3 : Ref sig .tc := ⟨.hbm, 1488, rfl⟩
abbrev main_call77_v4 : Ref sig .tc := ⟨.hbm, 1489, rfl⟩
abbrev main_v971 : Ref sig .tc := ⟨.hbm, 1490, rfl⟩
abbrev main_v972 : Ref sig .tc := ⟨.hbm, 1491, rfl⟩
abbrev main_v973 : Ref sig .tc := ⟨.hbm, 1492, rfl⟩
abbrev main_v974 : Ref sig .tc := ⟨.hbm, 1493, rfl⟩
abbrev main_v975 : Ref sig .tc := ⟨.hbm, 1494, rfl⟩
abbrev main_v976 : Ref sig .tc := ⟨.hbm, 1495, rfl⟩
abbrev main_cst_85 : Ref sig .tc := ⟨.hbm, 1496, rfl⟩
abbrev main_call78_cst : Ref sig .tc := ⟨.hbm, 1497, rfl⟩
abbrev main_call78_v0 : Ref sig .tc := ⟨.hbm, 1498, rfl⟩
abbrev main_call78_v1 : Ref sig .tc := ⟨.hbm, 1499, rfl⟩
abbrev main_call78_v2 : Ref sig .tc := ⟨.hbm, 1500, rfl⟩
abbrev main_call78_v3 : Ref sig .tc := ⟨.hbm, 1501, rfl⟩
abbrev main_call78_v4 : Ref sig .tc := ⟨.hbm, 1502, rfl⟩
abbrev main_v977 : Ref sig .tc := ⟨.hbm, 1503, rfl⟩
abbrev main_v978 : Ref sig .tc := ⟨.hbm, 1504, rfl⟩
abbrev main_v979 : Ref sig .tc := ⟨.hbm, 1505, rfl⟩
abbrev main_v980 : Ref sig .tc := ⟨.hbm, 1506, rfl⟩
abbrev main_v981 : Ref sig .tc := ⟨.hbm, 1507, rfl⟩
abbrev main_v982 : Ref sig .tc := ⟨.hbm, 1508, rfl⟩
abbrev main_cst_86 : Ref sig .tc := ⟨.hbm, 1509, rfl⟩
abbrev main_call79_cst : Ref sig .tc := ⟨.hbm, 1510, rfl⟩
abbrev main_call79_v0 : Ref sig .tc := ⟨.hbm, 1511, rfl⟩
abbrev main_call79_v1 : Ref sig .tc := ⟨.hbm, 1512, rfl⟩
abbrev main_call79_v2 : Ref sig .tc := ⟨.hbm, 1513, rfl⟩
abbrev main_call79_v3 : Ref sig .tc := ⟨.hbm, 1514, rfl⟩
abbrev main_call79_v4 : Ref sig .tc := ⟨.hbm, 1515, rfl⟩
abbrev main_v983 : Ref sig .tc := ⟨.hbm, 1516, rfl⟩
abbrev main_v984 : Ref sig .tc := ⟨.hbm, 1517, rfl⟩
abbrev main_v985 : Ref sig .tc := ⟨.hbm, 1518, rfl⟩
abbrev main_v986 : Ref sig .tc := ⟨.hbm, 1519, rfl⟩
abbrev main_v987 : Ref sig .tc := ⟨.hbm, 1520, rfl⟩
abbrev main_v988 : Ref sig .tc := ⟨.hbm, 1521, rfl⟩
abbrev main_v989 : Ref sig .tc := ⟨.hbm, 1522, rfl⟩
abbrev main_v990 : Ref sig .tc := ⟨.hbm, 1523, rfl⟩
abbrev main_v991 : Ref sig .tc := ⟨.hbm, 1524, rfl⟩
abbrev main_cst_87 : Ref sig .tc := ⟨.hbm, 1525, rfl⟩
abbrev main_v992 : Ref sig .tc := ⟨.hbm, 1526, rfl⟩
abbrev main_v993 : Ref sig .tc := ⟨.hbm, 1527, rfl⟩
abbrev main_v994 : Ref sig .tc := ⟨.hbm, 1528, rfl⟩
abbrev main_v995 : Ref sig .tc := ⟨.hbm, 1529, rfl⟩
abbrev main_v996 : Ref sig .tc := ⟨.hbm, 1530, rfl⟩
abbrev main_c_88 : Ref sig .tc := ⟨.hbm, 1531, rfl⟩
abbrev main_v997 : Ref sig .tc := ⟨.hbm, 1532, rfl⟩
abbrev main_v998 : Ref sig .tc := ⟨.hbm, 1533, rfl⟩
abbrev main_v999 : Ref sig .tc := ⟨.hbm, 1534, rfl⟩
abbrev main_v1000 : Ref sig .tc := ⟨.hbm, 1535, rfl⟩
abbrev main_v1001 : Ref sig .tc := ⟨.hbm, 1536, rfl⟩
abbrev main_v1002 : Ref sig .tc := ⟨.hbm, 1537, rfl⟩
abbrev main_v1003 : Ref sig .tc := ⟨.hbm, 1538, rfl⟩
abbrev main_v1004 : Ref sig .tc := ⟨.hbm, 1539, rfl⟩
abbrev main_v1005 : Ref sig .tc := ⟨.hbm, 1540, rfl⟩
abbrev main_v1006 : Ref sig .tc := ⟨.hbm, 1541, rfl⟩
abbrev main_v1007 : Ref sig .tc := ⟨.hbm, 1542, rfl⟩
abbrev main_v1008 : Ref sig .tc := ⟨.hbm, 1543, rfl⟩
abbrev main_v1009 : Ref sig .tc := ⟨.hbm, 1544, rfl⟩
abbrev main_v1010 : Ref sig .tc := ⟨.hbm, 1545, rfl⟩
abbrev main_v1011 : Ref sig .tc := ⟨.hbm, 1546, rfl⟩
abbrev main_v1012 : Ref sig .tc := ⟨.hbm, 1547, rfl⟩
abbrev main_v1013 : Ref sig .tc := ⟨.hbm, 1548, rfl⟩
abbrev main_v1014 : Ref sig .tc := ⟨.hbm, 1549, rfl⟩
abbrev main_v1015 : Ref sig .tc := ⟨.hbm, 1550, rfl⟩
abbrev main_v1016 : Ref sig .tc := ⟨.hbm, 1551, rfl⟩
abbrev main_v1017 : Ref sig .tc := ⟨.hbm, 1552, rfl⟩
abbrev main_v1018 : Ref sig .tc := ⟨.hbm, 1553, rfl⟩
abbrev main_v1019 : Ref sig .tc := ⟨.hbm, 1554, rfl⟩
abbrev main_v1020 : Ref sig .tc := ⟨.hbm, 1555, rfl⟩
abbrev main_v1021 : Ref sig .tc := ⟨.hbm, 1556, rfl⟩
abbrev main_v1022 : Ref sig .tc := ⟨.hbm, 1557, rfl⟩
abbrev main_v1023 : Ref sig .tc := ⟨.hbm, 1558, rfl⟩
abbrev main_v1024 : Ref sig .tc := ⟨.hbm, 1559, rfl⟩
abbrev main_v1025 : Ref sig .tc := ⟨.hbm, 1560, rfl⟩
abbrev main_v1026 : Ref sig .tc := ⟨.hbm, 1561, rfl⟩
abbrev main_cst_89 : Ref sig .tc := ⟨.hbm, 1562, rfl⟩
abbrev main_call81_cst : Ref sig .tc := ⟨.hbm, 1563, rfl⟩
abbrev main_call81_v0 : Ref sig .tc := ⟨.hbm, 1564, rfl⟩
abbrev main_call81_v1 : Ref sig .tc := ⟨.hbm, 1565, rfl⟩
abbrev main_call81_v2 : Ref sig .tc := ⟨.hbm, 1566, rfl⟩
abbrev main_call81_v3 : Ref sig .tc := ⟨.hbm, 1567, rfl⟩
abbrev main_call81_v4 : Ref sig .tc := ⟨.hbm, 1568, rfl⟩
abbrev main_v1027 : Ref sig .tc := ⟨.hbm, 1569, rfl⟩
abbrev main_v1028 : Ref sig .tc := ⟨.hbm, 1570, rfl⟩
abbrev main_v1029 : Ref sig .tc := ⟨.hbm, 1571, rfl⟩
abbrev main_v1030 : Ref sig .tc := ⟨.hbm, 1572, rfl⟩
abbrev main_v1031 : Ref sig .tc := ⟨.hbm, 1573, rfl⟩
abbrev main_v1032 : Ref sig .tc := ⟨.hbm, 1574, rfl⟩
abbrev main_cst_90 : Ref sig .tc := ⟨.hbm, 1575, rfl⟩
abbrev main_call82_cst : Ref sig .tc := ⟨.hbm, 1576, rfl⟩
abbrev main_call82_v0 : Ref sig .tc := ⟨.hbm, 1577, rfl⟩
abbrev main_call82_v1 : Ref sig .tc := ⟨.hbm, 1578, rfl⟩
abbrev main_call82_v2 : Ref sig .tc := ⟨.hbm, 1579, rfl⟩
abbrev main_call82_v3 : Ref sig .tc := ⟨.hbm, 1580, rfl⟩
abbrev main_call82_v4 : Ref sig .tc := ⟨.hbm, 1581, rfl⟩
abbrev main_v1033 : Ref sig .tc := ⟨.hbm, 1582, rfl⟩
abbrev main_v1034 : Ref sig .tc := ⟨.hbm, 1583, rfl⟩
abbrev main_v1035 : Ref sig .tc := ⟨.hbm, 1584, rfl⟩
abbrev main_v1036 : Ref sig .tc := ⟨.hbm, 1585, rfl⟩
abbrev main_v1037 : Ref sig .tc := ⟨.hbm, 1586, rfl⟩
abbrev main_v1038 : Ref sig .tc := ⟨.hbm, 1587, rfl⟩
abbrev main_cst_91 : Ref sig .tc := ⟨.hbm, 1588, rfl⟩
abbrev main_call83_cst : Ref sig .tc := ⟨.hbm, 1589, rfl⟩
abbrev main_call83_v0 : Ref sig .tc := ⟨.hbm, 1590, rfl⟩
abbrev main_call83_v1 : Ref sig .tc := ⟨.hbm, 1591, rfl⟩
abbrev main_call83_v2 : Ref sig .tc := ⟨.hbm, 1592, rfl⟩
abbrev main_call83_v3 : Ref sig .tc := ⟨.hbm, 1593, rfl⟩
abbrev main_call83_v4 : Ref sig .tc := ⟨.hbm, 1594, rfl⟩
abbrev main_v1039 : Ref sig .tc := ⟨.hbm, 1595, rfl⟩
abbrev main_v1040 : Ref sig .tc := ⟨.hbm, 1596, rfl⟩
abbrev main_v1041 : Ref sig .tc := ⟨.hbm, 1597, rfl⟩
abbrev main_v1042 : Ref sig .tc := ⟨.hbm, 1598, rfl⟩
abbrev main_v1043 : Ref sig .tc := ⟨.hbm, 1599, rfl⟩
abbrev main_v1044 : Ref sig .tc := ⟨.hbm, 1600, rfl⟩
abbrev main_cst_92 : Ref sig .tc := ⟨.hbm, 1601, rfl⟩
abbrev main_call84_cst : Ref sig .tc := ⟨.hbm, 1602, rfl⟩
abbrev main_call84_v0 : Ref sig .tc := ⟨.hbm, 1603, rfl⟩
abbrev main_call84_v1 : Ref sig .tc := ⟨.hbm, 1604, rfl⟩
abbrev main_call84_v2 : Ref sig .tc := ⟨.hbm, 1605, rfl⟩
abbrev main_call84_v3 : Ref sig .tc := ⟨.hbm, 1606, rfl⟩
abbrev main_call84_v4 : Ref sig .tc := ⟨.hbm, 1607, rfl⟩
abbrev main_v1045 : Ref sig .tc := ⟨.hbm, 1608, rfl⟩
abbrev main_v1046 : Ref sig .tc := ⟨.hbm, 1609, rfl⟩
abbrev main_v1047 : Ref sig .tc := ⟨.hbm, 1610, rfl⟩
abbrev main_v1048 : Ref sig .tc := ⟨.hbm, 1611, rfl⟩
abbrev main_v1049 : Ref sig .tc := ⟨.hbm, 1612, rfl⟩
abbrev main_v1050 : Ref sig .tc := ⟨.hbm, 1613, rfl⟩
abbrev main_v1051 : Ref sig .tc := ⟨.hbm, 1614, rfl⟩
abbrev main_v1052 : Ref sig .tc := ⟨.hbm, 1615, rfl⟩
abbrev main_v1053 : Ref sig .tc := ⟨.hbm, 1616, rfl⟩
abbrev main_v1054 : Ref sig .tc := ⟨.hbm, 1617, rfl⟩
abbrev main_v1055 : Ref sig .tc := ⟨.hbm, 1618, rfl⟩
abbrev main_v1056 : Ref sig .tc := ⟨.hbm, 1619, rfl⟩
abbrev main_v1057 : Ref sig .tc := ⟨.hbm, 1620, rfl⟩
abbrev main_v1058 : Ref sig .tc := ⟨.hbm, 1621, rfl⟩
abbrev main_v1059 : Ref sig .tc := ⟨.hbm, 1622, rfl⟩
abbrev main_v1060 : Ref sig .tc := ⟨.hbm, 1623, rfl⟩
abbrev main_v1061 : Ref sig .tc := ⟨.hbm, 1624, rfl⟩
abbrev main_v1062 : Ref sig .tc := ⟨.hbm, 1625, rfl⟩
abbrev main_v1063 : Ref sig .tc := ⟨.hbm, 1626, rfl⟩
abbrev main_v1064 : Ref sig .tc := ⟨.hbm, 1627, rfl⟩
abbrev main_v1065 : Ref sig .tc := ⟨.hbm, 1628, rfl⟩
abbrev main_v1066 : Ref sig .tc := ⟨.hbm, 1629, rfl⟩
abbrev main_v1067 : Ref sig .tc := ⟨.hbm, 1630, rfl⟩
abbrev main_v1068 : Ref sig .tc := ⟨.hbm, 1631, rfl⟩
abbrev main_v1069 : Ref sig .tc := ⟨.hbm, 1632, rfl⟩
abbrev main_v1070 : Ref sig .tc := ⟨.hbm, 1633, rfl⟩
abbrev main_v1071 : Ref sig .tc := ⟨.hbm, 1634, rfl⟩
abbrev main_v1072 : Ref sig .tc := ⟨.hbm, 1635, rfl⟩
abbrev main_v1073 : Ref sig .tc := ⟨.hbm, 1636, rfl⟩
abbrev main_v1074 : Ref sig .tc := ⟨.hbm, 1637, rfl⟩
abbrev main_v1075 : Ref sig .tc := ⟨.hbm, 1638, rfl⟩
abbrev main_cst_93 : Ref sig .tc := ⟨.hbm, 1639, rfl⟩
abbrev main_call85_cst : Ref sig .tc := ⟨.hbm, 1640, rfl⟩
abbrev main_call85_v0 : Ref sig .tc := ⟨.hbm, 1641, rfl⟩
abbrev main_call85_v1 : Ref sig .tc := ⟨.hbm, 1642, rfl⟩
abbrev main_call85_v2 : Ref sig .tc := ⟨.hbm, 1643, rfl⟩
abbrev main_call85_v3 : Ref sig .tc := ⟨.hbm, 1644, rfl⟩
abbrev main_call85_v4 : Ref sig .tc := ⟨.hbm, 1645, rfl⟩
abbrev main_v1076 : Ref sig .tc := ⟨.hbm, 1646, rfl⟩
abbrev main_v1077 : Ref sig .tc := ⟨.hbm, 1647, rfl⟩
abbrev main_v1078 : Ref sig .tc := ⟨.hbm, 1648, rfl⟩
abbrev main_v1079 : Ref sig .tc := ⟨.hbm, 1649, rfl⟩
abbrev main_v1080 : Ref sig .tc := ⟨.hbm, 1650, rfl⟩
abbrev main_v1081 : Ref sig .tc := ⟨.hbm, 1651, rfl⟩
abbrev main_cst_94 : Ref sig .tc := ⟨.hbm, 1652, rfl⟩
abbrev main_call86_cst : Ref sig .tc := ⟨.hbm, 1653, rfl⟩
abbrev main_call86_v0 : Ref sig .tc := ⟨.hbm, 1654, rfl⟩
abbrev main_call86_v1 : Ref sig .tc := ⟨.hbm, 1655, rfl⟩
abbrev main_call86_v2 : Ref sig .tc := ⟨.hbm, 1656, rfl⟩
abbrev main_call86_v3 : Ref sig .tc := ⟨.hbm, 1657, rfl⟩
abbrev main_call86_v4 : Ref sig .tc := ⟨.hbm, 1658, rfl⟩
abbrev main_v1082 : Ref sig .tc := ⟨.hbm, 1659, rfl⟩
abbrev main_v1083 : Ref sig .tc := ⟨.hbm, 1660, rfl⟩
abbrev main_v1084 : Ref sig .tc := ⟨.hbm, 1661, rfl⟩
abbrev main_v1085 : Ref sig .tc := ⟨.hbm, 1662, rfl⟩
abbrev main_v1086 : Ref sig .tc := ⟨.hbm, 1663, rfl⟩
abbrev main_v1087 : Ref sig .tc := ⟨.hbm, 1664, rfl⟩
abbrev main_cst_95 : Ref sig .tc := ⟨.hbm, 1665, rfl⟩
abbrev main_call87_cst : Ref sig .tc := ⟨.hbm, 1666, rfl⟩
abbrev main_call87_v0 : Ref sig .tc := ⟨.hbm, 1667, rfl⟩
abbrev main_call87_v1 : Ref sig .tc := ⟨.hbm, 1668, rfl⟩
abbrev main_call87_v2 : Ref sig .tc := ⟨.hbm, 1669, rfl⟩
abbrev main_call87_v3 : Ref sig .tc := ⟨.hbm, 1670, rfl⟩
abbrev main_call87_v4 : Ref sig .tc := ⟨.hbm, 1671, rfl⟩
abbrev main_v1088 : Ref sig .tc := ⟨.hbm, 1672, rfl⟩
abbrev main_v1089 : Ref sig .tc := ⟨.hbm, 1673, rfl⟩
abbrev main_v1090 : Ref sig .tc := ⟨.hbm, 1674, rfl⟩
abbrev main_v1091 : Ref sig .tc := ⟨.hbm, 1675, rfl⟩
abbrev main_v1092 : Ref sig .tc := ⟨.hbm, 1676, rfl⟩
abbrev main_v1093 : Ref sig .tc := ⟨.hbm, 1677, rfl⟩
abbrev main_cst_96 : Ref sig .tc := ⟨.hbm, 1678, rfl⟩
abbrev main_call88_cst : Ref sig .tc := ⟨.hbm, 1679, rfl⟩
abbrev main_call88_v0 : Ref sig .tc := ⟨.hbm, 1680, rfl⟩
abbrev main_call88_v1 : Ref sig .tc := ⟨.hbm, 1681, rfl⟩
abbrev main_call88_v2 : Ref sig .tc := ⟨.hbm, 1682, rfl⟩
abbrev main_call88_v3 : Ref sig .tc := ⟨.hbm, 1683, rfl⟩
abbrev main_call88_v4 : Ref sig .tc := ⟨.hbm, 1684, rfl⟩
abbrev main_v1094 : Ref sig .tc := ⟨.hbm, 1685, rfl⟩
abbrev main_v1095 : Ref sig .tc := ⟨.hbm, 1686, rfl⟩
abbrev main_v1096 : Ref sig .tc := ⟨.hbm, 1687, rfl⟩
abbrev main_v1097 : Ref sig .tc := ⟨.hbm, 1688, rfl⟩
abbrev main_v1098 : Ref sig .tc := ⟨.hbm, 1689, rfl⟩
abbrev main_v1099 : Ref sig .tc := ⟨.hbm, 1690, rfl⟩
abbrev main_v1100 : Ref sig .tc := ⟨.hbm, 1691, rfl⟩
abbrev main_v1101 : Ref sig .tc := ⟨.hbm, 1692, rfl⟩
abbrev main_v1102 : Ref sig .tc := ⟨.hbm, 1693, rfl⟩
abbrev main_cst_97 : Ref sig .tc := ⟨.hbm, 1694, rfl⟩
abbrev main_v1103 : Ref sig .tc := ⟨.hbm, 1695, rfl⟩
abbrev main_v1104 : Ref sig .tc := ⟨.hbm, 1696, rfl⟩
abbrev main_v1105 : Ref sig .tc := ⟨.hbm, 1697, rfl⟩
abbrev main_v1106 : Ref sig .tc := ⟨.hbm, 1698, rfl⟩
abbrev main_v1107 : Ref sig .tc := ⟨.hbm, 1699, rfl⟩
abbrev main_c_98 : Ref sig .tc := ⟨.hbm, 1700, rfl⟩
abbrev main_v1108 : Ref sig .tc := ⟨.hbm, 1701, rfl⟩
abbrev main_v1109 : Ref sig .tc := ⟨.hbm, 1702, rfl⟩
abbrev main_v1110 : Ref sig .tc := ⟨.hbm, 1703, rfl⟩
abbrev main_v1111 : Ref sig .tc := ⟨.hbm, 1704, rfl⟩
abbrev main_v1112 : Ref sig .tc := ⟨.hbm, 1705, rfl⟩
abbrev main_v1113 : Ref sig .tc := ⟨.hbm, 1706, rfl⟩
abbrev main_v1114 : Ref sig .tc := ⟨.hbm, 1707, rfl⟩
abbrev main_v1115 : Ref sig .tc := ⟨.hbm, 1708, rfl⟩
abbrev main_v1116 : Ref sig .tc := ⟨.hbm, 1709, rfl⟩
abbrev main_v1117 : Ref sig .tc := ⟨.hbm, 1710, rfl⟩
abbrev main_v1118 : Ref sig .tc := ⟨.hbm, 1711, rfl⟩
abbrev main_v1119 : Ref sig .tc := ⟨.hbm, 1712, rfl⟩
abbrev main_v1120 : Ref sig .tc := ⟨.hbm, 1713, rfl⟩
abbrev main_v1121 : Ref sig .tc := ⟨.hbm, 1714, rfl⟩
abbrev main_v1122 : Ref sig .tc := ⟨.hbm, 1715, rfl⟩
abbrev main_v1123 : Ref sig .tc := ⟨.hbm, 1716, rfl⟩
abbrev main_v1124 : Ref sig .tc := ⟨.hbm, 1717, rfl⟩
abbrev main_v1125 : Ref sig .tc := ⟨.hbm, 1718, rfl⟩
abbrev main_v1126 : Ref sig .tc := ⟨.hbm, 1719, rfl⟩
abbrev main_v1127 : Ref sig .tc := ⟨.hbm, 1720, rfl⟩
abbrev main_v1128 : Ref sig .tc := ⟨.hbm, 1721, rfl⟩
abbrev main_v1129 : Ref sig .tc := ⟨.hbm, 1722, rfl⟩
abbrev main_v1130 : Ref sig .tc := ⟨.hbm, 1723, rfl⟩
abbrev main_v1131 : Ref sig .tc := ⟨.hbm, 1724, rfl⟩
abbrev main_v1132 : Ref sig .tc := ⟨.hbm, 1725, rfl⟩
abbrev main_v1133 : Ref sig .tc := ⟨.hbm, 1726, rfl⟩
abbrev main_v1134 : Ref sig .tc := ⟨.hbm, 1727, rfl⟩
abbrev main_v1135 : Ref sig .tc := ⟨.hbm, 1728, rfl⟩
abbrev main_v1136 : Ref sig .tc := ⟨.hbm, 1729, rfl⟩
abbrev main_v1137 : Ref sig .tc := ⟨.hbm, 1730, rfl⟩
abbrev main_cst_99 : Ref sig .tc := ⟨.hbm, 1731, rfl⟩
abbrev main_call90_cst : Ref sig .tc := ⟨.hbm, 1732, rfl⟩
abbrev main_call90_v0 : Ref sig .tc := ⟨.hbm, 1733, rfl⟩
abbrev main_call90_v1 : Ref sig .tc := ⟨.hbm, 1734, rfl⟩
abbrev main_call90_v2 : Ref sig .tc := ⟨.hbm, 1735, rfl⟩
abbrev main_call90_v3 : Ref sig .tc := ⟨.hbm, 1736, rfl⟩
abbrev main_call90_v4 : Ref sig .tc := ⟨.hbm, 1737, rfl⟩
abbrev main_v1138 : Ref sig .tc := ⟨.hbm, 1738, rfl⟩
abbrev main_v1139 : Ref sig .tc := ⟨.hbm, 1739, rfl⟩
abbrev main_v1140 : Ref sig .tc := ⟨.hbm, 1740, rfl⟩
abbrev main_v1141 : Ref sig .tc := ⟨.hbm, 1741, rfl⟩
abbrev main_v1142 : Ref sig .tc := ⟨.hbm, 1742, rfl⟩
abbrev main_v1143 : Ref sig .tc := ⟨.hbm, 1743, rfl⟩
abbrev main_cst_100 : Ref sig .tc := ⟨.hbm, 1744, rfl⟩
abbrev main_call91_cst : Ref sig .tc := ⟨.hbm, 1745, rfl⟩
abbrev main_call91_v0 : Ref sig .tc := ⟨.hbm, 1746, rfl⟩
abbrev main_call91_v1 : Ref sig .tc := ⟨.hbm, 1747, rfl⟩
abbrev main_call91_v2 : Ref sig .tc := ⟨.hbm, 1748, rfl⟩
abbrev main_call91_v3 : Ref sig .tc := ⟨.hbm, 1749, rfl⟩
abbrev main_call91_v4 : Ref sig .tc := ⟨.hbm, 1750, rfl⟩
abbrev main_v1144 : Ref sig .tc := ⟨.hbm, 1751, rfl⟩
abbrev main_v1145 : Ref sig .tc := ⟨.hbm, 1752, rfl⟩
abbrev main_v1146 : Ref sig .tc := ⟨.hbm, 1753, rfl⟩
abbrev main_v1147 : Ref sig .tc := ⟨.hbm, 1754, rfl⟩
abbrev main_v1148 : Ref sig .tc := ⟨.hbm, 1755, rfl⟩
abbrev main_v1149 : Ref sig .tc := ⟨.hbm, 1756, rfl⟩
abbrev main_cst_101 : Ref sig .tc := ⟨.hbm, 1757, rfl⟩
abbrev main_call92_cst : Ref sig .tc := ⟨.hbm, 1758, rfl⟩
abbrev main_call92_v0 : Ref sig .tc := ⟨.hbm, 1759, rfl⟩
abbrev main_call92_v1 : Ref sig .tc := ⟨.hbm, 1760, rfl⟩
abbrev main_call92_v2 : Ref sig .tc := ⟨.hbm, 1761, rfl⟩
abbrev main_call92_v3 : Ref sig .tc := ⟨.hbm, 1762, rfl⟩
abbrev main_call92_v4 : Ref sig .tc := ⟨.hbm, 1763, rfl⟩
abbrev main_v1150 : Ref sig .tc := ⟨.hbm, 1764, rfl⟩
abbrev main_v1151 : Ref sig .tc := ⟨.hbm, 1765, rfl⟩
abbrev main_v1152 : Ref sig .tc := ⟨.hbm, 1766, rfl⟩
abbrev main_v1153 : Ref sig .tc := ⟨.hbm, 1767, rfl⟩
abbrev main_v1154 : Ref sig .tc := ⟨.hbm, 1768, rfl⟩
abbrev main_v1155 : Ref sig .tc := ⟨.hbm, 1769, rfl⟩
abbrev main_cst_102 : Ref sig .tc := ⟨.hbm, 1770, rfl⟩
abbrev main_call93_cst : Ref sig .tc := ⟨.hbm, 1771, rfl⟩
abbrev main_call93_v0 : Ref sig .tc := ⟨.hbm, 1772, rfl⟩
abbrev main_call93_v1 : Ref sig .tc := ⟨.hbm, 1773, rfl⟩
abbrev main_call93_v2 : Ref sig .tc := ⟨.hbm, 1774, rfl⟩
abbrev main_call93_v3 : Ref sig .tc := ⟨.hbm, 1775, rfl⟩
abbrev main_call93_v4 : Ref sig .tc := ⟨.hbm, 1776, rfl⟩
abbrev main_v1156 : Ref sig .tc := ⟨.hbm, 1777, rfl⟩
abbrev main_v1157 : Ref sig .tc := ⟨.hbm, 1778, rfl⟩
abbrev main_v1158 : Ref sig .tc := ⟨.hbm, 1779, rfl⟩
abbrev main_v1159 : Ref sig .tc := ⟨.hbm, 1780, rfl⟩
abbrev main_v1160 : Ref sig .tc := ⟨.hbm, 1781, rfl⟩
abbrev main_v1161 : Ref sig .tc := ⟨.hbm, 1782, rfl⟩
abbrev main_v1162 : Ref sig .tc := ⟨.hbm, 1783, rfl⟩
abbrev main_v1163 : Ref sig .tc := ⟨.hbm, 1784, rfl⟩
abbrev main_v1164 : Ref sig .tc := ⟨.hbm, 1785, rfl⟩
abbrev main_v1165 : Ref sig .tc := ⟨.hbm, 1786, rfl⟩
abbrev main_v1166 : Ref sig .tc := ⟨.hbm, 1787, rfl⟩
abbrev main_v1167 : Ref sig .tc := ⟨.hbm, 1788, rfl⟩
abbrev main_v1168 : Ref sig .tc := ⟨.hbm, 1789, rfl⟩
abbrev main_v1169 : Ref sig .tc := ⟨.hbm, 1790, rfl⟩
abbrev main_v1170 : Ref sig .tc := ⟨.hbm, 1791, rfl⟩
abbrev main_v1171 : Ref sig .tc := ⟨.hbm, 1792, rfl⟩
abbrev main_v1172 : Ref sig .tc := ⟨.hbm, 1793, rfl⟩
abbrev main_v1173 : Ref sig .tc := ⟨.hbm, 1794, rfl⟩
abbrev main_v1174 : Ref sig .tc := ⟨.hbm, 1795, rfl⟩
abbrev main_v1175 : Ref sig .tc := ⟨.hbm, 1796, rfl⟩
abbrev main_v1176 : Ref sig .tc := ⟨.hbm, 1797, rfl⟩
abbrev main_v1177 : Ref sig .tc := ⟨.hbm, 1798, rfl⟩
abbrev main_v1178 : Ref sig .tc := ⟨.hbm, 1799, rfl⟩
abbrev main_v1179 : Ref sig .tc := ⟨.hbm, 1800, rfl⟩
abbrev main_v1180 : Ref sig .tc := ⟨.hbm, 1801, rfl⟩
abbrev main_v1181 : Ref sig .tc := ⟨.hbm, 1802, rfl⟩
abbrev main_v1182 : Ref sig .tc := ⟨.hbm, 1803, rfl⟩
abbrev main_v1183 : Ref sig .tc := ⟨.hbm, 1804, rfl⟩
abbrev main_v1184 : Ref sig .tc := ⟨.hbm, 1805, rfl⟩
abbrev main_v1185 : Ref sig .tc := ⟨.hbm, 1806, rfl⟩
abbrev main_v1186 : Ref sig .tc := ⟨.hbm, 1807, rfl⟩
abbrev main_cst_103 : Ref sig .tc := ⟨.hbm, 1808, rfl⟩
abbrev main_call94_cst : Ref sig .tc := ⟨.hbm, 1809, rfl⟩
abbrev main_call94_v0 : Ref sig .tc := ⟨.hbm, 1810, rfl⟩
abbrev main_call94_v1 : Ref sig .tc := ⟨.hbm, 1811, rfl⟩
abbrev main_call94_v2 : Ref sig .tc := ⟨.hbm, 1812, rfl⟩
abbrev main_call94_v3 : Ref sig .tc := ⟨.hbm, 1813, rfl⟩
abbrev main_call94_v4 : Ref sig .tc := ⟨.hbm, 1814, rfl⟩
abbrev main_v1187 : Ref sig .tc := ⟨.hbm, 1815, rfl⟩
abbrev main_v1188 : Ref sig .tc := ⟨.hbm, 1816, rfl⟩
abbrev main_v1189 : Ref sig .tc := ⟨.hbm, 1817, rfl⟩
abbrev main_v1190 : Ref sig .tc := ⟨.hbm, 1818, rfl⟩
abbrev main_v1191 : Ref sig .tc := ⟨.hbm, 1819, rfl⟩
abbrev main_v1192 : Ref sig .tc := ⟨.hbm, 1820, rfl⟩
abbrev main_cst_104 : Ref sig .tc := ⟨.hbm, 1821, rfl⟩
abbrev main_call95_cst : Ref sig .tc := ⟨.hbm, 1822, rfl⟩
abbrev main_call95_v0 : Ref sig .tc := ⟨.hbm, 1823, rfl⟩
abbrev main_call95_v1 : Ref sig .tc := ⟨.hbm, 1824, rfl⟩
abbrev main_call95_v2 : Ref sig .tc := ⟨.hbm, 1825, rfl⟩
abbrev main_call95_v3 : Ref sig .tc := ⟨.hbm, 1826, rfl⟩
abbrev main_call95_v4 : Ref sig .tc := ⟨.hbm, 1827, rfl⟩
abbrev main_v1193 : Ref sig .tc := ⟨.hbm, 1828, rfl⟩
abbrev main_v1194 : Ref sig .tc := ⟨.hbm, 1829, rfl⟩
abbrev main_v1195 : Ref sig .tc := ⟨.hbm, 1830, rfl⟩
abbrev main_v1196 : Ref sig .tc := ⟨.hbm, 1831, rfl⟩
abbrev main_v1197 : Ref sig .tc := ⟨.hbm, 1832, rfl⟩
abbrev main_v1198 : Ref sig .tc := ⟨.hbm, 1833, rfl⟩
abbrev main_cst_105 : Ref sig .tc := ⟨.hbm, 1834, rfl⟩
abbrev main_call96_cst : Ref sig .tc := ⟨.hbm, 1835, rfl⟩
abbrev main_call96_v0 : Ref sig .tc := ⟨.hbm, 1836, rfl⟩
abbrev main_call96_v1 : Ref sig .tc := ⟨.hbm, 1837, rfl⟩
abbrev main_call96_v2 : Ref sig .tc := ⟨.hbm, 1838, rfl⟩
abbrev main_call96_v3 : Ref sig .tc := ⟨.hbm, 1839, rfl⟩
abbrev main_call96_v4 : Ref sig .tc := ⟨.hbm, 1840, rfl⟩
abbrev main_v1199 : Ref sig .tc := ⟨.hbm, 1841, rfl⟩
abbrev main_v1200 : Ref sig .tc := ⟨.hbm, 1842, rfl⟩
abbrev main_v1201 : Ref sig .tc := ⟨.hbm, 1843, rfl⟩
abbrev main_v1202 : Ref sig .tc := ⟨.hbm, 1844, rfl⟩
abbrev main_v1203 : Ref sig .tc := ⟨.hbm, 1845, rfl⟩
abbrev main_v1204 : Ref sig .tc := ⟨.hbm, 1846, rfl⟩
abbrev main_cst_106 : Ref sig .tc := ⟨.hbm, 1847, rfl⟩
abbrev main_call97_cst : Ref sig .tc := ⟨.hbm, 1848, rfl⟩
abbrev main_call97_v0 : Ref sig .tc := ⟨.hbm, 1849, rfl⟩
abbrev main_call97_v1 : Ref sig .tc := ⟨.hbm, 1850, rfl⟩
abbrev main_call97_v2 : Ref sig .tc := ⟨.hbm, 1851, rfl⟩
abbrev main_call97_v3 : Ref sig .tc := ⟨.hbm, 1852, rfl⟩
abbrev main_call97_v4 : Ref sig .tc := ⟨.hbm, 1853, rfl⟩
abbrev main_v1205 : Ref sig .tc := ⟨.hbm, 1854, rfl⟩
abbrev main_v1206 : Ref sig .tc := ⟨.hbm, 1855, rfl⟩
abbrev main_v1207 : Ref sig .tc := ⟨.hbm, 1856, rfl⟩
abbrev main_v1208 : Ref sig .tc := ⟨.hbm, 1857, rfl⟩
abbrev main_v1209 : Ref sig .tc := ⟨.hbm, 1858, rfl⟩
abbrev main_v1210 : Ref sig .tc := ⟨.hbm, 1859, rfl⟩
abbrev main_v1211 : Ref sig .tc := ⟨.hbm, 1860, rfl⟩
abbrev main_v1212 : Ref sig .tc := ⟨.hbm, 1861, rfl⟩
abbrev main_v1213 : Ref sig .tc := ⟨.hbm, 1862, rfl⟩
abbrev main_cst_107 : Ref sig .tc := ⟨.hbm, 1863, rfl⟩
abbrev main_v1214 : Ref sig .tc := ⟨.hbm, 1864, rfl⟩
abbrev main_v1215 : Ref sig .tc := ⟨.hbm, 1865, rfl⟩
abbrev main_v1216 : Ref sig .tc := ⟨.hbm, 1866, rfl⟩
abbrev main_v1217 : Ref sig .tc := ⟨.hbm, 1867, rfl⟩
abbrev main_v1218 : Ref sig .tc := ⟨.hbm, 1868, rfl⟩
abbrev main_c_108 : Ref sig .tc := ⟨.hbm, 1869, rfl⟩
abbrev main_v1219 : Ref sig .tc := ⟨.hbm, 1870, rfl⟩
abbrev main_v1220 : Ref sig .tc := ⟨.hbm, 1871, rfl⟩
abbrev main_v1221 : Ref sig .tc := ⟨.hbm, 1872, rfl⟩
abbrev main_v1222 : Ref sig .tc := ⟨.hbm, 1873, rfl⟩
abbrev main_v1223 : Ref sig .tc := ⟨.hbm, 1874, rfl⟩
abbrev main_v1224 : Ref sig .tc := ⟨.hbm, 1875, rfl⟩
abbrev main_v1225 : Ref sig .tc := ⟨.hbm, 1876, rfl⟩
abbrev main_v1226 : Ref sig .tc := ⟨.hbm, 1877, rfl⟩
abbrev main_v1227 : Ref sig .tc := ⟨.hbm, 1878, rfl⟩
abbrev main_v1228 : Ref sig .tc := ⟨.hbm, 1879, rfl⟩
abbrev main_v1229 : Ref sig .tc := ⟨.hbm, 1880, rfl⟩
abbrev main_v1230 : Ref sig .tc := ⟨.hbm, 1881, rfl⟩
abbrev main_v1231 : Ref sig .tc := ⟨.hbm, 1882, rfl⟩
abbrev main_v1232 : Ref sig .tc := ⟨.hbm, 1883, rfl⟩
abbrev main_v1233 : Ref sig .tc := ⟨.hbm, 1884, rfl⟩
abbrev main_v1234 : Ref sig .tc := ⟨.hbm, 1885, rfl⟩
abbrev main_v1235 : Ref sig .tc := ⟨.hbm, 1886, rfl⟩
abbrev main_v1236 : Ref sig .tc := ⟨.hbm, 1887, rfl⟩
abbrev main_v1237 : Ref sig .tc := ⟨.hbm, 1888, rfl⟩
abbrev main_v1238 : Ref sig .tc := ⟨.hbm, 1889, rfl⟩
abbrev main_v1239 : Ref sig .tc := ⟨.hbm, 1890, rfl⟩
abbrev main_v1240 : Ref sig .tc := ⟨.hbm, 1891, rfl⟩
abbrev main_v1241 : Ref sig .tc := ⟨.hbm, 1892, rfl⟩
abbrev main_v1242 : Ref sig .tc := ⟨.hbm, 1893, rfl⟩
abbrev main_v1243 : Ref sig .tc := ⟨.hbm, 1894, rfl⟩
abbrev main_v1244 : Ref sig .tc := ⟨.hbm, 1895, rfl⟩
abbrev main_v1245 : Ref sig .tc := ⟨.hbm, 1896, rfl⟩
abbrev main_v1246 : Ref sig .tc := ⟨.hbm, 1897, rfl⟩
abbrev main_v1247 : Ref sig .tc := ⟨.hbm, 1898, rfl⟩
abbrev main_v1248 : Ref sig .tc := ⟨.hbm, 1899, rfl⟩
abbrev main_cst_109 : Ref sig .tc := ⟨.hbm, 1900, rfl⟩
abbrev main_call99_cst : Ref sig .tc := ⟨.hbm, 1901, rfl⟩
abbrev main_call99_v0 : Ref sig .tc := ⟨.hbm, 1902, rfl⟩
abbrev main_call99_v1 : Ref sig .tc := ⟨.hbm, 1903, rfl⟩
abbrev main_call99_v2 : Ref sig .tc := ⟨.hbm, 1904, rfl⟩
abbrev main_call99_v3 : Ref sig .tc := ⟨.hbm, 1905, rfl⟩
abbrev main_call99_v4 : Ref sig .tc := ⟨.hbm, 1906, rfl⟩
abbrev main_v1249 : Ref sig .tc := ⟨.hbm, 1907, rfl⟩
abbrev main_v1250 : Ref sig .tc := ⟨.hbm, 1908, rfl⟩
abbrev main_v1251 : Ref sig .tc := ⟨.hbm, 1909, rfl⟩
abbrev main_v1252 : Ref sig .tc := ⟨.hbm, 1910, rfl⟩
abbrev main_v1253 : Ref sig .tc := ⟨.hbm, 1911, rfl⟩
abbrev main_v1254 : Ref sig .tc := ⟨.hbm, 1912, rfl⟩
abbrev main_cst_110 : Ref sig .tc := ⟨.hbm, 1913, rfl⟩
abbrev main_call100_cst : Ref sig .tc := ⟨.hbm, 1914, rfl⟩
abbrev main_call100_v0 : Ref sig .tc := ⟨.hbm, 1915, rfl⟩
abbrev main_call100_v1 : Ref sig .tc := ⟨.hbm, 1916, rfl⟩
abbrev main_call100_v2 : Ref sig .tc := ⟨.hbm, 1917, rfl⟩
abbrev main_call100_v3 : Ref sig .tc := ⟨.hbm, 1918, rfl⟩
abbrev main_call100_v4 : Ref sig .tc := ⟨.hbm, 1919, rfl⟩
abbrev main_v1255 : Ref sig .tc := ⟨.hbm, 1920, rfl⟩
abbrev main_v1256 : Ref sig .tc := ⟨.hbm, 1921, rfl⟩
abbrev main_v1257 : Ref sig .tc := ⟨.hbm, 1922, rfl⟩
abbrev main_v1258 : Ref sig .tc := ⟨.hbm, 1923, rfl⟩
abbrev main_v1259 : Ref sig .tc := ⟨.hbm, 1924, rfl⟩
abbrev main_v1260 : Ref sig .tc := ⟨.hbm, 1925, rfl⟩
abbrev main_cst_111 : Ref sig .tc := ⟨.hbm, 1926, rfl⟩
abbrev main_call101_cst : Ref sig .tc := ⟨.hbm, 1927, rfl⟩
abbrev main_call101_v0 : Ref sig .tc := ⟨.hbm, 1928, rfl⟩
abbrev main_call101_v1 : Ref sig .tc := ⟨.hbm, 1929, rfl⟩
abbrev main_call101_v2 : Ref sig .tc := ⟨.hbm, 1930, rfl⟩
abbrev main_call101_v3 : Ref sig .tc := ⟨.hbm, 1931, rfl⟩
abbrev main_call101_v4 : Ref sig .tc := ⟨.hbm, 1932, rfl⟩
abbrev main_v1261 : Ref sig .tc := ⟨.hbm, 1933, rfl⟩
abbrev main_v1262 : Ref sig .tc := ⟨.hbm, 1934, rfl⟩
abbrev main_v1263 : Ref sig .tc := ⟨.hbm, 1935, rfl⟩
abbrev main_v1264 : Ref sig .tc := ⟨.hbm, 1936, rfl⟩
abbrev main_v1265 : Ref sig .tc := ⟨.hbm, 1937, rfl⟩
abbrev main_v1266 : Ref sig .tc := ⟨.hbm, 1938, rfl⟩
abbrev main_cst_112 : Ref sig .tc := ⟨.hbm, 1939, rfl⟩
abbrev main_call102_cst : Ref sig .tc := ⟨.hbm, 1940, rfl⟩
abbrev main_call102_v0 : Ref sig .tc := ⟨.hbm, 1941, rfl⟩
abbrev main_call102_v1 : Ref sig .tc := ⟨.hbm, 1942, rfl⟩
abbrev main_call102_v2 : Ref sig .tc := ⟨.hbm, 1943, rfl⟩
abbrev main_call102_v3 : Ref sig .tc := ⟨.hbm, 1944, rfl⟩
abbrev main_call102_v4 : Ref sig .tc := ⟨.hbm, 1945, rfl⟩
abbrev main_v1267 : Ref sig .tc := ⟨.hbm, 1946, rfl⟩
abbrev main_v1268 : Ref sig .tc := ⟨.hbm, 1947, rfl⟩
abbrev main_v1269 : Ref sig .tc := ⟨.hbm, 1948, rfl⟩
abbrev main_v1270 : Ref sig .tc := ⟨.hbm, 1949, rfl⟩
abbrev main_v1271 : Ref sig .tc := ⟨.hbm, 1950, rfl⟩
abbrev main_v1272 : Ref sig .tc := ⟨.hbm, 1951, rfl⟩
abbrev main_v1273 : Ref sig .tc := ⟨.hbm, 1952, rfl⟩
abbrev main_v1274 : Ref sig .tc := ⟨.hbm, 1953, rfl⟩
abbrev main_v1275 : Ref sig .tc := ⟨.hbm, 1954, rfl⟩
abbrev main_v1276 : Ref sig .tc := ⟨.hbm, 1955, rfl⟩
abbrev main_v1277 : Ref sig .tc := ⟨.hbm, 1956, rfl⟩
abbrev main_v1278 : Ref sig .tc := ⟨.hbm, 1957, rfl⟩
abbrev main_v1279 : Ref sig .tc := ⟨.hbm, 1958, rfl⟩
abbrev main_v1280 : Ref sig .tc := ⟨.hbm, 1959, rfl⟩
abbrev main_v1281 : Ref sig .tc := ⟨.hbm, 1960, rfl⟩
abbrev main_v1282 : Ref sig .tc := ⟨.hbm, 1961, rfl⟩
abbrev main_v1283 : Ref sig .tc := ⟨.hbm, 1962, rfl⟩
abbrev main_v1284 : Ref sig .tc := ⟨.hbm, 1963, rfl⟩
abbrev main_v1285 : Ref sig .tc := ⟨.hbm, 1964, rfl⟩
abbrev main_v1286 : Ref sig .tc := ⟨.hbm, 1965, rfl⟩
abbrev main_v1287 : Ref sig .tc := ⟨.hbm, 1966, rfl⟩
abbrev main_v1288 : Ref sig .tc := ⟨.hbm, 1967, rfl⟩
abbrev main_v1289 : Ref sig .tc := ⟨.hbm, 1968, rfl⟩
abbrev main_v1290 : Ref sig .tc := ⟨.hbm, 1969, rfl⟩
abbrev main_v1291 : Ref sig .tc := ⟨.hbm, 1970, rfl⟩
abbrev main_v1292 : Ref sig .tc := ⟨.hbm, 1971, rfl⟩
abbrev main_v1293 : Ref sig .tc := ⟨.hbm, 1972, rfl⟩
abbrev main_v1294 : Ref sig .tc := ⟨.hbm, 1973, rfl⟩
abbrev main_v1295 : Ref sig .tc := ⟨.hbm, 1974, rfl⟩
abbrev main_v1296 : Ref sig .tc := ⟨.hbm, 1975, rfl⟩
abbrev main_v1297 : Ref sig .tc := ⟨.hbm, 1976, rfl⟩
abbrev main_cst_113 : Ref sig .tc := ⟨.hbm, 1977, rfl⟩
abbrev main_call103_cst : Ref sig .tc := ⟨.hbm, 1978, rfl⟩
abbrev main_call103_v0 : Ref sig .tc := ⟨.hbm, 1979, rfl⟩
abbrev main_call103_v1 : Ref sig .tc := ⟨.hbm, 1980, rfl⟩
abbrev main_call103_v2 : Ref sig .tc := ⟨.hbm, 1981, rfl⟩
abbrev main_call103_v3 : Ref sig .tc := ⟨.hbm, 1982, rfl⟩
abbrev main_call103_v4 : Ref sig .tc := ⟨.hbm, 1983, rfl⟩
abbrev main_v1298 : Ref sig .tc := ⟨.hbm, 1984, rfl⟩
abbrev main_v1299 : Ref sig .tc := ⟨.hbm, 1985, rfl⟩
abbrev main_v1300 : Ref sig .tc := ⟨.hbm, 1986, rfl⟩
abbrev main_v1301 : Ref sig .tc := ⟨.hbm, 1987, rfl⟩
abbrev main_v1302 : Ref sig .tc := ⟨.hbm, 1988, rfl⟩
abbrev main_v1303 : Ref sig .tc := ⟨.hbm, 1989, rfl⟩
abbrev main_cst_114 : Ref sig .tc := ⟨.hbm, 1990, rfl⟩
abbrev main_call104_cst : Ref sig .tc := ⟨.hbm, 1991, rfl⟩
abbrev main_call104_v0 : Ref sig .tc := ⟨.hbm, 1992, rfl⟩
abbrev main_call104_v1 : Ref sig .tc := ⟨.hbm, 1993, rfl⟩
abbrev main_call104_v2 : Ref sig .tc := ⟨.hbm, 1994, rfl⟩
abbrev main_call104_v3 : Ref sig .tc := ⟨.hbm, 1995, rfl⟩
abbrev main_call104_v4 : Ref sig .tc := ⟨.hbm, 1996, rfl⟩
abbrev main_v1304 : Ref sig .tc := ⟨.hbm, 1997, rfl⟩
abbrev main_v1305 : Ref sig .tc := ⟨.hbm, 1998, rfl⟩
abbrev main_v1306 : Ref sig .tc := ⟨.hbm, 1999, rfl⟩
abbrev main_v1307 : Ref sig .tc := ⟨.hbm, 2000, rfl⟩
abbrev main_v1308 : Ref sig .tc := ⟨.hbm, 2001, rfl⟩
abbrev main_v1309 : Ref sig .tc := ⟨.hbm, 2002, rfl⟩
abbrev main_cst_115 : Ref sig .tc := ⟨.hbm, 2003, rfl⟩
abbrev main_call105_cst : Ref sig .tc := ⟨.hbm, 2004, rfl⟩
abbrev main_call105_v0 : Ref sig .tc := ⟨.hbm, 2005, rfl⟩
abbrev main_call105_v1 : Ref sig .tc := ⟨.hbm, 2006, rfl⟩
abbrev main_call105_v2 : Ref sig .tc := ⟨.hbm, 2007, rfl⟩
abbrev main_call105_v3 : Ref sig .tc := ⟨.hbm, 2008, rfl⟩
abbrev main_call105_v4 : Ref sig .tc := ⟨.hbm, 2009, rfl⟩
abbrev main_v1310 : Ref sig .tc := ⟨.hbm, 2010, rfl⟩
abbrev main_v1311 : Ref sig .tc := ⟨.hbm, 2011, rfl⟩
abbrev main_v1312 : Ref sig .tc := ⟨.hbm, 2012, rfl⟩
abbrev main_v1313 : Ref sig .tc := ⟨.hbm, 2013, rfl⟩
abbrev main_v1314 : Ref sig .tc := ⟨.hbm, 2014, rfl⟩
abbrev main_v1315 : Ref sig .tc := ⟨.hbm, 2015, rfl⟩
abbrev main_cst_116 : Ref sig .tc := ⟨.hbm, 2016, rfl⟩
abbrev main_call106_cst : Ref sig .tc := ⟨.hbm, 2017, rfl⟩
abbrev main_call106_v0 : Ref sig .tc := ⟨.hbm, 2018, rfl⟩
abbrev main_call106_v1 : Ref sig .tc := ⟨.hbm, 2019, rfl⟩
abbrev main_call106_v2 : Ref sig .tc := ⟨.hbm, 2020, rfl⟩
abbrev main_call106_v3 : Ref sig .tc := ⟨.hbm, 2021, rfl⟩
abbrev main_call106_v4 : Ref sig .tc := ⟨.hbm, 2022, rfl⟩
abbrev main_v1316 : Ref sig .tc := ⟨.hbm, 2023, rfl⟩
abbrev main_v1317 : Ref sig .tc := ⟨.hbm, 2024, rfl⟩
abbrev main_v1318 : Ref sig .tc := ⟨.hbm, 2025, rfl⟩
abbrev main_v1319 : Ref sig .tc := ⟨.hbm, 2026, rfl⟩
abbrev main_v1320 : Ref sig .tc := ⟨.hbm, 2027, rfl⟩
abbrev main_v1321 : Ref sig .tc := ⟨.hbm, 2028, rfl⟩
abbrev main_v1322 : Ref sig .tc := ⟨.hbm, 2029, rfl⟩
abbrev main_v1323 : Ref sig .tc := ⟨.hbm, 2030, rfl⟩
abbrev main_v1324 : Ref sig .tc := ⟨.hbm, 2031, rfl⟩
abbrev main_cst_117 : Ref sig .tc := ⟨.hbm, 2032, rfl⟩
abbrev main_v1325 : Ref sig .tc := ⟨.hbm, 2033, rfl⟩
abbrev main_v1326 : Ref sig .tc := ⟨.hbm, 2034, rfl⟩
abbrev main_v1327 : Ref sig .tc := ⟨.hbm, 2035, rfl⟩
abbrev main_v1328 : Ref sig .tc := ⟨.hbm, 2036, rfl⟩
abbrev main_v1329 : Ref sig .tc := ⟨.hbm, 2037, rfl⟩
abbrev main_c_118 : Ref sig .tc := ⟨.hbm, 2038, rfl⟩
abbrev main_v1330 : Ref sig .tc := ⟨.hbm, 2039, rfl⟩
abbrev main_v1331 : Ref sig .tc := ⟨.hbm, 2040, rfl⟩
abbrev main_v1332 : Ref sig .tc := ⟨.hbm, 2041, rfl⟩
abbrev main_v1333 : Ref sig .tc := ⟨.hbm, 2042, rfl⟩
abbrev main_v1334 : Ref sig .tc := ⟨.hbm, 2043, rfl⟩
abbrev main_v1335 : Ref sig .tc := ⟨.hbm, 2044, rfl⟩
abbrev main_v1336 : Ref sig .tc := ⟨.hbm, 2045, rfl⟩
abbrev main_v1337 : Ref sig .tc := ⟨.hbm, 2046, rfl⟩
abbrev main_v1338 : Ref sig .tc := ⟨.hbm, 2047, rfl⟩
abbrev main_v1339 : Ref sig .tc := ⟨.hbm, 2048, rfl⟩
abbrev main_v1340 : Ref sig .tc := ⟨.hbm, 2049, rfl⟩
abbrev main_v1341 : Ref sig .tc := ⟨.hbm, 2050, rfl⟩
abbrev main_v1342 : Ref sig .tc := ⟨.hbm, 2051, rfl⟩
abbrev main_v1343 : Ref sig .tc := ⟨.hbm, 2052, rfl⟩
abbrev main_v1344 : Ref sig .tc := ⟨.hbm, 2053, rfl⟩
abbrev main_v1345 : Ref sig .tc := ⟨.hbm, 2054, rfl⟩
abbrev main_v1346 : Ref sig .tc := ⟨.hbm, 2055, rfl⟩
abbrev main_v1347 : Ref sig .tc := ⟨.hbm, 2056, rfl⟩
abbrev main_v1348 : Ref sig .tc := ⟨.hbm, 2057, rfl⟩
abbrev main_v1349 : Ref sig .tc := ⟨.hbm, 2058, rfl⟩
abbrev main_v1350 : Ref sig .tc := ⟨.hbm, 2059, rfl⟩
abbrev main_v1351 : Ref sig .tc := ⟨.hbm, 2060, rfl⟩
abbrev main_v1352 : Ref sig .tc := ⟨.hbm, 2061, rfl⟩
abbrev main_v1353 : Ref sig .tc := ⟨.hbm, 2062, rfl⟩
abbrev main_v1354 : Ref sig .tc := ⟨.hbm, 2063, rfl⟩
abbrev main_v1355 : Ref sig .tc := ⟨.hbm, 2064, rfl⟩
abbrev main_v1356 : Ref sig .tc := ⟨.hbm, 2065, rfl⟩
abbrev main_v1357 : Ref sig .tc := ⟨.hbm, 2066, rfl⟩
abbrev main_v1358 : Ref sig .tc := ⟨.hbm, 2067, rfl⟩
abbrev main_v1359 : Ref sig .tc := ⟨.hbm, 2068, rfl⟩
abbrev main_cst_119 : Ref sig .tc := ⟨.hbm, 2069, rfl⟩
abbrev main_call108_cst : Ref sig .tc := ⟨.hbm, 2070, rfl⟩
abbrev main_call108_v0 : Ref sig .tc := ⟨.hbm, 2071, rfl⟩
abbrev main_call108_v1 : Ref sig .tc := ⟨.hbm, 2072, rfl⟩
abbrev main_call108_v2 : Ref sig .tc := ⟨.hbm, 2073, rfl⟩
abbrev main_call108_v3 : Ref sig .tc := ⟨.hbm, 2074, rfl⟩
abbrev main_call108_v4 : Ref sig .tc := ⟨.hbm, 2075, rfl⟩
abbrev main_v1360 : Ref sig .tc := ⟨.hbm, 2076, rfl⟩
abbrev main_v1361 : Ref sig .tc := ⟨.hbm, 2077, rfl⟩
abbrev main_v1362 : Ref sig .tc := ⟨.hbm, 2078, rfl⟩
abbrev main_v1363 : Ref sig .tc := ⟨.hbm, 2079, rfl⟩
abbrev main_v1364 : Ref sig .tc := ⟨.hbm, 2080, rfl⟩
abbrev main_v1365 : Ref sig .tc := ⟨.hbm, 2081, rfl⟩
abbrev main_cst_120 : Ref sig .tc := ⟨.hbm, 2082, rfl⟩
abbrev main_call109_cst : Ref sig .tc := ⟨.hbm, 2083, rfl⟩
abbrev main_call109_v0 : Ref sig .tc := ⟨.hbm, 2084, rfl⟩
abbrev main_call109_v1 : Ref sig .tc := ⟨.hbm, 2085, rfl⟩
abbrev main_call109_v2 : Ref sig .tc := ⟨.hbm, 2086, rfl⟩
abbrev main_call109_v3 : Ref sig .tc := ⟨.hbm, 2087, rfl⟩
abbrev main_call109_v4 : Ref sig .tc := ⟨.hbm, 2088, rfl⟩
abbrev main_v1366 : Ref sig .tc := ⟨.hbm, 2089, rfl⟩
abbrev main_v1367 : Ref sig .tc := ⟨.hbm, 2090, rfl⟩
abbrev main_v1368 : Ref sig .tc := ⟨.hbm, 2091, rfl⟩
abbrev main_v1369 : Ref sig .tc := ⟨.hbm, 2092, rfl⟩
abbrev main_v1370 : Ref sig .tc := ⟨.hbm, 2093, rfl⟩
abbrev main_v1371 : Ref sig .tc := ⟨.hbm, 2094, rfl⟩
abbrev main_cst_121 : Ref sig .tc := ⟨.hbm, 2095, rfl⟩
abbrev main_call110_cst : Ref sig .tc := ⟨.hbm, 2096, rfl⟩
abbrev main_call110_v0 : Ref sig .tc := ⟨.hbm, 2097, rfl⟩
abbrev main_call110_v1 : Ref sig .tc := ⟨.hbm, 2098, rfl⟩
abbrev main_call110_v2 : Ref sig .tc := ⟨.hbm, 2099, rfl⟩
abbrev main_call110_v3 : Ref sig .tc := ⟨.hbm, 2100, rfl⟩
abbrev main_call110_v4 : Ref sig .tc := ⟨.hbm, 2101, rfl⟩
abbrev main_v1372 : Ref sig .tc := ⟨.hbm, 2102, rfl⟩
abbrev main_v1373 : Ref sig .tc := ⟨.hbm, 2103, rfl⟩
abbrev main_v1374 : Ref sig .tc := ⟨.hbm, 2104, rfl⟩
abbrev main_v1375 : Ref sig .tc := ⟨.hbm, 2105, rfl⟩
abbrev main_v1376 : Ref sig .tc := ⟨.hbm, 2106, rfl⟩
abbrev main_v1377 : Ref sig .tc := ⟨.hbm, 2107, rfl⟩
abbrev main_cst_122 : Ref sig .tc := ⟨.hbm, 2108, rfl⟩
abbrev main_call111_cst : Ref sig .tc := ⟨.hbm, 2109, rfl⟩
abbrev main_call111_v0 : Ref sig .tc := ⟨.hbm, 2110, rfl⟩
abbrev main_call111_v1 : Ref sig .tc := ⟨.hbm, 2111, rfl⟩
abbrev main_call111_v2 : Ref sig .tc := ⟨.hbm, 2112, rfl⟩
abbrev main_call111_v3 : Ref sig .tc := ⟨.hbm, 2113, rfl⟩
abbrev main_call111_v4 : Ref sig .tc := ⟨.hbm, 2114, rfl⟩
abbrev main_v1378 : Ref sig .tc := ⟨.hbm, 2115, rfl⟩
abbrev main_v1379 : Ref sig .tc := ⟨.hbm, 2116, rfl⟩
abbrev main_v1380 : Ref sig .tc := ⟨.hbm, 2117, rfl⟩
abbrev main_v1381 : Ref sig .tc := ⟨.hbm, 2118, rfl⟩
abbrev main_v1382 : Ref sig .tc := ⟨.hbm, 2119, rfl⟩
abbrev main_v1383 : Ref sig .tc := ⟨.hbm, 2120, rfl⟩
abbrev main_v1384 : Ref sig .tc := ⟨.hbm, 2121, rfl⟩
abbrev main_v1385 : Ref sig .tc := ⟨.hbm, 2122, rfl⟩
abbrev main_v1386 : Ref sig .tc := ⟨.hbm, 2123, rfl⟩
abbrev main_v1387 : Ref sig .tc := ⟨.hbm, 2124, rfl⟩
abbrev main_v1388 : Ref sig .tc := ⟨.hbm, 2125, rfl⟩
abbrev main_v1389 : Ref sig .tc := ⟨.hbm, 2126, rfl⟩
abbrev main_v1390 : Ref sig .tc := ⟨.hbm, 2127, rfl⟩
abbrev main_v1391 : Ref sig .tc := ⟨.hbm, 2128, rfl⟩
abbrev main_v1392 : Ref sig .tc := ⟨.hbm, 2129, rfl⟩
abbrev main_v1393 : Ref sig .tc := ⟨.hbm, 2130, rfl⟩
abbrev main_v1394 : Ref sig .tc := ⟨.hbm, 2131, rfl⟩
abbrev main_v1395 : Ref sig .tc := ⟨.hbm, 2132, rfl⟩
abbrev main_v1396 : Ref sig .tc := ⟨.hbm, 2133, rfl⟩
abbrev main_v1397 : Ref sig .tc := ⟨.hbm, 2134, rfl⟩
abbrev main_v1398 : Ref sig .tc := ⟨.hbm, 2135, rfl⟩
abbrev main_v1399 : Ref sig .tc := ⟨.hbm, 2136, rfl⟩
abbrev main_v1400 : Ref sig .tc := ⟨.hbm, 2137, rfl⟩
abbrev main_v1401 : Ref sig .tc := ⟨.hbm, 2138, rfl⟩
abbrev main_v1402 : Ref sig .tc := ⟨.hbm, 2139, rfl⟩
abbrev main_v1403 : Ref sig .tc := ⟨.hbm, 2140, rfl⟩
abbrev main_v1404 : Ref sig .tc := ⟨.hbm, 2141, rfl⟩
abbrev main_v1405 : Ref sig .tc := ⟨.hbm, 2142, rfl⟩
abbrev main_v1406 : Ref sig .tc := ⟨.hbm, 2143, rfl⟩
abbrev main_v1407 : Ref sig .tc := ⟨.hbm, 2144, rfl⟩
abbrev main_v1408 : Ref sig .tc := ⟨.hbm, 2145, rfl⟩
abbrev main_cst_123 : Ref sig .tc := ⟨.hbm, 2146, rfl⟩
abbrev main_call112_cst : Ref sig .tc := ⟨.hbm, 2147, rfl⟩
abbrev main_call112_v0 : Ref sig .tc := ⟨.hbm, 2148, rfl⟩
abbrev main_call112_v1 : Ref sig .tc := ⟨.hbm, 2149, rfl⟩
abbrev main_call112_v2 : Ref sig .tc := ⟨.hbm, 2150, rfl⟩
abbrev main_call112_v3 : Ref sig .tc := ⟨.hbm, 2151, rfl⟩
abbrev main_call112_v4 : Ref sig .tc := ⟨.hbm, 2152, rfl⟩
abbrev main_v1409 : Ref sig .tc := ⟨.hbm, 2153, rfl⟩
abbrev main_v1410 : Ref sig .tc := ⟨.hbm, 2154, rfl⟩
abbrev main_v1411 : Ref sig .tc := ⟨.hbm, 2155, rfl⟩
abbrev main_v1412 : Ref sig .tc := ⟨.hbm, 2156, rfl⟩
abbrev main_v1413 : Ref sig .tc := ⟨.hbm, 2157, rfl⟩
abbrev main_v1414 : Ref sig .tc := ⟨.hbm, 2158, rfl⟩
abbrev main_cst_124 : Ref sig .tc := ⟨.hbm, 2159, rfl⟩
abbrev main_call113_cst : Ref sig .tc := ⟨.hbm, 2160, rfl⟩
abbrev main_call113_v0 : Ref sig .tc := ⟨.hbm, 2161, rfl⟩
abbrev main_call113_v1 : Ref sig .tc := ⟨.hbm, 2162, rfl⟩
abbrev main_call113_v2 : Ref sig .tc := ⟨.hbm, 2163, rfl⟩
abbrev main_call113_v3 : Ref sig .tc := ⟨.hbm, 2164, rfl⟩
abbrev main_call113_v4 : Ref sig .tc := ⟨.hbm, 2165, rfl⟩
abbrev main_v1415 : Ref sig .tc := ⟨.hbm, 2166, rfl⟩
abbrev main_v1416 : Ref sig .tc := ⟨.hbm, 2167, rfl⟩
abbrev main_v1417 : Ref sig .tc := ⟨.hbm, 2168, rfl⟩
abbrev main_v1418 : Ref sig .tc := ⟨.hbm, 2169, rfl⟩
abbrev main_v1419 : Ref sig .tc := ⟨.hbm, 2170, rfl⟩
abbrev main_v1420 : Ref sig .tc := ⟨.hbm, 2171, rfl⟩
abbrev main_cst_125 : Ref sig .tc := ⟨.hbm, 2172, rfl⟩
abbrev main_call114_cst : Ref sig .tc := ⟨.hbm, 2173, rfl⟩
abbrev main_call114_v0 : Ref sig .tc := ⟨.hbm, 2174, rfl⟩
abbrev main_call114_v1 : Ref sig .tc := ⟨.hbm, 2175, rfl⟩
abbrev main_call114_v2 : Ref sig .tc := ⟨.hbm, 2176, rfl⟩
abbrev main_call114_v3 : Ref sig .tc := ⟨.hbm, 2177, rfl⟩
abbrev main_call114_v4 : Ref sig .tc := ⟨.hbm, 2178, rfl⟩
abbrev main_v1421 : Ref sig .tc := ⟨.hbm, 2179, rfl⟩
abbrev main_v1422 : Ref sig .tc := ⟨.hbm, 2180, rfl⟩
abbrev main_v1423 : Ref sig .tc := ⟨.hbm, 2181, rfl⟩
abbrev main_v1424 : Ref sig .tc := ⟨.hbm, 2182, rfl⟩
abbrev main_v1425 : Ref sig .tc := ⟨.hbm, 2183, rfl⟩
abbrev main_v1426 : Ref sig .tc := ⟨.hbm, 2184, rfl⟩
abbrev main_cst_126 : Ref sig .tc := ⟨.hbm, 2185, rfl⟩
abbrev main_call115_cst : Ref sig .tc := ⟨.hbm, 2186, rfl⟩
abbrev main_call115_v0 : Ref sig .tc := ⟨.hbm, 2187, rfl⟩
abbrev main_call115_v1 : Ref sig .tc := ⟨.hbm, 2188, rfl⟩
abbrev main_call115_v2 : Ref sig .tc := ⟨.hbm, 2189, rfl⟩
abbrev main_call115_v3 : Ref sig .tc := ⟨.hbm, 2190, rfl⟩
abbrev main_call115_v4 : Ref sig .tc := ⟨.hbm, 2191, rfl⟩
abbrev main_v1427 : Ref sig .tc := ⟨.hbm, 2192, rfl⟩
abbrev main_v1428 : Ref sig .tc := ⟨.hbm, 2193, rfl⟩
abbrev main_v1429 : Ref sig .tc := ⟨.hbm, 2194, rfl⟩
abbrev main_v1430 : Ref sig .tc := ⟨.hbm, 2195, rfl⟩
abbrev main_v1431 : Ref sig .tc := ⟨.hbm, 2196, rfl⟩
abbrev main_v1432 : Ref sig .tc := ⟨.hbm, 2197, rfl⟩
abbrev main_v1433 : Ref sig .tc := ⟨.hbm, 2198, rfl⟩
abbrev main_v1434 : Ref sig .tc := ⟨.hbm, 2199, rfl⟩
abbrev main_v1435 : Ref sig .tc := ⟨.hbm, 2200, rfl⟩
abbrev main_cst_127 : Ref sig .tc := ⟨.hbm, 2201, rfl⟩
abbrev main_v1436 : Ref sig .tc := ⟨.hbm, 2202, rfl⟩
abbrev main_v1437 : Ref sig .tc := ⟨.hbm, 2203, rfl⟩
abbrev main_v1438 : Ref sig .tc := ⟨.hbm, 2204, rfl⟩
abbrev main_v1439 : Ref sig .tc := ⟨.hbm, 2205, rfl⟩
abbrev main_v1440 : Ref sig .tc := ⟨.hbm, 2206, rfl⟩
abbrev main_c_128 : Ref sig .tc := ⟨.hbm, 2207, rfl⟩
abbrev main_v1441 : Ref sig .tc := ⟨.hbm, 2208, rfl⟩
abbrev main_v1442 : Ref sig .tc := ⟨.hbm, 2209, rfl⟩
abbrev main_v1443 : Ref sig .tc := ⟨.hbm, 2210, rfl⟩
abbrev main_v1444 : Ref sig .tc := ⟨.hbm, 2211, rfl⟩
abbrev main_v1445 : Ref sig .tc := ⟨.hbm, 2212, rfl⟩
abbrev main_v1446 : Ref sig .tc := ⟨.hbm, 2213, rfl⟩
abbrev main_v1447 : Ref sig .tc := ⟨.hbm, 2214, rfl⟩
abbrev main_v1448 : Ref sig .tc := ⟨.hbm, 2215, rfl⟩
abbrev main_v1449 : Ref sig .tc := ⟨.hbm, 2216, rfl⟩
abbrev main_v1450 : Ref sig .tc := ⟨.hbm, 2217, rfl⟩
abbrev main_v1451 : Ref sig .tc := ⟨.hbm, 2218, rfl⟩
abbrev main_v1452 : Ref sig .tc := ⟨.hbm, 2219, rfl⟩
abbrev main_v1453 : Ref sig .tc := ⟨.hbm, 2220, rfl⟩
abbrev main_v1454 : Ref sig .tc := ⟨.hbm, 2221, rfl⟩
abbrev main_v1455 : Ref sig .tc := ⟨.hbm, 2222, rfl⟩
abbrev main_v1456 : Ref sig .tc := ⟨.hbm, 2223, rfl⟩
abbrev main_v1457 : Ref sig .tc := ⟨.hbm, 2224, rfl⟩
abbrev main_v1458 : Ref sig .tc := ⟨.hbm, 2225, rfl⟩
abbrev main_v1459 : Ref sig .tc := ⟨.hbm, 2226, rfl⟩
abbrev main_v1460 : Ref sig .tc := ⟨.hbm, 2227, rfl⟩
abbrev main_v1461 : Ref sig .tc := ⟨.hbm, 2228, rfl⟩
abbrev main_v1462 : Ref sig .tc := ⟨.hbm, 2229, rfl⟩
abbrev main_v1463 : Ref sig .tc := ⟨.hbm, 2230, rfl⟩
abbrev main_v1464 : Ref sig .tc := ⟨.hbm, 2231, rfl⟩
abbrev main_v1465 : Ref sig .tc := ⟨.hbm, 2232, rfl⟩
abbrev main_v1466 : Ref sig .tc := ⟨.hbm, 2233, rfl⟩
abbrev main_v1467 : Ref sig .tc := ⟨.hbm, 2234, rfl⟩
abbrev main_v1468 : Ref sig .tc := ⟨.hbm, 2235, rfl⟩
abbrev main_v1469 : Ref sig .tc := ⟨.hbm, 2236, rfl⟩
abbrev main_v1470 : Ref sig .tc := ⟨.hbm, 2237, rfl⟩
abbrev main_cst_129 : Ref sig .tc := ⟨.hbm, 2238, rfl⟩
abbrev main_call117_cst : Ref sig .tc := ⟨.hbm, 2239, rfl⟩
abbrev main_call117_v0 : Ref sig .tc := ⟨.hbm, 2240, rfl⟩
abbrev main_call117_v1 : Ref sig .tc := ⟨.hbm, 2241, rfl⟩
abbrev main_call117_v2 : Ref sig .tc := ⟨.hbm, 2242, rfl⟩
abbrev main_call117_v3 : Ref sig .tc := ⟨.hbm, 2243, rfl⟩
abbrev main_call117_v4 : Ref sig .tc := ⟨.hbm, 2244, rfl⟩
abbrev main_v1471 : Ref sig .tc := ⟨.hbm, 2245, rfl⟩
abbrev main_v1472 : Ref sig .tc := ⟨.hbm, 2246, rfl⟩
abbrev main_v1473 : Ref sig .tc := ⟨.hbm, 2247, rfl⟩
abbrev main_v1474 : Ref sig .tc := ⟨.hbm, 2248, rfl⟩
abbrev main_v1475 : Ref sig .tc := ⟨.hbm, 2249, rfl⟩
abbrev main_v1476 : Ref sig .tc := ⟨.hbm, 2250, rfl⟩
abbrev main_cst_130 : Ref sig .tc := ⟨.hbm, 2251, rfl⟩
abbrev main_call118_cst : Ref sig .tc := ⟨.hbm, 2252, rfl⟩
abbrev main_call118_v0 : Ref sig .tc := ⟨.hbm, 2253, rfl⟩
abbrev main_call118_v1 : Ref sig .tc := ⟨.hbm, 2254, rfl⟩
abbrev main_call118_v2 : Ref sig .tc := ⟨.hbm, 2255, rfl⟩
abbrev main_call118_v3 : Ref sig .tc := ⟨.hbm, 2256, rfl⟩
abbrev main_call118_v4 : Ref sig .tc := ⟨.hbm, 2257, rfl⟩
abbrev main_v1477 : Ref sig .tc := ⟨.hbm, 2258, rfl⟩
abbrev main_v1478 : Ref sig .tc := ⟨.hbm, 2259, rfl⟩
abbrev main_v1479 : Ref sig .tc := ⟨.hbm, 2260, rfl⟩
abbrev main_v1480 : Ref sig .tc := ⟨.hbm, 2261, rfl⟩
abbrev main_v1481 : Ref sig .tc := ⟨.hbm, 2262, rfl⟩
abbrev main_v1482 : Ref sig .tc := ⟨.hbm, 2263, rfl⟩
abbrev main_cst_131 : Ref sig .tc := ⟨.hbm, 2264, rfl⟩
abbrev main_call119_cst : Ref sig .tc := ⟨.hbm, 2265, rfl⟩
abbrev main_call119_v0 : Ref sig .tc := ⟨.hbm, 2266, rfl⟩
abbrev main_call119_v1 : Ref sig .tc := ⟨.hbm, 2267, rfl⟩
abbrev main_call119_v2 : Ref sig .tc := ⟨.hbm, 2268, rfl⟩
abbrev main_call119_v3 : Ref sig .tc := ⟨.hbm, 2269, rfl⟩
abbrev main_call119_v4 : Ref sig .tc := ⟨.hbm, 2270, rfl⟩
abbrev main_v1483 : Ref sig .tc := ⟨.hbm, 2271, rfl⟩
abbrev main_v1484 : Ref sig .tc := ⟨.hbm, 2272, rfl⟩
abbrev main_v1485 : Ref sig .tc := ⟨.hbm, 2273, rfl⟩
abbrev main_v1486 : Ref sig .tc := ⟨.hbm, 2274, rfl⟩
abbrev main_v1487 : Ref sig .tc := ⟨.hbm, 2275, rfl⟩
abbrev main_v1488 : Ref sig .tc := ⟨.hbm, 2276, rfl⟩
abbrev main_cst_132 : Ref sig .tc := ⟨.hbm, 2277, rfl⟩
abbrev main_call120_cst : Ref sig .tc := ⟨.hbm, 2278, rfl⟩
abbrev main_call120_v0 : Ref sig .tc := ⟨.hbm, 2279, rfl⟩
abbrev main_call120_v1 : Ref sig .tc := ⟨.hbm, 2280, rfl⟩
abbrev main_call120_v2 : Ref sig .tc := ⟨.hbm, 2281, rfl⟩
abbrev main_call120_v3 : Ref sig .tc := ⟨.hbm, 2282, rfl⟩
abbrev main_call120_v4 : Ref sig .tc := ⟨.hbm, 2283, rfl⟩
abbrev main_v1489 : Ref sig .tc := ⟨.hbm, 2284, rfl⟩
abbrev main_v1490 : Ref sig .tc := ⟨.hbm, 2285, rfl⟩
abbrev main_v1491 : Ref sig .tc := ⟨.hbm, 2286, rfl⟩
abbrev main_v1492 : Ref sig .tc := ⟨.hbm, 2287, rfl⟩
abbrev main_v1493 : Ref sig .tc := ⟨.hbm, 2288, rfl⟩
abbrev main_v1494 : Ref sig .tc := ⟨.hbm, 2289, rfl⟩
abbrev main_v1495 : Ref sig .tc := ⟨.hbm, 2290, rfl⟩
abbrev main_v1496 : Ref sig .tc := ⟨.hbm, 2291, rfl⟩
abbrev main_v1497 : Ref sig .tc := ⟨.hbm, 2292, rfl⟩
abbrev main_v1498 : Ref sig .tc := ⟨.hbm, 2293, rfl⟩
abbrev main_v1499 : Ref sig .tc := ⟨.hbm, 2294, rfl⟩
abbrev main_v1500 : Ref sig .tc := ⟨.hbm, 2295, rfl⟩
abbrev main_v1501 : Ref sig .tc := ⟨.hbm, 2296, rfl⟩
abbrev main_v1502 : Ref sig .tc := ⟨.hbm, 2297, rfl⟩
abbrev main_v1503 : Ref sig .tc := ⟨.hbm, 2298, rfl⟩
abbrev main_v1504 : Ref sig .tc := ⟨.hbm, 2299, rfl⟩
abbrev main_v1505 : Ref sig .tc := ⟨.hbm, 2300, rfl⟩
abbrev main_v1506 : Ref sig .tc := ⟨.hbm, 2301, rfl⟩
abbrev main_v1507 : Ref sig .tc := ⟨.hbm, 2302, rfl⟩
abbrev main_v1508 : Ref sig .tc := ⟨.hbm, 2303, rfl⟩
abbrev main_v1509 : Ref sig .tc := ⟨.hbm, 2304, rfl⟩
abbrev main_v1510 : Ref sig .tc := ⟨.hbm, 2305, rfl⟩
abbrev main_v1511 : Ref sig .tc := ⟨.hbm, 2306, rfl⟩
abbrev main_v1512 : Ref sig .tc := ⟨.hbm, 2307, rfl⟩
abbrev main_v1513 : Ref sig .tc := ⟨.hbm, 2308, rfl⟩
abbrev main_v1514 : Ref sig .tc := ⟨.hbm, 2309, rfl⟩
abbrev main_v1515 : Ref sig .tc := ⟨.hbm, 2310, rfl⟩
abbrev main_v1516 : Ref sig .tc := ⟨.hbm, 2311, rfl⟩
abbrev main_v1517 : Ref sig .tc := ⟨.hbm, 2312, rfl⟩
abbrev main_v1518 : Ref sig .tc := ⟨.hbm, 2313, rfl⟩
abbrev main_v1519 : Ref sig .tc := ⟨.hbm, 2314, rfl⟩
abbrev main_cst_133 : Ref sig .tc := ⟨.hbm, 2315, rfl⟩
abbrev main_call121_cst : Ref sig .tc := ⟨.hbm, 2316, rfl⟩
abbrev main_call121_v0 : Ref sig .tc := ⟨.hbm, 2317, rfl⟩
abbrev main_call121_v1 : Ref sig .tc := ⟨.hbm, 2318, rfl⟩
abbrev main_call121_v2 : Ref sig .tc := ⟨.hbm, 2319, rfl⟩
abbrev main_call121_v3 : Ref sig .tc := ⟨.hbm, 2320, rfl⟩
abbrev main_call121_v4 : Ref sig .tc := ⟨.hbm, 2321, rfl⟩
abbrev main_v1520 : Ref sig .tc := ⟨.hbm, 2322, rfl⟩
abbrev main_v1521 : Ref sig .tc := ⟨.hbm, 2323, rfl⟩
abbrev main_v1522 : Ref sig .tc := ⟨.hbm, 2324, rfl⟩
abbrev main_v1523 : Ref sig .tc := ⟨.hbm, 2325, rfl⟩
abbrev main_v1524 : Ref sig .tc := ⟨.hbm, 2326, rfl⟩
abbrev main_v1525 : Ref sig .tc := ⟨.hbm, 2327, rfl⟩
abbrev main_cst_134 : Ref sig .tc := ⟨.hbm, 2328, rfl⟩
abbrev main_call122_cst : Ref sig .tc := ⟨.hbm, 2329, rfl⟩
abbrev main_call122_v0 : Ref sig .tc := ⟨.hbm, 2330, rfl⟩
abbrev main_call122_v1 : Ref sig .tc := ⟨.hbm, 2331, rfl⟩
abbrev main_call122_v2 : Ref sig .tc := ⟨.hbm, 2332, rfl⟩
abbrev main_call122_v3 : Ref sig .tc := ⟨.hbm, 2333, rfl⟩
abbrev main_call122_v4 : Ref sig .tc := ⟨.hbm, 2334, rfl⟩
abbrev main_v1526 : Ref sig .tc := ⟨.hbm, 2335, rfl⟩
abbrev main_v1527 : Ref sig .tc := ⟨.hbm, 2336, rfl⟩
abbrev main_v1528 : Ref sig .tc := ⟨.hbm, 2337, rfl⟩
abbrev main_v1529 : Ref sig .tc := ⟨.hbm, 2338, rfl⟩
abbrev main_v1530 : Ref sig .tc := ⟨.hbm, 2339, rfl⟩
abbrev main_v1531 : Ref sig .tc := ⟨.hbm, 2340, rfl⟩
abbrev main_cst_135 : Ref sig .tc := ⟨.hbm, 2341, rfl⟩
abbrev main_call123_cst : Ref sig .tc := ⟨.hbm, 2342, rfl⟩
abbrev main_call123_v0 : Ref sig .tc := ⟨.hbm, 2343, rfl⟩
abbrev main_call123_v1 : Ref sig .tc := ⟨.hbm, 2344, rfl⟩
abbrev main_call123_v2 : Ref sig .tc := ⟨.hbm, 2345, rfl⟩
abbrev main_call123_v3 : Ref sig .tc := ⟨.hbm, 2346, rfl⟩
abbrev main_call123_v4 : Ref sig .tc := ⟨.hbm, 2347, rfl⟩
abbrev main_v1532 : Ref sig .tc := ⟨.hbm, 2348, rfl⟩
abbrev main_v1533 : Ref sig .tc := ⟨.hbm, 2349, rfl⟩
abbrev main_v1534 : Ref sig .tc := ⟨.hbm, 2350, rfl⟩
abbrev main_v1535 : Ref sig .tc := ⟨.hbm, 2351, rfl⟩
abbrev main_v1536 : Ref sig .tc := ⟨.hbm, 2352, rfl⟩
abbrev main_v1537 : Ref sig .tc := ⟨.hbm, 2353, rfl⟩
abbrev main_cst_136 : Ref sig .tc := ⟨.hbm, 2354, rfl⟩
abbrev main_call124_cst : Ref sig .tc := ⟨.hbm, 2355, rfl⟩
abbrev main_call124_v0 : Ref sig .tc := ⟨.hbm, 2356, rfl⟩
abbrev main_call124_v1 : Ref sig .tc := ⟨.hbm, 2357, rfl⟩
abbrev main_call124_v2 : Ref sig .tc := ⟨.hbm, 2358, rfl⟩
abbrev main_call124_v3 : Ref sig .tc := ⟨.hbm, 2359, rfl⟩
abbrev main_call124_v4 : Ref sig .tc := ⟨.hbm, 2360, rfl⟩
abbrev main_v1538 : Ref sig .tc := ⟨.hbm, 2361, rfl⟩
abbrev main_v1539 : Ref sig .tc := ⟨.hbm, 2362, rfl⟩
abbrev main_v1540 : Ref sig .tc := ⟨.hbm, 2363, rfl⟩
abbrev main_v1541 : Ref sig .tc := ⟨.hbm, 2364, rfl⟩
abbrev main_v1542 : Ref sig .tc := ⟨.hbm, 2365, rfl⟩
abbrev main_v1543 : Ref sig .tc := ⟨.hbm, 2366, rfl⟩
abbrev main_v1544 : Ref sig .tc := ⟨.hbm, 2367, rfl⟩
abbrev main_v1545 : Ref sig .tc := ⟨.hbm, 2368, rfl⟩
abbrev main_v1546 : Ref sig .tc := ⟨.hbm, 2369, rfl⟩
abbrev main_cst_137 : Ref sig .tc := ⟨.hbm, 2370, rfl⟩
abbrev main_v1547 : Ref sig .tc := ⟨.hbm, 2371, rfl⟩
abbrev main_v1548 : Ref sig .tc := ⟨.hbm, 2372, rfl⟩
abbrev main_v1549 : Ref sig .tc := ⟨.hbm, 2373, rfl⟩
abbrev main_v1550 : Ref sig .tc := ⟨.hbm, 2374, rfl⟩
abbrev main_v1551 : Ref sig .tc := ⟨.hbm, 2375, rfl⟩
abbrev main_c_138 : Ref sig .tc := ⟨.hbm, 2376, rfl⟩
abbrev main_v1552 : Ref sig .tc := ⟨.hbm, 2377, rfl⟩
abbrev main_v1553 : Ref sig .tc := ⟨.hbm, 2378, rfl⟩
abbrev main_v1554 : Ref sig .tc := ⟨.hbm, 2379, rfl⟩
abbrev main_v1555 : Ref sig .tc := ⟨.hbm, 2380, rfl⟩
abbrev main_v1556 : Ref sig .tc := ⟨.hbm, 2381, rfl⟩
abbrev main_v1557 : Ref sig .tc := ⟨.hbm, 2382, rfl⟩
abbrev main_v1558 : Ref sig .tc := ⟨.hbm, 2383, rfl⟩
abbrev main_v1559 : Ref sig .tc := ⟨.hbm, 2384, rfl⟩
abbrev main_v1560 : Ref sig .tc := ⟨.hbm, 2385, rfl⟩
abbrev main_v1561 : Ref sig .tc := ⟨.hbm, 2386, rfl⟩
abbrev main_v1562 : Ref sig .tc := ⟨.hbm, 2387, rfl⟩
abbrev main_v1563 : Ref sig .tc := ⟨.hbm, 2388, rfl⟩
abbrev main_v1564 : Ref sig .tc := ⟨.hbm, 2389, rfl⟩
abbrev main_v1565 : Ref sig .tc := ⟨.hbm, 2390, rfl⟩
abbrev main_v1566 : Ref sig .tc := ⟨.hbm, 2391, rfl⟩
abbrev main_v1567 : Ref sig .tc := ⟨.hbm, 2392, rfl⟩
abbrev main_v1568 : Ref sig .tc := ⟨.hbm, 2393, rfl⟩
abbrev main_v1569 : Ref sig .tc := ⟨.hbm, 2394, rfl⟩
abbrev main_v1570 : Ref sig .tc := ⟨.hbm, 2395, rfl⟩
abbrev main_v1571 : Ref sig .tc := ⟨.hbm, 2396, rfl⟩
abbrev main_v1572 : Ref sig .tc := ⟨.hbm, 2397, rfl⟩
abbrev main_v1573 : Ref sig .tc := ⟨.hbm, 2398, rfl⟩
abbrev main_v1574 : Ref sig .tc := ⟨.hbm, 2399, rfl⟩
abbrev main_v1575 : Ref sig .tc := ⟨.hbm, 2400, rfl⟩
abbrev main_v1576 : Ref sig .tc := ⟨.hbm, 2401, rfl⟩
abbrev main_v1577 : Ref sig .tc := ⟨.hbm, 2402, rfl⟩
abbrev main_v1578 : Ref sig .tc := ⟨.hbm, 2403, rfl⟩
abbrev main_v1579 : Ref sig .tc := ⟨.hbm, 2404, rfl⟩
abbrev main_v1580 : Ref sig .tc := ⟨.hbm, 2405, rfl⟩
abbrev main_v1581 : Ref sig .tc := ⟨.hbm, 2406, rfl⟩
abbrev main_cst_139 : Ref sig .tc := ⟨.hbm, 2407, rfl⟩
abbrev main_call126_cst : Ref sig .tc := ⟨.hbm, 2408, rfl⟩
abbrev main_call126_v0 : Ref sig .tc := ⟨.hbm, 2409, rfl⟩
abbrev main_call126_v1 : Ref sig .tc := ⟨.hbm, 2410, rfl⟩
abbrev main_call126_v2 : Ref sig .tc := ⟨.hbm, 2411, rfl⟩
abbrev main_call126_v3 : Ref sig .tc := ⟨.hbm, 2412, rfl⟩
abbrev main_call126_v4 : Ref sig .tc := ⟨.hbm, 2413, rfl⟩
abbrev main_v1582 : Ref sig .tc := ⟨.hbm, 2414, rfl⟩
abbrev main_v1583 : Ref sig .tc := ⟨.hbm, 2415, rfl⟩
abbrev main_v1584 : Ref sig .tc := ⟨.hbm, 2416, rfl⟩
abbrev main_v1585 : Ref sig .tc := ⟨.hbm, 2417, rfl⟩
abbrev main_v1586 : Ref sig .tc := ⟨.hbm, 2418, rfl⟩
abbrev main_v1587 : Ref sig .tc := ⟨.hbm, 2419, rfl⟩
abbrev main_cst_140 : Ref sig .tc := ⟨.hbm, 2420, rfl⟩
abbrev main_call127_cst : Ref sig .tc := ⟨.hbm, 2421, rfl⟩
abbrev main_call127_v0 : Ref sig .tc := ⟨.hbm, 2422, rfl⟩
abbrev main_call127_v1 : Ref sig .tc := ⟨.hbm, 2423, rfl⟩
abbrev main_call127_v2 : Ref sig .tc := ⟨.hbm, 2424, rfl⟩
abbrev main_call127_v3 : Ref sig .tc := ⟨.hbm, 2425, rfl⟩
abbrev main_call127_v4 : Ref sig .tc := ⟨.hbm, 2426, rfl⟩
abbrev main_v1588 : Ref sig .tc := ⟨.hbm, 2427, rfl⟩
abbrev main_v1589 : Ref sig .tc := ⟨.hbm, 2428, rfl⟩
abbrev main_v1590 : Ref sig .tc := ⟨.hbm, 2429, rfl⟩
abbrev main_v1591 : Ref sig .tc := ⟨.hbm, 2430, rfl⟩
abbrev main_v1592 : Ref sig .tc := ⟨.hbm, 2431, rfl⟩
abbrev main_v1593 : Ref sig .tc := ⟨.hbm, 2432, rfl⟩
abbrev main_cst_141 : Ref sig .tc := ⟨.hbm, 2433, rfl⟩
abbrev main_call128_cst : Ref sig .tc := ⟨.hbm, 2434, rfl⟩
abbrev main_call128_v0 : Ref sig .tc := ⟨.hbm, 2435, rfl⟩
abbrev main_call128_v1 : Ref sig .tc := ⟨.hbm, 2436, rfl⟩
abbrev main_call128_v2 : Ref sig .tc := ⟨.hbm, 2437, rfl⟩
abbrev main_call128_v3 : Ref sig .tc := ⟨.hbm, 2438, rfl⟩
abbrev main_call128_v4 : Ref sig .tc := ⟨.hbm, 2439, rfl⟩
abbrev main_v1594 : Ref sig .tc := ⟨.hbm, 2440, rfl⟩
abbrev main_v1595 : Ref sig .tc := ⟨.hbm, 2441, rfl⟩
abbrev main_v1596 : Ref sig .tc := ⟨.hbm, 2442, rfl⟩
abbrev main_v1597 : Ref sig .tc := ⟨.hbm, 2443, rfl⟩
abbrev main_v1598 : Ref sig .tc := ⟨.hbm, 2444, rfl⟩
abbrev main_v1599 : Ref sig .tc := ⟨.hbm, 2445, rfl⟩
abbrev main_cst_142 : Ref sig .tc := ⟨.hbm, 2446, rfl⟩
abbrev main_call129_cst : Ref sig .tc := ⟨.hbm, 2447, rfl⟩
abbrev main_call129_v0 : Ref sig .tc := ⟨.hbm, 2448, rfl⟩
abbrev main_call129_v1 : Ref sig .tc := ⟨.hbm, 2449, rfl⟩
abbrev main_call129_v2 : Ref sig .tc := ⟨.hbm, 2450, rfl⟩
abbrev main_call129_v3 : Ref sig .tc := ⟨.hbm, 2451, rfl⟩
abbrev main_call129_v4 : Ref sig .tc := ⟨.hbm, 2452, rfl⟩
abbrev main_v1600 : Ref sig .tc := ⟨.hbm, 2453, rfl⟩
abbrev main_v1601 : Ref sig .tc := ⟨.hbm, 2454, rfl⟩
abbrev main_v1602 : Ref sig .tc := ⟨.hbm, 2455, rfl⟩
abbrev main_v1603 : Ref sig .tc := ⟨.hbm, 2456, rfl⟩
abbrev main_v1604 : Ref sig .tc := ⟨.hbm, 2457, rfl⟩
abbrev main_v1605 : Ref sig .tc := ⟨.hbm, 2458, rfl⟩
abbrev main_v1606 : Ref sig .tc := ⟨.hbm, 2459, rfl⟩
abbrev main_v1607 : Ref sig .tc := ⟨.hbm, 2460, rfl⟩
abbrev main_v1608 : Ref sig .tc := ⟨.hbm, 2461, rfl⟩
abbrev main_v1609 : Ref sig .tc := ⟨.hbm, 2462, rfl⟩
abbrev main_v1610 : Ref sig .tc := ⟨.hbm, 2463, rfl⟩
abbrev main_v1611 : Ref sig .tc := ⟨.hbm, 2464, rfl⟩
abbrev main_v1612 : Ref sig .tc := ⟨.hbm, 2465, rfl⟩
abbrev main_v1613 : Ref sig .tc := ⟨.hbm, 2466, rfl⟩
abbrev main_v1614 : Ref sig .tc := ⟨.hbm, 2467, rfl⟩
abbrev main_v1615 : Ref sig .tc := ⟨.hbm, 2468, rfl⟩
abbrev main_v1616 : Ref sig .tc := ⟨.hbm, 2469, rfl⟩
abbrev main_v1617 : Ref sig .tc := ⟨.hbm, 2470, rfl⟩
abbrev main_v1618 : Ref sig .tc := ⟨.hbm, 2471, rfl⟩
abbrev main_v1619 : Ref sig .tc := ⟨.hbm, 2472, rfl⟩
abbrev main_v1620 : Ref sig .tc := ⟨.hbm, 2473, rfl⟩
abbrev main_v1621 : Ref sig .tc := ⟨.hbm, 2474, rfl⟩
abbrev main_v1622 : Ref sig .tc := ⟨.hbm, 2475, rfl⟩
abbrev main_v1623 : Ref sig .tc := ⟨.hbm, 2476, rfl⟩
abbrev main_v1624 : Ref sig .tc := ⟨.hbm, 2477, rfl⟩
abbrev main_v1625 : Ref sig .tc := ⟨.hbm, 2478, rfl⟩
abbrev main_v1626 : Ref sig .tc := ⟨.hbm, 2479, rfl⟩
abbrev main_v1627 : Ref sig .tc := ⟨.hbm, 2480, rfl⟩
abbrev main_v1628 : Ref sig .tc := ⟨.hbm, 2481, rfl⟩
abbrev main_v1629 : Ref sig .tc := ⟨.hbm, 2482, rfl⟩
abbrev main_v1630 : Ref sig .tc := ⟨.hbm, 2483, rfl⟩
abbrev main_cst_143 : Ref sig .tc := ⟨.hbm, 2484, rfl⟩
abbrev main_call130_cst : Ref sig .tc := ⟨.hbm, 2485, rfl⟩
abbrev main_call130_v0 : Ref sig .tc := ⟨.hbm, 2486, rfl⟩
abbrev main_call130_v1 : Ref sig .tc := ⟨.hbm, 2487, rfl⟩
abbrev main_call130_v2 : Ref sig .tc := ⟨.hbm, 2488, rfl⟩
abbrev main_call130_v3 : Ref sig .tc := ⟨.hbm, 2489, rfl⟩
abbrev main_call130_v4 : Ref sig .tc := ⟨.hbm, 2490, rfl⟩
abbrev main_v1631 : Ref sig .tc := ⟨.hbm, 2491, rfl⟩
abbrev main_v1632 : Ref sig .tc := ⟨.hbm, 2492, rfl⟩
abbrev main_v1633 : Ref sig .tc := ⟨.hbm, 2493, rfl⟩
abbrev main_v1634 : Ref sig .tc := ⟨.hbm, 2494, rfl⟩
abbrev main_v1635 : Ref sig .tc := ⟨.hbm, 2495, rfl⟩
abbrev main_v1636 : Ref sig .tc := ⟨.hbm, 2496, rfl⟩
abbrev main_cst_144 : Ref sig .tc := ⟨.hbm, 2497, rfl⟩
abbrev main_call131_cst : Ref sig .tc := ⟨.hbm, 2498, rfl⟩
abbrev main_call131_v0 : Ref sig .tc := ⟨.hbm, 2499, rfl⟩
abbrev main_call131_v1 : Ref sig .tc := ⟨.hbm, 2500, rfl⟩
abbrev main_call131_v2 : Ref sig .tc := ⟨.hbm, 2501, rfl⟩
abbrev main_call131_v3 : Ref sig .tc := ⟨.hbm, 2502, rfl⟩
abbrev main_call131_v4 : Ref sig .tc := ⟨.hbm, 2503, rfl⟩
abbrev main_v1637 : Ref sig .tc := ⟨.hbm, 2504, rfl⟩
abbrev main_v1638 : Ref sig .tc := ⟨.hbm, 2505, rfl⟩
abbrev main_v1639 : Ref sig .tc := ⟨.hbm, 2506, rfl⟩
abbrev main_v1640 : Ref sig .tc := ⟨.hbm, 2507, rfl⟩
abbrev main_v1641 : Ref sig .tc := ⟨.hbm, 2508, rfl⟩
abbrev main_v1642 : Ref sig .tc := ⟨.hbm, 2509, rfl⟩
abbrev main_cst_145 : Ref sig .tc := ⟨.hbm, 2510, rfl⟩
abbrev main_call132_cst : Ref sig .tc := ⟨.hbm, 2511, rfl⟩
abbrev main_call132_v0 : Ref sig .tc := ⟨.hbm, 2512, rfl⟩
abbrev main_call132_v1 : Ref sig .tc := ⟨.hbm, 2513, rfl⟩
abbrev main_call132_v2 : Ref sig .tc := ⟨.hbm, 2514, rfl⟩
abbrev main_call132_v3 : Ref sig .tc := ⟨.hbm, 2515, rfl⟩
abbrev main_call132_v4 : Ref sig .tc := ⟨.hbm, 2516, rfl⟩
abbrev main_v1643 : Ref sig .tc := ⟨.hbm, 2517, rfl⟩
abbrev main_v1644 : Ref sig .tc := ⟨.hbm, 2518, rfl⟩
abbrev main_v1645 : Ref sig .tc := ⟨.hbm, 2519, rfl⟩
abbrev main_v1646 : Ref sig .tc := ⟨.hbm, 2520, rfl⟩
abbrev main_v1647 : Ref sig .tc := ⟨.hbm, 2521, rfl⟩
abbrev main_v1648 : Ref sig .tc := ⟨.hbm, 2522, rfl⟩
abbrev main_cst_146 : Ref sig .tc := ⟨.hbm, 2523, rfl⟩
abbrev main_call133_cst : Ref sig .tc := ⟨.hbm, 2524, rfl⟩
abbrev main_call133_v0 : Ref sig .tc := ⟨.hbm, 2525, rfl⟩
abbrev main_call133_v1 : Ref sig .tc := ⟨.hbm, 2526, rfl⟩
abbrev main_call133_v2 : Ref sig .tc := ⟨.hbm, 2527, rfl⟩
abbrev main_call133_v3 : Ref sig .tc := ⟨.hbm, 2528, rfl⟩
abbrev main_call133_v4 : Ref sig .tc := ⟨.hbm, 2529, rfl⟩
abbrev main_v1649 : Ref sig .tc := ⟨.hbm, 2530, rfl⟩
abbrev main_v1650 : Ref sig .tc := ⟨.hbm, 2531, rfl⟩
abbrev main_v1651 : Ref sig .tc := ⟨.hbm, 2532, rfl⟩
abbrev main_v1652 : Ref sig .tc := ⟨.hbm, 2533, rfl⟩
abbrev main_v1653 : Ref sig .tc := ⟨.hbm, 2534, rfl⟩
abbrev main_v1654 : Ref sig .tc := ⟨.hbm, 2535, rfl⟩
abbrev main_v1655 : Ref sig .tc := ⟨.hbm, 2536, rfl⟩
abbrev main_v1656 : Ref sig .tc := ⟨.hbm, 2537, rfl⟩
abbrev main_v1657 : Ref sig .tc := ⟨.hbm, 2538, rfl⟩
abbrev main_cst_147 : Ref sig .tc := ⟨.hbm, 2539, rfl⟩
abbrev main_v1658 : Ref sig .tc := ⟨.hbm, 2540, rfl⟩
abbrev main_v1659 : Ref sig .tc := ⟨.hbm, 2541, rfl⟩
abbrev main_v1660 : Ref sig .tc := ⟨.hbm, 2542, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  slices_S524288x2_S524288x1_0_0 : S524288x2.Slices ![0, 0] S524288x1
  slices_S524288x2_S524288x1_0_1 : S524288x2.Slices ![0, 1] S524288x1
  slices_S15x2x8x1_S1x1x8x1_0_0_0_0 : S15x2x8x1.Slices ![0, 0, 0, 0] S1x1x8x1
  shapeCasts_S1x1x8x1_S8x1 : S1x1x8x1.ShapeCasts S8x1
  slices_S15x2x8_S1x1x8_0_0_0 : S15x2x8.Slices ![0, 0, 0] S1x1x8
  shapeCasts_S1x1x8_S8 : S1x1x8.ShapeCasts S8
  slices_S15x2x8x8_S1x1x8x8_0_0_0_0 : S15x2x8x8.Slices ![0, 0, 0, 0] S1x1x8x8
  shapeCasts_S1x1x8x8_S8x8 : S1x1x8x8.ShapeCasts S8x8
  slices_S15x2x1x8_S1x1x1x8_0_0_0_0 : S15x2x1x8.Slices ![0, 0, 0, 0] S1x1x1x8
  shapeCasts_S1x1x1x8_S1x8 : S1x1x1x8.ShapeCasts S1x8
  slices_S15x2x1_S1x1x1_0_0_0 : S15x2x1.Slices ![0, 0, 0] S1x1x1
  shapeCasts_S1x1x1_S1 : S1x1x1.ShapeCasts S1
  transposes_S8x1_S1x8_1_0 : S8x1.Transposes [1, 0] S1x8
  bcast_S8_S1x8_1 : S8.BroadcastsInDim S1x8 (![1] : Fin 1 → Fin S1x8.rank)
  bcast_S1x8_S524288x8_0_1 : S1x8.BroadcastsInDim S524288x8 (![0, 1] : Fin 2 → Fin S524288x8.rank)
  bcast_S_S524288x8 : S_.BroadcastsInDim S524288x8 (![] : Fin 0 → Fin S524288x8.rank)
  transposes_S8x8_S8x8_1_0 : S8x8.Transposes [1, 0] S8x8
  transposes_S1x8_S8x1_1_0 : S1x8.Transposes [1, 0] S8x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  slices_S15x2x8x1_S1x1x8x1_0_1_0_0 : S15x2x8x1.Slices ![0, 1, 0, 0] S1x1x8x1
  slices_S15x2x8_S1x1x8_0_1_0 : S15x2x8.Slices ![0, 1, 0] S1x1x8
  slices_S15x2x8x8_S1x1x8x8_0_1_0_0 : S15x2x8x8.Slices ![0, 1, 0, 0] S1x1x8x8
  slices_S15x2x1x8_S1x1x1x8_0_1_0_0 : S15x2x1x8.Slices ![0, 1, 0, 0] S1x1x1x8
  slices_S15x2x1_S1x1x1_0_1_0 : S15x2x1.Slices ![0, 1, 0] S1x1x1
  reducesTo_S524288x1_S524288_d1 : S524288x1.ReducesTo [1] S524288
  h_S_ : 0 < S_.numel
  concatenates_S524288x1_S524288x1_S524288x2_d1 : Shape.Concatenates [S524288x1, S524288x1] S524288x2 1
  slices_S14_S1_0 : S14.Slices ![0] S1
  shapeCasts_S1_S_ : S1.ShapeCasts S_
  bcast_S_S524288x2 : S_.BroadcastsInDim S524288x2 (![] : Fin 0 → Fin S524288x2.rank)
  slices_S15x2x8x1_S1x1x8x1_1_0_0_0 : S15x2x8x1.Slices ![1, 0, 0, 0] S1x1x8x1
  slices_S15x2x8_S1x1x8_1_0_0 : S15x2x8.Slices ![1, 0, 0] S1x1x8
  slices_S15x2x8x8_S1x1x8x8_1_0_0_0 : S15x2x8x8.Slices ![1, 0, 0, 0] S1x1x8x8
  slices_S15x2x1x8_S1x1x1x8_1_0_0_0 : S15x2x1x8.Slices ![1, 0, 0, 0] S1x1x1x8
  slices_S15x2x1_S1x1x1_1_0_0 : S15x2x1.Slices ![1, 0, 0] S1x1x1
  slices_S15x2x8x1_S1x1x8x1_1_1_0_0 : S15x2x8x1.Slices ![1, 1, 0, 0] S1x1x8x1
  slices_S15x2x8_S1x1x8_1_1_0 : S15x2x8.Slices ![1, 1, 0] S1x1x8
  slices_S15x2x8x8_S1x1x8x8_1_1_0_0 : S15x2x8x8.Slices ![1, 1, 0, 0] S1x1x8x8
  slices_S15x2x1x8_S1x1x1x8_1_1_0_0 : S15x2x1x8.Slices ![1, 1, 0, 0] S1x1x1x8
  slices_S15x2x1_S1x1x1_1_1_0 : S15x2x1.Slices ![1, 1, 0] S1x1x1
  slices_S14_S1_1 : S14.Slices ![1] S1
  slices_S15x2x8x1_S1x1x8x1_2_0_0_0 : S15x2x8x1.Slices ![2, 0, 0, 0] S1x1x8x1
  slices_S15x2x8_S1x1x8_2_0_0 : S15x2x8.Slices ![2, 0, 0] S1x1x8
  slices_S15x2x8x8_S1x1x8x8_2_0_0_0 : S15x2x8x8.Slices ![2, 0, 0, 0] S1x1x8x8
  slices_S15x2x1x8_S1x1x1x8_2_0_0_0 : S15x2x1x8.Slices ![2, 0, 0, 0] S1x1x1x8
  slices_S15x2x1_S1x1x1_2_0_0 : S15x2x1.Slices ![2, 0, 0] S1x1x1
  slices_S15x2x8x1_S1x1x8x1_2_1_0_0 : S15x2x8x1.Slices ![2, 1, 0, 0] S1x1x8x1
  slices_S15x2x8_S1x1x8_2_1_0 : S15x2x8.Slices ![2, 1, 0] S1x1x8
  slices_S15x2x8x8_S1x1x8x8_2_1_0_0 : S15x2x8x8.Slices ![2, 1, 0, 0] S1x1x8x8
  slices_S15x2x1x8_S1x1x1x8_2_1_0_0 : S15x2x1x8.Slices ![2, 1, 0, 0] S1x1x1x8
  slices_S15x2x1_S1x1x1_2_1_0 : S15x2x1.Slices ![2, 1, 0] S1x1x1
  slices_S14_S1_2 : S14.Slices ![2] S1
  slices_S15x2x8x1_S1x1x8x1_3_0_0_0 : S15x2x8x1.Slices ![3, 0, 0, 0] S1x1x8x1
  slices_S15x2x8_S1x1x8_3_0_0 : S15x2x8.Slices ![3, 0, 0] S1x1x8
  slices_S15x2x8x8_S1x1x8x8_3_0_0_0 : S15x2x8x8.Slices ![3, 0, 0, 0] S1x1x8x8
  slices_S15x2x1x8_S1x1x1x8_3_0_0_0 : S15x2x1x8.Slices ![3, 0, 0, 0] S1x1x1x8
  slices_S15x2x1_S1x1x1_3_0_0 : S15x2x1.Slices ![3, 0, 0] S1x1x1
  slices_S15x2x8x1_S1x1x8x1_3_1_0_0 : S15x2x8x1.Slices ![3, 1, 0, 0] S1x1x8x1
  slices_S15x2x8_S1x1x8_3_1_0 : S15x2x8.Slices ![3, 1, 0] S1x1x8
  slices_S15x2x8x8_S1x1x8x8_3_1_0_0 : S15x2x8x8.Slices ![3, 1, 0, 0] S1x1x8x8
  slices_S15x2x1x8_S1x1x1x8_3_1_0_0 : S15x2x1x8.Slices ![3, 1, 0, 0] S1x1x1x8
  slices_S15x2x1_S1x1x1_3_1_0 : S15x2x1.Slices ![3, 1, 0] S1x1x1
  slices_S14_S1_3 : S14.Slices ![3] S1
  slices_S15x2x8x1_S1x1x8x1_4_0_0_0 : S15x2x8x1.Slices ![4, 0, 0, 0] S1x1x8x1
  slices_S15x2x8_S1x1x8_4_0_0 : S15x2x8.Slices ![4, 0, 0] S1x1x8
  slices_S15x2x8x8_S1x1x8x8_4_0_0_0 : S15x2x8x8.Slices ![4, 0, 0, 0] S1x1x8x8
  slices_S15x2x1x8_S1x1x1x8_4_0_0_0 : S15x2x1x8.Slices ![4, 0, 0, 0] S1x1x1x8
  slices_S15x2x1_S1x1x1_4_0_0 : S15x2x1.Slices ![4, 0, 0] S1x1x1
  slices_S15x2x8x1_S1x1x8x1_4_1_0_0 : S15x2x8x1.Slices ![4, 1, 0, 0] S1x1x8x1
  slices_S15x2x8_S1x1x8_4_1_0 : S15x2x8.Slices ![4, 1, 0] S1x1x8
  slices_S15x2x8x8_S1x1x8x8_4_1_0_0 : S15x2x8x8.Slices ![4, 1, 0, 0] S1x1x8x8
  slices_S15x2x1x8_S1x1x1x8_4_1_0_0 : S15x2x1x8.Slices ![4, 1, 0, 0] S1x1x1x8
  slices_S15x2x1_S1x1x1_4_1_0 : S15x2x1.Slices ![4, 1, 0] S1x1x1
  slices_S14_S1_4 : S14.Slices ![4] S1
  slices_S15x2x8x1_S1x1x8x1_5_0_0_0 : S15x2x8x1.Slices ![5, 0, 0, 0] S1x1x8x1
  slices_S15x2x8_S1x1x8_5_0_0 : S15x2x8.Slices ![5, 0, 0] S1x1x8
  slices_S15x2x8x8_S1x1x8x8_5_0_0_0 : S15x2x8x8.Slices ![5, 0, 0, 0] S1x1x8x8
  slices_S15x2x1x8_S1x1x1x8_5_0_0_0 : S15x2x1x8.Slices ![5, 0, 0, 0] S1x1x1x8
  slices_S15x2x1_S1x1x1_5_0_0 : S15x2x1.Slices ![5, 0, 0] S1x1x1
  slices_S15x2x8x1_S1x1x8x1_5_1_0_0 : S15x2x8x1.Slices ![5, 1, 0, 0] S1x1x8x1
  slices_S15x2x8_S1x1x8_5_1_0 : S15x2x8.Slices ![5, 1, 0] S1x1x8
  slices_S15x2x8x8_S1x1x8x8_5_1_0_0 : S15x2x8x8.Slices ![5, 1, 0, 0] S1x1x8x8
  slices_S15x2x1x8_S1x1x1x8_5_1_0_0 : S15x2x1x8.Slices ![5, 1, 0, 0] S1x1x1x8
  slices_S15x2x1_S1x1x1_5_1_0 : S15x2x1.Slices ![5, 1, 0] S1x1x1
  slices_S14_S1_5 : S14.Slices ![5] S1
  slices_S15x2x8x1_S1x1x8x1_6_0_0_0 : S15x2x8x1.Slices ![6, 0, 0, 0] S1x1x8x1
  slices_S15x2x8_S1x1x8_6_0_0 : S15x2x8.Slices ![6, 0, 0] S1x1x8
  slices_S15x2x8x8_S1x1x8x8_6_0_0_0 : S15x2x8x8.Slices ![6, 0, 0, 0] S1x1x8x8
  slices_S15x2x1x8_S1x1x1x8_6_0_0_0 : S15x2x1x8.Slices ![6, 0, 0, 0] S1x1x1x8
  slices_S15x2x1_S1x1x1_6_0_0 : S15x2x1.Slices ![6, 0, 0] S1x1x1
  slices_S15x2x8x1_S1x1x8x1_6_1_0_0 : S15x2x8x1.Slices ![6, 1, 0, 0] S1x1x8x1
  slices_S15x2x8_S1x1x8_6_1_0 : S15x2x8.Slices ![6, 1, 0] S1x1x8
  slices_S15x2x8x8_S1x1x8x8_6_1_0_0 : S15x2x8x8.Slices ![6, 1, 0, 0] S1x1x8x8
  slices_S15x2x1x8_S1x1x1x8_6_1_0_0 : S15x2x1x8.Slices ![6, 1, 0, 0] S1x1x1x8
  slices_S15x2x1_S1x1x1_6_1_0 : S15x2x1.Slices ![6, 1, 0] S1x1x1
  slices_S14_S1_6 : S14.Slices ![6] S1
  slices_S15x2x8x1_S1x1x8x1_7_0_0_0 : S15x2x8x1.Slices ![7, 0, 0, 0] S1x1x8x1
  slices_S15x2x8_S1x1x8_7_0_0 : S15x2x8.Slices ![7, 0, 0] S1x1x8
  slices_S15x2x8x8_S1x1x8x8_7_0_0_0 : S15x2x8x8.Slices ![7, 0, 0, 0] S1x1x8x8
  slices_S15x2x1x8_S1x1x1x8_7_0_0_0 : S15x2x1x8.Slices ![7, 0, 0, 0] S1x1x1x8
  slices_S15x2x1_S1x1x1_7_0_0 : S15x2x1.Slices ![7, 0, 0] S1x1x1
  slices_S15x2x8x1_S1x1x8x1_7_1_0_0 : S15x2x8x1.Slices ![7, 1, 0, 0] S1x1x8x1
  slices_S15x2x8_S1x1x8_7_1_0 : S15x2x8.Slices ![7, 1, 0] S1x1x8
  slices_S15x2x8x8_S1x1x8x8_7_1_0_0 : S15x2x8x8.Slices ![7, 1, 0, 0] S1x1x8x8
  slices_S15x2x1x8_S1x1x1x8_7_1_0_0 : S15x2x1x8.Slices ![7, 1, 0, 0] S1x1x1x8
  slices_S15x2x1_S1x1x1_7_1_0 : S15x2x1.Slices ![7, 1, 0] S1x1x1
  slices_S14_S1_7 : S14.Slices ![7] S1
  slices_S15x2x8x1_S1x1x8x1_8_0_0_0 : S15x2x8x1.Slices ![8, 0, 0, 0] S1x1x8x1
  slices_S15x2x8_S1x1x8_8_0_0 : S15x2x8.Slices ![8, 0, 0] S1x1x8
  slices_S15x2x8x8_S1x1x8x8_8_0_0_0 : S15x2x8x8.Slices ![8, 0, 0, 0] S1x1x8x8
  slices_S15x2x1x8_S1x1x1x8_8_0_0_0 : S15x2x1x8.Slices ![8, 0, 0, 0] S1x1x1x8
  slices_S15x2x1_S1x1x1_8_0_0 : S15x2x1.Slices ![8, 0, 0] S1x1x1
  slices_S15x2x8x1_S1x1x8x1_8_1_0_0 : S15x2x8x1.Slices ![8, 1, 0, 0] S1x1x8x1
  slices_S15x2x8_S1x1x8_8_1_0 : S15x2x8.Slices ![8, 1, 0] S1x1x8
  slices_S15x2x8x8_S1x1x8x8_8_1_0_0 : S15x2x8x8.Slices ![8, 1, 0, 0] S1x1x8x8
  slices_S15x2x1x8_S1x1x1x8_8_1_0_0 : S15x2x1x8.Slices ![8, 1, 0, 0] S1x1x1x8
  slices_S15x2x1_S1x1x1_8_1_0 : S15x2x1.Slices ![8, 1, 0] S1x1x1
  slices_S14_S1_8 : S14.Slices ![8] S1
  slices_S15x2x8x1_S1x1x8x1_9_0_0_0 : S15x2x8x1.Slices ![9, 0, 0, 0] S1x1x8x1
  slices_S15x2x8_S1x1x8_9_0_0 : S15x2x8.Slices ![9, 0, 0] S1x1x8
  slices_S15x2x8x8_S1x1x8x8_9_0_0_0 : S15x2x8x8.Slices ![9, 0, 0, 0] S1x1x8x8
  slices_S15x2x1x8_S1x1x1x8_9_0_0_0 : S15x2x1x8.Slices ![9, 0, 0, 0] S1x1x1x8
  slices_S15x2x1_S1x1x1_9_0_0 : S15x2x1.Slices ![9, 0, 0] S1x1x1
  slices_S15x2x8x1_S1x1x8x1_9_1_0_0 : S15x2x8x1.Slices ![9, 1, 0, 0] S1x1x8x1
  slices_S15x2x8_S1x1x8_9_1_0 : S15x2x8.Slices ![9, 1, 0] S1x1x8
  slices_S15x2x8x8_S1x1x8x8_9_1_0_0 : S15x2x8x8.Slices ![9, 1, 0, 0] S1x1x8x8
  slices_S15x2x1x8_S1x1x1x8_9_1_0_0 : S15x2x1x8.Slices ![9, 1, 0, 0] S1x1x1x8
  slices_S15x2x1_S1x1x1_9_1_0 : S15x2x1.Slices ![9, 1, 0] S1x1x1
  slices_S14_S1_9 : S14.Slices ![9] S1
  slices_S15x2x8x1_S1x1x8x1_10_0_0_0 : S15x2x8x1.Slices ![10, 0, 0, 0] S1x1x8x1
  slices_S15x2x8_S1x1x8_10_0_0 : S15x2x8.Slices ![10, 0, 0] S1x1x8
  slices_S15x2x8x8_S1x1x8x8_10_0_0_0 : S15x2x8x8.Slices ![10, 0, 0, 0] S1x1x8x8
  slices_S15x2x1x8_S1x1x1x8_10_0_0_0 : S15x2x1x8.Slices ![10, 0, 0, 0] S1x1x1x8
  slices_S15x2x1_S1x1x1_10_0_0 : S15x2x1.Slices ![10, 0, 0] S1x1x1
  slices_S15x2x8x1_S1x1x8x1_10_1_0_0 : S15x2x8x1.Slices ![10, 1, 0, 0] S1x1x8x1
  slices_S15x2x8_S1x1x8_10_1_0 : S15x2x8.Slices ![10, 1, 0] S1x1x8
  slices_S15x2x8x8_S1x1x8x8_10_1_0_0 : S15x2x8x8.Slices ![10, 1, 0, 0] S1x1x8x8
  slices_S15x2x1x8_S1x1x1x8_10_1_0_0 : S15x2x1x8.Slices ![10, 1, 0, 0] S1x1x1x8
  slices_S15x2x1_S1x1x1_10_1_0 : S15x2x1.Slices ![10, 1, 0] S1x1x1
  slices_S14_S1_10 : S14.Slices ![10] S1
  slices_S15x2x8x1_S1x1x8x1_11_0_0_0 : S15x2x8x1.Slices ![11, 0, 0, 0] S1x1x8x1
  slices_S15x2x8_S1x1x8_11_0_0 : S15x2x8.Slices ![11, 0, 0] S1x1x8
  slices_S15x2x8x8_S1x1x8x8_11_0_0_0 : S15x2x8x8.Slices ![11, 0, 0, 0] S1x1x8x8
  slices_S15x2x1x8_S1x1x1x8_11_0_0_0 : S15x2x1x8.Slices ![11, 0, 0, 0] S1x1x1x8
  slices_S15x2x1_S1x1x1_11_0_0 : S15x2x1.Slices ![11, 0, 0] S1x1x1
  slices_S15x2x8x1_S1x1x8x1_11_1_0_0 : S15x2x8x1.Slices ![11, 1, 0, 0] S1x1x8x1
  slices_S15x2x8_S1x1x8_11_1_0 : S15x2x8.Slices ![11, 1, 0] S1x1x8
  slices_S15x2x8x8_S1x1x8x8_11_1_0_0 : S15x2x8x8.Slices ![11, 1, 0, 0] S1x1x8x8
  slices_S15x2x1x8_S1x1x1x8_11_1_0_0 : S15x2x1x8.Slices ![11, 1, 0, 0] S1x1x1x8
  slices_S15x2x1_S1x1x1_11_1_0 : S15x2x1.Slices ![11, 1, 0] S1x1x1
  slices_S14_S1_11 : S14.Slices ![11] S1
  slices_S15x2x8x1_S1x1x8x1_12_0_0_0 : S15x2x8x1.Slices ![12, 0, 0, 0] S1x1x8x1
  slices_S15x2x8_S1x1x8_12_0_0 : S15x2x8.Slices ![12, 0, 0] S1x1x8
  slices_S15x2x8x8_S1x1x8x8_12_0_0_0 : S15x2x8x8.Slices ![12, 0, 0, 0] S1x1x8x8
  slices_S15x2x1x8_S1x1x1x8_12_0_0_0 : S15x2x1x8.Slices ![12, 0, 0, 0] S1x1x1x8
  slices_S15x2x1_S1x1x1_12_0_0 : S15x2x1.Slices ![12, 0, 0] S1x1x1
  slices_S15x2x8x1_S1x1x8x1_12_1_0_0 : S15x2x8x1.Slices ![12, 1, 0, 0] S1x1x8x1
  slices_S15x2x8_S1x1x8_12_1_0 : S15x2x8.Slices ![12, 1, 0] S1x1x8
  slices_S15x2x8x8_S1x1x8x8_12_1_0_0 : S15x2x8x8.Slices ![12, 1, 0, 0] S1x1x8x8
  slices_S15x2x1x8_S1x1x1x8_12_1_0_0 : S15x2x1x8.Slices ![12, 1, 0, 0] S1x1x1x8
  slices_S15x2x1_S1x1x1_12_1_0 : S15x2x1.Slices ![12, 1, 0] S1x1x1
  slices_S14_S1_12 : S14.Slices ![12] S1
  slices_S15x2x8x1_S1x1x8x1_13_0_0_0 : S15x2x8x1.Slices ![13, 0, 0, 0] S1x1x8x1
  slices_S15x2x8_S1x1x8_13_0_0 : S15x2x8.Slices ![13, 0, 0] S1x1x8
  slices_S15x2x8x8_S1x1x8x8_13_0_0_0 : S15x2x8x8.Slices ![13, 0, 0, 0] S1x1x8x8
  slices_S15x2x1x8_S1x1x1x8_13_0_0_0 : S15x2x1x8.Slices ![13, 0, 0, 0] S1x1x1x8
  slices_S15x2x1_S1x1x1_13_0_0 : S15x2x1.Slices ![13, 0, 0] S1x1x1
  slices_S15x2x8x1_S1x1x8x1_13_1_0_0 : S15x2x8x1.Slices ![13, 1, 0, 0] S1x1x8x1
  slices_S15x2x8_S1x1x8_13_1_0 : S15x2x8.Slices ![13, 1, 0] S1x1x8
  slices_S15x2x8x8_S1x1x8x8_13_1_0_0 : S15x2x8x8.Slices ![13, 1, 0, 0] S1x1x8x8
  slices_S15x2x1x8_S1x1x1x8_13_1_0_0 : S15x2x1x8.Slices ![13, 1, 0, 0] S1x1x1x8
  slices_S15x2x1_S1x1x1_13_1_0 : S15x2x1.Slices ![13, 1, 0] S1x1x1
  slices_S14_S1_13 : S14.Slices ![13] S1
  slices_S15x2x8x1_S1x1x8x1_14_0_0_0 : S15x2x8x1.Slices ![14, 0, 0, 0] S1x1x8x1
  slices_S15x2x8_S1x1x8_14_0_0 : S15x2x8.Slices ![14, 0, 0] S1x1x8
  slices_S15x2x8x8_S1x1x8x8_14_0_0_0 : S15x2x8x8.Slices ![14, 0, 0, 0] S1x1x8x8
  slices_S15x2x1x8_S1x1x1x8_14_0_0_0 : S15x2x1x8.Slices ![14, 0, 0, 0] S1x1x1x8
  slices_S15x2x1_S1x1x1_14_0_0 : S15x2x1.Slices ![14, 0, 0] S1x1x1
  slices_S15x2x8x1_S1x1x8x1_14_1_0_0 : S15x2x8x1.Slices ![14, 1, 0, 0] S1x1x8x1
  slices_S15x2x8_S1x1x8_14_1_0 : S15x2x8.Slices ![14, 1, 0] S1x1x8
  slices_S15x2x8x8_S1x1x8x8_14_1_0_0 : S15x2x8x8.Slices ![14, 1, 0, 0] S1x1x8x8
  slices_S15x2x1x8_S1x1x1x8_14_1_0_0 : S15x2x1x8.Slices ![14, 1, 0, 0] S1x1x1x8
  slices_S15x2x1_S1x1x1_14_1_0 : S15x2x1.Slices ![14, 1, 0] S1x1x1
  dot_S524288x1_S1x8_S524288x8_1_0_0_1_n_n_wf : DotDims.WF S524288x1 S1x8 S524288x8 [1] [0] [0] [1] [] []
  dot_S524288x8_S8x8_S524288x8_1_0_0_1_n_n_wf : DotDims.WF S524288x8 S8x8 S524288x8 [1] [0] [0] [1] [] []
  dot_S524288x8_S8x1_S524288x1_1_0_0_1_n_n_wf : DotDims.WF S524288x8 S8x1 S524288x1 [1] [0] [0] [1] [] []

variable [Facts₀]

def dot_S524288x1_S1x8_S524288x8_1_0_0_1_n_n : DotDims S524288x1 S1x8 S524288x8 where
  lhsContracting := [1]
  rhsContracting := [0]
  lhsNonContracting := [0]
  rhsNonContracting := [1]
  lhsBatch := []
  rhsBatch := []
  wf := dot_S524288x1_S1x8_S524288x8_1_0_0_1_n_n_wf
def dot_S524288x8_S8x8_S524288x8_1_0_0_1_n_n : DotDims S524288x8 S8x8 S524288x8 where
  lhsContracting := [1]
  rhsContracting := [0]
  lhsNonContracting := [0]
  rhsNonContracting := [1]
  lhsBatch := []
  rhsBatch := []
  wf := dot_S524288x8_S8x8_S524288x8_1_0_0_1_n_n_wf
def dot_S524288x8_S8x1_S524288x1_1_0_0_1_n_n : DotDims S524288x8 S8x1 S524288x1 where
  lhsContracting := [1]
  rhsContracting := [0]
  lhsNonContracting := [0]
  rhsNonContracting := [1]
  lhsBatch := []
  rhsBatch := []
  wf := dot_S524288x8_S8x1_S524288x1_1_0_0_1_n_n_wf

class Facts : Prop extends Facts₀ where

variable [Facts]
-- ==== Proof.Spec.lean ====
/-
  The coupling flow, for one batch row over the extended reals. A net is a perceptron 1 → 8 → 8 → 8 → 8 → 1 with the
  leaky rectifier (slope the word 0x3C23D70A). A layer maps the state (xI, xII, ld) to (xI, exp (s xI) · xII + t xI, ld + s xI)
  and, except the last, exchanges the two coordinates when its swap word is positive. Fifteen layers, fourteen swap words.
-/
import Idealize.ShloMosaic.PureOps.Ideal
import Idealize.ShloMosaic.PureOps.Ideal.Laws
import Idealize.ShloMosaic.Lib.ValueIdx

noncomputable section

namespace Cert.Flow

open Idealize.ShloMosaic Idealize.ShloMosaic.ValueIdx

structure Net where
  w0 : Fin 8 → EReal
  b0 : Fin 8 → EReal
  w1 : Fin 8 → Fin 8 → EReal
  b1 : Fin 8 → EReal
  w2 : Fin 8 → Fin 8 → EReal
  b2 : Fin 8 → EReal
  w3 : Fin 8 → Fin 8 → EReal
  b3 : Fin 8 → EReal
  w4 : Fin 8 → EReal
  b4 : EReal

def zeroE : EReal := Ideal.ofBits .f32 0x00000000#32
def slopeE : EReal := Ideal.ofBits .f32 0x3C23D70A#32

def act (x : EReal) : EReal := Scalar.select (Ideal.cmp .oge x zeroE) x (slopeE * x)

def first (n : Net) (x : EReal) : Fin 8 → EReal := fun j => act (n.w0 j * x + n.b0 j)

def hid (w : Fin 8 → Fin 8 → EReal) (b : Fin 8 → EReal) (h : Fin 8 → EReal) : Fin 8 → EReal :=
  fun j => act ((∑ k, w j k * h k) + b j)

def mlp (n : Net) (x : EReal) : EReal :=
  (∑ k, n.w4 k * hid n.w3 n.b3 (hid n.w2 n.b2 (hid n.w1 n.b1 (first n x))) k) + n.b4

structure St where
  xI : EReal
  xII : EReal
  ld : EReal

def yOf (s t : Net) (st : St) : EReal := Ideal.exp (mlp s st.xI) * st.xII + mlp t st.xI

def step (s t : Net) (sw : BitVec 1) (st : St) : St :=
  ⟨Scalar.select sw (yOf s t st) st.xI, Scalar.select sw st.xI (yOf s t st), st.ld + mlp s st.xI⟩

def last (s t : Net) (st : St) : St := ⟨st.xI, yOf s t st, st.ld + mlp s st.xI⟩

structure Params where
  W0 : (⟨4, ![15, 2, 8, 1]⟩ : Shape).Idx → EReal
  B0 : (⟨3, ![15, 2, 8]⟩ : Shape).Idx → EReal
  W1 : (⟨4, ![15, 2, 8, 8]⟩ : Shape).Idx → EReal
  B1 : (⟨3, ![15, 2, 8]⟩ : Shape).Idx → EReal
  W2 : (⟨4, ![15, 2, 8, 8]⟩ : Shape).Idx → EReal
  B2 : (⟨3, ![15, 2, 8]⟩ : Shape).Idx → EReal
  W3 : (⟨4, ![15, 2, 8, 8]⟩ : Shape).Idx → EReal
  B3 : (⟨3, ![15, 2, 8]⟩ : Shape).Idx → EReal
  W4 : (⟨4, ![15, 2, 1, 8]⟩ : Shape).Idx → EReal
  B4 : (⟨3, ![15, 2, 1]⟩ : Shape).Idx → EReal
  swaps : (⟨1, ![14]⟩ : Shape).Idx → BitVec 32

def net (A : Params) (i : Fin 15) (c : Fin 2) : Net where
  w0 := fun j => A.W0 (ix4 i c j (0 : Fin 1))
  b0 := fun j => A.B0 (ix3 i c j)
  w1 := fun j k => A.W1 (ix4 i c j k)
  b1 := fun j => A.B1 (ix3 i c j)
  w2 := fun j k => A.W2 (ix4 i c j k)
  b2 := fun j => A.B2 (ix3 i c j)
  w3 := fun j k => A.W3 (ix4 i c j k)
  b3 := fun j => A.B3 (ix3 i c j)
  w4 := fun k => A.W4 (ix4 i c (0 : Fin 1) k)
  b4 := A.B4 (ix3 i c (0 : Fin 1))

def swapBit (A : Params) (i : Fin 14) : BitVec 1 := Scalar.cmpi .sgt (A.swaps (ix1 i)) 0#32

def init (x0 x1 : EReal) : St := ⟨x0, x1, zeroE⟩

def stepAt (A : Params) (i : Fin 14) (st : St) : St :=
  step (net A i.castSucc 0) (net A i.castSucc 1) (swapBit A i) st

def run (A : Params) (st : St) : St :=
  last (net A 14 0) (net A 14 1)
    (stepAt A 13 (stepAt A 12 (stepAt A 11 (stepAt A 10 (stepAt A 9 (stepAt A 8 (stepAt A 7 (stepAt A 6
      (stepAt A 5 (stepAt A 4 (stepAt A 3 (stepAt A 2 (stepAt A 1 (stepAt A 0 st))))))))))))))

def outX (A : Params) (z : (⟨2, ![524288, 2]⟩ : Shape).Idx → EReal) : (⟨2, ![524288, 2]⟩ : Shape).Idx → EReal :=
  fun j => if (j 1).val = 0 then (run A (init (z (ix2 (j 0) (0 : Fin 2))) (z (ix2 (j 0) (1 : Fin 2))))).xI
    else (run A (init (z (ix2 (j 0) (0 : Fin 2))) (z (ix2 (j 0) (1 : Fin 2))))).xII

def outLd (A : Params) (z : (⟨2, ![524288, 2]⟩ : Shape).Idx → EReal) : (⟨1, ![524288]⟩ : Shape).Idx → EReal :=
  fun j => (run A (init (z (ix2 (j 0) (0 : Fin 2))) (z (ix2 (j 0) (1 : Fin 2))))).ld

end Cert.Flow

end
-- ==== Proof.KerDefs.lean ====
/-
  One grid point's body as fifteen layer functions on block vectors ([8, 32768] hidden tensors, a batch row per lane),
  for any float family: a hidden layer is W · h plus the bias along the lanes, rectified.
-/
import proofs.«405999_j47631187312975_2_alg».proof.Proof.Gen.KernelIdeal.Frame

set_option maxRecDepth 16384

noncomputable section

namespace Cert.KernelIdeal.Block

open Cert.KernelIdeal Cert.KernelIdeal.Gen Idealize.ShloMosaic Idealize.SL.Sem

variable {F : FTy → Type} [FloatOps F]

def kAct (a : FVec F S8x32768 .f32) : FVec F S8x32768 .f32 :=
  select (cmpf .oge a (broadcast S8x32768 (Scalar.ofBits .f32 0x00000000#32))) a
    (mulf (broadcast S8x32768 (Scalar.ofBits .f32 0x3C23D70A#32)) a)

def kBias (b : Vec F S1x1x8 .f32) : FVec F S8x32768 .f32 :=
  broadcastTo S8x32768 (shapeCast S8x1 (shapeCast S8 b shapeCasts_S1x1x8_S8) shapeCasts_S8_S8x1) broadcasts_S8x1_S8x32768

def kFirst (w0 : Vec F S1x1x8x1 .f32) (b0 : Vec F S1x1x8 .f32) (xI : FVec F S1x32768 .f32) : FVec F S8x32768 .f32 :=
  kAct (addf (mulf (broadcastTo S8x32768 (shapeCast S8x1 w0 shapeCasts_S1x1x8x1_S8x1) broadcasts_S8x1_S8x32768)
    (broadcastTo S8x32768 xI broadcasts_S1x32768_S8x32768)) (kBias b0))

def kHid (w : Vec F S1x1x8x8 .f32) (b : Vec F S1x1x8 .f32) (h : FVec F S8x32768 .f32) : FVec F S8x32768 .f32 :=
  kAct (addf (matmul dot_S8x8_S8x32768_S8x32768_1_0_0_1_n_n (some .fp32) (shapeCast S8x8 w shapeCasts_S1x1x8x8_S8x8) h
    (constant S8x32768 .f32 0x00000000#32)) (kBias b))

def kOut (w4 : Vec F S1x1x1x8 .f32) (b4 : Vec F S1x1x1 .f32) (h : FVec F S8x32768 .f32) : FVec F S1x32768 .f32 :=
  addf (matmul dot_S1x8_S8x32768_S1x32768_1_0_0_1_n_n (some .fp32) (shapeCast S1x8 w4 shapeCasts_S1x1x1x8_S1x8) h
    (constant S1x32768 .f32 0x00000000#32))
    (broadcastTo S1x32768 (shapeCast S1x1 (shapeCast S1 b4 shapeCasts_S1x1x1_S1) shapeCasts_S1_S1x1) broadcasts_S1x1_S1x32768)

structure KNet (F : FTy → Type) [FloatOps F] where
  w0 : Vec F S1x1x8x1 .f32
  b0 : Vec F S1x1x8 .f32
  w1 : Vec F S1x1x8x8 .f32
  b1 : Vec F S1x1x8 .f32
  w2 : Vec F S1x1x8x8 .f32
  b2 : Vec F S1x1x8 .f32
  w3 : Vec F S1x1x8x8 .f32
  b3 : Vec F S1x1x8 .f32
  w4 : Vec F S1x1x1x8 .f32
  b4 : Vec F S1x1x1 .f32

def kMlp (n : KNet F) (xI : FVec F S1x32768 .f32) : FVec F S1x32768 .f32 :=
  kOut n.w4 n.b4 (kHid n.w3 n.b3 (kHid n.w2 n.b2 (kHid n.w1 n.b1 (kFirst n.w0 n.b0 xI))))

structure KSt (F : FTy → Type) [FloatOps F] where
  xI : FVec F S1x32768 .f32
  xII : FVec F S1x32768 .f32
  ld : FVec F S1x32768 .f32

def kY (s t : KNet F) (st : KSt F) : FVec F S1x32768 .f32 :=
  addf (mulf (exp (kMlp s st.xI)) st.xII) (kMlp t st.xI)

def kStep (s t : KNet F) (w : Elt F .i32) (st : KSt F) : KSt F :=
  ⟨Scalar.select (Scalar.cmpi .sgt w 0#32) (kY s t st) st.xI,
   Scalar.select (Scalar.cmpi .sgt w 0#32) st.xI (kY s t st),
   addf st.ld (kMlp s st.xI)⟩

def kLast (s t : KNet F) (st : KSt F) : KSt F := ⟨st.xI, kY s t st, addf st.ld (kMlp s st.xI)⟩

section Loads

variable (c : Dev nD) (arg2 : Memref sig .tc .vmem S2x32768 .f32) (harg2 : arg2.IsWhole) (arg3 : Memref sig .tc .vmem S15x2x8x1 .f32) (harg3 : arg3.IsWhole) (arg4 : Memref sig .tc .vmem S15x2x8 .f32) (harg4 : arg4.IsWhole) (arg5 : Memref sig .tc .vmem S15x2x8x8 .f32) (harg5 : arg5.IsWhole) (arg6 : Memref sig .tc .vmem S15x2x8 .f32) (harg6 : arg6.IsWhole) (arg7 : Memref sig .tc .vmem S15x2x8x8 .f32) (harg7 : arg7.IsWhole) (arg8 : Memref sig .tc .vmem S15x2x8 .f32) (harg8 : arg8.IsWhole) (arg9 : Memref sig .tc .vmem S15x2x8x8 .f32) (harg9 : arg9.IsWhole) (arg10 : Memref sig .tc .vmem S15x2x8 .f32) (harg10 : arg10.IsWhole) (arg11 : Memref sig .tc .vmem S15x2x1x8 .f32) (harg11 : arg11.IsWhole) (arg12 : Memref sig .tc .vmem S15x2x1 .f32) (harg12 : arg12.IsWhole)
    (x0 : Vec F S2x32768 .f32) (x1 : Vec F S15x2x8x1 .f32) (x2 : Vec F S15x2x8 .f32) (x3 : Vec F S15x2x8x8 .f32) (x4 : Vec F S15x2x8 .f32) (x5 : Vec F S15x2x8x8 .f32) (x6 : Vec F S15x2x8 .f32) (x7 : Vec F S15x2x8x8 .f32) (x8 : Vec F S15x2x8 .f32) (x9 : Vec F S15x2x1x8 .f32) (x10 : Vec F S15x2x1 .f32) (xt0 : TbBuf0 (F := F) c tbM0_0)

theorem inbW0 (i : Fin 15) (k : Fin 2) : ∀ a, (![i.val, k.val, 0, 0] : Fin 4 → Nat) a + S1x1x8x1.size a ≤ S15x2x8x1.size a := by
  intro a; have := i.isLt; have := k.isLt
  match a with
  | ⟨0, _⟩ => show i.val + 1 ≤ 15; omega
  | ⟨1, _⟩ => show k.val + 1 ≤ 2; omega
  | ⟨2, _⟩ => show 0 + 8 ≤ 8; omega
  | ⟨3, _⟩ => show 0 + 1 ≤ 1; omega

theorem inbB (i : Fin 15) (k : Fin 2) : ∀ a, (![i.val, k.val, 0] : Fin 3 → Nat) a + S1x1x8.size a ≤ S15x2x8.size a := by
  intro a; have := i.isLt; have := k.isLt
  match a with
  | ⟨0, _⟩ => show i.val + 1 ≤ 15; omega
  | ⟨1, _⟩ => show k.val + 1 ≤ 2; omega
  | ⟨2, _⟩ => show 0 + 8 ≤ 8; omega

theorem inbW (i : Fin 15) (k : Fin 2) : ∀ a, (![i.val, k.val, 0, 0] : Fin 4 → Nat) a + S1x1x8x8.size a ≤ S15x2x8x8.size a := by
  intro a; have := i.isLt; have := k.isLt
  match a with
  | ⟨0, _⟩ => show i.val + 1 ≤ 15; omega
  | ⟨1, _⟩ => show k.val + 1 ≤ 2; omega
  | ⟨2, _⟩ => show 0 + 8 ≤ 8; omega
  | ⟨3, _⟩ => show 0 + 8 ≤ 8; omega

theorem inbW4 (i : Fin 15) (k : Fin 2) : ∀ a, (![i.val, k.val, 0, 0] : Fin 4 → Nat) a + S1x1x1x8.size a ≤ S15x2x1x8.size a := by
  intro a; have := i.isLt; have := k.isLt
  match a with
  | ⟨0, _⟩ => show i.val + 1 ≤ 15; omega
  | ⟨1, _⟩ => show k.val + 1 ≤ 2; omega
  | ⟨2, _⟩ => show 0 + 1 ≤ 1; omega
  | ⟨3, _⟩ => show 0 + 8 ≤ 8; omega

theorem inbB4 (i : Fin 15) (k : Fin 2) : ∀ a, (![i.val, k.val, 0] : Fin 3 → Nat) a + S1x1x1.size a ≤ S15x2x1.size a := by
  intro a; have := i.isLt; have := k.isLt
  match a with
  | ⟨0, _⟩ => show i.val + 1 ≤ 15; omega
  | ⟨1, _⟩ => show k.val + 1 ≤ 2; omega
  | ⟨2, _⟩ => show 0 + 1 ≤ 1; omega

theorem inbSw (i : Fin 14) : ∀ a, (![i.val] : Fin 1 → Nat) a + S1.size a ≤ S14.size a := by
  intro a; have := i.isLt
  match a with
  | ⟨0, _⟩ => show i.val + 1 ≤ 14; omega

def kNet (i : Fin 15) (k : Fin 2) : KNet F where
  w0 := View.readAt (Elt F) arg3.view (Rect.unit (s := S15x2x8x1) ![i.val, k.val, 0, 0] S1x1x8x1.size (inbW0 i k)).toLoadRect (harg3.unread x1)
  b0 := View.readAt (Elt F) arg4.view (Rect.unit (s := S15x2x8) ![i.val, k.val, 0] S1x1x8.size (inbB i k)).toLoadRect (harg4.unread x2)
  w1 := View.readAt (Elt F) arg5.view (Rect.unit (s := S15x2x8x8) ![i.val, k.val, 0, 0] S1x1x8x8.size (inbW i k)).toLoadRect (harg5.unread x3)
  b1 := View.readAt (Elt F) arg6.view (Rect.unit (s := S15x2x8) ![i.val, k.val, 0] S1x1x8.size (inbB i k)).toLoadRect (harg6.unread x4)
  w2 := View.readAt (Elt F) arg7.view (Rect.unit (s := S15x2x8x8) ![i.val, k.val, 0, 0] S1x1x8x8.size (inbW i k)).toLoadRect (harg7.unread x5)
  b2 := View.readAt (Elt F) arg8.view (Rect.unit (s := S15x2x8) ![i.val, k.val, 0] S1x1x8.size (inbB i k)).toLoadRect (harg8.unread x6)
  w3 := View.readAt (Elt F) arg9.view (Rect.unit (s := S15x2x8x8) ![i.val, k.val, 0, 0] S1x1x8x8.size (inbW i k)).toLoadRect (harg9.unread x7)
  b3 := View.readAt (Elt F) arg10.view (Rect.unit (s := S15x2x8) ![i.val, k.val, 0] S1x1x8.size (inbB i k)).toLoadRect (harg10.unread x8)
  w4 := View.readAt (Elt F) arg11.view (Rect.unit (s := S15x2x1x8) ![i.val, k.val, 0, 0] S1x1x1x8.size (inbW4 i k)).toLoadRect (harg11.unread x9)
  b4 := View.readAt (Elt F) arg12.view (Rect.unit (s := S15x2x1) ![i.val, k.val, 0] S1x1x1.size (inbB4 i k)).toLoadRect (harg12.unread x10)

def kSw (i : Fin 14) : Elt F .i32 :=
  View.readAt (Elt F) tbM0_0.view (Rect.unit (s := S14) ![i.val] S1.size (inbSw i)).toLoadRect xt0
    (Shape.Idx.first (numel1_S1.symm ▸ Nat.one_pos))

def kInit : KSt F :=
  ⟨shapeCast S1x32768 (View.readAt (Elt F) arg2.view (Rect.unit (s := S2x32768) ![0, 0] S1x32768.size inb_S2x32768_S1x32768_0_0).toLoadRect (harg2.unread x0)) shapeCasts_S1x32768_S1x32768,
   shapeCast S1x32768 (View.readAt (Elt F) arg2.view (Rect.unit (s := S2x32768) ![1, 0] S1x32768.size inb_S2x32768_S1x32768_1_0).toLoadRect (harg2.unread x0)) shapeCasts_S1x32768_S1x32768,
   broadcast S1x32768 (Scalar.ofBits .f32 0x00000000#32)⟩

/-- Fifteen layers over the nets `n` and the swap words `w`, from the state `s`. -/
def kChain (n : Fin 15 → Fin 2 → KNet F) (w : Fin 14 → Elt F .i32) (s : KSt F) : KSt F :=
  kLast (n 14 0) (n 14 1) (kStep (n 13 0) (n 13 1) (w 13) (kStep (n 12 0) (n 12 1) (w 12) (kStep (n 11 0) (n 11 1) (w 11) (kStep (n 10 0) (n 10 1) (w 10) (kStep (n 9 0) (n 9 1) (w 9) (kStep (n 8 0) (n 8 1) (w 8) (kStep (n 7 0) (n 7 1) (w 7) (kStep (n 6 0) (n 6 1) (w 6) (kStep (n 5 0) (n 5 1) (w 5) (kStep (n 4 0) (n 4 1) (w 4) (kStep (n 3 0) (n 3 1) (w 3) (kStep (n 2 0) (n 2 1) (w 2) (kStep (n 1 0) (n 1 1) (w 1) (kStep (n 0 0) (n 0 1) (w 0) s))))))))))))))

def kFinal : KSt F := kChain (kNet arg3 harg3 arg4 harg4 arg5 harg5 arg6 harg6 arg7 harg7 arg8 harg8 arg9 harg9 arg10 harg10 arg11 harg11 arg12 harg12 x1 x2 x3 x4 x5 x6 x7 x8 x9 x10) (kSw c xt0) (kInit arg2 harg2 x0)

end Loads

end Cert.KernelIdeal.Block

end
-- ==== Proof.KerPoint.lean ====
/-
  The block functions read at lane b over the extended reals: every hidden tensor is the scalar net's layer at the
  lane's value, a block layer is a layer of the flow, and the fifteen-layer chain is the flow's run.
-/
import proofs.«405999_j47631187312975_2_alg».proof.Proof.KerDefs
import proofs.«405999_j47631187312975_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.Frame

set_option maxRecDepth 16384

noncomputable section

namespace Cert.KernelIdeal.Block

open Cert.KernelIdeal Cert.KernelIdeal.Gen Idealize.ShloMosaic Idealize.ShloMosaic.ValueIdx Idealize.SL.Sem

theorem cast_118_8_apply {α : Type} (x : S1x1x8.Idx → α) (j : Fin 8) :
    shapeCast S8 x shapeCasts_S1x1x8_S8 (ix1 j) = x (ix3 (0 : Fin 1) (0 : Fin 1) j) :=
  shapeCast_apply x _ _ _ (by
    rw [Shape.rowMajor_val_three, Shape.rowMajor_val_one]
    show (0 * 1 + 0) * 8 + j.val = j.val
    omega)

theorem cast_8_81_apply {α : Type} (x : S8.Idx → α) (j : Fin 8) (u : Fin 1) :
    shapeCast S8x1 x shapeCasts_S8_S8x1 (ix2 j u) = x (ix1 j) :=
  shapeCast_apply x _ _ _ (by
    have hu : u.val = 0 := by omega
    rw [Shape.rowMajor_val_two, Shape.rowMajor_val_one]
    show j.val = j.val * 1 + u.val
    omega)

theorem bcast_81_apply {α : Type} (v : S8x1.Idx → α) (j : Fin 8) (b : Fin 32768) :
    broadcastTo S8x32768 v broadcasts_S8x1_S8x32768 (ix2 j b) = v (ix2 j (0 : Fin 1)) := by
  refine broadcastTo_apply v _ (ix2 j b) (ix2 j (0 : Fin 1)) fun ax => ?_
  match ax with
  | ⟨0, _⟩ => rfl
  | ⟨1, _⟩ => rfl

theorem bcast_row_apply {α : Type} (v : S1x32768.Idx → α) (j : Fin 8) (b : Fin 32768) :
    broadcastTo S8x32768 v broadcasts_S1x32768_S8x32768 (ix2 j b) = v (ix2 (0 : Fin 1) b) :=
  broadcastTo_1b_ab_apply v _ j b

theorem cast_1181_81_apply {α : Type} (x : S1x1x8x1.Idx → α) (j : Fin 8) (u : Fin 1) :
    shapeCast S8x1 x shapeCasts_S1x1x8x1_S8x1 (ix2 j u) = x (ix4 (0 : Fin 1) (0 : Fin 1) j (0 : Fin 1)) :=
  shapeCast_apply x _ _ _ (by
    have hu : u.val = 0 := by omega
    rw [Shape.rowMajor_val_four, Shape.rowMajor_val_two]
    show ((0 * 1 + 0) * 8 + j.val) * 1 + 0 = j.val * 1 + u.val
    omega)

theorem cast_1188_88_apply {α : Type} (x : S1x1x8x8.Idx → α) (j k : Fin 8) :
    shapeCast S8x8 x shapeCasts_S1x1x8x8_S8x8 (ix2 j k) = x (ix4 (0 : Fin 1) (0 : Fin 1) j k) :=
  shapeCast_apply x _ _ _ (by
    rw [Shape.rowMajor_val_four, Shape.rowMajor_val_two]
    show ((0 * 1 + 0) * 8 + j.val) * 8 + k.val = j.val * 8 + k.val
    omega)

theorem cast_1118_18_apply {α : Type} (x : S1x1x1x8.Idx → α) (u : Fin 1) (k : Fin 8) :
    shapeCast S1x8 x shapeCasts_S1x1x1x8_S1x8 (ix2 u k) = x (ix4 (0 : Fin 1) (0 : Fin 1) (0 : Fin 1) k) :=
  shapeCast_apply x _ _ _ (by
    have hu : u.val = 0 := by omega
    rw [Shape.rowMajor_val_four, Shape.rowMajor_val_two]
    show ((0 * 1 + 0) * 1 + 0) * 8 + k.val = u.val * 8 + k.val
    omega)

theorem bias4_apply {α : Type} (x : S1x1x1.Idx → α) (u : Fin 1) (b : Fin 32768) :
    broadcastTo S1x32768 (shapeCast S1x1 (shapeCast S1 x shapeCasts_S1x1x1_S1) shapeCasts_S1_S1x1) broadcasts_S1x1_S1x32768 (ix2 u b)
      = x (ix3 (0 : Fin 1) (0 : Fin 1) (0 : Fin 1)) := by
  have h1 : broadcastTo S1x32768 (shapeCast S1x1 (shapeCast S1 x shapeCasts_S1x1x1_S1) shapeCasts_S1_S1x1) broadcasts_S1x1_S1x32768 (ix2 u b)
      = (shapeCast S1x1 (shapeCast S1 x shapeCasts_S1x1x1_S1) shapeCasts_S1_S1x1) (ix2 (0 : Fin 1) (0 : Fin 1)) := by
    refine broadcastTo_apply _ _ (ix2 u b) (ix2 (0 : Fin 1) (0 : Fin 1)) fun ax => ?_
    match ax with
    | ⟨0, _⟩ => rfl
    | ⟨1, _⟩ => rfl
  have h2 : shapeCast S1x1 (shapeCast S1 x shapeCasts_S1x1x1_S1) shapeCasts_S1_S1x1 (ix2 (0 : Fin 1) (0 : Fin 1))
      = shapeCast S1 x shapeCasts_S1x1x1_S1 (ix1 (0 : Fin 1)) :=
    shapeCast_apply _ _ _ _ (by rw [Shape.rowMajor_val_two, Shape.rowMajor_val_one]; rfl)
  have h3 : shapeCast S1 x shapeCasts_S1x1x1_S1 (ix1 (0 : Fin 1)) = x (ix3 (0 : Fin 1) (0 : Fin 1) (0 : Fin 1)) :=
    shapeCast_apply _ _ _ _ (by rw [Shape.rowMajor_val_three, Shape.rowMajor_val_one]; rfl)
  rw [h1, h2, h3]

theorem kAct_apply (a : FVec Ideal S8x32768 .f32) (j : Fin 8) (b : Fin 32768) :
    kAct a (ix2 j b) = Cert.Flow.act (a (ix2 j b)) := rfl

theorem kBias_apply (bias : Vec Ideal S1x1x8 .f32) (j : Fin 8) (b : Fin 32768) :
    kBias bias (ix2 j b) = bias (ix3 (0 : Fin 1) (0 : Fin 1) j) := by
  unfold kBias
  rw [bcast_81_apply, cast_8_81_apply, cast_118_8_apply]

def netOf (n : KNet Ideal) : Cert.Flow.Net where
  w0 := fun j => n.w0 (ix4 (0 : Fin 1) (0 : Fin 1) j (0 : Fin 1))
  b0 := fun j => n.b0 (ix3 (0 : Fin 1) (0 : Fin 1) j)
  w1 := fun j k => n.w1 (ix4 (0 : Fin 1) (0 : Fin 1) j k)
  b1 := fun j => n.b1 (ix3 (0 : Fin 1) (0 : Fin 1) j)
  w2 := fun j k => n.w2 (ix4 (0 : Fin 1) (0 : Fin 1) j k)
  b2 := fun j => n.b2 (ix3 (0 : Fin 1) (0 : Fin 1) j)
  w3 := fun j k => n.w3 (ix4 (0 : Fin 1) (0 : Fin 1) j k)
  b3 := fun j => n.b3 (ix3 (0 : Fin 1) (0 : Fin 1) j)
  w4 := fun k => n.w4 (ix4 (0 : Fin 1) (0 : Fin 1) (0 : Fin 1) k)
  b4 := n.b4 (ix3 (0 : Fin 1) (0 : Fin 1) (0 : Fin 1))

theorem kFirst_apply (w0 : Vec Ideal S1x1x8x1 .f32) (b0 : Vec Ideal S1x1x8 .f32) (xI : FVec Ideal S1x32768 .f32)
    (j : Fin 8) (b : Fin 32768) :
    kFirst w0 b0 xI (ix2 j b)
      = Cert.Flow.act (w0 (ix4 (0 : Fin 1) (0 : Fin 1) j (0 : Fin 1)) * xI (ix2 (0 : Fin 1) b) + b0 (ix3 (0 : Fin 1) (0 : Fin 1) j)) := by
  unfold kFirst
  rw [kAct_apply, addf_apply, mulf_apply, kBias_apply, bcast_81_apply, cast_1181_81_apply, bcast_row_apply]

theorem lhs_hid_0 (i : S8x32768.Idx) (q : dot_S8x8_S8x32768_S8x32768_1_0_0_1_n_n.contr.Idx) :
    (dot_S8x8_S8x32768_S8x32768_1_0_0_1_n_n.lhsIdx i q 0).val = (i 0).val := by
  unfold DotDims.lhsIdx
  rw [dif_neg (show ¬(0 : Fin S8x8.rank) ∈ dot_S8x8_S8x32768_S8x32768_1_0_0_1_n_n.lhsBatch by decide), dif_pos (show (0 : Fin S8x8.rank) ∈ dot_S8x8_S8x32768_S8x32768_1_0_0_1_n_n.lhsNonContracting by decide)]
  rfl
theorem lhs_hid_1 (i : S8x32768.Idx) (q : dot_S8x8_S8x32768_S8x32768_1_0_0_1_n_n.contr.Idx) :
    (dot_S8x8_S8x32768_S8x32768_1_0_0_1_n_n.lhsIdx i q 1).val = (q ⟨0, by decide⟩).val :=
  dot_S8x8_S8x32768_S8x32768_1_0_0_1_n_n.lhsIdx_val_of_single rfl i q
theorem rhs_hid_0 (i : S8x32768.Idx) (q : dot_S8x8_S8x32768_S8x32768_1_0_0_1_n_n.contr.Idx) :
    (dot_S8x8_S8x32768_S8x32768_1_0_0_1_n_n.rhsIdx i q 0).val = (q ⟨0, by decide⟩).val :=
  dot_S8x8_S8x32768_S8x32768_1_0_0_1_n_n.rhsIdx_val_of_single rfl i q
theorem rhs_hid_1 (i : S8x32768.Idx) (q : dot_S8x8_S8x32768_S8x32768_1_0_0_1_n_n.contr.Idx) :
    (dot_S8x8_S8x32768_S8x32768_1_0_0_1_n_n.rhsIdx i q 1).val = (i 1).val := by
  unfold DotDims.rhsIdx
  rw [dif_neg (show ¬(1 : Fin S8x32768.rank) ∈ dot_S8x8_S8x32768_S8x32768_1_0_0_1_n_n.rhsBatch by decide), dif_pos (show (1 : Fin S8x32768.rank) ∈ dot_S8x8_S8x32768_S8x32768_1_0_0_1_n_n.rhsNonContracting by decide)]
  rfl

theorem matmul_hid_apply (w : FVec Ideal S8x8 .f32) (h : FVec Ideal S8x32768 .f32) (j : Fin 8) (b : Fin 32768) :
    matmul dot_S8x8_S8x32768_S8x32768_1_0_0_1_n_n (some .fp32) w h (constant S8x32768 .f32 0x00000000#32) (ix2 j b)
      = ∑ k : Fin 8, w (ix2 j k) * h (ix2 k b) := by
  show FloatOps.matmul dot_S8x8_S8x32768_S8x32768_1_0_0_1_n_n (some .fp32) w h (constant S8x32768 .f32 0x00000000#32) (ix2 j b) = _
  rw [Ideal.matmul_constant_zero_apply, ← Equiv.sum_comp (contrEquiv1 dot_S8x8_S8x32768_S8x32768_1_0_0_1_n_n 8 rfl rfl).symm]
  refine Finset.sum_congr rfl fun k _ => ?_
  have hk := contrEquiv1_symm_val dot_S8x8_S8x32768_S8x32768_1_0_0_1_n_n 8 rfl rfl k
  have el : dot_S8x8_S8x32768_S8x32768_1_0_0_1_n_n.lhsIdx (ix2 j b) ((contrEquiv1 dot_S8x8_S8x32768_S8x32768_1_0_0_1_n_n 8 rfl rfl).symm k) = ix2 j k := funext fun a => Fin.ext (by
    match a with
    | ⟨0, _⟩ => exact lhs_hid_0 _ _
    | ⟨1, _⟩ => exact (lhs_hid_1 _ _).trans hk)
  have er : dot_S8x8_S8x32768_S8x32768_1_0_0_1_n_n.rhsIdx (ix2 j b) ((contrEquiv1 dot_S8x8_S8x32768_S8x32768_1_0_0_1_n_n 8 rfl rfl).symm k) = ix2 k b := funext fun a => Fin.ext (by
    match a with
    | ⟨0, _⟩ => exact (rhs_hid_0 _ _).trans hk
    | ⟨1, _⟩ => exact rhs_hid_1 _ _)
  rw [el, er]

theorem lhs_out_0 (i : S1x32768.Idx) (q : dot_S1x8_S8x32768_S1x32768_1_0_0_1_n_n.contr.Idx) :
    (dot_S1x8_S8x32768_S1x32768_1_0_0_1_n_n.lhsIdx i q 0).val = (i 0).val := by
  unfold DotDims.lhsIdx
  rw [dif_neg (show ¬(0 : Fin S1x8.rank) ∈ dot_S1x8_S8x32768_S1x32768_1_0_0_1_n_n.lhsBatch by decide), dif_pos (show (0 : Fin S1x8.rank) ∈ dot_S1x8_S8x32768_S1x32768_1_0_0_1_n_n.lhsNonContracting by decide)]
  rfl
theorem lhs_out_1 (i : S1x32768.Idx) (q : dot_S1x8_S8x32768_S1x32768_1_0_0_1_n_n.contr.Idx) :
    (dot_S1x8_S8x32768_S1x32768_1_0_0_1_n_n.lhsIdx i q 1).val = (q ⟨0, by decide⟩).val :=
  dot_S1x8_S8x32768_S1x32768_1_0_0_1_n_n.lhsIdx_val_of_single rfl i q
theorem rhs_out_0 (i : S1x32768.Idx) (q : dot_S1x8_S8x32768_S1x32768_1_0_0_1_n_n.contr.Idx) :
    (dot_S1x8_S8x32768_S1x32768_1_0_0_1_n_n.rhsIdx i q 0).val = (q ⟨0, by decide⟩).val :=
  dot_S1x8_S8x32768_S1x32768_1_0_0_1_n_n.rhsIdx_val_of_single rfl i q
theorem rhs_out_1 (i : S1x32768.Idx) (q : dot_S1x8_S8x32768_S1x32768_1_0_0_1_n_n.contr.Idx) :
    (dot_S1x8_S8x32768_S1x32768_1_0_0_1_n_n.rhsIdx i q 1).val = (i 1).val := by
  unfold DotDims.rhsIdx
  rw [dif_neg (show ¬(1 : Fin S8x32768.rank) ∈ dot_S1x8_S8x32768_S1x32768_1_0_0_1_n_n.rhsBatch by decide), dif_pos (show (1 : Fin S8x32768.rank) ∈ dot_S1x8_S8x32768_S1x32768_1_0_0_1_n_n.rhsNonContracting by decide)]
  rfl

theorem matmul_out_apply (w : FVec Ideal S1x8 .f32) (h : FVec Ideal S8x32768 .f32) (u : Fin 1) (b : Fin 32768) :
    matmul dot_S1x8_S8x32768_S1x32768_1_0_0_1_n_n (some .fp32) w h (constant S1x32768 .f32 0x00000000#32) (ix2 u b)
      = ∑ k : Fin 8, w (ix2 u k) * h (ix2 k b) := by
  show FloatOps.matmul dot_S1x8_S8x32768_S1x32768_1_0_0_1_n_n (some .fp32) w h (constant S1x32768 .f32 0x00000000#32) (ix2 u b) = _
  rw [Ideal.matmul_constant_zero_apply, ← Equiv.sum_comp (contrEquiv1 dot_S1x8_S8x32768_S1x32768_1_0_0_1_n_n 8 rfl rfl).symm]
  refine Finset.sum_congr rfl fun k _ => ?_
  have hk := contrEquiv1_symm_val dot_S1x8_S8x32768_S1x32768_1_0_0_1_n_n 8 rfl rfl k
  have el : dot_S1x8_S8x32768_S1x32768_1_0_0_1_n_n.lhsIdx (ix2 u b) ((contrEquiv1 dot_S1x8_S8x32768_S1x32768_1_0_0_1_n_n 8 rfl rfl).symm k) = ix2 u k := funext fun a => Fin.ext (by
    match a with
    | ⟨0, _⟩ => exact lhs_out_0 _ _
    | ⟨1, _⟩ => exact (lhs_out_1 _ _).trans hk)
  have er : dot_S1x8_S8x32768_S1x32768_1_0_0_1_n_n.rhsIdx (ix2 u b) ((contrEquiv1 dot_S1x8_S8x32768_S1x32768_1_0_0_1_n_n 8 rfl rfl).symm k) = ix2 k b := funext fun a => Fin.ext (by
    match a with
    | ⟨0, _⟩ => exact (rhs_out_0 _ _).trans hk
    | ⟨1, _⟩ => exact rhs_out_1 _ _)
  rw [el, er]

theorem kHid_apply (w : Vec Ideal S1x1x8x8 .f32) (bias : Vec Ideal S1x1x8 .f32) (h : FVec Ideal S8x32768 .f32)
    (j : Fin 8) (b : Fin 32768) :
    kHid w bias h (ix2 j b)
      = Cert.Flow.hid (fun j k => w (ix4 (0 : Fin 1) (0 : Fin 1) j k)) (fun j => bias (ix3 (0 : Fin 1) (0 : Fin 1) j))
          (fun k => h (ix2 k b)) j := by
  unfold kHid Cert.Flow.hid
  rw [kAct_apply, addf_apply, kBias_apply, matmul_hid_apply]
  simp only [cast_1188_88_apply]

theorem kOut_apply (w4 : Vec Ideal S1x1x1x8 .f32) (b4 : Vec Ideal S1x1x1 .f32) (h : FVec Ideal S8x32768 .f32)
    (u : Fin 1) (b : Fin 32768) :
    kOut w4 b4 h (ix2 u b)
      = (∑ k : Fin 8, w4 (ix4 (0 : Fin 1) (0 : Fin 1) (0 : Fin 1) k) * h (ix2 k b)) + b4 (ix3 (0 : Fin 1) (0 : Fin 1) (0 : Fin 1)) := by
  unfold kOut
  rw [addf_apply, bias4_apply, matmul_out_apply]
  simp only [cast_1118_18_apply]

theorem kMlp_apply (n : KNet Ideal) (xI : FVec Ideal S1x32768 .f32) (b : Fin 32768) :
    kMlp n xI (ix2 (0 : Fin 1) b) = Cert.Flow.mlp (netOf n) (xI (ix2 (0 : Fin 1) b)) := by
  unfold kMlp Cert.Flow.mlp
  rw [kOut_apply]
  simp only [kHid_apply, kFirst_apply]
  rfl

def toSt (st : KSt Ideal) (b : Fin 32768) : Cert.Flow.St :=
  ⟨st.xI (ix2 (0 : Fin 1) b), st.xII (ix2 (0 : Fin 1) b), st.ld (ix2 (0 : Fin 1) b)⟩

theorem exp_row_apply (x : FVec Ideal S1x32768 .f32) (i : S1x32768.Idx) : exp x i = Ideal.exp (x i) := rfl

theorem kY_apply (s t : KNet Ideal) (st : KSt Ideal) (b : Fin 32768) :
    kY s t st (ix2 (0 : Fin 1) b) = Cert.Flow.yOf (netOf s) (netOf t) (toSt st b) := by
  unfold kY Cert.Flow.yOf
  rw [addf_apply, mulf_apply, exp_row_apply, kMlp_apply, kMlp_apply]
  rfl

theorem scalar_select_apply {α β : Type} (c : BitVec 1) (x y : α → β) (i : α) :
    (Scalar.select c x y) i = Scalar.select c (x i) (y i) := by
  unfold Scalar.select
  split <;> rfl

theorem kStep_apply (s t : KNet Ideal) (w : Elt Ideal .i32) (st : KSt Ideal) (b : Fin 32768) :
    toSt (kStep s t w st) b = Cert.Flow.step (netOf s) (netOf t) (Scalar.cmpi .sgt w 0#32) (toSt st b) := by
  unfold kStep Cert.Flow.step toSt
  simp only [scalar_select_apply, addf_apply, kMlp_apply]
  rw [kY_apply]
  rfl

theorem kLast_apply (s t : KNet Ideal) (st : KSt Ideal) (b : Fin 32768) :
    toSt (kLast s t st) b = Cert.Flow.last (netOf s) (netOf t) (toSt st b) := by
  unfold kLast Cert.Flow.last toSt
  simp only [addf_apply, kMlp_apply]
  rw [kY_apply]
  rfl

theorem read_w0 (arg : Memref sig .tc .vmem S15x2x8x1 .f32) (harg : arg.IsWhole) (x : Vec Ideal S15x2x8x1 .f32)
    (i : Fin 15) (k : Fin 2) (inb : ∀ a, (![i.val, k.val, 0, 0] : Fin 4 → Nat) a + S1x1x8x1.size a ≤ S15x2x8x1.size a) (j : Fin 8) :
    View.readAt (Elt Ideal) arg.view (Rect.unit (s := S15x2x8x1) ![i.val, k.val, 0, 0] S1x1x8x1.size inb).toLoadRect (harg.unread x)
        (ix4 (0 : Fin 1) (0 : Fin 1) j (0 : Fin 1)) = x (ix4 i k j (0 : Fin 1)) := by
  rw [View.readAt_eq_ld, harg.read_unread]
  show x _ = x _
  refine congrArg x (funext fun a => Fin.ext ?_)
  match a with
  | ⟨0, _⟩ => show i.val + 1 * 0 = i.val; omega
  | ⟨1, _⟩ => show k.val + 1 * 0 = k.val; omega
  | ⟨2, _⟩ => show 0 + 1 * j.val = j.val; omega
  | ⟨3, _⟩ => show 0 + 1 * 0 = 0; omega

theorem read_b (arg : Memref sig .tc .vmem S15x2x8 .f32) (harg : arg.IsWhole) (x : Vec Ideal S15x2x8 .f32)
    (i : Fin 15) (k : Fin 2) (inb : ∀ a, (![i.val, k.val, 0] : Fin 3 → Nat) a + S1x1x8.size a ≤ S15x2x8.size a) (j : Fin 8) :
    View.readAt (Elt Ideal) arg.view (Rect.unit (s := S15x2x8) ![i.val, k.val, 0] S1x1x8.size inb).toLoadRect (harg.unread x)
        (ix3 (0 : Fin 1) (0 : Fin 1) j) = x (ix3 i k j) := by
  rw [View.readAt_eq_ld, harg.read_unread]
  show x _ = x _
  refine congrArg x (funext fun a => Fin.ext ?_)
  match a with
  | ⟨0, _⟩ => show i.val + 1 * 0 = i.val; omega
  | ⟨1, _⟩ => show k.val + 1 * 0 = k.val; omega
  | ⟨2, _⟩ => show 0 + 1 * j.val = j.val; omega

theorem read_w (arg : Memref sig .tc .vmem S15x2x8x8 .f32) (harg : arg.IsWhole) (x : Vec Ideal S15x2x8x8 .f32)
    (i : Fin 15) (k : Fin 2) (inb : ∀ a, (![i.val, k.val, 0, 0] : Fin 4 → Nat) a + S1x1x8x8.size a ≤ S15x2x8x8.size a) (j l : Fin 8) :
    View.readAt (Elt Ideal) arg.view (Rect.unit (s := S15x2x8x8) ![i.val, k.val, 0, 0] S1x1x8x8.size inb).toLoadRect (harg.unread x)
        (ix4 (0 : Fin 1) (0 : Fin 1) j l) = x (ix4 i k j l) := by
  rw [View.readAt_eq_ld, harg.read_unread]
  show x _ = x _
  refine congrArg x (funext fun a => Fin.ext ?_)
  match a with
  | ⟨0, _⟩ => show i.val + 1 * 0 = i.val; omega
  | ⟨1, _⟩ => show k.val + 1 * 0 = k.val; omega
  | ⟨2, _⟩ => show 0 + 1 * j.val = j.val; omega
  | ⟨3, _⟩ => show 0 + 1 * l.val = l.val; omega

theorem read_w4 (arg : Memref sig .tc .vmem S15x2x1x8 .f32) (harg : arg.IsWhole) (x : Vec Ideal S15x2x1x8 .f32)
    (i : Fin 15) (k : Fin 2) (inb : ∀ a, (![i.val, k.val, 0, 0] : Fin 4 → Nat) a + S1x1x1x8.size a ≤ S15x2x1x8.size a) (l : Fin 8) :
    View.readAt (Elt Ideal) arg.view (Rect.unit (s := S15x2x1x8) ![i.val, k.val, 0, 0] S1x1x1x8.size inb).toLoadRect (harg.unread x)
        (ix4 (0 : Fin 1) (0 : Fin 1) (0 : Fin 1) l) = x (ix4 i k (0 : Fin 1) l) := by
  rw [View.readAt_eq_ld, harg.read_unread]
  show x _ = x _
  refine congrArg x (funext fun a => Fin.ext ?_)
  match a with
  | ⟨0, _⟩ => show i.val + 1 * 0 = i.val; omega
  | ⟨1, _⟩ => show k.val + 1 * 0 = k.val; omega
  | ⟨2, _⟩ => show 0 + 1 * 0 = 0; omega
  | ⟨3, _⟩ => show 0 + 1 * l.val = l.val; omega

theorem read_b4 (arg : Memref sig .tc .vmem S15x2x1 .f32) (harg : arg.IsWhole) (x : Vec Ideal S15x2x1 .f32)
    (i : Fin 15) (k : Fin 2) (inb : ∀ a, (![i.val, k.val, 0] : Fin 3 → Nat) a + S1x1x1.size a ≤ S15x2x1.size a)  :
    View.readAt (Elt Ideal) arg.view (Rect.unit (s := S15x2x1) ![i.val, k.val, 0] S1x1x1.size inb).toLoadRect (harg.unread x)
        (ix3 (0 : Fin 1) (0 : Fin 1) (0 : Fin 1)) = x (ix3 i k (0 : Fin 1)) := by
  rw [View.readAt_eq_ld, harg.read_unread]
  show x _ = x _
  refine congrArg x (funext fun a => Fin.ext ?_)
  match a with
  | ⟨0, _⟩ => show i.val + 1 * 0 = i.val; omega
  | ⟨1, _⟩ => show k.val + 1 * 0 = k.val; omega
  | ⟨2, _⟩ => show 0 + 1 * 0 = 0; omega

def params (x1 : Vec Ideal S15x2x8x1 .f32) (x2 : Vec Ideal S15x2x8 .f32) (x3 : Vec Ideal S15x2x8x8 .f32) (x4 : Vec Ideal S15x2x8 .f32) (x5 : Vec Ideal S15x2x8x8 .f32) (x6 : Vec Ideal S15x2x8 .f32) (x7 : Vec Ideal S15x2x8x8 .f32) (x8 : Vec Ideal S15x2x8 .f32) (x9 : Vec Ideal S15x2x1x8 .f32) (x10 : Vec Ideal S15x2x1 .f32)
    (sw : S14.Idx → BitVec 32) : Cert.Flow.Params :=
  ⟨x1, x2, x3, x4, x5, x6, x7, x8, x9, x10, sw⟩

def swWords (c : Dev nD) (xt0 : TbBuf0 (F := Ideal) c tbM0_0) : S14.Idx → BitVec 32 :=
  xt0

theorem kNet_netOf (arg3 : Memref sig .tc .vmem S15x2x8x1 .f32) (harg3 : arg3.IsWhole) (arg4 : Memref sig .tc .vmem S15x2x8 .f32) (harg4 : arg4.IsWhole) (arg5 : Memref sig .tc .vmem S15x2x8x8 .f32) (harg5 : arg5.IsWhole) (arg6 : Memref sig .tc .vmem S15x2x8 .f32) (harg6 : arg6.IsWhole) (arg7 : Memref sig .tc .vmem S15x2x8x8 .f32) (harg7 : arg7.IsWhole) (arg8 : Memref sig .tc .vmem S15x2x8 .f32) (harg8 : arg8.IsWhole) (arg9 : Memref sig .tc .vmem S15x2x8x8 .f32) (harg9 : arg9.IsWhole) (arg10 : Memref sig .tc .vmem S15x2x8 .f32) (harg10 : arg10.IsWhole) (arg11 : Memref sig .tc .vmem S15x2x1x8 .f32) (harg11 : arg11.IsWhole) (arg12 : Memref sig .tc .vmem S15x2x1 .f32) (harg12 : arg12.IsWhole)
    (x1 : Vec Ideal S15x2x8x1 .f32) (x2 : Vec Ideal S15x2x8 .f32) (x3 : Vec Ideal S15x2x8x8 .f32) (x4 : Vec Ideal S15x2x8 .f32) (x5 : Vec Ideal S15x2x8x8 .f32) (x6 : Vec Ideal S15x2x8 .f32) (x7 : Vec Ideal S15x2x8x8 .f32) (x8 : Vec Ideal S15x2x8 .f32) (x9 : Vec Ideal S15x2x1x8 .f32) (x10 : Vec Ideal S15x2x1 .f32) (sw : S14.Idx → BitVec 32) (i : Fin 15) (k : Fin 2) :
    netOf (kNet arg3 harg3 arg4 harg4 arg5 harg5 arg6 harg6 arg7 harg7 arg8 harg8 arg9 harg9 arg10 harg10 arg11 harg11 arg12 harg12 x1 x2 x3 x4 x5 x6 x7 x8 x9 x10 i k) = Cert.Flow.net (params x1 x2 x3 x4 x5 x6 x7 x8 x9 x10 sw) i k := by
  unfold netOf Cert.Flow.net params
  rw [Cert.Flow.Net.mk.injEq]
  exact ⟨funext fun j => read_w0 arg3 harg3 x1 i k _ j, funext fun j => read_b arg4 harg4 x2 i k _ j,
    funext fun j => funext fun l => read_w arg5 harg5 x3 i k _ j l, funext fun j => read_b arg6 harg6 x4 i k _ j,
    funext fun j => funext fun l => read_w arg7 harg7 x5 i k _ j l, funext fun j => read_b arg8 harg8 x6 i k _ j,
    funext fun j => funext fun l => read_w arg9 harg9 x7 i k _ j l, funext fun j => read_b arg10 harg10 x8 i k _ j,
    funext fun l => read_w4 arg11 harg11 x9 i k _ l, read_b4 arg12 harg12 x10 i k _⟩

theorem kSw_read (c : Dev nD) (xt0 : TbBuf0 (F := Ideal) c tbM0_0) (i : Fin 14) :
    kSw c xt0 i = swWords c xt0 (ix1 i) := by
  unfold kSw swWords
  show (xt0 : S14.Idx → BitVec 32) _ = _
  congr 1
  funext a
  apply Fin.ext
  match a with
  | ⟨0, _⟩ => show i.val + 1 * 0 = i.val; omega

theorem kSw_eq (c : Dev nD) (xt0 : TbBuf0 (F := Ideal) c tbM0_0) (x1 : Vec Ideal S15x2x8x1 .f32) (x2 : Vec Ideal S15x2x8 .f32) (x3 : Vec Ideal S15x2x8x8 .f32) (x4 : Vec Ideal S15x2x8 .f32) (x5 : Vec Ideal S15x2x8x8 .f32) (x6 : Vec Ideal S15x2x8 .f32) (x7 : Vec Ideal S15x2x8x8 .f32) (x8 : Vec Ideal S15x2x8 .f32) (x9 : Vec Ideal S15x2x1x8 .f32) (x10 : Vec Ideal S15x2x1 .f32) (i : Fin 14) :
    Scalar.cmpi .sgt (kSw c xt0 i) 0#32 = Cert.Flow.swapBit (params x1 x2 x3 x4 x5 x6 x7 x8 x9 x10 (swWords c xt0)) i := by
  rw [kSw_read]
  rfl

theorem kInit_apply (arg2 : Memref sig .tc .vmem S2x32768 .f32) (harg2 : arg2.IsWhole) (x0 : Vec Ideal S2x32768 .f32) (b : Fin 32768) :
    toSt (kInit arg2 harg2 x0) b = Cert.Flow.init (x0 (ix2 (0 : Fin 2) b)) (x0 (ix2 (1 : Fin 2) b)) := by
  have h0 : (kInit arg2 harg2 x0).xI (ix2 (0 : Fin 1) b) = x0 (ix2 (0 : Fin 2) b) := by
    unfold kInit
    dsimp only
    refine (shapeCast_apply (s := S1x32768) (t := S1x32768) _ shapeCasts_S1x32768_S1x32768 (ix2 (0 : Fin 1) b) (ix2 (0 : Fin 1) b) rfl).trans ?_
    rw [View.readAt_eq_ld, harg2.read_unread]
    show x0 _ = x0 _
    refine congrArg x0 (funext fun a => Fin.ext ?_)
    match a with
    | ⟨0, _⟩ => show 0 + 1 * 0 = 0; omega
    | ⟨1, _⟩ => show 0 + 1 * b.val = b.val; omega
  have h1 : (kInit arg2 harg2 x0).xII (ix2 (0 : Fin 1) b) = x0 (ix2 (1 : Fin 2) b) := by
    unfold kInit
    dsimp only
    refine (shapeCast_apply (s := S1x32768) (t := S1x32768) _ shapeCasts_S1x32768_S1x32768 (ix2 (0 : Fin 1) b) (ix2 (0 : Fin 1) b) rfl).trans ?_
    rw [View.readAt_eq_ld, harg2.read_unread]
    show x0 _ = x0 _
    refine congrArg x0 (funext fun a => Fin.ext ?_)
    match a with
    | ⟨0, _⟩ => show 1 + 1 * 0 = 1; omega
    | ⟨1, _⟩ => show 0 + 1 * b.val = b.val; omega
  unfold toSt Cert.Flow.init
  rw [h0, h1]
  rfl

theorem final (c : Dev nD) (arg2 : Memref sig .tc .vmem S2x32768 .f32) (harg2 : arg2.IsWhole) (arg3 : Memref sig .tc .vmem S15x2x8x1 .f32) (harg3 : arg3.IsWhole) (arg4 : Memref sig .tc .vmem S15x2x8 .f32) (harg4 : arg4.IsWhole) (arg5 : Memref sig .tc .vmem S15x2x8x8 .f32) (harg5 : arg5.IsWhole) (arg6 : Memref sig .tc .vmem S15x2x8 .f32) (harg6 : arg6.IsWhole) (arg7 : Memref sig .tc .vmem S15x2x8x8 .f32) (harg7 : arg7.IsWhole) (arg8 : Memref sig .tc .vmem S15x2x8 .f32) (harg8 : arg8.IsWhole) (arg9 : Memref sig .tc .vmem S15x2x8x8 .f32) (harg9 : arg9.IsWhole) (arg10 : Memref sig .tc .vmem S15x2x8 .f32) (harg10 : arg10.IsWhole) (arg11 : Memref sig .tc .vmem S15x2x1x8 .f32) (harg11 : arg11.IsWhole) (arg12 : Memref sig .tc .vmem S15x2x1 .f32) (harg12 : arg12.IsWhole)
    (x0 : Vec Ideal S2x32768 .f32) (x1 : Vec Ideal S15x2x8x1 .f32) (x2 : Vec Ideal S15x2x8 .f32) (x3 : Vec Ideal S15x2x8x8 .f32) (x4 : Vec Ideal S15x2x8 .f32) (x5 : Vec Ideal S15x2x8x8 .f32) (x6 : Vec Ideal S15x2x8 .f32) (x7 : Vec Ideal S15x2x8x8 .f32) (x8 : Vec Ideal S15x2x8 .f32) (x9 : Vec Ideal S15x2x1x8 .f32) (x10 : Vec Ideal S15x2x1 .f32) (xt0 : TbBuf0 (F := Ideal) c tbM0_0) (b : Fin 32768) :
    toSt (kFinal c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0) b
      = Cert.Flow.run (params x1 x2 x3 x4 x5 x6 x7 x8 x9 x10 (swWords c xt0)) (Cert.Flow.init (x0 (ix2 (0 : Fin 2) b)) (x0 (ix2 (1 : Fin 2) b))) := by
  have hN := fun i k => kNet_netOf arg3 harg3 arg4 harg4 arg5 harg5 arg6 harg6 arg7 harg7 arg8 harg8 arg9 harg9 arg10 harg10 arg11 harg11 arg12 harg12 x1 x2 x3 x4 x5 x6 x7 x8 x9 x10 (swWords c xt0) i k
  have hS := fun i => kSw_eq c xt0 x1 x2 x3 x4 x5 x6 x7 x8 x9 x10 i
  unfold kFinal kChain Cert.Flow.run Cert.Flow.stepAt
  rw [kLast_apply]
  simp only [kStep_apply, hN, hS, kInit_apply]
  rfl

end Cert.KernelIdeal.Block

end
-- ==== Proof.KerChain.lean ====
/-
  One grid point's body read as the chain of the fifteen layer functions: the values the whole-body run names for the
  stored pieces are, by unfolding, the rows of the state after the last layer.
-/
import proofs.«405999_j47631187312975_2_alg».proof.Proof.KerDefs
import Idealize.ShloMosaic.Lib.Pipeline.Regions
set_option maxRecDepth 16384
noncomputable section
namespace Cert.KernelIdeal.Block
open Cert.KernelIdeal Cert.KernelIdeal.Gen Idealize.ShloMosaic Idealize.ShloMosaic.TcCoe Idealize.SL Idealize.SL.Sem
variable {F : FTy → Type} [FloatOps F]
variable (c : Dev nD) (i : grid0.Coords) (arg2 : Memref sig .tc .vmem S2x32768 .f32) (harg2 : arg2.IsWhole) (arg3 : Memref sig .tc .vmem S15x2x8x1 .f32) (harg3 : arg3.IsWhole) (arg4 : Memref sig .tc .vmem S15x2x8 .f32) (harg4 : arg4.IsWhole) (arg5 : Memref sig .tc .vmem S15x2x8x8 .f32) (harg5 : arg5.IsWhole) (arg6 : Memref sig .tc .vmem S15x2x8 .f32) (harg6 : arg6.IsWhole) (arg7 : Memref sig .tc .vmem S15x2x8x8 .f32) (harg7 : arg7.IsWhole) (arg8 : Memref sig .tc .vmem S15x2x8 .f32) (harg8 : arg8.IsWhole) (arg9 : Memref sig .tc .vmem S15x2x8x8 .f32) (harg9 : arg9.IsWhole) (arg10 : Memref sig .tc .vmem S15x2x8 .f32) (harg10 : arg10.IsWhole) (arg11 : Memref sig .tc .vmem S15x2x1x8 .f32) (harg11 : arg11.IsWhole) (arg12 : Memref sig .tc .vmem S15x2x1 .f32) (harg12 : arg12.IsWhole) (arg13 : Memref sig .tc .vmem S2x32768 .f32) (harg13 : arg13.IsWhole) (arg14 : Memref sig .tc .vmem S1x32768 .f32) (harg14 : arg14.IsWhole) (x0 : Vec F S2x32768 .f32) (x1 : Vec F S15x2x8x1 .f32) (x2 : Vec F S15x2x8 .f32) (x3 : Vec F S15x2x8x8 .f32) (x4 : Vec F S15x2x8 .f32) (x5 : Vec F S15x2x8x8 .f32) (x6 : Vec F S15x2x8 .f32) (x7 : Vec F S15x2x8x8 .f32) (x8 : Vec F S15x2x8 .f32) (x9 : Vec F S15x2x1x8 .f32) (x10 : Vec F S15x2x1 .f32) (xt0 : TbBuf0 (F := F) c tbM0_0)

theorem kFinal_run :
    (⟨(kernelRun0_A.sl.r_148 c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0), k0_pay1 (kernelRun0_A.sl.r_157 c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0) (kernelRun0_A.sl.r_158 c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0), k0_pay2 (kernelRun0_A.sl.r_147 c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0) (kernelRun0_A.sl.r_153 c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0)⟩ : KSt F) = kFinal c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0 := by chain_rfl

theorem pieces12 :
    (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0).2.1 =
      [⟨Rect.unit ![0, 0] ![1, 32768] inb_S1x32768_S1x32768_0_0, (kFinal c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0).ld⟩] := by
  rw [← kFinal_run]
  rfl

theorem pieces11 :
    (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0).1 =
      [⟨Rect.unit ![1, 0] ![1, 32768] inb_S2x32768_S1x32768_1_0, (kFinal c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0).xII⟩,
       ⟨Rect.unit ![0, 0] ![1, 32768] inb_S2x32768_S1x32768_0_0, (kFinal c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0).xI⟩] := by
  rw [← kFinal_run]
  rfl

end Cert.KernelIdeal.Block
end
-- ==== Proof.KerBlock.lean ====
/-
  What one grid point leaves in its two output blocks, entry by entry: the flow run on the lane's two inputs with the
  block's parameter arrays as weights and the table's words as swap words.
-/
import proofs.«405999_j47631187312975_2_alg».proof.Proof.Gen.KernelIdeal.Frame
import proofs.«405999_j47631187312975_2_alg».proof.Proof.Spec
import proofs.«405999_j47631187312975_2_alg».proof.Proof.KerPoint
import proofs.«405999_j47631187312975_2_alg».proof.Proof.KerChain
import Idealize.ShloMosaic.Lib.ValueIdx
import Idealize.ShloMosaic.Lib.Pipeline.Value
import Idealize.ShloMosaic.Lib.Pipeline.FrameBody

set_option maxRecDepth 16384

noncomputable section

namespace Cert.KernelIdeal.Block

open Cert.KernelIdeal Cert.KernelIdeal.Gen Idealize.ShloMosaic Idealize.ShloMosaic.ValueIdx Idealize.SL.Sem

theorem canon_rows_0 (inb1 : ∀ a, (![1, 0] : Fin 2 → Nat) a + S1x32768.size a ≤ S2x32768.size a)
    (inb0 : ∀ a, (![0, 0] : Fin 2 → Nat) a + S1x32768.size a ≤ S2x32768.size a)
    (xI xII : FVec Ideal S1x32768 .f32) (b : Fin 32768) :
    View.canon (Val := Elt Ideal) [(⟨Rect.unit (s := S2x32768) ![1, 0] ![1, 32768] inb1, xII⟩ : View.Piece (Elt Ideal) S2x32768 .f32),
        ⟨Rect.unit (s := S2x32768) ![0, 0] ![1, 32768] inb0, xI⟩] (ix2 (0 : Fin 2) b) = xI (ix2 (0 : Fin 1) b) := by
  have hn : ix2 (0 : Fin 2) b ∉ (Rect.unit (s := S2x32768) ![1, 0] ![1, 32768] inb1).set := by
    rw [Rect.mem_set_unit]
    intro h
    have h1 : (1 : Nat) ≤ 0 := (h 0).1
    omega
  have e : ix2 (0 : Fin 2) b = (Rect.unit (s := S2x32768) ![0, 0] ![1, 32768] inb0).emb (ix2 (0 : Fin 1) b) :=
    funext fun a => Fin.ext (by
      match a with
      | ⟨0, _⟩ => show 0 = 0 + 1 * 0; omega
      | ⟨1, _⟩ => show b.val = 0 + 1 * b.val; omega)
  have t0 := View.canon_cons_of_not_mem (Val := Elt Ideal) (e := .f32) (⟨Rect.unit (s := S2x32768) ![1, 0] ![1, 32768] inb1, xII⟩ : View.Piece (Elt Ideal) S2x32768 .f32)
    [(⟨Rect.unit (s := S2x32768) ![0, 0] ![1, 32768] inb0, xI⟩ : View.Piece (Elt Ideal) S2x32768 .f32)] hn
  have t1 := congrArg (View.canon (Val := Elt Ideal) [(⟨Rect.unit (s := S2x32768) ![0, 0] ![1, 32768] inb0, xI⟩ : View.Piece (Elt Ideal) S2x32768 .f32)]) e
  have t2 := View.canon_cons_emb (Val := Elt Ideal) (e := .f32) (Rect.unit (s := S2x32768) ![0, 0] ![1, 32768] inb0) xI [] (ix2 (0 : Fin 1) b)
  exact t0.trans (t1.trans t2)

theorem canon_rows_1 (inb1 : ∀ a, (![1, 0] : Fin 2 → Nat) a + S1x32768.size a ≤ S2x32768.size a)
    (inb0 : ∀ a, (![0, 0] : Fin 2 → Nat) a + S1x32768.size a ≤ S2x32768.size a)
    (xI xII : FVec Ideal S1x32768 .f32) (b : Fin 32768) :
    View.canon (Val := Elt Ideal) [(⟨Rect.unit (s := S2x32768) ![1, 0] ![1, 32768] inb1, xII⟩ : View.Piece (Elt Ideal) S2x32768 .f32),
        ⟨Rect.unit (s := S2x32768) ![0, 0] ![1, 32768] inb0, xI⟩] (ix2 (1 : Fin 2) b) = xII (ix2 (0 : Fin 1) b) := by
  have e : ix2 (1 : Fin 2) b = (Rect.unit (s := S2x32768) ![1, 0] ![1, 32768] inb1).emb (ix2 (0 : Fin 1) b) :=
    funext fun a => Fin.ext (by
      match a with
      | ⟨0, _⟩ => show 1 = 1 + 1 * 0; omega
      | ⟨1, _⟩ => show b.val = 0 + 1 * b.val; omega)
  have t1 := congrArg (View.canon (Val := Elt Ideal) [(⟨Rect.unit (s := S2x32768) ![1, 0] ![1, 32768] inb1, xII⟩ : View.Piece (Elt Ideal) S2x32768 .f32),
        ⟨Rect.unit (s := S2x32768) ![0, 0] ![1, 32768] inb0, xI⟩]) e
  have t2 := View.canon_cons_emb (Val := Elt Ideal) (e := .f32) (Rect.unit (s := S2x32768) ![1, 0] ![1, 32768] inb1) xII
    [(⟨Rect.unit (s := S2x32768) ![0, 0] ![1, 32768] inb0, xI⟩ : View.Piece (Elt Ideal) S2x32768 .f32)] (ix2 (0 : Fin 1) b)
  exact t1.trans t2

theorem zero2 : (![0, 0] : Fin 2 → Nat) = fun _ => 0 :=
  funext fun a => by
    match a with
    | ⟨0, _⟩ => rfl
    | ⟨1, _⟩ => rfl

theorem canon_row (inb : ∀ a, (![0, 0] : Fin 2 → Nat) a + S1x32768.size a ≤ S1x32768.size a)
    (ld : FVec Ideal S1x32768 .f32) :
    View.canon (Val := Elt Ideal) [(⟨Rect.unit (s := S1x32768) ![0, 0] ![1, 32768] inb, ld⟩ : View.Piece (Elt Ideal) S1x32768 .f32)] = ld :=
  View.canon_unit_zero (S := S1x32768) (Val := Elt Ideal) (e := .f32) zero2 inb ld

theorem read_rows (v : View sig .tc .vmem S2x32768 .f32) (f : v.ty.Contents (Elt Ideal)) (L : List (View.Piece (Elt Ideal) S2x32768 .f32))
    (cov : ∀ y : S2x32768.Idx, ∃ pc ∈ L, y ∈ pc.1.set) (K : KSt Ideal)
    (hL : L = [⟨Rect.unit (s := S2x32768) ![1, 0] ![1, 32768] inb_S2x32768_S1x32768_1_0, K.xII⟩,
      ⟨Rect.unit (s := S2x32768) ![0, 0] ![1, 32768] inb_S2x32768_S1x32768_0_0, K.xI⟩])
    (r : Fin 2) (b : Fin 32768) :
    v.read (Elt Ideal) (v.writes (Elt Ideal) f L) (ix2 r b) = if r.val = 0 then (toSt K b).xI else (toSt K b).xII := by
  have h := congrFun (View.read_writes_eq_canon v f L cov) (ix2 r b)
  subst hL
  have hr : r = 0 ∨ r = 1 := by
    rcases r with ⟨_ | _ | n, h⟩
    · left; rfl
    · right; rfl
    · omega
  rcases hr with rfl | rfl
  · exact h.trans ((canon_rows_0 _ _ K.xI K.xII b).trans (if_pos rfl).symm)
  · exact h.trans ((canon_rows_1 _ _ K.xI K.xII b).trans (if_neg (by decide)).symm)

theorem read_row (v : View sig .tc .vmem S1x32768 .f32) (f : v.ty.Contents (Elt Ideal)) (L : List (View.Piece (Elt Ideal) S1x32768 .f32))
    (cov : ∀ y : S1x32768.Idx, ∃ pc ∈ L, y ∈ pc.1.set) (K : KSt Ideal)
    (hL : L = [⟨Rect.unit (s := S1x32768) ![0, 0] ![1, 32768] inb_S1x32768_S1x32768_0_0, K.ld⟩])
    (b : Fin 32768) :
    v.read (Elt Ideal) (v.writes (Elt Ideal) f L) (ix2 (0 : Fin 1) b) = (toSt K b).ld := by
  have h := congrFun (View.read_writes_eq_canon v f L cov) (ix2 (0 : Fin 1) b)
  subst hL
  exact h.trans (congrFun (canon_row _ K.ld) (ix2 (0 : Fin 1) b))

variable (c : Dev nD) (i : grid0.Coords) (arg2 : Memref sig .tc .vmem S2x32768 .f32) (harg2 : arg2.IsWhole) (arg3 : Memref sig .tc .vmem S15x2x8x1 .f32) (harg3 : arg3.IsWhole) (arg4 : Memref sig .tc .vmem S15x2x8 .f32) (harg4 : arg4.IsWhole) (arg5 : Memref sig .tc .vmem S15x2x8x8 .f32) (harg5 : arg5.IsWhole) (arg6 : Memref sig .tc .vmem S15x2x8 .f32) (harg6 : arg6.IsWhole) (arg7 : Memref sig .tc .vmem S15x2x8x8 .f32) (harg7 : arg7.IsWhole) (arg8 : Memref sig .tc .vmem S15x2x8 .f32) (harg8 : arg8.IsWhole) (arg9 : Memref sig .tc .vmem S15x2x8x8 .f32) (harg9 : arg9.IsWhole) (arg10 : Memref sig .tc .vmem S15x2x8 .f32) (harg10 : arg10.IsWhole) (arg11 : Memref sig .tc .vmem S15x2x1x8 .f32) (harg11 : arg11.IsWhole) (arg12 : Memref sig .tc .vmem S15x2x1 .f32) (harg12 : arg12.IsWhole) (arg13 : Memref sig .tc .vmem S2x32768 .f32) (harg13 : arg13.IsWhole) (arg14 : Memref sig .tc .vmem S1x32768 .f32) (harg14 : arg14.IsWhole)
    (x0 : Vec Ideal S2x32768 .f32) (x1 : Vec Ideal S15x2x8x1 .f32) (x2 : Vec Ideal S15x2x8 .f32) (x3 : Vec Ideal S15x2x8x8 .f32) (x4 : Vec Ideal S15x2x8 .f32) (x5 : Vec Ideal S15x2x8x8 .f32) (x6 : Vec Ideal S15x2x8 .f32) (x7 : Vec Ideal S15x2x8x8 .f32) (x8 : Vec Ideal S15x2x8 .f32) (x9 : Vec Ideal S15x2x1x8 .f32) (x10 : Vec Ideal S15x2x1 .f32) (xt0 : TbBuf0 (F := Ideal) c tbM0_0)

theorem out11_apply (r : Fin 2) (b : Fin 32768) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0 (ix2 r b)
      = if r.val = 0 then (Cert.Flow.run (params x1 x2 x3 x4 x5 x6 x7 x8 x9 x10 (swWords c xt0)) (Cert.Flow.init (x0 (ix2 (0 : Fin 2) b)) (x0 (ix2 (1 : Fin 2) b)))).xI
        else (Cert.Flow.run (params x1 x2 x3 x4 x5 x6 x7 x8 x9 x10 (swWords c xt0)) (Cert.Flow.init (x0 (ix2 (0 : Fin 2) b)) (x0 (ix2 (1 : Fin 2) b)))).xII := by
  unfold out0_A_11
  refine (read_rows VO0_11 _ _ (cover0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0) (kFinal c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0)
    (pieces11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0) r b).trans ?_
  rw [final c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0 b]

theorem out12_apply (b : Fin 32768) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0 (ix2 (0 : Fin 1) b)
      = (Cert.Flow.run (params x1 x2 x3 x4 x5 x6 x7 x8 x9 x10 (swWords c xt0)) (Cert.Flow.init (x0 (ix2 (0 : Fin 2) b)) (x0 (ix2 (1 : Fin 2) b)))).ld := by
  unfold out0_A_12
  refine (read_row VO0_12 _ _ (cover0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0) (kFinal c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0)
    (pieces12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0) b).trans ?_
  rw [final c arg2 harg2 arg3 harg3 arg4 harg4 arg5 harg5 arg6 harg6 arg7 harg7 arg8 harg8 arg9 harg9 arg10 harg10 arg11 harg11 arg12 harg12 x0 x1 x2 x3 x4 x5 x6 x7 x8 x9 x10 xt0 b]

end Cert.KernelIdeal.Block

end
-- ==== Proof.KerRun.lean ====
/-
  The idealized kernel's run: block by block the region writes the flow of the transposed batch; the host transposes
  the result back and drops the log-determinants' unit axis.
-/
import proofs.«405999_j47631187312975_2_alg».proof.Proof.Spec
import proofs.«405999_j47631187312975_2_alg».proof.Proof.KerBlock
import Idealize.ShloMosaic.Lib.Pipeline.Value
import Idealize.ShloMosaic.Lib.ValueLayout
import Idealize.ShloMosaic.Lib.Tactic

set_option maxRecDepth 16384

noncomputable section

namespace Cert.KernelIdeal.FlowRun

open Cert.KernelIdeal Idealize.ShloMosaic Idealize.ShloMosaic.TcCoe Idealize.SL.Sem

def paramsOf (m : (ℓ : Loc nD τ sig) → Buf (Elt Ideal) ℓ) (c : Dev nD) : Cert.Flow.Params :=
  ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11)⟩

section Arrays

open Cert.KernelIdeal.Gen Idealize.ShloMosaic.ValueIdx
open Idealize.ShloMosaic.Pipeline (Dat)

variable (m : (ℓ : Loc nD τ sig) → Buf (Elt Ideal) ℓ)

theorem idx_facts (hO : Ok m) : ∀ t : Fin (cfgM m hO).N,
    ((cfgM m hO).win 0).index t (0 : Fin 2) = 0 ∧ ((cfgM m hO).win 0).index t (1 : Fin 2) = t.val
    ∧ ((cfgM m hO).win 11).index t (0 : Fin 2) = 0 ∧ ((cfgM m hO).win 11).index t (1 : Fin 2) = t.val
    ∧ ((cfgM m hO).win 12).index t (0 : Fin 2) = 0 ∧ ((cfgM m hO).win 12).index t (1 : Fin 2) = t.val :=
  (by decide +kernel : ∀ t : Fin grid0.N,
    cc0_transform_0 (grid0.coords t) (0 : Fin 2) = 0 ∧ cc0_transform_0 (grid0.coords t) (1 : Fin 2) = t.val
    ∧ cc0_transform_11 (grid0.coords t) (0 : Fin 2) = 0 ∧ cc0_transform_11 (grid0.coords t) (1 : Fin 2) = t.val
    ∧ cc0_transform_12 (grid0.coords t) (0 : Fin 2) = 0 ∧ cc0_transform_12 (grid0.coords t) (1 : Fin 2) = t.val)

theorem V_main_v0_eq (c : Dev nD) :
    (V m c main_v0 : S2x524288.Idx → EReal) = transpose S2x524288 [1, 0] (m ((c : Thread nD τ).loc main_arg0)) transposes_S524288x2_S2x524288_1_0 := by
  show StableHlo.after hostOps0 (fun b => m (c, b)) (Proc.devRef .tc main_v0) = _
  after_results

theorem iblk0_apply (hO : Ok m) (c : Dev nD) (t : Fin (cfgM m hO).N) (r : Fin 2) (b : Fin 32768) (n : Fin 524288)
    (hn : n.val = 32768 * t.val + b.val) :
    (iblk m hO c 0 t : Vec Ideal S2x32768 .f32) (ix2 r b) = (m ((c : Thread nD τ).loc main_arg0) : S524288x2.Idx → EReal) (ix2 n r) := by
  obtain ⟨e0, e1, -⟩ := idx_facts m hO t
  show V m c main_v0 ((((cfgM m hO).win 0).blk t).view.emb (ix2 r b)) = _
  rw [V_main_v0_eq]
  refine (congrArg _ ?_).trans (transpose_ix2_apply _ _ r n)
  funext a
  apply Fin.ext
  match a with
  | ⟨0, _⟩ => show ((cfgM m hO).win 0).index t (0 : Fin 2) * 2 + 1 * r.val = r.val; rw [e0]; omega
  | ⟨1, _⟩ => show ((cfgM m hO).win 0).index t (1 : Fin 2) * 32768 + 1 * b.val = n.val; rw [e1, hn]; omega

theorem iblk1_eq (hO : Ok m) (c : Dev nD) (t : Fin (cfgM m hO).N) :
    (iblk m hO c 1 t : Vec Ideal S15x2x8x1 .f32) = m ((c : Thread nD τ).loc main_arg1) := by
  refine funext fun (y : S15x2x8x1.Idx) => ?_
  show V m c main_arg1 ((((cfgM m hO).win 1).blk t).view.emb y) = _
  rw [V_main_arg1]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega
  | ⟨3, _⟩ => show 0 * 1 + 1 * (y 3).val = (y 3).val; omega

theorem iblk2_eq (hO : Ok m) (c : Dev nD) (t : Fin (cfgM m hO).N) :
    (iblk m hO c 2 t : Vec Ideal S15x2x8 .f32) = m ((c : Thread nD τ).loc main_arg2) := by
  refine funext fun (y : S15x2x8.Idx) => ?_
  show V m c main_arg2 ((((cfgM m hO).win 2).blk t).view.emb y) = _
  rw [V_main_arg2]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega

theorem iblk3_eq (hO : Ok m) (c : Dev nD) (t : Fin (cfgM m hO).N) :
    (iblk m hO c 3 t : Vec Ideal S15x2x8x8 .f32) = m ((c : Thread nD τ).loc main_arg3) := by
  refine funext fun (y : S15x2x8x8.Idx) => ?_
  show V m c main_arg3 ((((cfgM m hO).win 3).blk t).view.emb y) = _
  rw [V_main_arg3]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega
  | ⟨3, _⟩ => show 0 * 8 + 1 * (y 3).val = (y 3).val; omega

theorem iblk4_eq (hO : Ok m) (c : Dev nD) (t : Fin (cfgM m hO).N) :
    (iblk m hO c 4 t : Vec Ideal S15x2x8 .f32) = m ((c : Thread nD τ).loc main_arg4) := by
  refine funext fun (y : S15x2x8.Idx) => ?_
  show V m c main_arg4 ((((cfgM m hO).win 4).blk t).view.emb y) = _
  rw [V_main_arg4]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega

theorem iblk5_eq (hO : Ok m) (c : Dev nD) (t : Fin (cfgM m hO).N) :
    (iblk m hO c 5 t : Vec Ideal S15x2x8x8 .f32) = m ((c : Thread nD τ).loc main_arg5) := by
  refine funext fun (y : S15x2x8x8.Idx) => ?_
  show V m c main_arg5 ((((cfgM m hO).win 5).blk t).view.emb y) = _
  rw [V_main_arg5]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega
  | ⟨3, _⟩ => show 0 * 8 + 1 * (y 3).val = (y 3).val; omega

theorem iblk6_eq (hO : Ok m) (c : Dev nD) (t : Fin (cfgM m hO).N) :
    (iblk m hO c 6 t : Vec Ideal S15x2x8 .f32) = m ((c : Thread nD τ).loc main_arg6) := by
  refine funext fun (y : S15x2x8.Idx) => ?_
  show V m c main_arg6 ((((cfgM m hO).win 6).blk t).view.emb y) = _
  rw [V_main_arg6]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega

theorem iblk7_eq (hO : Ok m) (c : Dev nD) (t : Fin (cfgM m hO).N) :
    (iblk m hO c 7 t : Vec Ideal S15x2x8x8 .f32) = m ((c : Thread nD τ).loc main_arg7) := by
  refine funext fun (y : S15x2x8x8.Idx) => ?_
  show V m c main_arg7 ((((cfgM m hO).win 7).blk t).view.emb y) = _
  rw [V_main_arg7]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega
  | ⟨3, _⟩ => show 0 * 8 + 1 * (y 3).val = (y 3).val; omega

theorem iblk8_eq (hO : Ok m) (c : Dev nD) (t : Fin (cfgM m hO).N) :
    (iblk m hO c 8 t : Vec Ideal S15x2x8 .f32) = m ((c : Thread nD τ).loc main_arg8) := by
  refine funext fun (y : S15x2x8.Idx) => ?_
  show V m c main_arg8 ((((cfgM m hO).win 8).blk t).view.emb y) = _
  rw [V_main_arg8]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 8 + 1 * (y 2).val = (y 2).val; omega

theorem iblk9_eq (hO : Ok m) (c : Dev nD) (t : Fin (cfgM m hO).N) :
    (iblk m hO c 9 t : Vec Ideal S15x2x1x8 .f32) = m ((c : Thread nD τ).loc main_arg9) := by
  refine funext fun (y : S15x2x1x8.Idx) => ?_
  show V m c main_arg9 ((((cfgM m hO).win 9).blk t).view.emb y) = _
  rw [V_main_arg9]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 1 + 1 * (y 2).val = (y 2).val; omega
  | ⟨3, _⟩ => show 0 * 8 + 1 * (y 3).val = (y 3).val; omega

theorem iblk10_eq (hO : Ok m) (c : Dev nD) (t : Fin (cfgM m hO).N) :
    (iblk m hO c 10 t : Vec Ideal S15x2x1 .f32) = m ((c : Thread nD τ).loc main_arg10) := by
  refine funext fun (y : S15x2x1.Idx) => ?_
  show V m c main_arg10 ((((cfgM m hO).win 10).blk t).view.emb y) = _
  rw [V_main_arg10]
  refine congrArg _ (funext fun a => Fin.ext ?_)
  match a with
  | ⟨0, _⟩ => show 0 * 15 + 1 * (y 0).val = (y 0).val; omega
  | ⟨1, _⟩ => show 0 * 2 + 1 * (y 1).val = (y 1).val; omega
  | ⟨2, _⟩ => show 0 * 1 + 1 * (y 2).val = (y 2).val; omega

theorem tbl_eq (c : Dev nD) : Block.swWords c (tbl m 0) = m ((c : Thread nD τ).loc main_arg11) := by
  obtain rfl : c = 0 := Subsingleton.elim _ _
  exact V_main_arg11 m 0

def rowRun (A : Cert.Flow.Params) (z : S524288x2.Idx → EReal) (n : Fin 524288) : Cert.Flow.St :=
  Cert.Flow.run A (Cert.Flow.init (z (ix2 n (0 : Fin 2))) (z (ix2 n (1 : Fin 2))))

def G11 (A : Cert.Flow.Params) (z : S524288x2.Idx → EReal) : S2x524288.Idx → EReal :=
  fun j => if (j 0).val = 0 then (rowRun A z (j 1)).xI else (rowRun A z (j 1)).xII

def G12 (A : Cert.Flow.Params) (z : S524288x2.Idx → EReal) : S1x524288.Idx → EReal :=
  fun j => (rowRun A z (j 1)).ld

theorem params_eq (hO : Ok m) (c : Dev nD) (t : Fin (cfgM m hO).N) :
    Block.params (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (Block.swWords c (tbl m 0))
      = paramsOf m c := by
  unfold Block.params paramsOf
  rw [iblk1_eq, iblk2_eq, iblk3_eq, iblk4_eq, iblk5_eq, iblk6_eq, iblk7_eq, iblk8_eq, iblk9_eq, iblk10_eq, tbl_eq]

theorem out12_at (c : Dev nD) (i : grid0.Coords) (arg2 : Memref sig .tc .vmem S2x32768 .f32) (harg2 : arg2.IsWhole) (arg3 : Memref sig .tc .vmem S15x2x8x1 .f32) (harg3 : arg3.IsWhole) (arg4 : Memref sig .tc .vmem S15x2x8 .f32) (harg4 : arg4.IsWhole) (arg5 : Memref sig .tc .vmem S15x2x8x8 .f32) (harg5 : arg5.IsWhole) (arg6 : Memref sig .tc .vmem S15x2x8 .f32) (harg6 : arg6.IsWhole) (arg7 : Memref sig .tc .vmem S15x2x8x8 .f32) (harg7 : arg7.IsWhole) (arg8 : Memref sig .tc .vmem S15x2x8 .f32) (harg8 : arg8.IsWhole) (arg9 : Memref sig .tc .vmem S15x2x8x8 .f32) (harg9 : arg9.IsWhole) (arg10 : Memref sig .tc .vmem S15x2x8 .f32) (harg10 : arg10.IsWhole) (arg11 : Memref sig .tc .vmem S15x2x1x8 .f32) (harg11 : arg11.IsWhole) (arg12 : Memref sig .tc .vmem S15x2x1 .f32) (harg12 : arg12.IsWhole) (arg13 : Memref sig .tc .vmem S2x32768 .f32) (harg13 : arg13.IsWhole) (arg14 : Memref sig .tc .vmem S1x32768 .f32) (harg14 : arg14.IsWhole)
    (x0 : Vec Ideal S2x32768 .f32) (x1 : Vec Ideal S15x2x8x1 .f32) (x2 : Vec Ideal S15x2x8 .f32) (x3 : Vec Ideal S15x2x8x8 .f32) (x4 : Vec Ideal S15x2x8 .f32) (x5 : Vec Ideal S15x2x8x8 .f32) (x6 : Vec Ideal S15x2x8 .f32) (x7 : Vec Ideal S15x2x8x8 .f32) (x8 : Vec Ideal S15x2x8 .f32) (x9 : Vec Ideal S15x2x1x8 .f32) (x10 : Vec Ideal S15x2x1 .f32) (xt0 : TbBuf0 (F := Ideal) c tbM0_0)
    (A : Cert.Flow.Params) (z : S524288x2.Idx → EReal) (T : Nat)
    (hp : Block.params x1 x2 x3 x4 x5 x6 x7 x8 x9 x10 (Block.swWords c xt0) = A)
    (hx : ∀ (r : Fin 2) (b : Fin 32768) (n : Fin 524288), n.val = 32768 * T + b.val → x0 (ix2 r b) = z (ix2 n r))
    (j : S1x32768.Idx) (k : S1x524288.Idx) (hk : (k 1).val = 32768 * T + (j 1).val) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0 j = G12 A z k := by
  obtain ⟨a, b, rfl⟩ : ∃ (a : Fin 1) (b : Fin 32768), j = ix2 a b := ⟨j 0, j 1, eq_ix2 j⟩
  obtain rfl : a = 0 := Subsingleton.elim _ _
  rw [Block.out12_apply, hp, hx 0 b (k 1) hk, hx 1 b (k 1) hk]
  rfl

theorem flushed12_eq (hO : Ok m) (c : Dev nD) (t : Fin (cfgM m hO).N) :
    (dats m hO 0 c).flushed 12 t = (((cfgM m hO).win 12).blk t).view.read (Elt Ideal) (G12 (paramsOf m c) (m ((c : Thread nD τ).loc main_arg0))) := by
  show ((cfgM m hO).win 12).cut (grid0.coords t) ((dats m hO 0 c).after 12 t) = _
  rw [after0_12]
  unfold outsAt0
  dsimp only
  obtain ⟨-, -, -, -, e0, e1⟩ := idx_facts m hO t
  refine funext fun (j : S1x32768.Idx) => ?_
  refine out12_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (paramsOf m c) (m ((c : Thread nD τ).loc main_arg0)) t.val (params_eq m hO c t) (iblk0_apply m hO c t) j ((((cfgM m hO).win 12).blk t).view.emb j) ?_
  show ((cfgM m hO).win 12).index t (1 : Fin 2) * 32768 + 1 * (j 1).val = 32768 * t.val + (j 1).val
  rw [e1]; omega

theorem out11_at (c : Dev nD) (i : grid0.Coords) (arg2 : Memref sig .tc .vmem S2x32768 .f32) (harg2 : arg2.IsWhole) (arg3 : Memref sig .tc .vmem S15x2x8x1 .f32) (harg3 : arg3.IsWhole) (arg4 : Memref sig .tc .vmem S15x2x8 .f32) (harg4 : arg4.IsWhole) (arg5 : Memref sig .tc .vmem S15x2x8x8 .f32) (harg5 : arg5.IsWhole) (arg6 : Memref sig .tc .vmem S15x2x8 .f32) (harg6 : arg6.IsWhole) (arg7 : Memref sig .tc .vmem S15x2x8x8 .f32) (harg7 : arg7.IsWhole) (arg8 : Memref sig .tc .vmem S15x2x8 .f32) (harg8 : arg8.IsWhole) (arg9 : Memref sig .tc .vmem S15x2x8x8 .f32) (harg9 : arg9.IsWhole) (arg10 : Memref sig .tc .vmem S15x2x8 .f32) (harg10 : arg10.IsWhole) (arg11 : Memref sig .tc .vmem S15x2x1x8 .f32) (harg11 : arg11.IsWhole) (arg12 : Memref sig .tc .vmem S15x2x1 .f32) (harg12 : arg12.IsWhole) (arg13 : Memref sig .tc .vmem S2x32768 .f32) (harg13 : arg13.IsWhole) (arg14 : Memref sig .tc .vmem S1x32768 .f32) (harg14 : arg14.IsWhole)
    (x0 : Vec Ideal S2x32768 .f32) (x1 : Vec Ideal S15x2x8x1 .f32) (x2 : Vec Ideal S15x2x8 .f32) (x3 : Vec Ideal S15x2x8x8 .f32) (x4 : Vec Ideal S15x2x8 .f32) (x5 : Vec Ideal S15x2x8x8 .f32) (x6 : Vec Ideal S15x2x8 .f32) (x7 : Vec Ideal S15x2x8x8 .f32) (x8 : Vec Ideal S15x2x8 .f32) (x9 : Vec Ideal S15x2x1x8 .f32) (x10 : Vec Ideal S15x2x1 .f32) (xt0 : TbBuf0 (F := Ideal) c tbM0_0)
    (A : Cert.Flow.Params) (z : S524288x2.Idx → EReal) (T : Nat)
    (hp : Block.params x1 x2 x3 x4 x5 x6 x7 x8 x9 x10 (Block.swWords c xt0) = A)
    (hx : ∀ (r : Fin 2) (b : Fin 32768) (n : Fin 524288), n.val = 32768 * T + b.val → x0 (ix2 r b) = z (ix2 n r))
    (j : S2x32768.Idx) (k : S2x524288.Idx) (hk0 : (k 0).val = (j 0).val) (hk1 : (k 1).val = 32768 * T + (j 1).val) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xt0 j = G11 A z k := by
  obtain ⟨r, b, rfl⟩ : ∃ (r : Fin 2) (b : Fin 32768), j = ix2 r b := ⟨j 0, j 1, eq_ix2 j⟩
  have hk0' : (k 0).val = r.val := hk0
  rw [Block.out11_apply, hp, hx 0 b (k 1) hk1, hx 1 b (k 1) hk1]
  unfold G11 rowRun
  rw [hk0']

theorem flushed11_eq (hO : Ok m) (c : Dev nD) (t : Fin (cfgM m hO).N) :
    (dats m hO 0 c).flushed 11 t = (((cfgM m hO).win 11).blk t).view.read (Elt Ideal) (G11 (paramsOf m c) (m ((c : Thread nD τ).loc main_arg0))) := by
  show ((cfgM m hO).win 11).cut (grid0.coords t) ((dats m hO 0 c).after 11 t) = _
  rw [after0_11]
  unfold outsAt0
  dsimp only
  obtain ⟨-, -, e0, e1, -, -⟩ := idx_facts m hO t
  refine funext fun (j : S2x32768.Idx) => ?_
  refine out11_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) (paramsOf m c) (m ((c : Thread nD τ).loc main_arg0)) t.val (params_eq m hO c t) (iblk0_apply m hO c t) j ((((cfgM m hO).win 11).blk t).view.emb j) ?_ ?_
  · show ((cfgM m hO).win 11).index t (0 : Fin 2) * 2 + 1 * (j 0).val = (j 0).val
    rw [e0]; omega
  · show ((cfgM m hO).win 11).index t (1 : Fin 2) * 32768 + 1 * (j 1).val = 32768 * t.val + (j 1).val
    rw [e1]; omega

set_option backward.isDefEq.respectTransparency.types false in
theorem cover12 (hO : Ok m) (i : S1x524288.Idx) :
    ∃ t : Fin (cfgM m hO).N, ((cfgM m hO).win 12).flush t = true ∧ i ∈ (((cfgM m hO).win 12).blk t).view.set := by
  have h0 : (i 0).val < 1 := (i 0).isLt
  have h1 : (i 1).val < 524288 := (i 1).isLt
  obtain ⟨t, ht⟩ : ∃ t : Fin (cfgM m hO).N, t.val = (i 1).val / 32768 :=
    ⟨⟨(i 1).val / 32768, by show (i 1).val / 32768 < grid0.N; rw [N_0]; omega⟩, rfl⟩
  obtain ⟨-, -, -, -, e0, e1⟩ := idx_facts m hO t
  refine ⟨t, flush0_12 (adm m hO) t, ?_⟩
  show i ∈ ((View.whole main_v1_1).slice (((cfgM m hO).win 12).rect t)).set
  rw [View.set_slice_whole]
  refine Rect.mem_set_unit.mpr fun a => ?_
  match a with
  | ⟨0, _⟩ =>
    show ((cfgM m hO).win 12).index t (0 : Fin 2) * 1 ≤ (i 0).val ∧ (i 0).val < ((cfgM m hO).win 12).index t (0 : Fin 2) * 1 + 1
    rw [e0]; omega
  | ⟨1, _⟩ =>
    show ((cfgM m hO).win 12).index t (1 : Fin 2) * 32768 ≤ (i 1).val ∧ (i 1).val < ((cfgM m hO).win 12).index t (1 : Fin 2) * 32768 + 32768
    rw [e1, ht]; omega

set_option backward.isDefEq.respectTransparency.types false in
theorem cover11 (hO : Ok m) (i : S2x524288.Idx) :
    ∃ t : Fin (cfgM m hO).N, ((cfgM m hO).win 11).flush t = true ∧ i ∈ (((cfgM m hO).win 11).blk t).view.set := by
  have h0 : (i 0).val < 2 := (i 0).isLt
  have h1 : (i 1).val < 524288 := (i 1).isLt
  obtain ⟨t, ht⟩ : ∃ t : Fin (cfgM m hO).N, t.val = (i 1).val / 32768 :=
    ⟨⟨(i 1).val / 32768, by show (i 1).val / 32768 < grid0.N; rw [N_0]; omega⟩, rfl⟩
  obtain ⟨-, -, e0, e1, -, -⟩ := idx_facts m hO t
  refine ⟨t, flush0_11 (adm m hO) t, ?_⟩
  show i ∈ ((View.whole main_v1_0).slice (((cfgM m hO).win 11).rect t)).set
  rw [View.set_slice_whole]
  refine Rect.mem_set_unit.mpr fun a => ?_
  match a with
  | ⟨0, _⟩ =>
    show ((cfgM m hO).win 11).index t (0 : Fin 2) * 2 ≤ (i 0).val ∧ (i 0).val < ((cfgM m hO).win 11).index t (0 : Fin 2) * 2 + 2
    rw [e0]; omega
  | ⟨1, _⟩ =>
    show ((cfgM m hO).win 11).index t (1 : Fin 2) * 32768 ≤ (i 1).val ∧ (i 1).val < ((cfgM m hO).win 11).index t (1 : Fin 2) * 32768 + 32768
    rw [e1, ht]; omega

theorem final12 (hO : Ok m) (c : Dev nD) :
    (dats m hO 0 c).arrAt 12 (cfgM m hO).N = G12 (paramsOf m c) (m ((c : Thread nD τ).loc main_arg0)) :=
  (dats m hO 0 c).arrAt_eq_of_cover 12 (G12 (paramsOf m c) (m ((c : Thread nD τ).loc main_arg0))) (fun t _ => flushed12_eq m hO c t) (cover12 m hO)

theorem final11 (hO : Ok m) (c : Dev nD) :
    (dats m hO 0 c).arrAt 11 (cfgM m hO).N = G11 (paramsOf m c) (m ((c : Thread nD τ).loc main_arg0)) :=
  (dats m hO 0 c).arrAt_eq_of_cover 11 (G11 (paramsOf m c) (m ((c : Thread nD τ).loc main_arg0))) (fun t _ => flushed11_eq m hO c t) (cover11 m hO)

theorem exit12 (hO : Ok m) (c : Dev nD) :
    Pipeline.withArrays spec0 c (V0 m c) (fun w => (dats m hO 0 c).arrAt w (cfgM m hO).N) (Proc.devRef .tc main_v1_1)
      = G12 (paramsOf m c) (m ((c : Thread nD τ).loc main_arg0)) :=
  (Pipeline.withArrays_arr spec0 (launch0 (F := Ideal)).win.arr_inj c _ _ 12).trans (final12 m hO c)

theorem exit11 (hO : Ok m) (c : Dev nD) :
    Pipeline.withArrays spec0 c (V0 m c) (fun w => (dats m hO 0 c).arrAt w (cfgM m hO).N) (Proc.devRef .tc main_v1_0)
      = G11 (paramsOf m c) (m ((c : Thread nD τ).loc main_arg0)) :=
  (Pipeline.withArrays_arr spec0 (launch0 (F := Ideal)).win.arr_inj c _ _ 11).trans (final11 m hO c)

theorem tail_v3 (hO : Ok m) (c : Dev nD) :
    Pipeline.afterTail pcfgs (fun _ => adm m hO) (dats m hO) 0 (V0 m) [hostOps1] c main_v3
      = Cert.Flow.outLd (paramsOf m c) (m ((c : Thread nD τ).loc main_arg0)) := by
  unfold Pipeline.afterTail
  show StableHlo.after hostOps1 _ (Proc.devRef .tc main_v3) = _
  after_results
  refine funext fun (j : S524288.Idx) => ?_
  show shapeCast S524288 (Pipeline.withArrays spec0 c (V0 m c) (fun w => (dats m hO 0 c).arrAt w (cfgM m hO).N) (Proc.devRef .tc main_v1_1)) shapeCasts_S1x524288_S524288 j = _
  refine (shapeCast_apply _ _ j (ix2 (0 : Fin 1) (j 0)) ?_).trans ((congrFun (exit12 m hO c) _).trans rfl)
  rw [Shape.rowMajor_val_two, Shape.rowMajor_val_one]
  show (0 : Nat) * 524288 + (j 0).val = (j 0).val
  omega

theorem tail_v2 (hO : Ok m) (c : Dev nD) :
    Pipeline.afterTail pcfgs (fun _ => adm m hO) (dats m hO) 0 (V0 m) [hostOps1] c main_v2
      = Cert.Flow.outX (paramsOf m c) (m ((c : Thread nD τ).loc main_arg0)) := by
  unfold Pipeline.afterTail
  show StableHlo.after hostOps1 _ (Proc.devRef .tc main_v2) = _
  after_results
  refine funext fun (j : S524288x2.Idx) => ?_
  obtain ⟨n, r, rfl⟩ : ∃ (n : Fin 524288) (r : Fin 2), j = ix2 n r := ⟨j 0, j 1, eq_ix2 j⟩
  show transpose S524288x2 [1, 0] (Pipeline.withArrays spec0 c (V0 m c) (fun w => (dats m hO 0 c).arrAt w (cfgM m hO).N) (Proc.devRef .tc main_v1_0)) transposes_S2x524288_S524288x2_1_0 (ix2 n r) = _
  exact (transpose_ix2_apply _ _ n r).trans ((congrFun (exit11 m hO c) _).trans rfl)

end Arrays

theorem run (m : (ℓ : Loc nD τ sig) → Buf (Elt Ideal) ℓ) (ρ : Dev nD → PrngReg) (hO : Cert.KernelIdeal.Gen.Ok m) :
    θ_run (defs (F := Ideal)) (onTc (τ := τ) (main (F := Ideal))) ⟨m, fun _ => 0, ρ⟩ (fun r => ∀ c : Dev nD,
      r.2.mem ((c.tc : Thread nD τ).loc main_v2) = Cert.Flow.outX (paramsOf m c) (m ((c.tc : Thread nD τ).loc main_arg0))
      ∧ r.2.mem ((c.tc : Thread nD τ).loc main_v3) = Cert.Flow.outLd (paramsOf m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v2 (by decide : main_v2 ∈ Pipeline.restRefs sig spec0)).trans (tail_v2 m hO c),
      ((h c).2 main_v3 (by decide : main_v3 ∈ Pipeline.restRefs sig spec0)).trans (tail_v3 m hO c),
      ((h c).2 main_arg0 (by decide : main_arg0 ∈ Pipeline.restRefs sig spec0)).trans (Gen.W_main_arg0 m hO (Gen.dats m hO) c),
      ((h c).1 1).trans (((Gen.dats m hO 0 c).arrAt_in 1 rfl _).trans ((Gen.A_eq m hO c 1).trans (Gen.V_main_arg1 m c))),
      ((h c).1 2).trans (((Gen.dats m hO 0 c).arrAt_in 2 rfl _).trans ((Gen.A_eq m hO c 2).trans (Gen.V_main_arg2 m c))),
      ((h c).1 3).trans (((Gen.dats m hO 0 c).arrAt_in 3 rfl _).trans ((Gen.A_eq m hO c 3).trans (Gen.V_main_arg3 m c))),
      ((h c).1 4).trans (((Gen.dats m hO 0 c).arrAt_in 4 rfl _).trans ((Gen.A_eq m hO c 4).trans (Gen.V_main_arg4 m c))),
      ((h c).1 5).trans (((Gen.dats m hO 0 c).arrAt_in 5 rfl _).trans ((Gen.A_eq m hO c 5).trans (Gen.V_main_arg5 m c))),
      ((h c).1 6).trans (((Gen.dats m hO 0 c).arrAt_in 6 rfl _).trans ((Gen.A_eq m hO c 6).trans (Gen.V_main_arg6 m c))),
      ((h c).1 7).trans (((Gen.dats m hO 0 c).arrAt_in 7 rfl _).trans ((Gen.A_eq m hO c 7).trans (Gen.V_main_arg7 m c))),
      ((h c).1 8).trans (((Gen.dats m hO 0 c).arrAt_in 8 rfl _).trans ((Gen.A_eq m hO c 8).trans (Gen.V_main_arg8 m c))),
      ((h c).1 9).trans (((Gen.dats m hO 0 c).arrAt_in 9 rfl _).trans ((Gen.A_eq m hO c 9).trans (Gen.V_main_arg9 m c))),
      ((h c).1 10).trans (((Gen.dats m hO 0 c).arrAt_in 10 rfl _).trans ((Gen.A_eq m hO c 10).trans (Gen.V_main_arg10 m c))),
      ((h c).2 main_arg11 (by decide : main_arg11 ∈ Pipeline.restRefs sig spec0)).trans (Gen.W_main_arg11 m hO (Gen.dats m hO) c)⟩)
    (Gen.run_main m ρ hO)

end Cert.KernelIdeal.FlowRun

end
-- ==== Proof.RefRelu.lean ====
/- One call of the leaky rectifier: the seven host operations of its body, over the call's record of buffers. -/
import proofs.«405999_j47631187312975_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.StableHlo

variable {F : FTy → Type} [FloatOps F]

abbrev reluOps (x : TRef sig ⟨S524288x8, .f32⟩) (s : TRef sig ⟨S_, .f32⟩) (r : fn_leaky_relu.Bufs) : List (HloOp τ sig (Elt F)) :=
  [ TRef.nullary r.cst (constant S_ .f32 0x00000000#32),
    TRef.unary r.cst r.v0 (broadcastInDim S524288x8 ![] bcast_S_S524288x8),
    TRef.binary x r.v0 r.v1 (cmpf .oge),
    TRef.unary s r.v2 id,
    TRef.unary r.v2 r.v3 (broadcastInDim S524288x8 ![] bcast_S_S524288x8),
    TRef.binary r.v3 x r.v4 mulf,
    TRef.ternary r.v1 x r.v4 r.call0.v0 select ]

end Cert.ReferenceIdeal.RefRun

end
-- ==== Proof.RefOps0.lean ====
/- The reference program's host operations in order, as lists: layers 0 to 2. -/
import proofs.«405999_j47631187312975_2_alg».proof.Proof.Gen.ReferenceIdeal
import proofs.«405999_j47631187312975_2_alg».proof.Proof.RefRelu

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ck0_0 : List (HloOp τ sig (Elt F)) :=
  [ nullary main_cst (constant S_ .f32 0x00000000#32),
    unary main_cst main_v0 (broadcastInDim S524288 ![] bcast_S_S524288),
    unary main_arg0 main_v1 (extractStridedSlice S524288x1 ![0, 0] · slices_S524288x2_S524288x1_0_0),
    unary main_arg0 main_v2 (extractStridedSlice S524288x1 ![0, 1] · slices_S524288x2_S524288x1_0_1),
    unary main_arg1 main_v3 (extractStridedSlice S1x1x8x1 ![0, 0, 0, 0] · slices_S15x2x8x1_S1x1x8x1_0_0_0_0),
    reshape main_v3 main_v4 rfl shapeCasts_S1x1x8x1_S8x1,
    unary main_arg2 main_v5 (extractStridedSlice S1x1x8 ![0, 0, 0] · slices_S15x2x8_S1x1x8_0_0_0),
    reshape main_v5 main_v6 rfl shapeCasts_S1x1x8_S8,
    unary main_arg3 main_v7 (extractStridedSlice S1x1x8x8 ![0, 0, 0, 0] · slices_S15x2x8x8_S1x1x8x8_0_0_0_0),
    reshape main_v7 main_v8 rfl shapeCasts_S1x1x8x8_S8x8,
    unary main_arg4 main_v9 (extractStridedSlice S1x1x8 ![0, 0, 0] · slices_S15x2x8_S1x1x8_0_0_0),
    reshape main_v9 main_v10 rfl shapeCasts_S1x1x8_S8,
    unary main_arg5 main_v11 (extractStridedSlice S1x1x8x8 ![0, 0, 0, 0] · slices_S15x2x8x8_S1x1x8x8_0_0_0_0),
    reshape main_v11 main_v12 rfl shapeCasts_S1x1x8x8_S8x8,
    unary main_arg6 main_v13 (extractStridedSlice S1x1x8 ![0, 0, 0] · slices_S15x2x8_S1x1x8_0_0_0),
    reshape main_v13 main_v14 rfl shapeCasts_S1x1x8_S8,
    unary main_arg7 main_v15 (extractStridedSlice S1x1x8x8 ![0, 0, 0, 0] · slices_S15x2x8x8_S1x1x8x8_0_0_0_0),
    reshape main_v15 main_v16 rfl shapeCasts_S1x1x8x8_S8x8,
    unary main_arg8 main_v17 (extractStridedSlice S1x1x8 ![0, 0, 0] · slices_S15x2x8_S1x1x8_0_0_0),
    reshape main_v17 main_v18 rfl shapeCasts_S1x1x8_S8,
    unary main_arg9 main_v19 (extractStridedSlice S1x1x1x8 ![0, 0, 0, 0] · slices_S15x2x1x8_S1x1x1x8_0_0_0_0),
    reshape main_v19 main_v20 rfl shapeCasts_S1x1x1x8_S1x8,
    unary main_arg10 main_v21 (extractStridedSlice S1x1x1 ![0, 0, 0] · slices_S15x2x1_S1x1x1_0_0_0),
    reshape main_v21 main_v22 rfl shapeCasts_S1x1x1_S1,
    unary main_v4 main_v23 (transpose S1x8 [1, 0] · transposes_S8x1_S1x8_1_0),
    binary main_v1 main_v23 main_v24 (fun l r => Host.dotGeneral dot_S524288x1_S1x8_S524288x8_1_0_0_1_n_n none l r),
    unary main_v6 main_v25 (broadcastInDim S1x8 ![1] bcast_S8_S1x8_1),
    unary main_v25 main_v26 (broadcastInDim S524288x8 ![0, 1] bcast_S1x8_S524288x8_0_1),
    binary main_v24 main_v26 main_v27 addf,
    nullary main_cst_0 (constant S_ .f32 0x3C23D70A#32) ] ++ (
  reluOps (.of main_v27) (.of main_cst_0) main_call0 ++ (
  [ unary main_v8 main_v29 (transpose S8x8 [1, 0] · transposes_S8x8_S8x8_1_0),
    binary main_v28 main_v29 main_v30 (fun l r => Host.dotGeneral dot_S524288x8_S8x8_S524288x8_1_0_0_1_n_n none l r),
    unary main_v10 main_v31 (broadcastInDim S1x8 ![1] bcast_S8_S1x8_1),
    unary main_v31 main_v32 (broadcastInDim S524288x8 ![0, 1] bcast_S1x8_S524288x8_0_1),
    binary main_v30 main_v32 main_v33 addf,
    nullary main_cst_1 (constant S_ .f32 0x3C23D70A#32) ] ++ (
  reluOps (.of main_v33) (.of main_cst_1) main_call1 ++ (
  [ unary main_v12 main_v35 (transpose S8x8 [1, 0] · transposes_S8x8_S8x8_1_0),
    binary main_v34 main_v35 main_v36 (fun l r => Host.dotGeneral dot_S524288x8_S8x8_S524288x8_1_0_0_1_n_n none l r),
    unary main_v14 main_v37 (broadcastInDim S1x8 ![1] bcast_S8_S1x8_1),
    unary main_v37 main_v38 (broadcastInDim S524288x8 ![0, 1] bcast_S1x8_S524288x8_0_1),
    binary main_v36 main_v38 main_v39 addf,
    nullary main_cst_2 (constant S_ .f32 0x3C23D70A#32) ] ++ (
  reluOps (.of main_v39) (.of main_cst_2) main_call2 ++ (
  [ unary main_v16 main_v41 (transpose S8x8 [1, 0] · transposes_S8x8_S8x8_1_0),
    binary main_v40 main_v41 main_v42 (fun l r => Host.dotGeneral dot_S524288x8_S8x8_S524288x8_1_0_0_1_n_n none l r),
    unary main_v18 main_v43 (broadcastInDim S1x8 ![1] bcast_S8_S1x8_1),
    unary main_v43 main_v44 (broadcastInDim S524288x8 ![0, 1] bcast_S1x8_S524288x8_0_1),
    binary main_v42 main_v44 main_v45 addf,
    nullary main_cst_3 (constant S_ .f32 0x3C23D70A#32) ] ++ (
  reluOps (.of main_v45) (.of main_cst_3) main_call3 ++ (
  [ unary main_v20 main_v47 (transpose S8x1 [1, 0] · transposes_S1x8_S8x1_1_0),
    binary main_v46 main_v47 main_v48 (fun l r => Host.dotGeneral dot_S524288x8_S8x1_S524288x1_1_0_0_1_n_n none l r),
    unary main_v22 main_v49 (broadcastInDim S1x1 ![1] bcast_S1_S1x1_1),
    unary main_v49 main_v50 (broadcastInDim S524288x1 ![0, 1] bcast_S1x1_S524288x1_0_1),
    binary main_v48 main_v50 main_v51 addf,
    unary main_arg1 main_v52 (extractStridedSlice S1x1x8x1 ![0, 1, 0, 0] · slices_S15x2x8x1_S1x1x8x1_0_1_0_0),
    reshape main_v52 main_v53 rfl shapeCasts_S1x1x8x1_S8x1,
    unary main_arg2 main_v54 (extractStridedSlice S1x1x8 ![0, 1, 0] · slices_S15x2x8_S1x1x8_0_1_0) ]))))))))
theorem ck0_0_sub : (ck0_0 : List (HloOp τ sig (Elt F))).Forall fun op => op.bufs ⊆ tcRefs τ sig :=
  ⟨nullary_bufs_sub .., unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub .., unary_bufs_sub ..⟩

abbrev ck1_0 : List (HloOp τ sig (Elt F)) :=
  [ reshape main_v54 main_v55 rfl shapeCasts_S1x1x8_S8,
    unary main_arg3 main_v56 (extractStridedSlice S1x1x8x8 ![0, 1, 0, 0] · slices_S15x2x8x8_S1x1x8x8_0_1_0_0),
    reshape main_v56 main_v57 rfl shapeCasts_S1x1x8x8_S8x8,
    unary main_arg4 main_v58 (extractStridedSlice S1x1x8 ![0, 1, 0] · slices_S15x2x8_S1x1x8_0_1_0),
    reshape main_v58 main_v59 rfl shapeCasts_S1x1x8_S8,
    unary main_arg5 main_v60 (extractStridedSlice S1x1x8x8 ![0, 1, 0, 0] · slices_S15x2x8x8_S1x1x8x8_0_1_0_0),
    reshape main_v60 main_v61 rfl shapeCasts_S1x1x8x8_S8x8,
    unary main_arg6 main_v62 (extractStridedSlice S1x1x8 ![0, 1, 0] · slices_S15x2x8_S1x1x8_0_1_0),
    reshape main_v62 main_v63 rfl shapeCasts_S1x1x8_S8,
    unary main_arg7 main_v64 (extractStridedSlice S1x1x8x8 ![0, 1, 0, 0] · slices_S15x2x8x8_S1x1x8x8_0_1_0_0),
    reshape main_v64 main_v65 rfl shapeCasts_S1x1x8x8_S8x8,
    unary main_arg8 main_v66 (extractStridedSlice S1x1x8 ![0, 1, 0] · slices_S15x2x8_S1x1x8_0_1_0),
    reshape main_v66 main_v67 rfl shapeCasts_S1x1x8_S8,
    unary main_arg9 main_v68 (extractStridedSlice S1x1x1x8 ![0, 1, 0, 0] · slices_S15x2x1x8_S1x1x1x8_0_1_0_0),
    reshape main_v68 main_v69 rfl shapeCasts_S1x1x1x8_S1x8,
    unary main_arg10 main_v70 (extractStridedSlice S1x1x1 ![0, 1, 0] · slices_S15x2x1_S1x1x1_0_1_0),
    reshape main_v70 main_v71 rfl shapeCasts_S1x1x1_S1,
    unary main_v53 main_v72 (transpose S1x8 [1, 0] · transposes_S8x1_S1x8_1_0),
    binary main_v1 main_v72 main_v73 (fun l r => Host.dotGeneral dot_S524288x1_S1x8_S524288x8_1_0_0_1_n_n none l r),
    unary main_v55 main_v74 (broadcastInDim S1x8 ![1] bcast_S8_S1x8_1),
    unary main_v74 main_v75 (broadcastInDim S524288x8 ![0, 1] bcast_S1x8_S524288x8_0_1),
    binary main_v73 main_v75 main_v76 addf,
    nullary main_cst_4 (constant S_ .f32 0x3C23D70A#32) ] ++ (
  reluOps (.of main_v76) (.of main_cst_4) main_call4 ++ (
  [ unary main_v57 main_v78 (transpose S8x8 [1, 0] · transposes_S8x8_S8x8_1_0),
    binary main_v77 main_v78 main_v79 (fun l r => Host.dotGeneral dot_S524288x8_S8x8_S524288x8_1_0_0_1_n_n none l r),
    unary main_v59 main_v80 (broadcastInDim S1x8 ![1] bcast_S8_S1x8_1),
    unary main_v80 main_v81 (broadcastInDim S524288x8 ![0, 1] bcast_S1x8_S524288x8_0_1),
    binary main_v79 main_v81 main_v82 addf,
    nullary main_cst_5 (constant S_ .f32 0x3C23D70A#32) ] ++ (
  reluOps (.of main_v82) (.of main_cst_5) main_call5 ++ (
  [ unary main_v61 main_v84 (transpose S8x8 [1, 0] · transposes_S8x8_S8x8_1_0),
    binary main_v83 main_v84 main_v85 (fun l r => Host.dotGeneral dot_S524288x8_S8x8_S524288x8_1_0_0_1_n_n none l r),
    unary main_v63 main_v86 (broadcastInDim S1x8 ![1] bcast_S8_S1x8_1),
    unary main_v86 main_v87 (broadcastInDim S524288x8 ![0, 1] bcast_S1x8_S524288x8_0_1),
    binary main_v85 main_v87 main_v88 addf,
    nullary main_cst_6 (constant S_ .f32 0x3C23D70A#32) ] ++ (
  reluOps (.of main_v88) (.of main_cst_6) main_call6 ++ (
  [ unary main_v65 main_v90 (transpose S8x8 [1, 0] · transposes_S8x8_S8x8_1_0),
    binary main_v89 main_v90 main_v91 (fun l r => Host.dotGeneral dot_S524288x8_S8x8_S524288x8_1_0_0_1_n_n none l r),
    unary main_v67 main_v92 (broadcastInDim S1x8 ![1] bcast_S8_S1x8_1),
    unary main_v92 main_v93 (broadcastInDim S524288x8 ![0, 1] bcast_S1x8_S524288x8_0_1),
    binary main_v91 main_v93 main_v94 addf,
    nullary main_cst_7 (constant S_ .f32 0x3C23D70A#32) ] ++ (
  reluOps (.of main_v94) (.of main_cst_7) main_call7 ++ (
  [ unary main_v69 main_v96 (transpose S8x1 [1, 0] · transposes_S1x8_S8x1_1_0),
    binary main_v95 main_v96 main_v97 (fun l r => Host.dotGeneral dot_S524288x8_S8x1_S524288x1_1_0_0_1_n_n none l r),
    unary main_v71 main_v98 (broadcastInDim S1x1 ![1] bcast_S1_S1x1_1),
    unary main_v98 main_v99 (broadcastInDim S524288x1 ![0, 1] bcast_S1x1_S524288x1_0_1),
    binary main_v97 main_v99 main_v100 addf,
    unary main_v51 main_v101 Host.exp,
    binary main_v101 main_v2 main_v102 mulf,
    binary main_v102 main_v100 main_v103 addf,
    nullary main_cst_8 (constant S_ .f32 0x00000000#32),
    binary main_v51 main_cst_8 main_v104 ((fun x v => Host.reduceAdd x v reducesTo_S524288x1_S524288_d1 h_S_)),
    binary main_v0 main_v104 main_v105 addf,
    binary main_v1 main_v103 main_v106 ((fun a b => concatenate S524288x2 1 [⟨S524288x1, a⟩, ⟨S524288x1, b⟩] concatenates_S524288x1_S524288x1_S524288x2_d1)),
    unary main_arg11 main_v107 (extractStridedSlice S1 ![0] · slices_S14_S1_0),
    reshape main_v107 main_v108 rfl shapeCasts_S1_S_,
    nullary main_c (constantI S_ 32 0#32) ]))))))))
theorem ck1_0_sub : (ck1_0 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., binary_bufs_sub .., binary_bufs_sub .., unary_bufs_sub .., reshape_bufs_sub .., nullary_bufs_sub ..⟩

abbrev ck2_0 : List (HloOp τ sig (Elt F)) :=
  [ binary main_v108 main_c main_v109 (cmpi .sgt),
    unary main_v106 main_v110 (Host.reverse [1]),
    TRef.ternary (.of main_v109) (.of main_v110) (.of main_v106) main_call8.v0 (fun p a b => select (broadcastInDim S524288x2 ![] bcast_S_S524288x2 p) a b) ]
theorem ck2_0_sub : (ck2_0 : List (HloOp τ sig (Elt F))).Forall fun op => op.bufs ⊆ tcRefs τ sig :=
  ⟨binary_bufs_sub .., unary_bufs_sub .., ternary_bufs_sub ..⟩

abbrev ck2_1 : List (HloOp τ sig (Elt F)) :=
  [ unary main_v111 main_v112 (extractStridedSlice S524288x1 ![0, 0] · slices_S524288x2_S524288x1_0_0),
    unary main_v111 main_v113 (extractStridedSlice S524288x1 ![0, 1] · slices_S524288x2_S524288x1_0_1),
    unary main_arg1 main_v114 (extractStridedSlice S1x1x8x1 ![1, 0, 0, 0] · slices_S15x2x8x1_S1x1x8x1_1_0_0_0),
    reshape main_v114 main_v115 rfl shapeCasts_S1x1x8x1_S8x1,
    unary main_arg2 main_v116 (extractStridedSlice S1x1x8 ![1, 0, 0] · slices_S15x2x8_S1x1x8_1_0_0),
    reshape main_v116 main_v117 rfl shapeCasts_S1x1x8_S8,
    unary main_arg3 main_v118 (extractStridedSlice S1x1x8x8 ![1, 0, 0, 0] · slices_S15x2x8x8_S1x1x8x8_1_0_0_0),
    reshape main_v118 main_v119 rfl shapeCasts_S1x1x8x8_S8x8,
    unary main_arg4 main_v120 (extractStridedSlice S1x1x8 ![1, 0, 0] · slices_S15x2x8_S1x1x8_1_0_0),
    reshape main_v120 main_v121 rfl shapeCasts_S1x1x8_S8,
    unary main_arg5 main_v122 (extractStridedSlice S1x1x8x8 ![1, 0, 0, 0] · slices_S15x2x8x8_S1x1x8x8_1_0_0_0),
    reshape main_v122 main_v123 rfl shapeCasts_S1x1x8x8_S8x8,
    unary main_arg6 main_v124 (extractStridedSlice S1x1x8 ![1, 0, 0] · slices_S15x2x8_S1x1x8_1_0_0),
    reshape main_v124 main_v125 rfl shapeCasts_S1x1x8_S8,
    unary main_arg7 main_v126 (extractStridedSlice S1x1x8x8 ![1, 0, 0, 0] · slices_S15x2x8x8_S1x1x8x8_1_0_0_0),
    reshape main_v126 main_v127 rfl shapeCasts_S1x1x8x8_S8x8,
    unary main_arg8 main_v128 (extractStridedSlice S1x1x8 ![1, 0, 0] · slices_S15x2x8_S1x1x8_1_0_0),
    reshape main_v128 main_v129 rfl shapeCasts_S1x1x8_S8,
    unary main_arg9 main_v130 (extractStridedSlice S1x1x1x8 ![1, 0, 0, 0] · slices_S15x2x1x8_S1x1x1x8_1_0_0_0),
    reshape main_v130 main_v131 rfl shapeCasts_S1x1x1x8_S1x8,
    unary main_arg10 main_v132 (extractStridedSlice S1x1x1 ![1, 0, 0] · slices_S15x2x1_S1x1x1_1_0_0),
    reshape main_v132 main_v133 rfl shapeCasts_S1x1x1_S1,
    unary main_v115 main_v134 (transpose S1x8 [1, 0] · transposes_S8x1_S1x8_1_0),
    binary main_v112 main_v134 main_v135 (fun l r => Host.dotGeneral dot_S524288x1_S1x8_S524288x8_1_0_0_1_n_n none l r),
    unary main_v117 main_v136 (broadcastInDim S1x8 ![1] bcast_S8_S1x8_1),
    unary main_v136 main_v137 (broadcastInDim S524288x8 ![0, 1] bcast_S1x8_S524288x8_0_1),
    binary main_v135 main_v137 main_v138 addf,
    nullary main_cst_9 (constant S_ .f32 0x3C23D70A#32) ] ++ (
  reluOps (.of main_v138) (.of main_cst_9) main_call9 ++ (
  [ unary main_v119 main_v140 (transpose S8x8 [1, 0] · transposes_S8x8_S8x8_1_0),
    binary main_v139 main_v140 main_v141 (fun l r => Host.dotGeneral dot_S524288x8_S8x8_S524288x8_1_0_0_1_n_n none l r),
    unary main_v121 main_v142 (broadcastInDim S1x8 ![1] bcast_S8_S1x8_1),
    unary main_v142 main_v143 (broadcastInDim S524288x8 ![0, 1] bcast_S1x8_S524288x8_0_1),
    binary main_v141 main_v143 main_v144 addf,
    nullary main_cst_10 (constant S_ .f32 0x3C23D70A#32) ] ++ (
  reluOps (.of main_v144) (.of main_cst_10) main_call10 ++ (
  [ unary main_v123 main_v146 (transpose S8x8 [1, 0] · transposes_S8x8_S8x8_1_0),
    binary main_v145 main_v146 main_v147 (fun l r => Host.dotGeneral dot_S524288x8_S8x8_S524288x8_1_0_0_1_n_n none l r),
    unary main_v125 main_v148 (broadcastInDim S1x8 ![1] bcast_S8_S1x8_1),
    unary main_v148 main_v149 (broadcastInDim S524288x8 ![0, 1] bcast_S1x8_S524288x8_0_1),
    binary main_v147 main_v149 main_v150 addf,
    nullary main_cst_11 (constant S_ .f32 0x3C23D70A#32) ] ++ (
  reluOps (.of main_v150) (.of main_cst_11) main_call11 ++ (
  [ unary main_v127 main_v152 (transpose S8x8 [1, 0] · transposes_S8x8_S8x8_1_0),
    binary main_v151 main_v152 main_v153 (fun l r => Host.dotGeneral dot_S524288x8_S8x8_S524288x8_1_0_0_1_n_n none l r),
    unary main_v129 main_v154 (broadcastInDim S1x8 ![1] bcast_S8_S1x8_1),
    unary main_v154 main_v155 (broadcastInDim S524288x8 ![0, 1] bcast_S1x8_S524288x8_0_1),
    binary main_v153 main_v155 main_v156 addf,
    nullary main_cst_12 (constant S_ .f32 0x3C23D70A#32) ] ++ (
  reluOps (.of main_v156) (.of main_cst_12) main_call12 ++ (
  [ unary main_v131 main_v158 (transpose S8x1 [1, 0] · transposes_S1x8_S8x1_1_0),
    binary main_v157 main_v158 main_v159 (fun l r => Host.dotGeneral dot_S524288x8_S8x1_S524288x1_1_0_0_1_n_n none l r),
    unary main_v133 main_v160 (broadcastInDim S1x1 ![1] bcast_S1_S1x1_1),
    unary main_v160 main_v161 (broadcastInDim S524288x1 ![0, 1] bcast_S1x1_S524288x1_0_1),
    binary main_v159 main_v161 main_v162 addf,
    unary main_arg1 main_v163 (extractStridedSlice S1x1x8x1 ![1, 1, 0, 0] · slices_S15x2x8x1_S1x1x8x1_1_1_0_0),
    reshape main_v163 main_v164 rfl shapeCasts_S1x1x8x1_S8x1 ]))))))))
theorem ck2_1_sub : (ck2_1 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub ..⟩

abbrev ck3_1 : List (HloOp τ sig (Elt F)) :=
  [ unary main_arg2 main_v165 (extractStridedSlice S1x1x8 ![1, 1, 0] · slices_S15x2x8_S1x1x8_1_1_0),
    reshape main_v165 main_v166 rfl shapeCasts_S1x1x8_S8,
    unary main_arg3 main_v167 (extractStridedSlice S1x1x8x8 ![1, 1, 0, 0] · slices_S15x2x8x8_S1x1x8x8_1_1_0_0),
    reshape main_v167 main_v168 rfl shapeCasts_S1x1x8x8_S8x8,
    unary main_arg4 main_v169 (extractStridedSlice S1x1x8 ![1, 1, 0] · slices_S15x2x8_S1x1x8_1_1_0),
    reshape main_v169 main_v170 rfl shapeCasts_S1x1x8_S8,
    unary main_arg5 main_v171 (extractStridedSlice S1x1x8x8 ![1, 1, 0, 0] · slices_S15x2x8x8_S1x1x8x8_1_1_0_0),
    reshape main_v171 main_v172 rfl shapeCasts_S1x1x8x8_S8x8,
    unary main_arg6 main_v173 (extractStridedSlice S1x1x8 ![1, 1, 0] · slices_S15x2x8_S1x1x8_1_1_0),
    reshape main_v173 main_v174 rfl shapeCasts_S1x1x8_S8,
    unary main_arg7 main_v175 (extractStridedSlice S1x1x8x8 ![1, 1, 0, 0] · slices_S15x2x8x8_S1x1x8x8_1_1_0_0),
    reshape main_v175 main_v176 rfl shapeCasts_S1x1x8x8_S8x8,
    unary main_arg8 main_v177 (extractStridedSlice S1x1x8 ![1, 1, 0] · slices_S15x2x8_S1x1x8_1_1_0),
    reshape main_v177 main_v178 rfl shapeCasts_S1x1x8_S8,
    unary main_arg9 main_v179 (extractStridedSlice S1x1x1x8 ![1, 1, 0, 0] · slices_S15x2x1x8_S1x1x1x8_1_1_0_0),
    reshape main_v179 main_v180 rfl shapeCasts_S1x1x1x8_S1x8,
    unary main_arg10 main_v181 (extractStridedSlice S1x1x1 ![1, 1, 0] · slices_S15x2x1_S1x1x1_1_1_0),
    reshape main_v181 main_v182 rfl shapeCasts_S1x1x1_S1,
    unary main_v164 main_v183 (transpose S1x8 [1, 0] · transposes_S8x1_S1x8_1_0),
    binary main_v112 main_v183 main_v184 (fun l r => Host.dotGeneral dot_S524288x1_S1x8_S524288x8_1_0_0_1_n_n none l r),
    unary main_v166 main_v185 (broadcastInDim S1x8 ![1] bcast_S8_S1x8_1),
    unary main_v185 main_v186 (broadcastInDim S524288x8 ![0, 1] bcast_S1x8_S524288x8_0_1),
    binary main_v184 main_v186 main_v187 addf,
    nullary main_cst_13 (constant S_ .f32 0x3C23D70A#32) ] ++ (
  reluOps (.of main_v187) (.of main_cst_13) main_call13 ++ (
  [ unary main_v168 main_v189 (transpose S8x8 [1, 0] · transposes_S8x8_S8x8_1_0),
    binary main_v188 main_v189 main_v190 (fun l r => Host.dotGeneral dot_S524288x8_S8x8_S524288x8_1_0_0_1_n_n none l r),
    unary main_v170 main_v191 (broadcastInDim S1x8 ![1] bcast_S8_S1x8_1),
    unary main_v191 main_v192 (broadcastInDim S524288x8 ![0, 1] bcast_S1x8_S524288x8_0_1),
    binary main_v190 main_v192 main_v193 addf,
    nullary main_cst_14 (constant S_ .f32 0x3C23D70A#32) ] ++ (
  reluOps (.of main_v193) (.of main_cst_14) main_call14 ++ (
  [ unary main_v172 main_v195 (transpose S8x8 [1, 0] · transposes_S8x8_S8x8_1_0),
    binary main_v194 main_v195 main_v196 (fun l r => Host.dotGeneral dot_S524288x8_S8x8_S524288x8_1_0_0_1_n_n none l r),
    unary main_v174 main_v197 (broadcastInDim S1x8 ![1] bcast_S8_S1x8_1),
    unary main_v197 main_v198 (broadcastInDim S524288x8 ![0, 1] bcast_S1x8_S524288x8_0_1),
    binary main_v196 main_v198 main_v199 addf,
    nullary main_cst_15 (constant S_ .f32 0x3C23D70A#32) ] ++ (
  reluOps (.of main_v199) (.of main_cst_15) main_call15 ++ (
  [ unary main_v176 main_v201 (transpose S8x8 [1, 0] · transposes_S8x8_S8x8_1_0),
    binary main_v200 main_v201 main_v202 (fun l r => Host.dotGeneral dot_S524288x8_S8x8_S524288x8_1_0_0_1_n_n none l r),
    unary main_v178 main_v203 (broadcastInDim S1x8 ![1] bcast_S8_S1x8_1),
    unary main_v203 main_v204 (broadcastInDim S524288x8 ![0, 1] bcast_S1x8_S524288x8_0_1),
    binary main_v202 main_v204 main_v205 addf,
    nullary main_cst_16 (constant S_ .f32 0x3C23D70A#32) ] ++ (
  reluOps (.of main_v205) (.of main_cst_16) main_call16 ++ (
  [ unary main_v180 main_v207 (transpose S8x1 [1, 0] · transposes_S1x8_S8x1_1_0),
    binary main_v206 main_v207 main_v208 (fun l r => Host.dotGeneral dot_S524288x8_S8x1_S524288x1_1_0_0_1_n_n none l r),
    unary main_v182 main_v209 (broadcastInDim S1x1 ![1] bcast_S1_S1x1_1),
    unary main_v209 main_v210 (broadcastInDim S524288x1 ![0, 1] bcast_S1x1_S524288x1_0_1),
    binary main_v208 main_v210 main_v211 addf,
    unary main_v162 main_v212 Host.exp,
    binary main_v212 main_v113 main_v213 mulf,
    binary main_v213 main_v211 main_v214 addf,
    nullary main_cst_17 (constant S_ .f32 0x00000000#32),
    binary main_v162 main_cst_17 main_v215 ((fun x v => Host.reduceAdd x v reducesTo_S524288x1_S524288_d1 h_S_)),
    binary main_v105 main_v215 main_v216 addf,
    binary main_v112 main_v214 main_v217 ((fun a b => concatenate S524288x2 1 [⟨S524288x1, a⟩, ⟨S524288x1, b⟩] concatenates_S524288x1_S524288x1_S524288x2_d1)),
    unary main_arg11 main_v218 (extractStridedSlice S1 ![1] · slices_S14_S1_1),
    reshape main_v218 main_v219 rfl shapeCasts_S1_S_ ]))))))))
theorem ck3_1_sub : (ck3_1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., binary_bufs_sub .., binary_bufs_sub .., unary_bufs_sub .., reshape_bufs_sub ..⟩

abbrev ck4_1 : List (HloOp τ sig (Elt F)) :=
  [ nullary main_c_18 (constantI S_ 32 0#32),
    binary main_v219 main_c_18 main_v220 (cmpi .sgt),
    unary main_v217 main_v221 (Host.reverse [1]),
    TRef.ternary (.of main_v220) (.of main_v221) (.of main_v217) main_call17.v0 (fun p a b => select (broadcastInDim S524288x2 ![] bcast_S_S524288x2 p) a b) ]
theorem ck4_1_sub : (ck4_1 : List (HloOp τ sig (Elt F))).Forall fun op => op.bufs ⊆ tcRefs τ sig :=
  ⟨nullary_bufs_sub .., binary_bufs_sub .., unary_bufs_sub .., ternary_bufs_sub ..⟩

abbrev ck4_2 : List (HloOp τ sig (Elt F)) :=
  [ unary main_v222 main_v223 (extractStridedSlice S524288x1 ![0, 0] · slices_S524288x2_S524288x1_0_0),
    unary main_v222 main_v224 (extractStridedSlice S524288x1 ![0, 1] · slices_S524288x2_S524288x1_0_1),
    unary main_arg1 main_v225 (extractStridedSlice S1x1x8x1 ![2, 0, 0, 0] · slices_S15x2x8x1_S1x1x8x1_2_0_0_0),
    reshape main_v225 main_v226 rfl shapeCasts_S1x1x8x1_S8x1,
    unary main_arg2 main_v227 (extractStridedSlice S1x1x8 ![2, 0, 0] · slices_S15x2x8_S1x1x8_2_0_0),
    reshape main_v227 main_v228 rfl shapeCasts_S1x1x8_S8,
    unary main_arg3 main_v229 (extractStridedSlice S1x1x8x8 ![2, 0, 0, 0] · slices_S15x2x8x8_S1x1x8x8_2_0_0_0),
    reshape main_v229 main_v230 rfl shapeCasts_S1x1x8x8_S8x8,
    unary main_arg4 main_v231 (extractStridedSlice S1x1x8 ![2, 0, 0] · slices_S15x2x8_S1x1x8_2_0_0),
    reshape main_v231 main_v232 rfl shapeCasts_S1x1x8_S8,
    unary main_arg5 main_v233 (extractStridedSlice S1x1x8x8 ![2, 0, 0, 0] · slices_S15x2x8x8_S1x1x8x8_2_0_0_0),
    reshape main_v233 main_v234 rfl shapeCasts_S1x1x8x8_S8x8,
    unary main_arg6 main_v235 (extractStridedSlice S1x1x8 ![2, 0, 0] · slices_S15x2x8_S1x1x8_2_0_0),
    reshape main_v235 main_v236 rfl shapeCasts_S1x1x8_S8,
    unary main_arg7 main_v237 (extractStridedSlice S1x1x8x8 ![2, 0, 0, 0] · slices_S15x2x8x8_S1x1x8x8_2_0_0_0),
    reshape main_v237 main_v238 rfl shapeCasts_S1x1x8x8_S8x8,
    unary main_arg8 main_v239 (extractStridedSlice S1x1x8 ![2, 0, 0] · slices_S15x2x8_S1x1x8_2_0_0),
    reshape main_v239 main_v240 rfl shapeCasts_S1x1x8_S8,
    unary main_arg9 main_v241 (extractStridedSlice S1x1x1x8 ![2, 0, 0, 0] · slices_S15x2x1x8_S1x1x1x8_2_0_0_0),
    reshape main_v241 main_v242 rfl shapeCasts_S1x1x1x8_S1x8,
    unary main_arg10 main_v243 (extractStridedSlice S1x1x1 ![2, 0, 0] · slices_S15x2x1_S1x1x1_2_0_0),
    reshape main_v243 main_v244 rfl shapeCasts_S1x1x1_S1,
    unary main_v226 main_v245 (transpose S1x8 [1, 0] · transposes_S8x1_S1x8_1_0),
    binary main_v223 main_v245 main_v246 (fun l r => Host.dotGeneral dot_S524288x1_S1x8_S524288x8_1_0_0_1_n_n none l r),
    unary main_v228 main_v247 (broadcastInDim S1x8 ![1] bcast_S8_S1x8_1),
    unary main_v247 main_v248 (broadcastInDim S524288x8 ![0, 1] bcast_S1x8_S524288x8_0_1),
    binary main_v246 main_v248 main_v249 addf,
    nullary main_cst_19 (constant S_ .f32 0x3C23D70A#32) ] ++ (
  reluOps (.of main_v249) (.of main_cst_19) main_call18 ++ (
  [ unary main_v230 main_v251 (transpose S8x8 [1, 0] · transposes_S8x8_S8x8_1_0),
    binary main_v250 main_v251 main_v252 (fun l r => Host.dotGeneral dot_S524288x8_S8x8_S524288x8_1_0_0_1_n_n none l r),
    unary main_v232 main_v253 (broadcastInDim S1x8 ![1] bcast_S8_S1x8_1),
    unary main_v253 main_v254 (broadcastInDim S524288x8 ![0, 1] bcast_S1x8_S524288x8_0_1),
    binary main_v252 main_v254 main_v255 addf,
    nullary main_cst_20 (constant S_ .f32 0x3C23D70A#32) ] ++ (
  reluOps (.of main_v255) (.of main_cst_20) main_call19 ++ (
  [ unary main_v234 main_v257 (transpose S8x8 [1, 0] · transposes_S8x8_S8x8_1_0),
    binary main_v256 main_v257 main_v258 (fun l r => Host.dotGeneral dot_S524288x8_S8x8_S524288x8_1_0_0_1_n_n none l r),
    unary main_v236 main_v259 (broadcastInDim S1x8 ![1] bcast_S8_S1x8_1),
    unary main_v259 main_v260 (broadcastInDim S524288x8 ![0, 1] bcast_S1x8_S524288x8_0_1),
    binary main_v258 main_v260 main_v261 addf,
    nullary main_cst_21 (constant S_ .f32 0x3C23D70A#32) ] ++ (
  reluOps (.of main_v261) (.of main_cst_21) main_call20 ++ (
  [ unary main_v238 main_v263 (transpose S8x8 [1, 0] · transposes_S8x8_S8x8_1_0),
    binary main_v262 main_v263 main_v264 (fun l r => Host.dotGeneral dot_S524288x8_S8x8_S524288x8_1_0_0_1_n_n none l r),
    unary main_v240 main_v265 (broadcastInDim S1x8 ![1] bcast_S8_S1x8_1),
    unary main_v265 main_v266 (broadcastInDim S524288x8 ![0, 1] bcast_S1x8_S524288x8_0_1),
    binary main_v264 main_v266 main_v267 addf,
    nullary main_cst_22 (constant S_ .f32 0x3C23D70A#32) ] ++ (
  reluOps (.of main_v267) (.of main_cst_22) main_call21 ++ (
  [ unary main_v242 main_v269 (transpose S8x1 [1, 0] · transposes_S1x8_S8x1_1_0),
    binary main_v268 main_v269 main_v270 (fun l r => Host.dotGeneral dot_S524288x8_S8x1_S524288x1_1_0_0_1_n_n none l r),
    unary main_v244 main_v271 (broadcastInDim S1x1 ![1] bcast_S1_S1x1_1),
    unary main_v271 main_v272 (broadcastInDim S524288x1 ![0, 1] bcast_S1x1_S524288x1_0_1),
    binary main_v270 main_v272 main_v273 addf,
    unary main_arg1 main_v274 (extractStridedSlice S1x1x8x1 ![2, 1, 0, 0] · slices_S15x2x8x1_S1x1x8x1_2_1_0_0) ]))))))))
theorem ck4_2_sub : (ck4_2 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub ..⟩

abbrev ck5_2 : List (HloOp τ sig (Elt F)) :=
  [ reshape main_v274 main_v275 rfl shapeCasts_S1x1x8x1_S8x1,
    unary main_arg2 main_v276 (extractStridedSlice S1x1x8 ![2, 1, 0] · slices_S15x2x8_S1x1x8_2_1_0),
    reshape main_v276 main_v277 rfl shapeCasts_S1x1x8_S8,
    unary main_arg3 main_v278 (extractStridedSlice S1x1x8x8 ![2, 1, 0, 0] · slices_S15x2x8x8_S1x1x8x8_2_1_0_0),
    reshape main_v278 main_v279 rfl shapeCasts_S1x1x8x8_S8x8,
    unary main_arg4 main_v280 (extractStridedSlice S1x1x8 ![2, 1, 0] · slices_S15x2x8_S1x1x8_2_1_0),
    reshape main_v280 main_v281 rfl shapeCasts_S1x1x8_S8,
    unary main_arg5 main_v282 (extractStridedSlice S1x1x8x8 ![2, 1, 0, 0] · slices_S15x2x8x8_S1x1x8x8_2_1_0_0),
    reshape main_v282 main_v283 rfl shapeCasts_S1x1x8x8_S8x8,
    unary main_arg6 main_v284 (extractStridedSlice S1x1x8 ![2, 1, 0] · slices_S15x2x8_S1x1x8_2_1_0),
    reshape main_v284 main_v285 rfl shapeCasts_S1x1x8_S8,
    unary main_arg7 main_v286 (extractStridedSlice S1x1x8x8 ![2, 1, 0, 0] · slices_S15x2x8x8_S1x1x8x8_2_1_0_0),
    reshape main_v286 main_v287 rfl shapeCasts_S1x1x8x8_S8x8,
    unary main_arg8 main_v288 (extractStridedSlice S1x1x8 ![2, 1, 0] · slices_S15x2x8_S1x1x8_2_1_0),
    reshape main_v288 main_v289 rfl shapeCasts_S1x1x8_S8,
    unary main_arg9 main_v290 (extractStridedSlice S1x1x1x8 ![2, 1, 0, 0] · slices_S15x2x1x8_S1x1x1x8_2_1_0_0),
    reshape main_v290 main_v291 rfl shapeCasts_S1x1x1x8_S1x8,
    unary main_arg10 main_v292 (extractStridedSlice S1x1x1 ![2, 1, 0] · slices_S15x2x1_S1x1x1_2_1_0),
    reshape main_v292 main_v293 rfl shapeCasts_S1x1x1_S1,
    unary main_v275 main_v294 (transpose S1x8 [1, 0] · transposes_S8x1_S1x8_1_0),
    binary main_v223 main_v294 main_v295 (fun l r => Host.dotGeneral dot_S524288x1_S1x8_S524288x8_1_0_0_1_n_n none l r),
    unary main_v277 main_v296 (broadcastInDim S1x8 ![1] bcast_S8_S1x8_1),
    unary main_v296 main_v297 (broadcastInDim S524288x8 ![0, 1] bcast_S1x8_S524288x8_0_1),
    binary main_v295 main_v297 main_v298 addf,
    nullary main_cst_23 (constant S_ .f32 0x3C23D70A#32) ] ++ (
  reluOps (.of main_v298) (.of main_cst_23) main_call22 ++ (
  [ unary main_v279 main_v300 (transpose S8x8 [1, 0] · transposes_S8x8_S8x8_1_0),
    binary main_v299 main_v300 main_v301 (fun l r => Host.dotGeneral dot_S524288x8_S8x8_S524288x8_1_0_0_1_n_n none l r),
    unary main_v281 main_v302 (broadcastInDim S1x8 ![1] bcast_S8_S1x8_1),
    unary main_v302 main_v303 (broadcastInDim S524288x8 ![0, 1] bcast_S1x8_S524288x8_0_1),
    binary main_v301 main_v303 main_v304 addf,
    nullary main_cst_24 (constant S_ .f32 0x3C23D70A#32) ] ++ (
  reluOps (.of main_v304) (.of main_cst_24) main_call23 ++ (
  [ unary main_v283 main_v306 (transpose S8x8 [1, 0] · transposes_S8x8_S8x8_1_0),
    binary main_v305 main_v306 main_v307 (fun l r => Host.dotGeneral dot_S524288x8_S8x8_S524288x8_1_0_0_1_n_n none l r),
    unary main_v285 main_v308 (broadcastInDim S1x8 ![1] bcast_S8_S1x8_1),
    unary main_v308 main_v309 (broadcastInDim S524288x8 ![0, 1] bcast_S1x8_S524288x8_0_1),
    binary main_v307 main_v309 main_v310 addf,
    nullary main_cst_25 (constant S_ .f32 0x3C23D70A#32) ] ++ (
  reluOps (.of main_v310) (.of main_cst_25) main_call24 ++ (
  [ unary main_v287 main_v312 (transpose S8x8 [1, 0] · transposes_S8x8_S8x8_1_0),
    binary main_v311 main_v312 main_v313 (fun l r => Host.dotGeneral dot_S524288x8_S8x8_S524288x8_1_0_0_1_n_n none l r),
    unary main_v289 main_v314 (broadcastInDim S1x8 ![1] bcast_S8_S1x8_1),
    unary main_v314 main_v315 (broadcastInDim S524288x8 ![0, 1] bcast_S1x8_S524288x8_0_1),
    binary main_v313 main_v315 main_v316 addf,
    nullary main_cst_26 (constant S_ .f32 0x3C23D70A#32) ] ++ (
  reluOps (.of main_v316) (.of main_cst_26) main_call25 ++ (
  [ unary main_v291 main_v318 (transpose S8x1 [1, 0] · transposes_S1x8_S8x1_1_0),
    binary main_v317 main_v318 main_v319 (fun l r => Host.dotGeneral dot_S524288x8_S8x1_S524288x1_1_0_0_1_n_n none l r),
    unary main_v293 main_v320 (broadcastInDim S1x1 ![1] bcast_S1_S1x1_1),
    unary main_v320 main_v321 (broadcastInDim S524288x1 ![0, 1] bcast_S1x1_S524288x1_0_1),
    binary main_v319 main_v321 main_v322 addf,
    unary main_v273 main_v323 Host.exp,
    binary main_v323 main_v224 main_v324 mulf,
    binary main_v324 main_v322 main_v325 addf,
    nullary main_cst_27 (constant S_ .f32 0x00000000#32),
    binary main_v273 main_cst_27 main_v326 ((fun x v => Host.reduceAdd x v reducesTo_S524288x1_S524288_d1 h_S_)),
    binary main_v216 main_v326 main_v327 addf,
    binary main_v223 main_v325 main_v328 ((fun a b => concatenate S524288x2 1 [⟨S524288x1, a⟩, ⟨S524288x1, b⟩] concatenates_S524288x1_S524288x1_S524288x2_d1)),
    unary main_arg11 main_v329 (extractStridedSlice S1 ![2] · slices_S14_S1_2) ]))))))))
theorem ck5_2_sub : (ck5_2 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., binary_bufs_sub .., binary_bufs_sub .., unary_bufs_sub ..⟩

abbrev ck6_2 : List (HloOp τ sig (Elt F)) :=
  [ reshape main_v329 main_v330 rfl shapeCasts_S1_S_,
    nullary main_c_28 (constantI S_ 32 0#32),
    binary main_v330 main_c_28 main_v331 (cmpi .sgt),
    unary main_v328 main_v332 (Host.reverse [1]),
    TRef.ternary (.of main_v331) (.of main_v332) (.of main_v328) main_call26.v0 (fun p a b => select (broadcastInDim S524288x2 ![] bcast_S_S524288x2 p) a b) ]
theorem ck6_2_sub : (ck6_2 : List (HloOp τ sig (Elt F))).Forall fun op => op.bufs ⊆ tcRefs τ sig :=
  ⟨reshape_bufs_sub .., nullary_bufs_sub .., binary_bufs_sub .., unary_bufs_sub .., ternary_bufs_sub ..⟩

end Cert.ReferenceIdeal.RefRun

end
-- ==== Proof.RefOps1.lean ====
/- The reference program's host operations in order, as lists: layers 3 to 5. -/
import proofs.«405999_j47631187312975_2_alg».proof.Proof.Gen.ReferenceIdeal
import proofs.«405999_j47631187312975_2_alg».proof.Proof.RefRelu

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ck6_3 : List (HloOp τ sig (Elt F)) :=
  [ unary main_v333 main_v334 (extractStridedSlice S524288x1 ![0, 0] · slices_S524288x2_S524288x1_0_0),
    unary main_v333 main_v335 (extractStridedSlice S524288x1 ![0, 1] · slices_S524288x2_S524288x1_0_1),
    unary main_arg1 main_v336 (extractStridedSlice S1x1x8x1 ![3, 0, 0, 0] · slices_S15x2x8x1_S1x1x8x1_3_0_0_0),
    reshape main_v336 main_v337 rfl shapeCasts_S1x1x8x1_S8x1,
    unary main_arg2 main_v338 (extractStridedSlice S1x1x8 ![3, 0, 0] · slices_S15x2x8_S1x1x8_3_0_0),
    reshape main_v338 main_v339 rfl shapeCasts_S1x1x8_S8,
    unary main_arg3 main_v340 (extractStridedSlice S1x1x8x8 ![3, 0, 0, 0] · slices_S15x2x8x8_S1x1x8x8_3_0_0_0),
    reshape main_v340 main_v341 rfl shapeCasts_S1x1x8x8_S8x8,
    unary main_arg4 main_v342 (extractStridedSlice S1x1x8 ![3, 0, 0] · slices_S15x2x8_S1x1x8_3_0_0),
    reshape main_v342 main_v343 rfl shapeCasts_S1x1x8_S8,
    unary main_arg5 main_v344 (extractStridedSlice S1x1x8x8 ![3, 0, 0, 0] · slices_S15x2x8x8_S1x1x8x8_3_0_0_0),
    reshape main_v344 main_v345 rfl shapeCasts_S1x1x8x8_S8x8,
    unary main_arg6 main_v346 (extractStridedSlice S1x1x8 ![3, 0, 0] · slices_S15x2x8_S1x1x8_3_0_0),
    reshape main_v346 main_v347 rfl shapeCasts_S1x1x8_S8,
    unary main_arg7 main_v348 (extractStridedSlice S1x1x8x8 ![3, 0, 0, 0] · slices_S15x2x8x8_S1x1x8x8_3_0_0_0),
    reshape main_v348 main_v349 rfl shapeCasts_S1x1x8x8_S8x8,
    unary main_arg8 main_v350 (extractStridedSlice S1x1x8 ![3, 0, 0] · slices_S15x2x8_S1x1x8_3_0_0),
    reshape main_v350 main_v351 rfl shapeCasts_S1x1x8_S8,
    unary main_arg9 main_v352 (extractStridedSlice S1x1x1x8 ![3, 0, 0, 0] · slices_S15x2x1x8_S1x1x1x8_3_0_0_0),
    reshape main_v352 main_v353 rfl shapeCasts_S1x1x1x8_S1x8,
    unary main_arg10 main_v354 (extractStridedSlice S1x1x1 ![3, 0, 0] · slices_S15x2x1_S1x1x1_3_0_0),
    reshape main_v354 main_v355 rfl shapeCasts_S1x1x1_S1,
    unary main_v337 main_v356 (transpose S1x8 [1, 0] · transposes_S8x1_S1x8_1_0),
    binary main_v334 main_v356 main_v357 (fun l r => Host.dotGeneral dot_S524288x1_S1x8_S524288x8_1_0_0_1_n_n none l r),
    unary main_v339 main_v358 (broadcastInDim S1x8 ![1] bcast_S8_S1x8_1),
    unary main_v358 main_v359 (broadcastInDim S524288x8 ![0, 1] bcast_S1x8_S524288x8_0_1),
    binary main_v357 main_v359 main_v360 addf,
    nullary main_cst_29 (constant S_ .f32 0x3C23D70A#32) ] ++ (
  reluOps (.of main_v360) (.of main_cst_29) main_call27 ++ (
  [ unary main_v341 main_v362 (transpose S8x8 [1, 0] · transposes_S8x8_S8x8_1_0),
    binary main_v361 main_v362 main_v363 (fun l r => Host.dotGeneral dot_S524288x8_S8x8_S524288x8_1_0_0_1_n_n none l r),
    unary main_v343 main_v364 (broadcastInDim S1x8 ![1] bcast_S8_S1x8_1),
    unary main_v364 main_v365 (broadcastInDim S524288x8 ![0, 1] bcast_S1x8_S524288x8_0_1),
    binary main_v363 main_v365 main_v366 addf,
    nullary main_cst_30 (constant S_ .f32 0x3C23D70A#32) ] ++ (
  reluOps (.of main_v366) (.of main_cst_30) main_call28 ++ (
  [ unary main_v345 main_v368 (transpose S8x8 [1, 0] · transposes_S8x8_S8x8_1_0),
    binary main_v367 main_v368 main_v369 (fun l r => Host.dotGeneral dot_S524288x8_S8x8_S524288x8_1_0_0_1_n_n none l r),
    unary main_v347 main_v370 (broadcastInDim S1x8 ![1] bcast_S8_S1x8_1),
    unary main_v370 main_v371 (broadcastInDim S524288x8 ![0, 1] bcast_S1x8_S524288x8_0_1),
    binary main_v369 main_v371 main_v372 addf,
    nullary main_cst_31 (constant S_ .f32 0x3C23D70A#32) ] ++ (
  reluOps (.of main_v372) (.of main_cst_31) main_call29 ++ (
  [ unary main_v349 main_v374 (transpose S8x8 [1, 0] · transposes_S8x8_S8x8_1_0),
    binary main_v373 main_v374 main_v375 (fun l r => Host.dotGeneral dot_S524288x8_S8x8_S524288x8_1_0_0_1_n_n none l r),
    unary main_v351 main_v376 (broadcastInDim S1x8 ![1] bcast_S8_S1x8_1),
    unary main_v376 main_v377 (broadcastInDim S524288x8 ![0, 1] bcast_S1x8_S524288x8_0_1),
    binary main_v375 main_v377 main_v378 addf,
    nullary main_cst_32 (constant S_ .f32 0x3C23D70A#32) ] ++ (
  reluOps (.of main_v378) (.of main_cst_32) main_call30 ++ (
  [ unary main_v353 main_v380 (transpose S8x1 [1, 0] · transposes_S1x8_S8x1_1_0),
    binary main_v379 main_v380 main_v381 (fun l r => Host.dotGeneral dot_S524288x8_S8x1_S524288x1_1_0_0_1_n_n none l r),
    unary main_v355 main_v382 (broadcastInDim S1x1 ![1] bcast_S1_S1x1_1),
    unary main_v382 main_v383 (broadcastInDim S524288x1 ![0, 1] bcast_S1x1_S524288x1_0_1),
    binary main_v381 main_v383 main_v384 addf ]))))))))
theorem ck6_3_sub : (ck6_3 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub ..⟩

abbrev ck7_3 : List (HloOp τ sig (Elt F)) :=
  [ unary main_arg1 main_v385 (extractStridedSlice S1x1x8x1 ![3, 1, 0, 0] · slices_S15x2x8x1_S1x1x8x1_3_1_0_0),
    reshape main_v385 main_v386 rfl shapeCasts_S1x1x8x1_S8x1,
    unary main_arg2 main_v387 (extractStridedSlice S1x1x8 ![3, 1, 0] · slices_S15x2x8_S1x1x8_3_1_0),
    reshape main_v387 main_v388 rfl shapeCasts_S1x1x8_S8,
    unary main_arg3 main_v389 (extractStridedSlice S1x1x8x8 ![3, 1, 0, 0] · slices_S15x2x8x8_S1x1x8x8_3_1_0_0),
    reshape main_v389 main_v390 rfl shapeCasts_S1x1x8x8_S8x8,
    unary main_arg4 main_v391 (extractStridedSlice S1x1x8 ![3, 1, 0] · slices_S15x2x8_S1x1x8_3_1_0),
    reshape main_v391 main_v392 rfl shapeCasts_S1x1x8_S8,
    unary main_arg5 main_v393 (extractStridedSlice S1x1x8x8 ![3, 1, 0, 0] · slices_S15x2x8x8_S1x1x8x8_3_1_0_0),
    reshape main_v393 main_v394 rfl shapeCasts_S1x1x8x8_S8x8,
    unary main_arg6 main_v395 (extractStridedSlice S1x1x8 ![3, 1, 0] · slices_S15x2x8_S1x1x8_3_1_0),
    reshape main_v395 main_v396 rfl shapeCasts_S1x1x8_S8,
    unary main_arg7 main_v397 (extractStridedSlice S1x1x8x8 ![3, 1, 0, 0] · slices_S15x2x8x8_S1x1x8x8_3_1_0_0),
    reshape main_v397 main_v398 rfl shapeCasts_S1x1x8x8_S8x8,
    unary main_arg8 main_v399 (extractStridedSlice S1x1x8 ![3, 1, 0] · slices_S15x2x8_S1x1x8_3_1_0),
    reshape main_v399 main_v400 rfl shapeCasts_S1x1x8_S8,
    unary main_arg9 main_v401 (extractStridedSlice S1x1x1x8 ![3, 1, 0, 0] · slices_S15x2x1x8_S1x1x1x8_3_1_0_0),
    reshape main_v401 main_v402 rfl shapeCasts_S1x1x1x8_S1x8,
    unary main_arg10 main_v403 (extractStridedSlice S1x1x1 ![3, 1, 0] · slices_S15x2x1_S1x1x1_3_1_0),
    reshape main_v403 main_v404 rfl shapeCasts_S1x1x1_S1,
    unary main_v386 main_v405 (transpose S1x8 [1, 0] · transposes_S8x1_S1x8_1_0),
    binary main_v334 main_v405 main_v406 (fun l r => Host.dotGeneral dot_S524288x1_S1x8_S524288x8_1_0_0_1_n_n none l r),
    unary main_v388 main_v407 (broadcastInDim S1x8 ![1] bcast_S8_S1x8_1),
    unary main_v407 main_v408 (broadcastInDim S524288x8 ![0, 1] bcast_S1x8_S524288x8_0_1),
    binary main_v406 main_v408 main_v409 addf,
    nullary main_cst_33 (constant S_ .f32 0x3C23D70A#32) ] ++ (
  reluOps (.of main_v409) (.of main_cst_33) main_call31 ++ (
  [ unary main_v390 main_v411 (transpose S8x8 [1, 0] · transposes_S8x8_S8x8_1_0),
    binary main_v410 main_v411 main_v412 (fun l r => Host.dotGeneral dot_S524288x8_S8x8_S524288x8_1_0_0_1_n_n none l r),
    unary main_v392 main_v413 (broadcastInDim S1x8 ![1] bcast_S8_S1x8_1),
    unary main_v413 main_v414 (broadcastInDim S524288x8 ![0, 1] bcast_S1x8_S524288x8_0_1),
    binary main_v412 main_v414 main_v415 addf,
    nullary main_cst_34 (constant S_ .f32 0x3C23D70A#32) ] ++ (
  reluOps (.of main_v415) (.of main_cst_34) main_call32 ++ (
  [ unary main_v394 main_v417 (transpose S8x8 [1, 0] · transposes_S8x8_S8x8_1_0),
    binary main_v416 main_v417 main_v418 (fun l r => Host.dotGeneral dot_S524288x8_S8x8_S524288x8_1_0_0_1_n_n none l r),
    unary main_v396 main_v419 (broadcastInDim S1x8 ![1] bcast_S8_S1x8_1),
    unary main_v419 main_v420 (broadcastInDim S524288x8 ![0, 1] bcast_S1x8_S524288x8_0_1),
    binary main_v418 main_v420 main_v421 addf,
    nullary main_cst_35 (constant S_ .f32 0x3C23D70A#32) ] ++ (
  reluOps (.of main_v421) (.of main_cst_35) main_call33 ++ (
  [ unary main_v398 main_v423 (transpose S8x8 [1, 0] · transposes_S8x8_S8x8_1_0),
    binary main_v422 main_v423 main_v424 (fun l r => Host.dotGeneral dot_S524288x8_S8x8_S524288x8_1_0_0_1_n_n none l r),
    unary main_v400 main_v425 (broadcastInDim S1x8 ![1] bcast_S8_S1x8_1),
    unary main_v425 main_v426 (broadcastInDim S524288x8 ![0, 1] bcast_S1x8_S524288x8_0_1),
    binary main_v424 main_v426 main_v427 addf,
    nullary main_cst_36 (constant S_ .f32 0x3C23D70A#32) ] ++ (
  reluOps (.of main_v427) (.of main_cst_36) main_call34 ++ (
  [ unary main_v402 main_v429 (transpose S8x1 [1, 0] · transposes_S1x8_S8x1_1_0),
    binary main_v428 main_v429 main_v430 (fun l r => Host.dotGeneral dot_S524288x8_S8x1_S524288x1_1_0_0_1_n_n none l r),
    unary main_v404 main_v431 (broadcastInDim S1x1 ![1] bcast_S1_S1x1_1),
    unary main_v431 main_v432 (broadcastInDim S524288x1 ![0, 1] bcast_S1x1_S524288x1_0_1),
    binary main_v430 main_v432 main_v433 addf,
    unary main_v384 main_v434 Host.exp,
    binary main_v434 main_v335 main_v435 mulf,
    binary main_v435 main_v433 main_v436 addf,
    nullary main_cst_37 (constant S_ .f32 0x00000000#32),
    binary main_v384 main_cst_37 main_v437 ((fun x v => Host.reduceAdd x v reducesTo_S524288x1_S524288_d1 h_S_)),
    binary main_v327 main_v437 main_v438 addf,
    binary main_v334 main_v436 main_v439 ((fun a b => concatenate S524288x2 1 [⟨S524288x1, a⟩, ⟨S524288x1, b⟩] concatenates_S524288x1_S524288x1_S524288x2_d1)) ]))))))))
theorem ck7_3_sub : (ck7_3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., binary_bufs_sub .., binary_bufs_sub ..⟩

abbrev ck8_3 : List (HloOp τ sig (Elt F)) :=
  [ unary main_arg11 main_v440 (extractStridedSlice S1 ![3] · slices_S14_S1_3),
    reshape main_v440 main_v441 rfl shapeCasts_S1_S_,
    nullary main_c_38 (constantI S_ 32 0#32),
    binary main_v441 main_c_38 main_v442 (cmpi .sgt),
    unary main_v439 main_v443 (Host.reverse [1]),
    TRef.ternary (.of main_v442) (.of main_v443) (.of main_v439) main_call35.v0 (fun p a b => select (broadcastInDim S524288x2 ![] bcast_S_S524288x2 p) a b) ]
theorem ck8_3_sub : (ck8_3 : List (HloOp τ sig (Elt F))).Forall fun op => op.bufs ⊆ tcRefs τ sig :=
  ⟨unary_bufs_sub .., reshape_bufs_sub .., nullary_bufs_sub .., binary_bufs_sub .., unary_bufs_sub .., ternary_bufs_sub ..⟩

abbrev ck8_4 : List (HloOp τ sig (Elt F)) :=
  [ unary main_v444 main_v445 (extractStridedSlice S524288x1 ![0, 0] · slices_S524288x2_S524288x1_0_0),
    unary main_v444 main_v446 (extractStridedSlice S524288x1 ![0, 1] · slices_S524288x2_S524288x1_0_1),
    unary main_arg1 main_v447 (extractStridedSlice S1x1x8x1 ![4, 0, 0, 0] · slices_S15x2x8x1_S1x1x8x1_4_0_0_0),
    reshape main_v447 main_v448 rfl shapeCasts_S1x1x8x1_S8x1,
    unary main_arg2 main_v449 (extractStridedSlice S1x1x8 ![4, 0, 0] · slices_S15x2x8_S1x1x8_4_0_0),
    reshape main_v449 main_v450 rfl shapeCasts_S1x1x8_S8,
    unary main_arg3 main_v451 (extractStridedSlice S1x1x8x8 ![4, 0, 0, 0] · slices_S15x2x8x8_S1x1x8x8_4_0_0_0),
    reshape main_v451 main_v452 rfl shapeCasts_S1x1x8x8_S8x8,
    unary main_arg4 main_v453 (extractStridedSlice S1x1x8 ![4, 0, 0] · slices_S15x2x8_S1x1x8_4_0_0),
    reshape main_v453 main_v454 rfl shapeCasts_S1x1x8_S8,
    unary main_arg5 main_v455 (extractStridedSlice S1x1x8x8 ![4, 0, 0, 0] · slices_S15x2x8x8_S1x1x8x8_4_0_0_0),
    reshape main_v455 main_v456 rfl shapeCasts_S1x1x8x8_S8x8,
    unary main_arg6 main_v457 (extractStridedSlice S1x1x8 ![4, 0, 0] · slices_S15x2x8_S1x1x8_4_0_0),
    reshape main_v457 main_v458 rfl shapeCasts_S1x1x8_S8,
    unary main_arg7 main_v459 (extractStridedSlice S1x1x8x8 ![4, 0, 0, 0] · slices_S15x2x8x8_S1x1x8x8_4_0_0_0),
    reshape main_v459 main_v460 rfl shapeCasts_S1x1x8x8_S8x8,
    unary main_arg8 main_v461 (extractStridedSlice S1x1x8 ![4, 0, 0] · slices_S15x2x8_S1x1x8_4_0_0),
    reshape main_v461 main_v462 rfl shapeCasts_S1x1x8_S8,
    unary main_arg9 main_v463 (extractStridedSlice S1x1x1x8 ![4, 0, 0, 0] · slices_S15x2x1x8_S1x1x1x8_4_0_0_0),
    reshape main_v463 main_v464 rfl shapeCasts_S1x1x1x8_S1x8,
    unary main_arg10 main_v465 (extractStridedSlice S1x1x1 ![4, 0, 0] · slices_S15x2x1_S1x1x1_4_0_0),
    reshape main_v465 main_v466 rfl shapeCasts_S1x1x1_S1,
    unary main_v448 main_v467 (transpose S1x8 [1, 0] · transposes_S8x1_S1x8_1_0),
    binary main_v445 main_v467 main_v468 (fun l r => Host.dotGeneral dot_S524288x1_S1x8_S524288x8_1_0_0_1_n_n none l r),
    unary main_v450 main_v469 (broadcastInDim S1x8 ![1] bcast_S8_S1x8_1),
    unary main_v469 main_v470 (broadcastInDim S524288x8 ![0, 1] bcast_S1x8_S524288x8_0_1),
    binary main_v468 main_v470 main_v471 addf,
    nullary main_cst_39 (constant S_ .f32 0x3C23D70A#32) ] ++ (
  reluOps (.of main_v471) (.of main_cst_39) main_call36 ++ (
  [ unary main_v452 main_v473 (transpose S8x8 [1, 0] · transposes_S8x8_S8x8_1_0),
    binary main_v472 main_v473 main_v474 (fun l r => Host.dotGeneral dot_S524288x8_S8x8_S524288x8_1_0_0_1_n_n none l r),
    unary main_v454 main_v475 (broadcastInDim S1x8 ![1] bcast_S8_S1x8_1),
    unary main_v475 main_v476 (broadcastInDim S524288x8 ![0, 1] bcast_S1x8_S524288x8_0_1),
    binary main_v474 main_v476 main_v477 addf,
    nullary main_cst_40 (constant S_ .f32 0x3C23D70A#32) ] ++ (
  reluOps (.of main_v477) (.of main_cst_40) main_call37 ++ (
  [ unary main_v456 main_v479 (transpose S8x8 [1, 0] · transposes_S8x8_S8x8_1_0),
    binary main_v478 main_v479 main_v480 (fun l r => Host.dotGeneral dot_S524288x8_S8x8_S524288x8_1_0_0_1_n_n none l r),
    unary main_v458 main_v481 (broadcastInDim S1x8 ![1] bcast_S8_S1x8_1),
    unary main_v481 main_v482 (broadcastInDim S524288x8 ![0, 1] bcast_S1x8_S524288x8_0_1),
    binary main_v480 main_v482 main_v483 addf,
    nullary main_cst_41 (constant S_ .f32 0x3C23D70A#32) ] ++ (
  reluOps (.of main_v483) (.of main_cst_41) main_call38 ++ (
  [ unary main_v460 main_v485 (transpose S8x8 [1, 0] · transposes_S8x8_S8x8_1_0),
    binary main_v484 main_v485 main_v486 (fun l r => Host.dotGeneral dot_S524288x8_S8x8_S524288x8_1_0_0_1_n_n none l r),
    unary main_v462 main_v487 (broadcastInDim S1x8 ![1] bcast_S8_S1x8_1),
    unary main_v487 main_v488 (broadcastInDim S524288x8 ![0, 1] bcast_S1x8_S524288x8_0_1),
    binary main_v486 main_v488 main_v489 addf,
    nullary main_cst_42 (constant S_ .f32 0x3C23D70A#32) ] ++ (
  reluOps (.of main_v489) (.of main_cst_42) main_call39 ++ (
  [ unary main_v464 main_v491 (transpose S8x1 [1, 0] · transposes_S1x8_S8x1_1_0),
    binary main_v490 main_v491 main_v492 (fun l r => Host.dotGeneral dot_S524288x8_S8x1_S524288x1_1_0_0_1_n_n none l r),
    unary main_v466 main_v493 (broadcastInDim S1x1 ![1] bcast_S1_S1x1_1),
    unary main_v493 main_v494 (broadcastInDim S524288x1 ![0, 1] bcast_S1x1_S524288x1_0_1) ]))))))))
theorem ck8_4_sub : (ck8_4 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub ..⟩

abbrev ck9_4 : List (HloOp τ sig (Elt F)) :=
  [ binary main_v492 main_v494 main_v495 addf,
    unary main_arg1 main_v496 (extractStridedSlice S1x1x8x1 ![4, 1, 0, 0] · slices_S15x2x8x1_S1x1x8x1_4_1_0_0),
    reshape main_v496 main_v497 rfl shapeCasts_S1x1x8x1_S8x1,
    unary main_arg2 main_v498 (extractStridedSlice S1x1x8 ![4, 1, 0] · slices_S15x2x8_S1x1x8_4_1_0),
    reshape main_v498 main_v499 rfl shapeCasts_S1x1x8_S8,
    unary main_arg3 main_v500 (extractStridedSlice S1x1x8x8 ![4, 1, 0, 0] · slices_S15x2x8x8_S1x1x8x8_4_1_0_0),
    reshape main_v500 main_v501 rfl shapeCasts_S1x1x8x8_S8x8,
    unary main_arg4 main_v502 (extractStridedSlice S1x1x8 ![4, 1, 0] · slices_S15x2x8_S1x1x8_4_1_0),
    reshape main_v502 main_v503 rfl shapeCasts_S1x1x8_S8,
    unary main_arg5 main_v504 (extractStridedSlice S1x1x8x8 ![4, 1, 0, 0] · slices_S15x2x8x8_S1x1x8x8_4_1_0_0),
    reshape main_v504 main_v505 rfl shapeCasts_S1x1x8x8_S8x8,
    unary main_arg6 main_v506 (extractStridedSlice S1x1x8 ![4, 1, 0] · slices_S15x2x8_S1x1x8_4_1_0),
    reshape main_v506 main_v507 rfl shapeCasts_S1x1x8_S8,
    unary main_arg7 main_v508 (extractStridedSlice S1x1x8x8 ![4, 1, 0, 0] · slices_S15x2x8x8_S1x1x8x8_4_1_0_0),
    reshape main_v508 main_v509 rfl shapeCasts_S1x1x8x8_S8x8,
    unary main_arg8 main_v510 (extractStridedSlice S1x1x8 ![4, 1, 0] · slices_S15x2x8_S1x1x8_4_1_0),
    reshape main_v510 main_v511 rfl shapeCasts_S1x1x8_S8,
    unary main_arg9 main_v512 (extractStridedSlice S1x1x1x8 ![4, 1, 0, 0] · slices_S15x2x1x8_S1x1x1x8_4_1_0_0),
    reshape main_v512 main_v513 rfl shapeCasts_S1x1x1x8_S1x8,
    unary main_arg10 main_v514 (extractStridedSlice S1x1x1 ![4, 1, 0] · slices_S15x2x1_S1x1x1_4_1_0),
    reshape main_v514 main_v515 rfl shapeCasts_S1x1x1_S1,
    unary main_v497 main_v516 (transpose S1x8 [1, 0] · transposes_S8x1_S1x8_1_0),
    binary main_v445 main_v516 main_v517 (fun l r => Host.dotGeneral dot_S524288x1_S1x8_S524288x8_1_0_0_1_n_n none l r),
    unary main_v499 main_v518 (broadcastInDim S1x8 ![1] bcast_S8_S1x8_1),
    unary main_v518 main_v519 (broadcastInDim S524288x8 ![0, 1] bcast_S1x8_S524288x8_0_1),
    binary main_v517 main_v519 main_v520 addf,
    nullary main_cst_43 (constant S_ .f32 0x3C23D70A#32) ] ++ (
  reluOps (.of main_v520) (.of main_cst_43) main_call40 ++ (
  [ unary main_v501 main_v522 (transpose S8x8 [1, 0] · transposes_S8x8_S8x8_1_0),
    binary main_v521 main_v522 main_v523 (fun l r => Host.dotGeneral dot_S524288x8_S8x8_S524288x8_1_0_0_1_n_n none l r),
    unary main_v503 main_v524 (broadcastInDim S1x8 ![1] bcast_S8_S1x8_1),
    unary main_v524 main_v525 (broadcastInDim S524288x8 ![0, 1] bcast_S1x8_S524288x8_0_1),
    binary main_v523 main_v525 main_v526 addf,
    nullary main_cst_44 (constant S_ .f32 0x3C23D70A#32) ] ++ (
  reluOps (.of main_v526) (.of main_cst_44) main_call41 ++ (
  [ unary main_v505 main_v528 (transpose S8x8 [1, 0] · transposes_S8x8_S8x8_1_0),
    binary main_v527 main_v528 main_v529 (fun l r => Host.dotGeneral dot_S524288x8_S8x8_S524288x8_1_0_0_1_n_n none l r),
    unary main_v507 main_v530 (broadcastInDim S1x8 ![1] bcast_S8_S1x8_1),
    unary main_v530 main_v531 (broadcastInDim S524288x8 ![0, 1] bcast_S1x8_S524288x8_0_1),
    binary main_v529 main_v531 main_v532 addf,
    nullary main_cst_45 (constant S_ .f32 0x3C23D70A#32) ] ++ (
  reluOps (.of main_v532) (.of main_cst_45) main_call42 ++ (
  [ unary main_v509 main_v534 (transpose S8x8 [1, 0] · transposes_S8x8_S8x8_1_0),
    binary main_v533 main_v534 main_v535 (fun l r => Host.dotGeneral dot_S524288x8_S8x8_S524288x8_1_0_0_1_n_n none l r),
    unary main_v511 main_v536 (broadcastInDim S1x8 ![1] bcast_S8_S1x8_1),
    unary main_v536 main_v537 (broadcastInDim S524288x8 ![0, 1] bcast_S1x8_S524288x8_0_1),
    binary main_v535 main_v537 main_v538 addf,
    nullary main_cst_46 (constant S_ .f32 0x3C23D70A#32) ] ++ (
  reluOps (.of main_v538) (.of main_cst_46) main_call43 ++ (
  [ unary main_v513 main_v540 (transpose S8x1 [1, 0] · transposes_S1x8_S8x1_1_0),
    binary main_v539 main_v540 main_v541 (fun l r => Host.dotGeneral dot_S524288x8_S8x1_S524288x1_1_0_0_1_n_n none l r),
    unary main_v515 main_v542 (broadcastInDim S1x1 ![1] bcast_S1_S1x1_1),
    unary main_v542 main_v543 (broadcastInDim S524288x1 ![0, 1] bcast_S1x1_S524288x1_0_1),
    binary main_v541 main_v543 main_v544 addf,
    unary main_v495 main_v545 Host.exp,
    binary main_v545 main_v446 main_v546 mulf,
    binary main_v546 main_v544 main_v547 addf,
    nullary main_cst_47 (constant S_ .f32 0x00000000#32),
    binary main_v495 main_cst_47 main_v548 ((fun x v => Host.reduceAdd x v reducesTo_S524288x1_S524288_d1 h_S_)),
    binary main_v438 main_v548 main_v549 addf ]))))))))
theorem ck9_4_sub : (ck9_4 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., binary_bufs_sub ..⟩

abbrev ck10_4 : List (HloOp τ sig (Elt F)) :=
  [ binary main_v445 main_v547 main_v550 ((fun a b => concatenate S524288x2 1 [⟨S524288x1, a⟩, ⟨S524288x1, b⟩] concatenates_S524288x1_S524288x1_S524288x2_d1)),
    unary main_arg11 main_v551 (extractStridedSlice S1 ![4] · slices_S14_S1_4),
    reshape main_v551 main_v552 rfl shapeCasts_S1_S_,
    nullary main_c_48 (constantI S_ 32 0#32),
    binary main_v552 main_c_48 main_v553 (cmpi .sgt),
    unary main_v550 main_v554 (Host.reverse [1]),
    TRef.ternary (.of main_v553) (.of main_v554) (.of main_v550) main_call44.v0 (fun p a b => select (broadcastInDim S524288x2 ![] bcast_S_S524288x2 p) a b) ]
theorem ck10_4_sub : (ck10_4 : List (HloOp τ sig (Elt F))).Forall fun op => op.bufs ⊆ tcRefs τ sig :=
  ⟨binary_bufs_sub .., unary_bufs_sub .., reshape_bufs_sub .., nullary_bufs_sub .., binary_bufs_sub .., unary_bufs_sub .., ternary_bufs_sub ..⟩

abbrev ck10_5 : List (HloOp τ sig (Elt F)) :=
  [ unary main_v555 main_v556 (extractStridedSlice S524288x1 ![0, 0] · slices_S524288x2_S524288x1_0_0),
    unary main_v555 main_v557 (extractStridedSlice S524288x1 ![0, 1] · slices_S524288x2_S524288x1_0_1),
    unary main_arg1 main_v558 (extractStridedSlice S1x1x8x1 ![5, 0, 0, 0] · slices_S15x2x8x1_S1x1x8x1_5_0_0_0),
    reshape main_v558 main_v559 rfl shapeCasts_S1x1x8x1_S8x1,
    unary main_arg2 main_v560 (extractStridedSlice S1x1x8 ![5, 0, 0] · slices_S15x2x8_S1x1x8_5_0_0),
    reshape main_v560 main_v561 rfl shapeCasts_S1x1x8_S8,
    unary main_arg3 main_v562 (extractStridedSlice S1x1x8x8 ![5, 0, 0, 0] · slices_S15x2x8x8_S1x1x8x8_5_0_0_0),
    reshape main_v562 main_v563 rfl shapeCasts_S1x1x8x8_S8x8,
    unary main_arg4 main_v564 (extractStridedSlice S1x1x8 ![5, 0, 0] · slices_S15x2x8_S1x1x8_5_0_0),
    reshape main_v564 main_v565 rfl shapeCasts_S1x1x8_S8,
    unary main_arg5 main_v566 (extractStridedSlice S1x1x8x8 ![5, 0, 0, 0] · slices_S15x2x8x8_S1x1x8x8_5_0_0_0),
    reshape main_v566 main_v567 rfl shapeCasts_S1x1x8x8_S8x8,
    unary main_arg6 main_v568 (extractStridedSlice S1x1x8 ![5, 0, 0] · slices_S15x2x8_S1x1x8_5_0_0),
    reshape main_v568 main_v569 rfl shapeCasts_S1x1x8_S8,
    unary main_arg7 main_v570 (extractStridedSlice S1x1x8x8 ![5, 0, 0, 0] · slices_S15x2x8x8_S1x1x8x8_5_0_0_0),
    reshape main_v570 main_v571 rfl shapeCasts_S1x1x8x8_S8x8,
    unary main_arg8 main_v572 (extractStridedSlice S1x1x8 ![5, 0, 0] · slices_S15x2x8_S1x1x8_5_0_0),
    reshape main_v572 main_v573 rfl shapeCasts_S1x1x8_S8,
    unary main_arg9 main_v574 (extractStridedSlice S1x1x1x8 ![5, 0, 0, 0] · slices_S15x2x1x8_S1x1x1x8_5_0_0_0),
    reshape main_v574 main_v575 rfl shapeCasts_S1x1x1x8_S1x8,
    unary main_arg10 main_v576 (extractStridedSlice S1x1x1 ![5, 0, 0] · slices_S15x2x1_S1x1x1_5_0_0),
    reshape main_v576 main_v577 rfl shapeCasts_S1x1x1_S1,
    unary main_v559 main_v578 (transpose S1x8 [1, 0] · transposes_S8x1_S1x8_1_0),
    binary main_v556 main_v578 main_v579 (fun l r => Host.dotGeneral dot_S524288x1_S1x8_S524288x8_1_0_0_1_n_n none l r),
    unary main_v561 main_v580 (broadcastInDim S1x8 ![1] bcast_S8_S1x8_1),
    unary main_v580 main_v581 (broadcastInDim S524288x8 ![0, 1] bcast_S1x8_S524288x8_0_1),
    binary main_v579 main_v581 main_v582 addf,
    nullary main_cst_49 (constant S_ .f32 0x3C23D70A#32) ] ++ (
  reluOps (.of main_v582) (.of main_cst_49) main_call45 ++ (
  [ unary main_v563 main_v584 (transpose S8x8 [1, 0] · transposes_S8x8_S8x8_1_0),
    binary main_v583 main_v584 main_v585 (fun l r => Host.dotGeneral dot_S524288x8_S8x8_S524288x8_1_0_0_1_n_n none l r),
    unary main_v565 main_v586 (broadcastInDim S1x8 ![1] bcast_S8_S1x8_1),
    unary main_v586 main_v587 (broadcastInDim S524288x8 ![0, 1] bcast_S1x8_S524288x8_0_1),
    binary main_v585 main_v587 main_v588 addf,
    nullary main_cst_50 (constant S_ .f32 0x3C23D70A#32) ] ++ (
  reluOps (.of main_v588) (.of main_cst_50) main_call46 ++ (
  [ unary main_v567 main_v590 (transpose S8x8 [1, 0] · transposes_S8x8_S8x8_1_0),
    binary main_v589 main_v590 main_v591 (fun l r => Host.dotGeneral dot_S524288x8_S8x8_S524288x8_1_0_0_1_n_n none l r),
    unary main_v569 main_v592 (broadcastInDim S1x8 ![1] bcast_S8_S1x8_1),
    unary main_v592 main_v593 (broadcastInDim S524288x8 ![0, 1] bcast_S1x8_S524288x8_0_1),
    binary main_v591 main_v593 main_v594 addf,
    nullary main_cst_51 (constant S_ .f32 0x3C23D70A#32) ] ++ (
  reluOps (.of main_v594) (.of main_cst_51) main_call47 ++ (
  [ unary main_v571 main_v596 (transpose S8x8 [1, 0] · transposes_S8x8_S8x8_1_0),
    binary main_v595 main_v596 main_v597 (fun l r => Host.dotGeneral dot_S524288x8_S8x8_S524288x8_1_0_0_1_n_n none l r),
    unary main_v573 main_v598 (broadcastInDim S1x8 ![1] bcast_S8_S1x8_1),
    unary main_v598 main_v599 (broadcastInDim S524288x8 ![0, 1] bcast_S1x8_S524288x8_0_1),
    binary main_v597 main_v599 main_v600 addf,
    nullary main_cst_52 (constant S_ .f32 0x3C23D70A#32) ] ++ (
  reluOps (.of main_v600) (.of main_cst_52) main_call48 ++ (
  [ unary main_v575 main_v602 (transpose S8x1 [1, 0] · transposes_S1x8_S8x1_1_0),
    binary main_v601 main_v602 main_v603 (fun l r => Host.dotGeneral dot_S524288x8_S8x1_S524288x1_1_0_0_1_n_n none l r),
    unary main_v577 main_v604 (broadcastInDim S1x1 ![1] bcast_S1_S1x1_1) ]))))))))
theorem ck10_5_sub : (ck10_5 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub ..⟩

abbrev ck11_5 : List (HloOp τ sig (Elt F)) :=
  [ unary main_v604 main_v605 (broadcastInDim S524288x1 ![0, 1] bcast_S1x1_S524288x1_0_1),
    binary main_v603 main_v605 main_v606 addf,
    unary main_arg1 main_v607 (extractStridedSlice S1x1x8x1 ![5, 1, 0, 0] · slices_S15x2x8x1_S1x1x8x1_5_1_0_0),
    reshape main_v607 main_v608 rfl shapeCasts_S1x1x8x1_S8x1,
    unary main_arg2 main_v609 (extractStridedSlice S1x1x8 ![5, 1, 0] · slices_S15x2x8_S1x1x8_5_1_0),
    reshape main_v609 main_v610 rfl shapeCasts_S1x1x8_S8,
    unary main_arg3 main_v611 (extractStridedSlice S1x1x8x8 ![5, 1, 0, 0] · slices_S15x2x8x8_S1x1x8x8_5_1_0_0),
    reshape main_v611 main_v612 rfl shapeCasts_S1x1x8x8_S8x8,
    unary main_arg4 main_v613 (extractStridedSlice S1x1x8 ![5, 1, 0] · slices_S15x2x8_S1x1x8_5_1_0),
    reshape main_v613 main_v614 rfl shapeCasts_S1x1x8_S8,
    unary main_arg5 main_v615 (extractStridedSlice S1x1x8x8 ![5, 1, 0, 0] · slices_S15x2x8x8_S1x1x8x8_5_1_0_0),
    reshape main_v615 main_v616 rfl shapeCasts_S1x1x8x8_S8x8,
    unary main_arg6 main_v617 (extractStridedSlice S1x1x8 ![5, 1, 0] · slices_S15x2x8_S1x1x8_5_1_0),
    reshape main_v617 main_v618 rfl shapeCasts_S1x1x8_S8,
    unary main_arg7 main_v619 (extractStridedSlice S1x1x8x8 ![5, 1, 0, 0] · slices_S15x2x8x8_S1x1x8x8_5_1_0_0),
    reshape main_v619 main_v620 rfl shapeCasts_S1x1x8x8_S8x8,
    unary main_arg8 main_v621 (extractStridedSlice S1x1x8 ![5, 1, 0] · slices_S15x2x8_S1x1x8_5_1_0),
    reshape main_v621 main_v622 rfl shapeCasts_S1x1x8_S8,
    unary main_arg9 main_v623 (extractStridedSlice S1x1x1x8 ![5, 1, 0, 0] · slices_S15x2x1x8_S1x1x1x8_5_1_0_0),
    reshape main_v623 main_v624 rfl shapeCasts_S1x1x1x8_S1x8,
    unary main_arg10 main_v625 (extractStridedSlice S1x1x1 ![5, 1, 0] · slices_S15x2x1_S1x1x1_5_1_0),
    reshape main_v625 main_v626 rfl shapeCasts_S1x1x1_S1,
    unary main_v608 main_v627 (transpose S1x8 [1, 0] · transposes_S8x1_S1x8_1_0),
    binary main_v556 main_v627 main_v628 (fun l r => Host.dotGeneral dot_S524288x1_S1x8_S524288x8_1_0_0_1_n_n none l r),
    unary main_v610 main_v629 (broadcastInDim S1x8 ![1] bcast_S8_S1x8_1),
    unary main_v629 main_v630 (broadcastInDim S524288x8 ![0, 1] bcast_S1x8_S524288x8_0_1),
    binary main_v628 main_v630 main_v631 addf,
    nullary main_cst_53 (constant S_ .f32 0x3C23D70A#32) ] ++ (
  reluOps (.of main_v631) (.of main_cst_53) main_call49 ++ (
  [ unary main_v612 main_v633 (transpose S8x8 [1, 0] · transposes_S8x8_S8x8_1_0),
    binary main_v632 main_v633 main_v634 (fun l r => Host.dotGeneral dot_S524288x8_S8x8_S524288x8_1_0_0_1_n_n none l r),
    unary main_v614 main_v635 (broadcastInDim S1x8 ![1] bcast_S8_S1x8_1),
    unary main_v635 main_v636 (broadcastInDim S524288x8 ![0, 1] bcast_S1x8_S524288x8_0_1),
    binary main_v634 main_v636 main_v637 addf,
    nullary main_cst_54 (constant S_ .f32 0x3C23D70A#32) ] ++ (
  reluOps (.of main_v637) (.of main_cst_54) main_call50 ++ (
  [ unary main_v616 main_v639 (transpose S8x8 [1, 0] · transposes_S8x8_S8x8_1_0),
    binary main_v638 main_v639 main_v640 (fun l r => Host.dotGeneral dot_S524288x8_S8x8_S524288x8_1_0_0_1_n_n none l r),
    unary main_v618 main_v641 (broadcastInDim S1x8 ![1] bcast_S8_S1x8_1),
    unary main_v641 main_v642 (broadcastInDim S524288x8 ![0, 1] bcast_S1x8_S524288x8_0_1),
    binary main_v640 main_v642 main_v643 addf,
    nullary main_cst_55 (constant S_ .f32 0x3C23D70A#32) ] ++ (
  reluOps (.of main_v643) (.of main_cst_55) main_call51 ++ (
  [ unary main_v620 main_v645 (transpose S8x8 [1, 0] · transposes_S8x8_S8x8_1_0),
    binary main_v644 main_v645 main_v646 (fun l r => Host.dotGeneral dot_S524288x8_S8x8_S524288x8_1_0_0_1_n_n none l r),
    unary main_v622 main_v647 (broadcastInDim S1x8 ![1] bcast_S8_S1x8_1),
    unary main_v647 main_v648 (broadcastInDim S524288x8 ![0, 1] bcast_S1x8_S524288x8_0_1),
    binary main_v646 main_v648 main_v649 addf,
    nullary main_cst_56 (constant S_ .f32 0x3C23D70A#32) ] ++ (
  reluOps (.of main_v649) (.of main_cst_56) main_call52 ++ (
  [ unary main_v624 main_v651 (transpose S8x1 [1, 0] · transposes_S1x8_S8x1_1_0),
    binary main_v650 main_v651 main_v652 (fun l r => Host.dotGeneral dot_S524288x8_S8x1_S524288x1_1_0_0_1_n_n none l r),
    unary main_v626 main_v653 (broadcastInDim S1x1 ![1] bcast_S1_S1x1_1),
    unary main_v653 main_v654 (broadcastInDim S524288x1 ![0, 1] bcast_S1x1_S524288x1_0_1),
    binary main_v652 main_v654 main_v655 addf,
    unary main_v606 main_v656 Host.exp,
    binary main_v656 main_v557 main_v657 mulf,
    binary main_v657 main_v655 main_v658 addf,
    nullary main_cst_57 (constant S_ .f32 0x00000000#32),
    binary main_v606 main_cst_57 main_v659 ((fun x v => Host.reduceAdd x v reducesTo_S524288x1_S524288_d1 h_S_)) ]))))))))
theorem ck11_5_sub : (ck11_5 : List (HloOp τ sig (Elt F))).Forall fun op => op.bufs ⊆ tcRefs τ sig :=
  ⟨unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub ..⟩

abbrev ck12_5 : List (HloOp τ sig (Elt F)) :=
  [ binary main_v549 main_v659 main_v660 addf,
    binary main_v556 main_v658 main_v661 ((fun a b => concatenate S524288x2 1 [⟨S524288x1, a⟩, ⟨S524288x1, b⟩] concatenates_S524288x1_S524288x1_S524288x2_d1)),
    unary main_arg11 main_v662 (extractStridedSlice S1 ![5] · slices_S14_S1_5),
    reshape main_v662 main_v663 rfl shapeCasts_S1_S_,
    nullary main_c_58 (constantI S_ 32 0#32),
    binary main_v663 main_c_58 main_v664 (cmpi .sgt),
    unary main_v661 main_v665 (Host.reverse [1]),
    TRef.ternary (.of main_v664) (.of main_v665) (.of main_v661) main_call53.v0 (fun p a b => select (broadcastInDim S524288x2 ![] bcast_S_S524288x2 p) a b) ]
theorem ck12_5_sub : (ck12_5 : List (HloOp τ sig (Elt F))).Forall fun op => op.bufs ⊆ tcRefs τ sig :=
  ⟨binary_bufs_sub .., binary_bufs_sub .., unary_bufs_sub .., reshape_bufs_sub .., nullary_bufs_sub .., binary_bufs_sub .., unary_bufs_sub .., ternary_bufs_sub ..⟩

end Cert.ReferenceIdeal.RefRun

end
-- ==== Proof.RefOps2.lean ====
/- The reference program's host operations in order, as lists: layers 6 to 8. -/
import proofs.«405999_j47631187312975_2_alg».proof.Proof.Gen.ReferenceIdeal
import proofs.«405999_j47631187312975_2_alg».proof.Proof.RefRelu

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ck12_6 : List (HloOp τ sig (Elt F)) :=
  [ unary main_v666 main_v667 (extractStridedSlice S524288x1 ![0, 0] · slices_S524288x2_S524288x1_0_0),
    unary main_v666 main_v668 (extractStridedSlice S524288x1 ![0, 1] · slices_S524288x2_S524288x1_0_1),
    unary main_arg1 main_v669 (extractStridedSlice S1x1x8x1 ![6, 0, 0, 0] · slices_S15x2x8x1_S1x1x8x1_6_0_0_0),
    reshape main_v669 main_v670 rfl shapeCasts_S1x1x8x1_S8x1,
    unary main_arg2 main_v671 (extractStridedSlice S1x1x8 ![6, 0, 0] · slices_S15x2x8_S1x1x8_6_0_0),
    reshape main_v671 main_v672 rfl shapeCasts_S1x1x8_S8,
    unary main_arg3 main_v673 (extractStridedSlice S1x1x8x8 ![6, 0, 0, 0] · slices_S15x2x8x8_S1x1x8x8_6_0_0_0),
    reshape main_v673 main_v674 rfl shapeCasts_S1x1x8x8_S8x8,
    unary main_arg4 main_v675 (extractStridedSlice S1x1x8 ![6, 0, 0] · slices_S15x2x8_S1x1x8_6_0_0),
    reshape main_v675 main_v676 rfl shapeCasts_S1x1x8_S8,
    unary main_arg5 main_v677 (extractStridedSlice S1x1x8x8 ![6, 0, 0, 0] · slices_S15x2x8x8_S1x1x8x8_6_0_0_0),
    reshape main_v677 main_v678 rfl shapeCasts_S1x1x8x8_S8x8,
    unary main_arg6 main_v679 (extractStridedSlice S1x1x8 ![6, 0, 0] · slices_S15x2x8_S1x1x8_6_0_0),
    reshape main_v679 main_v680 rfl shapeCasts_S1x1x8_S8,
    unary main_arg7 main_v681 (extractStridedSlice S1x1x8x8 ![6, 0, 0, 0] · slices_S15x2x8x8_S1x1x8x8_6_0_0_0),
    reshape main_v681 main_v682 rfl shapeCasts_S1x1x8x8_S8x8,
    unary main_arg8 main_v683 (extractStridedSlice S1x1x8 ![6, 0, 0] · slices_S15x2x8_S1x1x8_6_0_0),
    reshape main_v683 main_v684 rfl shapeCasts_S1x1x8_S8,
    unary main_arg9 main_v685 (extractStridedSlice S1x1x1x8 ![6, 0, 0, 0] · slices_S15x2x1x8_S1x1x1x8_6_0_0_0),
    reshape main_v685 main_v686 rfl shapeCasts_S1x1x1x8_S1x8,
    unary main_arg10 main_v687 (extractStridedSlice S1x1x1 ![6, 0, 0] · slices_S15x2x1_S1x1x1_6_0_0),
    reshape main_v687 main_v688 rfl shapeCasts_S1x1x1_S1,
    unary main_v670 main_v689 (transpose S1x8 [1, 0] · transposes_S8x1_S1x8_1_0),
    binary main_v667 main_v689 main_v690 (fun l r => Host.dotGeneral dot_S524288x1_S1x8_S524288x8_1_0_0_1_n_n none l r),
    unary main_v672 main_v691 (broadcastInDim S1x8 ![1] bcast_S8_S1x8_1),
    unary main_v691 main_v692 (broadcastInDim S524288x8 ![0, 1] bcast_S1x8_S524288x8_0_1),
    binary main_v690 main_v692 main_v693 addf,
    nullary main_cst_59 (constant S_ .f32 0x3C23D70A#32) ] ++ (
  reluOps (.of main_v693) (.of main_cst_59) main_call54 ++ (
  [ unary main_v674 main_v695 (transpose S8x8 [1, 0] · transposes_S8x8_S8x8_1_0),
    binary main_v694 main_v695 main_v696 (fun l r => Host.dotGeneral dot_S524288x8_S8x8_S524288x8_1_0_0_1_n_n none l r),
    unary main_v676 main_v697 (broadcastInDim S1x8 ![1] bcast_S8_S1x8_1),
    unary main_v697 main_v698 (broadcastInDim S524288x8 ![0, 1] bcast_S1x8_S524288x8_0_1),
    binary main_v696 main_v698 main_v699 addf,
    nullary main_cst_60 (constant S_ .f32 0x3C23D70A#32) ] ++ (
  reluOps (.of main_v699) (.of main_cst_60) main_call55 ++ (
  [ unary main_v678 main_v701 (transpose S8x8 [1, 0] · transposes_S8x8_S8x8_1_0),
    binary main_v700 main_v701 main_v702 (fun l r => Host.dotGeneral dot_S524288x8_S8x8_S524288x8_1_0_0_1_n_n none l r),
    unary main_v680 main_v703 (broadcastInDim S1x8 ![1] bcast_S8_S1x8_1),
    unary main_v703 main_v704 (broadcastInDim S524288x8 ![0, 1] bcast_S1x8_S524288x8_0_1),
    binary main_v702 main_v704 main_v705 addf,
    nullary main_cst_61 (constant S_ .f32 0x3C23D70A#32) ] ++ (
  reluOps (.of main_v705) (.of main_cst_61) main_call56 ++ (
  [ unary main_v682 main_v707 (transpose S8x8 [1, 0] · transposes_S8x8_S8x8_1_0),
    binary main_v706 main_v707 main_v708 (fun l r => Host.dotGeneral dot_S524288x8_S8x8_S524288x8_1_0_0_1_n_n none l r),
    unary main_v684 main_v709 (broadcastInDim S1x8 ![1] bcast_S8_S1x8_1),
    unary main_v709 main_v710 (broadcastInDim S524288x8 ![0, 1] bcast_S1x8_S524288x8_0_1),
    binary main_v708 main_v710 main_v711 addf,
    nullary main_cst_62 (constant S_ .f32 0x3C23D70A#32) ] ++ (
  reluOps (.of main_v711) (.of main_cst_62) main_call57 ++ (
  [ unary main_v686 main_v713 (transpose S8x1 [1, 0] · transposes_S1x8_S8x1_1_0),
    binary main_v712 main_v713 main_v714 (fun l r => Host.dotGeneral dot_S524288x8_S8x1_S524288x1_1_0_0_1_n_n none l r) ]))))))))
theorem ck12_6_sub : (ck12_6 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub ..⟩

abbrev ck13_6 : List (HloOp τ sig (Elt F)) :=
  [ unary main_v688 main_v715 (broadcastInDim S1x1 ![1] bcast_S1_S1x1_1),
    unary main_v715 main_v716 (broadcastInDim S524288x1 ![0, 1] bcast_S1x1_S524288x1_0_1),
    binary main_v714 main_v716 main_v717 addf,
    unary main_arg1 main_v718 (extractStridedSlice S1x1x8x1 ![6, 1, 0, 0] · slices_S15x2x8x1_S1x1x8x1_6_1_0_0),
    reshape main_v718 main_v719 rfl shapeCasts_S1x1x8x1_S8x1,
    unary main_arg2 main_v720 (extractStridedSlice S1x1x8 ![6, 1, 0] · slices_S15x2x8_S1x1x8_6_1_0),
    reshape main_v720 main_v721 rfl shapeCasts_S1x1x8_S8,
    unary main_arg3 main_v722 (extractStridedSlice S1x1x8x8 ![6, 1, 0, 0] · slices_S15x2x8x8_S1x1x8x8_6_1_0_0),
    reshape main_v722 main_v723 rfl shapeCasts_S1x1x8x8_S8x8,
    unary main_arg4 main_v724 (extractStridedSlice S1x1x8 ![6, 1, 0] · slices_S15x2x8_S1x1x8_6_1_0),
    reshape main_v724 main_v725 rfl shapeCasts_S1x1x8_S8,
    unary main_arg5 main_v726 (extractStridedSlice S1x1x8x8 ![6, 1, 0, 0] · slices_S15x2x8x8_S1x1x8x8_6_1_0_0),
    reshape main_v726 main_v727 rfl shapeCasts_S1x1x8x8_S8x8,
    unary main_arg6 main_v728 (extractStridedSlice S1x1x8 ![6, 1, 0] · slices_S15x2x8_S1x1x8_6_1_0),
    reshape main_v728 main_v729 rfl shapeCasts_S1x1x8_S8,
    unary main_arg7 main_v730 (extractStridedSlice S1x1x8x8 ![6, 1, 0, 0] · slices_S15x2x8x8_S1x1x8x8_6_1_0_0),
    reshape main_v730 main_v731 rfl shapeCasts_S1x1x8x8_S8x8,
    unary main_arg8 main_v732 (extractStridedSlice S1x1x8 ![6, 1, 0] · slices_S15x2x8_S1x1x8_6_1_0),
    reshape main_v732 main_v733 rfl shapeCasts_S1x1x8_S8,
    unary main_arg9 main_v734 (extractStridedSlice S1x1x1x8 ![6, 1, 0, 0] · slices_S15x2x1x8_S1x1x1x8_6_1_0_0),
    reshape main_v734 main_v735 rfl shapeCasts_S1x1x1x8_S1x8,
    unary main_arg10 main_v736 (extractStridedSlice S1x1x1 ![6, 1, 0] · slices_S15x2x1_S1x1x1_6_1_0),
    reshape main_v736 main_v737 rfl shapeCasts_S1x1x1_S1,
    unary main_v719 main_v738 (transpose S1x8 [1, 0] · transposes_S8x1_S1x8_1_0),
    binary main_v667 main_v738 main_v739 (fun l r => Host.dotGeneral dot_S524288x1_S1x8_S524288x8_1_0_0_1_n_n none l r),
    unary main_v721 main_v740 (broadcastInDim S1x8 ![1] bcast_S8_S1x8_1),
    unary main_v740 main_v741 (broadcastInDim S524288x8 ![0, 1] bcast_S1x8_S524288x8_0_1),
    binary main_v739 main_v741 main_v742 addf,
    nullary main_cst_63 (constant S_ .f32 0x3C23D70A#32) ] ++ (
  reluOps (.of main_v742) (.of main_cst_63) main_call58 ++ (
  [ unary main_v723 main_v744 (transpose S8x8 [1, 0] · transposes_S8x8_S8x8_1_0),
    binary main_v743 main_v744 main_v745 (fun l r => Host.dotGeneral dot_S524288x8_S8x8_S524288x8_1_0_0_1_n_n none l r),
    unary main_v725 main_v746 (broadcastInDim S1x8 ![1] bcast_S8_S1x8_1),
    unary main_v746 main_v747 (broadcastInDim S524288x8 ![0, 1] bcast_S1x8_S524288x8_0_1),
    binary main_v745 main_v747 main_v748 addf,
    nullary main_cst_64 (constant S_ .f32 0x3C23D70A#32) ] ++ (
  reluOps (.of main_v748) (.of main_cst_64) main_call59 ++ (
  [ unary main_v727 main_v750 (transpose S8x8 [1, 0] · transposes_S8x8_S8x8_1_0),
    binary main_v749 main_v750 main_v751 (fun l r => Host.dotGeneral dot_S524288x8_S8x8_S524288x8_1_0_0_1_n_n none l r),
    unary main_v729 main_v752 (broadcastInDim S1x8 ![1] bcast_S8_S1x8_1),
    unary main_v752 main_v753 (broadcastInDim S524288x8 ![0, 1] bcast_S1x8_S524288x8_0_1),
    binary main_v751 main_v753 main_v754 addf,
    nullary main_cst_65 (constant S_ .f32 0x3C23D70A#32) ] ++ (
  reluOps (.of main_v754) (.of main_cst_65) main_call60 ++ (
  [ unary main_v731 main_v756 (transpose S8x8 [1, 0] · transposes_S8x8_S8x8_1_0),
    binary main_v755 main_v756 main_v757 (fun l r => Host.dotGeneral dot_S524288x8_S8x8_S524288x8_1_0_0_1_n_n none l r),
    unary main_v733 main_v758 (broadcastInDim S1x8 ![1] bcast_S8_S1x8_1),
    unary main_v758 main_v759 (broadcastInDim S524288x8 ![0, 1] bcast_S1x8_S524288x8_0_1),
    binary main_v757 main_v759 main_v760 addf,
    nullary main_cst_66 (constant S_ .f32 0x3C23D70A#32) ] ++ (
  reluOps (.of main_v760) (.of main_cst_66) main_call61 ++ (
  [ unary main_v735 main_v762 (transpose S8x1 [1, 0] · transposes_S1x8_S8x1_1_0),
    binary main_v761 main_v762 main_v763 (fun l r => Host.dotGeneral dot_S524288x8_S8x1_S524288x1_1_0_0_1_n_n none l r),
    unary main_v737 main_v764 (broadcastInDim S1x1 ![1] bcast_S1_S1x1_1),
    unary main_v764 main_v765 (broadcastInDim S524288x1 ![0, 1] bcast_S1x1_S524288x1_0_1),
    binary main_v763 main_v765 main_v766 addf,
    unary main_v717 main_v767 Host.exp,
    binary main_v767 main_v668 main_v768 mulf,
    binary main_v768 main_v766 main_v769 addf,
    nullary main_cst_67 (constant S_ .f32 0x00000000#32) ]))))))))
theorem ck13_6_sub : (ck13_6 : List (HloOp τ sig (Elt F))).Forall fun op => op.bufs ⊆ tcRefs τ sig :=
  ⟨unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub .., nullary_bufs_sub ..⟩

abbrev ck14_6 : List (HloOp τ sig (Elt F)) :=
  [ binary main_v717 main_cst_67 main_v770 ((fun x v => Host.reduceAdd x v reducesTo_S524288x1_S524288_d1 h_S_)),
    binary main_v660 main_v770 main_v771 addf,
    binary main_v667 main_v769 main_v772 ((fun a b => concatenate S524288x2 1 [⟨S524288x1, a⟩, ⟨S524288x1, b⟩] concatenates_S524288x1_S524288x1_S524288x2_d1)),
    unary main_arg11 main_v773 (extractStridedSlice S1 ![6] · slices_S14_S1_6),
    reshape main_v773 main_v774 rfl shapeCasts_S1_S_,
    nullary main_c_68 (constantI S_ 32 0#32),
    binary main_v774 main_c_68 main_v775 (cmpi .sgt),
    unary main_v772 main_v776 (Host.reverse [1]),
    TRef.ternary (.of main_v775) (.of main_v776) (.of main_v772) main_call62.v0 (fun p a b => select (broadcastInDim S524288x2 ![] bcast_S_S524288x2 p) a b) ]
theorem ck14_6_sub : (ck14_6 : List (HloOp τ sig (Elt F))).Forall fun op => op.bufs ⊆ tcRefs τ sig :=
  ⟨binary_bufs_sub .., binary_bufs_sub .., binary_bufs_sub .., unary_bufs_sub .., reshape_bufs_sub .., nullary_bufs_sub .., binary_bufs_sub .., unary_bufs_sub .., ternary_bufs_sub ..⟩

abbrev ck14_7 : List (HloOp τ sig (Elt F)) :=
  [ unary main_v777 main_v778 (extractStridedSlice S524288x1 ![0, 0] · slices_S524288x2_S524288x1_0_0),
    unary main_v777 main_v779 (extractStridedSlice S524288x1 ![0, 1] · slices_S524288x2_S524288x1_0_1),
    unary main_arg1 main_v780 (extractStridedSlice S1x1x8x1 ![7, 0, 0, 0] · slices_S15x2x8x1_S1x1x8x1_7_0_0_0),
    reshape main_v780 main_v781 rfl shapeCasts_S1x1x8x1_S8x1,
    unary main_arg2 main_v782 (extractStridedSlice S1x1x8 ![7, 0, 0] · slices_S15x2x8_S1x1x8_7_0_0),
    reshape main_v782 main_v783 rfl shapeCasts_S1x1x8_S8,
    unary main_arg3 main_v784 (extractStridedSlice S1x1x8x8 ![7, 0, 0, 0] · slices_S15x2x8x8_S1x1x8x8_7_0_0_0),
    reshape main_v784 main_v785 rfl shapeCasts_S1x1x8x8_S8x8,
    unary main_arg4 main_v786 (extractStridedSlice S1x1x8 ![7, 0, 0] · slices_S15x2x8_S1x1x8_7_0_0),
    reshape main_v786 main_v787 rfl shapeCasts_S1x1x8_S8,
    unary main_arg5 main_v788 (extractStridedSlice S1x1x8x8 ![7, 0, 0, 0] · slices_S15x2x8x8_S1x1x8x8_7_0_0_0),
    reshape main_v788 main_v789 rfl shapeCasts_S1x1x8x8_S8x8,
    unary main_arg6 main_v790 (extractStridedSlice S1x1x8 ![7, 0, 0] · slices_S15x2x8_S1x1x8_7_0_0),
    reshape main_v790 main_v791 rfl shapeCasts_S1x1x8_S8,
    unary main_arg7 main_v792 (extractStridedSlice S1x1x8x8 ![7, 0, 0, 0] · slices_S15x2x8x8_S1x1x8x8_7_0_0_0),
    reshape main_v792 main_v793 rfl shapeCasts_S1x1x8x8_S8x8,
    unary main_arg8 main_v794 (extractStridedSlice S1x1x8 ![7, 0, 0] · slices_S15x2x8_S1x1x8_7_0_0),
    reshape main_v794 main_v795 rfl shapeCasts_S1x1x8_S8,
    unary main_arg9 main_v796 (extractStridedSlice S1x1x1x8 ![7, 0, 0, 0] · slices_S15x2x1x8_S1x1x1x8_7_0_0_0),
    reshape main_v796 main_v797 rfl shapeCasts_S1x1x1x8_S1x8,
    unary main_arg10 main_v798 (extractStridedSlice S1x1x1 ![7, 0, 0] · slices_S15x2x1_S1x1x1_7_0_0),
    reshape main_v798 main_v799 rfl shapeCasts_S1x1x1_S1,
    unary main_v781 main_v800 (transpose S1x8 [1, 0] · transposes_S8x1_S1x8_1_0),
    binary main_v778 main_v800 main_v801 (fun l r => Host.dotGeneral dot_S524288x1_S1x8_S524288x8_1_0_0_1_n_n none l r),
    unary main_v783 main_v802 (broadcastInDim S1x8 ![1] bcast_S8_S1x8_1),
    unary main_v802 main_v803 (broadcastInDim S524288x8 ![0, 1] bcast_S1x8_S524288x8_0_1),
    binary main_v801 main_v803 main_v804 addf,
    nullary main_cst_69 (constant S_ .f32 0x3C23D70A#32) ] ++ (
  reluOps (.of main_v804) (.of main_cst_69) main_call63 ++ (
  [ unary main_v785 main_v806 (transpose S8x8 [1, 0] · transposes_S8x8_S8x8_1_0),
    binary main_v805 main_v806 main_v807 (fun l r => Host.dotGeneral dot_S524288x8_S8x8_S524288x8_1_0_0_1_n_n none l r),
    unary main_v787 main_v808 (broadcastInDim S1x8 ![1] bcast_S8_S1x8_1),
    unary main_v808 main_v809 (broadcastInDim S524288x8 ![0, 1] bcast_S1x8_S524288x8_0_1),
    binary main_v807 main_v809 main_v810 addf,
    nullary main_cst_70 (constant S_ .f32 0x3C23D70A#32) ] ++ (
  reluOps (.of main_v810) (.of main_cst_70) main_call64 ++ (
  [ unary main_v789 main_v812 (transpose S8x8 [1, 0] · transposes_S8x8_S8x8_1_0),
    binary main_v811 main_v812 main_v813 (fun l r => Host.dotGeneral dot_S524288x8_S8x8_S524288x8_1_0_0_1_n_n none l r),
    unary main_v791 main_v814 (broadcastInDim S1x8 ![1] bcast_S8_S1x8_1),
    unary main_v814 main_v815 (broadcastInDim S524288x8 ![0, 1] bcast_S1x8_S524288x8_0_1),
    binary main_v813 main_v815 main_v816 addf,
    nullary main_cst_71 (constant S_ .f32 0x3C23D70A#32) ] ++ (
  reluOps (.of main_v816) (.of main_cst_71) main_call65 ++ (
  [ unary main_v793 main_v818 (transpose S8x8 [1, 0] · transposes_S8x8_S8x8_1_0),
    binary main_v817 main_v818 main_v819 (fun l r => Host.dotGeneral dot_S524288x8_S8x8_S524288x8_1_0_0_1_n_n none l r),
    unary main_v795 main_v820 (broadcastInDim S1x8 ![1] bcast_S8_S1x8_1),
    unary main_v820 main_v821 (broadcastInDim S524288x8 ![0, 1] bcast_S1x8_S524288x8_0_1),
    binary main_v819 main_v821 main_v822 addf,
    nullary main_cst_72 (constant S_ .f32 0x3C23D70A#32) ] ++ (
  reluOps (.of main_v822) (.of main_cst_72) main_call66 ++ (
  [ unary main_v797 main_v824 (transpose S8x1 [1, 0] · transposes_S1x8_S8x1_1_0) ]))))))))
theorem ck14_7_sub : (ck14_7 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub ..⟩

abbrev ck15_7 : List (HloOp τ sig (Elt F)) :=
  [ binary main_v823 main_v824 main_v825 (fun l r => Host.dotGeneral dot_S524288x8_S8x1_S524288x1_1_0_0_1_n_n none l r),
    unary main_v799 main_v826 (broadcastInDim S1x1 ![1] bcast_S1_S1x1_1),
    unary main_v826 main_v827 (broadcastInDim S524288x1 ![0, 1] bcast_S1x1_S524288x1_0_1),
    binary main_v825 main_v827 main_v828 addf,
    unary main_arg1 main_v829 (extractStridedSlice S1x1x8x1 ![7, 1, 0, 0] · slices_S15x2x8x1_S1x1x8x1_7_1_0_0),
    reshape main_v829 main_v830 rfl shapeCasts_S1x1x8x1_S8x1,
    unary main_arg2 main_v831 (extractStridedSlice S1x1x8 ![7, 1, 0] · slices_S15x2x8_S1x1x8_7_1_0),
    reshape main_v831 main_v832 rfl shapeCasts_S1x1x8_S8,
    unary main_arg3 main_v833 (extractStridedSlice S1x1x8x8 ![7, 1, 0, 0] · slices_S15x2x8x8_S1x1x8x8_7_1_0_0),
    reshape main_v833 main_v834 rfl shapeCasts_S1x1x8x8_S8x8,
    unary main_arg4 main_v835 (extractStridedSlice S1x1x8 ![7, 1, 0] · slices_S15x2x8_S1x1x8_7_1_0),
    reshape main_v835 main_v836 rfl shapeCasts_S1x1x8_S8,
    unary main_arg5 main_v837 (extractStridedSlice S1x1x8x8 ![7, 1, 0, 0] · slices_S15x2x8x8_S1x1x8x8_7_1_0_0),
    reshape main_v837 main_v838 rfl shapeCasts_S1x1x8x8_S8x8,
    unary main_arg6 main_v839 (extractStridedSlice S1x1x8 ![7, 1, 0] · slices_S15x2x8_S1x1x8_7_1_0),
    reshape main_v839 main_v840 rfl shapeCasts_S1x1x8_S8,
    unary main_arg7 main_v841 (extractStridedSlice S1x1x8x8 ![7, 1, 0, 0] · slices_S15x2x8x8_S1x1x8x8_7_1_0_0),
    reshape main_v841 main_v842 rfl shapeCasts_S1x1x8x8_S8x8,
    unary main_arg8 main_v843 (extractStridedSlice S1x1x8 ![7, 1, 0] · slices_S15x2x8_S1x1x8_7_1_0),
    reshape main_v843 main_v844 rfl shapeCasts_S1x1x8_S8,
    unary main_arg9 main_v845 (extractStridedSlice S1x1x1x8 ![7, 1, 0, 0] · slices_S15x2x1x8_S1x1x1x8_7_1_0_0),
    reshape main_v845 main_v846 rfl shapeCasts_S1x1x1x8_S1x8,
    unary main_arg10 main_v847 (extractStridedSlice S1x1x1 ![7, 1, 0] · slices_S15x2x1_S1x1x1_7_1_0),
    reshape main_v847 main_v848 rfl shapeCasts_S1x1x1_S1,
    unary main_v830 main_v849 (transpose S1x8 [1, 0] · transposes_S8x1_S1x8_1_0),
    binary main_v778 main_v849 main_v850 (fun l r => Host.dotGeneral dot_S524288x1_S1x8_S524288x8_1_0_0_1_n_n none l r),
    unary main_v832 main_v851 (broadcastInDim S1x8 ![1] bcast_S8_S1x8_1),
    unary main_v851 main_v852 (broadcastInDim S524288x8 ![0, 1] bcast_S1x8_S524288x8_0_1),
    binary main_v850 main_v852 main_v853 addf,
    nullary main_cst_73 (constant S_ .f32 0x3C23D70A#32) ] ++ (
  reluOps (.of main_v853) (.of main_cst_73) main_call67 ++ (
  [ unary main_v834 main_v855 (transpose S8x8 [1, 0] · transposes_S8x8_S8x8_1_0),
    binary main_v854 main_v855 main_v856 (fun l r => Host.dotGeneral dot_S524288x8_S8x8_S524288x8_1_0_0_1_n_n none l r),
    unary main_v836 main_v857 (broadcastInDim S1x8 ![1] bcast_S8_S1x8_1),
    unary main_v857 main_v858 (broadcastInDim S524288x8 ![0, 1] bcast_S1x8_S524288x8_0_1),
    binary main_v856 main_v858 main_v859 addf,
    nullary main_cst_74 (constant S_ .f32 0x3C23D70A#32) ] ++ (
  reluOps (.of main_v859) (.of main_cst_74) main_call68 ++ (
  [ unary main_v838 main_v861 (transpose S8x8 [1, 0] · transposes_S8x8_S8x8_1_0),
    binary main_v860 main_v861 main_v862 (fun l r => Host.dotGeneral dot_S524288x8_S8x8_S524288x8_1_0_0_1_n_n none l r),
    unary main_v840 main_v863 (broadcastInDim S1x8 ![1] bcast_S8_S1x8_1),
    unary main_v863 main_v864 (broadcastInDim S524288x8 ![0, 1] bcast_S1x8_S524288x8_0_1),
    binary main_v862 main_v864 main_v865 addf,
    nullary main_cst_75 (constant S_ .f32 0x3C23D70A#32) ] ++ (
  reluOps (.of main_v865) (.of main_cst_75) main_call69 ++ (
  [ unary main_v842 main_v867 (transpose S8x8 [1, 0] · transposes_S8x8_S8x8_1_0),
    binary main_v866 main_v867 main_v868 (fun l r => Host.dotGeneral dot_S524288x8_S8x8_S524288x8_1_0_0_1_n_n none l r),
    unary main_v844 main_v869 (broadcastInDim S1x8 ![1] bcast_S8_S1x8_1),
    unary main_v869 main_v870 (broadcastInDim S524288x8 ![0, 1] bcast_S1x8_S524288x8_0_1),
    binary main_v868 main_v870 main_v871 addf,
    nullary main_cst_76 (constant S_ .f32 0x3C23D70A#32) ] ++ (
  reluOps (.of main_v871) (.of main_cst_76) main_call70 ++ (
  [ unary main_v846 main_v873 (transpose S8x1 [1, 0] · transposes_S1x8_S8x1_1_0),
    binary main_v872 main_v873 main_v874 (fun l r => Host.dotGeneral dot_S524288x8_S8x1_S524288x1_1_0_0_1_n_n none l r),
    unary main_v848 main_v875 (broadcastInDim S1x1 ![1] bcast_S1_S1x1_1),
    unary main_v875 main_v876 (broadcastInDim S524288x1 ![0, 1] bcast_S1x1_S524288x1_0_1),
    binary main_v874 main_v876 main_v877 addf,
    unary main_v828 main_v878 Host.exp,
    binary main_v878 main_v779 main_v879 mulf,
    binary main_v879 main_v877 main_v880 addf ]))))))))
theorem ck15_7_sub : (ck15_7 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., binary_bufs_sub ..⟩

abbrev ck16_7 : List (HloOp τ sig (Elt F)) :=
  [ nullary main_cst_77 (constant S_ .f32 0x00000000#32),
    binary main_v828 main_cst_77 main_v881 ((fun x v => Host.reduceAdd x v reducesTo_S524288x1_S524288_d1 h_S_)),
    binary main_v771 main_v881 main_v882 addf,
    binary main_v778 main_v880 main_v883 ((fun a b => concatenate S524288x2 1 [⟨S524288x1, a⟩, ⟨S524288x1, b⟩] concatenates_S524288x1_S524288x1_S524288x2_d1)),
    unary main_arg11 main_v884 (extractStridedSlice S1 ![7] · slices_S14_S1_7),
    reshape main_v884 main_v885 rfl shapeCasts_S1_S_,
    nullary main_c_78 (constantI S_ 32 0#32),
    binary main_v885 main_c_78 main_v886 (cmpi .sgt),
    unary main_v883 main_v887 (Host.reverse [1]),
    TRef.ternary (.of main_v886) (.of main_v887) (.of main_v883) main_call71.v0 (fun p a b => select (broadcastInDim S524288x2 ![] bcast_S_S524288x2 p) a b) ]
theorem ck16_7_sub : (ck16_7 : List (HloOp τ sig (Elt F))).Forall fun op => op.bufs ⊆ tcRefs τ sig :=
  ⟨nullary_bufs_sub .., binary_bufs_sub .., binary_bufs_sub .., binary_bufs_sub .., unary_bufs_sub .., reshape_bufs_sub .., nullary_bufs_sub .., binary_bufs_sub .., unary_bufs_sub .., ternary_bufs_sub ..⟩

abbrev ck16_8 : List (HloOp τ sig (Elt F)) :=
  [ unary main_v888 main_v889 (extractStridedSlice S524288x1 ![0, 0] · slices_S524288x2_S524288x1_0_0),
    unary main_v888 main_v890 (extractStridedSlice S524288x1 ![0, 1] · slices_S524288x2_S524288x1_0_1),
    unary main_arg1 main_v891 (extractStridedSlice S1x1x8x1 ![8, 0, 0, 0] · slices_S15x2x8x1_S1x1x8x1_8_0_0_0),
    reshape main_v891 main_v892 rfl shapeCasts_S1x1x8x1_S8x1,
    unary main_arg2 main_v893 (extractStridedSlice S1x1x8 ![8, 0, 0] · slices_S15x2x8_S1x1x8_8_0_0),
    reshape main_v893 main_v894 rfl shapeCasts_S1x1x8_S8,
    unary main_arg3 main_v895 (extractStridedSlice S1x1x8x8 ![8, 0, 0, 0] · slices_S15x2x8x8_S1x1x8x8_8_0_0_0),
    reshape main_v895 main_v896 rfl shapeCasts_S1x1x8x8_S8x8,
    unary main_arg4 main_v897 (extractStridedSlice S1x1x8 ![8, 0, 0] · slices_S15x2x8_S1x1x8_8_0_0),
    reshape main_v897 main_v898 rfl shapeCasts_S1x1x8_S8,
    unary main_arg5 main_v899 (extractStridedSlice S1x1x8x8 ![8, 0, 0, 0] · slices_S15x2x8x8_S1x1x8x8_8_0_0_0),
    reshape main_v899 main_v900 rfl shapeCasts_S1x1x8x8_S8x8,
    unary main_arg6 main_v901 (extractStridedSlice S1x1x8 ![8, 0, 0] · slices_S15x2x8_S1x1x8_8_0_0),
    reshape main_v901 main_v902 rfl shapeCasts_S1x1x8_S8,
    unary main_arg7 main_v903 (extractStridedSlice S1x1x8x8 ![8, 0, 0, 0] · slices_S15x2x8x8_S1x1x8x8_8_0_0_0),
    reshape main_v903 main_v904 rfl shapeCasts_S1x1x8x8_S8x8,
    unary main_arg8 main_v905 (extractStridedSlice S1x1x8 ![8, 0, 0] · slices_S15x2x8_S1x1x8_8_0_0),
    reshape main_v905 main_v906 rfl shapeCasts_S1x1x8_S8,
    unary main_arg9 main_v907 (extractStridedSlice S1x1x1x8 ![8, 0, 0, 0] · slices_S15x2x1x8_S1x1x1x8_8_0_0_0),
    reshape main_v907 main_v908 rfl shapeCasts_S1x1x1x8_S1x8,
    unary main_arg10 main_v909 (extractStridedSlice S1x1x1 ![8, 0, 0] · slices_S15x2x1_S1x1x1_8_0_0),
    reshape main_v909 main_v910 rfl shapeCasts_S1x1x1_S1,
    unary main_v892 main_v911 (transpose S1x8 [1, 0] · transposes_S8x1_S1x8_1_0),
    binary main_v889 main_v911 main_v912 (fun l r => Host.dotGeneral dot_S524288x1_S1x8_S524288x8_1_0_0_1_n_n none l r),
    unary main_v894 main_v913 (broadcastInDim S1x8 ![1] bcast_S8_S1x8_1),
    unary main_v913 main_v914 (broadcastInDim S524288x8 ![0, 1] bcast_S1x8_S524288x8_0_1),
    binary main_v912 main_v914 main_v915 addf,
    nullary main_cst_79 (constant S_ .f32 0x3C23D70A#32) ] ++ (
  reluOps (.of main_v915) (.of main_cst_79) main_call72 ++ (
  [ unary main_v896 main_v917 (transpose S8x8 [1, 0] · transposes_S8x8_S8x8_1_0),
    binary main_v916 main_v917 main_v918 (fun l r => Host.dotGeneral dot_S524288x8_S8x8_S524288x8_1_0_0_1_n_n none l r),
    unary main_v898 main_v919 (broadcastInDim S1x8 ![1] bcast_S8_S1x8_1),
    unary main_v919 main_v920 (broadcastInDim S524288x8 ![0, 1] bcast_S1x8_S524288x8_0_1),
    binary main_v918 main_v920 main_v921 addf,
    nullary main_cst_80 (constant S_ .f32 0x3C23D70A#32) ] ++ (
  reluOps (.of main_v921) (.of main_cst_80) main_call73 ++ (
  [ unary main_v900 main_v923 (transpose S8x8 [1, 0] · transposes_S8x8_S8x8_1_0),
    binary main_v922 main_v923 main_v924 (fun l r => Host.dotGeneral dot_S524288x8_S8x8_S524288x8_1_0_0_1_n_n none l r),
    unary main_v902 main_v925 (broadcastInDim S1x8 ![1] bcast_S8_S1x8_1),
    unary main_v925 main_v926 (broadcastInDim S524288x8 ![0, 1] bcast_S1x8_S524288x8_0_1),
    binary main_v924 main_v926 main_v927 addf,
    nullary main_cst_81 (constant S_ .f32 0x3C23D70A#32) ] ++ (
  reluOps (.of main_v927) (.of main_cst_81) main_call74 ++ (
  [ unary main_v904 main_v929 (transpose S8x8 [1, 0] · transposes_S8x8_S8x8_1_0),
    binary main_v928 main_v929 main_v930 (fun l r => Host.dotGeneral dot_S524288x8_S8x8_S524288x8_1_0_0_1_n_n none l r),
    unary main_v906 main_v931 (broadcastInDim S1x8 ![1] bcast_S8_S1x8_1),
    unary main_v931 main_v932 (broadcastInDim S524288x8 ![0, 1] bcast_S1x8_S524288x8_0_1),
    binary main_v930 main_v932 main_v933 addf,
    nullary main_cst_82 (constant S_ .f32 0x3C23D70A#32) ] ++ (
  reluOps (.of main_v933) (.of main_cst_82) main_call75)))))))
theorem ck16_8_sub : (ck16_8 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

abbrev ck17_8 : List (HloOp τ sig (Elt F)) :=
  [ unary main_v908 main_v935 (transpose S8x1 [1, 0] · transposes_S1x8_S8x1_1_0),
    binary main_v934 main_v935 main_v936 (fun l r => Host.dotGeneral dot_S524288x8_S8x1_S524288x1_1_0_0_1_n_n none l r),
    unary main_v910 main_v937 (broadcastInDim S1x1 ![1] bcast_S1_S1x1_1),
    unary main_v937 main_v938 (broadcastInDim S524288x1 ![0, 1] bcast_S1x1_S524288x1_0_1),
    binary main_v936 main_v938 main_v939 addf,
    unary main_arg1 main_v940 (extractStridedSlice S1x1x8x1 ![8, 1, 0, 0] · slices_S15x2x8x1_S1x1x8x1_8_1_0_0),
    reshape main_v940 main_v941 rfl shapeCasts_S1x1x8x1_S8x1,
    unary main_arg2 main_v942 (extractStridedSlice S1x1x8 ![8, 1, 0] · slices_S15x2x8_S1x1x8_8_1_0),
    reshape main_v942 main_v943 rfl shapeCasts_S1x1x8_S8,
    unary main_arg3 main_v944 (extractStridedSlice S1x1x8x8 ![8, 1, 0, 0] · slices_S15x2x8x8_S1x1x8x8_8_1_0_0),
    reshape main_v944 main_v945 rfl shapeCasts_S1x1x8x8_S8x8,
    unary main_arg4 main_v946 (extractStridedSlice S1x1x8 ![8, 1, 0] · slices_S15x2x8_S1x1x8_8_1_0),
    reshape main_v946 main_v947 rfl shapeCasts_S1x1x8_S8,
    unary main_arg5 main_v948 (extractStridedSlice S1x1x8x8 ![8, 1, 0, 0] · slices_S15x2x8x8_S1x1x8x8_8_1_0_0),
    reshape main_v948 main_v949 rfl shapeCasts_S1x1x8x8_S8x8,
    unary main_arg6 main_v950 (extractStridedSlice S1x1x8 ![8, 1, 0] · slices_S15x2x8_S1x1x8_8_1_0),
    reshape main_v950 main_v951 rfl shapeCasts_S1x1x8_S8,
    unary main_arg7 main_v952 (extractStridedSlice S1x1x8x8 ![8, 1, 0, 0] · slices_S15x2x8x8_S1x1x8x8_8_1_0_0),
    reshape main_v952 main_v953 rfl shapeCasts_S1x1x8x8_S8x8,
    unary main_arg8 main_v954 (extractStridedSlice S1x1x8 ![8, 1, 0] · slices_S15x2x8_S1x1x8_8_1_0),
    reshape main_v954 main_v955 rfl shapeCasts_S1x1x8_S8,
    unary main_arg9 main_v956 (extractStridedSlice S1x1x1x8 ![8, 1, 0, 0] · slices_S15x2x1x8_S1x1x1x8_8_1_0_0),
    reshape main_v956 main_v957 rfl shapeCasts_S1x1x1x8_S1x8,
    unary main_arg10 main_v958 (extractStridedSlice S1x1x1 ![8, 1, 0] · slices_S15x2x1_S1x1x1_8_1_0),
    reshape main_v958 main_v959 rfl shapeCasts_S1x1x1_S1,
    unary main_v941 main_v960 (transpose S1x8 [1, 0] · transposes_S8x1_S1x8_1_0),
    binary main_v889 main_v960 main_v961 (fun l r => Host.dotGeneral dot_S524288x1_S1x8_S524288x8_1_0_0_1_n_n none l r),
    unary main_v943 main_v962 (broadcastInDim S1x8 ![1] bcast_S8_S1x8_1),
    unary main_v962 main_v963 (broadcastInDim S524288x8 ![0, 1] bcast_S1x8_S524288x8_0_1),
    binary main_v961 main_v963 main_v964 addf,
    nullary main_cst_83 (constant S_ .f32 0x3C23D70A#32) ] ++ (
  reluOps (.of main_v964) (.of main_cst_83) main_call76 ++ (
  [ unary main_v945 main_v966 (transpose S8x8 [1, 0] · transposes_S8x8_S8x8_1_0),
    binary main_v965 main_v966 main_v967 (fun l r => Host.dotGeneral dot_S524288x8_S8x8_S524288x8_1_0_0_1_n_n none l r),
    unary main_v947 main_v968 (broadcastInDim S1x8 ![1] bcast_S8_S1x8_1),
    unary main_v968 main_v969 (broadcastInDim S524288x8 ![0, 1] bcast_S1x8_S524288x8_0_1),
    binary main_v967 main_v969 main_v970 addf,
    nullary main_cst_84 (constant S_ .f32 0x3C23D70A#32) ] ++ (
  reluOps (.of main_v970) (.of main_cst_84) main_call77 ++ (
  [ unary main_v949 main_v972 (transpose S8x8 [1, 0] · transposes_S8x8_S8x8_1_0),
    binary main_v971 main_v972 main_v973 (fun l r => Host.dotGeneral dot_S524288x8_S8x8_S524288x8_1_0_0_1_n_n none l r),
    unary main_v951 main_v974 (broadcastInDim S1x8 ![1] bcast_S8_S1x8_1),
    unary main_v974 main_v975 (broadcastInDim S524288x8 ![0, 1] bcast_S1x8_S524288x8_0_1),
    binary main_v973 main_v975 main_v976 addf,
    nullary main_cst_85 (constant S_ .f32 0x3C23D70A#32) ] ++ (
  reluOps (.of main_v976) (.of main_cst_85) main_call78 ++ (
  [ unary main_v953 main_v978 (transpose S8x8 [1, 0] · transposes_S8x8_S8x8_1_0),
    binary main_v977 main_v978 main_v979 (fun l r => Host.dotGeneral dot_S524288x8_S8x8_S524288x8_1_0_0_1_n_n none l r),
    unary main_v955 main_v980 (broadcastInDim S1x8 ![1] bcast_S8_S1x8_1),
    unary main_v980 main_v981 (broadcastInDim S524288x8 ![0, 1] bcast_S1x8_S524288x8_0_1),
    binary main_v979 main_v981 main_v982 addf,
    nullary main_cst_86 (constant S_ .f32 0x3C23D70A#32) ] ++ (
  reluOps (.of main_v982) (.of main_cst_86) main_call79 ++ (
  [ unary main_v957 main_v984 (transpose S8x1 [1, 0] · transposes_S1x8_S8x1_1_0),
    binary main_v983 main_v984 main_v985 (fun l r => Host.dotGeneral dot_S524288x8_S8x1_S524288x1_1_0_0_1_n_n none l r),
    unary main_v959 main_v986 (broadcastInDim S1x1 ![1] bcast_S1_S1x1_1),
    unary main_v986 main_v987 (broadcastInDim S524288x1 ![0, 1] bcast_S1x1_S524288x1_0_1),
    binary main_v985 main_v987 main_v988 addf,
    unary main_v939 main_v989 Host.exp,
    binary main_v989 main_v890 main_v990 mulf ]))))))))
theorem ck17_8_sub : (ck17_8 : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub ..⟩

abbrev ck18_8 : List (HloOp τ sig (Elt F)) :=
  [ binary main_v990 main_v988 main_v991 addf,
    nullary main_cst_87 (constant S_ .f32 0x00000000#32),
    binary main_v939 main_cst_87 main_v992 ((fun x v => Host.reduceAdd x v reducesTo_S524288x1_S524288_d1 h_S_)),
    binary main_v882 main_v992 main_v993 addf,
    binary main_v889 main_v991 main_v994 ((fun a b => concatenate S524288x2 1 [⟨S524288x1, a⟩, ⟨S524288x1, b⟩] concatenates_S524288x1_S524288x1_S524288x2_d1)),
    unary main_arg11 main_v995 (extractStridedSlice S1 ![8] · slices_S14_S1_8),
    reshape main_v995 main_v996 rfl shapeCasts_S1_S_,
    nullary main_c_88 (constantI S_ 32 0#32),
    binary main_v996 main_c_88 main_v997 (cmpi .sgt),
    unary main_v994 main_v998 (Host.reverse [1]),
    TRef.ternary (.of main_v997) (.of main_v998) (.of main_v994) main_call80.v0 (fun p a b => select (broadcastInDim S524288x2 ![] bcast_S_S524288x2 p) a b) ]
theorem ck18_8_sub : (ck18_8 : List (HloOp τ sig (Elt F))).Forall fun op => op.bufs ⊆ tcRefs τ sig :=
  ⟨binary_bufs_sub .., nullary_bufs_sub .., binary_bufs_sub .., binary_bufs_sub .., binary_bufs_sub .., unary_bufs_sub .., reshape_bufs_sub .., nullary_bufs_sub .., binary_bufs_sub .., unary_bufs_sub .., ternary_bufs_sub ..⟩

end Cert.ReferenceIdeal.RefRun

end
-- ==== Proof.RefOps3.lean ====
/- The reference program's host operations in order, as lists: layers 9 to 11. -/
import proofs.«405999_j47631187312975_2_alg».proof.Proof.Gen.ReferenceIdeal
import proofs.«405999_j47631187312975_2_alg».proof.Proof.RefRelu

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ck18_9 : List (HloOp τ sig (Elt F)) :=
  [ unary main_v999 main_v1000 (extractStridedSlice S524288x1 ![0, 0] · slices_S524288x2_S524288x1_0_0),
    unary main_v999 main_v1001 (extractStridedSlice S524288x1 ![0, 1] · slices_S524288x2_S524288x1_0_1),
    unary main_arg1 main_v1002 (extractStridedSlice S1x1x8x1 ![9, 0, 0, 0] · slices_S15x2x8x1_S1x1x8x1_9_0_0_0),
    reshape main_v1002 main_v1003 rfl shapeCasts_S1x1x8x1_S8x1,
    unary main_arg2 main_v1004 (extractStridedSlice S1x1x8 ![9, 0, 0] · slices_S15x2x8_S1x1x8_9_0_0),
    reshape main_v1004 main_v1005 rfl shapeCasts_S1x1x8_S8,
    unary main_arg3 main_v1006 (extractStridedSlice S1x1x8x8 ![9, 0, 0, 0] · slices_S15x2x8x8_S1x1x8x8_9_0_0_0),
    reshape main_v1006 main_v1007 rfl shapeCasts_S1x1x8x8_S8x8,
    unary main_arg4 main_v1008 (extractStridedSlice S1x1x8 ![9, 0, 0] · slices_S15x2x8_S1x1x8_9_0_0),
    reshape main_v1008 main_v1009 rfl shapeCasts_S1x1x8_S8,
    unary main_arg5 main_v1010 (extractStridedSlice S1x1x8x8 ![9, 0, 0, 0] · slices_S15x2x8x8_S1x1x8x8_9_0_0_0),
    reshape main_v1010 main_v1011 rfl shapeCasts_S1x1x8x8_S8x8,
    unary main_arg6 main_v1012 (extractStridedSlice S1x1x8 ![9, 0, 0] · slices_S15x2x8_S1x1x8_9_0_0),
    reshape main_v1012 main_v1013 rfl shapeCasts_S1x1x8_S8,
    unary main_arg7 main_v1014 (extractStridedSlice S1x1x8x8 ![9, 0, 0, 0] · slices_S15x2x8x8_S1x1x8x8_9_0_0_0),
    reshape main_v1014 main_v1015 rfl shapeCasts_S1x1x8x8_S8x8,
    unary main_arg8 main_v1016 (extractStridedSlice S1x1x8 ![9, 0, 0] · slices_S15x2x8_S1x1x8_9_0_0),
    reshape main_v1016 main_v1017 rfl shapeCasts_S1x1x8_S8,
    unary main_arg9 main_v1018 (extractStridedSlice S1x1x1x8 ![9, 0, 0, 0] · slices_S15x2x1x8_S1x1x1x8_9_0_0_0),
    reshape main_v1018 main_v1019 rfl shapeCasts_S1x1x1x8_S1x8,
    unary main_arg10 main_v1020 (extractStridedSlice S1x1x1 ![9, 0, 0] · slices_S15x2x1_S1x1x1_9_0_0),
    reshape main_v1020 main_v1021 rfl shapeCasts_S1x1x1_S1,
    unary main_v1003 main_v1022 (transpose S1x8 [1, 0] · transposes_S8x1_S1x8_1_0),
    binary main_v1000 main_v1022 main_v1023 (fun l r => Host.dotGeneral dot_S524288x1_S1x8_S524288x8_1_0_0_1_n_n none l r),
    unary main_v1005 main_v1024 (broadcastInDim S1x8 ![1] bcast_S8_S1x8_1),
    unary main_v1024 main_v1025 (broadcastInDim S524288x8 ![0, 1] bcast_S1x8_S524288x8_0_1),
    binary main_v1023 main_v1025 main_v1026 addf,
    nullary main_cst_89 (constant S_ .f32 0x3C23D70A#32) ] ++ (
  reluOps (.of main_v1026) (.of main_cst_89) main_call81 ++ (
  [ unary main_v1007 main_v1028 (transpose S8x8 [1, 0] · transposes_S8x8_S8x8_1_0),
    binary main_v1027 main_v1028 main_v1029 (fun l r => Host.dotGeneral dot_S524288x8_S8x8_S524288x8_1_0_0_1_n_n none l r),
    unary main_v1009 main_v1030 (broadcastInDim S1x8 ![1] bcast_S8_S1x8_1),
    unary main_v1030 main_v1031 (broadcastInDim S524288x8 ![0, 1] bcast_S1x8_S524288x8_0_1),
    binary main_v1029 main_v1031 main_v1032 addf,
    nullary main_cst_90 (constant S_ .f32 0x3C23D70A#32) ] ++ (
  reluOps (.of main_v1032) (.of main_cst_90) main_call82 ++ (
  [ unary main_v1011 main_v1034 (transpose S8x8 [1, 0] · transposes_S8x8_S8x8_1_0),
    binary main_v1033 main_v1034 main_v1035 (fun l r => Host.dotGeneral dot_S524288x8_S8x8_S524288x8_1_0_0_1_n_n none l r),
    unary main_v1013 main_v1036 (broadcastInDim S1x8 ![1] bcast_S8_S1x8_1),
    unary main_v1036 main_v1037 (broadcastInDim S524288x8 ![0, 1] bcast_S1x8_S524288x8_0_1),
    binary main_v1035 main_v1037 main_v1038 addf,
    nullary main_cst_91 (constant S_ .f32 0x3C23D70A#32) ] ++ (
  reluOps (.of main_v1038) (.of main_cst_91) main_call83 ++ (
  [ unary main_v1015 main_v1040 (transpose S8x8 [1, 0] · transposes_S8x8_S8x8_1_0),
    binary main_v1039 main_v1040 main_v1041 (fun l r => Host.dotGeneral dot_S524288x8_S8x8_S524288x8_1_0_0_1_n_n none l r),
    unary main_v1017 main_v1042 (broadcastInDim S1x8 ![1] bcast_S8_S1x8_1),
    unary main_v1042 main_v1043 (broadcastInDim S524288x8 ![0, 1] bcast_S1x8_S524288x8_0_1),
    binary main_v1041 main_v1043 main_v1044 addf,
    nullary main_cst_92 (constant S_ .f32 0x3C23D70A#32) ]))))))
theorem ck18_9_sub : (ck18_9 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub ..⟩

abbrev ck19_9 : List (HloOp τ sig (Elt F)) :=
  reluOps (.of main_v1044) (.of main_cst_92) main_call84 ++ (
  [ unary main_v1019 main_v1046 (transpose S8x1 [1, 0] · transposes_S1x8_S8x1_1_0),
    binary main_v1045 main_v1046 main_v1047 (fun l r => Host.dotGeneral dot_S524288x8_S8x1_S524288x1_1_0_0_1_n_n none l r),
    unary main_v1021 main_v1048 (broadcastInDim S1x1 ![1] bcast_S1_S1x1_1),
    unary main_v1048 main_v1049 (broadcastInDim S524288x1 ![0, 1] bcast_S1x1_S524288x1_0_1),
    binary main_v1047 main_v1049 main_v1050 addf,
    unary main_arg1 main_v1051 (extractStridedSlice S1x1x8x1 ![9, 1, 0, 0] · slices_S15x2x8x1_S1x1x8x1_9_1_0_0),
    reshape main_v1051 main_v1052 rfl shapeCasts_S1x1x8x1_S8x1,
    unary main_arg2 main_v1053 (extractStridedSlice S1x1x8 ![9, 1, 0] · slices_S15x2x8_S1x1x8_9_1_0),
    reshape main_v1053 main_v1054 rfl shapeCasts_S1x1x8_S8,
    unary main_arg3 main_v1055 (extractStridedSlice S1x1x8x8 ![9, 1, 0, 0] · slices_S15x2x8x8_S1x1x8x8_9_1_0_0),
    reshape main_v1055 main_v1056 rfl shapeCasts_S1x1x8x8_S8x8,
    unary main_arg4 main_v1057 (extractStridedSlice S1x1x8 ![9, 1, 0] · slices_S15x2x8_S1x1x8_9_1_0),
    reshape main_v1057 main_v1058 rfl shapeCasts_S1x1x8_S8,
    unary main_arg5 main_v1059 (extractStridedSlice S1x1x8x8 ![9, 1, 0, 0] · slices_S15x2x8x8_S1x1x8x8_9_1_0_0),
    reshape main_v1059 main_v1060 rfl shapeCasts_S1x1x8x8_S8x8,
    unary main_arg6 main_v1061 (extractStridedSlice S1x1x8 ![9, 1, 0] · slices_S15x2x8_S1x1x8_9_1_0),
    reshape main_v1061 main_v1062 rfl shapeCasts_S1x1x8_S8,
    unary main_arg7 main_v1063 (extractStridedSlice S1x1x8x8 ![9, 1, 0, 0] · slices_S15x2x8x8_S1x1x8x8_9_1_0_0),
    reshape main_v1063 main_v1064 rfl shapeCasts_S1x1x8x8_S8x8,
    unary main_arg8 main_v1065 (extractStridedSlice S1x1x8 ![9, 1, 0] · slices_S15x2x8_S1x1x8_9_1_0),
    reshape main_v1065 main_v1066 rfl shapeCasts_S1x1x8_S8,
    unary main_arg9 main_v1067 (extractStridedSlice S1x1x1x8 ![9, 1, 0, 0] · slices_S15x2x1x8_S1x1x1x8_9_1_0_0),
    reshape main_v1067 main_v1068 rfl shapeCasts_S1x1x1x8_S1x8,
    unary main_arg10 main_v1069 (extractStridedSlice S1x1x1 ![9, 1, 0] · slices_S15x2x1_S1x1x1_9_1_0),
    reshape main_v1069 main_v1070 rfl shapeCasts_S1x1x1_S1,
    unary main_v1052 main_v1071 (transpose S1x8 [1, 0] · transposes_S8x1_S1x8_1_0),
    binary main_v1000 main_v1071 main_v1072 (fun l r => Host.dotGeneral dot_S524288x1_S1x8_S524288x8_1_0_0_1_n_n none l r),
    unary main_v1054 main_v1073 (broadcastInDim S1x8 ![1] bcast_S8_S1x8_1),
    unary main_v1073 main_v1074 (broadcastInDim S524288x8 ![0, 1] bcast_S1x8_S524288x8_0_1),
    binary main_v1072 main_v1074 main_v1075 addf,
    nullary main_cst_93 (constant S_ .f32 0x3C23D70A#32) ] ++ (
  reluOps (.of main_v1075) (.of main_cst_93) main_call85 ++ (
  [ unary main_v1056 main_v1077 (transpose S8x8 [1, 0] · transposes_S8x8_S8x8_1_0),
    binary main_v1076 main_v1077 main_v1078 (fun l r => Host.dotGeneral dot_S524288x8_S8x8_S524288x8_1_0_0_1_n_n none l r),
    unary main_v1058 main_v1079 (broadcastInDim S1x8 ![1] bcast_S8_S1x8_1),
    unary main_v1079 main_v1080 (broadcastInDim S524288x8 ![0, 1] bcast_S1x8_S524288x8_0_1),
    binary main_v1078 main_v1080 main_v1081 addf,
    nullary main_cst_94 (constant S_ .f32 0x3C23D70A#32) ] ++ (
  reluOps (.of main_v1081) (.of main_cst_94) main_call86 ++ (
  [ unary main_v1060 main_v1083 (transpose S8x8 [1, 0] · transposes_S8x8_S8x8_1_0),
    binary main_v1082 main_v1083 main_v1084 (fun l r => Host.dotGeneral dot_S524288x8_S8x8_S524288x8_1_0_0_1_n_n none l r),
    unary main_v1062 main_v1085 (broadcastInDim S1x8 ![1] bcast_S8_S1x8_1),
    unary main_v1085 main_v1086 (broadcastInDim S524288x8 ![0, 1] bcast_S1x8_S524288x8_0_1),
    binary main_v1084 main_v1086 main_v1087 addf,
    nullary main_cst_95 (constant S_ .f32 0x3C23D70A#32) ] ++ (
  reluOps (.of main_v1087) (.of main_cst_95) main_call87 ++ (
  [ unary main_v1064 main_v1089 (transpose S8x8 [1, 0] · transposes_S8x8_S8x8_1_0),
    binary main_v1088 main_v1089 main_v1090 (fun l r => Host.dotGeneral dot_S524288x8_S8x8_S524288x8_1_0_0_1_n_n none l r),
    unary main_v1066 main_v1091 (broadcastInDim S1x8 ![1] bcast_S8_S1x8_1),
    unary main_v1091 main_v1092 (broadcastInDim S524288x8 ![0, 1] bcast_S1x8_S524288x8_0_1),
    binary main_v1090 main_v1092 main_v1093 addf,
    nullary main_cst_96 (constant S_ .f32 0x3C23D70A#32) ] ++ (
  reluOps (.of main_v1093) (.of main_cst_96) main_call88 ++ (
  [ unary main_v1068 main_v1095 (transpose S8x1 [1, 0] · transposes_S1x8_S8x1_1_0),
    binary main_v1094 main_v1095 main_v1096 (fun l r => Host.dotGeneral dot_S524288x8_S8x1_S524288x1_1_0_0_1_n_n none l r),
    unary main_v1070 main_v1097 (broadcastInDim S1x1 ![1] bcast_S1_S1x1_1),
    unary main_v1097 main_v1098 (broadcastInDim S524288x1 ![0, 1] bcast_S1x1_S524288x1_0_1),
    binary main_v1096 main_v1098 main_v1099 addf,
    unary main_v1050 main_v1100 Host.exp ])))))))))
theorem ck19_9_sub : (ck19_9 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub ..⟩

abbrev ck20_9 : List (HloOp τ sig (Elt F)) :=
  [ binary main_v1100 main_v1001 main_v1101 mulf,
    binary main_v1101 main_v1099 main_v1102 addf,
    nullary main_cst_97 (constant S_ .f32 0x00000000#32),
    binary main_v1050 main_cst_97 main_v1103 ((fun x v => Host.reduceAdd x v reducesTo_S524288x1_S524288_d1 h_S_)),
    binary main_v993 main_v1103 main_v1104 addf,
    binary main_v1000 main_v1102 main_v1105 ((fun a b => concatenate S524288x2 1 [⟨S524288x1, a⟩, ⟨S524288x1, b⟩] concatenates_S524288x1_S524288x1_S524288x2_d1)),
    unary main_arg11 main_v1106 (extractStridedSlice S1 ![9] · slices_S14_S1_9),
    reshape main_v1106 main_v1107 rfl shapeCasts_S1_S_,
    nullary main_c_98 (constantI S_ 32 0#32),
    binary main_v1107 main_c_98 main_v1108 (cmpi .sgt),
    unary main_v1105 main_v1109 (Host.reverse [1]),
    TRef.ternary (.of main_v1108) (.of main_v1109) (.of main_v1105) main_call89.v0 (fun p a b => select (broadcastInDim S524288x2 ![] bcast_S_S524288x2 p) a b) ]
theorem ck20_9_sub : (ck20_9 : List (HloOp τ sig (Elt F))).Forall fun op => op.bufs ⊆ tcRefs τ sig :=
  ⟨binary_bufs_sub .., binary_bufs_sub .., nullary_bufs_sub .., binary_bufs_sub .., binary_bufs_sub .., binary_bufs_sub .., unary_bufs_sub .., reshape_bufs_sub .., nullary_bufs_sub .., binary_bufs_sub .., unary_bufs_sub .., ternary_bufs_sub ..⟩

abbrev ck20_10 : List (HloOp τ sig (Elt F)) :=
  [ unary main_v1110 main_v1111 (extractStridedSlice S524288x1 ![0, 0] · slices_S524288x2_S524288x1_0_0),
    unary main_v1110 main_v1112 (extractStridedSlice S524288x1 ![0, 1] · slices_S524288x2_S524288x1_0_1),
    unary main_arg1 main_v1113 (extractStridedSlice S1x1x8x1 ![10, 0, 0, 0] · slices_S15x2x8x1_S1x1x8x1_10_0_0_0),
    reshape main_v1113 main_v1114 rfl shapeCasts_S1x1x8x1_S8x1,
    unary main_arg2 main_v1115 (extractStridedSlice S1x1x8 ![10, 0, 0] · slices_S15x2x8_S1x1x8_10_0_0),
    reshape main_v1115 main_v1116 rfl shapeCasts_S1x1x8_S8,
    unary main_arg3 main_v1117 (extractStridedSlice S1x1x8x8 ![10, 0, 0, 0] · slices_S15x2x8x8_S1x1x8x8_10_0_0_0),
    reshape main_v1117 main_v1118 rfl shapeCasts_S1x1x8x8_S8x8,
    unary main_arg4 main_v1119 (extractStridedSlice S1x1x8 ![10, 0, 0] · slices_S15x2x8_S1x1x8_10_0_0),
    reshape main_v1119 main_v1120 rfl shapeCasts_S1x1x8_S8,
    unary main_arg5 main_v1121 (extractStridedSlice S1x1x8x8 ![10, 0, 0, 0] · slices_S15x2x8x8_S1x1x8x8_10_0_0_0),
    reshape main_v1121 main_v1122 rfl shapeCasts_S1x1x8x8_S8x8,
    unary main_arg6 main_v1123 (extractStridedSlice S1x1x8 ![10, 0, 0] · slices_S15x2x8_S1x1x8_10_0_0),
    reshape main_v1123 main_v1124 rfl shapeCasts_S1x1x8_S8,
    unary main_arg7 main_v1125 (extractStridedSlice S1x1x8x8 ![10, 0, 0, 0] · slices_S15x2x8x8_S1x1x8x8_10_0_0_0),
    reshape main_v1125 main_v1126 rfl shapeCasts_S1x1x8x8_S8x8,
    unary main_arg8 main_v1127 (extractStridedSlice S1x1x8 ![10, 0, 0] · slices_S15x2x8_S1x1x8_10_0_0),
    reshape main_v1127 main_v1128 rfl shapeCasts_S1x1x8_S8,
    unary main_arg9 main_v1129 (extractStridedSlice S1x1x1x8 ![10, 0, 0, 0] · slices_S15x2x1x8_S1x1x1x8_10_0_0_0),
    reshape main_v1129 main_v1130 rfl shapeCasts_S1x1x1x8_S1x8,
    unary main_arg10 main_v1131 (extractStridedSlice S1x1x1 ![10, 0, 0] · slices_S15x2x1_S1x1x1_10_0_0),
    reshape main_v1131 main_v1132 rfl shapeCasts_S1x1x1_S1,
    unary main_v1114 main_v1133 (transpose S1x8 [1, 0] · transposes_S8x1_S1x8_1_0),
    binary main_v1111 main_v1133 main_v1134 (fun l r => Host.dotGeneral dot_S524288x1_S1x8_S524288x8_1_0_0_1_n_n none l r),
    unary main_v1116 main_v1135 (broadcastInDim S1x8 ![1] bcast_S8_S1x8_1),
    unary main_v1135 main_v1136 (broadcastInDim S524288x8 ![0, 1] bcast_S1x8_S524288x8_0_1),
    binary main_v1134 main_v1136 main_v1137 addf,
    nullary main_cst_99 (constant S_ .f32 0x3C23D70A#32) ] ++ (
  reluOps (.of main_v1137) (.of main_cst_99) main_call90 ++ (
  [ unary main_v1118 main_v1139 (transpose S8x8 [1, 0] · transposes_S8x8_S8x8_1_0),
    binary main_v1138 main_v1139 main_v1140 (fun l r => Host.dotGeneral dot_S524288x8_S8x8_S524288x8_1_0_0_1_n_n none l r),
    unary main_v1120 main_v1141 (broadcastInDim S1x8 ![1] bcast_S8_S1x8_1),
    unary main_v1141 main_v1142 (broadcastInDim S524288x8 ![0, 1] bcast_S1x8_S524288x8_0_1),
    binary main_v1140 main_v1142 main_v1143 addf,
    nullary main_cst_100 (constant S_ .f32 0x3C23D70A#32) ] ++ (
  reluOps (.of main_v1143) (.of main_cst_100) main_call91 ++ (
  [ unary main_v1122 main_v1145 (transpose S8x8 [1, 0] · transposes_S8x8_S8x8_1_0),
    binary main_v1144 main_v1145 main_v1146 (fun l r => Host.dotGeneral dot_S524288x8_S8x8_S524288x8_1_0_0_1_n_n none l r),
    unary main_v1124 main_v1147 (broadcastInDim S1x8 ![1] bcast_S8_S1x8_1),
    unary main_v1147 main_v1148 (broadcastInDim S524288x8 ![0, 1] bcast_S1x8_S524288x8_0_1),
    binary main_v1146 main_v1148 main_v1149 addf,
    nullary main_cst_101 (constant S_ .f32 0x3C23D70A#32) ] ++ (
  reluOps (.of main_v1149) (.of main_cst_101) main_call92 ++ (
  [ unary main_v1126 main_v1151 (transpose S8x8 [1, 0] · transposes_S8x8_S8x8_1_0),
    binary main_v1150 main_v1151 main_v1152 (fun l r => Host.dotGeneral dot_S524288x8_S8x8_S524288x8_1_0_0_1_n_n none l r),
    unary main_v1128 main_v1153 (broadcastInDim S1x8 ![1] bcast_S8_S1x8_1),
    unary main_v1153 main_v1154 (broadcastInDim S524288x8 ![0, 1] bcast_S1x8_S524288x8_0_1),
    binary main_v1152 main_v1154 main_v1155 addf ]))))))
theorem ck20_10_sub : (ck20_10 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub ..⟩

abbrev ck21_10 : List (HloOp τ sig (Elt F)) :=
  [ nullary main_cst_102 (constant S_ .f32 0x3C23D70A#32) ] ++ (
  reluOps (.of main_v1155) (.of main_cst_102) main_call93 ++ (
  [ unary main_v1130 main_v1157 (transpose S8x1 [1, 0] · transposes_S1x8_S8x1_1_0),
    binary main_v1156 main_v1157 main_v1158 (fun l r => Host.dotGeneral dot_S524288x8_S8x1_S524288x1_1_0_0_1_n_n none l r),
    unary main_v1132 main_v1159 (broadcastInDim S1x1 ![1] bcast_S1_S1x1_1),
    unary main_v1159 main_v1160 (broadcastInDim S524288x1 ![0, 1] bcast_S1x1_S524288x1_0_1),
    binary main_v1158 main_v1160 main_v1161 addf,
    unary main_arg1 main_v1162 (extractStridedSlice S1x1x8x1 ![10, 1, 0, 0] · slices_S15x2x8x1_S1x1x8x1_10_1_0_0),
    reshape main_v1162 main_v1163 rfl shapeCasts_S1x1x8x1_S8x1,
    unary main_arg2 main_v1164 (extractStridedSlice S1x1x8 ![10, 1, 0] · slices_S15x2x8_S1x1x8_10_1_0),
    reshape main_v1164 main_v1165 rfl shapeCasts_S1x1x8_S8,
    unary main_arg3 main_v1166 (extractStridedSlice S1x1x8x8 ![10, 1, 0, 0] · slices_S15x2x8x8_S1x1x8x8_10_1_0_0),
    reshape main_v1166 main_v1167 rfl shapeCasts_S1x1x8x8_S8x8,
    unary main_arg4 main_v1168 (extractStridedSlice S1x1x8 ![10, 1, 0] · slices_S15x2x8_S1x1x8_10_1_0),
    reshape main_v1168 main_v1169 rfl shapeCasts_S1x1x8_S8,
    unary main_arg5 main_v1170 (extractStridedSlice S1x1x8x8 ![10, 1, 0, 0] · slices_S15x2x8x8_S1x1x8x8_10_1_0_0),
    reshape main_v1170 main_v1171 rfl shapeCasts_S1x1x8x8_S8x8,
    unary main_arg6 main_v1172 (extractStridedSlice S1x1x8 ![10, 1, 0] · slices_S15x2x8_S1x1x8_10_1_0),
    reshape main_v1172 main_v1173 rfl shapeCasts_S1x1x8_S8,
    unary main_arg7 main_v1174 (extractStridedSlice S1x1x8x8 ![10, 1, 0, 0] · slices_S15x2x8x8_S1x1x8x8_10_1_0_0),
    reshape main_v1174 main_v1175 rfl shapeCasts_S1x1x8x8_S8x8,
    unary main_arg8 main_v1176 (extractStridedSlice S1x1x8 ![10, 1, 0] · slices_S15x2x8_S1x1x8_10_1_0),
    reshape main_v1176 main_v1177 rfl shapeCasts_S1x1x8_S8,
    unary main_arg9 main_v1178 (extractStridedSlice S1x1x1x8 ![10, 1, 0, 0] · slices_S15x2x1x8_S1x1x1x8_10_1_0_0),
    reshape main_v1178 main_v1179 rfl shapeCasts_S1x1x1x8_S1x8,
    unary main_arg10 main_v1180 (extractStridedSlice S1x1x1 ![10, 1, 0] · slices_S15x2x1_S1x1x1_10_1_0),
    reshape main_v1180 main_v1181 rfl shapeCasts_S1x1x1_S1,
    unary main_v1163 main_v1182 (transpose S1x8 [1, 0] · transposes_S8x1_S1x8_1_0),
    binary main_v1111 main_v1182 main_v1183 (fun l r => Host.dotGeneral dot_S524288x1_S1x8_S524288x8_1_0_0_1_n_n none l r),
    unary main_v1165 main_v1184 (broadcastInDim S1x8 ![1] bcast_S8_S1x8_1),
    unary main_v1184 main_v1185 (broadcastInDim S524288x8 ![0, 1] bcast_S1x8_S524288x8_0_1),
    binary main_v1183 main_v1185 main_v1186 addf,
    nullary main_cst_103 (constant S_ .f32 0x3C23D70A#32) ] ++ (
  reluOps (.of main_v1186) (.of main_cst_103) main_call94 ++ (
  [ unary main_v1167 main_v1188 (transpose S8x8 [1, 0] · transposes_S8x8_S8x8_1_0),
    binary main_v1187 main_v1188 main_v1189 (fun l r => Host.dotGeneral dot_S524288x8_S8x8_S524288x8_1_0_0_1_n_n none l r),
    unary main_v1169 main_v1190 (broadcastInDim S1x8 ![1] bcast_S8_S1x8_1),
    unary main_v1190 main_v1191 (broadcastInDim S524288x8 ![0, 1] bcast_S1x8_S524288x8_0_1),
    binary main_v1189 main_v1191 main_v1192 addf,
    nullary main_cst_104 (constant S_ .f32 0x3C23D70A#32) ] ++ (
  reluOps (.of main_v1192) (.of main_cst_104) main_call95 ++ (
  [ unary main_v1171 main_v1194 (transpose S8x8 [1, 0] · transposes_S8x8_S8x8_1_0),
    binary main_v1193 main_v1194 main_v1195 (fun l r => Host.dotGeneral dot_S524288x8_S8x8_S524288x8_1_0_0_1_n_n none l r),
    unary main_v1173 main_v1196 (broadcastInDim S1x8 ![1] bcast_S8_S1x8_1),
    unary main_v1196 main_v1197 (broadcastInDim S524288x8 ![0, 1] bcast_S1x8_S524288x8_0_1),
    binary main_v1195 main_v1197 main_v1198 addf,
    nullary main_cst_105 (constant S_ .f32 0x3C23D70A#32) ] ++ (
  reluOps (.of main_v1198) (.of main_cst_105) main_call96 ++ (
  [ unary main_v1175 main_v1200 (transpose S8x8 [1, 0] · transposes_S8x8_S8x8_1_0),
    binary main_v1199 main_v1200 main_v1201 (fun l r => Host.dotGeneral dot_S524288x8_S8x8_S524288x8_1_0_0_1_n_n none l r),
    unary main_v1177 main_v1202 (broadcastInDim S1x8 ![1] bcast_S8_S1x8_1),
    unary main_v1202 main_v1203 (broadcastInDim S524288x8 ![0, 1] bcast_S1x8_S524288x8_0_1),
    binary main_v1201 main_v1203 main_v1204 addf,
    nullary main_cst_106 (constant S_ .f32 0x3C23D70A#32) ] ++ (
  reluOps (.of main_v1204) (.of main_cst_106) main_call97 ++ (
  [ unary main_v1179 main_v1206 (transpose S8x1 [1, 0] · transposes_S1x8_S8x1_1_0),
    binary main_v1205 main_v1206 main_v1207 (fun l r => Host.dotGeneral dot_S524288x8_S8x1_S524288x1_1_0_0_1_n_n none l r),
    unary main_v1181 main_v1208 (broadcastInDim S1x1 ![1] bcast_S1_S1x1_1),
    unary main_v1208 main_v1209 (broadcastInDim S524288x1 ![0, 1] bcast_S1x1_S524288x1_0_1),
    binary main_v1207 main_v1209 main_v1210 addf ]))))))))))
theorem ck21_10_sub : (ck21_10 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub ..⟩

abbrev ck22_10 : List (HloOp τ sig (Elt F)) :=
  [ unary main_v1161 main_v1211 Host.exp,
    binary main_v1211 main_v1112 main_v1212 mulf,
    binary main_v1212 main_v1210 main_v1213 addf,
    nullary main_cst_107 (constant S_ .f32 0x00000000#32),
    binary main_v1161 main_cst_107 main_v1214 ((fun x v => Host.reduceAdd x v reducesTo_S524288x1_S524288_d1 h_S_)),
    binary main_v1104 main_v1214 main_v1215 addf,
    binary main_v1111 main_v1213 main_v1216 ((fun a b => concatenate S524288x2 1 [⟨S524288x1, a⟩, ⟨S524288x1, b⟩] concatenates_S524288x1_S524288x1_S524288x2_d1)),
    unary main_arg11 main_v1217 (extractStridedSlice S1 ![10] · slices_S14_S1_10),
    reshape main_v1217 main_v1218 rfl shapeCasts_S1_S_,
    nullary main_c_108 (constantI S_ 32 0#32),
    binary main_v1218 main_c_108 main_v1219 (cmpi .sgt),
    unary main_v1216 main_v1220 (Host.reverse [1]),
    TRef.ternary (.of main_v1219) (.of main_v1220) (.of main_v1216) main_call98.v0 (fun p a b => select (broadcastInDim S524288x2 ![] bcast_S_S524288x2 p) a b) ]
theorem ck22_10_sub : (ck22_10 : List (HloOp τ sig (Elt F))).Forall fun op => op.bufs ⊆ tcRefs τ sig :=
  ⟨unary_bufs_sub .., binary_bufs_sub .., binary_bufs_sub .., nullary_bufs_sub .., binary_bufs_sub .., binary_bufs_sub .., binary_bufs_sub .., unary_bufs_sub .., reshape_bufs_sub .., nullary_bufs_sub .., binary_bufs_sub .., unary_bufs_sub .., ternary_bufs_sub ..⟩

abbrev ck22_11 : List (HloOp τ sig (Elt F)) :=
  [ unary main_v1221 main_v1222 (extractStridedSlice S524288x1 ![0, 0] · slices_S524288x2_S524288x1_0_0),
    unary main_v1221 main_v1223 (extractStridedSlice S524288x1 ![0, 1] · slices_S524288x2_S524288x1_0_1),
    unary main_arg1 main_v1224 (extractStridedSlice S1x1x8x1 ![11, 0, 0, 0] · slices_S15x2x8x1_S1x1x8x1_11_0_0_0),
    reshape main_v1224 main_v1225 rfl shapeCasts_S1x1x8x1_S8x1,
    unary main_arg2 main_v1226 (extractStridedSlice S1x1x8 ![11, 0, 0] · slices_S15x2x8_S1x1x8_11_0_0),
    reshape main_v1226 main_v1227 rfl shapeCasts_S1x1x8_S8,
    unary main_arg3 main_v1228 (extractStridedSlice S1x1x8x8 ![11, 0, 0, 0] · slices_S15x2x8x8_S1x1x8x8_11_0_0_0),
    reshape main_v1228 main_v1229 rfl shapeCasts_S1x1x8x8_S8x8,
    unary main_arg4 main_v1230 (extractStridedSlice S1x1x8 ![11, 0, 0] · slices_S15x2x8_S1x1x8_11_0_0),
    reshape main_v1230 main_v1231 rfl shapeCasts_S1x1x8_S8,
    unary main_arg5 main_v1232 (extractStridedSlice S1x1x8x8 ![11, 0, 0, 0] · slices_S15x2x8x8_S1x1x8x8_11_0_0_0),
    reshape main_v1232 main_v1233 rfl shapeCasts_S1x1x8x8_S8x8,
    unary main_arg6 main_v1234 (extractStridedSlice S1x1x8 ![11, 0, 0] · slices_S15x2x8_S1x1x8_11_0_0),
    reshape main_v1234 main_v1235 rfl shapeCasts_S1x1x8_S8,
    unary main_arg7 main_v1236 (extractStridedSlice S1x1x8x8 ![11, 0, 0, 0] · slices_S15x2x8x8_S1x1x8x8_11_0_0_0),
    reshape main_v1236 main_v1237 rfl shapeCasts_S1x1x8x8_S8x8,
    unary main_arg8 main_v1238 (extractStridedSlice S1x1x8 ![11, 0, 0] · slices_S15x2x8_S1x1x8_11_0_0),
    reshape main_v1238 main_v1239 rfl shapeCasts_S1x1x8_S8,
    unary main_arg9 main_v1240 (extractStridedSlice S1x1x1x8 ![11, 0, 0, 0] · slices_S15x2x1x8_S1x1x1x8_11_0_0_0),
    reshape main_v1240 main_v1241 rfl shapeCasts_S1x1x1x8_S1x8,
    unary main_arg10 main_v1242 (extractStridedSlice S1x1x1 ![11, 0, 0] · slices_S15x2x1_S1x1x1_11_0_0),
    reshape main_v1242 main_v1243 rfl shapeCasts_S1x1x1_S1,
    unary main_v1225 main_v1244 (transpose S1x8 [1, 0] · transposes_S8x1_S1x8_1_0),
    binary main_v1222 main_v1244 main_v1245 (fun l r => Host.dotGeneral dot_S524288x1_S1x8_S524288x8_1_0_0_1_n_n none l r),
    unary main_v1227 main_v1246 (broadcastInDim S1x8 ![1] bcast_S8_S1x8_1),
    unary main_v1246 main_v1247 (broadcastInDim S524288x8 ![0, 1] bcast_S1x8_S524288x8_0_1),
    binary main_v1245 main_v1247 main_v1248 addf,
    nullary main_cst_109 (constant S_ .f32 0x3C23D70A#32) ] ++ (
  reluOps (.of main_v1248) (.of main_cst_109) main_call99 ++ (
  [ unary main_v1229 main_v1250 (transpose S8x8 [1, 0] · transposes_S8x8_S8x8_1_0),
    binary main_v1249 main_v1250 main_v1251 (fun l r => Host.dotGeneral dot_S524288x8_S8x8_S524288x8_1_0_0_1_n_n none l r),
    unary main_v1231 main_v1252 (broadcastInDim S1x8 ![1] bcast_S8_S1x8_1),
    unary main_v1252 main_v1253 (broadcastInDim S524288x8 ![0, 1] bcast_S1x8_S524288x8_0_1),
    binary main_v1251 main_v1253 main_v1254 addf,
    nullary main_cst_110 (constant S_ .f32 0x3C23D70A#32) ] ++ (
  reluOps (.of main_v1254) (.of main_cst_110) main_call100 ++ (
  [ unary main_v1233 main_v1256 (transpose S8x8 [1, 0] · transposes_S8x8_S8x8_1_0),
    binary main_v1255 main_v1256 main_v1257 (fun l r => Host.dotGeneral dot_S524288x8_S8x8_S524288x8_1_0_0_1_n_n none l r),
    unary main_v1235 main_v1258 (broadcastInDim S1x8 ![1] bcast_S8_S1x8_1),
    unary main_v1258 main_v1259 (broadcastInDim S524288x8 ![0, 1] bcast_S1x8_S524288x8_0_1),
    binary main_v1257 main_v1259 main_v1260 addf,
    nullary main_cst_111 (constant S_ .f32 0x3C23D70A#32) ] ++ (
  reluOps (.of main_v1260) (.of main_cst_111) main_call101 ++ (
  [ unary main_v1237 main_v1262 (transpose S8x8 [1, 0] · transposes_S8x8_S8x8_1_0),
    binary main_v1261 main_v1262 main_v1263 (fun l r => Host.dotGeneral dot_S524288x8_S8x8_S524288x8_1_0_0_1_n_n none l r),
    unary main_v1239 main_v1264 (broadcastInDim S1x8 ![1] bcast_S8_S1x8_1),
    unary main_v1264 main_v1265 (broadcastInDim S524288x8 ![0, 1] bcast_S1x8_S524288x8_0_1) ]))))))
theorem ck22_11_sub : (ck22_11 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub ..⟩

abbrev ck23_11 : List (HloOp τ sig (Elt F)) :=
  [ binary main_v1263 main_v1265 main_v1266 addf,
    nullary main_cst_112 (constant S_ .f32 0x3C23D70A#32) ] ++ (
  reluOps (.of main_v1266) (.of main_cst_112) main_call102 ++ (
  [ unary main_v1241 main_v1268 (transpose S8x1 [1, 0] · transposes_S1x8_S8x1_1_0),
    binary main_v1267 main_v1268 main_v1269 (fun l r => Host.dotGeneral dot_S524288x8_S8x1_S524288x1_1_0_0_1_n_n none l r),
    unary main_v1243 main_v1270 (broadcastInDim S1x1 ![1] bcast_S1_S1x1_1),
    unary main_v1270 main_v1271 (broadcastInDim S524288x1 ![0, 1] bcast_S1x1_S524288x1_0_1),
    binary main_v1269 main_v1271 main_v1272 addf,
    unary main_arg1 main_v1273 (extractStridedSlice S1x1x8x1 ![11, 1, 0, 0] · slices_S15x2x8x1_S1x1x8x1_11_1_0_0),
    reshape main_v1273 main_v1274 rfl shapeCasts_S1x1x8x1_S8x1,
    unary main_arg2 main_v1275 (extractStridedSlice S1x1x8 ![11, 1, 0] · slices_S15x2x8_S1x1x8_11_1_0),
    reshape main_v1275 main_v1276 rfl shapeCasts_S1x1x8_S8,
    unary main_arg3 main_v1277 (extractStridedSlice S1x1x8x8 ![11, 1, 0, 0] · slices_S15x2x8x8_S1x1x8x8_11_1_0_0),
    reshape main_v1277 main_v1278 rfl shapeCasts_S1x1x8x8_S8x8,
    unary main_arg4 main_v1279 (extractStridedSlice S1x1x8 ![11, 1, 0] · slices_S15x2x8_S1x1x8_11_1_0),
    reshape main_v1279 main_v1280 rfl shapeCasts_S1x1x8_S8,
    unary main_arg5 main_v1281 (extractStridedSlice S1x1x8x8 ![11, 1, 0, 0] · slices_S15x2x8x8_S1x1x8x8_11_1_0_0),
    reshape main_v1281 main_v1282 rfl shapeCasts_S1x1x8x8_S8x8,
    unary main_arg6 main_v1283 (extractStridedSlice S1x1x8 ![11, 1, 0] · slices_S15x2x8_S1x1x8_11_1_0),
    reshape main_v1283 main_v1284 rfl shapeCasts_S1x1x8_S8,
    unary main_arg7 main_v1285 (extractStridedSlice S1x1x8x8 ![11, 1, 0, 0] · slices_S15x2x8x8_S1x1x8x8_11_1_0_0),
    reshape main_v1285 main_v1286 rfl shapeCasts_S1x1x8x8_S8x8,
    unary main_arg8 main_v1287 (extractStridedSlice S1x1x8 ![11, 1, 0] · slices_S15x2x8_S1x1x8_11_1_0),
    reshape main_v1287 main_v1288 rfl shapeCasts_S1x1x8_S8,
    unary main_arg9 main_v1289 (extractStridedSlice S1x1x1x8 ![11, 1, 0, 0] · slices_S15x2x1x8_S1x1x1x8_11_1_0_0),
    reshape main_v1289 main_v1290 rfl shapeCasts_S1x1x1x8_S1x8,
    unary main_arg10 main_v1291 (extractStridedSlice S1x1x1 ![11, 1, 0] · slices_S15x2x1_S1x1x1_11_1_0),
    reshape main_v1291 main_v1292 rfl shapeCasts_S1x1x1_S1,
    unary main_v1274 main_v1293 (transpose S1x8 [1, 0] · transposes_S8x1_S1x8_1_0),
    binary main_v1222 main_v1293 main_v1294 (fun l r => Host.dotGeneral dot_S524288x1_S1x8_S524288x8_1_0_0_1_n_n none l r),
    unary main_v1276 main_v1295 (broadcastInDim S1x8 ![1] bcast_S8_S1x8_1),
    unary main_v1295 main_v1296 (broadcastInDim S524288x8 ![0, 1] bcast_S1x8_S524288x8_0_1),
    binary main_v1294 main_v1296 main_v1297 addf,
    nullary main_cst_113 (constant S_ .f32 0x3C23D70A#32) ] ++ (
  reluOps (.of main_v1297) (.of main_cst_113) main_call103 ++ (
  [ unary main_v1278 main_v1299 (transpose S8x8 [1, 0] · transposes_S8x8_S8x8_1_0),
    binary main_v1298 main_v1299 main_v1300 (fun l r => Host.dotGeneral dot_S524288x8_S8x8_S524288x8_1_0_0_1_n_n none l r),
    unary main_v1280 main_v1301 (broadcastInDim S1x8 ![1] bcast_S8_S1x8_1),
    unary main_v1301 main_v1302 (broadcastInDim S524288x8 ![0, 1] bcast_S1x8_S524288x8_0_1),
    binary main_v1300 main_v1302 main_v1303 addf,
    nullary main_cst_114 (constant S_ .f32 0x3C23D70A#32) ] ++ (
  reluOps (.of main_v1303) (.of main_cst_114) main_call104 ++ (
  [ unary main_v1282 main_v1305 (transpose S8x8 [1, 0] · transposes_S8x8_S8x8_1_0),
    binary main_v1304 main_v1305 main_v1306 (fun l r => Host.dotGeneral dot_S524288x8_S8x8_S524288x8_1_0_0_1_n_n none l r),
    unary main_v1284 main_v1307 (broadcastInDim S1x8 ![1] bcast_S8_S1x8_1),
    unary main_v1307 main_v1308 (broadcastInDim S524288x8 ![0, 1] bcast_S1x8_S524288x8_0_1),
    binary main_v1306 main_v1308 main_v1309 addf,
    nullary main_cst_115 (constant S_ .f32 0x3C23D70A#32) ] ++ (
  reluOps (.of main_v1309) (.of main_cst_115) main_call105 ++ (
  [ unary main_v1286 main_v1311 (transpose S8x8 [1, 0] · transposes_S8x8_S8x8_1_0),
    binary main_v1310 main_v1311 main_v1312 (fun l r => Host.dotGeneral dot_S524288x8_S8x8_S524288x8_1_0_0_1_n_n none l r),
    unary main_v1288 main_v1313 (broadcastInDim S1x8 ![1] bcast_S8_S1x8_1),
    unary main_v1313 main_v1314 (broadcastInDim S524288x8 ![0, 1] bcast_S1x8_S524288x8_0_1),
    binary main_v1312 main_v1314 main_v1315 addf,
    nullary main_cst_116 (constant S_ .f32 0x3C23D70A#32) ] ++ (
  reluOps (.of main_v1315) (.of main_cst_116) main_call106 ++ (
  [ unary main_v1290 main_v1317 (transpose S8x1 [1, 0] · transposes_S1x8_S8x1_1_0),
    binary main_v1316 main_v1317 main_v1318 (fun l r => Host.dotGeneral dot_S524288x8_S8x1_S524288x1_1_0_0_1_n_n none l r),
    unary main_v1292 main_v1319 (broadcastInDim S1x1 ![1] bcast_S1_S1x1_1),
    unary main_v1319 main_v1320 (broadcastInDim S524288x1 ![0, 1] bcast_S1x1_S524288x1_0_1) ]))))))))))
theorem ck23_11_sub : (ck23_11 : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub ..⟩

abbrev ck24_11 : List (HloOp τ sig (Elt F)) :=
  [ binary main_v1318 main_v1320 main_v1321 addf,
    unary main_v1272 main_v1322 Host.exp,
    binary main_v1322 main_v1223 main_v1323 mulf,
    binary main_v1323 main_v1321 main_v1324 addf,
    nullary main_cst_117 (constant S_ .f32 0x00000000#32),
    binary main_v1272 main_cst_117 main_v1325 ((fun x v => Host.reduceAdd x v reducesTo_S524288x1_S524288_d1 h_S_)),
    binary main_v1215 main_v1325 main_v1326 addf,
    binary main_v1222 main_v1324 main_v1327 ((fun a b => concatenate S524288x2 1 [⟨S524288x1, a⟩, ⟨S524288x1, b⟩] concatenates_S524288x1_S524288x1_S524288x2_d1)),
    unary main_arg11 main_v1328 (extractStridedSlice S1 ![11] · slices_S14_S1_11),
    reshape main_v1328 main_v1329 rfl shapeCasts_S1_S_,
    nullary main_c_118 (constantI S_ 32 0#32),
    binary main_v1329 main_c_118 main_v1330 (cmpi .sgt),
    unary main_v1327 main_v1331 (Host.reverse [1]),
    TRef.ternary (.of main_v1330) (.of main_v1331) (.of main_v1327) main_call107.v0 (fun p a b => select (broadcastInDim S524288x2 ![] bcast_S_S524288x2 p) a b) ]
theorem ck24_11_sub : (ck24_11 : List (HloOp τ sig (Elt F))).Forall fun op => op.bufs ⊆ tcRefs τ sig :=
  ⟨binary_bufs_sub .., unary_bufs_sub .., binary_bufs_sub .., binary_bufs_sub .., nullary_bufs_sub .., binary_bufs_sub .., binary_bufs_sub .., binary_bufs_sub .., unary_bufs_sub .., reshape_bufs_sub .., nullary_bufs_sub .., binary_bufs_sub .., unary_bufs_sub .., ternary_bufs_sub ..⟩

end Cert.ReferenceIdeal.RefRun

end
-- ==== Proof.RefOps4.lean ====
/- The reference program's host operations in order, as lists: layers 12 to 14. -/
import proofs.«405999_j47631187312975_2_alg».proof.Proof.Gen.ReferenceIdeal
import proofs.«405999_j47631187312975_2_alg».proof.Proof.RefRelu

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ck24_12 : List (HloOp τ sig (Elt F)) :=
  [ unary main_v1332 main_v1333 (extractStridedSlice S524288x1 ![0, 0] · slices_S524288x2_S524288x1_0_0),
    unary main_v1332 main_v1334 (extractStridedSlice S524288x1 ![0, 1] · slices_S524288x2_S524288x1_0_1),
    unary main_arg1 main_v1335 (extractStridedSlice S1x1x8x1 ![12, 0, 0, 0] · slices_S15x2x8x1_S1x1x8x1_12_0_0_0),
    reshape main_v1335 main_v1336 rfl shapeCasts_S1x1x8x1_S8x1,
    unary main_arg2 main_v1337 (extractStridedSlice S1x1x8 ![12, 0, 0] · slices_S15x2x8_S1x1x8_12_0_0),
    reshape main_v1337 main_v1338 rfl shapeCasts_S1x1x8_S8,
    unary main_arg3 main_v1339 (extractStridedSlice S1x1x8x8 ![12, 0, 0, 0] · slices_S15x2x8x8_S1x1x8x8_12_0_0_0),
    reshape main_v1339 main_v1340 rfl shapeCasts_S1x1x8x8_S8x8,
    unary main_arg4 main_v1341 (extractStridedSlice S1x1x8 ![12, 0, 0] · slices_S15x2x8_S1x1x8_12_0_0),
    reshape main_v1341 main_v1342 rfl shapeCasts_S1x1x8_S8,
    unary main_arg5 main_v1343 (extractStridedSlice S1x1x8x8 ![12, 0, 0, 0] · slices_S15x2x8x8_S1x1x8x8_12_0_0_0),
    reshape main_v1343 main_v1344 rfl shapeCasts_S1x1x8x8_S8x8,
    unary main_arg6 main_v1345 (extractStridedSlice S1x1x8 ![12, 0, 0] · slices_S15x2x8_S1x1x8_12_0_0),
    reshape main_v1345 main_v1346 rfl shapeCasts_S1x1x8_S8,
    unary main_arg7 main_v1347 (extractStridedSlice S1x1x8x8 ![12, 0, 0, 0] · slices_S15x2x8x8_S1x1x8x8_12_0_0_0),
    reshape main_v1347 main_v1348 rfl shapeCasts_S1x1x8x8_S8x8,
    unary main_arg8 main_v1349 (extractStridedSlice S1x1x8 ![12, 0, 0] · slices_S15x2x8_S1x1x8_12_0_0),
    reshape main_v1349 main_v1350 rfl shapeCasts_S1x1x8_S8,
    unary main_arg9 main_v1351 (extractStridedSlice S1x1x1x8 ![12, 0, 0, 0] · slices_S15x2x1x8_S1x1x1x8_12_0_0_0),
    reshape main_v1351 main_v1352 rfl shapeCasts_S1x1x1x8_S1x8,
    unary main_arg10 main_v1353 (extractStridedSlice S1x1x1 ![12, 0, 0] · slices_S15x2x1_S1x1x1_12_0_0),
    reshape main_v1353 main_v1354 rfl shapeCasts_S1x1x1_S1,
    unary main_v1336 main_v1355 (transpose S1x8 [1, 0] · transposes_S8x1_S1x8_1_0),
    binary main_v1333 main_v1355 main_v1356 (fun l r => Host.dotGeneral dot_S524288x1_S1x8_S524288x8_1_0_0_1_n_n none l r),
    unary main_v1338 main_v1357 (broadcastInDim S1x8 ![1] bcast_S8_S1x8_1),
    unary main_v1357 main_v1358 (broadcastInDim S524288x8 ![0, 1] bcast_S1x8_S524288x8_0_1),
    binary main_v1356 main_v1358 main_v1359 addf,
    nullary main_cst_119 (constant S_ .f32 0x3C23D70A#32) ] ++ (
  reluOps (.of main_v1359) (.of main_cst_119) main_call108 ++ (
  [ unary main_v1340 main_v1361 (transpose S8x8 [1, 0] · transposes_S8x8_S8x8_1_0),
    binary main_v1360 main_v1361 main_v1362 (fun l r => Host.dotGeneral dot_S524288x8_S8x8_S524288x8_1_0_0_1_n_n none l r),
    unary main_v1342 main_v1363 (broadcastInDim S1x8 ![1] bcast_S8_S1x8_1),
    unary main_v1363 main_v1364 (broadcastInDim S524288x8 ![0, 1] bcast_S1x8_S524288x8_0_1),
    binary main_v1362 main_v1364 main_v1365 addf,
    nullary main_cst_120 (constant S_ .f32 0x3C23D70A#32) ] ++ (
  reluOps (.of main_v1365) (.of main_cst_120) main_call109 ++ (
  [ unary main_v1344 main_v1367 (transpose S8x8 [1, 0] · transposes_S8x8_S8x8_1_0),
    binary main_v1366 main_v1367 main_v1368 (fun l r => Host.dotGeneral dot_S524288x8_S8x8_S524288x8_1_0_0_1_n_n none l r),
    unary main_v1346 main_v1369 (broadcastInDim S1x8 ![1] bcast_S8_S1x8_1),
    unary main_v1369 main_v1370 (broadcastInDim S524288x8 ![0, 1] bcast_S1x8_S524288x8_0_1),
    binary main_v1368 main_v1370 main_v1371 addf,
    nullary main_cst_121 (constant S_ .f32 0x3C23D70A#32) ] ++ (
  reluOps (.of main_v1371) (.of main_cst_121) main_call110 ++ (
  [ unary main_v1348 main_v1373 (transpose S8x8 [1, 0] · transposes_S8x8_S8x8_1_0),
    binary main_v1372 main_v1373 main_v1374 (fun l r => Host.dotGeneral dot_S524288x8_S8x8_S524288x8_1_0_0_1_n_n none l r),
    unary main_v1350 main_v1375 (broadcastInDim S1x8 ![1] bcast_S8_S1x8_1) ]))))))
theorem ck24_12_sub : (ck24_12 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub ..⟩

abbrev ck25_12 : List (HloOp τ sig (Elt F)) :=
  [ unary main_v1375 main_v1376 (broadcastInDim S524288x8 ![0, 1] bcast_S1x8_S524288x8_0_1),
    binary main_v1374 main_v1376 main_v1377 addf,
    nullary main_cst_122 (constant S_ .f32 0x3C23D70A#32) ] ++ (
  reluOps (.of main_v1377) (.of main_cst_122) main_call111 ++ (
  [ unary main_v1352 main_v1379 (transpose S8x1 [1, 0] · transposes_S1x8_S8x1_1_0),
    binary main_v1378 main_v1379 main_v1380 (fun l r => Host.dotGeneral dot_S524288x8_S8x1_S524288x1_1_0_0_1_n_n none l r),
    unary main_v1354 main_v1381 (broadcastInDim S1x1 ![1] bcast_S1_S1x1_1),
    unary main_v1381 main_v1382 (broadcastInDim S524288x1 ![0, 1] bcast_S1x1_S524288x1_0_1),
    binary main_v1380 main_v1382 main_v1383 addf,
    unary main_arg1 main_v1384 (extractStridedSlice S1x1x8x1 ![12, 1, 0, 0] · slices_S15x2x8x1_S1x1x8x1_12_1_0_0),
    reshape main_v1384 main_v1385 rfl shapeCasts_S1x1x8x1_S8x1,
    unary main_arg2 main_v1386 (extractStridedSlice S1x1x8 ![12, 1, 0] · slices_S15x2x8_S1x1x8_12_1_0),
    reshape main_v1386 main_v1387 rfl shapeCasts_S1x1x8_S8,
    unary main_arg3 main_v1388 (extractStridedSlice S1x1x8x8 ![12, 1, 0, 0] · slices_S15x2x8x8_S1x1x8x8_12_1_0_0),
    reshape main_v1388 main_v1389 rfl shapeCasts_S1x1x8x8_S8x8,
    unary main_arg4 main_v1390 (extractStridedSlice S1x1x8 ![12, 1, 0] · slices_S15x2x8_S1x1x8_12_1_0),
    reshape main_v1390 main_v1391 rfl shapeCasts_S1x1x8_S8,
    unary main_arg5 main_v1392 (extractStridedSlice S1x1x8x8 ![12, 1, 0, 0] · slices_S15x2x8x8_S1x1x8x8_12_1_0_0),
    reshape main_v1392 main_v1393 rfl shapeCasts_S1x1x8x8_S8x8,
    unary main_arg6 main_v1394 (extractStridedSlice S1x1x8 ![12, 1, 0] · slices_S15x2x8_S1x1x8_12_1_0),
    reshape main_v1394 main_v1395 rfl shapeCasts_S1x1x8_S8,
    unary main_arg7 main_v1396 (extractStridedSlice S1x1x8x8 ![12, 1, 0, 0] · slices_S15x2x8x8_S1x1x8x8_12_1_0_0),
    reshape main_v1396 main_v1397 rfl shapeCasts_S1x1x8x8_S8x8,
    unary main_arg8 main_v1398 (extractStridedSlice S1x1x8 ![12, 1, 0] · slices_S15x2x8_S1x1x8_12_1_0),
    reshape main_v1398 main_v1399 rfl shapeCasts_S1x1x8_S8,
    unary main_arg9 main_v1400 (extractStridedSlice S1x1x1x8 ![12, 1, 0, 0] · slices_S15x2x1x8_S1x1x1x8_12_1_0_0),
    reshape main_v1400 main_v1401 rfl shapeCasts_S1x1x1x8_S1x8,
    unary main_arg10 main_v1402 (extractStridedSlice S1x1x1 ![12, 1, 0] · slices_S15x2x1_S1x1x1_12_1_0),
    reshape main_v1402 main_v1403 rfl shapeCasts_S1x1x1_S1,
    unary main_v1385 main_v1404 (transpose S1x8 [1, 0] · transposes_S8x1_S1x8_1_0),
    binary main_v1333 main_v1404 main_v1405 (fun l r => Host.dotGeneral dot_S524288x1_S1x8_S524288x8_1_0_0_1_n_n none l r),
    unary main_v1387 main_v1406 (broadcastInDim S1x8 ![1] bcast_S8_S1x8_1),
    unary main_v1406 main_v1407 (broadcastInDim S524288x8 ![0, 1] bcast_S1x8_S524288x8_0_1),
    binary main_v1405 main_v1407 main_v1408 addf,
    nullary main_cst_123 (constant S_ .f32 0x3C23D70A#32) ] ++ (
  reluOps (.of main_v1408) (.of main_cst_123) main_call112 ++ (
  [ unary main_v1389 main_v1410 (transpose S8x8 [1, 0] · transposes_S8x8_S8x8_1_0),
    binary main_v1409 main_v1410 main_v1411 (fun l r => Host.dotGeneral dot_S524288x8_S8x8_S524288x8_1_0_0_1_n_n none l r),
    unary main_v1391 main_v1412 (broadcastInDim S1x8 ![1] bcast_S8_S1x8_1),
    unary main_v1412 main_v1413 (broadcastInDim S524288x8 ![0, 1] bcast_S1x8_S524288x8_0_1),
    binary main_v1411 main_v1413 main_v1414 addf,
    nullary main_cst_124 (constant S_ .f32 0x3C23D70A#32) ] ++ (
  reluOps (.of main_v1414) (.of main_cst_124) main_call113 ++ (
  [ unary main_v1393 main_v1416 (transpose S8x8 [1, 0] · transposes_S8x8_S8x8_1_0),
    binary main_v1415 main_v1416 main_v1417 (fun l r => Host.dotGeneral dot_S524288x8_S8x8_S524288x8_1_0_0_1_n_n none l r),
    unary main_v1395 main_v1418 (broadcastInDim S1x8 ![1] bcast_S8_S1x8_1),
    unary main_v1418 main_v1419 (broadcastInDim S524288x8 ![0, 1] bcast_S1x8_S524288x8_0_1),
    binary main_v1417 main_v1419 main_v1420 addf,
    nullary main_cst_125 (constant S_ .f32 0x3C23D70A#32) ] ++ (
  reluOps (.of main_v1420) (.of main_cst_125) main_call114 ++ (
  [ unary main_v1397 main_v1422 (transpose S8x8 [1, 0] · transposes_S8x8_S8x8_1_0),
    binary main_v1421 main_v1422 main_v1423 (fun l r => Host.dotGeneral dot_S524288x8_S8x8_S524288x8_1_0_0_1_n_n none l r),
    unary main_v1399 main_v1424 (broadcastInDim S1x8 ![1] bcast_S8_S1x8_1),
    unary main_v1424 main_v1425 (broadcastInDim S524288x8 ![0, 1] bcast_S1x8_S524288x8_0_1),
    binary main_v1423 main_v1425 main_v1426 addf,
    nullary main_cst_126 (constant S_ .f32 0x3C23D70A#32) ] ++ (
  reluOps (.of main_v1426) (.of main_cst_126) main_call115 ++ (
  [ unary main_v1401 main_v1428 (transpose S8x1 [1, 0] · transposes_S1x8_S8x1_1_0),
    binary main_v1427 main_v1428 main_v1429 (fun l r => Host.dotGeneral dot_S524288x8_S8x1_S524288x1_1_0_0_1_n_n none l r),
    unary main_v1403 main_v1430 (broadcastInDim S1x1 ![1] bcast_S1_S1x1_1) ]))))))))))
theorem ck25_12_sub : (ck25_12 : List (HloOp τ sig (Elt F))).Forall fun op => op.bufs ⊆ tcRefs τ sig :=
  ⟨unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub ..⟩

abbrev ck26_12 : List (HloOp τ sig (Elt F)) :=
  [ unary main_v1430 main_v1431 (broadcastInDim S524288x1 ![0, 1] bcast_S1x1_S524288x1_0_1),
    binary main_v1429 main_v1431 main_v1432 addf,
    unary main_v1383 main_v1433 Host.exp,
    binary main_v1433 main_v1334 main_v1434 mulf,
    binary main_v1434 main_v1432 main_v1435 addf,
    nullary main_cst_127 (constant S_ .f32 0x00000000#32),
    binary main_v1383 main_cst_127 main_v1436 ((fun x v => Host.reduceAdd x v reducesTo_S524288x1_S524288_d1 h_S_)),
    binary main_v1326 main_v1436 main_v1437 addf,
    binary main_v1333 main_v1435 main_v1438 ((fun a b => concatenate S524288x2 1 [⟨S524288x1, a⟩, ⟨S524288x1, b⟩] concatenates_S524288x1_S524288x1_S524288x2_d1)),
    unary main_arg11 main_v1439 (extractStridedSlice S1 ![12] · slices_S14_S1_12),
    reshape main_v1439 main_v1440 rfl shapeCasts_S1_S_,
    nullary main_c_128 (constantI S_ 32 0#32),
    binary main_v1440 main_c_128 main_v1441 (cmpi .sgt),
    unary main_v1438 main_v1442 (Host.reverse [1]),
    TRef.ternary (.of main_v1441) (.of main_v1442) (.of main_v1438) main_call116.v0 (fun p a b => select (broadcastInDim S524288x2 ![] bcast_S_S524288x2 p) a b) ]
theorem ck26_12_sub : (ck26_12 : List (HloOp τ sig (Elt F))).Forall fun op => op.bufs ⊆ tcRefs τ sig :=
  ⟨unary_bufs_sub .., binary_bufs_sub .., unary_bufs_sub .., binary_bufs_sub .., binary_bufs_sub .., nullary_bufs_sub .., binary_bufs_sub .., binary_bufs_sub .., binary_bufs_sub .., unary_bufs_sub .., reshape_bufs_sub .., nullary_bufs_sub .., binary_bufs_sub .., unary_bufs_sub .., ternary_bufs_sub ..⟩

abbrev ck26_13 : List (HloOp τ sig (Elt F)) :=
  [ unary main_v1443 main_v1444 (extractStridedSlice S524288x1 ![0, 0] · slices_S524288x2_S524288x1_0_0),
    unary main_v1443 main_v1445 (extractStridedSlice S524288x1 ![0, 1] · slices_S524288x2_S524288x1_0_1),
    unary main_arg1 main_v1446 (extractStridedSlice S1x1x8x1 ![13, 0, 0, 0] · slices_S15x2x8x1_S1x1x8x1_13_0_0_0),
    reshape main_v1446 main_v1447 rfl shapeCasts_S1x1x8x1_S8x1,
    unary main_arg2 main_v1448 (extractStridedSlice S1x1x8 ![13, 0, 0] · slices_S15x2x8_S1x1x8_13_0_0),
    reshape main_v1448 main_v1449 rfl shapeCasts_S1x1x8_S8,
    unary main_arg3 main_v1450 (extractStridedSlice S1x1x8x8 ![13, 0, 0, 0] · slices_S15x2x8x8_S1x1x8x8_13_0_0_0),
    reshape main_v1450 main_v1451 rfl shapeCasts_S1x1x8x8_S8x8,
    unary main_arg4 main_v1452 (extractStridedSlice S1x1x8 ![13, 0, 0] · slices_S15x2x8_S1x1x8_13_0_0),
    reshape main_v1452 main_v1453 rfl shapeCasts_S1x1x8_S8,
    unary main_arg5 main_v1454 (extractStridedSlice S1x1x8x8 ![13, 0, 0, 0] · slices_S15x2x8x8_S1x1x8x8_13_0_0_0),
    reshape main_v1454 main_v1455 rfl shapeCasts_S1x1x8x8_S8x8,
    unary main_arg6 main_v1456 (extractStridedSlice S1x1x8 ![13, 0, 0] · slices_S15x2x8_S1x1x8_13_0_0),
    reshape main_v1456 main_v1457 rfl shapeCasts_S1x1x8_S8,
    unary main_arg7 main_v1458 (extractStridedSlice S1x1x8x8 ![13, 0, 0, 0] · slices_S15x2x8x8_S1x1x8x8_13_0_0_0),
    reshape main_v1458 main_v1459 rfl shapeCasts_S1x1x8x8_S8x8,
    unary main_arg8 main_v1460 (extractStridedSlice S1x1x8 ![13, 0, 0] · slices_S15x2x8_S1x1x8_13_0_0),
    reshape main_v1460 main_v1461 rfl shapeCasts_S1x1x8_S8,
    unary main_arg9 main_v1462 (extractStridedSlice S1x1x1x8 ![13, 0, 0, 0] · slices_S15x2x1x8_S1x1x1x8_13_0_0_0),
    reshape main_v1462 main_v1463 rfl shapeCasts_S1x1x1x8_S1x8,
    unary main_arg10 main_v1464 (extractStridedSlice S1x1x1 ![13, 0, 0] · slices_S15x2x1_S1x1x1_13_0_0),
    reshape main_v1464 main_v1465 rfl shapeCasts_S1x1x1_S1,
    unary main_v1447 main_v1466 (transpose S1x8 [1, 0] · transposes_S8x1_S1x8_1_0),
    binary main_v1444 main_v1466 main_v1467 (fun l r => Host.dotGeneral dot_S524288x1_S1x8_S524288x8_1_0_0_1_n_n none l r),
    unary main_v1449 main_v1468 (broadcastInDim S1x8 ![1] bcast_S8_S1x8_1),
    unary main_v1468 main_v1469 (broadcastInDim S524288x8 ![0, 1] bcast_S1x8_S524288x8_0_1),
    binary main_v1467 main_v1469 main_v1470 addf,
    nullary main_cst_129 (constant S_ .f32 0x3C23D70A#32) ] ++ (
  reluOps (.of main_v1470) (.of main_cst_129) main_call117 ++ (
  [ unary main_v1451 main_v1472 (transpose S8x8 [1, 0] · transposes_S8x8_S8x8_1_0),
    binary main_v1471 main_v1472 main_v1473 (fun l r => Host.dotGeneral dot_S524288x8_S8x8_S524288x8_1_0_0_1_n_n none l r),
    unary main_v1453 main_v1474 (broadcastInDim S1x8 ![1] bcast_S8_S1x8_1),
    unary main_v1474 main_v1475 (broadcastInDim S524288x8 ![0, 1] bcast_S1x8_S524288x8_0_1),
    binary main_v1473 main_v1475 main_v1476 addf,
    nullary main_cst_130 (constant S_ .f32 0x3C23D70A#32) ] ++ (
  reluOps (.of main_v1476) (.of main_cst_130) main_call118 ++ (
  [ unary main_v1455 main_v1478 (transpose S8x8 [1, 0] · transposes_S8x8_S8x8_1_0),
    binary main_v1477 main_v1478 main_v1479 (fun l r => Host.dotGeneral dot_S524288x8_S8x8_S524288x8_1_0_0_1_n_n none l r),
    unary main_v1457 main_v1480 (broadcastInDim S1x8 ![1] bcast_S8_S1x8_1),
    unary main_v1480 main_v1481 (broadcastInDim S524288x8 ![0, 1] bcast_S1x8_S524288x8_0_1),
    binary main_v1479 main_v1481 main_v1482 addf,
    nullary main_cst_131 (constant S_ .f32 0x3C23D70A#32) ] ++ (
  reluOps (.of main_v1482) (.of main_cst_131) main_call119 ++ (
  [ unary main_v1459 main_v1484 (transpose S8x8 [1, 0] · transposes_S8x8_S8x8_1_0),
    binary main_v1483 main_v1484 main_v1485 (fun l r => Host.dotGeneral dot_S524288x8_S8x8_S524288x8_1_0_0_1_n_n none l r) ]))))))
theorem ck26_13_sub : (ck26_13 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub ..⟩

abbrev ck27_13 : List (HloOp τ sig (Elt F)) :=
  [ unary main_v1461 main_v1486 (broadcastInDim S1x8 ![1] bcast_S8_S1x8_1),
    unary main_v1486 main_v1487 (broadcastInDim S524288x8 ![0, 1] bcast_S1x8_S524288x8_0_1),
    binary main_v1485 main_v1487 main_v1488 addf,
    nullary main_cst_132 (constant S_ .f32 0x3C23D70A#32) ] ++ (
  reluOps (.of main_v1488) (.of main_cst_132) main_call120 ++ (
  [ unary main_v1463 main_v1490 (transpose S8x1 [1, 0] · transposes_S1x8_S8x1_1_0),
    binary main_v1489 main_v1490 main_v1491 (fun l r => Host.dotGeneral dot_S524288x8_S8x1_S524288x1_1_0_0_1_n_n none l r),
    unary main_v1465 main_v1492 (broadcastInDim S1x1 ![1] bcast_S1_S1x1_1),
    unary main_v1492 main_v1493 (broadcastInDim S524288x1 ![0, 1] bcast_S1x1_S524288x1_0_1),
    binary main_v1491 main_v1493 main_v1494 addf,
    unary main_arg1 main_v1495 (extractStridedSlice S1x1x8x1 ![13, 1, 0, 0] · slices_S15x2x8x1_S1x1x8x1_13_1_0_0),
    reshape main_v1495 main_v1496 rfl shapeCasts_S1x1x8x1_S8x1,
    unary main_arg2 main_v1497 (extractStridedSlice S1x1x8 ![13, 1, 0] · slices_S15x2x8_S1x1x8_13_1_0),
    reshape main_v1497 main_v1498 rfl shapeCasts_S1x1x8_S8,
    unary main_arg3 main_v1499 (extractStridedSlice S1x1x8x8 ![13, 1, 0, 0] · slices_S15x2x8x8_S1x1x8x8_13_1_0_0),
    reshape main_v1499 main_v1500 rfl shapeCasts_S1x1x8x8_S8x8,
    unary main_arg4 main_v1501 (extractStridedSlice S1x1x8 ![13, 1, 0] · slices_S15x2x8_S1x1x8_13_1_0),
    reshape main_v1501 main_v1502 rfl shapeCasts_S1x1x8_S8,
    unary main_arg5 main_v1503 (extractStridedSlice S1x1x8x8 ![13, 1, 0, 0] · slices_S15x2x8x8_S1x1x8x8_13_1_0_0),
    reshape main_v1503 main_v1504 rfl shapeCasts_S1x1x8x8_S8x8,
    unary main_arg6 main_v1505 (extractStridedSlice S1x1x8 ![13, 1, 0] · slices_S15x2x8_S1x1x8_13_1_0),
    reshape main_v1505 main_v1506 rfl shapeCasts_S1x1x8_S8,
    unary main_arg7 main_v1507 (extractStridedSlice S1x1x8x8 ![13, 1, 0, 0] · slices_S15x2x8x8_S1x1x8x8_13_1_0_0),
    reshape main_v1507 main_v1508 rfl shapeCasts_S1x1x8x8_S8x8,
    unary main_arg8 main_v1509 (extractStridedSlice S1x1x8 ![13, 1, 0] · slices_S15x2x8_S1x1x8_13_1_0),
    reshape main_v1509 main_v1510 rfl shapeCasts_S1x1x8_S8,
    unary main_arg9 main_v1511 (extractStridedSlice S1x1x1x8 ![13, 1, 0, 0] · slices_S15x2x1x8_S1x1x1x8_13_1_0_0),
    reshape main_v1511 main_v1512 rfl shapeCasts_S1x1x1x8_S1x8,
    unary main_arg10 main_v1513 (extractStridedSlice S1x1x1 ![13, 1, 0] · slices_S15x2x1_S1x1x1_13_1_0),
    reshape main_v1513 main_v1514 rfl shapeCasts_S1x1x1_S1,
    unary main_v1496 main_v1515 (transpose S1x8 [1, 0] · transposes_S8x1_S1x8_1_0),
    binary main_v1444 main_v1515 main_v1516 (fun l r => Host.dotGeneral dot_S524288x1_S1x8_S524288x8_1_0_0_1_n_n none l r),
    unary main_v1498 main_v1517 (broadcastInDim S1x8 ![1] bcast_S8_S1x8_1),
    unary main_v1517 main_v1518 (broadcastInDim S524288x8 ![0, 1] bcast_S1x8_S524288x8_0_1),
    binary main_v1516 main_v1518 main_v1519 addf,
    nullary main_cst_133 (constant S_ .f32 0x3C23D70A#32) ] ++ (
  reluOps (.of main_v1519) (.of main_cst_133) main_call121 ++ (
  [ unary main_v1500 main_v1521 (transpose S8x8 [1, 0] · transposes_S8x8_S8x8_1_0),
    binary main_v1520 main_v1521 main_v1522 (fun l r => Host.dotGeneral dot_S524288x8_S8x8_S524288x8_1_0_0_1_n_n none l r),
    unary main_v1502 main_v1523 (broadcastInDim S1x8 ![1] bcast_S8_S1x8_1),
    unary main_v1523 main_v1524 (broadcastInDim S524288x8 ![0, 1] bcast_S1x8_S524288x8_0_1),
    binary main_v1522 main_v1524 main_v1525 addf,
    nullary main_cst_134 (constant S_ .f32 0x3C23D70A#32) ] ++ (
  reluOps (.of main_v1525) (.of main_cst_134) main_call122 ++ (
  [ unary main_v1504 main_v1527 (transpose S8x8 [1, 0] · transposes_S8x8_S8x8_1_0),
    binary main_v1526 main_v1527 main_v1528 (fun l r => Host.dotGeneral dot_S524288x8_S8x8_S524288x8_1_0_0_1_n_n none l r),
    unary main_v1506 main_v1529 (broadcastInDim S1x8 ![1] bcast_S8_S1x8_1),
    unary main_v1529 main_v1530 (broadcastInDim S524288x8 ![0, 1] bcast_S1x8_S524288x8_0_1),
    binary main_v1528 main_v1530 main_v1531 addf,
    nullary main_cst_135 (constant S_ .f32 0x3C23D70A#32) ] ++ (
  reluOps (.of main_v1531) (.of main_cst_135) main_call123 ++ (
  [ unary main_v1508 main_v1533 (transpose S8x8 [1, 0] · transposes_S8x8_S8x8_1_0),
    binary main_v1532 main_v1533 main_v1534 (fun l r => Host.dotGeneral dot_S524288x8_S8x8_S524288x8_1_0_0_1_n_n none l r),
    unary main_v1510 main_v1535 (broadcastInDim S1x8 ![1] bcast_S8_S1x8_1),
    unary main_v1535 main_v1536 (broadcastInDim S524288x8 ![0, 1] bcast_S1x8_S524288x8_0_1),
    binary main_v1534 main_v1536 main_v1537 addf,
    nullary main_cst_136 (constant S_ .f32 0x3C23D70A#32) ] ++ (
  reluOps (.of main_v1537) (.of main_cst_136) main_call124 ++ (
  [ unary main_v1512 main_v1539 (transpose S8x1 [1, 0] · transposes_S1x8_S8x1_1_0),
    binary main_v1538 main_v1539 main_v1540 (fun l r => Host.dotGeneral dot_S524288x8_S8x1_S524288x1_1_0_0_1_n_n none l r) ]))))))))))
theorem ck27_13_sub : (ck27_13 : List (HloOp τ sig (Elt F))).Forall fun op => op.bufs ⊆ tcRefs τ sig :=
  ⟨unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub ..⟩

abbrev ck28_13 : List (HloOp τ sig (Elt F)) :=
  [ unary main_v1514 main_v1541 (broadcastInDim S1x1 ![1] bcast_S1_S1x1_1),
    unary main_v1541 main_v1542 (broadcastInDim S524288x1 ![0, 1] bcast_S1x1_S524288x1_0_1),
    binary main_v1540 main_v1542 main_v1543 addf,
    unary main_v1494 main_v1544 Host.exp,
    binary main_v1544 main_v1445 main_v1545 mulf,
    binary main_v1545 main_v1543 main_v1546 addf,
    nullary main_cst_137 (constant S_ .f32 0x00000000#32),
    binary main_v1494 main_cst_137 main_v1547 ((fun x v => Host.reduceAdd x v reducesTo_S524288x1_S524288_d1 h_S_)),
    binary main_v1437 main_v1547 main_v1548 addf,
    binary main_v1444 main_v1546 main_v1549 ((fun a b => concatenate S524288x2 1 [⟨S524288x1, a⟩, ⟨S524288x1, b⟩] concatenates_S524288x1_S524288x1_S524288x2_d1)),
    unary main_arg11 main_v1550 (extractStridedSlice S1 ![13] · slices_S14_S1_13),
    reshape main_v1550 main_v1551 rfl shapeCasts_S1_S_,
    nullary main_c_138 (constantI S_ 32 0#32),
    binary main_v1551 main_c_138 main_v1552 (cmpi .sgt),
    unary main_v1549 main_v1553 (Host.reverse [1]),
    TRef.ternary (.of main_v1552) (.of main_v1553) (.of main_v1549) main_call125.v0 (fun p a b => select (broadcastInDim S524288x2 ![] bcast_S_S524288x2 p) a b) ]
theorem ck28_13_sub : (ck28_13 : List (HloOp τ sig (Elt F))).Forall fun op => op.bufs ⊆ tcRefs τ sig :=
  ⟨unary_bufs_sub .., unary_bufs_sub .., binary_bufs_sub .., unary_bufs_sub .., binary_bufs_sub .., binary_bufs_sub .., nullary_bufs_sub .., binary_bufs_sub .., binary_bufs_sub .., binary_bufs_sub .., unary_bufs_sub .., reshape_bufs_sub .., nullary_bufs_sub .., binary_bufs_sub .., unary_bufs_sub .., ternary_bufs_sub ..⟩

abbrev ck28_14 : List (HloOp τ sig (Elt F)) :=
  [ unary main_v1554 main_v1555 (extractStridedSlice S524288x1 ![0, 0] · slices_S524288x2_S524288x1_0_0),
    unary main_v1554 main_v1556 (extractStridedSlice S524288x1 ![0, 1] · slices_S524288x2_S524288x1_0_1),
    unary main_arg1 main_v1557 (extractStridedSlice S1x1x8x1 ![14, 0, 0, 0] · slices_S15x2x8x1_S1x1x8x1_14_0_0_0),
    reshape main_v1557 main_v1558 rfl shapeCasts_S1x1x8x1_S8x1,
    unary main_arg2 main_v1559 (extractStridedSlice S1x1x8 ![14, 0, 0] · slices_S15x2x8_S1x1x8_14_0_0),
    reshape main_v1559 main_v1560 rfl shapeCasts_S1x1x8_S8,
    unary main_arg3 main_v1561 (extractStridedSlice S1x1x8x8 ![14, 0, 0, 0] · slices_S15x2x8x8_S1x1x8x8_14_0_0_0),
    reshape main_v1561 main_v1562 rfl shapeCasts_S1x1x8x8_S8x8,
    unary main_arg4 main_v1563 (extractStridedSlice S1x1x8 ![14, 0, 0] · slices_S15x2x8_S1x1x8_14_0_0),
    reshape main_v1563 main_v1564 rfl shapeCasts_S1x1x8_S8,
    unary main_arg5 main_v1565 (extractStridedSlice S1x1x8x8 ![14, 0, 0, 0] · slices_S15x2x8x8_S1x1x8x8_14_0_0_0),
    reshape main_v1565 main_v1566 rfl shapeCasts_S1x1x8x8_S8x8,
    unary main_arg6 main_v1567 (extractStridedSlice S1x1x8 ![14, 0, 0] · slices_S15x2x8_S1x1x8_14_0_0),
    reshape main_v1567 main_v1568 rfl shapeCasts_S1x1x8_S8,
    unary main_arg7 main_v1569 (extractStridedSlice S1x1x8x8 ![14, 0, 0, 0] · slices_S15x2x8x8_S1x1x8x8_14_0_0_0),
    reshape main_v1569 main_v1570 rfl shapeCasts_S1x1x8x8_S8x8,
    unary main_arg8 main_v1571 (extractStridedSlice S1x1x8 ![14, 0, 0] · slices_S15x2x8_S1x1x8_14_0_0),
    reshape main_v1571 main_v1572 rfl shapeCasts_S1x1x8_S8,
    unary main_arg9 main_v1573 (extractStridedSlice S1x1x1x8 ![14, 0, 0, 0] · slices_S15x2x1x8_S1x1x1x8_14_0_0_0),
    reshape main_v1573 main_v1574 rfl shapeCasts_S1x1x1x8_S1x8,
    unary main_arg10 main_v1575 (extractStridedSlice S1x1x1 ![14, 0, 0] · slices_S15x2x1_S1x1x1_14_0_0),
    reshape main_v1575 main_v1576 rfl shapeCasts_S1x1x1_S1,
    unary main_v1558 main_v1577 (transpose S1x8 [1, 0] · transposes_S8x1_S1x8_1_0),
    binary main_v1555 main_v1577 main_v1578 (fun l r => Host.dotGeneral dot_S524288x1_S1x8_S524288x8_1_0_0_1_n_n none l r),
    unary main_v1560 main_v1579 (broadcastInDim S1x8 ![1] bcast_S8_S1x8_1),
    unary main_v1579 main_v1580 (broadcastInDim S524288x8 ![0, 1] bcast_S1x8_S524288x8_0_1),
    binary main_v1578 main_v1580 main_v1581 addf,
    nullary main_cst_139 (constant S_ .f32 0x3C23D70A#32) ] ++ (
  reluOps (.of main_v1581) (.of main_cst_139) main_call126 ++ (
  [ unary main_v1562 main_v1583 (transpose S8x8 [1, 0] · transposes_S8x8_S8x8_1_0),
    binary main_v1582 main_v1583 main_v1584 (fun l r => Host.dotGeneral dot_S524288x8_S8x8_S524288x8_1_0_0_1_n_n none l r),
    unary main_v1564 main_v1585 (broadcastInDim S1x8 ![1] bcast_S8_S1x8_1),
    unary main_v1585 main_v1586 (broadcastInDim S524288x8 ![0, 1] bcast_S1x8_S524288x8_0_1),
    binary main_v1584 main_v1586 main_v1587 addf,
    nullary main_cst_140 (constant S_ .f32 0x3C23D70A#32) ] ++ (
  reluOps (.of main_v1587) (.of main_cst_140) main_call127 ++ (
  [ unary main_v1566 main_v1589 (transpose S8x8 [1, 0] · transposes_S8x8_S8x8_1_0),
    binary main_v1588 main_v1589 main_v1590 (fun l r => Host.dotGeneral dot_S524288x8_S8x8_S524288x8_1_0_0_1_n_n none l r),
    unary main_v1568 main_v1591 (broadcastInDim S1x8 ![1] bcast_S8_S1x8_1),
    unary main_v1591 main_v1592 (broadcastInDim S524288x8 ![0, 1] bcast_S1x8_S524288x8_0_1),
    binary main_v1590 main_v1592 main_v1593 addf,
    nullary main_cst_141 (constant S_ .f32 0x3C23D70A#32) ] ++ (
  reluOps (.of main_v1593) (.of main_cst_141) main_call128 ++ (
  [ unary main_v1570 main_v1595 (transpose S8x8 [1, 0] · transposes_S8x8_S8x8_1_0) ]))))))
theorem ck28_14_sub : (ck28_14 : List (HloOp τ sig (Elt F))).Forall fun op => op.bufs ⊆ tcRefs τ sig :=
  ⟨unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub ..⟩

abbrev ck29_14 : List (HloOp τ sig (Elt F)) :=
  [ binary main_v1594 main_v1595 main_v1596 (fun l r => Host.dotGeneral dot_S524288x8_S8x8_S524288x8_1_0_0_1_n_n none l r),
    unary main_v1572 main_v1597 (broadcastInDim S1x8 ![1] bcast_S8_S1x8_1),
    unary main_v1597 main_v1598 (broadcastInDim S524288x8 ![0, 1] bcast_S1x8_S524288x8_0_1),
    binary main_v1596 main_v1598 main_v1599 addf,
    nullary main_cst_142 (constant S_ .f32 0x3C23D70A#32) ] ++ (
  reluOps (.of main_v1599) (.of main_cst_142) main_call129 ++ (
  [ unary main_v1574 main_v1601 (transpose S8x1 [1, 0] · transposes_S1x8_S8x1_1_0),
    binary main_v1600 main_v1601 main_v1602 (fun l r => Host.dotGeneral dot_S524288x8_S8x1_S524288x1_1_0_0_1_n_n none l r),
    unary main_v1576 main_v1603 (broadcastInDim S1x1 ![1] bcast_S1_S1x1_1),
    unary main_v1603 main_v1604 (broadcastInDim S524288x1 ![0, 1] bcast_S1x1_S524288x1_0_1),
    binary main_v1602 main_v1604 main_v1605 addf,
    unary main_arg1 main_v1606 (extractStridedSlice S1x1x8x1 ![14, 1, 0, 0] · slices_S15x2x8x1_S1x1x8x1_14_1_0_0),
    reshape main_v1606 main_v1607 rfl shapeCasts_S1x1x8x1_S8x1,
    unary main_arg2 main_v1608 (extractStridedSlice S1x1x8 ![14, 1, 0] · slices_S15x2x8_S1x1x8_14_1_0),
    reshape main_v1608 main_v1609 rfl shapeCasts_S1x1x8_S8,
    unary main_arg3 main_v1610 (extractStridedSlice S1x1x8x8 ![14, 1, 0, 0] · slices_S15x2x8x8_S1x1x8x8_14_1_0_0),
    reshape main_v1610 main_v1611 rfl shapeCasts_S1x1x8x8_S8x8,
    unary main_arg4 main_v1612 (extractStridedSlice S1x1x8 ![14, 1, 0] · slices_S15x2x8_S1x1x8_14_1_0),
    reshape main_v1612 main_v1613 rfl shapeCasts_S1x1x8_S8,
    unary main_arg5 main_v1614 (extractStridedSlice S1x1x8x8 ![14, 1, 0, 0] · slices_S15x2x8x8_S1x1x8x8_14_1_0_0),
    reshape main_v1614 main_v1615 rfl shapeCasts_S1x1x8x8_S8x8,
    unary main_arg6 main_v1616 (extractStridedSlice S1x1x8 ![14, 1, 0] · slices_S15x2x8_S1x1x8_14_1_0),
    reshape main_v1616 main_v1617 rfl shapeCasts_S1x1x8_S8,
    unary main_arg7 main_v1618 (extractStridedSlice S1x1x8x8 ![14, 1, 0, 0] · slices_S15x2x8x8_S1x1x8x8_14_1_0_0),
    reshape main_v1618 main_v1619 rfl shapeCasts_S1x1x8x8_S8x8,
    unary main_arg8 main_v1620 (extractStridedSlice S1x1x8 ![14, 1, 0] · slices_S15x2x8_S1x1x8_14_1_0),
    reshape main_v1620 main_v1621 rfl shapeCasts_S1x1x8_S8,
    unary main_arg9 main_v1622 (extractStridedSlice S1x1x1x8 ![14, 1, 0, 0] · slices_S15x2x1x8_S1x1x1x8_14_1_0_0),
    reshape main_v1622 main_v1623 rfl shapeCasts_S1x1x1x8_S1x8,
    unary main_arg10 main_v1624 (extractStridedSlice S1x1x1 ![14, 1, 0] · slices_S15x2x1_S1x1x1_14_1_0),
    reshape main_v1624 main_v1625 rfl shapeCasts_S1x1x1_S1,
    unary main_v1607 main_v1626 (transpose S1x8 [1, 0] · transposes_S8x1_S1x8_1_0),
    binary main_v1555 main_v1626 main_v1627 (fun l r => Host.dotGeneral dot_S524288x1_S1x8_S524288x8_1_0_0_1_n_n none l r),
    unary main_v1609 main_v1628 (broadcastInDim S1x8 ![1] bcast_S8_S1x8_1),
    unary main_v1628 main_v1629 (broadcastInDim S524288x8 ![0, 1] bcast_S1x8_S524288x8_0_1),
    binary main_v1627 main_v1629 main_v1630 addf,
    nullary main_cst_143 (constant S_ .f32 0x3C23D70A#32) ] ++ (
  reluOps (.of main_v1630) (.of main_cst_143) main_call130 ++ (
  [ unary main_v1611 main_v1632 (transpose S8x8 [1, 0] · transposes_S8x8_S8x8_1_0),
    binary main_v1631 main_v1632 main_v1633 (fun l r => Host.dotGeneral dot_S524288x8_S8x8_S524288x8_1_0_0_1_n_n none l r),
    unary main_v1613 main_v1634 (broadcastInDim S1x8 ![1] bcast_S8_S1x8_1),
    unary main_v1634 main_v1635 (broadcastInDim S524288x8 ![0, 1] bcast_S1x8_S524288x8_0_1),
    binary main_v1633 main_v1635 main_v1636 addf,
    nullary main_cst_144 (constant S_ .f32 0x3C23D70A#32) ] ++ (
  reluOps (.of main_v1636) (.of main_cst_144) main_call131 ++ (
  [ unary main_v1615 main_v1638 (transpose S8x8 [1, 0] · transposes_S8x8_S8x8_1_0),
    binary main_v1637 main_v1638 main_v1639 (fun l r => Host.dotGeneral dot_S524288x8_S8x8_S524288x8_1_0_0_1_n_n none l r),
    unary main_v1617 main_v1640 (broadcastInDim S1x8 ![1] bcast_S8_S1x8_1),
    unary main_v1640 main_v1641 (broadcastInDim S524288x8 ![0, 1] bcast_S1x8_S524288x8_0_1),
    binary main_v1639 main_v1641 main_v1642 addf,
    nullary main_cst_145 (constant S_ .f32 0x3C23D70A#32) ] ++ (
  reluOps (.of main_v1642) (.of main_cst_145) main_call132 ++ (
  [ unary main_v1619 main_v1644 (transpose S8x8 [1, 0] · transposes_S8x8_S8x8_1_0),
    binary main_v1643 main_v1644 main_v1645 (fun l r => Host.dotGeneral dot_S524288x8_S8x8_S524288x8_1_0_0_1_n_n none l r),
    unary main_v1621 main_v1646 (broadcastInDim S1x8 ![1] bcast_S8_S1x8_1),
    unary main_v1646 main_v1647 (broadcastInDim S524288x8 ![0, 1] bcast_S1x8_S524288x8_0_1),
    binary main_v1645 main_v1647 main_v1648 addf,
    nullary main_cst_146 (constant S_ .f32 0x3C23D70A#32) ] ++ (
  reluOps (.of main_v1648) (.of main_cst_146) main_call133 ++ (
  [ unary main_v1623 main_v1650 (transpose S8x1 [1, 0] · transposes_S1x8_S8x1_1_0) ]))))))))))
theorem ck29_14_sub : (ck29_14 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub ..⟩

abbrev ck30_14 : List (HloOp τ sig (Elt F)) :=
  [ binary main_v1649 main_v1650 main_v1651 (fun l r => Host.dotGeneral dot_S524288x8_S8x1_S524288x1_1_0_0_1_n_n none l r),
    unary main_v1625 main_v1652 (broadcastInDim S1x1 ![1] bcast_S1_S1x1_1),
    unary main_v1652 main_v1653 (broadcastInDim S524288x1 ![0, 1] bcast_S1x1_S524288x1_0_1),
    binary main_v1651 main_v1653 main_v1654 addf,
    unary main_v1605 main_v1655 Host.exp,
    binary main_v1655 main_v1556 main_v1656 mulf,
    binary main_v1656 main_v1654 main_v1657 addf,
    nullary main_cst_147 (constant S_ .f32 0x00000000#32),
    binary main_v1605 main_cst_147 main_v1658 ((fun x v => Host.reduceAdd x v reducesTo_S524288x1_S524288_d1 h_S_)),
    binary main_v1548 main_v1658 main_v1659 addf,
    binary main_v1555 main_v1657 main_v1660 ((fun a b => concatenate S524288x2 1 [⟨S524288x1, a⟩, ⟨S524288x1, b⟩] concatenates_S524288x1_S524288x1_S524288x2_d1)) ]
theorem ck30_14_sub : (ck30_14 : List (HloOp τ sig (Elt F))).Forall fun op => op.bufs ⊆ tcRefs τ sig :=
  ⟨binary_bufs_sub .., unary_bufs_sub .., unary_bufs_sub .., binary_bufs_sub .., unary_bufs_sub .., binary_bufs_sub .., binary_bufs_sub .., nullary_bufs_sub .., binary_bufs_sub .., binary_bufs_sub .., binary_bufs_sub ..⟩

end Cert.ReferenceIdeal.RefRun

end
-- ==== Proof.RefLists.lean ====
/- The reference program's operation lists joined: window by window (as @main is printed) and layer by layer. -/
import proofs.«405999_j47631187312975_2_alg».proof.Proof.RefOps0
import proofs.«405999_j47631187312975_2_alg».proof.Proof.RefOps1
import proofs.«405999_j47631187312975_2_alg».proof.Proof.RefOps2
import proofs.«405999_j47631187312975_2_alg».proof.Proof.RefOps3
import proofs.«405999_j47631187312975_2_alg».proof.Proof.RefOps4

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
theorem forall_app {α : Type*} {p : α → Prop} {a b : List α} (ha : a.Forall p) (hb : b.Forall p) : (a ++ b).Forall p :=
  List.forall_iff_forall_mem.mpr fun x hx => (List.mem_append.mp hx).elim (List.forall_iff_forall_mem.mp ha x) (List.forall_iff_forall_mem.mp hb x)
abbrev opsW0 : List (HloOp τ sig (Elt F)) := ck0_0
abbrev opsW1 : List (HloOp τ sig (Elt F)) := ck1_0
abbrev opsW2 : List (HloOp τ sig (Elt F)) := ck2_0 ++ (ck2_1)
abbrev opsW3 : List (HloOp τ sig (Elt F)) := ck3_1
abbrev opsW4 : List (HloOp τ sig (Elt F)) := ck4_1 ++ (ck4_2)
abbrev opsW5 : List (HloOp τ sig (Elt F)) := ck5_2
abbrev opsW6 : List (HloOp τ sig (Elt F)) := ck6_2 ++ (ck6_3)
abbrev opsW7 : List (HloOp τ sig (Elt F)) := ck7_3
abbrev opsW8 : List (HloOp τ sig (Elt F)) := ck8_3 ++ (ck8_4)
abbrev opsW9 : List (HloOp τ sig (Elt F)) := ck9_4
abbrev opsW10 : List (HloOp τ sig (Elt F)) := ck10_4 ++ (ck10_5)
abbrev opsW11 : List (HloOp τ sig (Elt F)) := ck11_5
abbrev opsW12 : List (HloOp τ sig (Elt F)) := ck12_5 ++ (ck12_6)
abbrev opsW13 : List (HloOp τ sig (Elt F)) := ck13_6
abbrev opsW14 : List (HloOp τ sig (Elt F)) := ck14_6 ++ (ck14_7)
abbrev opsW15 : List (HloOp τ sig (Elt F)) := ck15_7
abbrev opsW16 : List (HloOp τ sig (Elt F)) := ck16_7 ++ (ck16_8)
abbrev opsW17 : List (HloOp τ sig (Elt F)) := ck17_8
abbrev opsW18 : List (HloOp τ sig (Elt F)) := ck18_8 ++ (ck18_9)
abbrev opsW19 : List (HloOp τ sig (Elt F)) := ck19_9
abbrev opsW20 : List (HloOp τ sig (Elt F)) := ck20_9 ++ (ck20_10)
abbrev opsW21 : List (HloOp τ sig (Elt F)) := ck21_10
abbrev opsW22 : List (HloOp τ sig (Elt F)) := ck22_10 ++ (ck22_11)
abbrev opsW23 : List (HloOp τ sig (Elt F)) := ck23_11
abbrev opsW24 : List (HloOp τ sig (Elt F)) := ck24_11 ++ (ck24_12)
abbrev opsW25 : List (HloOp τ sig (Elt F)) := ck25_12
abbrev opsW26 : List (HloOp τ sig (Elt F)) := ck26_12 ++ (ck26_13)
abbrev opsW27 : List (HloOp τ sig (Elt F)) := ck27_13
abbrev opsW28 : List (HloOp τ sig (Elt F)) := ck28_13 ++ (ck28_14)
abbrev opsW29 : List (HloOp τ sig (Elt F)) := ck29_14
abbrev opsW30 : List (HloOp τ sig (Elt F)) := ck30_14
abbrev opsL0 : List (HloOp τ sig (Elt F)) := ck0_0 ++ (ck1_0 ++ (ck2_0))
abbrev opsL1 : List (HloOp τ sig (Elt F)) := ck2_1 ++ (ck3_1 ++ (ck4_1))
abbrev opsL2 : List (HloOp τ sig (Elt F)) := ck4_2 ++ (ck5_2 ++ (ck6_2))
abbrev opsL3 : List (HloOp τ sig (Elt F)) := ck6_3 ++ (ck7_3 ++ (ck8_3))
abbrev opsL4 : List (HloOp τ sig (Elt F)) := ck8_4 ++ (ck9_4 ++ (ck10_4))
abbrev opsL5 : List (HloOp τ sig (Elt F)) := ck10_5 ++ (ck11_5 ++ (ck12_5))
abbrev opsL6 : List (HloOp τ sig (Elt F)) := ck12_6 ++ (ck13_6 ++ (ck14_6))
abbrev opsL7 : List (HloOp τ sig (Elt F)) := ck14_7 ++ (ck15_7 ++ (ck16_7))
abbrev opsL8 : List (HloOp τ sig (Elt F)) := ck16_8 ++ (ck17_8 ++ (ck18_8))
abbrev opsL9 : List (HloOp τ sig (Elt F)) := ck18_9 ++ (ck19_9 ++ (ck20_9))
abbrev opsL10 : List (HloOp τ sig (Elt F)) := ck20_10 ++ (ck21_10 ++ (ck22_10))
abbrev opsL11 : List (HloOp τ sig (Elt F)) := ck22_11 ++ (ck23_11 ++ (ck24_11))
abbrev opsL12 : List (HloOp τ sig (Elt F)) := ck24_12 ++ (ck25_12 ++ (ck26_12))
abbrev opsL13 : List (HloOp τ sig (Elt F)) := ck26_13 ++ (ck27_13 ++ (ck28_13))
abbrev opsL14 : List (HloOp τ sig (Elt F)) := ck28_14 ++ (ck29_14 ++ (ck30_14))
abbrev ops : List (HloOp τ sig (Elt F)) := opsW0 ++ (opsW1 ++ (opsW2 ++ (opsW3 ++ (opsW4 ++ (opsW5 ++ (opsW6 ++ (opsW7 ++ (opsW8 ++ (opsW9 ++ (opsW10 ++ (opsW11 ++ (opsW12 ++ (opsW13 ++ (opsW14 ++ (opsW15 ++ (opsW16 ++ (opsW17 ++ (opsW18 ++ (opsW19 ++ (opsW20 ++ (opsW21 ++ (opsW22 ++ (opsW23 ++ (opsW24 ++ (opsW25 ++ (opsW26 ++ (opsW27 ++ (opsW28 ++ (opsW29 ++ (opsW30))))))))))))))))))))))))))))))
abbrev opsByLayer : List (HloOp τ sig (Elt F)) := opsL0 ++ (opsL1 ++ (opsL2 ++ (opsL3 ++ (opsL4 ++ (opsL5 ++ (opsL6 ++ (opsL7 ++ (opsL8 ++ (opsL9 ++ (opsL10 ++ (opsL11 ++ (opsL12 ++ (opsL13 ++ (opsL14))))))))))))))
theorem ops_sub : (ops : List (HloOp τ sig (Elt F))).Forall fun op => op.bufs ⊆ tcRefs τ sig :=
  forall_app ck0_0_sub (forall_app ck1_0_sub (forall_app (forall_app ck2_0_sub ck2_1_sub) (forall_app ck3_1_sub (forall_app (forall_app ck4_1_sub ck4_2_sub) (forall_app ck5_2_sub (forall_app (forall_app ck6_2_sub ck6_3_sub) (forall_app ck7_3_sub (forall_app (forall_app ck8_3_sub ck8_4_sub) (forall_app ck9_4_sub (forall_app (forall_app ck10_4_sub ck10_5_sub) (forall_app ck11_5_sub (forall_app (forall_app ck12_5_sub ck12_6_sub) (forall_app ck13_6_sub (forall_app (forall_app ck14_6_sub ck14_7_sub) (forall_app ck15_7_sub (forall_app (forall_app ck16_7_sub ck16_8_sub) (forall_app ck17_8_sub (forall_app (forall_app ck18_8_sub ck18_9_sub) (forall_app ck19_9_sub (forall_app (forall_app ck20_9_sub ck20_10_sub) (forall_app ck21_10_sub (forall_app (forall_app ck22_10_sub ck22_11_sub) (forall_app ck23_11_sub (forall_app (forall_app ck24_11_sub ck24_12_sub) (forall_app ck25_12_sub (forall_app (forall_app ck26_12_sub ck26_13_sub) (forall_app ck27_13_sub (forall_app (forall_app ck28_13_sub ck28_14_sub) (forall_app ck29_14_sub (ck30_14_sub))))))))))))))))))))))))))))))

end Cert.ReferenceIdeal.RefRun

end
-- ==== Proof.RefDefs.lean ====
/-
  The reference as fifteen layer functions on whole arrays ([524288, 8] hidden tensors, a batch row per row), for any
  float family: a hidden layer is h · Wᵀ plus the bias along the batch, rectified; a layer splits the state into its
  two columns, transforms the second, rejoins them and reverses them when its swap word is positive.
-/
import proofs.«405999_j47631187312975_2_alg».proof.ReferenceIdeal
import proofs.«405999_j47631187312975_2_alg».proof.Proof.Gen.ReferenceIdeal

set_option maxRecDepth 16384

noncomputable section

namespace Cert.ReferenceIdeal.RefRun

open Cert.ReferenceIdeal Cert.ReferenceIdeal.Gen Idealize.ShloMosaic Idealize.SL.Sem

variable {F : FTy → Type} [FloatOps F]

def rAct (a : FVec F S524288x8 .f32) : FVec F S524288x8 .f32 :=
  select (cmpf .oge a (broadcastInDim S524288x8 ![] bcast_S_S524288x8 (constant S_ .f32 0x00000000#32))) a
    (mulf (broadcastInDim S524288x8 ![] bcast_S_S524288x8 (constant S_ .f32 0x3C23D70A#32)) a)

def rBias (b : FVec F S1x1x8 .f32) : FVec F S524288x8 .f32 :=
  broadcastInDim S524288x8 ![0, 1] bcast_S1x8_S524288x8_0_1 (broadcastInDim S1x8 ![1] bcast_S8_S1x8_1 (shapeCast S8 b shapeCasts_S1x1x8_S8))

def rFirst (w0 : FVec F S1x1x8x1 .f32) (b0 : FVec F S1x1x8 .f32) (xI : FVec F S524288x1 .f32) : FVec F S524288x8 .f32 :=
  rAct (addf (Host.dotGeneral dot_S524288x1_S1x8_S524288x8_1_0_0_1_n_n none xI
    (transpose S1x8 [1, 0] (shapeCast S8x1 w0 shapeCasts_S1x1x8x1_S8x1) transposes_S8x1_S1x8_1_0)) (rBias b0))

def rHid (w : FVec F S1x1x8x8 .f32) (b : FVec F S1x1x8 .f32) (h : FVec F S524288x8 .f32) : FVec F S524288x8 .f32 :=
  rAct (addf (Host.dotGeneral dot_S524288x8_S8x8_S524288x8_1_0_0_1_n_n none h
    (transpose S8x8 [1, 0] (shapeCast S8x8 w shapeCasts_S1x1x8x8_S8x8) transposes_S8x8_S8x8_1_0)) (rBias b))

def rOut (w4 : FVec F S1x1x1x8 .f32) (b4 : FVec F S1x1x1 .f32) (h : FVec F S524288x8 .f32) : FVec F S524288x1 .f32 :=
  addf (Host.dotGeneral dot_S524288x8_S8x1_S524288x1_1_0_0_1_n_n none h
    (transpose S8x1 [1, 0] (shapeCast S1x8 w4 shapeCasts_S1x1x1x8_S1x8) transposes_S1x8_S8x1_1_0))
    (broadcastInDim S524288x1 ![0, 1] bcast_S1x1_S524288x1_0_1 (broadcastInDim S1x1 ![1] bcast_S1_S1x1_1 (shapeCast S1 b4 shapeCasts_S1x1x1_S1)))

structure RNet (F : FTy → Type) [FloatOps F] where
  w0 : FVec F S1x1x8x1 .f32
  b0 : FVec F S1x1x8 .f32
  w1 : FVec F S1x1x8x8 .f32
  b1 : FVec F S1x1x8 .f32
  w2 : FVec F S1x1x8x8 .f32
  b2 : FVec F S1x1x8 .f32
  w3 : FVec F S1x1x8x8 .f32
  b3 : FVec F S1x1x8 .f32
  w4 : FVec F S1x1x1x8 .f32
  b4 : FVec F S1x1x1 .f32

def rMlp (n : RNet F) (xI : FVec F S524288x1 .f32) : FVec F S524288x1 .f32 :=
  rOut n.w4 n.b4 (rHid n.w3 n.b3 (rHid n.w2 n.b2 (rHid n.w1 n.b1 (rFirst n.w0 n.b0 xI))))

structure RSt (F : FTy → Type) [FloatOps F] where
  x : FVec F S524288x2 .f32
  ld : FVec F S524288 .f32

def rXI (x : FVec F S524288x2 .f32) : FVec F S524288x1 .f32 := extractStridedSlice S524288x1 ![0, 0] x slices_S524288x2_S524288x1_0_0
def rXII (x : FVec F S524288x2 .f32) : FVec F S524288x1 .f32 := extractStridedSlice S524288x1 ![0, 1] x slices_S524288x2_S524288x1_0_1

def rY (s t : RNet F) (x : FVec F S524288x2 .f32) : FVec F S524288x1 .f32 :=
  addf (mulf (Host.exp (rMlp s (rXI x))) (rXII x)) (rMlp t (rXI x))

def rCat (s t : RNet F) (x : FVec F S524288x2 .f32) : FVec F S524288x2 .f32 :=
  concatenate S524288x2 1 [⟨S524288x1, rXI x⟩, ⟨S524288x1, rY s t x⟩] concatenates_S524288x1_S524288x1_S524288x2_d1

def rLd (s : RNet F) (st : RSt F) : FVec F S524288 .f32 :=
  addf st.ld (Host.reduceAdd (rMlp s (rXI st.x)) (constant S_ .f32 0x00000000#32) reducesTo_S524288x1_S524288_d1 h_S_)

def rStep (s t : RNet F) (w : IVec S1 32) (st : RSt F) : RSt F :=
  ⟨select (broadcastInDim S524288x2 ![] bcast_S_S524288x2 (cmpi .sgt (shapeCast S_ w shapeCasts_S1_S_) (constantI S_ 32 0#32)))
      (Host.reverse [1] (rCat s t st.x)) (rCat s t st.x),
   rLd s st⟩

def rLast (s t : RNet F) (st : RSt F) : RSt F := ⟨rCat s t st.x, rLd s st⟩

theorem slW0 (i : Fin 15) (k : Fin 2) : S15x2x8x1.Slices ![i.val, k.val, 0, 0] S1x1x8x1 :=
  ⟨rfl, fun a => by
    have := i.isLt; have := k.isLt
    match a with
    | ⟨0, _⟩ => show i.val + 1 ≤ 15; omega
    | ⟨1, _⟩ => show k.val + 1 ≤ 2; omega
    | ⟨2, _⟩ => show 0 + 8 ≤ 8; omega
    | ⟨3, _⟩ => show 0 + 1 ≤ 1; omega⟩
theorem slB (i : Fin 15) (k : Fin 2) : S15x2x8.Slices ![i.val, k.val, 0] S1x1x8 :=
  ⟨rfl, fun a => by
    have := i.isLt; have := k.isLt
    match a with
    | ⟨0, _⟩ => show i.val + 1 ≤ 15; omega
    | ⟨1, _⟩ => show k.val + 1 ≤ 2; omega
    | ⟨2, _⟩ => show 0 + 8 ≤ 8; omega⟩
theorem slW (i : Fin 15) (k : Fin 2) : S15x2x8x8.Slices ![i.val, k.val, 0, 0] S1x1x8x8 :=
  ⟨rfl, fun a => by
    have := i.isLt; have := k.isLt
    match a with
    | ⟨0, _⟩ => show i.val + 1 ≤ 15; omega
    | ⟨1, _⟩ => show k.val + 1 ≤ 2; omega
    | ⟨2, _⟩ => show 0 + 8 ≤ 8; omega
    | ⟨3, _⟩ => show 0 + 8 ≤ 8; omega⟩
theorem slW4 (i : Fin 15) (k : Fin 2) : S15x2x1x8.Slices ![i.val, k.val, 0, 0] S1x1x1x8 :=
  ⟨rfl, fun a => by
    have := i.isLt; have := k.isLt
    match a with
    | ⟨0, _⟩ => show i.val + 1 ≤ 15; omega
    | ⟨1, _⟩ => show k.val + 1 ≤ 2; omega
    | ⟨2, _⟩ => show 0 + 1 ≤ 1; omega
    | ⟨3, _⟩ => show 0 + 8 ≤ 8; omega⟩
theorem slB4 (i : Fin 15) (k : Fin 2) : S15x2x1.Slices ![i.val, k.val, 0] S1x1x1 :=
  ⟨rfl, fun a => by
    have := i.isLt; have := k.isLt
    match a with
    | ⟨0, _⟩ => show i.val + 1 ≤ 15; omega
    | ⟨1, _⟩ => show k.val + 1 ≤ 2; omega
    | ⟨2, _⟩ => show 0 + 1 ≤ 1; omega⟩
theorem slSw (i : Fin 14) : S14.Slices ![i.val] S1 :=
  ⟨rfl, fun a => by
    have := i.isLt
    match a with
    | ⟨0, _⟩ => show i.val + 1 ≤ 14; omega⟩

section Args

variable (z : FVec F S524288x2 .f32) (W0 : FVec F S15x2x8x1 .f32) (B0 : FVec F S15x2x8 .f32) (W1 : FVec F S15x2x8x8 .f32) (B1 : FVec F S15x2x8 .f32) (W2 : FVec F S15x2x8x8 .f32) (B2 : FVec F S15x2x8 .f32) (W3 : FVec F S15x2x8x8 .f32) (B3 : FVec F S15x2x8 .f32) (W4 : FVec F S15x2x1x8 .f32) (B4 : FVec F S15x2x1 .f32) (swaps : IVec S14 32)

def rNet (i : Fin 15) (k : Fin 2) : RNet F where
  w0 := extractStridedSlice S1x1x8x1 ![i.val, k.val, 0, 0] W0 (slW0 i k)
  b0 := extractStridedSlice S1x1x8 ![i.val, k.val, 0] B0 (slB i k)
  w1 := extractStridedSlice S1x1x8x8 ![i.val, k.val, 0, 0] W1 (slW i k)
  b1 := extractStridedSlice S1x1x8 ![i.val, k.val, 0] B1 (slB i k)
  w2 := extractStridedSlice S1x1x8x8 ![i.val, k.val, 0, 0] W2 (slW i k)
  b2 := extractStridedSlice S1x1x8 ![i.val, k.val, 0] B2 (slB i k)
  w3 := extractStridedSlice S1x1x8x8 ![i.val, k.val, 0, 0] W3 (slW i k)
  b3 := extractStridedSlice S1x1x8 ![i.val, k.val, 0] B3 (slB i k)
  w4 := extractStridedSlice S1x1x1x8 ![i.val, k.val, 0, 0] W4 (slW4 i k)
  b4 := extractStridedSlice S1x1x1 ![i.val, k.val, 0] B4 (slB4 i k)

def rSw (i : Fin 14) : IVec S1 32 := extractStridedSlice S1 ![i.val] swaps (slSw i)

def rInit : RSt F := ⟨z, broadcastInDim S524288 ![] bcast_S_S524288 (constant S_ .f32 0x00000000#32)⟩

/-- Fifteen layers over the nets `n` and the swap word slices `w`, from the state `s`. -/
def rChain (n : Fin 15 → Fin 2 → RNet F) (w : Fin 14 → IVec S1 32) (s : RSt F) : RSt F :=
  rLast (n 14 0) (n 14 1) (rStep (n 13 0) (n 13 1) (w 13) (rStep (n 12 0) (n 12 1) (w 12) (rStep (n 11 0) (n 11 1) (w 11) (rStep (n 10 0) (n 10 1) (w 10) (rStep (n 9 0) (n 9 1) (w 9) (rStep (n 8 0) (n 8 1) (w 8) (rStep (n 7 0) (n 7 1) (w 7) (rStep (n 6 0) (n 6 1) (w 6) (rStep (n 5 0) (n 5 1) (w 5) (rStep (n 4 0) (n 4 1) (w 4) (rStep (n 3 0) (n 3 1) (w 3) (rStep (n 2 0) (n 2 1) (w 2) (rStep (n 1 0) (n 1 1) (w 1) (rStep (n 0 0) (n 0 1) (w 0) s))))))))))))))

def rFinal : RSt F := rChain (rNet W0 B0 W1 B1 W2 B2 W3 B3 W4 B4) (rSw swaps) (rInit z)

end Args

end Cert.ReferenceIdeal.RefRun

end
-- ==== Proof.RefChain.lean ====
/-
  The reference's operations taken layer by layer. Each layer's line maps the pair of state buffers to the layer
  function of the pair it found and never writes an argument array, so the fold over the fifteen lines is the chain
  of the fifteen layer functions on the launch's arrays.
-/
import proofs.«405999_j47631187312975_2_alg».proof.Proof.RefLists
import proofs.«405999_j47631187312975_2_alg».proof.Proof.RefDefs
import Idealize.ShloMosaic.Lib.Pipeline.Frame
import Idealize.ShloMosaic.Lib.Pipeline.Regions

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops_eq_byLayer : (ops : List (HloOp τ sig (Elt F))) = opsByLayer := by
  simp only [ops, opsByLayer, opsW0, opsW1, opsW2, opsW3, opsW4, opsW5, opsW6, opsW7, opsW8, opsW9, opsW10, opsW11, opsW12, opsW13, opsW14, opsW15, opsW16, opsW17, opsW18, opsW19, opsW20, opsW21, opsW22, opsW23, opsW24, opsW25, opsW26, opsW27, opsW28, opsW29, opsW30, opsL0, opsL1, opsL2, opsL3, opsL4, opsL5, opsL6, opsL7, opsL8, opsL9, opsL10, opsL11, opsL12, opsL13, opsL14, List.append_assoc]

def argRef : Fin 12 → Ref sig .tc := ![main_arg0, main_arg1, main_arg2, main_arg3, main_arg4, main_arg5, main_arg6, main_arg7, main_arg8, main_arg9, main_arg10, main_arg11]

/-- Two buffer contents with the same twelve argument arrays. -/
def ArgsEq (V V0 : Valuation τ sig (Elt F)) : Prop :=
  ∀ j, V (Proc.devRef .tc (argRef j)) = V0 (Proc.devRef .tc (argRef j))

/-- A line of operations that writes no argument array. -/
def Keeps (l : List (HloOp τ sig (Elt F))) : Prop := ∀ V, ArgsEq (after l V) V

section Layer

variable (V : Valuation τ sig (Elt F))

/-- Net `k` of layer `i`, sliced off the argument arrays held by `V`. -/
def vNet (i : Fin 15) (k : Fin 2) : RNet F :=
  rNet (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) i k

def vStep (i : Fin 14) (s : RSt F) : RSt F :=
  rStep (vNet V i.castSucc 0) (vNet V i.castSucc 1) (rSw (V (Proc.devRef .tc main_arg11)) i) s

def vLast (s : RSt F) : RSt F := rLast (vNet V 14 0) (vNet V 14 1) s

theorem layer0 : (⟨after (opsL0 (F := F)) V (Proc.devRef .tc main_v111), after (opsL0 (F := F)) V (Proc.devRef .tc main_v105)⟩ : RSt F) = vStep V 0 (rInit (V (Proc.devRef .tc main_arg0))) := by chain_rfl
theorem layer1 : (⟨after (opsL1 (F := F)) V (Proc.devRef .tc main_v222), after (opsL1 (F := F)) V (Proc.devRef .tc main_v216)⟩ : RSt F) = vStep V 1 ⟨V (Proc.devRef .tc main_v111), V (Proc.devRef .tc main_v105)⟩ := by chain_rfl
theorem layer2 : (⟨after (opsL2 (F := F)) V (Proc.devRef .tc main_v333), after (opsL2 (F := F)) V (Proc.devRef .tc main_v327)⟩ : RSt F) = vStep V 2 ⟨V (Proc.devRef .tc main_v222), V (Proc.devRef .tc main_v216)⟩ := by chain_rfl
theorem layer3 : (⟨after (opsL3 (F := F)) V (Proc.devRef .tc main_v444), after (opsL3 (F := F)) V (Proc.devRef .tc main_v438)⟩ : RSt F) = vStep V 3 ⟨V (Proc.devRef .tc main_v333), V (Proc.devRef .tc main_v327)⟩ := by chain_rfl
theorem layer4 : (⟨after (opsL4 (F := F)) V (Proc.devRef .tc main_v555), after (opsL4 (F := F)) V (Proc.devRef .tc main_v549)⟩ : RSt F) = vStep V 4 ⟨V (Proc.devRef .tc main_v444), V (Proc.devRef .tc main_v438)⟩ := by chain_rfl
theorem layer5 : (⟨after (opsL5 (F := F)) V (Proc.devRef .tc main_v666), after (opsL5 (F := F)) V (Proc.devRef .tc main_v660)⟩ : RSt F) = vStep V 5 ⟨V (Proc.devRef .tc main_v555), V (Proc.devRef .tc main_v549)⟩ := by chain_rfl
theorem layer6 : (⟨after (opsL6 (F := F)) V (Proc.devRef .tc main_v777), after (opsL6 (F := F)) V (Proc.devRef .tc main_v771)⟩ : RSt F) = vStep V 6 ⟨V (Proc.devRef .tc main_v666), V (Proc.devRef .tc main_v660)⟩ := by chain_rfl
theorem layer7 : (⟨after (opsL7 (F := F)) V (Proc.devRef .tc main_v888), after (opsL7 (F := F)) V (Proc.devRef .tc main_v882)⟩ : RSt F) = vStep V 7 ⟨V (Proc.devRef .tc main_v777), V (Proc.devRef .tc main_v771)⟩ := by chain_rfl
theorem layer8 : (⟨after (opsL8 (F := F)) V (Proc.devRef .tc main_v999), after (opsL8 (F := F)) V (Proc.devRef .tc main_v993)⟩ : RSt F) = vStep V 8 ⟨V (Proc.devRef .tc main_v888), V (Proc.devRef .tc main_v882)⟩ := by chain_rfl
theorem layer9 : (⟨after (opsL9 (F := F)) V (Proc.devRef .tc main_v1110), after (opsL9 (F := F)) V (Proc.devRef .tc main_v1104)⟩ : RSt F) = vStep V 9 ⟨V (Proc.devRef .tc main_v999), V (Proc.devRef .tc main_v993)⟩ := by chain_rfl
theorem layer10 : (⟨after (opsL10 (F := F)) V (Proc.devRef .tc main_v1221), after (opsL10 (F := F)) V (Proc.devRef .tc main_v1215)⟩ : RSt F) = vStep V 10 ⟨V (Proc.devRef .tc main_v1110), V (Proc.devRef .tc main_v1104)⟩ := by chain_rfl
theorem layer11 : (⟨after (opsL11 (F := F)) V (Proc.devRef .tc main_v1332), after (opsL11 (F := F)) V (Proc.devRef .tc main_v1326)⟩ : RSt F) = vStep V 11 ⟨V (Proc.devRef .tc main_v1221), V (Proc.devRef .tc main_v1215)⟩ := by chain_rfl
theorem layer12 : (⟨after (opsL12 (F := F)) V (Proc.devRef .tc main_v1443), after (opsL12 (F := F)) V (Proc.devRef .tc main_v1437)⟩ : RSt F) = vStep V 12 ⟨V (Proc.devRef .tc main_v1332), V (Proc.devRef .tc main_v1326)⟩ := by chain_rfl
theorem layer13 : (⟨after (opsL13 (F := F)) V (Proc.devRef .tc main_v1554), after (opsL13 (F := F)) V (Proc.devRef .tc main_v1548)⟩ : RSt F) = vStep V 13 ⟨V (Proc.devRef .tc main_v1443), V (Proc.devRef .tc main_v1437)⟩ := by chain_rfl
theorem layer14 : (⟨after (opsL14 (F := F)) V (Proc.devRef .tc main_v1660), after (opsL14 (F := F)) V (Proc.devRef .tc main_v1659)⟩ : RSt F) = vLast V ⟨V (Proc.devRef .tc main_v1554), V (Proc.devRef .tc main_v1548)⟩ := by chain_rfl

end Layer

theorem keep0 : Keeps (opsL0 (F := F)) := fun V j => by fin_cases j <;> chain_rfl
theorem keep1 : Keeps (opsL1 (F := F)) := fun V j => by fin_cases j <;> chain_rfl
theorem keep2 : Keeps (opsL2 (F := F)) := fun V j => by fin_cases j <;> chain_rfl
theorem keep3 : Keeps (opsL3 (F := F)) := fun V j => by fin_cases j <;> chain_rfl
theorem keep4 : Keeps (opsL4 (F := F)) := fun V j => by fin_cases j <;> chain_rfl
theorem keep5 : Keeps (opsL5 (F := F)) := fun V j => by fin_cases j <;> chain_rfl
theorem keep6 : Keeps (opsL6 (F := F)) := fun V j => by fin_cases j <;> chain_rfl
theorem keep7 : Keeps (opsL7 (F := F)) := fun V j => by fin_cases j <;> chain_rfl
theorem keep8 : Keeps (opsL8 (F := F)) := fun V j => by fin_cases j <;> chain_rfl
theorem keep9 : Keeps (opsL9 (F := F)) := fun V j => by fin_cases j <;> chain_rfl
theorem keep10 : Keeps (opsL10 (F := F)) := fun V j => by fin_cases j <;> chain_rfl
theorem keep11 : Keeps (opsL11 (F := F)) := fun V j => by fin_cases j <;> chain_rfl
theorem keep12 : Keeps (opsL12 (F := F)) := fun V j => by fin_cases j <;> chain_rfl
theorem keep13 : Keeps (opsL13 (F := F)) := fun V j => by fin_cases j <;> chain_rfl
theorem keep14 : Keeps (opsL14 (F := F)) := fun V j => by fin_cases j <;> chain_rfl

/-- The layer functions read only the argument arrays of the contents they are sliced from. -/
theorem vNet_congr {V V0 : Valuation τ sig (Elt F)} (h : ArgsEq V V0) (i : Fin 15) (k : Fin 2) : vNet V i k = vNet V0 i k := by
  unfold vNet
  rw [show V (Proc.devRef .tc main_arg1) = _ from h 1, show V (Proc.devRef .tc main_arg2) = _ from h 2, show V (Proc.devRef .tc main_arg3) = _ from h 3, show V (Proc.devRef .tc main_arg4) = _ from h 4, show V (Proc.devRef .tc main_arg5) = _ from h 5, show V (Proc.devRef .tc main_arg6) = _ from h 6, show V (Proc.devRef .tc main_arg7) = _ from h 7, show V (Proc.devRef .tc main_arg8) = _ from h 8, show V (Proc.devRef .tc main_arg9) = _ from h 9, show V (Proc.devRef .tc main_arg10) = _ from h 10]
  rfl

theorem vStep_congr {V V0 : Valuation τ sig (Elt F)} (h : ArgsEq V V0) (i : Fin 14) (s : RSt F) : vStep V i s = vStep V0 i s := by
  unfold vStep
  rw [vNet_congr h, vNet_congr h, show V (Proc.devRef .tc main_arg11) = _ from h 11]
  rfl

theorem vLast_congr {V V0 : Valuation τ sig (Elt F)} (h : ArgsEq V V0) (s : RSt F) : vLast V s = vLast V0 s := by
  unfold vLast
  rw [vNet_congr h, vNet_congr h]

/-- `V` has the argument arrays of `V0`, and the pair `a` of its buffers is the state `s`. -/
structure At (V0 V : Valuation τ sig (Elt F)) (a s : RSt F) : Prop where
  args : ArgsEq V V0
  st : a = s

theorem At.step {V0 V : Valuation τ sig (Elt F)} {a s a' : RSt F} (h : At V0 V a s) {l : List (HloOp τ sig (Elt F))}
    (hk : Keeps l) (i : Fin 14) (hl : a' = vStep V i a) : At V0 (after l V) a' (vStep V0 i s) :=
  ⟨fun j => (hk V j).trans (h.args j), by rw [hl, h.st, vStep_congr h.args]⟩

theorem At.last {V0 V : Valuation τ sig (Elt F)} {a s a' : RSt F} (h : At V0 V a s) {l : List (HloOp τ sig (Elt F))}
    (hk : Keeps l) (hl : a' = vLast V a) : At V0 (after l V) a' (vLast V0 s) :=
  ⟨fun j => (hk V j).trans (h.args j), by rw [hl, h.st, vLast_congr h.args]⟩

theorem after_byLayer (V0 : Valuation τ sig (Elt F)) : after (opsByLayer (F := F)) V0 =
    after opsL14 (after opsL13 (after opsL12 (after opsL11 (after opsL10 (after opsL9 (after opsL8 (after opsL7 (after opsL6 (after opsL5 (after opsL4 (after opsL3 (after opsL2 (after opsL1 (after opsL0 (V0))))))))))))))) :=
  (StableHlo.after_append opsL0 _ _).trans <|
  (StableHlo.after_append opsL1 _ _).trans <|
  (StableHlo.after_append opsL2 _ _).trans <|
  (StableHlo.after_append opsL3 _ _).trans <|
  (StableHlo.after_append opsL4 _ _).trans <|
  (StableHlo.after_append opsL5 _ _).trans <|
  (StableHlo.after_append opsL6 _ _).trans <|
  (StableHlo.after_append opsL7 _ _).trans <|
  (StableHlo.after_append opsL8 _ _).trans <|
  (StableHlo.after_append opsL9 _ _).trans <|
  (StableHlo.after_append opsL10 _ _).trans <|
  (StableHlo.after_append opsL11 _ _).trans <|
  (StableHlo.after_append opsL12 _ _).trans <|
  (StableHlo.after_append opsL13 _ _).trans <|
  rfl

/-- After all the operations the argument arrays are as launched and the two result buffers hold the final state. -/
theorem byLayer_at (V0 : Valuation τ sig (Elt F)) :
    At V0 (after (opsByLayer (F := F)) V0)
      ⟨after (opsByLayer (F := F)) V0 (Proc.devRef .tc main_v1660), after (opsByLayer (F := F)) V0 (Proc.devRef .tc main_v1659)⟩
      (rFinal (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))) := by
  rw [after_byLayer]
  exact ((((((((((((((((⟨fun _ => rfl, rfl⟩ : At V0 V0 _ _).step keep0 0 (layer0 _)).step keep1 1 (layer1 _)).step keep2 2 (layer2 _)).step keep3 3 (layer3 _)).step keep4 4 (layer4 _)).step keep5 5 (layer5 _)).step keep6 6 (layer6 _)).step keep7 7 (layer7 _)).step keep8 8 (layer8 _)).step keep9 9 (layer9 _)).step keep10 10 (layer10 _)).step keep11 11 (layer11 _)).step keep12 12 (layer12 _)).step keep13 13 (layer13 _)).last keep14 (layer14 _))

end Cert.ReferenceIdeal.RefRun

end
-- ==== Proof.RefMainA.lean ====
/- Windows 0 to 15 of the reference's @main: each is the line of its operations, the functions it calls unfolded at their call sites (both sides are the same steps in the same order). -/
import proofs.«405999_j47631187312975_2_alg».proof.Proof.RefLists
import Idealize.ShloMosaic.Lib.Pipeline.Regions

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq opsW0 := by
  chain_rfl
theorem ck0_0_fresh : (ck0_0 : List (HloOp τ sig (Elt F))).Forall fun op => op.fresh = ∅ := by
  repeat' first | rfl | refine ⟨?_, ?_⟩

theorem main_part1_eq (c : Dev nD) : main_part1 (F := F) c = seq opsW1 := by
  chain_rfl
theorem ck1_0_fresh : (ck1_0 : List (HloOp τ sig (Elt F))).Forall fun op => op.fresh = ∅ := by
  repeat' first | rfl | refine ⟨?_, ?_⟩

theorem main_part2_eq (c : Dev nD) : main_part2 (F := F) c = seq opsW2 := by
  chain_rfl
theorem ck2_0_fresh : (ck2_0 : List (HloOp τ sig (Elt F))).Forall fun op => op.fresh = ∅ := by
  repeat' first | rfl | refine ⟨?_, ?_⟩
theorem ck2_1_fresh : (ck2_1 : List (HloOp τ sig (Elt F))).Forall fun op => op.fresh = ∅ := by
  repeat' first | rfl | refine ⟨?_, ?_⟩

theorem main_part3_eq (c : Dev nD) : main_part3 (F := F) c = seq opsW3 := by
  chain_rfl
theorem ck3_1_fresh : (ck3_1 : List (HloOp τ sig (Elt F))).Forall fun op => op.fresh = ∅ := by
  repeat' first | rfl | refine ⟨?_, ?_⟩

theorem main_part4_eq (c : Dev nD) : main_part4 (F := F) c = seq opsW4 := by
  chain_rfl
theorem ck4_1_fresh : (ck4_1 : List (HloOp τ sig (Elt F))).Forall fun op => op.fresh = ∅ := by
  repeat' first | rfl | refine ⟨?_, ?_⟩
theorem ck4_2_fresh : (ck4_2 : List (HloOp τ sig (Elt F))).Forall fun op => op.fresh = ∅ := by
  repeat' first | rfl | refine ⟨?_, ?_⟩

theorem main_part5_eq (c : Dev nD) : main_part5 (F := F) c = seq opsW5 := by
  chain_rfl
theorem ck5_2_fresh : (ck5_2 : List (HloOp τ sig (Elt F))).Forall fun op => op.fresh = ∅ := by
  repeat' first | rfl | refine ⟨?_, ?_⟩

theorem main_part6_eq (c : Dev nD) : main_part6 (F := F) c = seq opsW6 := by
  chain_rfl
theorem ck6_2_fresh : (ck6_2 : List (HloOp τ sig (Elt F))).Forall fun op => op.fresh = ∅ := by
  repeat' first | rfl | refine ⟨?_, ?_⟩
theorem ck6_3_fresh : (ck6_3 : List (HloOp τ sig (Elt F))).Forall fun op => op.fresh = ∅ := by
  repeat' first | rfl | refine ⟨?_, ?_⟩

theorem main_part7_eq (c : Dev nD) : main_part7 (F := F) c = seq opsW7 := by
  chain_rfl
theorem ck7_3_fresh : (ck7_3 : List (HloOp τ sig (Elt F))).Forall fun op => op.fresh = ∅ := by
  repeat' first | rfl | refine ⟨?_, ?_⟩

theorem main_part8_eq (c : Dev nD) : main_part8 (F := F) c = seq opsW8 := by
  chain_rfl
theorem ck8_3_fresh : (ck8_3 : List (HloOp τ sig (Elt F))).Forall fun op => op.fresh = ∅ := by
  repeat' first | rfl | refine ⟨?_, ?_⟩
theorem ck8_4_fresh : (ck8_4 : List (HloOp τ sig (Elt F))).Forall fun op => op.fresh = ∅ := by
  repeat' first | rfl | refine ⟨?_, ?_⟩

theorem main_part9_eq (c : Dev nD) : main_part9 (F := F) c = seq opsW9 := by
  chain_rfl
theorem ck9_4_fresh : (ck9_4 : List (HloOp τ sig (Elt F))).Forall fun op => op.fresh = ∅ := by
  repeat' first | rfl | refine ⟨?_, ?_⟩

theorem main_part10_eq (c : Dev nD) : main_part10 (F := F) c = seq opsW10 := by
  chain_rfl
theorem ck10_4_fresh : (ck10_4 : List (HloOp τ sig (Elt F))).Forall fun op => op.fresh = ∅ := by
  repeat' first | rfl | refine ⟨?_, ?_⟩
theorem ck10_5_fresh : (ck10_5 : List (HloOp τ sig (Elt F))).Forall fun op => op.fresh = ∅ := by
  repeat' first | rfl | refine ⟨?_, ?_⟩

theorem main_part11_eq (c : Dev nD) : main_part11 (F := F) c = seq opsW11 := by
  chain_rfl
theorem ck11_5_fresh : (ck11_5 : List (HloOp τ sig (Elt F))).Forall fun op => op.fresh = ∅ := by
  repeat' first | rfl | refine ⟨?_, ?_⟩

theorem main_part12_eq (c : Dev nD) : main_part12 (F := F) c = seq opsW12 := by
  chain_rfl
theorem ck12_5_fresh : (ck12_5 : List (HloOp τ sig (Elt F))).Forall fun op => op.fresh = ∅ := by
  repeat' first | rfl | refine ⟨?_, ?_⟩
theorem ck12_6_fresh : (ck12_6 : List (HloOp τ sig (Elt F))).Forall fun op => op.fresh = ∅ := by
  repeat' first | rfl | refine ⟨?_, ?_⟩

theorem main_part13_eq (c : Dev nD) : main_part13 (F := F) c = seq opsW13 := by
  chain_rfl
theorem ck13_6_fresh : (ck13_6 : List (HloOp τ sig (Elt F))).Forall fun op => op.fresh = ∅ := by
  repeat' first | rfl | refine ⟨?_, ?_⟩

theorem main_part14_eq (c : Dev nD) : main_part14 (F := F) c = seq opsW14 := by
  chain_rfl
theorem ck14_6_fresh : (ck14_6 : List (HloOp τ sig (Elt F))).Forall fun op => op.fresh = ∅ := by
  repeat' first | rfl | refine ⟨?_, ?_⟩
theorem ck14_7_fresh : (ck14_7 : List (HloOp τ sig (Elt F))).Forall fun op => op.fresh = ∅ := by
  repeat' first | rfl | refine ⟨?_, ?_⟩

theorem main_part15_eq (c : Dev nD) : main_part15 (F := F) c = seq opsW15 := by
  chain_rfl
theorem ck15_7_fresh : (ck15_7 : List (HloOp τ sig (Elt F))).Forall fun op => op.fresh = ∅ := by
  repeat' first | rfl | refine ⟨?_, ?_⟩

end Cert.ReferenceIdeal.RefRun

end
-- ==== Proof.RefMainB.lean ====
/- Windows 16 to 30 of the reference's @main: each is the line of its operations, the functions it calls unfolded at their call sites (both sides are the same steps in the same order). -/
import proofs.«405999_j47631187312975_2_alg».proof.Proof.RefLists
import Idealize.ShloMosaic.Lib.Pipeline.Regions

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_part16_eq (c : Dev nD) : main_part16 (F := F) c = seq opsW16 := by
  chain_rfl
theorem ck16_7_fresh : (ck16_7 : List (HloOp τ sig (Elt F))).Forall fun op => op.fresh = ∅ := by
  repeat' first | rfl | refine ⟨?_, ?_⟩
theorem ck16_8_fresh : (ck16_8 : List (HloOp τ sig (Elt F))).Forall fun op => op.fresh = ∅ := by
  repeat' first | rfl | refine ⟨?_, ?_⟩

theorem main_part17_eq (c : Dev nD) : main_part17 (F := F) c = seq opsW17 := by
  chain_rfl
theorem ck17_8_fresh : (ck17_8 : List (HloOp τ sig (Elt F))).Forall fun op => op.fresh = ∅ := by
  repeat' first | rfl | refine ⟨?_, ?_⟩

theorem main_part18_eq (c : Dev nD) : main_part18 (F := F) c = seq opsW18 := by
  chain_rfl
theorem ck18_8_fresh : (ck18_8 : List (HloOp τ sig (Elt F))).Forall fun op => op.fresh = ∅ := by
  repeat' first | rfl | refine ⟨?_, ?_⟩
theorem ck18_9_fresh : (ck18_9 : List (HloOp τ sig (Elt F))).Forall fun op => op.fresh = ∅ := by
  repeat' first | rfl | refine ⟨?_, ?_⟩

theorem main_part19_eq (c : Dev nD) : main_part19 (F := F) c = seq opsW19 := by
  chain_rfl
theorem ck19_9_fresh : (ck19_9 : List (HloOp τ sig (Elt F))).Forall fun op => op.fresh = ∅ := by
  repeat' first | rfl | refine ⟨?_, ?_⟩

theorem main_part20_eq (c : Dev nD) : main_part20 (F := F) c = seq opsW20 := by
  chain_rfl
theorem ck20_9_fresh : (ck20_9 : List (HloOp τ sig (Elt F))).Forall fun op => op.fresh = ∅ := by
  repeat' first | rfl | refine ⟨?_, ?_⟩
theorem ck20_10_fresh : (ck20_10 : List (HloOp τ sig (Elt F))).Forall fun op => op.fresh = ∅ := by
  repeat' first | rfl | refine ⟨?_, ?_⟩

theorem main_part21_eq (c : Dev nD) : main_part21 (F := F) c = seq opsW21 := by
  chain_rfl
theorem ck21_10_fresh : (ck21_10 : List (HloOp τ sig (Elt F))).Forall fun op => op.fresh = ∅ := by
  repeat' first | rfl | refine ⟨?_, ?_⟩

theorem main_part22_eq (c : Dev nD) : main_part22 (F := F) c = seq opsW22 := by
  chain_rfl
theorem ck22_10_fresh : (ck22_10 : List (HloOp τ sig (Elt F))).Forall fun op => op.fresh = ∅ := by
  repeat' first | rfl | refine ⟨?_, ?_⟩
theorem ck22_11_fresh : (ck22_11 : List (HloOp τ sig (Elt F))).Forall fun op => op.fresh = ∅ := by
  repeat' first | rfl | refine ⟨?_, ?_⟩

theorem main_part23_eq (c : Dev nD) : main_part23 (F := F) c = seq opsW23 := by
  chain_rfl
theorem ck23_11_fresh : (ck23_11 : List (HloOp τ sig (Elt F))).Forall fun op => op.fresh = ∅ := by
  repeat' first | rfl | refine ⟨?_, ?_⟩

theorem main_part24_eq (c : Dev nD) : main_part24 (F := F) c = seq opsW24 := by
  chain_rfl
theorem ck24_11_fresh : (ck24_11 : List (HloOp τ sig (Elt F))).Forall fun op => op.fresh = ∅ := by
  repeat' first | rfl | refine ⟨?_, ?_⟩
theorem ck24_12_fresh : (ck24_12 : List (HloOp τ sig (Elt F))).Forall fun op => op.fresh = ∅ := by
  repeat' first | rfl | refine ⟨?_, ?_⟩

theorem main_part25_eq (c : Dev nD) : main_part25 (F := F) c = seq opsW25 := by
  chain_rfl
theorem ck25_12_fresh : (ck25_12 : List (HloOp τ sig (Elt F))).Forall fun op => op.fresh = ∅ := by
  repeat' first | rfl | refine ⟨?_, ?_⟩

theorem main_part26_eq (c : Dev nD) : main_part26 (F := F) c = seq opsW26 := by
  chain_rfl
theorem ck26_12_fresh : (ck26_12 : List (HloOp τ sig (Elt F))).Forall fun op => op.fresh = ∅ := by
  repeat' first | rfl | refine ⟨?_, ?_⟩
theorem ck26_13_fresh : (ck26_13 : List (HloOp τ sig (Elt F))).Forall fun op => op.fresh = ∅ := by
  repeat' first | rfl | refine ⟨?_, ?_⟩

theorem main_part27_eq (c : Dev nD) : main_part27 (F := F) c = seq opsW27 := by
  chain_rfl
theorem ck27_13_fresh : (ck27_13 : List (HloOp τ sig (Elt F))).Forall fun op => op.fresh = ∅ := by
  repeat' first | rfl | refine ⟨?_, ?_⟩

theorem main_part28_eq (c : Dev nD) : main_part28 (F := F) c = seq opsW28 := by
  chain_rfl
theorem ck28_13_fresh : (ck28_13 : List (HloOp τ sig (Elt F))).Forall fun op => op.fresh = ∅ := by
  repeat' first | rfl | refine ⟨?_, ?_⟩
theorem ck28_14_fresh : (ck28_14 : List (HloOp τ sig (Elt F))).Forall fun op => op.fresh = ∅ := by
  repeat' first | rfl | refine ⟨?_, ?_⟩

theorem main_part29_eq (c : Dev nD) : main_part29 (F := F) c = seq opsW29 := by
  chain_rfl
theorem ck29_14_fresh : (ck29_14 : List (HloOp τ sig (Elt F))).Forall fun op => op.fresh = ∅ := by
  repeat' first | rfl | refine ⟨?_, ?_⟩

theorem main_part30_eq (c : Dev nD) : main_part30 (F := F) c = seq opsW30 := by
  chain_rfl
theorem ck30_14_fresh : (ck30_14 : List (HloOp τ sig (Elt F))).Forall fun op => op.fresh = ∅ := by
  repeat' first | rfl | refine ⟨?_, ?_⟩

end Cert.ReferenceIdeal.RefRun

end
-- ==== Proof.RefMain.lean ====
/- The reference's @main is the straight line of its operations: the windows run one after the other are the whole list run as one, so every weakly fair execution ends with each buffer at the operations' fold over the launch memory. -/
import proofs.«405999_j47631187312975_2_alg».proof.Proof.RefMainA
import proofs.«405999_j47631187312975_2_alg».proof.Proof.RefMainB

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops_fresh : ∀ op ∈ (ops : List (HloOp τ sig (Elt F))), op.fresh = ∅ :=
  List.forall_iff_forall_mem.mp (forall_app ck0_0_fresh (forall_app ck1_0_fresh (forall_app (forall_app ck2_0_fresh ck2_1_fresh) (forall_app ck3_1_fresh (forall_app (forall_app ck4_1_fresh ck4_2_fresh) (forall_app ck5_2_fresh (forall_app (forall_app ck6_2_fresh ck6_3_fresh) (forall_app ck7_3_fresh (forall_app (forall_app ck8_3_fresh ck8_4_fresh) (forall_app ck9_4_fresh (forall_app (forall_app ck10_4_fresh ck10_5_fresh) (forall_app ck11_5_fresh (forall_app (forall_app ck12_5_fresh ck12_6_fresh) (forall_app ck13_6_fresh (forall_app (forall_app ck14_6_fresh ck14_7_fresh) (forall_app ck15_7_fresh (forall_app (forall_app ck16_7_fresh ck16_8_fresh) (forall_app ck17_8_fresh (forall_app (forall_app ck18_8_fresh ck18_9_fresh) (forall_app ck19_9_fresh (forall_app (forall_app ck20_9_fresh ck20_10_fresh) (forall_app ck21_10_fresh (forall_app (forall_app ck22_10_fresh ck22_11_fresh) (forall_app ck23_11_fresh (forall_app (forall_app ck24_11_fresh ck24_12_fresh) (forall_app ck25_12_fresh (forall_app (forall_app ck26_12_fresh ck26_13_fresh) (forall_app ck27_13_fresh (forall_app (forall_app ck28_13_fresh ck28_14_fresh) (forall_app ck29_14_fresh (ck30_14_fresh)))))))))))))))))))))))))))))))

theorem main_eq (c : Dev nD) : main (F := F) c = seq ops := by
  rw [seq_append opsW0, seq_append opsW1, seq_append opsW2, seq_append opsW3, seq_append opsW4, seq_append opsW5, seq_append opsW6, seq_append opsW7, seq_append opsW8, seq_append opsW9, seq_append opsW10, seq_append opsW11, seq_append opsW12, seq_append opsW13, seq_append opsW14, seq_append opsW15, seq_append opsW16, seq_append opsW17, seq_append opsW18, seq_append opsW19, seq_append opsW20, seq_append opsW21, seq_append opsW22, seq_append opsW23, seq_append opsW24, seq_append opsW25, seq_append opsW26, seq_append opsW27, seq_append opsW28, seq_append opsW29]
  rw [← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c, ← main_part18_eq c, ← main_part19_eq c, ← main_part20_eq c, ← main_part21_eq c, ← main_part22_eq c, ← main_part23_eq c, ← main_part24_eq c, ← main_part25_eq c, ← main_part26_eq c, ← main_part27_eq c, ← main_part28_eq c, ← main_part29_eq c, ← main_part30_eq c]
  rfl

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefValue1.lean ====
/-
  The reference's layer functions read at batch row r over the extended reals: every hidden tensor's row is the
  scalar net's layer at the row's value, and a net on the first column is the scalar net with the sliced weights.
-/
import proofs.«405999_j47631187312975_2_alg».proof.Proof.RefDefs
import proofs.«405999_j47631187312975_2_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

namespace Cert.ReferenceIdeal.RefRun

open Cert.ReferenceIdeal Cert.ReferenceIdeal.Gen Idealize.ShloMosaic Idealize.ShloMosaic.ValueIdx Idealize.SL.Sem

theorem cast_118_8_apply {α : Type} (x : S1x1x8.Idx → α) (j : Fin 8) :
    shapeCast S8 x shapeCasts_S1x1x8_S8 (ix1 j) = x (ix3 (0 : Fin 1) (0 : Fin 1) j) :=
  shapeCast_apply x _ _ _ (by
    rw [Shape.rowMajor_val_three, Shape.rowMajor_val_one]
    show (0 * 1 + 0) * 8 + j.val = j.val
    omega)

theorem cast_1181_81_apply {α : Type} (x : S1x1x8x1.Idx → α) (j : Fin 8) (u : Fin 1) :
    shapeCast S8x1 x shapeCasts_S1x1x8x1_S8x1 (ix2 j u) = x (ix4 (0 : Fin 1) (0 : Fin 1) j (0 : Fin 1)) :=
  shapeCast_apply x _ _ _ (by
    have hu : u.val = 0 := by omega
    rw [Shape.rowMajor_val_four, Shape.rowMajor_val_two]
    show ((0 * 1 + 0) * 8 + j.val) * 1 + 0 = j.val * 1 + u.val
    omega)

theorem cast_1188_88_apply {α : Type} (x : S1x1x8x8.Idx → α) (j k : Fin 8) :
    shapeCast S8x8 x shapeCasts_S1x1x8x8_S8x8 (ix2 j k) = x (ix4 (0 : Fin 1) (0 : Fin 1) j k) :=
  shapeCast_apply x _ _ _ (by
    rw [Shape.rowMajor_val_four, Shape.rowMajor_val_two]
    show ((0 * 1 + 0) * 8 + j.val) * 8 + k.val = j.val * 8 + k.val
    omega)

theorem cast_1118_18_apply {α : Type} (x : S1x1x1x8.Idx → α) (u : Fin 1) (k : Fin 8) :
    shapeCast S1x8 x shapeCasts_S1x1x1x8_S1x8 (ix2 u k) = x (ix4 (0 : Fin 1) (0 : Fin 1) (0 : Fin 1) k) :=
  shapeCast_apply x _ _ _ (by
    have hu : u.val = 0 := by omega
    rw [Shape.rowMajor_val_four, Shape.rowMajor_val_two]
    show ((0 * 1 + 0) * 1 + 0) * 8 + k.val = u.val * 8 + k.val
    omega)

theorem tr_w0_apply {α : Type} (x : S1x1x8x1.Idx → α) (u : Fin 1) (j : Fin 8) :
    transpose S1x8 [1, 0] (shapeCast S8x1 x shapeCasts_S1x1x8x1_S8x1) transposes_S8x1_S1x8_1_0 (ix2 u j)
      = x (ix4 (0 : Fin 1) (0 : Fin 1) j (0 : Fin 1)) := by
  rw [transpose_apply [1, 0] _ transposes_S8x1_S1x8_1_0 (ix2 u j) (ix2 j u) (fun b => by
    match b with
    | ⟨0, _⟩ => rfl
    | ⟨1, _⟩ => rfl)]
  exact cast_1181_81_apply x j u

theorem tr_w_apply {α : Type} (x : S1x1x8x8.Idx → α) (k j : Fin 8) :
    transpose S8x8 [1, 0] (shapeCast S8x8 x shapeCasts_S1x1x8x8_S8x8) transposes_S8x8_S8x8_1_0 (ix2 k j)
      = x (ix4 (0 : Fin 1) (0 : Fin 1) j k) := by
  rw [transpose_apply [1, 0] _ transposes_S8x8_S8x8_1_0 (ix2 k j) (ix2 j k) (fun b => by
    match b with
    | ⟨0, _⟩ => rfl
    | ⟨1, _⟩ => rfl)]
  exact cast_1188_88_apply x j k

theorem tr_w4_apply {α : Type} (x : S1x1x1x8.Idx → α) (k : Fin 8) (u : Fin 1) :
    transpose S8x1 [1, 0] (shapeCast S1x8 x shapeCasts_S1x1x1x8_S1x8) transposes_S1x8_S8x1_1_0 (ix2 k u)
      = x (ix4 (0 : Fin 1) (0 : Fin 1) (0 : Fin 1) k) := by
  rw [transpose_apply [1, 0] _ transposes_S1x8_S8x1_1_0 (ix2 k u) (ix2 u k) (fun b => by
    match b with
    | ⟨0, _⟩ => rfl
    | ⟨1, _⟩ => rfl)]
  exact cast_1118_18_apply x u k

theorem rAct_apply (a : FVec Ideal S524288x8 .f32) (r : Fin 524288) (j : Fin 8) :
    rAct a (ix2 r j) = Cert.Flow.act (a (ix2 r j)) := rfl

theorem rBias_apply (b : FVec Ideal S1x1x8 .f32) (r : Fin 524288) (j : Fin 8) :
    rBias b (ix2 r j) = b (ix3 (0 : Fin 1) (0 : Fin 1) j) := by
  unfold rBias
  rw [broadcastInDim_apply ![0, 1] bcast_S1x8_S524288x8_0_1 _ (ix2 r j) (ix2 (0 : Fin 1) j) (fun a => by
    match a with
    | ⟨0, _⟩ => rfl
    | ⟨1, _⟩ => rfl)]
  rw [broadcastInDim_apply ![1] bcast_S8_S1x8_1 _ (ix2 (0 : Fin 1) j) (ix1 j) (fun a => by
    match a with
    | ⟨0, _⟩ => rfl)]
  exact cast_118_8_apply b j

theorem bias4_apply (b4 : FVec Ideal S1x1x1 .f32) (r : Fin 524288) (u : Fin 1) :
    broadcastInDim S524288x1 ![0, 1] bcast_S1x1_S524288x1_0_1 (broadcastInDim S1x1 ![1] bcast_S1_S1x1_1 (shapeCast S1 b4 shapeCasts_S1x1x1_S1)) (ix2 r u)
      = b4 (ix3 (0 : Fin 1) (0 : Fin 1) (0 : Fin 1)) := by
  rw [broadcastInDim_apply ![0, 1] bcast_S1x1_S524288x1_0_1 _ (ix2 r u) (ix2 (0 : Fin 1) (0 : Fin 1)) (fun a => by
    match a with
    | ⟨0, _⟩ => rfl
    | ⟨1, _⟩ => rfl)]
  rw [broadcastInDim_apply ![1] bcast_S1_S1x1_1 _ (ix2 (0 : Fin 1) (0 : Fin 1)) (ix1 (0 : Fin 1)) (fun a => by
    match a with
    | ⟨0, _⟩ => rfl)]
  exact shapeCast_apply _ _ _ _ (by rw [Shape.rowMajor_val_three, Shape.rowMajor_val_one]; rfl)

theorem lhs_first_0 (i : S524288x8.Idx) (q : dot_S524288x1_S1x8_S524288x8_1_0_0_1_n_n.contr.Idx) :
    (dot_S524288x1_S1x8_S524288x8_1_0_0_1_n_n.lhsIdx i q 0).val = (i 0).val := by
  unfold DotDims.lhsIdx
  rw [dif_neg (show ¬(0 : Fin S524288x1.rank) ∈ dot_S524288x1_S1x8_S524288x8_1_0_0_1_n_n.lhsBatch by decide), dif_pos (show (0 : Fin S524288x1.rank) ∈ dot_S524288x1_S1x8_S524288x8_1_0_0_1_n_n.lhsNonContracting by decide)]
  rfl
theorem lhs_first_1 (i : S524288x8.Idx) (q : dot_S524288x1_S1x8_S524288x8_1_0_0_1_n_n.contr.Idx) :
    (dot_S524288x1_S1x8_S524288x8_1_0_0_1_n_n.lhsIdx i q 1).val = (q ⟨0, by decide⟩).val :=
  dot_S524288x1_S1x8_S524288x8_1_0_0_1_n_n.lhsIdx_val_of_single rfl i q
theorem rhs_first_0 (i : S524288x8.Idx) (q : dot_S524288x1_S1x8_S524288x8_1_0_0_1_n_n.contr.Idx) :
    (dot_S524288x1_S1x8_S524288x8_1_0_0_1_n_n.rhsIdx i q 0).val = (q ⟨0, by decide⟩).val :=
  dot_S524288x1_S1x8_S524288x8_1_0_0_1_n_n.rhsIdx_val_of_single rfl i q
theorem rhs_first_1 (i : S524288x8.Idx) (q : dot_S524288x1_S1x8_S524288x8_1_0_0_1_n_n.contr.Idx) :
    (dot_S524288x1_S1x8_S524288x8_1_0_0_1_n_n.rhsIdx i q 1).val = (i 1).val := by
  unfold DotDims.rhsIdx
  rw [dif_neg (show ¬(1 : Fin S1x8.rank) ∈ dot_S524288x1_S1x8_S524288x8_1_0_0_1_n_n.rhsBatch by decide), dif_pos (show (1 : Fin S1x8.rank) ∈ dot_S524288x1_S1x8_S524288x8_1_0_0_1_n_n.rhsNonContracting by decide)]
  rfl

theorem lhs_hid_0 (i : S524288x8.Idx) (q : dot_S524288x8_S8x8_S524288x8_1_0_0_1_n_n.contr.Idx) :
    (dot_S524288x8_S8x8_S524288x8_1_0_0_1_n_n.lhsIdx i q 0).val = (i 0).val := by
  unfold DotDims.lhsIdx
  rw [dif_neg (show ¬(0 : Fin S524288x8.rank) ∈ dot_S524288x8_S8x8_S524288x8_1_0_0_1_n_n.lhsBatch by decide), dif_pos (show (0 : Fin S524288x8.rank) ∈ dot_S524288x8_S8x8_S524288x8_1_0_0_1_n_n.lhsNonContracting by decide)]
  rfl
theorem lhs_hid_1 (i : S524288x8.Idx) (q : dot_S524288x8_S8x8_S524288x8_1_0_0_1_n_n.contr.Idx) :
    (dot_S524288x8_S8x8_S524288x8_1_0_0_1_n_n.lhsIdx i q 1).val = (q ⟨0, by decide⟩).val :=
  dot_S524288x8_S8x8_S524288x8_1_0_0_1_n_n.lhsIdx_val_of_single rfl i q
theorem rhs_hid_0 (i : S524288x8.Idx) (q : dot_S524288x8_S8x8_S524288x8_1_0_0_1_n_n.contr.Idx) :
    (dot_S524288x8_S8x8_S524288x8_1_0_0_1_n_n.rhsIdx i q 0).val = (q ⟨0, by decide⟩).val :=
  dot_S524288x8_S8x8_S524288x8_1_0_0_1_n_n.rhsIdx_val_of_single rfl i q
theorem rhs_hid_1 (i : S524288x8.Idx) (q : dot_S524288x8_S8x8_S524288x8_1_0_0_1_n_n.contr.Idx) :
    (dot_S524288x8_S8x8_S524288x8_1_0_0_1_n_n.rhsIdx i q 1).val = (i 1).val := by
  unfold DotDims.rhsIdx
  rw [dif_neg (show ¬(1 : Fin S8x8.rank) ∈ dot_S524288x8_S8x8_S524288x8_1_0_0_1_n_n.rhsBatch by decide), dif_pos (show (1 : Fin S8x8.rank) ∈ dot_S524288x8_S8x8_S524288x8_1_0_0_1_n_n.rhsNonContracting by decide)]
  rfl

theorem lhs_out_0 (i : S524288x1.Idx) (q : dot_S524288x8_S8x1_S524288x1_1_0_0_1_n_n.contr.Idx) :
    (dot_S524288x8_S8x1_S524288x1_1_0_0_1_n_n.lhsIdx i q 0).val = (i 0).val := by
  unfold DotDims.lhsIdx
  rw [dif_neg (show ¬(0 : Fin S524288x8.rank) ∈ dot_S524288x8_S8x1_S524288x1_1_0_0_1_n_n.lhsBatch by decide), dif_pos (show (0 : Fin S524288x8.rank) ∈ dot_S524288x8_S8x1_S524288x1_1_0_0_1_n_n.lhsNonContracting by decide)]
  rfl
theorem lhs_out_1 (i : S524288x1.Idx) (q : dot_S524288x8_S8x1_S524288x1_1_0_0_1_n_n.contr.Idx) :
    (dot_S524288x8_S8x1_S524288x1_1_0_0_1_n_n.lhsIdx i q 1).val = (q ⟨0, by decide⟩).val :=
  dot_S524288x8_S8x1_S524288x1_1_0_0_1_n_n.lhsIdx_val_of_single rfl i q
theorem rhs_out_0 (i : S524288x1.Idx) (q : dot_S524288x8_S8x1_S524288x1_1_0_0_1_n_n.contr.Idx) :
    (dot_S524288x8_S8x1_S524288x1_1_0_0_1_n_n.rhsIdx i q 0).val = (q ⟨0, by decide⟩).val :=
  dot_S524288x8_S8x1_S524288x1_1_0_0_1_n_n.rhsIdx_val_of_single rfl i q
theorem rhs_out_1 (i : S524288x1.Idx) (q : dot_S524288x8_S8x1_S524288x1_1_0_0_1_n_n.contr.Idx) :
    (dot_S524288x8_S8x1_S524288x1_1_0_0_1_n_n.rhsIdx i q 1).val = (i 1).val := by
  unfold DotDims.rhsIdx
  rw [dif_neg (show ¬(1 : Fin S8x1.rank) ∈ dot_S524288x8_S8x1_S524288x1_1_0_0_1_n_n.rhsBatch by decide), dif_pos (show (1 : Fin S8x1.rank) ∈ dot_S524288x8_S8x1_S524288x1_1_0_0_1_n_n.rhsNonContracting by decide)]
  rfl

theorem dot_first_apply (x : FVec Ideal S524288x1 .f32) (w : FVec Ideal S1x8 .f32) (r : Fin 524288) (c : Fin 8) :
    Host.dotGeneral dot_S524288x1_S1x8_S524288x8_1_0_0_1_n_n none x w (ix2 r c) = ∑ k : Fin 1, x (ix2 r k) * w (ix2 k c) := by
  show FloatOps.dotGeneral dot_S524288x1_S1x8_S524288x8_1_0_0_1_n_n none .single x w (ix2 r c) = _
  rw [Ideal.dotGeneral_apply, ← Equiv.sum_comp (contrEquiv1 dot_S524288x1_S1x8_S524288x8_1_0_0_1_n_n 1 rfl rfl).symm]
  refine Finset.sum_congr rfl fun k _ => ?_
  have hk := contrEquiv1_symm_val dot_S524288x1_S1x8_S524288x8_1_0_0_1_n_n 1 rfl rfl k
  have el : dot_S524288x1_S1x8_S524288x8_1_0_0_1_n_n.lhsIdx (ix2 r c) ((contrEquiv1 dot_S524288x1_S1x8_S524288x8_1_0_0_1_n_n 1 rfl rfl).symm k) = ix2 r k := funext fun a => Fin.ext (by
    match a with
    | ⟨0, _⟩ => exact lhs_first_0 _ _
    | ⟨1, _⟩ => exact (lhs_first_1 _ _).trans hk)
  have er : dot_S524288x1_S1x8_S524288x8_1_0_0_1_n_n.rhsIdx (ix2 r c) ((contrEquiv1 dot_S524288x1_S1x8_S524288x8_1_0_0_1_n_n 1 rfl rfl).symm k) = ix2 k c := funext fun a => Fin.ext (by
    match a with
    | ⟨0, _⟩ => exact (rhs_first_0 _ _).trans hk
    | ⟨1, _⟩ => exact rhs_first_1 _ _)
  rw [el, er]

theorem dot_hid_apply (x : FVec Ideal S524288x8 .f32) (w : FVec Ideal S8x8 .f32) (r : Fin 524288) (c : Fin 8) :
    Host.dotGeneral dot_S524288x8_S8x8_S524288x8_1_0_0_1_n_n none x w (ix2 r c) = ∑ k : Fin 8, x (ix2 r k) * w (ix2 k c) := by
  show FloatOps.dotGeneral dot_S524288x8_S8x8_S524288x8_1_0_0_1_n_n none .single x w (ix2 r c) = _
  rw [Ideal.dotGeneral_apply, ← Equiv.sum_comp (contrEquiv1 dot_S524288x8_S8x8_S524288x8_1_0_0_1_n_n 8 rfl rfl).symm]
  refine Finset.sum_congr rfl fun k _ => ?_
  have hk := contrEquiv1_symm_val dot_S524288x8_S8x8_S524288x8_1_0_0_1_n_n 8 rfl rfl k
  have el : dot_S524288x8_S8x8_S524288x8_1_0_0_1_n_n.lhsIdx (ix2 r c) ((contrEquiv1 dot_S524288x8_S8x8_S524288x8_1_0_0_1_n_n 8 rfl rfl).symm k) = ix2 r k := funext fun a => Fin.ext (by
    match a with
    | ⟨0, _⟩ => exact lhs_hid_0 _ _
    | ⟨1, _⟩ => exact (lhs_hid_1 _ _).trans hk)
  have er : dot_S524288x8_S8x8_S524288x8_1_0_0_1_n_n.rhsIdx (ix2 r c) ((contrEquiv1 dot_S524288x8_S8x8_S524288x8_1_0_0_1_n_n 8 rfl rfl).symm k) = ix2 k c := funext fun a => Fin.ext (by
    match a with
    | ⟨0, _⟩ => exact (rhs_hid_0 _ _).trans hk
    | ⟨1, _⟩ => exact rhs_hid_1 _ _)
  rw [el, er]

theorem dot_out_apply (x : FVec Ideal S524288x8 .f32) (w : FVec Ideal S8x1 .f32) (r : Fin 524288) (c : Fin 1) :
    Host.dotGeneral dot_S524288x8_S8x1_S524288x1_1_0_0_1_n_n none x w (ix2 r c) = ∑ k : Fin 8, x (ix2 r k) * w (ix2 k c) := by
  show FloatOps.dotGeneral dot_S524288x8_S8x1_S524288x1_1_0_0_1_n_n none .single x w (ix2 r c) = _
  rw [Ideal.dotGeneral_apply, ← Equiv.sum_comp (contrEquiv1 dot_S524288x8_S8x1_S524288x1_1_0_0_1_n_n 8 rfl rfl).symm]
  refine Finset.sum_congr rfl fun k _ => ?_
  have hk := contrEquiv1_symm_val dot_S524288x8_S8x1_S524288x1_1_0_0_1_n_n 8 rfl rfl k
  have el : dot_S524288x8_S8x1_S524288x1_1_0_0_1_n_n.lhsIdx (ix2 r c) ((contrEquiv1 dot_S524288x8_S8x1_S524288x1_1_0_0_1_n_n 8 rfl rfl).symm k) = ix2 r k := funext fun a => Fin.ext (by
    match a with
    | ⟨0, _⟩ => exact lhs_out_0 _ _
    | ⟨1, _⟩ => exact (lhs_out_1 _ _).trans hk)
  have er : dot_S524288x8_S8x1_S524288x1_1_0_0_1_n_n.rhsIdx (ix2 r c) ((contrEquiv1 dot_S524288x8_S8x1_S524288x1_1_0_0_1_n_n 8 rfl rfl).symm k) = ix2 k c := funext fun a => Fin.ext (by
    match a with
    | ⟨0, _⟩ => exact (rhs_out_0 _ _).trans hk
    | ⟨1, _⟩ => exact rhs_out_1 _ _)
  rw [el, er]

def row (h : FVec Ideal S524288x8 .f32) (r : Fin 524288) : Fin 8 → EReal := fun k => h (ix2 r k)

def netOfR (n : RNet Ideal) : Cert.Flow.Net where
  w0 := fun j => n.w0 (ix4 (0 : Fin 1) (0 : Fin 1) j (0 : Fin 1))
  b0 := fun j => n.b0 (ix3 (0 : Fin 1) (0 : Fin 1) j)
  w1 := fun j k => n.w1 (ix4 (0 : Fin 1) (0 : Fin 1) j k)
  b1 := fun j => n.b1 (ix3 (0 : Fin 1) (0 : Fin 1) j)
  w2 := fun j k => n.w2 (ix4 (0 : Fin 1) (0 : Fin 1) j k)
  b2 := fun j => n.b2 (ix3 (0 : Fin 1) (0 : Fin 1) j)
  w3 := fun j k => n.w3 (ix4 (0 : Fin 1) (0 : Fin 1) j k)
  b3 := fun j => n.b3 (ix3 (0 : Fin 1) (0 : Fin 1) j)
  w4 := fun k => n.w4 (ix4 (0 : Fin 1) (0 : Fin 1) (0 : Fin 1) k)
  b4 := n.b4 (ix3 (0 : Fin 1) (0 : Fin 1) (0 : Fin 1))

theorem rFirst_apply (w0 : FVec Ideal S1x1x8x1 .f32) (b0 : FVec Ideal S1x1x8 .f32) (xI : FVec Ideal S524288x1 .f32)
    (r : Fin 524288) (j : Fin 8) :
    rFirst w0 b0 xI (ix2 r j)
      = Cert.Flow.act (w0 (ix4 (0 : Fin 1) (0 : Fin 1) j (0 : Fin 1)) * xI (ix2 r (0 : Fin 1)) + b0 (ix3 (0 : Fin 1) (0 : Fin 1) j)) := by
  unfold rFirst
  rw [rAct_apply, addf_apply, dot_first_apply, rBias_apply, Fin.sum_univ_one, tr_w0_apply,
    mul_comm (xI (ix2 r (0 : Fin 1)))]

theorem rFirst_row (n : RNet Ideal) (xI : FVec Ideal S524288x1 .f32) (r : Fin 524288) :
    row (rFirst n.w0 n.b0 xI) r = Cert.Flow.first (netOfR n) (xI (ix2 r (0 : Fin 1))) :=
  funext fun j => rFirst_apply n.w0 n.b0 xI r j

theorem rHid_apply (w : FVec Ideal S1x1x8x8 .f32) (b : FVec Ideal S1x1x8 .f32) (h : FVec Ideal S524288x8 .f32)
    (r : Fin 524288) (j : Fin 8) :
    rHid w b h (ix2 r j)
      = Cert.Flow.hid (fun j k => w (ix4 (0 : Fin 1) (0 : Fin 1) j k)) (fun j => b (ix3 (0 : Fin 1) (0 : Fin 1) j)) (row h r) j := by
  unfold rHid
  rw [rAct_apply, addf_apply, dot_hid_apply, rBias_apply]
  have e : (∑ k : Fin 8, h (ix2 r k)
        * transpose S8x8 [1, 0] (shapeCast S8x8 w shapeCasts_S1x1x8x8_S8x8) transposes_S8x8_S8x8_1_0 (ix2 k j))
      = ∑ k : Fin 8, w (ix4 (0 : Fin 1) (0 : Fin 1) j k) * row h r k :=
    Finset.sum_congr rfl fun k _ => by rw [tr_w_apply, mul_comm]; rfl
  rw [e]
  rfl

theorem rHid_row (w : FVec Ideal S1x1x8x8 .f32) (b : FVec Ideal S1x1x8 .f32) (h : FVec Ideal S524288x8 .f32) (r : Fin 524288) :
    row (rHid w b h) r
      = Cert.Flow.hid (fun j k => w (ix4 (0 : Fin 1) (0 : Fin 1) j k)) (fun j => b (ix3 (0 : Fin 1) (0 : Fin 1) j)) (row h r) :=
  funext fun j => rHid_apply w b h r j

theorem rOut_apply (w4 : FVec Ideal S1x1x1x8 .f32) (b4 : FVec Ideal S1x1x1 .f32) (h : FVec Ideal S524288x8 .f32)
    (r : Fin 524288) (u : Fin 1) :
    rOut w4 b4 h (ix2 r u)
      = (∑ k : Fin 8, w4 (ix4 (0 : Fin 1) (0 : Fin 1) (0 : Fin 1) k) * row h r k) + b4 (ix3 (0 : Fin 1) (0 : Fin 1) (0 : Fin 1)) := by
  unfold rOut
  rw [addf_apply, dot_out_apply, bias4_apply]
  have e : (∑ k : Fin 8, h (ix2 r k)
        * transpose S8x1 [1, 0] (shapeCast S1x8 w4 shapeCasts_S1x1x1x8_S1x8) transposes_S1x8_S8x1_1_0 (ix2 k u))
      = ∑ k : Fin 8, w4 (ix4 (0 : Fin 1) (0 : Fin 1) (0 : Fin 1) k) * row h r k :=
    Finset.sum_congr rfl fun k _ => by rw [tr_w4_apply, mul_comm]; rfl
  rw [e]

theorem rMlp_apply (n : RNet Ideal) (xI : FVec Ideal S524288x1 .f32) (r : Fin 524288) (u : Fin 1) :
    rMlp n xI (ix2 r u) = Cert.Flow.mlp (netOfR n) (xI (ix2 r (0 : Fin 1))) := by
  unfold rMlp
  rw [rOut_apply, rHid_row, rHid_row, rHid_row, rFirst_row]
  rfl

end Cert.ReferenceIdeal.RefRun

end
-- ==== Proof.RefValue.lean ====
/-
  Row by row, a layer with its conditional reversal is the scalar layer with its conditional exchange, and the sliced
  weights are the rows of the parameter arrays; so the state after fifteen layers is the flow's run from the row's inputs.
-/
import proofs.«405999_j47631187312975_2_alg».proof.Proof.RefValue1
import Idealize.ShloMosaic.Lib.IdealHost

set_option maxRecDepth 16384

noncomputable section

namespace Cert.ReferenceIdeal.RefRun

open Cert.ReferenceIdeal Cert.ReferenceIdeal.Gen Idealize.ShloMosaic Idealize.ShloMosaic.ValueIdx Idealize.SL.Sem

theorem rXI_apply (x : FVec Ideal S524288x2 .f32) (r : Fin 524288) (u : Fin 1) :
    rXI x (ix2 r u) = x (ix2 r (0 : Fin 2)) :=
  slice2_axis1_apply 0 x _ r u (0 : Fin 2) (by have := u.isLt; show 0 = 0 + u.val; omega)

theorem rXII_apply (x : FVec Ideal S524288x2 .f32) (r : Fin 524288) (u : Fin 1) :
    rXII x (ix2 r u) = x (ix2 r (1 : Fin 2)) :=
  slice2_axis1_apply 1 x _ r u (1 : Fin 2) (by have := u.isLt; show 1 = 1 + u.val; omega)

def toStR (st : RSt Ideal) (r : Fin 524288) : Cert.Flow.St :=
  ⟨st.x (ix2 r (0 : Fin 2)), st.x (ix2 r (1 : Fin 2)), st.ld (ix1 r)⟩

theorem rY_apply (s t : RNet Ideal) (st : RSt Ideal) (r : Fin 524288) (u : Fin 1) :
    rY s t st.x (ix2 r u) = Cert.Flow.yOf (netOfR s) (netOfR t) (toStR st r) := by
  show Ideal.exp (rMlp s (rXI st.x) (ix2 r u)) * rXII st.x (ix2 r u) + rMlp t (rXI st.x) (ix2 r u) = _
  rw [rMlp_apply, rMlp_apply, rXI_apply, rXII_apply]
  rfl

theorem rCat_apply0 (s t : RNet Ideal) (st : RSt Ideal) (r : Fin 524288) :
    rCat s t st.x (ix2 r (0 : Fin 2)) = (toStR st r).xI := by
  unfold rCat
  rw [concatenate_pair_apply_left (1 : Fin S524288x2.rank) _ _ concatenates_S524288x1_S524288x1_S524288x2_d1
    (ix2 r (0 : Fin 2)) rfl (ix2 r (0 : Fin 1)) (fun b => by
      match b with
      | ⟨0, _⟩ => rfl
      | ⟨1, _⟩ => rfl)]
  exact rXI_apply st.x r 0

theorem rCat_apply1 (s t : RNet Ideal) (st : RSt Ideal) (r : Fin 524288) :
    rCat s t st.x (ix2 r (1 : Fin 2)) = Cert.Flow.yOf (netOfR s) (netOfR t) (toStR st r) := by
  unfold rCat
  rw [concatenate_pair_apply_right (1 : Fin S524288x2.rank) _ _ concatenates_S524288x1_S524288x1_S524288x2_d1
    (ix2 r (1 : Fin 2)) rfl rfl (ix2 r (0 : Fin 1)) (fun b hb => by
      match b with
      | ⟨0, _⟩ => rfl
      | ⟨1, _⟩ => exact absurd rfl hb) rfl]
  exact rY_apply s t st r 0

theorem reduces_col : S524288x1.Reduces [1] S524288 := by decide

theorem rLd_apply (s : RNet Ideal) (st : RSt Ideal) (r : Fin 524288) :
    rLd s st (ix1 r) = (toStR st r).ld + Cert.Flow.mlp (netOfR s) (toStR st r).xI := by
  unfold rLd
  rw [addf_apply, hostReduceAdd_apply, Ideal.hostReduceAdd_single reducesTo_S524288x1_S524288_d1 reduces_col]
  have e : (∑ k : Fin (S524288x1.size 1), rMlp s (rXI st.x) (reduces_col.lift (ix1 r) k))
      = rMlp s (rXI st.x) (ix2 r (0 : Fin 1)) := by
    refine (Fin.sum_univ_one (fun k : Fin 1 => rMlp s (rXI st.x) (reduces_col.lift (ix1 r) k))).trans ?_
    refine congrArg _ (funext fun c => Fin.ext ?_)
    match c with
    | ⟨0, _⟩ => rfl
    | ⟨1, _⟩ => rfl
  rw [e, rMlp_apply, rXI_apply]
  show st.ld (ix1 r) + (Ideal.ofBits .f32 0x00000000#32 + _) = _
  rw [Ideal.ofBits_zero_f32, zero_add]
  rfl

theorem reverse_apply0 (x : FVec Ideal S524288x2 .f32) (r : Fin 524288) :
    Host.reverse [1] x (ix2 r (0 : Fin 2)) = x (ix2 r (1 : Fin 2)) := by
  unfold Host.reverse
  refine congrArg x (funext fun a => ?_)
  match a with
  | ⟨0, _⟩ => rfl
  | ⟨1, _⟩ => rfl

theorem reverse_apply1 (x : FVec Ideal S524288x2 .f32) (r : Fin 524288) :
    Host.reverse [1] x (ix2 r (1 : Fin 2)) = x (ix2 r (0 : Fin 2)) := by
  unfold Host.reverse
  refine congrArg x (funext fun a => ?_)
  match a with
  | ⟨0, _⟩ => rfl
  | ⟨1, _⟩ => rfl

theorem swPred_apply (w : IVec S1 32) (r : Fin 524288) (c : Fin 2) :
    broadcastInDim S524288x2 ![] bcast_S_S524288x2 (cmpi .sgt (shapeCast S_ w shapeCasts_S1_S_) (constantI S_ 32 0#32)) (ix2 r c)
      = Scalar.cmpi .sgt (w (ix1 (0 : Fin 1))) 0#32 := by
  rw [broadcastInDim_scalar_apply]
  show IntOp.cmpi .sgt (shapeCast S_ w shapeCasts_S1_S_ ix0) 0#32 = _
  rw [shapeCast_apply w shapeCasts_S1_S_ ix0 (ix1 (0 : Fin 1)) (by
    rw [Shape.rowMajor_val_one]
    exact (Shape.rowMajorPi_zero _ _).symm)]
  rfl

theorem rStep_apply (s t : RNet Ideal) (w : IVec S1 32) (st : RSt Ideal) (r : Fin 524288) :
    toStR (rStep s t w st) r
      = Cert.Flow.step (netOfR s) (netOfR t) (Scalar.cmpi .sgt (w (ix1 (0 : Fin 1))) 0#32) (toStR st r) := by
  have h0 : (rStep s t w st).x (ix2 r (0 : Fin 2))
      = Scalar.select (Scalar.cmpi .sgt (w (ix1 (0 : Fin 1))) 0#32) (Cert.Flow.yOf (netOfR s) (netOfR t) (toStR st r)) (toStR st r).xI := by
    show Scalar.select (broadcastInDim S524288x2 ![] bcast_S_S524288x2 (cmpi .sgt (shapeCast S_ w shapeCasts_S1_S_) (constantI S_ 32 0#32)) (ix2 r (0 : Fin 2)))
        (Host.reverse [1] (rCat s t st.x) (ix2 r (0 : Fin 2))) (rCat s t st.x (ix2 r (0 : Fin 2))) = _
    rw [swPred_apply, reverse_apply0, rCat_apply0, rCat_apply1]
  have h1 : (rStep s t w st).x (ix2 r (1 : Fin 2))
      = Scalar.select (Scalar.cmpi .sgt (w (ix1 (0 : Fin 1))) 0#32) (toStR st r).xI (Cert.Flow.yOf (netOfR s) (netOfR t) (toStR st r)) := by
    show Scalar.select (broadcastInDim S524288x2 ![] bcast_S_S524288x2 (cmpi .sgt (shapeCast S_ w shapeCasts_S1_S_) (constantI S_ 32 0#32)) (ix2 r (1 : Fin 2)))
        (Host.reverse [1] (rCat s t st.x) (ix2 r (1 : Fin 2))) (rCat s t st.x (ix2 r (1 : Fin 2))) = _
    rw [swPred_apply, reverse_apply1, rCat_apply0, rCat_apply1]
  have h2 : (rStep s t w st).ld (ix1 r) = (toStR st r).ld + Cert.Flow.mlp (netOfR s) (toStR st r).xI :=
    rLd_apply s st r
  show (⟨(rStep s t w st).x (ix2 r (0 : Fin 2)), (rStep s t w st).x (ix2 r (1 : Fin 2)), (rStep s t w st).ld (ix1 r)⟩ : Cert.Flow.St) = _
  rw [h0, h1, h2]
  rfl

theorem rLast_apply (s t : RNet Ideal) (st : RSt Ideal) (r : Fin 524288) :
    toStR (rLast s t st) r = Cert.Flow.last (netOfR s) (netOfR t) (toStR st r) := by
  show (⟨rCat s t st.x (ix2 r (0 : Fin 2)), rCat s t st.x (ix2 r (1 : Fin 2)), rLd s st (ix1 r)⟩ : Cert.Flow.St) = _
  rw [rCat_apply0, rCat_apply1, rLd_apply]
  rfl

section Args

variable (z : FVec Ideal S524288x2 .f32) (W0 : FVec Ideal S15x2x8x1 .f32) (B0 : FVec Ideal S15x2x8 .f32) (W1 : FVec Ideal S15x2x8x8 .f32) (B1 : FVec Ideal S15x2x8 .f32) (W2 : FVec Ideal S15x2x8x8 .f32) (B2 : FVec Ideal S15x2x8 .f32) (W3 : FVec Ideal S15x2x8x8 .f32) (B3 : FVec Ideal S15x2x8 .f32) (W4 : FVec Ideal S15x2x1x8 .f32) (B4 : FVec Ideal S15x2x1 .f32) (swaps : IVec S14 32)

theorem slW0_apply (i : Fin 15) (c : Fin 2) (j : Fin 8) :
    extractStridedSlice S1x1x8x1 ![i.val, c.val, 0, 0] W0 (slW0 i c) (ix4 (0 : Fin 1) (0 : Fin 1) j (0 : Fin 1))
      = W0 (ix4 i c j (0 : Fin 1)) :=
  extractStridedSlice_apply _ _ _ _ _ (fun a => by
    match a with
    | ⟨0, _⟩ => rfl
    | ⟨1, _⟩ => rfl
    | ⟨2, _⟩ => exact (Nat.zero_add _).symm
    | ⟨3, _⟩ => rfl)

theorem slB_apply (B : FVec Ideal S15x2x8 .f32) (i : Fin 15) (c : Fin 2) (j : Fin 8) :
    extractStridedSlice S1x1x8 ![i.val, c.val, 0] B (slB i c) (ix3 (0 : Fin 1) (0 : Fin 1) j) = B (ix3 i c j) :=
  extractStridedSlice_apply _ _ _ _ _ (fun a => by
    match a with
    | ⟨0, _⟩ => rfl
    | ⟨1, _⟩ => rfl
    | ⟨2, _⟩ => exact (Nat.zero_add _).symm)

theorem slW_apply (W : FVec Ideal S15x2x8x8 .f32) (i : Fin 15) (c : Fin 2) (j k : Fin 8) :
    extractStridedSlice S1x1x8x8 ![i.val, c.val, 0, 0] W (slW i c) (ix4 (0 : Fin 1) (0 : Fin 1) j k) = W (ix4 i c j k) :=
  extractStridedSlice_apply _ _ _ _ _ (fun a => by
    match a with
    | ⟨0, _⟩ => rfl
    | ⟨1, _⟩ => rfl
    | ⟨2, _⟩ => exact (Nat.zero_add _).symm
    | ⟨3, _⟩ => exact (Nat.zero_add _).symm)

theorem slW4_apply (i : Fin 15) (c : Fin 2) (k : Fin 8) :
    extractStridedSlice S1x1x1x8 ![i.val, c.val, 0, 0] W4 (slW4 i c) (ix4 (0 : Fin 1) (0 : Fin 1) (0 : Fin 1) k)
      = W4 (ix4 i c (0 : Fin 1) k) :=
  extractStridedSlice_apply _ _ _ _ _ (fun a => by
    match a with
    | ⟨0, _⟩ => rfl
    | ⟨1, _⟩ => rfl
    | ⟨2, _⟩ => rfl
    | ⟨3, _⟩ => exact (Nat.zero_add _).symm)

theorem slB4_apply (i : Fin 15) (c : Fin 2) :
    extractStridedSlice S1x1x1 ![i.val, c.val, 0] B4 (slB4 i c) (ix3 (0 : Fin 1) (0 : Fin 1) (0 : Fin 1))
      = B4 (ix3 i c (0 : Fin 1)) :=
  extractStridedSlice_apply _ _ _ _ _ (fun a => by
    match a with
    | ⟨0, _⟩ => rfl
    | ⟨1, _⟩ => rfl
    | ⟨2, _⟩ => rfl)

theorem rNet_netOfR (i : Fin 15) (c : Fin 2) :
    netOfR (rNet W0 B0 W1 B1 W2 B2 W3 B3 W4 B4 i c)
      = Cert.Flow.net ⟨W0, B0, W1, B1, W2, B2, W3, B3, W4, B4, swaps⟩ i c := by
  unfold netOfR rNet Cert.Flow.net
  simp only [slW0_apply, slB_apply, slW_apply, slW4_apply, slB4_apply]

theorem rSw_swapBit (i : Fin 14) :
    Scalar.cmpi .sgt (rSw swaps i (ix1 (0 : Fin 1))) 0#32
      = Cert.Flow.swapBit ⟨W0, B0, W1, B1, W2, B2, W3, B3, W4, B4, swaps⟩ i := by
  unfold rSw Cert.Flow.swapBit
  rw [extractStridedSlice_apply ![i.val] swaps (slSw i) (ix1 (0 : Fin 1)) (ix1 i) (fun a => by
    match a with
    | ⟨0, _⟩ => rfl)]

theorem rStep_stepAt (i : Fin 14) (i' : Fin 15) (hi : i' = i.castSucc) (st : RSt Ideal) (r : Fin 524288) :
    toStR (rStep (rNet W0 B0 W1 B1 W2 B2 W3 B3 W4 B4 i' 0) (rNet W0 B0 W1 B1 W2 B2 W3 B3 W4 B4 i' 1) (rSw swaps i) st) r
      = Cert.Flow.stepAt ⟨W0, B0, W1, B1, W2, B2, W3, B3, W4, B4, swaps⟩ i (toStR st r) := by
  subst hi
  rw [rStep_apply, rNet_netOfR (swaps := swaps), rNet_netOfR (swaps := swaps), rSw_swapBit W0 B0 W1 B1 W2 B2 W3 B3 W4 B4]
  rfl

theorem toStR_rInit (r : Fin 524288) :
    toStR (rInit z) r = Cert.Flow.init (z (ix2 r (0 : Fin 2))) (z (ix2 r (1 : Fin 2))) := rfl

end Args

section Final

variable (z : FVec Ideal S524288x2 .f32) (W0 : FVec Ideal S15x2x8x1 .f32) (B0 : FVec Ideal S15x2x8 .f32) (W1 : FVec Ideal S15x2x8x8 .f32) (B1 : FVec Ideal S15x2x8 .f32) (W2 : FVec Ideal S15x2x8x8 .f32) (B2 : FVec Ideal S15x2x8 .f32) (W3 : FVec Ideal S15x2x8x8 .f32) (B3 : FVec Ideal S15x2x8 .f32) (W4 : FVec Ideal S15x2x1x8 .f32) (B4 : FVec Ideal S15x2x1 .f32) (swaps : IVec S14 32)

theorem toStR_rFinal (r : Fin 524288) :
    toStR (rFinal z W0 B0 W1 B1 W2 B2 W3 B3 W4 B4 swaps) r
      = Cert.Flow.run ⟨W0, B0, W1, B1, W2, B2, W3, B3, W4, B4, swaps⟩ (Cert.Flow.init (z (ix2 r (0 : Fin 2))) (z (ix2 r (1 : Fin 2)))) := by
  unfold rFinal rChain Cert.Flow.run
  rw [rLast_apply, rNet_netOfR (swaps := swaps), rNet_netOfR (swaps := swaps),
    rStep_stepAt W0 B0 W1 B1 W2 B2 W3 B3 W4 B4 swaps 13 13 rfl,
    rStep_stepAt W0 B0 W1 B1 W2 B2 W3 B3 W4 B4 swaps 12 12 rfl,
    rStep_stepAt W0 B0 W1 B1 W2 B2 W3 B3 W4 B4 swaps 11 11 rfl,
    rStep_stepAt W0 B0 W1 B1 W2 B2 W3 B3 W4 B4 swaps 10 10 rfl,
    rStep_stepAt W0 B0 W1 B1 W2 B2 W3 B3 W4 B4 swaps 9 9 rfl,
    rStep_stepAt W0 B0 W1 B1 W2 B2 W3 B3 W4 B4 swaps 8 8 rfl,
    rStep_stepAt W0 B0 W1 B1 W2 B2 W3 B3 W4 B4 swaps 7 7 rfl,
    rStep_stepAt W0 B0 W1 B1 W2 B2 W3 B3 W4 B4 swaps 6 6 rfl,
    rStep_stepAt W0 B0 W1 B1 W2 B2 W3 B3 W4 B4 swaps 5 5 rfl,
    rStep_stepAt W0 B0 W1 B1 W2 B2 W3 B3 W4 B4 swaps 4 4 rfl,
    rStep_stepAt W0 B0 W1 B1 W2 B2 W3 B3 W4 B4 swaps 3 3 rfl,
    rStep_stepAt W0 B0 W1 B1 W2 B2 W3 B3 W4 B4 swaps 2 2 rfl,
    rStep_stepAt W0 B0 W1 B1 W2 B2 W3 B3 W4 B4 swaps 1 1 rfl,
    rStep_stepAt W0 B0 W1 B1 W2 B2 W3 B3 W4 B4 swaps 0 0 rfl,
    toStR_rInit]

theorem rFinal_x : (rFinal z W0 B0 W1 B1 W2 B2 W3 B3 W4 B4 swaps).x = Cert.Flow.outX ⟨W0, B0, W1, B1, W2, B2, W3, B3, W4, B4, swaps⟩ z := by
  funext j
  obtain ⟨r, c, rfl⟩ : ∃ r c, j = ix2 r c := ⟨j 0, j 1, eq_ix2 j⟩
  have h := toStR_rFinal z W0 B0 W1 B1 W2 B2 W3 B3 W4 B4 swaps r
  match c with
  | ⟨0, _⟩ => exact (congrArg Cert.Flow.St.xI h).trans (if_pos rfl).symm
  | ⟨1, _⟩ => exact (congrArg Cert.Flow.St.xII h).trans (if_neg Nat.one_ne_zero).symm

theorem rFinal_ld : (rFinal z W0 B0 W1 B1 W2 B2 W3 B3 W4 B4 swaps).ld = Cert.Flow.outLd ⟨W0, B0, W1, B1, W2, B2, W3, B3, W4, B4, swaps⟩ z := by
  funext j
  obtain ⟨r, rfl⟩ : ∃ r, j = ix1 r := ⟨j 0, eq_ix1 j⟩
  have h := toStR_rFinal z W0 B0 W1 B1 W2 B2 W3 B3 W4 B4 swaps r
  show (toStR (rFinal z W0 B0 W1 B1 W2 B2 W3 B3 W4 B4 swaps) r).ld
    = (Cert.Flow.run ⟨W0, B0, W1, B1, W2, B2, W3, B3, W4, B4, swaps⟩ (Cert.Flow.init (z (ix2 r (0 : Fin 2))) (z (ix2 r (1 : Fin 2))))).ld
  rw [h]

end Final

end Cert.ReferenceIdeal.RefRun

end
-- ==== Proof.RefRun.lean ====
/-
  The idealized reference's run: folded layer by layer, its host operations leave the flow of Spec.lean of the launch's
  arrays in the two result buffers and the argument arrays as launched.
-/
import proofs.«405999_j47631187312975_2_alg».proof.Proof.Spec
import proofs.«405999_j47631187312975_2_alg».proof.ReferenceIdeal
import proofs.«405999_j47631187312975_2_alg».proof.Proof.Gen.ReferenceIdeal
import proofs.«405999_j47631187312975_2_alg».proof.Proof.RefChain
import proofs.«405999_j47631187312975_2_alg».proof.Proof.RefMain
import proofs.«405999_j47631187312975_2_alg».proof.Proof.RefValue

set_option maxRecDepth 16384

noncomputable section

namespace Cert.ReferenceIdeal.FlowRun

open Cert.ReferenceIdeal Idealize.ShloMosaic Idealize.ShloMosaic.TcCoe Idealize.SL.Sem

def paramsOf (m : (ℓ : Loc nD τ sig) → Buf (Elt Ideal) ℓ) (c : Dev nD) : Cert.Flow.Params :=
  ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11)⟩

section Fold

open Cert.ReferenceIdeal.RefRun Idealize.ShloMosaic.StableHlo

variable (m : (ℓ : Loc nD τ sig) → Buf (Elt Ideal) ℓ) (c : Dev nD)

theorem after_x : after (ops (F := Ideal)) (launchContents m c) (Proc.devRef .tc main_v1660)
    = Cert.Flow.outX (paramsOf m c) (m ((c.tc : Thread nD τ).loc main_arg0)) := by
  rw [ops_eq_byLayer]
  exact (congrArg RSt.x (byLayer_at (launchContents m c)).st).trans (rFinal_x ..)

theorem after_ld : after (ops (F := Ideal)) (launchContents m c) (Proc.devRef .tc main_v1659)
    = Cert.Flow.outLd (paramsOf m c) (m ((c.tc : Thread nD τ).loc main_arg0)) := by
  rw [ops_eq_byLayer]
  exact (congrArg RSt.ld (byLayer_at (launchContents m c)).st).trans (rFinal_ld ..)

theorem after_arg (j : Fin 12) : after (ops (F := Ideal)) (launchContents m c) (Proc.devRef .tc (argRef j))
    = m ((c.tc : Thread nD τ).loc (argRef j)) := by
  rw [ops_eq_byLayer]
  exact (byLayer_at (launchContents m c)).args j

end Fold

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1660) = Cert.Flow.outX (paramsOf m c) (m ((c.tc : Thread nD τ).loc main_arg0))
      ∧ r.2.mem ((c.tc : Thread nD τ).loc main_v1659) = Cert.Flow.outLd (paramsOf m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c main_v1660).trans (after_x m c), (h c main_v1659).trans (after_ld m c),
      (h c main_arg0).trans (after_arg m c 0),
      (h c main_arg1).trans (after_arg m c 1),
      (h c main_arg2).trans (after_arg m c 2),
      (h c main_arg3).trans (after_arg m c 3),
      (h c main_arg4).trans (after_arg m c 4),
      (h c main_arg5).trans (after_arg m c 5),
      (h c main_arg6).trans (after_arg m c 6),
      (h c main_arg7).trans (after_arg m c 7),
      (h c main_arg8).trans (after_arg m c 8),
      (h c main_arg9).trans (after_arg m c 9),
      (h c main_arg10).trans (after_arg m c 10),
      (h c main_arg11).trans (after_arg m c 11)⟩)
    (Cert.ReferenceIdeal.RefRun.run_main (F := Ideal) m ρ)

end Cert.ReferenceIdeal.FlowRun

end
-- ==== Proof.lean ====
/-
  Both idealized programs compute, row by row, the fifteen-layer coupling flow of Proof/Spec.lean: the kernel block by
  block on the transposed batch, the reference layer by layer on whole arrays. They differ only in the order of the
  factors inside the nets' sums, so no finiteness of the inputs is used; and no block's position depends on a swap word.
-/
import proofs.«405999_j47631187312975_2_alg».proof.Defs
import proofs.«405999_j47631187312975_2_alg».proof.Proof.Gen.Kernel
import proofs.«405999_j47631187312975_2_alg».proof.Proof.Gen.Kernel.Frame
import proofs.«405999_j47631187312975_2_alg».proof.Proof.Gen.KernelIdeal
import proofs.«405999_j47631187312975_2_alg».proof.Proof.Gen.KernelIdeal.Frame
import proofs.«405999_j47631187312975_2_alg».proof.Proof.Gen.ReferenceIdeal
import proofs.«405999_j47631187312975_2_alg».proof.Proof.Gen.Pre_finite_inputs
import proofs.«405999_j47631187312975_2_alg».proof.Proof.KerRun
import proofs.«405999_j47631187312975_2_alg».proof.Proof.RefRun
import Idealize.ShloMosaic.Adequacy
import Idealize.ShloMosaic.Init

noncomputable section

namespace Cert.Proof

open Idealize.ShloMosaic Idealize.SL.Sem

theorem ok_bits (m : (ℓ : Loc Cert.Kernel.nD Cert.Kernel.τ Cert.Kernel.sig) → Buf (Elt Bits) ℓ) : Cert.Kernel.Gen.Ok m := by
  show Cert.Kernel.ok0 _; unfold Cert.Kernel.ok0; trivial

theorem ok_ideal (m : (ℓ : Loc Cert.KernelIdeal.nD Cert.KernelIdeal.τ Cert.KernelIdeal.sig) → Buf (Elt Ideal) ℓ) : Cert.KernelIdeal.Gen.Ok m := by
  show Cert.KernelIdeal.ok0 _; unfold Cert.KernelIdeal.ok0; trivial

theorem frame_k : Cert.frame_Kernel (hKernel := Cert.Kernel.Gen.facts) (hPre_finite_inputs := Cert.Pre_finite_inputs.Gen.facts) :=
  fun m ρ _ => Cert.Kernel.Gen.frame m ρ (ok_bits m)

theorem frame_ki : Cert.frame_KernelIdeal (hKernelIdeal := Cert.KernelIdeal.Gen.facts) (hPre_finite_inputs := Cert.Pre_finite_inputs.Gen.facts) :=
  fun m ρ _ => Cert.KernelIdeal.Gen.frame m ρ (ok_ideal m)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2)
    (Cert.ReferenceIdeal.FlowRun.run m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Flow.outX (Cert.KernelIdeal.FlowRun.paramsOf m c) (m ((c.tc : Thread Cert.KernelIdeal.nD Cert.KernelIdeal.τ).loc Cert.KernelIdeal.main_arg0)),
    fun c => Cert.Flow.outLd (Cert.KernelIdeal.FlowRun.paramsOf m c) (m ((c.tc : Thread Cert.KernelIdeal.nD Cert.KernelIdeal.τ).loc Cert.KernelIdeal.main_arg0)),
    Cert.KernelIdeal.FlowRun.run m ρ (ok_ideal m), ?_⟩
  refine (θ_run (Cert.ReferenceIdeal.defs (F := Ideal)) _ _).mono (fun r h c => ?_) (Cert.ReferenceIdeal.FlowRun.run m' ρ')
  obtain ⟨a0, a1, a2, a3, a4, a5, a6, a7, a8, a9, a10, a11⟩ := hagree c
  have hp : Cert.ReferenceIdeal.FlowRun.paramsOf m' c = Cert.KernelIdeal.FlowRun.paramsOf m c := by
    unfold Cert.ReferenceIdeal.FlowRun.paramsOf Cert.KernelIdeal.FlowRun.paramsOf
    rw [a1, a2, a3, a4, a5, a6, a7, a8, a9, a10, a11]
  refine ⟨?_, ?_, (h c).2.2⟩
  · rw [(h c).1, hp, a0]
  · rw [(h c).2.1, hp, a0]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
